-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S4096x16 : Shape := ⟨2, ![4096, 16]⟩
abbrev S4096x4096 : Shape := ⟨2, ![4096, 4096]⟩
abbrev S2048x2048 : Shape := ⟨2, ![2048, 2048]⟩
abbrev S2048x4096 : Shape := ⟨2, ![2048, 4096]⟩
abbrev S128x128 : Shape := ⟨2, ![128, 128]⟩
abbrev S1x16 : Shape := ⟨2, ![1, 16]⟩
abbrev S128 : Shape := ⟨1, ![128]⟩
abbrev S16x16 : Shape := ⟨2, ![16, 16]⟩
abbrev S1x256 : Shape := ⟨2, ![1, 256]⟩
abbrev S16 : Shape := ⟨1, ![16]⟩
abbrev S256x128 : Shape := ⟨2, ![256, 128]⟩
abbrev S1x32 : Shape := ⟨2, ![1, 32]⟩
abbrev S32x16 : Shape := ⟨2, ![32, 16]⟩
abbrev S1x128 : Shape := ⟨2, ![1, 128]⟩
abbrev S128x64 : Shape := ⟨2, ![128, 64]⟩
abbrev S64 : Shape := ⟨1, ![64]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S128x128 : S_.BroadcastsInDim S128x128 (![] : Fin 0 → Fin S128x128.rank)
  reducesTo_S128x128_S_d0_1 : S128x128.ReducesTo [0, 1] S_
  bcast_S_S1x16 : S_.BroadcastsInDim S1x16 (![] : Fin 0 → Fin S1x16.rank)
  reducesTo_S1x16_S_d0_1 : S1x16.ReducesTo [0, 1] S_
  bcast_S_S128 : S_.BroadcastsInDim S128 (![] : Fin 0 → Fin S128.rank)
  reducesTo_S128_S_d0 : S128.ReducesTo [0] S_
  bcast_S_S16x16 : S_.BroadcastsInDim S16x16 (![] : Fin 0 → Fin S16x16.rank)
  reducesTo_S16x16_S_d0_1 : S16x16.ReducesTo [0, 1] S_
  bcast_S_S1x256 : S_.BroadcastsInDim S1x256 (![] : Fin 0 → Fin S1x256.rank)
  reducesTo_S1x256_S_d0_1 : S1x256.ReducesTo [0, 1] S_
  bcast_S_S16 : S_.BroadcastsInDim S16 (![] : Fin 0 → Fin S16.rank)
  reducesTo_S16_S_d0 : S16.ReducesTo [0] S_
  bcast_S_S256x128 : S_.BroadcastsInDim S256x128 (![] : Fin 0 → Fin S256x128.rank)
  reducesTo_S256x128_S_d0_1 : S256x128.ReducesTo [0, 1] S_
  bcast_S_S1x32 : S_.BroadcastsInDim S1x32 (![] : Fin 0 → Fin S1x32.rank)
  reducesTo_S1x32_S_d0_1 : S1x32.ReducesTo [0, 1] S_
  bcast_S_S32x16 : S_.BroadcastsInDim S32x16 (![] : Fin 0 → Fin S32x16.rank)
  reducesTo_S32x16_S_d0_1 : S32x16.ReducesTo [0, 1] S_
  bcast_S_S1x128 : S_.BroadcastsInDim S1x128 (![] : Fin 0 → Fin S1x128.rank)
  reducesTo_S1x128_S_d0_1 : S1x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part7 {F : FTy → Type} [FloatOps F] (main_arg25 : FVec F S64 .f32) (main_v118 : IVec S_ 1) (main_v119 : FVec F S1x16 .f32) : IVec S_ 1 :=
  let main_cst_46 : FVec F S_ .f32 := constant S_ .f32 0x7F800000#32
  let main_v120 : FVec F S1x16 .f32 := broadcastInDim S1x16 ![] bcast_S_S1x16 main_cst_46
  let main_v121 : IVec S1x16 1 := cmpf .olt main_v119 main_v120
  let main_c_47 : IVec S_ 1 := constantI S_ 1 1#1
  let main_v122 : IVec S_ 1 := (fun x v => Host.reduce IntOp.andi x v reducesTo_S1x16_S_d0_1 h_S_) main_v121 main_c_47
  let main_v123 : IVec S_ 1 := andi main_v118 main_v122
  let main_v124 : FVec F S64 .f32 := Host.absf main_arg25
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  main_v128

def fn_part6 {F : FTy → Type} [FloatOps F] (main_arg21 : FVec F S1x128 .f32) (main_arg22 : FVec F S16 .f32) (main_arg23 : FVec F S128x64 .f32) (main_arg24 : FVec F S1x16 .f32) (main_arg25 : FVec F S64 .f32) (main_v98 : IVec S_ 1) (main_v101 : IVec S32x16 1) (main_c_39 : IVec S_ 1) : IVec S_ 1 :=
  let main_v102 : IVec S_ 1 := (fun x v => Host.reduce IntOp.andi x v reducesTo_S32x16_S_d0_1 h_S_) main_v101 main_c_39
  let main_v103 : IVec S_ 1 := andi main_v98 main_v102
  let main_v104 : FVec F S1x128 .f32 := Host.absf main_arg21
  let main_cst_40 : FVec F S_ .f32 := constant S_ .f32 0x7F800000#32
  let main_v105 : FVec F S1x128 .f32 := broadcastInDim S1x128 ![] bcast_S_S1x128 main_cst_40
  let main_v106 : IVec S1x128 1 := cmpf .olt main_v104 main_v105
  let main_c_41 : IVec S_ 1 := constantI S_ 1 1#1
  let main_v107 : IVec S_ 1 := (fun x v => Host.reduce IntOp.andi x v reducesTo_S1x128_S_d0_1 h_S_) main_v106 main_c_41
  let main_v108 : IVec S_ 1 := andi main_v103 main_v107
  let main_v109 : FVec F S16 .f32 := Host.absf main_arg22
  let main_cst_42 : FVec F S_ .f32 := constant S_ .f32 0x7F800000#32
  let main_v110 : FVec F S16 .f32 := broadcastInDim S16 ![] bcast_S_S16 main_cst_42
  let main_v111 : IVec S16 1 := cmpf .olt main_v109 main_v110
  let main_c_43 : IVec S_ 1 := constantI S_ 1 1#1
  let main_v112 : IVec S_ 1 := (fun x v => Host.reduce IntOp.andi x v reducesTo_S16_S_d0 h_S_) main_v111 main_c_43
  let main_v113 : IVec S_ 1 := andi main_v108 main_v112
  let main_v114 : FVec F S128x64 .f32 := Host.absf main_arg23
  let main_cst_44 : FVec F S_ .f32 := constant S_ .f32 0x7F800000#32
  let main_v115 : FVec F S128x64 .f32 := broadcastInDim S128x64 ![] bcast_S_S128x64 main_cst_44
  let main_v116 : IVec S128x64 1 := cmpf .olt main_v114 main_v115
  let main_c_45 : IVec S_ 1 := constantI S_ 1 1#1
  let main_v117 : IVec S_ 1 := (fun x v => Host.reduce IntOp.andi x v reducesTo_S128x64_S_d0_1 h_S_) main_v116 main_c_45
  let main_v118 : IVec S_ 1 := andi main_v113 main_v117
  let main_v119 : FVec F S1x16 .f32 := Host.absf main_arg24
  fn_part7 (F := F) main_arg25 main_v118 main_v119

def fn_part5 {F : FTy → Type} [FloatOps F] (main_arg18 : FVec F S1x32 .f32) (main_arg19 : FVec F S128 .f32) (main_arg20 : FVec F S32x16 .f32) (main_arg21 : FVec F S1x128 .f32) (main_arg22 : FVec F S16 .f32) (main_arg23 : FVec F S128x64 .f32) (main_arg24 : FVec F S1x16 .f32) (main_arg25 : FVec F S64 .f32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S1x32 .f32 := Host.absf main_arg18
  let main_cst_34 : FVec F S_ .f32 := constant S_ .f32 0x7F800000#32
  let main_v90 : FVec F S1x32 .f32 := broadcastInDim S1x32 ![] bcast_S_S1x32 main_cst_34
  let main_v91 : IVec S1x32 1 := cmpf .olt main_v89 main_v90
  let main_c_35 : IVec S_ 1 := constantI S_ 1 1#1
  let main_v92 : IVec S_ 1 := (fun x v => Host.reduce IntOp.andi x v reducesTo_S1x32_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S32x16 .f32 := Host.absf main_arg20
  let main_cst_38 : FVec F S_ .f32 := constant S_ .f32 0x7F800000#32
  let main_v100 : FVec F S32x16 .f32 := broadcastInDim S32x16 ![] bcast_S_S32x16 main_cst_38
  let main_v101 : IVec S32x16 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S16x16 .f32) (main_arg15 : FVec F S16 .f32) (main_arg16 : FVec F S16 .f32) (main_arg17 : FVec F S256x128 .f32) (main_arg18 : FVec F S1x32 .f32) (main_arg19 : FVec F S128 .f32) (main_arg20 : FVec F S32x16 .f32) (main_arg21 : FVec F S1x128 .f32) (main_arg22 : FVec F S16 .f32) (main_arg23 : FVec F S128x64 .f32) (main_arg24 : FVec F S1x16 .f32) (main_arg25 : FVec F S64 .f32) (main_v63 : IVec S_ 1) (main_v67 : IVec S_ 1) : IVec S_ 1 :=
  let main_v68 : IVec S_ 1 := andi main_v63 main_v67
  let main_v69 : FVec F S16x16 .f32 := Host.absf main_arg14
  let main_cst_26 : FVec F S_ .f32 := constant S_ .f32 0x7F800000#32
  let main_v70 : FVec F S16x16 .f32 := broadcastInDim S16x16 ![] bcast_S_S16x16 main_cst_26
  let main_v71 : IVec S16x16 1 := cmpf .olt main_v69 main_v70
  let main_c_27 : IVec S_ 1 := constantI S_ 1 1#1
  let main_v72 : IVec S_ 1 := (fun x v => Host.reduce IntOp.andi x v reducesTo_S16x16_S_d0_1 h_S_) main_v71 main_c_27
  let main_v73 : IVec S_ 1 := andi main_v68 main_v72
  let main_v74 : FVec F S16 .f32 := Host.absf main_arg15
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S16 .f32 := Host.absf main_arg16
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S256x128 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S16x16 .f32) (main_arg12 : FVec F S1x256 .f32) (main_arg13 : FVec F S16 .f32) (main_arg14 : FVec F S16x16 .f32) (main_arg15 : FVec F S16 .f32) (main_arg16 : FVec F S16 .f32) (main_arg17 : FVec F S256x128 .f32) (main_arg18 : FVec F S1x32 .f32) (main_arg19 : FVec F S128 .f32) (main_arg20 : FVec F S32x16 .f32) (main_arg21 : FVec F S1x128 .f32) (main_arg22 : FVec F S16 .f32) (main_arg23 : FVec F S128x64 .f32) (main_arg24 : FVec F S1x16 .f32) (main_arg25 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S16x16 .f32 := Host.absf main_arg11
  let main_cst_20 : FVec F S_ .f32 := constant S_ .f32 0x7F800000#32
  let main_v55 : FVec F S16x16 .f32 := broadcastInDim S16x16 ![] bcast_S_S16x16 main_cst_20
  let main_v56 : IVec S16x16 1 := cmpf .olt main_v54 main_v55
  let main_c_21 : IVec S_ 1 := constantI S_ 1 1#1
  let main_v57 : IVec S_ 1 := (fun x v => Host.reduce IntOp.andi x v reducesTo_S16x16_S_d0_1 h_S_) main_v56 main_c_21
  let main_v58 : IVec S_ 1 := andi main_v53 main_v57
  let main_v59 : FVec F S1x256 .f32 := Host.absf main_arg12
  let main_cst_22 : FVec F S_ .f32 := constant S_ .f32 0x7F800000#32
  let main_v60 : FVec F S1x256 .f32 := broadcastInDim S1x256 ![] bcast_S_S1x256 main_cst_22
  let main_v61 : IVec S1x256 1 := cmpf .olt main_v59 main_v60
  let main_c_23 : IVec S_ 1 := constantI S_ 1 1#1
  let main_v62 : IVec S_ 1 := (fun x v => Host.reduce IntOp.andi x v reducesTo_S1x256_S_d0_1 h_S_) main_v61 main_c_23
  let main_v63 : IVec S_ 1 := andi main_v58 main_v62
  let main_v64 : FVec F S16 .f32 := Host.absf main_arg13
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S128 .f32) (main_arg8 : FVec F S128x128 .f32) (main_arg9 : FVec F S128 .f32) (main_arg10 : FVec F S128 .f32) (main_arg11 : FVec F S16x16 .f32) (main_arg12 : FVec F S1x256 .f32) (main_arg13 : FVec F S16 .f32) (main_arg14 : FVec F S16x16 .f32) (main_arg15 : FVec F S16 .f32) (main_arg16 : FVec F S16 .f32) (main_arg17 : FVec F S256x128 .f32) (main_arg18 : FVec F S1x32 .f32) (main_arg19 : FVec F S128 .f32) (main_arg20 : FVec F S32x16 .f32) (main_arg21 : FVec F S1x128 .f32) (main_arg22 : FVec F S16 .f32) (main_arg23 : FVec F S128x64 .f32) (main_arg24 : FVec F S1x16 .f32) (main_arg25 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S2048x4096 .f32) (main_arg5 : FVec F S128x128 .f32) (main_arg6 : FVec F S1x16 .f32) (main_arg7 : FVec F S128 .f32) (main_arg8 : FVec F S128x128 .f32) (main_arg9 : FVec F S128 .f32) (main_arg10 : FVec F S128 .f32) (main_arg11 : FVec F S16x16 .f32) (main_arg12 : FVec F S1x256 .f32) (main_arg13 : FVec F S16 .f32) (main_arg14 : FVec F S16x16 .f32) (main_arg15 : FVec F S16 .f32) (main_arg16 : FVec F S16 .f32) (main_arg17 : FVec F S256x128 .f32) (main_arg18 : FVec F S1x32 .f32) (main_arg19 : FVec F S128 .f32) (main_arg20 : FVec F S32x16 .f32) (main_arg21 : FVec F S1x128 .f32) (main_arg22 : FVec F S16 .f32) (main_arg23 : FVec F S128x64 .f32) (main_arg24 : FVec F S1x16 .f32) (main_arg25 : FVec F S64 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x4096 .f32 := Host.absf main_arg4
  let main_cst_6 : FVec F S_ .f32 := constant S_ .f32 0x7F800000#32
  let main_v20 : FVec F S2048x4096 .f32 := broadcastInDim S2048x4096 ![] bcast_S_S2048x4096 main_cst_6
  let main_v21 : IVec S2048x4096 1 := cmpf .olt main_v19 main_v20
  let main_c_7 : IVec S_ 1 := constantI S_ 1 1#1
  let main_v22 : IVec S_ 1 := (fun x v => Host.reduce IntOp.andi x v reducesTo_S2048x4096_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S1x16 .f32 := Host.absf main_arg6
  let main_cst_10 : FVec F S_ .f32 := constant S_ .f32 0x7F800000#32
  let main_v30 : FVec F S1x16 .f32 := broadcastInDim S1x16 ![] bcast_S_S1x16 main_cst_10
  let main_v31 : IVec S1x16 1 := cmpf .olt main_v29 main_v30
  let main_c_11 : IVec S_ 1 := constantI S_ 1 1#1
  let main_v32 : IVec S_ 1 := (fun x v => Host.reduce IntOp.andi x v reducesTo_S1x16_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S2048x128 .f32) (main_arg1 : FVec F S4096x16 .f32) (main_arg2 : FVec F S4096x4096 .f32) (main_arg3 : FVec F S2048x2048 .f32) (main_arg4 : FVec F S2048x4096 .f32) (main_arg5 : FVec F S128x128 .f32) (main_arg6 : FVec F S1x16 .f32) (main_arg7 : FVec F S128 .f32) (main_arg8 : FVec F S128x128 .f32) (main_arg9 : FVec F S128 .f32) (main_arg10 : FVec F S128 .f32) (main_arg11 : FVec F S16x16 .f32) (main_arg12 : FVec F S1x256 .f32) (main_arg13 : FVec F S16 .f32) (main_arg14 : FVec F S16x16 .f32) (main_arg15 : FVec F S16 .f32) (main_arg16 : FVec F S16 .f32) (main_arg17 : FVec F S256x128 .f32) (main_arg18 : FVec F S1x32 .f32) (main_arg19 : FVec F S128 .f32) (main_arg20 : FVec F S32x16 .f32) (main_arg21 : FVec F S1x128 .f32) (main_arg22 : FVec F S16 .f32) (main_arg23 : FVec F S128x64 .f32) (main_arg24 : FVec F S1x16 .f32) (main_arg25 : FVec F S64 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S2048x128 : Shape := ⟨2, ![2048, 128]⟩
abbrev S4096x16 : Shape := ⟨2, ![4096, 16]⟩
abbrev S4096x4096 : Shape := ⟨2, ![4096, 4096]⟩
abbrev S2048x2048 : Shape := ⟨2, ![2048, 2048]⟩
abbrev S2048x4096 : Shape := ⟨2, ![2048, 4096]⟩
abbrev S128x128 : Shape := ⟨2, ![128, 128]⟩
abbrev S1x16 : Shape := ⟨2, ![1, 16]⟩
abbrev S128 : Shape := ⟨1, ![128]⟩
abbrev S16x16 : Shape := ⟨2, ![16, 16]⟩
abbrev S1x256 : Shape := ⟨2, ![1, 256]⟩
abbrev S16 : Shape := ⟨1, ![16]⟩
abbrev S256x128 : Shape := ⟨2, ![256, 128]⟩
abbrev S1x32 : Shape := ⟨2, ![1, 32]⟩
abbrev S32x16 : Shape := ⟨2, ![32, 16]⟩
abbrev S1x128 : Shape := ⟨2, ![1, 128]⟩
abbrev S128x64 : Shape := ⟨2, ![128, 64]⟩
abbrev S64 : Shape := ⟨1, ![64]⟩
abbrev S4096x2048 : Shape := ⟨2, ![4096, 2048]⟩
abbrev S1x4096 : Shape := ⟨2, ![1, 4096]⟩
abbrev S2048 : Shape := ⟨1, ![2048]⟩
abbrev S2048x1 : Shape := ⟨2, ![2048, 1]⟩
abbrev S2048x256 : Shape := ⟨2, ![2048, 256]⟩
abbrev S256x4096 : Shape := ⟨2, ![256, 4096]⟩
abbrev S1x2048 : Shape := ⟨2, ![1, 2048]⟩
abbrev S4096 : Shape := ⟨1, ![4096]⟩
abbrev S4096x1 : Shape := ⟨2, ![4096, 1]⟩
abbrev S4096x256 : Shape := ⟨2, ![4096, 256]⟩
abbrev S256x2048 : Shape := ⟨2, ![256, 2048]⟩
abbrev S256x16 : Shape := ⟨2, ![256, 16]⟩
abbrev S4096x32 : Shape := ⟨2, ![4096, 32]⟩
abbrev S2048x64 : Shape := ⟨2, ![2048, 64]⟩
abbrev S1x64 : Shape := ⟨2, ![1, 64]⟩
abbrev S256x64 : Shape := ⟨2, ![256, 64]⟩

abbrev nBuf : Space → Nat
  | .hbm => 55
  | .vmem => 73
  | .smem => 0
  | _ => 0

abbrev bufTy : (tb : Table) → Fin (tcTables nBuf tb) → BufTy
  | .hbm, ⟨0, _⟩ => ⟨S2048x128, .f32⟩
  | .hbm, ⟨1, _⟩ => ⟨S4096x16, .f32⟩
  | .hbm, ⟨2, _⟩ => ⟨S4096x4096, .f32⟩
  | .hbm, ⟨3, _⟩ => ⟨S2048x2048, .f32⟩
  | .hbm, ⟨4, _⟩ => ⟨S2048x4096, .f32⟩
  | .hbm, ⟨5, _⟩ => ⟨S128x128, .f32⟩
  | .hbm, ⟨6, _⟩ => ⟨S1x16, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S16x16, .f32⟩
  | .hbm, ⟨12, _⟩ => ⟨S1x256, .f32⟩
  | .hbm, ⟨13, _⟩ => ⟨S16, .f32⟩
  | .hbm, ⟨14, _⟩ => ⟨S16x16, .f32⟩
  | .hbm, ⟨15, _⟩ => ⟨S16, .f32⟩
  | .hbm, ⟨16, _⟩ => ⟨S16, .f32⟩
  | .hbm, ⟨17, _⟩ => ⟨S256x128, .f32⟩
  | .hbm, ⟨18, _⟩ => ⟨S1x32, .f32⟩
  | .hbm, ⟨19, _⟩ => ⟨S128, .f32⟩
  | .hbm, ⟨20, _⟩ => ⟨S32x16, .f32⟩
  | .hbm, ⟨21, _⟩ => ⟨S1x128, .f32⟩
  | .hbm, ⟨22, _⟩ => ⟨S16, .f32⟩
  | .hbm, ⟨23, _⟩ => ⟨S128x64, .f32⟩
  | .hbm, ⟨24, _⟩ => ⟨S1x16, .f32⟩
  | .hbm, ⟨25, _⟩ => ⟨S64, .f32⟩
  | .hbm, ⟨26, _⟩ => ⟨S4096x2048, .f32⟩
  | .hbm, ⟨27, _⟩ => ⟨S1x128, .f32⟩
  | .hbm, ⟨28, _⟩ => ⟨S1x128, .f32⟩
  | .hbm, ⟨29, _⟩ => ⟨S1x4096, .f32⟩
  | .hbm, ⟨30, _⟩ => ⟨S2048x128, .f32⟩
  | .hbm, ⟨31, _⟩ => ⟨S2048x128, .f32⟩
  | .hbm, ⟨32, _⟩ => ⟨S1x128, .f32⟩
  | .hbm, ⟨33, _⟩ => ⟨S2048x128, .f32⟩
  | .hbm, ⟨34, _⟩ => ⟨S2048x256, .f32⟩
  | .hbm, ⟨35, _⟩ => ⟨S1x16, .f32⟩
  | .hbm, ⟨36, _⟩ => ⟨S1x16, .f32⟩
  | .hbm, ⟨37, _⟩ => ⟨S1x2048, .f32⟩
  | .hbm, ⟨38, _⟩ => ⟨S4096x16, .f32⟩
  | .hbm, ⟨39, _⟩ => ⟨S4096x16, .f32⟩
  | .hbm, ⟨40, _⟩ => ⟨S1x16, .f32⟩
  | .hbm, ⟨41, _⟩ => ⟨S4096x16, .f32⟩
  | .hbm, ⟨42, _⟩ => ⟨S4096x32, .f32⟩
  | .hbm, ⟨43, _⟩ => ⟨S1x4096, .f32⟩
  | .hbm, ⟨44, _⟩ => ⟨S2048x128, .f32⟩
  | .hbm, ⟨45, _⟩ => ⟨S1x128, .f32⟩
  | .hbm, ⟨46, _⟩ => ⟨S2048x128, .f32⟩
  | .hbm, ⟨47, _⟩ => ⟨S1x2048, .f32⟩
  | .hbm, ⟨48, _⟩ => ⟨S4096x16, .f32⟩
  | .hbm, ⟨49, _⟩ => ⟨S1x16, .f32⟩
  | .hbm, ⟨50, _⟩ => ⟨S4096x16, .f32⟩
  | .hbm, ⟨51, _⟩ => ⟨S1x4096, .f32⟩
  | .hbm, ⟨52, _⟩ => ⟨S2048x64, .f32⟩
  | .hbm, ⟨53, _⟩ => ⟨S1x64, .f32⟩
  | .hbm, ⟨54, _⟩ => ⟨S2048x64, .f32⟩
  | .local _ .vmem, ⟨0, _⟩ => ⟨S2048x128, .f32⟩
  | .local _ .vmem, ⟨1, _⟩ => ⟨S4096x16, .f32⟩
  | .local _ .vmem, ⟨2, _⟩ => ⟨S128x128, .f32⟩
  | .local _ .vmem, ⟨3, _⟩ => ⟨S1x16, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x4096, .f32⟩
  | .local _ .vmem, ⟨8, _⟩ => ⟨S2048x128, .f32⟩
  | .local _ .vmem, ⟨9, _⟩ => ⟨S2048x128, .f32⟩
  | .local _ .vmem, ⟨10, _⟩ => ⟨S1x4096, .f32⟩
  | .local _ .vmem, ⟨11, _⟩ => ⟨S2048x4096, .f32⟩
  | .local _ .vmem, ⟨12, _⟩ => ⟨S2048x256, .f32⟩
  | .local _ .vmem, ⟨13, _⟩ => ⟨S2048x256, .f32⟩
  | .local _ .vmem, ⟨14, _⟩ => ⟨S2048x128, .f32⟩
  | .local _ .vmem, ⟨15, _⟩ => ⟨S1x128, .f32⟩
  | .local _ .vmem, ⟨16, _⟩ => ⟨S2048x128, .f32⟩
  | .local _ .vmem, ⟨17, _⟩ => ⟨S2048x256, .f32⟩
  | .local _ .vmem, ⟨18, _⟩ => ⟨S4096x16, .f32⟩
  | .local _ .vmem, ⟨19, _⟩ => ⟨S16x16, .f32⟩
  | .local _ .vmem, ⟨20, _⟩ => ⟨S1x256, .f32⟩
  | .local _ .vmem, ⟨21, _⟩ => ⟨S16x16, .f32⟩
  | .local _ .vmem, ⟨22, _⟩ => ⟨S1x16, .f32⟩
  | .local _ .vmem, ⟨23, _⟩ => ⟨S1x16, .f32⟩
  | .local _ .vmem, ⟨24, _⟩ => ⟨S1x2048, .f32⟩
  | .local _ .vmem, ⟨25, _⟩ => ⟨S4096x16, .f32⟩
  | .local _ .vmem, ⟨26, _⟩ => ⟨S4096x16, .f32⟩
  | .local _ .vmem, ⟨27, _⟩ => ⟨S1x2048, .f32⟩
  | .local _ .vmem, ⟨28, _⟩ => ⟨S4096x2048, .f32⟩
  | .local _ .vmem, ⟨29, _⟩ => ⟨S4096x256, .f32⟩
  | .local _ .vmem, ⟨30, _⟩ => ⟨S4096x256, .f32⟩
  | .local _ .vmem, ⟨31, _⟩ => ⟨S4096x16, .f32⟩
  | .local _ .vmem, ⟨32, _⟩ => ⟨S1x16, .f32⟩
  | .local _ .vmem, ⟨33, _⟩ => ⟨S4096x16, .f32⟩
  | .local _ .vmem, ⟨34, _⟩ => ⟨S2048x256, .f32⟩
  | .local _ .vmem, ⟨35, _⟩ => ⟨S4096x32, .f32⟩
  | .local _ .vmem, ⟨36, _⟩ => ⟨S256x128, .f32⟩
  | .local _ .vmem, ⟨37, _⟩ => ⟨S1x32, .f32⟩
  | .local _ .vmem, ⟨38, _⟩ => ⟨S1x4096, .f32⟩
  | .local _ .vmem, ⟨39, _⟩ => ⟨S2048x128, .f32⟩
  | .local _ .vmem, ⟨40, _⟩ => ⟨S1x4096, .f32⟩
  | .local _ .vmem, ⟨41, _⟩ => ⟨S2048x4096, .f32⟩
  | .local _ .vmem, ⟨42, _⟩ => ⟨S2048x256, .f32⟩
  | .local _ .vmem, ⟨43, _⟩ => ⟨S2048x256, .f32⟩
  | .local _ .vmem, ⟨44, _⟩ => ⟨S2048x128, .f32⟩
  | .local _ .vmem, ⟨45, _⟩ => ⟨S1x128, .f32⟩
  | .local _ .vmem, ⟨46, _⟩ => ⟨S2048x128, .f32⟩
  | .local _ .vmem, ⟨47, _⟩ => ⟨S2048x128, .f32⟩
  | .local _ .vmem, ⟨48, _⟩ => ⟨S4096x32, .f32⟩
  | .local _ .vmem, ⟨49, _⟩ => ⟨S32x16, .f32⟩
  | .local _ .vmem, ⟨50, _⟩ => ⟨S1x128, .f32⟩
  | .local _ .vmem, ⟨51, _⟩ => ⟨S1x2048, .f32⟩
  | .local _ .vmem, ⟨52, _⟩ => ⟨S4096x16, .f32⟩
  | .local _ .vmem, ⟨53, _⟩ => ⟨S1x2048, .f32⟩
  | .local _ .vmem, ⟨54, _⟩ => ⟨S4096x2048, .f32⟩
  | .local _ .vmem, ⟨55, _⟩ => ⟨S4096x256, .f32⟩
  | .local _ .vmem, ⟨56, _⟩ => ⟨S4096x256, .f32⟩
  | .local _ .vmem, ⟨57, _⟩ => ⟨S4096x16, .f32⟩
  | .local _ .vmem, ⟨58, _⟩ => ⟨S1x16, .f32⟩
  | .local _ .vmem, ⟨59, _⟩ => ⟨S4096x16, .f32⟩
  | .local _ .vmem, ⟨60, _⟩ => ⟨S2048x128, .f32⟩
  | .local _ .vmem, ⟨61, _⟩ => ⟨S4096x16, .f32⟩
  | .local _ .vmem, ⟨62, _⟩ => ⟨S128x64, .f32⟩
  | .local _ .vmem, ⟨63, _⟩ => ⟨S1x16, .f32⟩
  | .local _ .vmem, ⟨64, _⟩ => ⟨S1x4096, .f32⟩
  | .local _ .vmem, ⟨65, _⟩ => ⟨S2048x64, .f32⟩
  | .local _ .vmem, ⟨66, _⟩ => ⟨S1x4096, .f32⟩
  | .local _ .vmem, ⟨67, _⟩ => ⟨S2048x4096, .f32⟩
  | .local _ .vmem, ⟨68, _⟩ => ⟨S2048x256, .f32⟩
  | .local _ .vmem, ⟨69, _⟩ => ⟨S2048x256, .f32⟩
  | .local _ .vmem, ⟨70, _⟩ => ⟨S2048x64, .f32⟩
  | .local _ .vmem, ⟨71, _⟩ => ⟨S1x64, .f32⟩
  | .local _ .vmem, ⟨72, _⟩ => ⟨S2048x64, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  ofTc nBuf bufTy 0 73 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3_0 : Ref sig .tc := ⟨.hbm, 29, rfl⟩
abbrev main_v3_1 : Ref sig .tc := ⟨.hbm, 30, rfl⟩
abbrev main_v3_2 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9_0 : Ref sig .tc := ⟨.hbm, 37, rfl⟩
abbrev main_v9_1 : Ref sig .tc := ⟨.hbm, 38, rfl⟩
abbrev main_v9_2 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13_0 : Ref sig .tc := ⟨.hbm, 43, rfl⟩
abbrev main_v13_1 : Ref sig .tc := ⟨.hbm, 44, rfl⟩
abbrev main_v14 : Ref sig .tc := ⟨.hbm, 45, rfl⟩
abbrev main_v15 : Ref sig .tc := ⟨.hbm, 46, rfl⟩
abbrev main_v16_0 : Ref sig .tc := ⟨.hbm, 47, rfl⟩
abbrev main_v16_1 : Ref sig .tc := ⟨.hbm, 48, rfl⟩
abbrev main_v17 : Ref sig .tc := ⟨.hbm, 49, rfl⟩
abbrev main_v18 : Ref sig .tc := ⟨.hbm, 50, rfl⟩
abbrev main_v19_0 : Ref sig .tc := ⟨.hbm, 51, rfl⟩
abbrev main_v19_1 : Ref sig .tc := ⟨.hbm, 52, rfl⟩
abbrev main_v20 : Ref sig .tc := ⟨.hbm, 53, rfl⟩
abbrev main_v21 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc4_stg0_0 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc5_stg0_0 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc6_stg0_0 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc7_stg0_0 : Ref sig .tc := ⟨.vmem, 53, rfl⟩
abbrev cc7_stg1_0 : Ref sig .tc := ⟨.vmem, 54, rfl⟩
abbrev cc7_stg2_0 : Ref sig .tc := ⟨.vmem, 55, rfl⟩
abbrev cc7_stg2_1 : Ref sig .tc := ⟨.vmem, 56, rfl⟩
abbrev cc7_stg3_0 : Ref sig .tc := ⟨.vmem, 57, rfl⟩
abbrev cc7_stg4_0 : Ref sig .tc := ⟨.vmem, 58, rfl⟩
abbrev cc7_stg5_0 : Ref sig .tc := ⟨.vmem, 59, rfl⟩
abbrev cc8_stg0_0 : Ref sig .tc := ⟨.vmem, 60, rfl⟩
abbrev cc8_stg1_0 : Ref sig .tc := ⟨.vmem, 61, rfl⟩
abbrev cc8_stg2_0 : Ref sig .tc := ⟨.vmem, 62, rfl⟩
abbrev cc8_stg3_0 : Ref sig .tc := ⟨.vmem, 63, rfl⟩
abbrev cc8_stg4_0 : Ref sig .tc := ⟨.vmem, 64, rfl⟩
abbrev cc8_stg5_0 : Ref sig .tc := ⟨.vmem, 65, rfl⟩
abbrev cc9_stg0_0 : Ref sig .tc := ⟨.vmem, 66, rfl⟩
abbrev cc9_stg1_0 : Ref sig .tc := ⟨.vmem, 67, rfl⟩
abbrev cc9_stg2_0 : Ref sig .tc := ⟨.vmem, 68, rfl⟩
abbrev cc9_stg2_1 : Ref sig .tc := ⟨.vmem, 69, rfl⟩
abbrev cc9_stg3_0 : Ref sig .tc := ⟨.vmem, 70, rfl⟩
abbrev cc9_stg4_0 : Ref sig .tc := ⟨.vmem, 71, rfl⟩
abbrev cc9_stg5_0 : Ref sig .tc := ⟨.vmem, 72, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc2_sem0_0 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc3_sem0_0 : DmaSem sig := 27
abbrev cc3_sem1_0 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc4_sem0_0 : DmaSem sig := 34
abbrev cc4_sem1_0 : DmaSem sig := 35
abbrev cc4_sem2_0 : DmaSem sig := 36
abbrev cc4_sem3_0 : DmaSem sig := 37
abbrev cc4_sem4_0 : DmaSem sig := 38
abbrev cc4_sem5_0 : DmaSem sig := 39
abbrev cc5_sem0_0 : DmaSem sig := 40
abbrev cc5_sem1_0 : DmaSem sig := 41
abbrev cc5_sem2_0 : DmaSem sig := 42
abbrev cc5_sem2_1 : DmaSem sig := 43
abbrev cc5_sem3_0 : DmaSem sig := 44
abbrev cc5_sem4_0 : DmaSem sig := 45
abbrev cc5_sem5_0 : DmaSem sig := 46
abbrev cc6_sem0_0 : DmaSem sig := 47
abbrev cc6_sem1_0 : DmaSem sig := 48
abbrev cc6_sem2_0 : DmaSem sig := 49
abbrev cc6_sem3_0 : DmaSem sig := 50
abbrev cc6_sem4_0 : DmaSem sig := 51
abbrev cc6_sem5_0 : DmaSem sig := 52
abbrev cc7_sem0_0 : DmaSem sig := 53
abbrev cc7_sem1_0 : DmaSem sig := 54
abbrev cc7_sem2_0 : DmaSem sig := 55
abbrev cc7_sem2_1 : DmaSem sig := 56
abbrev cc7_sem3_0 : DmaSem sig := 57
abbrev cc7_sem4_0 : DmaSem sig := 58
abbrev cc7_sem5_0 : DmaSem sig := 59
abbrev cc8_sem0_0 : DmaSem sig := 60
abbrev cc8_sem1_0 : DmaSem sig := 61
abbrev cc8_sem2_0 : DmaSem sig := 62
abbrev cc8_sem3_0 : DmaSem sig := 63
abbrev cc8_sem4_0 : DmaSem sig := 64
abbrev cc8_sem5_0 : DmaSem sig := 65
abbrev cc9_sem0_0 : DmaSem sig := 66
abbrev cc9_sem1_0 : DmaSem sig := 67
abbrev cc9_sem2_0 : DmaSem sig := 68
abbrev cc9_sem2_1 : DmaSem sig := 69
abbrev cc9_sem3_0 : DmaSem sig := 70
abbrev cc9_sem4_0 : DmaSem sig := 71
abbrev cc9_sem5_0 : DmaSem sig := 72

abbrev nD : Nat := 1
abbrev τ : Topo := Topo.v7x

variable {F : FTy → Type} [FloatOps F]

abbrev grid0 : Pipeline.Grid := .none

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨1, ![8], ![false]⟩

def k1_off1 (i : grid1.Coords) : Fin 2 → Nat :=
  let arg0 : BitVec 32 := BitVec.ofNat 32 (i 0).val
  let c256_i32 : BitVec 32 := 256#32
  let v0 : BitVec 32 := Scalar.muli arg0 c256_i32
  let v1 : Index := Scalar.indexCast v0
  let c0 : Index := 0#32
  ![v1.toNat, 0]
def k1_off2 (i : grid1.Coords) : Fin 2 → Nat :=
  let arg0 : BitVec 32 := BitVec.ofNat 32 (i 0).val
  let c256_i32_7 : BitVec 32 := 256#32
  let v18 : BitVec 32 := Scalar.muli arg0 c256_i32_7
  let v19 : Index := Scalar.indexCast v18
  let c0_8 : Index := 0#32
  ![v19.toNat, 0]
def k1_cond1 (i : grid1.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_10 : BitVec 32 := 0#32
  let v25 : BitVec 1 := Scalar.cmpi .ne v24 c0_i32_10
  v25

def k1_cond2 (i : grid1.Coords) : BitVec 1 :=
  let arg0 : BitVec 32 := BitVec.ofNat 32 (i 0).val
  let c0_i32_11 : BitVec 32 := 0#32
  let v26 : BitVec 1 := Scalar.cmpi .sgt arg0 c0_i32_11
  let v27 : BitVec 32 := Scalar.extui v26
  let c0_i32_12 : BitVec 32 := 0#32
  let v28 : BitVec 1 := Scalar.cmpi .ne v27 c0_i32_12
  v28

def k1_cond3 (i : grid1.Coords) : BitVec 1 :=
  let arg0 : BitVec 32 := BitVec.ofNat 32 (i 0).val
  let c7_i32 : BitVec 32 := 7#32
  let v29 : BitVec 1 := Scalar.cmpi .eq arg0 c7_i32
  let v30 : BitVec 32 := Scalar.extui v29
  let c0_i32_13 : BitVec 32 := 0#32
  let v31 : BitVec 1 := Scalar.cmpi .ne v30 c0_i32_13
  v31

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2048x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := .none

abbrev stage2_0 : Fin 1 → Memref sig .tc .vmem S2048x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4096x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S16x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S16x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x2048 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S4096x16 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S4096x16 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev grid3 : Pipeline.Grid := ⟨1, ![16], ![false]⟩

def k3_off1 (i : grid3.Coords) : Fin 2 → Nat :=
  let arg0 : BitVec 32 := BitVec.ofNat 32 (i 0).val
  let c256_i32 : BitVec 32 := 256#32
  let v0 : BitVec 32 := Scalar.muli arg0 c256_i32
  let v1 : Index := Scalar.indexCast v0
  let c0 : Index := 0#32
  ![v1.toNat, 0]
def k3_off2 (i : grid3.Coords) : Fin 2 → Nat :=
  let arg0 : BitVec 32 := BitVec.ofNat 32 (i 0).val
  let c256_i32_7 : BitVec 32 := 256#32
  let v20 : BitVec 32 := Scalar.muli arg0 c256_i32_7
  let v21 : Index := Scalar.indexCast v20
  let c0_8 : Index := 0#32
  ![v21.toNat, 0]
def k3_cond1 (i : grid3.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_10 : BitVec 32 := 0#32
  let v27 : BitVec 1 := Scalar.cmpi .ne v26 c0_i32_10
  v27

def k3_cond2 (i : grid3.Coords) : BitVec 1 :=
  let arg0 : BitVec 32 := BitVec.ofNat 32 (i 0).val
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .ne v29 c0_i32_12
  v30

def k3_cond3 (i : grid3.Coords) : BitVec 1 :=
  let arg0 : BitVec 32 := BitVec.ofNat 32 (i 0).val
  let c15_i32 : BitVec 32 := 15#32
  let v31 : BitVec 1 := Scalar.cmpi .eq arg0 c15_i32
  let v32 : BitVec 32 := Scalar.extui v31
  let c0_i32_13 : BitVec 32 := 0#32
  let v33 : BitVec 1 := Scalar.cmpi .ne v32 c0_i32_13
  v33

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S4096x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4096x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S4096x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S4096x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := .none

abbrev stage4_0 : Fin 1 → Memref sig .tc .vmem S2048x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S4096x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S1x4096 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S2048x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev grid5 : Pipeline.Grid := ⟨1, ![8], ![false]⟩

def k5_off1 (i : grid5.Coords) : Fin 2 → Nat :=
  let arg0 : BitVec 32 := BitVec.ofNat 32 (i 0).val
  let c256_i32 : BitVec 32 := 256#32
  let v0 : BitVec 32 := Scalar.muli arg0 c256_i32
  let v1 : Index := Scalar.indexCast v0
  let c0 : Index := 0#32
  ![v1.toNat, 0]
def k5_off2 (i : grid5.Coords) : Fin 2 → Nat :=
  let arg0 : BitVec 32 := BitVec.ofNat 32 (i 0).val
  let c256_i32_7 : BitVec 32 := 256#32
  let v18 : BitVec 32 := Scalar.muli arg0 c256_i32_7
  let v19 : Index := Scalar.indexCast v18
  let c0_8 : Index := 0#32
  ![v19.toNat, 0]
def k5_cond1 (i : grid5.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_10 : BitVec 32 := 0#32
  let v25 : BitVec 1 := Scalar.cmpi .ne v24 c0_i32_10
  v25

def k5_cond2 (i : grid5.Coords) : BitVec 1 :=
  let arg0 : BitVec 32 := BitVec.ofNat 32 (i 0).val
  let c0_i32_11 : BitVec 32 := 0#32
  let v26 : BitVec 1 := Scalar.cmpi .sgt arg0 c0_i32_11
  let v27 : BitVec 32 := Scalar.extui v26
  let c0_i32_12 : BitVec 32 := 0#32
  let v28 : BitVec 1 := Scalar.cmpi .ne v27 c0_i32_12
  v28

def k5_cond3 (i : grid5.Coords) : BitVec 1 :=
  let arg0 : BitVec 32 := BitVec.ofNat 32 (i 0).val
  let c7_i32 : BitVec 32 := 7#32
  let v29 : BitVec 1 := Scalar.cmpi .eq arg0 c7_i32
  let v30 : BitVec 32 := Scalar.extui v29
  let c0_i32_13 : BitVec 32 := 0#32
  let v31 : BitVec 1 := Scalar.cmpi .ne v30 c0_i32_13
  v31

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S1x4096 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S2048x4096 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2048x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S2048x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S2048x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev grid6 : Pipeline.Grid := .none

abbrev stage6_0 : Fin 1 → Memref sig .tc .vmem S2048x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S4096x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S32x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev stage6_4 : Fin 1 → Memref sig .tc .vmem S1x2048 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))

abbrev stage6_5 : Fin 1 → Memref sig .tc .vmem S4096x16 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))

abbrev grid7 : Pipeline.Grid := ⟨1, ![16], ![false]⟩

def k7_off1 (i : grid7.Coords) : Fin 2 → Nat :=
  let arg0 : BitVec 32 := BitVec.ofNat 32 (i 0).val
  let c256_i32 : BitVec 32 := 256#32
  let v0 : BitVec 32 := Scalar.muli arg0 c256_i32
  let v1 : Index := Scalar.indexCast v0
  let c0 : Index := 0#32
  ![v1.toNat, 0]
def k7_off2 (i : grid7.Coords) : Fin 2 → Nat :=
  let arg0 : BitVec 32 := BitVec.ofNat 32 (i 0).val
  let c256_i32_7 : BitVec 32 := 256#32
  let v20 : BitVec 32 := Scalar.muli arg0 c256_i32_7
  let v21 : Index := Scalar.indexCast v20
  let c0_8 : Index := 0#32
  ![v21.toNat, 0]
def k7_cond1 (i : grid7.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_10 : BitVec 32 := 0#32
  let v27 : BitVec 1 := Scalar.cmpi .ne v26 c0_i32_10
  v27

def k7_cond2 (i : grid7.Coords) : BitVec 1 :=
  let arg0 : BitVec 32 := BitVec.ofNat 32 (i 0).val
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .ne v29 c0_i32_12
  v30

def k7_cond3 (i : grid7.Coords) : BitVec 1 :=
  let arg0 : BitVec 32 := BitVec.ofNat 32 (i 0).val
  let c15_i32 : BitVec 32 := 15#32
  let v31 : BitVec 1 := Scalar.cmpi .eq arg0 c15_i32
  let v32 : BitVec 32 := Scalar.extui v31
  let c0_i32_13 : BitVec 32 := 0#32
  let v33 : BitVec 1 := Scalar.cmpi .ne v32 c0_i32_13
  v33

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S1x2048 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S4096x2048 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S4096x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S4096x16 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x16 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S4096x16 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev grid8 : Pipeline.Grid := .none

abbrev stage8_0 : Fin 1 → Memref sig .tc .vmem S2048x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))

abbrev stage8_1 : Fin 1 → Memref sig .tc .vmem S4096x16 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))

abbrev stage8_2 : Fin 1 → Memref sig .tc .vmem S128x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))

abbrev stage8_3 : Fin 1 → Memref sig .tc .vmem S1x16 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))

abbrev stage8_4 : Fin 1 → Memref sig .tc .vmem S1x4096 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))

abbrev stage8_5 : Fin 1 → Memref sig .tc .vmem S2048x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))

abbrev grid9 : Pipeline.Grid := ⟨1, ![8], ![false]⟩

def k9_off1 (i : grid9.Coords) : Fin 2 → Nat :=
  let arg0 : BitVec 32 := BitVec.ofNat 32 (i 0).val
  let c256_i32 : BitVec 32 := 256#32
  let v0 : BitVec 32 := Scalar.muli arg0 c256_i32
  let v1 : Index := Scalar.indexCast v0
  let c0 : Index := 0#32
  ![v1.toNat, 0]
def k9_off2 (i : grid9.Coords) : Fin 2 → Nat :=
  let arg0 : BitVec 32 := BitVec.ofNat 32 (i 0).val
  let c256_i32_7 : BitVec 32 := 256#32
  let v18 : BitVec 32 := Scalar.muli arg0 c256_i32_7
  let v19 : Index := Scalar.indexCast v18
  let c0_8 : Index := 0#32
  ![v19.toNat, 0]
def k9_cond1 (i : grid9.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_10 : BitVec 32 := 0#32
  let v25 : BitVec 1 := Scalar.cmpi .ne v24 c0_i32_10
  v25

def k9_cond2 (i : grid9.Coords) : BitVec 1 :=
  let arg0 : BitVec 32 := BitVec.ofNat 32 (i 0).val
  let c0_i32_11 : BitVec 32 := 0#32
  let v26 : BitVec 1 := Scalar.cmpi .sgt arg0 c0_i32_11
  let v27 : BitVec 32 := Scalar.extui v26
  let c0_i32_12 : BitVec 32 := 0#32
  let v28 : BitVec 1 := Scalar.cmpi .ne v27 c0_i32_12
  v28

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S1x4096 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S2048x4096 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2048x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S2048x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S2048x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

class Facts₀ : Prop where
  transposes_S2048x4096_S4096x2048_1_0 : S2048x4096.Transposes [1, 0] S4096x2048
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  inb_S4096x16_S4096x16_0_0 : ∀ a, (![0, 0] : Fin 2 → Nat) a + S4096x16.size a ≤ S4096x16.size a
  h_S4096x16 : 0 < S4096x16.numel
  inb_S1x16_S1x16_0_0 : ∀ a, (![0, 0] : Fin 2 → Nat) a + S1x16.size a ≤ S1x16.size a
  h_S1x16 : 0 < S1x16.numel
  inb_S1x4096_S1x4096_0_0 : ∀ a, (![0, 0] : Fin 2 → Nat) a + S1x4096.size a ≤ S1x4096.size a
  h_S1x4096 : 0 < S1x4096.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S2048x128_S2048 : S2048x128.Reduces [1] S2048
  shapeCasts_S2048_S2048x1 : S2048.ShapeCasts S2048x1
  broadcasts_S2048x1_S2048x128 : S2048x1.Broadcasts S2048x128
  broadcasts_S1x128_S2048x128 : S1x128.Broadcasts S2048x128
  h_S256x4096 : 0 < S256x4096.numel
  shapeCasts_S1x4096_S1x4096 : S1x4096.ShapeCasts S1x4096
  broadcasts_S1x4096_S256x4096 : S1x4096.Broadcasts S256x4096
  inb_S2048x4096_S2048x4096_0_0 : ∀ a, (![0, 0] : Fin 2 → Nat) a + S2048x4096.size a ≤ S2048x4096.size a
  h_S2048x4096 : 0 < S2048x4096.numel
  inb_S2048x256_S2048x256_0_0 : ∀ a, (![0, 0] : Fin 2 → Nat) a + S2048x256.size a ≤ S2048x256.size a
  h_S2048x256 : 0 < S2048x256.numel
  iota_S2048x256_d0_w32 : S2048x256.Iotas .tc 32 [0]
  iota_S2048x256_d1_w32 : S2048x256.Iotas .tc 32 [1]
  h_S256x128 : 0 < S256x128.numel
  shapeCasts_S256x128_S256x128 : S256x128.ShapeCasts S256x128
  shapeCasts_S2048x128_S2048x128 : S2048x128.ShapeCasts S2048x128
  concatenates_S2048x128_S2048x128_S2048x256_d1 : Shape.Concatenates [S2048x128, S2048x128] S2048x256 1
  shapeCasts_S16_S1x16 : S16.ShapeCasts S1x16
  inb_S1x256_S1x256_0_0 : ∀ a, (![0, 0] : Fin 2 → Nat) a + S1x256.size a ≤ S1x256.size a
  h_S1x256 : 0 < S1x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  inb_S16x16_S16x16_0_0 : ∀ a, (![0, 0] : Fin 2 → Nat) a + S16x16.size a ≤ S16x16.size a
  h_S16x16 : 0 < S16x16.numel
  shapeCasts_S1x16_S1x16 : S1x16.ShapeCasts S1x16
  reduces_S4096x16_S4096 : S4096x16.Reduces [1] S4096
  shapeCasts_S4096_S4096x1 : S4096.ShapeCasts S4096x1
  broadcasts_S4096x1_S4096x16 : S4096x1.Broadcasts S4096x16
  broadcasts_S1x16_S4096x16 : S1x16.Broadcasts S4096x16
  h_S256x2048 : 0 < S256x2048.numel
  shapeCasts_S256x2048_S256x2048 : S256x2048.ShapeCasts S256x2048
  shapeCasts_S1x2048_S1x2048 : S1x2048.ShapeCasts S1x2048
  broadcasts_S1x2048_S256x2048 : S1x2048.Broadcasts S256x2048
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S4096x256_S4096x256_0_0 : ∀ a, (![0, 0] : Fin 2 → Nat) a + S4096x256.size a ≤ S4096x256.size a
  h_S4096x256 : 0 < S4096x256.numel
  iota_S4096x256_d0_w32 : S4096x256.Iotas .tc 32 [0]
  iota_S4096x256_d1_w32 : S4096x256.Iotas .tc 32 [1]
  h_S256x16 : 0 < S256x16.numel
  shapeCasts_S256x16_S256x16 : S256x16.ShapeCasts S256x16
  shapeCasts_S4096x16_S4096x16 : S4096x16.ShapeCasts S4096x16
  concatenates_S4096x16_S4096x16_S4096x32_d1 : Shape.Concatenates [S4096x16, S4096x16] S4096x32 1
  inb_S1x32_S1x32_0_0 : ∀ a, (![0, 0] : Fin 2 → Nat) a + S1x32.size a ≤ S1x32.size a
  h_S1x32 : 0 < S1x32.numel
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S256x128_S256x128_0_0 : ∀ a, (![0, 0] : Fin 2 → Nat) a + S256x128.size a ≤ S256x128.size a
  inb_S32x16_S32x16_0_0 : ∀ a, (![0, 0] : Fin 2 → Nat) a + S32x16.size a ≤ S32x16.size a
  h_S32x16 : 0 < S32x16.numel
  inb_S128x64_S128x64_0_0 : ∀ a, (![0, 0] : Fin 2 → Nat) a + S128x64.size a ≤ S128x64.size a
  h_S128x64 : 0 < S128x64.numel
  inb_S2048x64_S2048x64_0_0 : ∀ a, (![0, 0] : Fin 2 → Nat) a + S2048x64.size a ≤ S2048x64.size a
  h_S2048x64 : 0 < S2048x64.numel
  shapeCasts_S64_S1x64 : S64.ShapeCasts S1x64
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  shapeCasts_S2048x64_S2048x64 : S2048x64.ShapeCasts S2048x64
  dot_S1x16_S4096x16_S1x4096_1_1_0_0_n_n_wf : DotDims.WF S1x16 S4096x16 S1x4096 [1] [1] [0] [0] [] []
  dot_S2048x128_S128x128_S2048x128_1_0_0_1_n_n_wf : DotDims.WF S2048x128 S128x128 S2048x128 [1] [0] [0] [1] [] []
  dot_S2048x4096_S256x4096_S2048x256_1_1_0_0_n_n_wf : DotDims.WF S2048x4096 S256x4096 S2048x256 [1] [1] [0] [0] [] []
  dot_S2048x256_S256x128_S2048x128_1_0_0_1_n_n_wf : DotDims.WF S2048x256 S256x128 S2048x128 [1] [0] [0] [1] [] []
  dot_S1x256_S2048x256_S1x2048_1_1_0_0_n_n_wf : DotDims.WF S1x256 S2048x256 S1x2048 [1] [1] [0] [0] [] []
  dot_S4096x16_S16x16_S4096x16_1_0_0_1_n_n_wf : DotDims.WF S4096x16 S16x16 S4096x16 [1] [0] [0] [1] [] []
  dot_S4096x2048_S256x2048_S4096x256_1_1_0_0_n_n_wf : DotDims.WF S4096x2048 S256x2048 S4096x256 [1] [1] [0] [0] [] []
  dot_S4096x256_S256x16_S4096x16_1_0_0_1_n_n_wf : DotDims.WF S4096x256 S256x16 S4096x16 [1] [0] [0] [1] [] []
  dot_S1x32_S4096x32_S1x4096_1_1_0_0_n_n_wf : DotDims.WF S1x32 S4096x32 S1x4096 [1] [1] [0] [0] [] []
  dot_S1x128_S2048x128_S1x2048_1_1_0_0_n_n_wf : DotDims.WF S1x128 S2048x128 S1x2048 [1] [1] [0] [0] [] []
  dot_S4096x32_S32x16_S4096x16_1_0_0_1_n_n_wf : DotDims.WF S4096x32 S32x16 S4096x16 [1] [0] [0] [1] [] []
  dot_S2048x128_S128x64_S2048x64_1_0_0_1_n_n_wf : DotDims.WF S2048x128 S128x64 S2048x64 [1] [0] [0] [1] [] []
  dot_S2048x256_S256x64_S2048x64_1_0_0_1_n_n_wf : DotDims.WF S2048x256 S256x64 S2048x64 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hrank1 : 0 < grid1.rank
  k1_off1_inb : ∀ i : grid1.Coords, ∀ a, (k1_off1 i) a + S256x4096.size a ≤ S2048x4096.size a
  k1_off2_inb : ∀ i : grid1.Coords, ∀ a, (k1_off2 i) a + S256x128.size a ≤ S2048x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x4096.size a
  hwx1_0 : ∀ i : grid1.Coords, EltTy.bits .f32 = 32 ∨ (Rect.block (s := S1x4096) S1x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x4096.size a ≤ S2048x4096.size a
  hwx1_1 : ∀ i : grid1.Coords, EltTy.bits .f32 = 32 ∨ (Rect.block (s := S2048x4096) S2048x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S2048x2048.size a
  hwx1_2 : ∀ i : grid1.Coords, EltTy.bits .f32 = 32 ∨ (Rect.block (s := S2048x2048) S2048x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S2048x128.size a
  hwx1_3 : ∀ i : grid1.Coords, EltTy.bits .f32 = 32 ∨ (Rect.block (s := S2048x128) S2048x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x128.size a ≤ S2048x128.size a
  hwx1_5 : ∀ i : grid1.Coords, EltTy.bits .f32 = 32 ∨ (Rect.block (s := S2048x128) S2048x128.size (cc1_transform_5 i) (hinb1_5 i)).WholeWords (EltTy.packing .f32)
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole
  hstage2_5 : ∀ j, (stage2_5 j).IsWhole
  hstage2_6 : ∀ j, (stage2_6 j).IsWhole
  hstage2_7 : ∀ j, (stage2_7 j).IsWhole
  hstage2_8 : ∀ j, (stage2_8 j).IsWhole
  hstage2_9 : ∀ j, (stage2_9 j).IsWhole
  hrank3 : 0 < grid3.rank
  k3_off1_inb : ∀ i : grid3.Coords, ∀ a, (k3_off1 i) a + S256x2048.size a ≤ S4096x2048.size a
  k3_off2_inb : ∀ i : grid3.Coords, ∀ a, (k3_off2 i) a + S256x16.size a ≤ S4096x16.size a
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x2048.size a ≤ S1x2048.size a
  hwx3_0 : ∀ i : grid3.Coords, EltTy.bits .f32 = 32 ∨ (Rect.block (s := S1x2048) S1x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x2048.size a ≤ S4096x2048.size a
  hwx3_1 : ∀ i : grid3.Coords, EltTy.bits .f32 = 32 ∨ (Rect.block (s := S4096x2048) S4096x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x256.size a ≤ S4096x4096.size a
  hwx3_2 : ∀ i : grid3.Coords, EltTy.bits .f32 = 32 ∨ (Rect.block (s := S4096x4096) S4096x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S4096x16.size a ≤ S4096x16.size a
  hwx3_3 : ∀ i : grid3.Coords, EltTy.bits .f32 = 32 ∨ (Rect.block (s := S4096x16) S4096x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S4096x16.size a ≤ S4096x16.size a
  hwx3_5 : ∀ i : grid3.Coords, EltTy.bits .f32 = 32 ∨ (Rect.block (s := S4096x16) S4096x16.size (cc3_transform_5 i) (hinb3_5 i)).WholeWords (EltTy.packing .f32)
  hstage4_0 : ∀ j, (stage4_0 j).IsWhole
  hstage4_1 : ∀ j, (stage4_1 j).IsWhole
  hstage4_2 : ∀ j, (stage4_2 j).IsWhole
  hstage4_3 : ∀ j, (stage4_3 j).IsWhole
  hstage4_4 : ∀ j, (stage4_4 j).IsWhole
  hstage4_5 : ∀ j, (stage4_5 j).IsWhole
  hrank5 : 0 < grid5.rank
  k5_off1_inb : ∀ i : grid5.Coords, ∀ a, (k5_off1 i) a + S256x4096.size a ≤ S2048x4096.size a
  k5_off2_inb : ∀ i : grid5.Coords, ∀ a, (k5_off2 i) a + S256x128.size a ≤ S2048x128.size a
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1x4096.size a ≤ S1x4096.size a
  hwx5_0 : ∀ i : grid5.Coords, EltTy.bits .f32 = 32 ∨ (Rect.block (s := S1x4096) S1x4096.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2048x4096.size a ≤ S2048x4096.size a
  hwx5_1 : ∀ i : grid5.Coords, EltTy.bits .f32 = 32 ∨ (Rect.block (s := S2048x4096) S2048x4096.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x256.size a ≤ S2048x2048.size a
  hwx5_2 : ∀ i : grid5.Coords, EltTy.bits .f32 = 32 ∨ (Rect.block (s := S2048x2048) S2048x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S2048x128.size a ≤ S2048x128.size a
  hwx5_3 : ∀ i : grid5.Coords, EltTy.bits .f32 = 32 ∨ (Rect.block (s := S2048x128) S2048x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S2048x128.size a ≤ S2048x128.size a
  hwx5_5 : ∀ i : grid5.Coords, EltTy.bits .f32 = 32 ∨ (Rect.block (s := S2048x128) S2048x128.size (cc5_transform_5 i) (hinb5_5 i)).WholeWords (EltTy.packing .f32)
  hstage6_0 : ∀ j, (stage6_0 j).IsWhole
  hstage6_1 : ∀ j, (stage6_1 j).IsWhole
  hstage6_2 : ∀ j, (stage6_2 j).IsWhole
  hstage6_3 : ∀ j, (stage6_3 j).IsWhole
  hstage6_4 : ∀ j, (stage6_4 j).IsWhole
  hstage6_5 : ∀ j, (stage6_5 j).IsWhole
  hrank7 : 0 < grid7.rank
  k7_off1_inb : ∀ i : grid7.Coords, ∀ a, (k7_off1 i) a + S256x2048.size a ≤ S4096x2048.size a
  k7_off2_inb : ∀ i : grid7.Coords, ∀ a, (k7_off2 i) a + S256x16.size a ≤ S4096x16.size a
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S1x2048.size a ≤ S1x2048.size a
  hwx7_0 : ∀ i : grid7.Coords, EltTy.bits .f32 = 32 ∨ (Rect.block (s := S1x2048) S1x2048.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S4096x2048.size a ≤ S4096x2048.size a
  hwx7_1 : ∀ i : grid7.Coords, EltTy.bits .f32 = 32 ∨ (Rect.block (s := S4096x2048) S4096x2048.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4096x256.size a ≤ S4096x4096.size a
  hwx7_2 : ∀ i : grid7.Coords, EltTy.bits .f32 = 32 ∨ (Rect.block (s := S4096x4096) S4096x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S4096x16.size a ≤ S4096x16.size a
  hwx7_3 : ∀ i : grid7.Coords, EltTy.bits .f32 = 32 ∨ (Rect.block (s := S4096x16) S4096x16.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x16.size a ≤ S1x16.size a
  hwx7_4 : ∀ i : grid7.Coords, EltTy.bits .f32 = 32 ∨ (Rect.block (s := S1x16) S1x16.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S4096x16.size a ≤ S4096x16.size a
  hwx7_5 : ∀ i : grid7.Coords, EltTy.bits .f32 = 32 ∨ (Rect.block (s := S4096x16) S4096x16.size (cc7_transform_5 i) (hinb7_5 i)).WholeWords (EltTy.packing .f32)
  hstage8_0 : ∀ j, (stage8_0 j).IsWhole
  hstage8_1 : ∀ j, (stage8_1 j).IsWhole
  hstage8_2 : ∀ j, (stage8_2 j).IsWhole
  hstage8_3 : ∀ j, (stage8_3 j).IsWhole
  hstage8_4 : ∀ j, (stage8_4 j).IsWhole
  hstage8_5 : ∀ j, (stage8_5 j).IsWhole
  hrank9 : 0 < grid9.rank
  k9_off1_inb : ∀ i : grid9.Coords, ∀ a, (k9_off1 i) a + S256x4096.size a ≤ S2048x4096.size a
  k9_off2_inb : ∀ i : grid9.Coords, ∀ a, (k9_off2 i) a + S256x64.size a ≤ S2048x64.size a
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S1x4096.size a ≤ S1x4096.size a
  hwx9_0 : ∀ i : grid9.Coords, EltTy.bits .f32 = 32 ∨ (Rect.block (s := S1x4096) S1x4096.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S2048x4096.size a ≤ S2048x4096.size a
  hwx9_1 : ∀ i : grid9.Coords, EltTy.bits .f32 = 32 ∨ (Rect.block (s := S2048x4096) S2048x4096.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2048x256.size a ≤ S2048x2048.size a
  hwx9_2 : ∀ i : grid9.Coords, EltTy.bits .f32 = 32 ∨ (Rect.block (s := S2048x2048) S2048x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S2048x64.size a ≤ S2048x64.size a
  hwx9_3 : ∀ i : grid9.Coords, EltTy.bits .f32 = 32 ∨ (Rect.block (s := S2048x64) S2048x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S2048x64.size a ≤ S2048x64.size a
  hwx9_5 : ∀ i : grid9.Coords, EltTy.bits .f32 = 32 ∨ (Rect.block (s := S2048x64) S2048x64.size (cc9_transform_5 i) (hinb9_5 i)).WholeWords (EltTy.packing .f32)

variable [Facts₀]

def dot_S1x16_S4096x16_S1x4096_1_1_0_0_n_n : DotDims S1x16 S4096x16 S1x4096 where
  lhsContracting := [1]
  rhsContracting := [1]
  lhsNonContracting := [0]
  rhsNonContracting := [0]
  lhsBatch := []
  rhsBatch := []
  wf := dot_S1x16_S4096x16_S1x4096_1_1_0_0_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x4096_S256x4096_S2048x256_1_1_0_0_n_n : DotDims S2048x4096 S256x4096 S2048x256 where
  lhsContracting := [1]
  rhsContracting := [1]
  lhsNonContracting := [0]
  rhsNonContracting := [0]
  lhsBatch := []
  rhsBatch := []
  wf := dot_S2048x4096_S256x4096_S2048x256_1_1_0_0_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S1x256_S2048x256_S1x2048_1_1_0_0_n_n : DotDims S1x256 S2048x256 S1x2048 where
  lhsContracting := [1]
  rhsContracting := [1]
  lhsNonContracting := [0]
  rhsNonContracting := [0]
  lhsBatch := []
  rhsBatch := []
  wf := dot_S1x256_S2048x256_S1x2048_1_1_0_0_n_n_wf
def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf
def dot_S4096x2048_S256x2048_S4096x256_1_1_0_0_n_n : DotDims S4096x2048 S256x2048 S4096x256 where
  lhsContracting := [1]
  rhsContracting := [1]
  lhsNonContracting := [0]
  rhsNonContracting := [0]
  lhsBatch := []
  rhsBatch := []
  wf := dot_S4096x2048_S256x2048_S4096x256_1_1_0_0_n_n_wf
def dot_S4096x256_S256x16_S4096x16_1_0_0_1_n_n : DotDims S4096x256 S256x16 S4096x16 where
  lhsContracting := [1]
  rhsContracting := [0]
  lhsNonContracting := [0]
  rhsNonContracting := [1]
  lhsBatch := []
  rhsBatch := []
  wf := dot_S4096x256_S256x16_S4096x16_1_0_0_1_n_n_wf
def dot_S1x32_S4096x32_S1x4096_1_1_0_0_n_n : DotDims S1x32 S4096x32 S1x4096 where
  lhsContracting := [1]
  rhsContracting := [1]
  lhsNonContracting := [0]
  rhsNonContracting := [0]
  lhsBatch := []
  rhsBatch := []
  wf := dot_S1x32_S4096x32_S1x4096_1_1_0_0_n_n_wf
def dot_S1x128_S2048x128_S1x2048_1_1_0_0_n_n : DotDims S1x128 S2048x128 S1x2048 where
  lhsContracting := [1]
  rhsContracting := [1]
  lhsNonContracting := [0]
  rhsNonContracting := [0]
  lhsBatch := []
  rhsBatch := []
  wf := dot_S1x128_S2048x128_S1x2048_1_1_0_0_n_n_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg5) false false (stage0_2 0) (sem0_2 0) (Memref.isWhole_whole _) (hstage0_2 0)

abbrev win0_3 : Pipeline.Window sig grid0 :=
  Pipeline.Window.whole (Memref.whole main_arg6) false false (stage0_3 0) (sem0_3 0) (Memref.isWhole_whole _) (hstage0_3 0)

abbrev win0_4 : Pipeline.Window sig grid0 :=
  Pipeline.Window.whole (Memref.whole main_arg8) false false (stage0_4 0) (sem0_4 0) (Memref.isWhole_whole _) (hstage0_4 0)

abbrev win0_5 : Pipeline.Window sig grid0 :=
  Pipeline.Window.whole (Memref.whole main_v1) false false (stage0_5 0) (sem0_5 0) (Memref.isWhole_whole _) (hstage0_5 0)

abbrev win0_6 : Pipeline.Window sig grid0 :=
  Pipeline.Window.whole (Memref.whole main_v2) false false (stage0_6 0) (sem0_6 0) (Memref.isWhole_whole _) (hstage0_6 0)

abbrev win0_7 : Pipeline.Window sig grid0 :=
  Pipeline.Window.whole (Memref.whole main_v3_0) true false (stage0_7 0) (sem0_7 0) (Memref.isWhole_whole _) (hstage0_7 0)

abbrev win0_8 : Pipeline.Window sig grid0 :=
  Pipeline.Window.whole (Memref.whole main_v3_1) true false (stage0_8 0) (sem0_8 0) (Memref.isWhole_whole _) (hstage0_8 0)

abbrev win0_9 : Pipeline.Window sig grid0 :=
  Pipeline.Window.whole (Memref.whole main_v3_2) true false (stage0_9 0) (sem0_9 0) (Memref.isWhole_whole _) (hstage0_9 0)

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v3_0) S1x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S2048x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S2048x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S2048x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond1 i == 1#1) && !(k1_cond2 i == 1#1) && !(k1_cond3 i == 1#1) | ⟨_ + 6, h⟩ => absurd h (Nat.not_lt.2 (Nat.le_add_left _ _))

abbrev win2_0 : Pipeline.Window sig grid2 :=
  Pipeline.Window.whole (Memref.whole main_v6) false false (stage2_0 0) (sem2_0 0) (Memref.isWhole_whole _) (hstage2_0 0)

abbrev win2_1 : Pipeline.Window sig grid2 :=
  Pipeline.Window.whole (Memref.whole main_arg1) false false (stage2_1 0) (sem2_1 0) (Memref.isWhole_whole _) (hstage2_1 0)

abbrev win2_2 : Pipeline.Window sig grid2 :=
  Pipeline.Window.whole (Memref.whole main_arg11) false false (stage2_2 0) (sem2_2 0) (Memref.isWhole_whole _) (hstage2_2 0)

abbrev win2_3 : Pipeline.Window sig grid2 :=
  Pipeline.Window.whole (Memref.whole main_arg12) false false (stage2_3 0) (sem2_3 0) (Memref.isWhole_whole _) (hstage2_3 0)

abbrev win2_4 : Pipeline.Window sig grid2 :=
  Pipeline.Window.whole (Memref.whole main_arg14) false false (stage2_4 0) (sem2_4 0) (Memref.isWhole_whole _) (hstage2_4 0)

abbrev win2_5 : Pipeline.Window sig grid2 :=
  Pipeline.Window.whole (Memref.whole main_v7) false false (stage2_5 0) (sem2_5 0) (Memref.isWhole_whole _) (hstage2_5 0)

abbrev win2_6 : Pipeline.Window sig grid2 :=
  Pipeline.Window.whole (Memref.whole main_v8) false false (stage2_6 0) (sem2_6 0) (Memref.isWhole_whole _) (hstage2_6 0)

abbrev win2_7 : Pipeline.Window sig grid2 :=
  Pipeline.Window.whole (Memref.whole main_v9_0) true false (stage2_7 0) (sem2_7 0) (Memref.isWhole_whole _) (hstage2_7 0)

abbrev win2_8 : Pipeline.Window sig grid2 :=
  Pipeline.Window.whole (Memref.whole main_v9_1) true false (stage2_8 0) (sem2_8 0) (Memref.isWhole_whole _) (hstage2_8 0)

abbrev win2_9 : Pipeline.Window sig grid2 :=
  Pipeline.Window.whole (Memref.whole main_v9_2) true false (stage2_9 0) (sem2_9 0) (Memref.isWhole_whole _) (hstage2_9 0)

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v9_0) S1x2048.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v0) S4096x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg2) S4096x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v9_1) S4096x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v10) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v11) S4096x16.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond1 i == 1#1) && !(k3_cond2 i == 1#1) && !(k3_cond3 i == 1#1) | ⟨_ + 6, h⟩ => absurd h (Nat.not_lt.2 (Nat.le_add_left _ _))

abbrev win4_0 : Pipeline.Window sig grid4 :=
  Pipeline.Window.whole (Memref.whole main_v6) false false (stage4_0 0) (sem4_0 0) (Memref.isWhole_whole _) (hstage4_0 0)

abbrev win4_1 : Pipeline.Window sig grid4 :=
  Pipeline.Window.whole (Memref.whole main_v12) false false (stage4_1 0) (sem4_1 0) (Memref.isWhole_whole _) (hstage4_1 0)

abbrev win4_2 : Pipeline.Window sig grid4 :=
  Pipeline.Window.whole (Memref.whole main_arg17) false false (stage4_2 0) (sem4_2 0) (Memref.isWhole_whole _) (hstage4_2 0)

abbrev win4_3 : Pipeline.Window sig grid4 :=
  Pipeline.Window.whole (Memref.whole main_arg18) false false (stage4_3 0) (sem4_3 0) (Memref.isWhole_whole _) (hstage4_3 0)

abbrev win4_4 : Pipeline.Window sig grid4 :=
  Pipeline.Window.whole (Memref.whole main_v13_0) true false (stage4_4 0) (sem4_4 0) (Memref.isWhole_whole _) (hstage4_4 0)

abbrev win4_5 : Pipeline.Window sig grid4 :=
  Pipeline.Window.whole (Memref.whole main_v13_1) true false (stage4_5 0) (sem4_5 0) (Memref.isWhole_whole _) (hstage4_5 0)

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v13_0) S1x4096.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg4) S2048x4096.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg3) S2048x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v13_1) S2048x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v14) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v15) S2048x128.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev idle5 : Fin 6 → grid5.Coords → Bool := fun | 0 => fun _ => false | 1 => fun _ => false | 2 => fun _ => false | 3 => fun _ => false | 4 => fun _ => false | 5 => fun i => !(k5_cond1 i == 1#1) && !(k5_cond2 i == 1#1) && !(k5_cond3 i == 1#1) | ⟨_ + 6, h⟩ => absurd h (Nat.not_lt.2 (Nat.le_add_left _ _))

abbrev win6_0 : Pipeline.Window sig grid6 :=
  Pipeline.Window.whole (Memref.whole main_v15) false false (stage6_0 0) (sem6_0 0) (Memref.isWhole_whole _) (hstage6_0 0)

abbrev win6_1 : Pipeline.Window sig grid6 :=
  Pipeline.Window.whole (Memref.whole main_v12) false false (stage6_1 0) (sem6_1 0) (Memref.isWhole_whole _) (hstage6_1 0)

abbrev win6_2 : Pipeline.Window sig grid6 :=
  Pipeline.Window.whole (Memref.whole main_arg20) false false (stage6_2 0) (sem6_2 0) (Memref.isWhole_whole _) (hstage6_2 0)

abbrev win6_3 : Pipeline.Window sig grid6 :=
  Pipeline.Window.whole (Memref.whole main_arg21) false false (stage6_3 0) (sem6_3 0) (Memref.isWhole_whole _) (hstage6_3 0)

abbrev win6_4 : Pipeline.Window sig grid6 :=
  Pipeline.Window.whole (Memref.whole main_v16_0) true false (stage6_4 0) (sem6_4 0) (Memref.isWhole_whole _) (hstage6_4 0)

abbrev win6_5 : Pipeline.Window sig grid6 :=
  Pipeline.Window.whole (Memref.whole main_v16_1) true false (stage6_5 0) (sem6_5 0) (Memref.isWhole_whole _) (hstage6_5 0)

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v16_0) S1x2048.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v0) S4096x2048.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg2) S4096x256.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v16_1) S4096x16.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v17) S1x16.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v18) S4096x16.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev idle7 : Fin 6 → grid7.Coords → Bool := fun | 0 => fun _ => false | 1 => fun _ => false | 2 => fun _ => false | 3 => fun _ => false | 4 => fun _ => false | 5 => fun i => !(k7_cond1 i == 1#1) && !(k7_cond2 i == 1#1) && !(k7_cond3 i == 1#1) | ⟨_ + 6, h⟩ => absurd h (Nat.not_lt.2 (Nat.le_add_left _ _))

abbrev win8_0 : Pipeline.Window sig grid8 :=
  Pipeline.Window.whole (Memref.whole main_v15) false false (stage8_0 0) (sem8_0 0) (Memref.isWhole_whole _) (hstage8_0 0)

abbrev win8_1 : Pipeline.Window sig grid8 :=
  Pipeline.Window.whole (Memref.whole main_v18) false false (stage8_1 0) (sem8_1 0) (Memref.isWhole_whole _) (hstage8_1 0)

abbrev win8_2 : Pipeline.Window sig grid8 :=
  Pipeline.Window.whole (Memref.whole main_arg23) false false (stage8_2 0) (sem8_2 0) (Memref.isWhole_whole _) (hstage8_2 0)

abbrev win8_3 : Pipeline.Window sig grid8 :=
  Pipeline.Window.whole (Memref.whole main_arg24) false false (stage8_3 0) (sem8_3 0) (Memref.isWhole_whole _) (hstage8_3 0)

abbrev win8_4 : Pipeline.Window sig grid8 :=
  Pipeline.Window.whole (Memref.whole main_v19_0) true false (stage8_4 0) (sem8_4 0) (Memref.isWhole_whole _) (hstage8_4 0)

abbrev win8_5 : Pipeline.Window sig grid8 :=
  Pipeline.Window.whole (Memref.whole main_v19_1) true false (stage8_5 0) (sem8_5 0) (Memref.isWhole_whole _) (hstage8_5 0)

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v19_0) S1x4096.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg4) S2048x4096.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg3) S2048x256.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v19_1) S2048x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v20) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v21) S2048x64.size cc9_transform_5 reads9_5 true true 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev idle9 : Fin 6 → grid9.Coords → Bool := fun | 0 => fun _ => false | 1 => fun _ => false | 2 => fun _ => false | 3 => fun _ => false | 4 => fun _ => false | 5 => fun i => !(k9_cond1 i == 1#1) && !(k9_cond2 i == 1#1) | ⟨_ + 6, h⟩ => absurd h (Nat.not_lt.2 (Nat.le_add_left _ _))

class Facts : Prop extends Facts₀ where

variable [Facts]
-- ==== ReferenceIdeal.lean ====
abbrev S2048x128 : Shape := ⟨2, ![2048, 128]⟩
abbrev S4096x16 : Shape := ⟨2, ![4096, 16]⟩
abbrev S4096x4096 : Shape := ⟨2, ![4096, 4096]⟩
abbrev S2048x2048 : Shape := ⟨2, ![2048, 2048]⟩
abbrev S2048x4096 : Shape := ⟨2, ![2048, 4096]⟩
abbrev S128x128 : Shape := ⟨2, ![128, 128]⟩
abbrev S1x16 : Shape := ⟨2, ![1, 16]⟩
abbrev S128 : Shape := ⟨1, ![128]⟩
abbrev S16x16 : Shape := ⟨2, ![16, 16]⟩
abbrev S1x256 : Shape := ⟨2, ![1, 256]⟩
abbrev S16 : Shape := ⟨1, ![16]⟩
abbrev S256x128 : Shape := ⟨2, ![256, 128]⟩
abbrev S1x32 : Shape := ⟨2, ![1, 32]⟩
abbrev S32x16 : Shape := ⟨2, ![32, 16]⟩
abbrev S1x128 : Shape := ⟨2, ![1, 128]⟩
abbrev S128x64 : Shape := ⟨2, ![128, 64]⟩
abbrev S64 : Shape := ⟨1, ![64]⟩
abbrev S16x1 : Shape := ⟨2, ![16, 1]⟩
abbrev S4096x1 : Shape := ⟨2, ![4096, 1]⟩
abbrev S4096 : Shape := ⟨1, ![4096]⟩
abbrev S1x4096 : Shape := ⟨2, ![1, 4096]⟩
abbrev S4096x2048 : Shape := ⟨2, ![4096, 2048]⟩
abbrev S_ : Shape := ⟨0, ![]⟩
abbrev S2048 : Shape := ⟨1, ![2048]⟩
abbrev S2048x1 : Shape := ⟨2, ![2048, 1]⟩
abbrev S2048x256 : Shape := ⟨2, ![2048, 256]⟩
abbrev S256x1 : Shape := ⟨2, ![256, 1]⟩
abbrev S1x2048 : Shape := ⟨2, ![1, 2048]⟩
abbrev S4096x32 : Shape := ⟨2, ![4096, 32]⟩
abbrev S32x1 : Shape := ⟨2, ![32, 1]⟩
abbrev S128x1 : Shape := ⟨2, ![128, 1]⟩
abbrev S2048x64 : Shape := ⟨2, ![2048, 64]⟩
abbrev S1x64 : Shape := ⟨2, ![1, 64]⟩

abbrev nBuf : Space → Nat
  | .hbm => 248
  | .vmem => 0
  | .smem => 0
  | _ => 0

abbrev hbmTy0_0 (i : Nat) : BufTy := match i % 128 with
  | 0 => ⟨S2048x128, .f32⟩
  | 1 => ⟨S4096x16, .f32⟩
  | 2 => ⟨S4096x4096, .f32⟩
  | 3 => ⟨S2048x2048, .f32⟩
  | 4 => ⟨S2048x4096, .f32⟩
  | 5 => ⟨S128x128, .f32⟩
  | 6 => ⟨S1x16, .f32⟩
  | 7 => ⟨S128, .f32⟩
  | 8 => ⟨S128x128, .f32⟩
  | 9 => ⟨S128, .f32⟩
  | 10 => ⟨S128, .f32⟩
  | 11 => ⟨S16x16, .f32⟩
  | 12 => ⟨S1x256, .f32⟩
  | 13 => ⟨S16, .f32⟩
  | 14 => ⟨S16x16, .f32⟩
  | 15 => ⟨S16, .f32⟩
  | 16 => ⟨S16, .f32⟩
  | 17 => ⟨S256x128, .f32⟩
  | 18 => ⟨S1x32, .f32⟩
  | 19 => ⟨S128, .f32⟩
  | 20 => ⟨S32x16, .f32⟩
  | 21 => ⟨S1x128, .f32⟩
  | 22 => ⟨S16, .f32⟩
  | 23 => ⟨S128x64, .f32⟩
  | 24 => ⟨S1x16, .f32⟩
  | 25 => ⟨S64, .f32⟩
  | 26 => ⟨S16x1, .f32⟩
  | 27 => ⟨S4096x1, .f32⟩
  | 28 => ⟨S4096, .f32⟩
  | 29 => ⟨S1x4096, .f32⟩
  | 30 => ⟨S2048x4096, .f32⟩
  | 31 => ⟨S2048x4096, .f32⟩
  | 32 => ⟨S4096x2048, .f32⟩
  | 33 => ⟨S2048x2048, .f32⟩
  | 34 => ⟨S2048x2048, .i32⟩
  | 35 => ⟨S2048x2048, .i32⟩
  | 36 => ⟨S_, .i32⟩
  | 37 => ⟨S2048x2048, .i32⟩
  | 38 => ⟨S2048x2048, .i32⟩
  | 39 => ⟨S2048x2048, .i1⟩
  | 40 => ⟨S2048x2048, .f32⟩
  | 41 => ⟨S_, .f32⟩
  | 42 => ⟨S2048x2048, .f32⟩
  | 43 => ⟨S2048x2048, .f32⟩
  | 44 => ⟨S2048x2048, .f32⟩
  | 45 => ⟨S2048x2048, .f32⟩
  | 46 => ⟨S2048x2048, .f32⟩
  | 47 => ⟨S2048x128, .f32⟩
  | 48 => ⟨S2048x128, .f32⟩
  | 49 => ⟨S1x128, .f32⟩
  | 50 => ⟨S2048x128, .f32⟩
  | 51 => ⟨S2048x128, .f32⟩
  | 52 => ⟨S_, .f32⟩
  | 53 => ⟨S2048x128, .f32⟩
  | 54 => ⟨S2048x128, .f32⟩
  | 55 => ⟨S_, .f32⟩
  | 56 => ⟨S4096x16, .f32⟩
  | 57 => ⟨S4096x16, .f32⟩
  | 58 => ⟨S2048x128, .f32⟩
  | 59 => ⟨S_, .f32⟩
  | 60 => ⟨S2048, .f32⟩
  | 61 => ⟨S2048x1, .f32⟩
  | 62 => ⟨S_, .f32⟩
  | 63 => ⟨S2048x1, .f32⟩
  | 64 => ⟨S2048x1, .f32⟩
  | 65 => ⟨S2048x128, .f32⟩
  | 66 => ⟨S2048x128, .f32⟩
  | 67 => ⟨S2048x128, .f32⟩
  | 68 => ⟨S_, .f32⟩
  | 69 => ⟨S2048, .f32⟩
  | 70 => ⟨S2048x1, .f32⟩
  | 71 => ⟨S_, .f32⟩
  | 72 => ⟨S2048x1, .f32⟩
  | 73 => ⟨S2048x1, .f32⟩
  | 74 => ⟨S2048x128, .f32⟩
  | 75 => ⟨S2048x128, .f32⟩
  | 76 => ⟨S_, .f32⟩
  | 77 => ⟨S2048x1, .f32⟩
  | 78 => ⟨S2048x1, .f32⟩
  | 79 => ⟨S2048x1, .f32⟩
  | 80 => ⟨S2048x128, .f32⟩
  | 81 => ⟨S2048x128, .f32⟩
  | 82 => ⟨S1x128, .f32⟩
  | 83 => ⟨S2048x128, .f32⟩
  | 84 => ⟨S2048x128, .f32⟩
  | 85 => ⟨S1x128, .f32⟩
  | 86 => ⟨S2048x128, .f32⟩
  | 87 => ⟨S2048x128, .f32⟩
  | 88 => ⟨S_, .f32⟩
  | 89 => ⟨S2048x128, .f32⟩
  | 90 => ⟨S2048x128, .f32⟩
  | 91 => ⟨S2048x256, .f32⟩
  | 92 => ⟨S256x1, .f32⟩
  | 93 => ⟨S2048x1, .f32⟩
  | 94 => ⟨S2048, .f32⟩
  | 95 => ⟨S4096x2048, .f32⟩
  | 96 => ⟨S1x2048, .f32⟩
  | 97 => ⟨S4096x2048, .f32⟩
  | 98 => ⟨S4096x2048, .f32⟩
  | 99 => ⟨S4096x4096, .f32⟩
  | 100 => ⟨S4096x4096, .i32⟩
  | 101 => ⟨S4096x4096, .i32⟩
  | 102 => ⟨S_, .i32⟩
  | 103 => ⟨S4096x4096, .i32⟩
  | 104 => ⟨S4096x4096, .i32⟩
  | 105 => ⟨S4096x4096, .i1⟩
  | 106 => ⟨S4096x4096, .f32⟩
  | 107 => ⟨S_, .f32⟩
  | 108 => ⟨S4096x4096, .f32⟩
  | 109 => ⟨S4096x4096, .f32⟩
  | 110 => ⟨S4096x4096, .f32⟩
  | 111 => ⟨S4096x4096, .f32⟩
  | 112 => ⟨S4096x4096, .f32⟩
  | 113 => ⟨S4096x16, .f32⟩
  | 114 => ⟨S4096x16, .f32⟩
  | 115 => ⟨S1x16, .f32⟩
  | 116 => ⟨S4096x16, .f32⟩
  | 117 => ⟨S4096x16, .f32⟩
  | 118 => ⟨S_, .f32⟩
  | 119 => ⟨S2048x256, .f32⟩
  | 120 => ⟨S2048x256, .f32⟩
  | 121 => ⟨S_, .f32⟩
  | 122 => ⟨S4096x16, .f32⟩
  | 123 => ⟨S4096x16, .f32⟩
  | 124 => ⟨S4096x16, .f32⟩
  | 125 => ⟨S_, .f32⟩
  | 126 => ⟨S4096, .f32⟩
  | 127 => ⟨S4096x1, .f32⟩
  | _ => ⟨S2048x128, .f32⟩

abbrev hbmTy0_1 (i : Nat) : BufTy := match i % 128 with
  | 0 => ⟨S_, .f32⟩
  | 1 => ⟨S4096x1, .f32⟩
  | 2 => ⟨S4096x1, .f32⟩
  | 3 => ⟨S4096x16, .f32⟩
  | 4 => ⟨S4096x16, .f32⟩
  | 5 => ⟨S4096x16, .f32⟩
  | 6 => ⟨S_, .f32⟩
  | 7 => ⟨S4096, .f32⟩
  | 8 => ⟨S4096x1, .f32⟩
  | 9 => ⟨S_, .f32⟩
  | 10 => ⟨S4096x1, .f32⟩
  | 11 => ⟨S4096x1, .f32⟩
  | 12 => ⟨S4096x16, .f32⟩
  | 13 => ⟨S4096x16, .f32⟩
  | 14 => ⟨S_, .f32⟩
  | 15 => ⟨S4096x1, .f32⟩
  | 16 => ⟨S4096x1, .f32⟩
  | 17 => ⟨S4096x1, .f32⟩
  | 18 => ⟨S4096x16, .f32⟩
  | 19 => ⟨S4096x16, .f32⟩
  | 20 => ⟨S1x16, .f32⟩
  | 21 => ⟨S4096x16, .f32⟩
  | 22 => ⟨S4096x16, .f32⟩
  | 23 => ⟨S1x16, .f32⟩
  | 24 => ⟨S4096x16, .f32⟩
  | 25 => ⟨S4096x16, .f32⟩
  | 26 => ⟨S_, .f32⟩
  | 27 => ⟨S4096x16, .f32⟩
  | 28 => ⟨S4096x16, .f32⟩
  | 29 => ⟨S4096x32, .f32⟩
  | 30 => ⟨S32x1, .f32⟩
  | 31 => ⟨S4096x1, .f32⟩
  | 32 => ⟨S4096, .f32⟩
  | 33 => ⟨S1x4096, .f32⟩
  | 34 => ⟨S2048x4096, .f32⟩
  | 35 => ⟨S2048x4096, .f32⟩
  | 36 => ⟨S4096x2048, .f32⟩
  | 37 => ⟨S2048x2048, .f32⟩
  | 38 => ⟨S2048x2048, .i32⟩
  | 39 => ⟨S2048x2048, .i32⟩
  | 40 => ⟨S_, .i32⟩
  | 41 => ⟨S2048x2048, .i32⟩
  | 42 => ⟨S2048x2048, .i32⟩
  | 43 => ⟨S2048x2048, .i1⟩
  | 44 => ⟨S2048x2048, .f32⟩
  | 45 => ⟨S_, .f32⟩
  | 46 => ⟨S2048x2048, .f32⟩
  | 47 => ⟨S2048x2048, .f32⟩
  | 48 => ⟨S2048x2048, .f32⟩
  | 49 => ⟨S2048x2048, .f32⟩
  | 50 => ⟨S2048x2048, .f32⟩
  | 51 => ⟨S2048x128, .f32⟩
  | 52 => ⟨S2048x128, .f32⟩
  | 53 => ⟨S1x128, .f32⟩
  | 54 => ⟨S2048x128, .f32⟩
  | 55 => ⟨S2048x128, .f32⟩
  | 56 => ⟨S_, .f32⟩
  | 57 => ⟨S2048x128, .f32⟩
  | 58 => ⟨S2048x128, .f32⟩
  | 59 => ⟨S_, .f32⟩
  | 60 => ⟨S4096x32, .f32⟩
  | 61 => ⟨S4096x32, .f32⟩
  | 62 => ⟨S128x1, .f32⟩
  | 63 => ⟨S2048x1, .f32⟩
  | 64 => ⟨S2048, .f32⟩
  | 65 => ⟨S4096x2048, .f32⟩
  | 66 => ⟨S1x2048, .f32⟩
  | 67 => ⟨S4096x2048, .f32⟩
  | 68 => ⟨S4096x2048, .f32⟩
  | 69 => ⟨S4096x4096, .f32⟩
  | 70 => ⟨S4096x4096, .i32⟩
  | 71 => ⟨S4096x4096, .i32⟩
  | 72 => ⟨S_, .i32⟩
  | 73 => ⟨S4096x4096, .i32⟩
  | 74 => ⟨S4096x4096, .i32⟩
  | 75 => ⟨S4096x4096, .i1⟩
  | 76 => ⟨S4096x4096, .f32⟩
  | 77 => ⟨S_, .f32⟩
  | 78 => ⟨S4096x4096, .f32⟩
  | 79 => ⟨S4096x4096, .f32⟩
  | 80 => ⟨S4096x4096, .f32⟩
  | 81 => ⟨S4096x4096, .f32⟩
  | 82 => ⟨S4096x4096, .f32⟩
  | 83 => ⟨S4096x16, .f32⟩
  | 84 => ⟨S4096x16, .f32⟩
  | 85 => ⟨S1x16, .f32⟩
  | 86 => ⟨S4096x16, .f32⟩
  | 87 => ⟨S4096x16, .f32⟩
  | 88 => ⟨S_, .f32⟩
  | 89 => ⟨S2048x128, .f32⟩
  | 90 => ⟨S2048x128, .f32⟩
  | 91 => ⟨S_, .f32⟩
  | 92 => ⟨S4096x16, .f32⟩
  | 93 => ⟨S4096x16, .f32⟩
  | 94 => ⟨S16x1, .f32⟩
  | 95 => ⟨S4096x1, .f32⟩
  | 96 => ⟨S4096, .f32⟩
  | 97 => ⟨S1x4096, .f32⟩
  | 98 => ⟨S2048x4096, .f32⟩
  | 99 => ⟨S2048x4096, .f32⟩
  | 100 => ⟨S4096x2048, .f32⟩
  | 101 => ⟨S2048x2048, .f32⟩
  | 102 => ⟨S2048x2048, .i32⟩
  | 103 => ⟨S2048x2048, .i32⟩
  | 104 => ⟨S_, .i32⟩
  | 105 => ⟨S2048x2048, .i32⟩
  | 106 => ⟨S2048x2048, .i32⟩
  | 107 => ⟨S2048x2048, .i1⟩
  | 108 => ⟨S2048x2048, .f32⟩
  | 109 => ⟨S_, .f32⟩
  | 110 => ⟨S2048x2048, .f32⟩
  | 111 => ⟨S2048x2048, .f32⟩
  | 112 => ⟨S2048x2048, .f32⟩
  | 113 => ⟨S2048x2048, .f32⟩
  | 114 => ⟨S2048x2048, .f32⟩
  | 115 => ⟨S2048x64, .f32⟩
  | 116 => ⟨S2048x64, .f32⟩
  | 117 => ⟨S1x64, .f32⟩
  | 118 => ⟨S2048x64, .f32⟩
  | 119 => ⟨S2048x64, .f32⟩
  | _ => ⟨S2048x128, .f32⟩

abbrev hbmTy (i : Nat) : BufTy := match i / 128 with
  | 0 => hbmTy0_0 i
  | 1 => hbmTy0_1 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_call0_cst : Ref sig .tc := ⟨.hbm, 52, rfl⟩
abbrev main_call0_v0 : Ref sig .tc := ⟨.hbm, 53, rfl⟩
abbrev main_v24 : Ref sig .tc := ⟨.hbm, 54, rfl⟩
abbrev main_call1_cst : Ref sig .tc := ⟨.hbm, 55, rfl⟩
abbrev main_call1_v0 : Ref sig .tc := ⟨.hbm, 56, rfl⟩
abbrev main_v25 : Ref sig .tc := ⟨.hbm, 57, rfl⟩
abbrev main_v26 : Ref sig .tc := ⟨.hbm, 58, rfl⟩
abbrev main_cst_0 : Ref sig .tc := ⟨.hbm, 59, rfl⟩
abbrev main_v27 : Ref sig .tc := ⟨.hbm, 60, rfl⟩
abbrev main_v28 : Ref sig .tc := ⟨.hbm, 61, rfl⟩
abbrev main_cst_1 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_2 : Ref sig .tc := ⟨.hbm, 68, rfl⟩
abbrev main_v34 : Ref sig .tc := ⟨.hbm, 69, rfl⟩
abbrev main_v35 : Ref sig .tc := ⟨.hbm, 70, rfl⟩
abbrev main_cst_3 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_4 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_call2_cst : Ref sig .tc := ⟨.hbm, 88, rfl⟩
abbrev main_call2_v0 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_c_5 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_6 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_call3_cst : Ref sig .tc := ⟨.hbm, 118, rfl⟩
abbrev main_call3_v0 : Ref sig .tc := ⟨.hbm, 119, rfl⟩
abbrev main_v77 : Ref sig .tc := ⟨.hbm, 120, rfl⟩
abbrev main_call4_cst : Ref sig .tc := ⟨.hbm, 121, rfl⟩
abbrev main_call4_v0 : Ref sig .tc := ⟨.hbm, 122, rfl⟩
abbrev main_v78 : Ref sig .tc := ⟨.hbm, 123, rfl⟩
abbrev main_v79 : Ref sig .tc := ⟨.hbm, 124, rfl⟩
abbrev main_cst_7 : Ref sig .tc := ⟨.hbm, 125, rfl⟩
abbrev main_v80 : Ref sig .tc := ⟨.hbm, 126, rfl⟩
abbrev main_v81 : Ref sig .tc := ⟨.hbm, 127, rfl⟩
abbrev main_cst_8 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_9 : Ref sig .tc := ⟨.hbm, 134, rfl⟩
abbrev main_v87 : Ref sig .tc := ⟨.hbm, 135, rfl⟩
abbrev main_v88 : Ref sig .tc := ⟨.hbm, 136, rfl⟩
abbrev main_cst_10 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_11 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_call5_cst : Ref sig .tc := ⟨.hbm, 154, rfl⟩
abbrev main_call5_v0 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_c_12 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_cst_13 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_call6_cst : Ref sig .tc := ⟨.hbm, 184, rfl⟩
abbrev main_call6_v0 : Ref sig .tc := ⟨.hbm, 185, rfl⟩
abbrev main_v130 : Ref sig .tc := ⟨.hbm, 186, rfl⟩
abbrev main_call7_cst : Ref sig .tc := ⟨.hbm, 187, rfl⟩
abbrev main_call7_v0 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_c_14 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_cst_15 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_call8_cst : Ref sig .tc := ⟨.hbm, 216, rfl⟩
abbrev main_call8_v0 : Ref sig .tc := ⟨.hbm, 217, rfl⟩
abbrev main_v156 : Ref sig .tc := ⟨.hbm, 218, rfl⟩
abbrev main_call9_cst : Ref sig .tc := ⟨.hbm, 219, rfl⟩
abbrev main_call9_v0 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_c_16 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_cst_17 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩

abbrev nD : Nat := 1
abbrev τ : Topo := Topo.v7x

variable {F : FTy → Type} [FloatOps F]

class Facts₀ : Prop where
  transposes_S1x16_S16x1_1_0 : S1x16.Transposes [1, 0] S16x1
  shapeCasts_S4096x1_S4096 : S4096x1.ShapeCasts S4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  transposes_S2048x4096_S4096x2048_1_0 : S2048x4096.Transposes [1, 0] S4096x2048
  bcast_S_S2048x2048 : S_.BroadcastsInDim S2048x2048 (![] : Fin 0 → Fin S2048x2048.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  bcast_S_S4096x16 : S_.BroadcastsInDim S4096x16 (![] : Fin 0 → Fin S4096x16.rank)
  reducesTo_S2048x128_S2048_d1 : S2048x128.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  concatenates_S2048x128_S2048x128_S2048x256_d1 : Shape.Concatenates [S2048x128, S2048x128] S2048x256 1
  transposes_S1x256_S256x1_1_0 : S1x256.Transposes [1, 0] S256x1
  shapeCasts_S2048x1_S2048 : S2048x1.ShapeCasts S2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x4096 : S_.BroadcastsInDim S4096x4096 (![] : Fin 0 → Fin S4096x4096.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S_S2048x256 : S_.BroadcastsInDim S2048x256 (![] : Fin 0 → Fin S2048x256.rank)
  reducesTo_S4096x16_S4096_d1 : S4096x16.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x16_0_1 : S4096x1.BroadcastsInDim S4096x16 (![0, 1] : Fin 2 → Fin S4096x16.rank)
  concatenates_S4096x16_S4096x16_S4096x32_d1 : Shape.Concatenates [S4096x16, S4096x16] S4096x32 1
  transposes_S1x32_S32x1_1_0 : S1x32.Transposes [1, 0] S32x1
  bcast_S_S4096x32 : S_.BroadcastsInDim S4096x32 (![] : Fin 0 → Fin S4096x32.rank)
  transposes_S1x128_S128x1_1_0 : S1x128.Transposes [1, 0] S128x1
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  dot_S4096x16_S16x1_S4096x1_1_0_0_1_n_n_wf : DotDims.WF S4096x16 S16x1 S4096x1 [1] [0] [0] [1] [] []
  dot_S2048x4096_S4096x2048_S2048x2048_1_0_0_1_n_n_wf : DotDims.WF S2048x4096 S4096x2048 S2048x2048 [1] [0] [0] [1] [] []
  dot_S2048x128_S128x128_S2048x128_1_0_0_1_n_n_wf : DotDims.WF S2048x128 S128x128 S2048x128 [1] [0] [0] [1] [] []
  dot_S2048x2048_S2048x128_S2048x128_1_0_0_1_n_n_wf : DotDims.WF S2048x2048 S2048x128 S2048x128 [1] [0] [0] [1] [] []
  dot_S2048x256_S256x1_S2048x1_1_0_0_1_n_n_wf : DotDims.WF S2048x256 S256x1 S2048x1 [1] [0] [0] [1] [] []
  dot_S4096x2048_S2048x4096_S4096x4096_1_0_0_1_n_n_wf : DotDims.WF S4096x2048 S2048x4096 S4096x4096 [1] [0] [0] [1] [] []
  dot_S4096x16_S16x16_S4096x16_1_0_0_1_n_n_wf : DotDims.WF S4096x16 S16x16 S4096x16 [1] [0] [0] [1] [] []
  dot_S4096x4096_S4096x16_S4096x16_1_0_0_1_n_n_wf : DotDims.WF S4096x4096 S4096x16 S4096x16 [1] [0] [0] [1] [] []
  dot_S4096x32_S32x1_S4096x1_1_0_0_1_n_n_wf : DotDims.WF S4096x32 S32x1 S4096x1 [1] [0] [0] [1] [] []
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []
  dot_S4096x32_S32x16_S4096x16_1_0_0_1_n_n_wf : DotDims.WF S4096x32 S32x16 S4096x16 [1] [0] [0] [1] [] []
  dot_S2048x128_S128x64_S2048x64_1_0_0_1_n_n_wf : DotDims.WF S2048x128 S128x64 S2048x64 [1] [0] [0] [1] [] []
  dot_S2048x2048_S2048x64_S2048x64_1_0_0_1_n_n_wf : DotDims.WF S2048x2048 S2048x64 S2048x64 [1] [0] [0] [1] [] []

variable [Facts₀]

def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf
def dot_S2048x4096_S4096x2048_S2048x2048_1_0_0_1_n_n : DotDims S2048x4096 S4096x2048 S2048x2048 where
  lhsContracting := [1]
  rhsContracting := [0]
  lhsNonContracting := [0]
  rhsNonContracting := [1]
  lhsBatch := []
  rhsBatch := []
  wf := dot_S2048x4096_S4096x2048_S2048x2048_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf
def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

class Facts : Prop extends Facts₀ where

variable [Facts]
-- ==== Proof.K.Reg0.lean ====
import proofs.«109581_g76012331204772_cont_9to1_m_125_6_alg».proof.Proof.Gen.Kernel.Launch
import proofs.«109581_g76012331204772_cont_9to1_m_125_6_alg».proof.Proof.Gen.Kernel.Skeleton
import proofs.«109581_g76012331204772_cont_9to1_m_125_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_X : Rect S2048x128 := Rect.unit (s := S2048x128) ![0, 0] S2048x128.size inb_S2048x128_S2048x128_0_0
abbrev r0_Z : Rect S4096x16 := Rect.unit (s := S4096x16) ![0, 0] S4096x16.size inb_S4096x16_S4096x16_0_0
abbrev r0_W : Rect S128x128 := Rect.unit (s := S128x128) ![0, 0] S128x128.size inb_S128x128_S128x128_0_0
abbrev r0_p : Rect S1x16 := Rect.unit (s := S1x16) ![0, 0] S1x16.size inb_S1x16_S1x16_0_0
abbrev r0_g : Rect S1x128 := Rect.unit (s := S1x128) ![0, 0] S1x128.size inb_S1x128_S1x128_0_0
abbrev r0_d : Rect S1x4096 := Rect.unit (s := S1x4096) ![0, 0] S1x4096.size inb_S1x4096_S1x4096_0_0

def out0_7 (x1 : Vec F S4096x16 .f32) (x3 : Vec F S1x16 .f32) : Vec F S1x4096 .f32 :=
  View.canon [⟨r0_d, k0_pay2 (View.ld x1 r0_Z) (View.ld x3 r0_p)⟩]

def out0_8 (x0 : Vec F S2048x128 .f32) (x2 : Vec F S128x128 .f32) : Vec F S2048x128 .f32 :=
  View.canon [⟨r0_X, k0_pay3 (View.ld x0 r0_X) (View.ld x2 r0_W)⟩]

def out0_9 (x0 : Vec F S2048x128 .f32) (x4 : Vec F S128x128 .f32) (x5 : Vec F S1x128 .f32) (x6 : Vec F S1x128 .f32) : Vec F S2048x128 .f32 :=
  View.canon [⟨r0_X, k0_pay1 (k0_pay4 (View.ld x5 r0_g)) (k0_pay5 (View.ld x6 r0_g)) (k0_pay6 (View.ld x0 r0_X) (View.ld x4 r0_W))⟩]

theorem cover0_7 (p0 : Vec F S1x4096 .f32) (y : S1x4096.Idx) :
    ∃ pc ∈ ([⟨r0_d, p0⟩] : List (View.Piece (Elt F) S1x4096 .f32)), y ∈ pc.1.set :=
  View.cover_of_tiled [⟨r0_d, p0⟩] S1x4096.size (by rfl) y

theorem cover0_8 (p0 : Vec F S2048x128 .f32) (y : S2048x128.Idx) :
    ∃ pc ∈ ([⟨r0_X, p0⟩] : List (View.Piece (Elt F) S2048x128 .f32)), y ∈ pc.1.set :=
  View.cover_of_tiled [⟨r0_X, p0⟩] S2048x128.size (by rfl) y

set_option maxHeartbeats 4000000 in

theorem sound_kernel0 (c : Dev nD) (E : Set ℕ) (arg0 : Memref sig .tc .vmem S2048x128 .f32) (harg0 : arg0.IsWhole) (arg1 : Memref sig .tc .vmem S4096x16 .f32) (harg1 : arg1.IsWhole) (arg2 : Memref sig .tc .vmem S128x128 .f32) (harg2 : arg2.IsWhole) (arg3 : Memref sig .tc .vmem S1x16 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x4096 .f32) (harg7 : arg7.IsWhole) (arg8 : Memref sig .tc .vmem S2048x128 .f32) (harg8 : arg8.IsWhole) (arg9 : Memref sig .tc .vmem S2048x128 .f32) (harg9 : arg9.IsWhole)
    (x0 : Vec F S2048x128 .f32) (x1 : Vec F S4096x16 .f32) (x2 : Vec F S128x128 .f32) (x3 : Vec F S1x16 .f32) (x4 : Vec F S128x128 .f32) (x5 : Vec F S1x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out0_7 x1 x3) ∗ owns (c : Thread nD τ) arg8 fullShare (out0_8 x0 x2) ∗ owns (c : Thread nD τ) arg9 fullShare (out0_9 x0 x4 x5 x6)) -∗ K ⟨⟩))
      ⊢ wp frame (wpE (defs₀ (F := F)) Variants.none c none) E (cc0__prep1_body arg0 harg0 arg1 harg1 arg2 harg2 arg3 harg3 arg4 harg4 arg5 harg5 arg6 harg6 arg7 harg7 arg8 harg8 arg9 harg9) K := by
  simp only [cc0__prep1_body_eq_skeleton]; unfold cc0__prep1_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_8 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 1 t) (iblk0 V c 3 t)
    | ⟨8, _⟩ => out0_8 (iblk0 V c 0 t) (iblk0 V c 2 t)
    | ⟨9, _⟩ => out0_9 (iblk0 V c 0 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 1 t) (iblk0 V c 3 t) := by dsimp only [dat0]
theorem after0_8 (c : Dev nD) (t : Fin cfg0.N) : (dat0 V c).after 8 t = out0_8 (iblk0 V c 0 t) (iblk0 V c 2 t) := by dsimp only [dat0]
theorem after0_9 (c : Dev nD) (t : Fin cfg0.N) : (dat0 V c).after 9 t = out0_9 (iblk0 V c 0 t) (iblk0 V c 4 t) (iblk0 V c 5 t) (iblk0 V c 6 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  iframe H0 H1 H2 H3 H4 H5 H6
  isplitl [H7]; · iexists _; iexact H7
  isplitl [H8]; · iexists _; iexact H8
  isplitl [H9]; · iexists _; iexact H9
  iintro ⟨H0, H1, H2, H3, H4, H5, H6, H7, H8, H9⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.Reg1.lean ====
import proofs.«109581_g76012331204772_cont_9to1_m_125_6_alg».proof.Proof.Gen.Kernel.Launch
import proofs.«109581_g76012331204772_cont_9to1_m_125_6_alg».proof.Proof.Gen.Kernel.Skeleton
import proofs.«109581_g76012331204772_cont_9to1_m_125_6_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_Trows (i : grid1.Coords) : Rect S2048x4096 := Rect.unit (s := S2048x4096) (k1_off1 i) S256x4096.size (k1_off1_inb i)

abbrev r1_Hrows (i : grid1.Coords) : Rect S2048x128 := Rect.unit (s := S2048x128) (k1_off2 i) S256x128.size (k1_off2_inb i)

abbrev r1_d : Rect S1x4096 := Rect.unit (s := S1x4096) ![0, 0] S1x4096.size inb_S1x4096_S1x4096_0_0
abbrev r1_T : Rect S2048x4096 := Rect.unit (s := S2048x4096) ![0, 0] S2048x4096.size inb_S2048x4096_S2048x4096_0_0
abbrev r1_adj : Rect S2048x256 := Rect.unit (s := S2048x256) ![0, 0] S2048x256.size inb_S2048x256_S2048x256_0_0
abbrev r1_b : Rect S1x128 := Rect.unit (s := S1x128) ![0, 0] S1x128.size inb_S1x128_S1x128_0_0
abbrev r1_o : Rect S2048x128 := Rect.unit (s := S2048x128) ![0, 0] S2048x128.size inb_S2048x128_S2048x128_0_0

def out1_A (i : grid1.Coords) (x0 : Vec F S1x4096 .f32) (x1 : Vec F S2048x4096 .f32) (x2 : Vec F S2048x256 .f32)
    (x3 : Vec F S2048x128 .f32) (x4 : Vec F S1x128 .f32) : Vec F S2048x128 .f32 :=
  k1_pay2 i (View.ld x1 (r1_Trows i)) (View.ld x0 r1_d) (View.ld x1 r1_T) (View.ld x2 r1_adj) (View.ld x3 (r1_Hrows i)) (View.ld x4 r1_b)

def out1_B (i : grid1.Coords) (x0 : Vec F S1x4096 .f32) (x1 : Vec F S2048x4096 .f32) (x2 : Vec F S2048x256 .f32)
    (x3 : Vec F S2048x128 .f32) (prev : Vec F S2048x128 .f32) : Vec F S2048x128 .f32 :=
  k1_pay3 i (View.ld x1 (r1_Trows i)) (View.ld x0 r1_d) (View.ld x1 r1_T) (View.ld x2 r1_adj) (View.ld x3 (r1_Hrows i)) prev

def out1_C (i : grid1.Coords) (x0 : Vec F S1x4096 .f32) (x1 : Vec F S2048x4096 .f32) (x2 : Vec F S2048x256 .f32)
    (x3 : Vec F S2048x128 .f32) (prev : Vec F S2048x128 .f32) : Vec F S2048x128 .f32 :=
  k1_pay4 (out1_B i x0 x1 x2 x3 prev)

def outsAt1 (c : Dev nD) : (n : ℕ) → n < cfg1.N → Vec F S2048x128 .f32
  | 0, hn => out1_A (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if n + 1 = 7 then
      out1_C (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))
    else
      out1_B (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

theorem outsAt1_A (c : Dev nD) (t : Fin cfg1.N) (h0 : t.val = 0) :
    outsAt1 V c t.val t.isLt = out1_A (grid1.coords t) (iblk1 V c 0 t) (iblk1 V c 1 t) (iblk1 V c 2 t) (iblk1 V c 3 t) (iblk1 V c 4 t) := by
  obtain ⟨n, hn⟩ := t
  cases n with
  | zero => exact rfl
  | succ n => exact absurd h0 (Nat.succ_ne_zero n)

theorem outsAt1_B (c : Dev nD) (t : Fin cfg1.N) (h0 : ¬t.val = 0) (h7 : ¬t.val = 7) :
    outsAt1 V c t.val t.isLt = out1_B (grid1.coords t) (iblk1 V c 0 t) (iblk1 V c 1 t) (iblk1 V c 2 t) (iblk1 V c 3 t)
      (outsAt1 V c (t.val - 1) (Nat.lt_of_le_of_lt (Nat.sub_le _ _) t.isLt)) := by
  obtain ⟨n, hn⟩ := t
  cases n with
  | zero => exact absurd rfl h0
  | succ n => exact (if_neg h7).trans rfl

theorem outsAt1_C (c : Dev nD) (t : Fin cfg1.N) (h7 : t.val = 7) :
    outsAt1 V c t.val t.isLt = out1_C (grid1.coords t) (iblk1 V c 0 t) (iblk1 V c 1 t) (iblk1 V c 2 t) (iblk1 V c 3 t)
      (outsAt1 V c (t.val - 1) (Nat.lt_of_le_of_lt (Nat.sub_le _ _) t.isLt)) := by
  obtain ⟨n, hn⟩ := t
  cases n with
  | zero => exact absurd h7 (by dsimp only; omega)
  | succ n => exact (if_pos h7).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outsAt1 V c t.val t.isLt := by dsimp only [dat1]

theorem zero2 : (![0, 0] : Fin 2 → Nat) = fun _ => 0 := by funext a; fin_cases a <;> rfl

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem live1_5 : ∀ i : grid1.Coords, cfg1.idle 5 i = false :=
  (by decide +kernel : ∀ i : grid1.Coords, idle1 5 i = false)

theorem before1_5_kept (c : Dev nD) (t : Fin cfg1.N) (h0 : ¬t.val = 0) (d) :
    (dat1 V c).before 5 t d = outsAt1 V c (t.val - 1) (Nat.lt_of_le_of_lt (Nat.sub_le _ _) t.isLt) := by
  have hN : t.val < 8 := lt_of_lt_of_eq t.isLt (show cfg1.N = 8 from N_1)
  rw [Dat.before_out_kept _ 5 rfl t h0 (Bool.eq_false_iff.mpr fun h => by have := (flush1_5 _).mp h; dsimp only at this; omega)
    live1_5 (fun _ _ => rfl)]
  dsimp only [dat1]

theorem hcond1_1 : ∀ t : Fin cfg1.N, k1_cond1 (grid1.coords t) = 1#1 ↔ t.val = 0 :=
  (by decide +kernel : ∀ t : Fin grid1.N, k1_cond1 (grid1.coords t) = 1#1 ↔ t.val = 0)

theorem hcond1_2 : ∀ t : Fin cfg1.N, k1_cond2 (grid1.coords t) = 1#1 ↔ ¬t.val = 0 :=
  (by decide +kernel : ∀ t : Fin grid1.N, k1_cond2 (grid1.coords t) = 1#1 ↔ ¬t.val = 0)

theorem hcond1_3 : ∀ t : Fin cfg1.N, k1_cond3 (grid1.coords t) = 1#1 ↔ t.val = 7 :=
  (by decide +kernel : ∀ t : Fin grid1.N, k1_cond3 (grid1.coords t) = 1#1 ↔ t.val = 7)

theorem cover1_o (p : Vec F S2048x128 .f32) (L : List (View.Piece (Elt F) S2048x128 .f32)) (y : S2048x128.Idx) :
    ∃ pc ∈ ((⟨r1_o, p⟩ : View.Piece (Elt F) S2048x128 .f32) :: L), y ∈ pc.1.set :=
  ⟨_, List.mem_cons_self, View.mem_set_unit_zero zero2 inb_S2048x128_S2048x128_0_0 y⟩

section
variable (c : Dev nD) (E : Set ℕ) (i : grid1.Coords)
    (arg1 : Memref sig .tc .vmem S1x4096 .f32) (harg1 : arg1.IsWhole) (arg2 : Memref sig .tc .vmem S2048x4096 .f32) (harg2 : arg2.IsWhole)
    (arg3 : Memref sig .tc .vmem S2048x256 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S2048x128 .f32) (harg6 : arg6.IsWhole)

set_option maxHeartbeats 1000000 in

theorem sound_kernel1_A (hc1 : k1_cond1 i = 1#1) (hc2 : ¬k1_cond2 i = 1#1) (hc3 : ¬k1_cond3 i = 1#1)
    (x0 : Vec F S1x4096 .f32) (x1 : Vec F S2048x4096 .f32) (x2 : Vec F S2048x256 .f32) (x3 : Vec F S2048x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out1_A i x0 x1 x2 x3 x4)) -∗ K ⟨⟩))
      ⊢ wp frame (wpE (defs₀ (F := F)) Variants.none c none) E (cc1__fused_gc_body i arg1 harg1 arg2 harg2 arg3 harg3 arg4 harg4 arg5 harg5 arg6 harg6) K := by
  simp only [cc1__fused_gc_body_eq_skeleton]; unfold cc1__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover1_o _ _), View.canon_cons_unit_zero zero2]
  rfl

set_option maxHeartbeats 1000000 in

theorem sound_kernel1_B (hc1 : ¬k1_cond1 i = 1#1) (hc2 : k1_cond2 i = 1#1) (hc3 : ¬k1_cond3 i = 1#1)
    (x0 : Vec F S1x4096 .f32) (x1 : Vec F S2048x4096 .f32) (x2 : Vec F S2048x256 .f32) (x3 : Vec F S2048x128 .f32) (x4 : Vec F S1x128 .f32) (prev : Vec F S2048x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare prev
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out1_B i x0 x1 x2 x3 prev)) -∗ K ⟨⟩))
      ⊢ wp frame (wpE (defs₀ (F := F)) Variants.none c none) E (cc1__fused_gc_body i arg1 harg1 arg2 harg2 arg3 harg3 arg4 harg4 arg5 harg5 arg6 harg6) K := by
  simp only [cc1__fused_gc_body_eq_skeleton]; unfold cc1__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover1_o _ _), View.canon_cons_unit_zero zero2]
  unfold out1_B
  exact congrArg (k1_pay3 i _ _ _ _ _) (View.ld_unit_zero zero2 _ _)

set_option maxHeartbeats 1000000 in

theorem sound_kernel1_C (hc1 : ¬k1_cond1 i = 1#1) (hc2 : k1_cond2 i = 1#1) (hc3 : k1_cond3 i = 1#1)
    (x0 : Vec F S1x4096 .f32) (x1 : Vec F S2048x4096 .f32) (x2 : Vec F S2048x256 .f32) (x3 : Vec F S2048x128 .f32) (x4 : Vec F S1x128 .f32) (prev : Vec F S2048x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare prev
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out1_C i x0 x1 x2 x3 prev)) -∗ K ⟨⟩))
      ⊢ wp frame (wpE (defs₀ (F := F)) Variants.none c none) E (cc1__fused_gc_body i arg1 harg1 arg2 harg2 arg3 harg3 arg4 harg4 arg5 harg5 arg6 harg6) K := by
  simp only [cc1__fused_gc_body_eq_skeleton]; unfold cc1__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover1_o _ _), View.canon_cons_unit_zero zero2]
  sl_unfold_run_names
  rw [View.readCov_unit_zero _ zero2]
  unfold out1_C out1_B
  exact congrArg (fun p => k1_pay4 (k1_pay3 i _ _ _ _ _ p)) (View.ld_unit_zero zero2 _ _)

end

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 8 := lt_of_lt_of_eq t.isLt (show cfg1.N = 8 from N_1)
  by_cases h0 : t.val = 0
  · rw [outsAt1_A V c t h0]
    iintro ⟨HΦ, Ho, ⟨%d0, H0⟩, ⟨%d1, H1⟩, ⟨%d2, H2⟩, ⟨%d3, H3⟩, ⟨%d4, H4⟩, ⟨%d5, H5⟩⟩
    iapply (sound_kernel1_A c Set.univ (grid1.coords t) _ _ _ _ _ _ _ _ _ _ _ _ ((hcond1_1 t).mpr h0) (fun h => (hcond1_2 t).mp h h0)
      (fun h => by have := (hcond1_3 t).mp h; omega) (iblk1 V c 0 t) (iblk1 V c 1 t) (iblk1 V c 2 t) (iblk1 V c 3 t) (iblk1 V c 4 t) _)
    iframe H0 H1 H2 H3 H4
    isplitl [H5]; · iexists _; iexact H5
    iintro ⟨H0, H1, H2, H3, H4, H5⟩
    iframe
  · by_cases h7 : t.val = 7
    · rw [outsAt1_C V c t h7]
      simp only [before1_5_kept V c t h0]
      iintro ⟨HΦ, Ho, ⟨%d0, H0⟩, ⟨%d1, H1⟩, ⟨%d2, H2⟩, ⟨%d3, H3⟩, ⟨%d4, H4⟩, ⟨%d5, H5⟩⟩
      iapply (sound_kernel1_C c Set.univ (grid1.coords t) _ _ _ _ _ _ _ _ _ _ _ _ (fun h => h0 ((hcond1_1 t).mp h)) ((hcond1_2 t).mpr h0)
        ((hcond1_3 t).mpr h7) (iblk1 V c 0 t) (iblk1 V c 1 t) (iblk1 V c 2 t) (iblk1 V c 3 t) (iblk1 V c 4 t) _ _)
      iframe H0 H1 H2 H3 H4 H5
      iintro ⟨H0, H1, H2, H3, H4, H5⟩
      iframe
    · rw [outsAt1_B V c t h0 h7]
      simp only [before1_5_kept V c t h0]
      iintro ⟨HΦ, Ho, ⟨%d0, H0⟩, ⟨%d1, H1⟩, ⟨%d2, H2⟩, ⟨%d3, H3⟩, ⟨%d4, H4⟩, ⟨%d5, H5⟩⟩
      iapply (sound_kernel1_B c Set.univ (grid1.coords t) _ _ _ _ _ _ _ _ _ _ _ _ (fun h => h0 ((hcond1_1 t).mp h)) ((hcond1_2 t).mpr h0)
        (fun h => h7 ((hcond1_3 t).mp h)) (iblk1 V c 0 t) (iblk1 V c 1 t) (iblk1 V c 2 t) (iblk1 V c 3 t) (iblk1 V c 4 t) _ _)
      iframe H0 H1 H2 H3 H4 H5
      iintro ⟨H0, H1, H2, H3, H4, H5⟩
      iframe

set_option maxHeartbeats 1000000 in

theorem body_obligation1 (c : Dev nD) : BodyObligation (dat1 (F := F) V c) (defs₀ (F := F)) Variants.none () Set.univ := fun t => by
  rw [bigSep_W1, bigSep_W1]
  have h5 : cfg1.idle (5 : Fin 6) (cfg1.grid.coords t) = false := live1_5 _
  rw [h5]
  exact sound_body1 V c t

end Cert.Kernel.Hand

end
-- ==== Proof.K.Reg2.lean ====
import proofs.«109581_g76012331204772_cont_9to1_m_125_6_alg».proof.Proof.Gen.Kernel.Launch
import proofs.«109581_g76012331204772_cont_9to1_m_125_6_alg».proof.Proof.Gen.Kernel.Skeleton
import proofs.«109581_g76012331204772_cont_9to1_m_125_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_X : Rect S2048x256 := Rect.unit (s := S2048x256) ![0, 0] S2048x256.size inb_S2048x256_S2048x256_0_0
abbrev r2_Z : Rect S4096x16 := Rect.unit (s := S4096x16) ![0, 0] S4096x16.size inb_S4096x16_S4096x16_0_0
abbrev r2_W : Rect S16x16 := Rect.unit (s := S16x16) ![0, 0] S16x16.size inb_S16x16_S16x16_0_0
abbrev r2_p : Rect S1x256 := Rect.unit (s := S1x256) ![0, 0] S1x256.size inb_S1x256_S1x256_0_0
abbrev r2_g : Rect S1x16 := Rect.unit (s := S1x16) ![0, 0] S1x16.size inb_S1x16_S1x16_0_0
abbrev r2_d : Rect S1x2048 := Rect.unit (s := S1x2048) ![0, 0] S1x2048.size inb_S1x2048_S1x2048_0_0

def out2_7 (x0 : Vec F S2048x256 .f32) (x3 : Vec F S1x256 .f32) : Vec F S1x2048 .f32 :=
  View.canon [⟨r2_d, k2_pay2 (View.ld x3 r2_p) (View.ld x0 r2_X)⟩]

def out2_8 (x1 : Vec F S4096x16 .f32) (x2 : Vec F S16x16 .f32) : Vec F S4096x16 .f32 :=
  View.canon [⟨r2_Z, k2_pay3 (View.ld x1 r2_Z) (View.ld x2 r2_W)⟩]

def out2_9 (x1 : Vec F S4096x16 .f32) (x4 : Vec F S16x16 .f32) (x5 : Vec F S1x16 .f32) (x6 : Vec F S1x16 .f32) : Vec F S4096x16 .f32 :=
  View.canon [⟨r2_Z, k2_pay1 (k2_pay5 (View.ld x5 r2_g)) (k2_pay6 (View.ld x6 r2_g)) (k2_pay8 (View.ld x1 r2_Z) (View.ld x4 r2_W))
    (k2_pay9 (View.ld x1 r2_Z) (View.ld x4 r2_W)) (k2_pay10 (F := F))⟩]

theorem cover2_7 (p0 : Vec F S1x2048 .f32) (y : S1x2048.Idx) :
    ∃ pc ∈ ([⟨r2_d, p0⟩] : List (View.Piece (Elt F) S1x2048 .f32)), y ∈ pc.1.set :=
  View.cover_of_tiled [⟨r2_d, p0⟩] S1x2048.size (by rfl) y

theorem cover2_8 (p0 : Vec F S4096x16 .f32) (y : S4096x16.Idx) :
    ∃ pc ∈ ([⟨r2_Z, p0⟩] : List (View.Piece (Elt F) S4096x16 .f32)), y ∈ pc.1.set :=
  View.cover_of_tiled [⟨r2_Z, p0⟩] S4096x16.size (by rfl) y

set_option maxHeartbeats 4000000 in

theorem sound_kernel2 (c : Dev nD) (E : Set ℕ) (arg0 : Memref sig .tc .vmem S2048x256 .f32) (harg0 : arg0.IsWhole) (arg1 : Memref sig .tc .vmem S4096x16 .f32) (harg1 : arg1.IsWhole) (arg2 : Memref sig .tc .vmem S16x16 .f32) (harg2 : arg2.IsWhole) (arg3 : Memref sig .tc .vmem S1x256 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S1x16 .f32) (harg6 : arg6.IsWhole) (arg7 : Memref sig .tc .vmem S1x2048 .f32) (harg7 : arg7.IsWhole) (arg8 : Memref sig .tc .vmem S4096x16 .f32) (harg8 : arg8.IsWhole) (arg9 : Memref sig .tc .vmem S4096x16 .f32) (harg9 : arg9.IsWhole)
    (x0 : Vec F S2048x256 .f32) (x1 : Vec F S4096x16 .f32) (x2 : Vec F S16x16 .f32) (x3 : Vec F S1x256 .f32) (x4 : Vec F S16x16 .f32) (x5 : Vec F S1x16 .f32) (x6 : Vec F S1x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out2_7 x0 x3) ∗ owns (c : Thread nD τ) arg8 fullShare (out2_8 x1 x2) ∗ owns (c : Thread nD τ) arg9 fullShare (out2_9 x1 x4 x5 x6)) -∗ K ⟨⟩))
      ⊢ wp frame (wpE (defs₀ (F := F)) Variants.none c none) E (cc2__prep2_body arg0 harg0 arg1 harg1 arg2 harg2 arg3 harg3 arg4 harg4 arg5 harg5 arg6 harg6 arg7 harg7 arg8 harg8 arg9 harg9) K := by
  simp only [cc2__prep2_body_eq_skeleton]; unfold cc2__prep2_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2_7 _)
  isplitl [H8]
  · iexists _; isplitr
    swap; · iexact H8
    ipureintro
    exact View.read_writes_eq_canon _ _ _ (cover2_8 _)
  iexists _; isplitr
  swap; · iexact H9
  ipureintro
  exact View.read_writes_eq_canon _ _ _ (cover2_8 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 3 t)
    | ⟨8, _⟩ => out2_8 (iblk2 V c 1 t) (iblk2 V c 2 t)
    | ⟨9, _⟩ => out2_9 (iblk2 V c 1 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 3 t) := by dsimp only [dat2]
theorem after2_8 (c : Dev nD) (t : Fin cfg2.N) : (dat2 V c).after 8 t = out2_8 (iblk2 V c 1 t) (iblk2 V c 2 t) := by dsimp only [dat2]
theorem after2_9 (c : Dev nD) (t : Fin cfg2.N) : (dat2 V c).after 9 t = out2_9 (iblk2 V c 1 t) (iblk2 V c 4 t) (iblk2 V c 5 t) (iblk2 V c 6 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

set_option maxHeartbeats 1000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  iframe H0 H1 H2 H3 H4 H5 H6
  isplitl [H7]; · iexists _; iexact H7
  isplitl [H8]; · iexists _; iexact H8
  isplitl [H9]; · iexists _; iexact H9
  iintro ⟨H0, H1, H2, H3, H4, H5, H6, H7, H8, H9⟩
  iframe

theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.K.Reg3.lean ====
import proofs.«109581_g76012331204772_cont_9to1_m_125_6_alg».proof.Proof.Gen.Kernel.Launch
import proofs.«109581_g76012331204772_cont_9to1_m_125_6_alg».proof.Proof.Gen.Kernel.Skeleton
import proofs.«109581_g76012331204772_cont_9to1_m_125_6_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_Trows (i : grid3.Coords) : Rect S4096x2048 := Rect.unit (s := S4096x2048) (k3_off1 i) S256x2048.size (k3_off1_inb i)

abbrev r3_Hrows (i : grid3.Coords) : Rect S4096x16 := Rect.unit (s := S4096x16) (k3_off2 i) S256x16.size (k3_off2_inb i)

abbrev r3_d : Rect S1x2048 := Rect.unit (s := S1x2048) ![0, 0] S1x2048.size inb_S1x2048_S1x2048_0_0
abbrev r3_T : Rect S4096x2048 := Rect.unit (s := S4096x2048) ![0, 0] S4096x2048.size inb_S4096x2048_S4096x2048_0_0
abbrev r3_adj : Rect S4096x256 := Rect.unit (s := S4096x256) ![0, 0] S4096x256.size inb_S4096x256_S4096x256_0_0
abbrev r3_b : Rect S1x16 := Rect.unit (s := S1x16) ![0, 0] S1x16.size inb_S1x16_S1x16_0_0
abbrev r3_o : Rect S4096x16 := Rect.unit (s := S4096x16) ![0, 0] S4096x16.size inb_S4096x16_S4096x16_0_0

def out3_A (i : grid3.Coords) (x0 : Vec F S1x2048 .f32) (x1 : Vec F S4096x2048 .f32) (x2 : Vec F S4096x256 .f32)
    (x3 : Vec F S4096x16 .f32) (x4 : Vec F S1x16 .f32) : Vec F S4096x16 .f32 :=
  k3_pay2 i (View.ld x1 (r3_Trows i)) (View.ld x0 r3_d) (View.ld x1 r3_T) (View.ld x2 r3_adj) (View.ld x3 (r3_Hrows i)) (View.ld x4 r3_b)

def out3_B (i : grid3.Coords) (x0 : Vec F S1x2048 .f32) (x1 : Vec F S4096x2048 .f32) (x2 : Vec F S4096x256 .f32)
    (x3 : Vec F S4096x16 .f32) (prev : Vec F S4096x16 .f32) : Vec F S4096x16 .f32 :=
  k3_pay3 i (View.ld x1 (r3_Trows i)) (View.ld x0 r3_d) (View.ld x1 r3_T) (View.ld x2 r3_adj) (View.ld x3 (r3_Hrows i)) prev

def out3_C (i : grid3.Coords) (x0 : Vec F S1x2048 .f32) (x1 : Vec F S4096x2048 .f32) (x2 : Vec F S4096x256 .f32)
    (x3 : Vec F S4096x16 .f32) (prev : Vec F S4096x16 .f32) : Vec F S4096x16 .f32 :=
  k3_pay4 (out3_B i x0 x1 x2 x3 prev)

def outsAt3 (c : Dev nD) : (n : ℕ) → n < cfg3.N → Vec F S4096x16 .f32
  | 0, hn => out3_A (grid3.coords ⟨0, hn⟩) (iblk3 V c 0 ⟨0, hn⟩) (iblk3 V c 1 ⟨0, hn⟩) (iblk3 V c 2 ⟨0, hn⟩) (iblk3 V c 3 ⟨0, hn⟩) (iblk3 V c 4 ⟨0, hn⟩)
  | n + 1, hn =>
    if n + 1 = 15 then
      out3_C (grid3.coords ⟨n + 1, hn⟩) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn))
    else
      out3_B (grid3.coords ⟨n + 1, hn⟩) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn))

theorem outsAt3_A (c : Dev nD) (t : Fin cfg3.N) (h0 : t.val = 0) :
    outsAt3 V c t.val t.isLt = out3_A (grid3.coords t) (iblk3 V c 0 t) (iblk3 V c 1 t) (iblk3 V c 2 t) (iblk3 V c 3 t) (iblk3 V c 4 t) := by
  obtain ⟨n, hn⟩ := t
  cases n with
  | zero => exact rfl
  | succ n => exact absurd h0 (Nat.succ_ne_zero n)

theorem outsAt3_B (c : Dev nD) (t : Fin cfg3.N) (h0 : ¬t.val = 0) (h7 : ¬t.val = 15) :
    outsAt3 V c t.val t.isLt = out3_B (grid3.coords t) (iblk3 V c 0 t) (iblk3 V c 1 t) (iblk3 V c 2 t) (iblk3 V c 3 t)
      (outsAt3 V c (t.val - 1) (Nat.lt_of_le_of_lt (Nat.sub_le _ _) t.isLt)) := by
  obtain ⟨n, hn⟩ := t
  cases n with
  | zero => exact absurd rfl h0
  | succ n => exact (if_neg h7).trans rfl

theorem outsAt3_C (c : Dev nD) (t : Fin cfg3.N) (h7 : t.val = 15) :
    outsAt3 V c t.val t.isLt = out3_C (grid3.coords t) (iblk3 V c 0 t) (iblk3 V c 1 t) (iblk3 V c 2 t) (iblk3 V c 3 t)
      (outsAt3 V c (t.val - 1) (Nat.lt_of_le_of_lt (Nat.sub_le _ _) t.isLt)) := by
  obtain ⟨n, hn⟩ := t
  cases n with
  | zero => exact absurd h7 (by dsimp only; omega)
  | succ n => exact (if_pos h7).trans rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => outsAt3 V c t.val t.isLt
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = outsAt3 V c t.val t.isLt := by dsimp only [dat3]

theorem zero2_3 : (![0, 0] : Fin 2 → Nat) = fun _ => 0 := by funext a; fin_cases a <;> rfl

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

theorem live3_5 : ∀ i : grid3.Coords, cfg3.idle 5 i = false :=
  (by decide +kernel : ∀ i : grid3.Coords, idle3 5 i = false)

theorem before3_5_kept (c : Dev nD) (t : Fin cfg3.N) (h0 : ¬t.val = 0) (d) :
    (dat3 V c).before 5 t d = outsAt3 V c (t.val - 1) (Nat.lt_of_le_of_lt (Nat.sub_le _ _) t.isLt) := by
  have hN : t.val < 16 := lt_of_lt_of_eq t.isLt (show cfg3.N = 16 from N_3)
  rw [Dat.before_out_kept _ 5 rfl t h0 (Bool.eq_false_iff.mpr fun h => by have := (flush3_5 _).mp h; dsimp only at this; omega)
    live3_5 (fun _ _ => rfl)]
  dsimp only [dat3]

theorem hcond3_1 : ∀ t : Fin cfg3.N, k3_cond1 (grid3.coords t) = 1#1 ↔ t.val = 0 :=
  (by decide +kernel : ∀ t : Fin grid3.N, k3_cond1 (grid3.coords t) = 1#1 ↔ t.val = 0)

theorem hcond3_2 : ∀ t : Fin cfg3.N, k3_cond2 (grid3.coords t) = 1#1 ↔ ¬t.val = 0 :=
  (by decide +kernel : ∀ t : Fin grid3.N, k3_cond2 (grid3.coords t) = 1#1 ↔ ¬t.val = 0)

theorem hcond3_3 : ∀ t : Fin cfg3.N, k3_cond3 (grid3.coords t) = 1#1 ↔ t.val = 15 :=
  (by decide +kernel : ∀ t : Fin grid3.N, k3_cond3 (grid3.coords t) = 1#1 ↔ t.val = 15)

theorem cover3_o (p : Vec F S4096x16 .f32) (L : List (View.Piece (Elt F) S4096x16 .f32)) (y : S4096x16.Idx) :
    ∃ pc ∈ ((⟨r3_o, p⟩ : View.Piece (Elt F) S4096x16 .f32) :: L), y ∈ pc.1.set :=
  ⟨_, List.mem_cons_self, View.mem_set_unit_zero zero2_3 inb_S4096x16_S4096x16_0_0 y⟩

section
variable (c : Dev nD) (E : Set ℕ) (i : grid3.Coords)
    (arg1 : Memref sig .tc .vmem S1x2048 .f32) (harg1 : arg1.IsWhole) (arg2 : Memref sig .tc .vmem S4096x2048 .f32) (harg2 : arg2.IsWhole)
    (arg3 : Memref sig .tc .vmem S4096x256 .f32) (harg3 : arg3.IsWhole) (arg4 : Memref sig .tc .vmem S4096x16 .f32) (harg4 : arg4.IsWhole)
    (arg5 : Memref sig .tc .vmem S1x16 .f32) (harg5 : arg5.IsWhole) (arg6 : Memref sig .tc .vmem S4096x16 .f32) (harg6 : arg6.IsWhole)

set_option maxHeartbeats 1000000 in

theorem sound_kernel3_A (hc1 : k3_cond1 i = 1#1) (hc2 : ¬k3_cond2 i = 1#1) (hc3 : ¬k3_cond3 i = 1#1)
    (x0 : Vec F S1x2048 .f32) (x1 : Vec F S4096x2048 .f32) (x2 : Vec F S4096x256 .f32) (x3 : Vec F S4096x16 .f32) (x4 : Vec F S1x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out3_A i x0 x1 x2 x3 x4)) -∗ K ⟨⟩))
      ⊢ wp frame (wpE (defs₀ (F := F)) Variants.none c none) E (cc3__fused_gc_body i arg1 harg1 arg2 harg2 arg3 harg3 arg4 harg4 arg5 harg5 arg6 harg6) K := by
  simp only [cc3__fused_gc_body_eq_skeleton]; unfold cc3__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover3_o _ _), View.canon_cons_unit_zero zero2_3]
  rfl

set_option maxHeartbeats 1000000 in

theorem sound_kernel3_B (hc1 : ¬k3_cond1 i = 1#1) (hc2 : k3_cond2 i = 1#1) (hc3 : ¬k3_cond3 i = 1#1)
    (x0 : Vec F S1x2048 .f32) (x1 : Vec F S4096x2048 .f32) (x2 : Vec F S4096x256 .f32) (x3 : Vec F S4096x16 .f32) (x4 : Vec F S1x16 .f32) (prev : Vec F S4096x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare prev
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out3_B i x0 x1 x2 x3 prev)) -∗ K ⟨⟩))
      ⊢ wp frame (wpE (defs₀ (F := F)) Variants.none c none) E (cc3__fused_gc_body i arg1 harg1 arg2 harg2 arg3 harg3 arg4 harg4 arg5 harg5 arg6 harg6) K := by
  simp only [cc3__fused_gc_body_eq_skeleton]; unfold cc3__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover3_o _ _), View.canon_cons_unit_zero zero2_3]
  unfold out3_B
  exact congrArg (k3_pay3 i _ _ _ _ _) (View.ld_unit_zero zero2_3 _ _)

set_option maxHeartbeats 1000000 in

theorem sound_kernel3_C (hc1 : ¬k3_cond1 i = 1#1) (hc2 : k3_cond2 i = 1#1) (hc3 : k3_cond3 i = 1#1)
    (x0 : Vec F S1x2048 .f32) (x1 : Vec F S4096x2048 .f32) (x2 : Vec F S4096x256 .f32) (x3 : Vec F S4096x16 .f32) (x4 : Vec F S1x16 .f32) (prev : Vec F S4096x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare prev
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out3_C i x0 x1 x2 x3 prev)) -∗ K ⟨⟩))
      ⊢ wp frame (wpE (defs₀ (F := F)) Variants.none c none) E (cc3__fused_gc_body i arg1 harg1 arg2 harg2 arg3 harg3 arg4 harg4 arg5 harg5 arg6 harg6) K := by
  simp only [cc3__fused_gc_body_eq_skeleton]; unfold cc3__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover3_o _ _), View.canon_cons_unit_zero zero2_3]
  sl_unfold_run_names
  rw [View.readCov_unit_zero _ zero2_3]
  unfold out3_C out3_B
  exact congrArg (fun p => k3_pay4 (k3_pay3 i _ _ _ _ _ p)) (View.ld_unit_zero zero2_3 _ _)

end

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 1000000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  have hN : t.val < 16 := lt_of_lt_of_eq t.isLt (show cfg3.N = 16 from N_3)
  by_cases h0 : t.val = 0
  · rw [outsAt3_A V c t h0]
    iintro ⟨HΦ, Ho, ⟨%d0, H0⟩, ⟨%d1, H1⟩, ⟨%d2, H2⟩, ⟨%d3, H3⟩, ⟨%d4, H4⟩, ⟨%d5, H5⟩⟩
    iapply (sound_kernel3_A c Set.univ (grid3.coords t) _ _ _ _ _ _ _ _ _ _ _ _ ((hcond3_1 t).mpr h0) (fun h => (hcond3_2 t).mp h h0)
      (fun h => by have := (hcond3_3 t).mp h; omega) (iblk3 V c 0 t) (iblk3 V c 1 t) (iblk3 V c 2 t) (iblk3 V c 3 t) (iblk3 V c 4 t) _)
    iframe H0 H1 H2 H3 H4
    isplitl [H5]; · iexists _; iexact H5
    iintro ⟨H0, H1, H2, H3, H4, H5⟩
    iframe
  · by_cases h7 : t.val = 15
    · rw [outsAt3_C V c t h7]
      simp only [before3_5_kept V c t h0]
      iintro ⟨HΦ, Ho, ⟨%d0, H0⟩, ⟨%d1, H1⟩, ⟨%d2, H2⟩, ⟨%d3, H3⟩, ⟨%d4, H4⟩, ⟨%d5, H5⟩⟩
      iapply (sound_kernel3_C c Set.univ (grid3.coords t) _ _ _ _ _ _ _ _ _ _ _ _ (fun h => h0 ((hcond3_1 t).mp h)) ((hcond3_2 t).mpr h0)
        ((hcond3_3 t).mpr h7) (iblk3 V c 0 t) (iblk3 V c 1 t) (iblk3 V c 2 t) (iblk3 V c 3 t) (iblk3 V c 4 t) _ _)
      iframe H0 H1 H2 H3 H4 H5
      iintro ⟨H0, H1, H2, H3, H4, H5⟩
      iframe
    · rw [outsAt3_B V c t h0 h7]
      simp only [before3_5_kept V c t h0]
      iintro ⟨HΦ, Ho, ⟨%d0, H0⟩, ⟨%d1, H1⟩, ⟨%d2, H2⟩, ⟨%d3, H3⟩, ⟨%d4, H4⟩, ⟨%d5, H5⟩⟩
      iapply (sound_kernel3_B c Set.univ (grid3.coords t) _ _ _ _ _ _ _ _ _ _ _ _ (fun h => h0 ((hcond3_1 t).mp h)) ((hcond3_2 t).mpr h0)
        (fun h => h7 ((hcond3_3 t).mp h)) (iblk3 V c 0 t) (iblk3 V c 1 t) (iblk3 V c 2 t) (iblk3 V c 3 t) (iblk3 V c 4 t) _ _)
      iframe H0 H1 H2 H3 H4 H5
      iintro ⟨H0, H1, H2, H3, H4, H5⟩
      iframe

set_option maxHeartbeats 1000000 in

theorem body_obligation3 (c : Dev nD) : BodyObligation (dat3 (F := F) V c) (defs₀ (F := F)) Variants.none () Set.univ := fun t => by
  rw [bigSep_W3, bigSep_W3]
  have h5 : cfg3.idle (5 : Fin 6) (cfg3.grid.coords t) = false := live3_5 _
  rw [h5]
  exact sound_body3 V c t

end Cert.Kernel.Hand

end
-- ==== Proof.K.Reg4.lean ====
import proofs.«109581_g76012331204772_cont_9to1_m_125_6_alg».proof.Proof.Gen.Kernel.Launch
import proofs.«109581_g76012331204772_cont_9to1_m_125_6_alg».proof.Proof.Gen.Kernel.Skeleton
import proofs.«109581_g76012331204772_cont_9to1_m_125_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1x32 := Rect.unit (s := S1x32) ![0, 0] S1x32.size inb_S1x32_S1x32_0_0
abbrev r4_1 : Rect S4096x32 := Rect.unit (s := S4096x32) ![0, 0] S4096x32.size inb_S4096x32_S4096x32_0_0
abbrev r4_2 : Rect S1x4096 := Rect.unit (s := S1x4096) ![0, 0] S1x4096.size inb_S1x4096_S1x4096_0_0
abbrev r4_3 : Rect S2048x256 := Rect.unit (s := S2048x256) ![0, 0] S2048x256.size inb_S2048x256_S2048x256_0_0
abbrev r4_4 : Rect S256x128 := Rect.unit (s := S256x128) ![0, 0] S256x128.size inb_S256x128_S256x128_0_0
abbrev r4_5 : Rect S2048x128 := Rect.unit (s := S2048x128) ![0, 0] S2048x128.size inb_S2048x128_S2048x128_0_0

def out4_4 (x0 : Vec F S2048x256 .f32) (x1 : Vec F S4096x32 .f32) (x2 : Vec F S256x128 .f32) (x3 : Vec F S1x32 .f32) : Vec F S1x4096 .f32 :=
  View.canon [⟨r4_2, k4_pay1 (View.ld x3 r4_0) (View.ld x1 r4_1)⟩]

theorem cover4_4 (p0 : Vec F S1x4096 .f32) (y : S1x4096.Idx) :
    ∃ pc ∈ ([⟨r4_2, p0⟩] : List (View.Piece (Elt F) S1x4096 .f32)), y ∈ pc.1.set :=
  View.cover_of_tiled [⟨r4_2, p0⟩] S1x4096.size (by rfl) y

def out4_5 (x0 : Vec F S2048x256 .f32) (x1 : Vec F S4096x32 .f32) (x2 : Vec F S256x128 .f32) (x3 : Vec F S1x32 .f32) : Vec F S2048x128 .f32 :=
  View.canon [⟨r4_5, k4_pay2 (View.ld x0 r4_3) (View.ld x2 r4_4)⟩]

theorem cover4_5 (p0 : Vec F S2048x128 .f32) (y : S2048x128.Idx) :
    ∃ pc ∈ ([⟨r4_5, p0⟩] : List (View.Piece (Elt F) S2048x128 .f32)), y ∈ pc.1.set :=
  View.cover_of_tiled [⟨r4_5, p0⟩] S2048x128.size (by rfl) y

set_option maxHeartbeats 4000000 in

theorem sound_kernel4 (c : Dev nD) (E : Set ℕ) (arg0 : Memref sig .tc .vmem S2048x256 .f32) (harg0 : arg0.IsWhole) (arg1 : Memref sig .tc .vmem S4096x32 .f32) (harg1 : arg1.IsWhole) (arg2 : Memref sig .tc .vmem S256x128 .f32) (harg2 : arg2.IsWhole) (arg3 : Memref sig .tc .vmem S1x32 .f32) (harg3 : arg3.IsWhole) (arg4 : Memref sig .tc .vmem S1x4096 .f32) (harg4 : arg4.IsWhole) (arg5 : Memref sig .tc .vmem S2048x128 .f32) (harg5 : arg5.IsWhole)
    (x0 : Vec F S2048x256 .f32) (x1 : Vec F S4096x32 .f32) (x2 : Vec F S256x128 .f32) (x3 : Vec F S1x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out4_4 x0 x1 x2 x3) ∗ owns (c : Thread nD τ) arg5 fullShare (out4_5 x0 x1 x2 x3)) -∗ K ⟨⟩))
      ⊢ wp frame (wpE (defs₀ (F := F)) Variants.none c none) E (cc4__prep35_body arg0 harg0 arg1 harg1 arg2 harg2 arg3 harg3 arg4 harg4 arg5 harg5) K := by
  simp only [cc4__prep35_body_eq_skeleton]; unfold cc4__prep35_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4_4 _)
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
    | ⟨5, _⟩ => out4_5 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]
theorem after4_5 (c : Dev nD) (t : Fin cfg4.N) : (dat4 V c).after 5 t = out4_5 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ (iblk4 V c 0 t) (iblk4 V c 1 t) (iblk4 V c 2 t) (iblk4 V c 3 t) _)
  iframe H0 H1 H2 H3
  isplitl [H4]; · iexists _; iexact H4
  isplitl [H5]; · iexists _; iexact H5
  iintro ⟨H0, H1, H2, H3, H4, H5⟩
  iframe

theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.K.Reg5.lean ====
import proofs.«109581_g76012331204772_cont_9to1_m_125_6_alg».proof.Proof.Gen.Kernel.Launch
import proofs.«109581_g76012331204772_cont_9to1_m_125_6_alg».proof.Proof.Gen.Kernel.Skeleton
import proofs.«109581_g76012331204772_cont_9to1_m_125_6_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_Trows (i : grid5.Coords) : Rect S2048x4096 := Rect.unit (s := S2048x4096) (k5_off1 i) S256x4096.size (k5_off1_inb i)

abbrev r5_Hrows (i : grid5.Coords) : Rect S2048x128 := Rect.unit (s := S2048x128) (k5_off2 i) S256x128.size (k5_off2_inb i)

abbrev r5_d : Rect S1x4096 := Rect.unit (s := S1x4096) ![0, 0] S1x4096.size inb_S1x4096_S1x4096_0_0
abbrev r5_T : Rect S2048x4096 := Rect.unit (s := S2048x4096) ![0, 0] S2048x4096.size inb_S2048x4096_S2048x4096_0_0
abbrev r5_adj : Rect S2048x256 := Rect.unit (s := S2048x256) ![0, 0] S2048x256.size inb_S2048x256_S2048x256_0_0
abbrev r5_b : Rect S1x128 := Rect.unit (s := S1x128) ![0, 0] S1x128.size inb_S1x128_S1x128_0_0
abbrev r5_o : Rect S2048x128 := Rect.unit (s := S2048x128) ![0, 0] S2048x128.size inb_S2048x128_S2048x128_0_0

def out5_A (i : grid5.Coords) (x0 : Vec F S1x4096 .f32) (x1 : Vec F S2048x4096 .f32) (x2 : Vec F S2048x256 .f32)
    (x3 : Vec F S2048x128 .f32) (x4 : Vec F S1x128 .f32) : Vec F S2048x128 .f32 :=
  k5_pay2 i (View.ld x1 (r5_Trows i)) (View.ld x0 r5_d) (View.ld x1 r5_T) (View.ld x2 r5_adj) (View.ld x3 (r5_Hrows i)) (View.ld x4 r5_b)

def out5_B (i : grid5.Coords) (x0 : Vec F S1x4096 .f32) (x1 : Vec F S2048x4096 .f32) (x2 : Vec F S2048x256 .f32)
    (x3 : Vec F S2048x128 .f32) (prev : Vec F S2048x128 .f32) : Vec F S2048x128 .f32 :=
  k5_pay3 i (View.ld x1 (r5_Trows i)) (View.ld x0 r5_d) (View.ld x1 r5_T) (View.ld x2 r5_adj) (View.ld x3 (r5_Hrows i)) prev

def out5_C (i : grid5.Coords) (x0 : Vec F S1x4096 .f32) (x1 : Vec F S2048x4096 .f32) (x2 : Vec F S2048x256 .f32)
    (x3 : Vec F S2048x128 .f32) (prev : Vec F S2048x128 .f32) : Vec F S2048x128 .f32 :=
  k5_pay4 (out5_B i x0 x1 x2 x3 prev)

def outsAt5 (c : Dev nD) : (n : ℕ) → n < cfg5.N → Vec F S2048x128 .f32
  | 0, hn => out5_A (grid5.coords ⟨0, hn⟩) (iblk5 V c 0 ⟨0, hn⟩) (iblk5 V c 1 ⟨0, hn⟩) (iblk5 V c 2 ⟨0, hn⟩) (iblk5 V c 3 ⟨0, hn⟩) (iblk5 V c 4 ⟨0, hn⟩)
  | n + 1, hn =>
    if n + 1 = 7 then
      out5_C (grid5.coords ⟨n + 1, hn⟩) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn))
    else
      out5_B (grid5.coords ⟨n + 1, hn⟩) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn))

theorem outsAt5_A (c : Dev nD) (t : Fin cfg5.N) (h0 : t.val = 0) :
    outsAt5 V c t.val t.isLt = out5_A (grid5.coords t) (iblk5 V c 0 t) (iblk5 V c 1 t) (iblk5 V c 2 t) (iblk5 V c 3 t) (iblk5 V c 4 t) := by
  obtain ⟨n, hn⟩ := t
  cases n with
  | zero => exact rfl
  | succ n => exact absurd h0 (Nat.succ_ne_zero n)

theorem outsAt5_B (c : Dev nD) (t : Fin cfg5.N) (h0 : ¬t.val = 0) (h7 : ¬t.val = 7) :
    outsAt5 V c t.val t.isLt = out5_B (grid5.coords t) (iblk5 V c 0 t) (iblk5 V c 1 t) (iblk5 V c 2 t) (iblk5 V c 3 t)
      (outsAt5 V c (t.val - 1) (Nat.lt_of_le_of_lt (Nat.sub_le _ _) t.isLt)) := by
  obtain ⟨n, hn⟩ := t
  cases n with
  | zero => exact absurd rfl h0
  | succ n => exact (if_neg h7).trans rfl

theorem outsAt5_C (c : Dev nD) (t : Fin cfg5.N) (h7 : t.val = 7) :
    outsAt5 V c t.val t.isLt = out5_C (grid5.coords t) (iblk5 V c 0 t) (iblk5 V c 1 t) (iblk5 V c 2 t) (iblk5 V c 3 t)
      (outsAt5 V c (t.val - 1) (Nat.lt_of_le_of_lt (Nat.sub_le _ _) t.isLt)) := by
  obtain ⟨n, hn⟩ := t
  cases n with
  | zero => exact absurd h7 (by dsimp only; omega)
  | succ n => exact (if_pos h7).trans rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => outsAt5 V c t.val t.isLt
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = outsAt5 V c t.val t.isLt := by dsimp only [dat5]

theorem zero2_5 : (![0, 0] : Fin 2 → Nat) = fun _ => 0 := by funext a; fin_cases a <;> rfl

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)

theorem live5_5 : ∀ i : grid5.Coords, cfg5.idle 5 i = false :=
  (by decide +kernel : ∀ i : grid5.Coords, idle5 5 i = false)

theorem before5_5_kept (c : Dev nD) (t : Fin cfg5.N) (h0 : ¬t.val = 0) (d) :
    (dat5 V c).before 5 t d = outsAt5 V c (t.val - 1) (Nat.lt_of_le_of_lt (Nat.sub_le _ _) t.isLt) := by
  have hN : t.val < 8 := lt_of_lt_of_eq t.isLt (show cfg5.N = 8 from N_5)
  rw [Dat.before_out_kept _ 5 rfl t h0 (Bool.eq_false_iff.mpr fun h => by have := (flush5_5 _).mp h; dsimp only at this; omega)
    live5_5 (fun _ _ => rfl)]
  dsimp only [dat5]

theorem hcond5_1 : ∀ t : Fin cfg5.N, k5_cond1 (grid5.coords t) = 1#1 ↔ t.val = 0 :=
  (by decide +kernel : ∀ t : Fin grid5.N, k5_cond1 (grid5.coords t) = 1#1 ↔ t.val = 0)

theorem hcond5_2 : ∀ t : Fin cfg5.N, k5_cond2 (grid5.coords t) = 1#1 ↔ ¬t.val = 0 :=
  (by decide +kernel : ∀ t : Fin grid5.N, k5_cond2 (grid5.coords t) = 1#1 ↔ ¬t.val = 0)

theorem hcond5_3 : ∀ t : Fin cfg5.N, k5_cond3 (grid5.coords t) = 1#1 ↔ t.val = 7 :=
  (by decide +kernel : ∀ t : Fin grid5.N, k5_cond3 (grid5.coords t) = 1#1 ↔ t.val = 7)

theorem cover5_o (p : Vec F S2048x128 .f32) (L : List (View.Piece (Elt F) S2048x128 .f32)) (y : S2048x128.Idx) :
    ∃ pc ∈ ((⟨r5_o, p⟩ : View.Piece (Elt F) S2048x128 .f32) :: L), y ∈ pc.1.set :=
  ⟨_, List.mem_cons_self, View.mem_set_unit_zero zero2_5 inb_S2048x128_S2048x128_0_0 y⟩

section
variable (c : Dev nD) (E : Set ℕ) (i : grid5.Coords)
    (arg1 : Memref sig .tc .vmem S1x4096 .f32) (harg1 : arg1.IsWhole) (arg2 : Memref sig .tc .vmem S2048x4096 .f32) (harg2 : arg2.IsWhole)
    (arg3 : Memref sig .tc .vmem S2048x256 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S2048x128 .f32) (harg6 : arg6.IsWhole)

set_option maxHeartbeats 1000000 in

theorem sound_kernel5_A (hc1 : k5_cond1 i = 1#1) (hc2 : ¬k5_cond2 i = 1#1) (hc3 : ¬k5_cond3 i = 1#1)
    (x0 : Vec F S1x4096 .f32) (x1 : Vec F S2048x4096 .f32) (x2 : Vec F S2048x256 .f32) (x3 : Vec F S2048x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out5_A i x0 x1 x2 x3 x4)) -∗ K ⟨⟩))
      ⊢ wp frame (wpE (defs₀ (F := F)) Variants.none c none) E (cc5__fused_gc_body i arg1 harg1 arg2 harg2 arg3 harg3 arg4 harg4 arg5 harg5 arg6 harg6) K := by
  simp only [cc5__fused_gc_body_eq_skeleton]; unfold cc5__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover5_o _ _), View.canon_cons_unit_zero zero2_5]
  rfl

set_option maxHeartbeats 1000000 in

theorem sound_kernel5_B (hc1 : ¬k5_cond1 i = 1#1) (hc2 : k5_cond2 i = 1#1) (hc3 : ¬k5_cond3 i = 1#1)
    (x0 : Vec F S1x4096 .f32) (x1 : Vec F S2048x4096 .f32) (x2 : Vec F S2048x256 .f32) (x3 : Vec F S2048x128 .f32) (x4 : Vec F S1x128 .f32) (prev : Vec F S2048x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare prev
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out5_B i x0 x1 x2 x3 prev)) -∗ K ⟨⟩))
      ⊢ wp frame (wpE (defs₀ (F := F)) Variants.none c none) E (cc5__fused_gc_body i arg1 harg1 arg2 harg2 arg3 harg3 arg4 harg4 arg5 harg5 arg6 harg6) K := by
  simp only [cc5__fused_gc_body_eq_skeleton]; unfold cc5__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover5_o _ _), View.canon_cons_unit_zero zero2_5]
  unfold out5_B
  exact congrArg (k5_pay3 i _ _ _ _ _) (View.ld_unit_zero zero2_5 _ _)

set_option maxHeartbeats 1000000 in

theorem sound_kernel5_C (hc1 : ¬k5_cond1 i = 1#1) (hc2 : k5_cond2 i = 1#1) (hc3 : k5_cond3 i = 1#1)
    (x0 : Vec F S1x4096 .f32) (x1 : Vec F S2048x4096 .f32) (x2 : Vec F S2048x256 .f32) (x3 : Vec F S2048x128 .f32) (x4 : Vec F S1x128 .f32) (prev : Vec F S2048x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare prev
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out5_C i x0 x1 x2 x3 prev)) -∗ K ⟨⟩))
      ⊢ wp frame (wpE (defs₀ (F := F)) Variants.none c none) E (cc5__fused_gc_body i arg1 harg1 arg2 harg2 arg3 harg3 arg4 harg4 arg5 harg5 arg6 harg6) K := by
  simp only [cc5__fused_gc_body_eq_skeleton]; unfold cc5__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover5_o _ _), View.canon_cons_unit_zero zero2_5]
  sl_unfold_run_names
  rw [View.readCov_unit_zero _ zero2_5]
  unfold out5_C out5_B
  exact congrArg (fun p => k5_pay4 (k5_pay3 i _ _ _ _ _ p)) (View.ld_unit_zero zero2_5 _ _)

end

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

set_option maxHeartbeats 1000000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  have hN : t.val < 8 := lt_of_lt_of_eq t.isLt (show cfg5.N = 8 from N_5)
  by_cases h0 : t.val = 0
  · rw [outsAt5_A V c t h0]
    iintro ⟨HΦ, Ho, ⟨%d0, H0⟩, ⟨%d1, H1⟩, ⟨%d2, H2⟩, ⟨%d3, H3⟩, ⟨%d4, H4⟩, ⟨%d5, H5⟩⟩
    iapply (sound_kernel5_A c Set.univ (grid5.coords t) _ _ _ _ _ _ _ _ _ _ _ _ ((hcond5_1 t).mpr h0) (fun h => (hcond5_2 t).mp h h0)
      (fun h => by have := (hcond5_3 t).mp h; omega) (iblk5 V c 0 t) (iblk5 V c 1 t) (iblk5 V c 2 t) (iblk5 V c 3 t) (iblk5 V c 4 t) _)
    iframe H0 H1 H2 H3 H4
    isplitl [H5]; · iexists _; iexact H5
    iintro ⟨H0, H1, H2, H3, H4, H5⟩
    iframe
  · by_cases h7 : t.val = 7
    · rw [outsAt5_C V c t h7]
      simp only [before5_5_kept V c t h0]
      iintro ⟨HΦ, Ho, ⟨%d0, H0⟩, ⟨%d1, H1⟩, ⟨%d2, H2⟩, ⟨%d3, H3⟩, ⟨%d4, H4⟩, ⟨%d5, H5⟩⟩
      iapply (sound_kernel5_C c Set.univ (grid5.coords t) _ _ _ _ _ _ _ _ _ _ _ _ (fun h => h0 ((hcond5_1 t).mp h)) ((hcond5_2 t).mpr h0)
        ((hcond5_3 t).mpr h7) (iblk5 V c 0 t) (iblk5 V c 1 t) (iblk5 V c 2 t) (iblk5 V c 3 t) (iblk5 V c 4 t) _ _)
      iframe H0 H1 H2 H3 H4 H5
      iintro ⟨H0, H1, H2, H3, H4, H5⟩
      iframe
    · rw [outsAt5_B V c t h0 h7]
      simp only [before5_5_kept V c t h0]
      iintro ⟨HΦ, Ho, ⟨%d0, H0⟩, ⟨%d1, H1⟩, ⟨%d2, H2⟩, ⟨%d3, H3⟩, ⟨%d4, H4⟩, ⟨%d5, H5⟩⟩
      iapply (sound_kernel5_B c Set.univ (grid5.coords t) _ _ _ _ _ _ _ _ _ _ _ _ (fun h => h0 ((hcond5_1 t).mp h)) ((hcond5_2 t).mpr h0)
        (fun h => h7 ((hcond5_3 t).mp h)) (iblk5 V c 0 t) (iblk5 V c 1 t) (iblk5 V c 2 t) (iblk5 V c 3 t) (iblk5 V c 4 t) _ _)
      iframe H0 H1 H2 H3 H4 H5
      iintro ⟨H0, H1, H2, H3, H4, H5⟩
      iframe

set_option maxHeartbeats 1000000 in

theorem body_obligation5 (c : Dev nD) : BodyObligation (dat5 (F := F) V c) (defs₀ (F := F)) Variants.none () Set.univ := fun t => by
  rw [bigSep_W5, bigSep_W5]
  have h5 : cfg5.idle (5 : Fin 6) (cfg5.grid.coords t) = false := live5_5 _
  rw [h5]
  exact sound_body5 V c t

end Cert.Kernel.Hand

end
-- ==== Proof.K.Reg6.lean ====
import proofs.«109581_g76012331204772_cont_9to1_m_125_6_alg».proof.Proof.Gen.Kernel.Launch
import proofs.«109581_g76012331204772_cont_9to1_m_125_6_alg».proof.Proof.Gen.Kernel.Skeleton
import proofs.«109581_g76012331204772_cont_9to1_m_125_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S1x128 := Rect.unit (s := S1x128) ![0, 0] S1x128.size inb_S1x128_S1x128_0_0
abbrev r6_1 : Rect S2048x128 := Rect.unit (s := S2048x128) ![0, 0] S2048x128.size inb_S2048x128_S2048x128_0_0
abbrev r6_2 : Rect S1x2048 := Rect.unit (s := S1x2048) ![0, 0] S1x2048.size inb_S1x2048_S1x2048_0_0
abbrev r6_3 : Rect S4096x32 := Rect.unit (s := S4096x32) ![0, 0] S4096x32.size inb_S4096x32_S4096x32_0_0
abbrev r6_4 : Rect S32x16 := Rect.unit (s := S32x16) ![0, 0] S32x16.size inb_S32x16_S32x16_0_0
abbrev r6_5 : Rect S4096x16 := Rect.unit (s := S4096x16) ![0, 0] S4096x16.size inb_S4096x16_S4096x16_0_0

def out6_4 (x0 : Vec F S2048x128 .f32) (x1 : Vec F S4096x32 .f32) (x2 : Vec F S32x16 .f32) (x3 : Vec F S1x128 .f32) : Vec F S1x2048 .f32 :=
  View.canon [⟨r6_2, k6_pay1 (View.ld x3 r6_0) (View.ld x0 r6_1)⟩]

theorem cover6_4 (p0 : Vec F S1x2048 .f32) (y : S1x2048.Idx) :
    ∃ pc ∈ ([⟨r6_2, p0⟩] : List (View.Piece (Elt F) S1x2048 .f32)), y ∈ pc.1.set :=
  View.cover_of_tiled [⟨r6_2, p0⟩] S1x2048.size (by rfl) y

def out6_5 (x0 : Vec F S2048x128 .f32) (x1 : Vec F S4096x32 .f32) (x2 : Vec F S32x16 .f32) (x3 : Vec F S1x128 .f32) : Vec F S4096x16 .f32 :=
  View.canon [⟨r6_5, k6_pay2 (View.ld x1 r6_3) (View.ld x2 r6_4)⟩]

theorem cover6_5 (p0 : Vec F S4096x16 .f32) (y : S4096x16.Idx) :
    ∃ pc ∈ ([⟨r6_5, p0⟩] : List (View.Piece (Elt F) S4096x16 .f32)), y ∈ pc.1.set :=
  View.cover_of_tiled [⟨r6_5, p0⟩] S4096x16.size (by rfl) y

set_option maxHeartbeats 4000000 in

theorem sound_kernel6 (c : Dev nD) (E : Set ℕ) (arg0 : Memref sig .tc .vmem S2048x128 .f32) (harg0 : arg0.IsWhole) (arg1 : Memref sig .tc .vmem S4096x32 .f32) (harg1 : arg1.IsWhole) (arg2 : Memref sig .tc .vmem S32x16 .f32) (harg2 : arg2.IsWhole) (arg3 : Memref sig .tc .vmem S1x128 .f32) (harg3 : arg3.IsWhole) (arg4 : Memref sig .tc .vmem S1x2048 .f32) (harg4 : arg4.IsWhole) (arg5 : Memref sig .tc .vmem S4096x16 .f32) (harg5 : arg5.IsWhole)
    (x0 : Vec F S2048x128 .f32) (x1 : Vec F S4096x32 .f32) (x2 : Vec F S32x16 .f32) (x3 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out6_4 x0 x1 x2 x3) ∗ owns (c : Thread nD τ) arg5 fullShare (out6_5 x0 x1 x2 x3)) -∗ K ⟨⟩))
      ⊢ wp frame (wpE (defs₀ (F := F)) Variants.none c none) E (cc6__prep4_body arg0 harg0 arg1 harg1 arg2 harg2 arg3 harg3 arg4 harg4 arg5 harg5) K := by
  simp only [cc6__prep4_body_eq_skeleton]; unfold cc6__prep4_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover6_4 _)
  iexists _; isplitr
  swap; · iexact H5
  ipureintro
  exact View.read_writes_eq_canon _ _ _ (cover6_5 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
    | ⟨5, _⟩ => out6_5 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]
theorem after6_5 (c : Dev nD) (t : Fin cfg6.N) : (dat6 V c).after 5 t = out6_5 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ (iblk6 V c 0 t) (iblk6 V c 1 t) (iblk6 V c 2 t) (iblk6 V c 3 t) _)
  iframe H0 H1 H2 H3
  isplitl [H4]; · iexists _; iexact H4
  isplitl [H5]; · iexists _; iexact H5
  iintro ⟨H0, H1, H2, H3, H4, H5⟩
  iframe

theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.K.Reg7.lean ====
import proofs.«109581_g76012331204772_cont_9to1_m_125_6_alg».proof.Proof.Gen.Kernel.Launch
import proofs.«109581_g76012331204772_cont_9to1_m_125_6_alg».proof.Proof.Gen.Kernel.Skeleton
import proofs.«109581_g76012331204772_cont_9to1_m_125_6_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_Trows (i : grid7.Coords) : Rect S4096x2048 := Rect.unit (s := S4096x2048) (k7_off1 i) S256x2048.size (k7_off1_inb i)

abbrev r7_Hrows (i : grid7.Coords) : Rect S4096x16 := Rect.unit (s := S4096x16) (k7_off2 i) S256x16.size (k7_off2_inb i)

abbrev r7_d : Rect S1x2048 := Rect.unit (s := S1x2048) ![0, 0] S1x2048.size inb_S1x2048_S1x2048_0_0
abbrev r7_T : Rect S4096x2048 := Rect.unit (s := S4096x2048) ![0, 0] S4096x2048.size inb_S4096x2048_S4096x2048_0_0
abbrev r7_adj : Rect S4096x256 := Rect.unit (s := S4096x256) ![0, 0] S4096x256.size inb_S4096x256_S4096x256_0_0
abbrev r7_b : Rect S1x16 := Rect.unit (s := S1x16) ![0, 0] S1x16.size inb_S1x16_S1x16_0_0
abbrev r7_o : Rect S4096x16 := Rect.unit (s := S4096x16) ![0, 0] S4096x16.size inb_S4096x16_S4096x16_0_0

def out7_A (i : grid7.Coords) (x0 : Vec F S1x2048 .f32) (x1 : Vec F S4096x2048 .f32) (x2 : Vec F S4096x256 .f32)
    (x3 : Vec F S4096x16 .f32) (x4 : Vec F S1x16 .f32) : Vec F S4096x16 .f32 :=
  k7_pay2 i (View.ld x1 (r7_Trows i)) (View.ld x0 r7_d) (View.ld x1 r7_T) (View.ld x2 r7_adj) (View.ld x3 (r7_Hrows i)) (View.ld x4 r7_b)

def out7_B (i : grid7.Coords) (x0 : Vec F S1x2048 .f32) (x1 : Vec F S4096x2048 .f32) (x2 : Vec F S4096x256 .f32)
    (x3 : Vec F S4096x16 .f32) (prev : Vec F S4096x16 .f32) : Vec F S4096x16 .f32 :=
  k7_pay3 i (View.ld x1 (r7_Trows i)) (View.ld x0 r7_d) (View.ld x1 r7_T) (View.ld x2 r7_adj) (View.ld x3 (r7_Hrows i)) prev

def out7_C (i : grid7.Coords) (x0 : Vec F S1x2048 .f32) (x1 : Vec F S4096x2048 .f32) (x2 : Vec F S4096x256 .f32)
    (x3 : Vec F S4096x16 .f32) (prev : Vec F S4096x16 .f32) : Vec F S4096x16 .f32 :=
  k7_pay4 (out7_B i x0 x1 x2 x3 prev)

def outsAt7 (c : Dev nD) : (n : ℕ) → n < cfg7.N → Vec F S4096x16 .f32
  | 0, hn => out7_A (grid7.coords ⟨0, hn⟩) (iblk7 V c 0 ⟨0, hn⟩) (iblk7 V c 1 ⟨0, hn⟩) (iblk7 V c 2 ⟨0, hn⟩) (iblk7 V c 3 ⟨0, hn⟩) (iblk7 V c 4 ⟨0, hn⟩)
  | n + 1, hn =>
    if n + 1 = 15 then
      out7_C (grid7.coords ⟨n + 1, hn⟩) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn))
    else
      out7_B (grid7.coords ⟨n + 1, hn⟩) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn))

theorem outsAt7_A (c : Dev nD) (t : Fin cfg7.N) (h0 : t.val = 0) :
    outsAt7 V c t.val t.isLt = out7_A (grid7.coords t) (iblk7 V c 0 t) (iblk7 V c 1 t) (iblk7 V c 2 t) (iblk7 V c 3 t) (iblk7 V c 4 t) := by
  obtain ⟨n, hn⟩ := t
  cases n with
  | zero => exact rfl
  | succ n => exact absurd h0 (Nat.succ_ne_zero n)

theorem outsAt7_B (c : Dev nD) (t : Fin cfg7.N) (h0 : ¬t.val = 0) (h7 : ¬t.val = 15) :
    outsAt7 V c t.val t.isLt = out7_B (grid7.coords t) (iblk7 V c 0 t) (iblk7 V c 1 t) (iblk7 V c 2 t) (iblk7 V c 3 t)
      (outsAt7 V c (t.val - 1) (Nat.lt_of_le_of_lt (Nat.sub_le _ _) t.isLt)) := by
  obtain ⟨n, hn⟩ := t
  cases n with
  | zero => exact absurd rfl h0
  | succ n => exact (if_neg h7).trans rfl

theorem outsAt7_C (c : Dev nD) (t : Fin cfg7.N) (h7 : t.val = 15) :
    outsAt7 V c t.val t.isLt = out7_C (grid7.coords t) (iblk7 V c 0 t) (iblk7 V c 1 t) (iblk7 V c 2 t) (iblk7 V c 3 t)
      (outsAt7 V c (t.val - 1) (Nat.lt_of_le_of_lt (Nat.sub_le _ _) t.isLt)) := by
  obtain ⟨n, hn⟩ := t
  cases n with
  | zero => exact absurd h7 (by dsimp only; omega)
  | succ n => exact (if_pos h7).trans rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => outsAt7 V c t.val t.isLt
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = outsAt7 V c t.val t.isLt := by dsimp only [dat7]

theorem zero2_7 : (![0, 0] : Fin 2 → Nat) = fun _ => 0 := by funext a; fin_cases a <;> rfl

theorem before7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl)
    (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl)
    (fun t => by rw [after7_2]; unfold Dat.blockOf iblk7; rw [A_eq7]; try rfl) t d).trans
    (by unfold Dat.fetched Dat.blockOf iblk7; rw [A_eq7]; try rfl)
theorem before7_3 (c : Dev nD) (t : Fin cfg7.N) (d) : (dat7 V c).before 3 t d = iblk7 V c 3 t :=
  ((dat7 V c).before_in_eq_fetched 3 rfl (fun _ => rfl) (fun _ _ _ => rfl)
    (fun t => by rw [after7_3]; unfold Dat.blockOf iblk7; rw [A_eq7]; try rfl) t d).trans
    (by unfold Dat.fetched Dat.blockOf iblk7; rw [A_eq7]; try rfl)
theorem before7_4 (c : Dev nD) (t : Fin cfg7.N) (d) : (dat7 V c).before 4 t d = iblk7 V c 4 t :=
  ((dat7 V c).before_in_eq_fetched 4 rfl (fun _ => rfl) (fun _ _ _ => rfl)
    (fun t => by rw [after7_4]; unfold Dat.blockOf iblk7; rw [A_eq7]; try rfl) t d).trans
    (by unfold Dat.fetched Dat.blockOf iblk7; rw [A_eq7]; try rfl)

theorem live7_5 : ∀ i : grid7.Coords, cfg7.idle 5 i = false :=
  (by decide +kernel : ∀ i : grid7.Coords, idle7 5 i = false)

theorem before7_5_kept (c : Dev nD) (t : Fin cfg7.N) (h0 : ¬t.val = 0) (d) :
    (dat7 V c).before 5 t d = outsAt7 V c (t.val - 1) (Nat.lt_of_le_of_lt (Nat.sub_le _ _) t.isLt) := by
  have hN : t.val < 16 := lt_of_lt_of_eq t.isLt (show cfg7.N = 16 from N_7)
  rw [Dat.before_out_kept _ 5 rfl t h0 (Bool.eq_false_iff.mpr fun h => by have := (flush7_5 _).mp h; dsimp only at this; omega)
    live7_5 (fun _ _ => rfl)]
  dsimp only [dat7]

theorem hcond7_1 : ∀ t : Fin cfg7.N, k7_cond1 (grid7.coords t) = 1#1 ↔ t.val = 0 :=
  (by decide +kernel : ∀ t : Fin grid7.N, k7_cond1 (grid7.coords t) = 1#1 ↔ t.val = 0)

theorem hcond7_2 : ∀ t : Fin cfg7.N, k7_cond2 (grid7.coords t) = 1#1 ↔ ¬t.val = 0 :=
  (by decide +kernel : ∀ t : Fin grid7.N, k7_cond2 (grid7.coords t) = 1#1 ↔ ¬t.val = 0)

theorem hcond7_3 : ∀ t : Fin cfg7.N, k7_cond3 (grid7.coords t) = 1#1 ↔ t.val = 15 :=
  (by decide +kernel : ∀ t : Fin grid7.N, k7_cond3 (grid7.coords t) = 1#1 ↔ t.val = 15)

theorem cover7_o (p : Vec F S4096x16 .f32) (L : List (View.Piece (Elt F) S4096x16 .f32)) (y : S4096x16.Idx) :
    ∃ pc ∈ ((⟨r7_o, p⟩ : View.Piece (Elt F) S4096x16 .f32) :: L), y ∈ pc.1.set :=
  ⟨_, List.mem_cons_self, View.mem_set_unit_zero zero2_7 inb_S4096x16_S4096x16_0_0 y⟩

section
variable (c : Dev nD) (E : Set ℕ) (i : grid7.Coords)
    (arg1 : Memref sig .tc .vmem S1x2048 .f32) (harg1 : arg1.IsWhole) (arg2 : Memref sig .tc .vmem S4096x2048 .f32) (harg2 : arg2.IsWhole)
    (arg3 : Memref sig .tc .vmem S4096x256 .f32) (harg3 : arg3.IsWhole) (arg4 : Memref sig .tc .vmem S4096x16 .f32) (harg4 : arg4.IsWhole)
    (arg5 : Memref sig .tc .vmem S1x16 .f32) (harg5 : arg5.IsWhole) (arg6 : Memref sig .tc .vmem S4096x16 .f32) (harg6 : arg6.IsWhole)

set_option maxHeartbeats 1000000 in

theorem sound_kernel7_A (hc1 : k7_cond1 i = 1#1) (hc2 : ¬k7_cond2 i = 1#1) (hc3 : ¬k7_cond3 i = 1#1)
    (x0 : Vec F S1x2048 .f32) (x1 : Vec F S4096x2048 .f32) (x2 : Vec F S4096x256 .f32) (x3 : Vec F S4096x16 .f32) (x4 : Vec F S1x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out7_A i x0 x1 x2 x3 x4)) -∗ K ⟨⟩))
      ⊢ wp frame (wpE (defs₀ (F := F)) Variants.none c none) E (cc7__fused_gc_body i arg1 harg1 arg2 harg2 arg3 harg3 arg4 harg4 arg5 harg5 arg6 harg6) K := by
  simp only [cc7__fused_gc_body_eq_skeleton]; unfold cc7__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover7_o _ _), View.canon_cons_unit_zero zero2_7]
  rfl

set_option maxHeartbeats 1000000 in

theorem sound_kernel7_B (hc1 : ¬k7_cond1 i = 1#1) (hc2 : k7_cond2 i = 1#1) (hc3 : ¬k7_cond3 i = 1#1)
    (x0 : Vec F S1x2048 .f32) (x1 : Vec F S4096x2048 .f32) (x2 : Vec F S4096x256 .f32) (x3 : Vec F S4096x16 .f32) (x4 : Vec F S1x16 .f32) (prev : Vec F S4096x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare prev
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out7_B i x0 x1 x2 x3 prev)) -∗ K ⟨⟩))
      ⊢ wp frame (wpE (defs₀ (F := F)) Variants.none c none) E (cc7__fused_gc_body i arg1 harg1 arg2 harg2 arg3 harg3 arg4 harg4 arg5 harg5 arg6 harg6) K := by
  simp only [cc7__fused_gc_body_eq_skeleton]; unfold cc7__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover7_o _ _), View.canon_cons_unit_zero zero2_7]
  unfold out7_B
  exact congrArg (k7_pay3 i _ _ _ _ _) (View.ld_unit_zero zero2_7 _ _)

set_option maxHeartbeats 1000000 in

theorem sound_kernel7_C (hc1 : ¬k7_cond1 i = 1#1) (hc2 : k7_cond2 i = 1#1) (hc3 : k7_cond3 i = 1#1)
    (x0 : Vec F S1x2048 .f32) (x1 : Vec F S4096x2048 .f32) (x2 : Vec F S4096x256 .f32) (x3 : Vec F S4096x16 .f32) (x4 : Vec F S1x16 .f32) (prev : Vec F S4096x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare prev
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out7_C i x0 x1 x2 x3 prev)) -∗ K ⟨⟩))
      ⊢ wp frame (wpE (defs₀ (F := F)) Variants.none c none) E (cc7__fused_gc_body i arg1 harg1 arg2 harg2 arg3 harg3 arg4 harg4 arg5 harg5 arg6 harg6) K := by
  simp only [cc7__fused_gc_body_eq_skeleton]; unfold cc7__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover7_o _ _), View.canon_cons_unit_zero zero2_7]
  sl_unfold_run_names
  rw [View.readCov_unit_zero _ zero2_7]
  unfold out7_C out7_B
  exact congrArg (fun p => k7_pay4 (k7_pay3 i _ _ _ _ _ p)) (View.ld_unit_zero zero2_7 _ _)

end

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

set_option maxHeartbeats 1000000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  have hN : t.val < 16 := lt_of_lt_of_eq t.isLt (show cfg7.N = 16 from N_7)
  by_cases h0 : t.val = 0
  · rw [outsAt7_A V c t h0]
    iintro ⟨HΦ, Ho, ⟨%d0, H0⟩, ⟨%d1, H1⟩, ⟨%d2, H2⟩, ⟨%d3, H3⟩, ⟨%d4, H4⟩, ⟨%d5, H5⟩⟩
    iapply (sound_kernel7_A c Set.univ (grid7.coords t) _ _ _ _ _ _ _ _ _ _ _ _ ((hcond7_1 t).mpr h0) (fun h => (hcond7_2 t).mp h h0)
      (fun h => by have := (hcond7_3 t).mp h; omega) (iblk7 V c 0 t) (iblk7 V c 1 t) (iblk7 V c 2 t) (iblk7 V c 3 t) (iblk7 V c 4 t) _)
    iframe H0 H1 H2 H3 H4
    isplitl [H5]; · iexists _; iexact H5
    iintro ⟨H0, H1, H2, H3, H4, H5⟩
    iframe
  · by_cases h7 : t.val = 15
    · rw [outsAt7_C V c t h7]
      simp only [before7_5_kept V c t h0]
      iintro ⟨HΦ, Ho, ⟨%d0, H0⟩, ⟨%d1, H1⟩, ⟨%d2, H2⟩, ⟨%d3, H3⟩, ⟨%d4, H4⟩, ⟨%d5, H5⟩⟩
      iapply (sound_kernel7_C c Set.univ (grid7.coords t) _ _ _ _ _ _ _ _ _ _ _ _ (fun h => h0 ((hcond7_1 t).mp h)) ((hcond7_2 t).mpr h0)
        ((hcond7_3 t).mpr h7) (iblk7 V c 0 t) (iblk7 V c 1 t) (iblk7 V c 2 t) (iblk7 V c 3 t) (iblk7 V c 4 t) _ _)
      iframe H0 H1 H2 H3 H4 H5
      iintro ⟨H0, H1, H2, H3, H4, H5⟩
      iframe
    · rw [outsAt7_B V c t h0 h7]
      simp only [before7_5_kept V c t h0]
      iintro ⟨HΦ, Ho, ⟨%d0, H0⟩, ⟨%d1, H1⟩, ⟨%d2, H2⟩, ⟨%d3, H3⟩, ⟨%d4, H4⟩, ⟨%d5, H5⟩⟩
      iapply (sound_kernel7_B c Set.univ (grid7.coords t) _ _ _ _ _ _ _ _ _ _ _ _ (fun h => h0 ((hcond7_1 t).mp h)) ((hcond7_2 t).mpr h0)
        (fun h => h7 ((hcond7_3 t).mp h)) (iblk7 V c 0 t) (iblk7 V c 1 t) (iblk7 V c 2 t) (iblk7 V c 3 t) (iblk7 V c 4 t) _ _)
      iframe H0 H1 H2 H3 H4 H5
      iintro ⟨H0, H1, H2, H3, H4, H5⟩
      iframe

set_option maxHeartbeats 1000000 in

theorem body_obligation7 (c : Dev nD) : BodyObligation (dat7 (F := F) V c) (defs₀ (F := F)) Variants.none () Set.univ := fun t => by
  rw [bigSep_W7, bigSep_W7]
  have h5 : cfg7.idle (5 : Fin 6) (cfg7.grid.coords t) = false := live7_5 _
  rw [h5]
  exact sound_body7 V c t

end Cert.Kernel.Hand

end
-- ==== Proof.K.Reg8.lean ====
import proofs.«109581_g76012331204772_cont_9to1_m_125_6_alg».proof.Proof.Gen.Kernel.Launch
import proofs.«109581_g76012331204772_cont_9to1_m_125_6_alg».proof.Proof.Gen.Kernel.Skeleton
import proofs.«109581_g76012331204772_cont_9to1_m_125_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S1x16 := Rect.unit (s := S1x16) ![0, 0] S1x16.size inb_S1x16_S1x16_0_0
abbrev r8_1 : Rect S4096x16 := Rect.unit (s := S4096x16) ![0, 0] S4096x16.size inb_S4096x16_S4096x16_0_0
abbrev r8_2 : Rect S1x4096 := Rect.unit (s := S1x4096) ![0, 0] S1x4096.size inb_S1x4096_S1x4096_0_0
abbrev r8_3 : Rect S2048x128 := Rect.unit (s := S2048x128) ![0, 0] S2048x128.size inb_S2048x128_S2048x128_0_0
abbrev r8_4 : Rect S128x64 := Rect.unit (s := S128x64) ![0, 0] S128x64.size inb_S128x64_S128x64_0_0
abbrev r8_5 : Rect S2048x64 := Rect.unit (s := S2048x64) ![0, 0] S2048x64.size inb_S2048x64_S2048x64_0_0

def out8_4 (x0 : Vec F S2048x128 .f32) (x1 : Vec F S4096x16 .f32) (x2 : Vec F S128x64 .f32) (x3 : Vec F S1x16 .f32) : Vec F S1x4096 .f32 :=
  View.canon [⟨r8_2, k8_pay1 (View.ld x3 r8_0) (View.ld x1 r8_1)⟩]

theorem cover8_4 (p0 : Vec F S1x4096 .f32) (y : S1x4096.Idx) :
    ∃ pc ∈ ([⟨r8_2, p0⟩] : List (View.Piece (Elt F) S1x4096 .f32)), y ∈ pc.1.set :=
  View.cover_of_tiled [⟨r8_2, p0⟩] S1x4096.size (by rfl) y

def out8_5 (x0 : Vec F S2048x128 .f32) (x1 : Vec F S4096x16 .f32) (x2 : Vec F S128x64 .f32) (x3 : Vec F S1x16 .f32) : Vec F S2048x64 .f32 :=
  View.canon [⟨r8_5, k8_pay2 (View.ld x0 r8_3) (View.ld x2 r8_4)⟩]

theorem cover8_5 (p0 : Vec F S2048x64 .f32) (y : S2048x64.Idx) :
    ∃ pc ∈ ([⟨r8_5, p0⟩] : List (View.Piece (Elt F) S2048x64 .f32)), y ∈ pc.1.set :=
  View.cover_of_tiled [⟨r8_5, p0⟩] S2048x64.size (by rfl) y

set_option maxHeartbeats 4000000 in

theorem sound_kernel8 (c : Dev nD) (E : Set ℕ) (arg0 : Memref sig .tc .vmem S2048x128 .f32) (harg0 : arg0.IsWhole) (arg1 : Memref sig .tc .vmem S4096x16 .f32) (harg1 : arg1.IsWhole) (arg2 : Memref sig .tc .vmem S128x64 .f32) (harg2 : arg2.IsWhole) (arg3 : Memref sig .tc .vmem S1x16 .f32) (harg3 : arg3.IsWhole) (arg4 : Memref sig .tc .vmem S1x4096 .f32) (harg4 : arg4.IsWhole) (arg5 : Memref sig .tc .vmem S2048x64 .f32) (harg5 : arg5.IsWhole)
    (x0 : Vec F S2048x128 .f32) (x1 : Vec F S4096x16 .f32) (x2 : Vec F S128x64 .f32) (x3 : Vec F S1x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out8_4 x0 x1 x2 x3) ∗ owns (c : Thread nD τ) arg5 fullShare (out8_5 x0 x1 x2 x3)) -∗ K ⟨⟩))
      ⊢ wp frame (wpE (defs₀ (F := F)) Variants.none c none) E (cc8__prep35_body arg0 harg0 arg1 harg1 arg2 harg2 arg3 harg3 arg4 harg4 arg5 harg5) K := by
  simp only [cc8__prep35_body_eq_skeleton]; unfold cc8__prep35_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover8_4 _)
  iexists _; isplitr
  swap; · iexact H5
  ipureintro
  exact View.read_writes_eq_canon _ _ _ (cover8_5 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
    | ⟨5, _⟩ => out8_5 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = out8_4 (iblk8 V c 0 t) (iblk8 V c 1 t) (iblk8 V c 2 t) (iblk8 V c 3 t) := by dsimp only [dat8]
theorem after8_5 (c : Dev nD) (t : Fin cfg8.N) : (dat8 V c).after 5 t = out8_5 (iblk8 V c 0 t) (iblk8 V c 1 t) (iblk8 V c 2 t) (iblk8 V c 3 t) := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl)
    (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl)
    (fun t => by rw [after8_1]; unfold Dat.blockOf iblk8; rw [A_eq8]; try rfl) t d).trans
    (by unfold Dat.fetched Dat.blockOf iblk8; rw [A_eq8]; try rfl)
theorem before8_2 (c : Dev nD) (t : Fin cfg8.N) (d) : (dat8 V c).before 2 t d = iblk8 V c 2 t :=
  ((dat8 V c).before_in_eq_fetched 2 rfl (fun _ => rfl) (fun _ _ _ => rfl)
    (fun t => by rw [after8_2]; unfold Dat.blockOf iblk8; rw [A_eq8]; try rfl) t d).trans
    (by unfold Dat.fetched Dat.blockOf iblk8; rw [A_eq8]; try rfl)
theorem before8_3 (c : Dev nD) (t : Fin cfg8.N) (d) : (dat8 V c).before 3 t d = iblk8 V c 3 t :=
  ((dat8 V c).before_in_eq_fetched 3 rfl (fun _ => rfl) (fun _ _ _ => rfl)
    (fun t => by rw [after8_3]; unfold Dat.blockOf iblk8; rw [A_eq8]; try rfl) t d).trans
    (by unfold Dat.fetched Dat.blockOf iblk8; rw [A_eq8]; try rfl)

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ (iblk8 V c 0 t) (iblk8 V c 1 t) (iblk8 V c 2 t) (iblk8 V c 3 t) _)
  iframe H0 H1 H2 H3
  isplitl [H4]; · iexists _; iexact H4
  isplitl [H5]; · iexists _; iexact H5
  iintro ⟨H0, H1, H2, H3, H4, H5⟩
  iframe

theorem body_obligation8 (c : Dev nD) : BodyObligation (dat8 (F := F) V c) (defs₀ (F := F)) Variants.none () Set.univ := fun t => by
  rw [bigSep_W8, bigSep_W8]
  exact sound_body8 V c t

end Cert.Kernel.Hand
-- ==== Proof.K.Reg9.lean ====
import proofs.«109581_g76012331204772_cont_9to1_m_125_6_alg».proof.Proof.Gen.Kernel.Launch
import proofs.«109581_g76012331204772_cont_9to1_m_125_6_alg».proof.Proof.Gen.Kernel.Skeleton
import proofs.«109581_g76012331204772_cont_9to1_m_125_6_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_Trows (i : grid9.Coords) : Rect S2048x4096 := Rect.unit (s := S2048x4096) (k9_off1 i) S256x4096.size (k9_off1_inb i)

abbrev r9_Hrows (i : grid9.Coords) : Rect S2048x64 := Rect.unit (s := S2048x64) (k9_off2 i) S256x64.size (k9_off2_inb i)

abbrev r9_d : Rect S1x4096 := Rect.unit (s := S1x4096) ![0, 0] S1x4096.size inb_S1x4096_S1x4096_0_0
abbrev r9_T : Rect S2048x4096 := Rect.unit (s := S2048x4096) ![0, 0] S2048x4096.size inb_S2048x4096_S2048x4096_0_0
abbrev r9_adj : Rect S2048x256 := Rect.unit (s := S2048x256) ![0, 0] S2048x256.size inb_S2048x256_S2048x256_0_0
abbrev r9_b : Rect S1x64 := Rect.unit (s := S1x64) ![0, 0] S1x64.size inb_S1x64_S1x64_0_0
abbrev r9_o : Rect S2048x64 := Rect.unit (s := S2048x64) ![0, 0] S2048x64.size inb_S2048x64_S2048x64_0_0

def out9_A (i : grid9.Coords) (x0 : Vec F S1x4096 .f32) (x1 : Vec F S2048x4096 .f32) (x2 : Vec F S2048x256 .f32) (x3 : Vec F S2048x64 .f32) (x4 : Vec F S1x64 .f32) : Vec F S2048x64 .f32 :=
  k9_pay2 i (View.ld x1 (r9_Trows i)) (View.ld x0 r9_d) (View.ld x1 r9_T) (View.ld x2 r9_adj) (View.ld x3 (r9_Hrows i)) (View.ld x4 r9_b)

def out9_B (i : grid9.Coords) (x0 : Vec F S1x4096 .f32) (x1 : Vec F S2048x4096 .f32) (x2 : Vec F S2048x256 .f32)
    (x3 : Vec F S2048x64 .f32) (prev : Vec F S2048x64 .f32) : Vec F S2048x64 .f32 :=
  k9_pay3 i (View.ld x1 (r9_Trows i)) (View.ld x0 r9_d) (View.ld x1 r9_T) (View.ld x2 r9_adj) (View.ld x3 (r9_Hrows i)) prev

def outsAt9 (c : Dev nD) : (n : ℕ) → n < cfg9.N → Vec F S2048x64 .f32
  | 0, hn => out9_A (grid9.coords ⟨0, hn⟩) (iblk9 V c 0 ⟨0, hn⟩) (iblk9 V c 1 ⟨0, hn⟩) (iblk9 V c 2 ⟨0, hn⟩) (iblk9 V c 3 ⟨0, hn⟩) (iblk9 V c 4 ⟨0, hn⟩)
  | n + 1, hn =>
    out9_B (grid9.coords ⟨n + 1, hn⟩) (iblk9 V c 0 ⟨n + 1, hn⟩) (iblk9 V c 1 ⟨n + 1, hn⟩) (iblk9 V c 2 ⟨n + 1, hn⟩) (iblk9 V c 3 ⟨n + 1, hn⟩) (outsAt9 c n (Nat.lt_of_succ_lt hn))

theorem outsAt9_A (c : Dev nD) (t : Fin cfg9.N) (h0 : t.val = 0) :
    outsAt9 V c t.val t.isLt = out9_A (grid9.coords t) (iblk9 V c 0 t) (iblk9 V c 1 t) (iblk9 V c 2 t) (iblk9 V c 3 t) (iblk9 V c 4 t) := by
  obtain ⟨n, hn⟩ := t
  cases n with
  | zero => exact rfl
  | succ n => exact absurd h0 (Nat.succ_ne_zero n)

theorem outsAt9_B (c : Dev nD) (t : Fin cfg9.N) (h0 : ¬t.val = 0) :
    outsAt9 V c t.val t.isLt = out9_B (grid9.coords t) (iblk9 V c 0 t) (iblk9 V c 1 t) (iblk9 V c 2 t) (iblk9 V c 3 t)
      (outsAt9 V c (t.val - 1) (Nat.lt_of_le_of_lt (Nat.sub_le _ _) t.isLt)) := by
  obtain ⟨n, hn⟩ := t
  cases n with
  | zero => exact absurd rfl h0
  | succ n => exact rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => outsAt9 V c t.val t.isLt
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = outsAt9 V c t.val t.isLt := by dsimp only [dat9]

theorem zero9 : (![0, 0] : Fin 2 → Nat) = fun _ => 0 := by funext a; fin_cases a <;> rfl

theorem zero2_9 : (![0, 0] : Fin 2 → Nat) = fun _ => 0 := by funext a; fin_cases a <;> rfl

theorem before9_0 (c : Dev nD) (t : Fin cfg9.N) (d) : (dat9 V c).before 0 t d = iblk9 V c 0 t :=
  ((dat9 V c).before_in_eq_fetched 0 rfl (fun _ => rfl) (fun _ _ _ => rfl)
    (fun t => by rw [after9_0]; unfold Dat.blockOf iblk9; rw [A_eq9]; try rfl) t d).trans
    (by unfold Dat.fetched Dat.blockOf iblk9; rw [A_eq9]; try rfl)
theorem before9_1 (c : Dev nD) (t : Fin cfg9.N) (d) : (dat9 V c).before 1 t d = iblk9 V c 1 t :=
  ((dat9 V c).before_in_eq_fetched 1 rfl (fun _ => rfl) (fun _ _ _ => rfl)
    (fun t => by rw [after9_1]; unfold Dat.blockOf iblk9; rw [A_eq9]; try rfl) t d).trans
    (by unfold Dat.fetched Dat.blockOf iblk9; rw [A_eq9]; try rfl)
theorem before9_2 (c : Dev nD) (t : Fin cfg9.N) (d) : (dat9 V c).before 2 t d = iblk9 V c 2 t :=
  ((dat9 V c).before_in_eq_fetched 2 rfl (fun _ => rfl) (fun _ _ _ => rfl)
    (fun t => by rw [after9_2]; unfold Dat.blockOf iblk9; rw [A_eq9]; try rfl) t d).trans
    (by unfold Dat.fetched Dat.blockOf iblk9; rw [A_eq9]; try rfl)
theorem before9_3 (c : Dev nD) (t : Fin cfg9.N) (d) : (dat9 V c).before 3 t d = iblk9 V c 3 t :=
  ((dat9 V c).before_in_eq_fetched 3 rfl (fun _ => rfl) (fun _ _ _ => rfl)
    (fun t => by rw [after9_3]; unfold Dat.blockOf iblk9; rw [A_eq9]; try rfl) t d).trans
    (by unfold Dat.fetched Dat.blockOf iblk9; rw [A_eq9]; try rfl)
theorem before9_4 (c : Dev nD) (t : Fin cfg9.N) (d) : (dat9 V c).before 4 t d = iblk9 V c 4 t :=
  ((dat9 V c).before_in_eq_fetched 4 rfl (fun _ => rfl) (fun _ _ _ => rfl)
    (fun t => by rw [after9_4]; unfold Dat.blockOf iblk9; rw [A_eq9]; try rfl) t d).trans
    (by unfold Dat.fetched Dat.blockOf iblk9; rw [A_eq9]; try rfl)

theorem live9_5 : ∀ i : grid9.Coords, cfg9.idle 5 i = false :=
  (by decide +kernel : ∀ i : grid9.Coords, idle9 5 i = false)

theorem before9_5_kept (c : Dev nD) (t : Fin cfg9.N) (h0 : ¬t.val = 0) (d) :
    (dat9 V c).before 5 t d = outsAt9 V c (t.val - 1) (Nat.lt_of_le_of_lt (Nat.sub_le _ _) t.isLt) := by
  have hN : t.val < 8 := lt_of_lt_of_eq t.isLt (show cfg9.N = 8 from N_9)
  rw [Dat.before_out_kept _ 5 rfl t h0 (Bool.eq_false_iff.mpr fun h => by have := (flush9_5 _).mp h; dsimp only at this; omega)
    live9_5 (fun _ _ => rfl)]
  dsimp only [dat9]

theorem hcond9_1 : ∀ t : Fin cfg9.N, k9_cond1 (grid9.coords t) = 1#1 ↔ t.val = 0 :=
  (by decide +kernel : ∀ t : Fin grid9.N, k9_cond1 (grid9.coords t) = 1#1 ↔ t.val = 0)

theorem hcond9_2 : ∀ t : Fin cfg9.N, k9_cond2 (grid9.coords t) = 1#1 ↔ ¬t.val = 0 :=
  (by decide +kernel : ∀ t : Fin grid9.N, k9_cond2 (grid9.coords t) = 1#1 ↔ ¬t.val = 0)

theorem cover9_o (p : Vec F S2048x64 .f32) (L : List (View.Piece (Elt F) S2048x64 .f32)) (y : S2048x64.Idx) :
    ∃ pc ∈ ((⟨r9_o, p⟩ : View.Piece (Elt F) S2048x64 .f32) :: L), y ∈ pc.1.set :=
  ⟨_, List.mem_cons_self, View.mem_set_unit_zero zero9 inb_S2048x64_S2048x64_0_0 y⟩

section
variable (c : Dev nD) (E : Set ℕ) (i : grid9.Coords)
    (arg1 : Memref sig .tc .vmem S1x4096 .f32) (harg1 : arg1.IsWhole) (arg2 : Memref sig .tc .vmem S2048x4096 .f32) (harg2 : arg2.IsWhole)
    (arg3 : Memref sig .tc .vmem S2048x256 .f32) (harg3 : arg3.IsWhole) (arg4 : Memref sig .tc .vmem S2048x64 .f32) (harg4 : arg4.IsWhole)
    (arg5 : Memref sig .tc .vmem S1x64 .f32) (harg5 : arg5.IsWhole) (arg6 : Memref sig .tc .vmem S2048x64 .f32) (harg6 : arg6.IsWhole)

set_option maxHeartbeats 1000000 in

theorem sound_kernel9_A (hc1 : k9_cond1 i = 1#1) (hc2 : ¬k9_cond2 i = 1#1)
    (x0 : Vec F S1x4096 .f32) (x1 : Vec F S2048x4096 .f32) (x2 : Vec F S2048x256 .f32) (x3 : Vec F S2048x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out9_A i x0 x1 x2 x3 x4)) -∗ K ⟨⟩))
      ⊢ wp frame (wpE (defs₀ (F := F)) Variants.none c none) E (cc9__fused_gc_body i arg1 harg1 arg2 harg2 arg3 harg3 arg4 harg4 arg5 harg5 arg6 harg6) K := by
  simp only [cc9__fused_gc_body_eq_skeleton]; unfold cc9__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover9_o _ _), View.canon_cons_unit_zero zero9]
  rfl

set_option maxHeartbeats 1000000 in

theorem sound_kernel9_B (hc1 : ¬k9_cond1 i = 1#1) (hc2 : k9_cond2 i = 1#1)
    (x0 : Vec F S1x4096 .f32) (x1 : Vec F S2048x4096 .f32) (x2 : Vec F S2048x256 .f32) (x3 : Vec F S2048x64 .f32) (x4 : Vec F S1x64 .f32) (prev : Vec F S2048x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare prev
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out9_B i x0 x1 x2 x3 prev)) -∗ K ⟨⟩))
      ⊢ wp frame (wpE (defs₀ (F := F)) Variants.none c none) E (cc9__fused_gc_body i arg1 harg1 arg2 harg2 arg3 harg3 arg4 harg4 arg5 harg5 arg6 harg6) K := by
  simp only [cc9__fused_gc_body_eq_skeleton]; unfold cc9__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover9_o _ _), View.canon_cons_unit_zero zero9]
  unfold out9_B
  exact congrArg (k9_pay3 i _ _ _ _ _) (View.ld_unit_zero zero9 _ _)

end

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

set_option maxHeartbeats 1000000 in

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  by_cases h0 : t.val = 0
  · rw [outsAt9_A V c t h0]
    iintro ⟨HΦ, Ho, ⟨%d0, H0⟩, ⟨%d1, H1⟩, ⟨%d2, H2⟩, ⟨%d3, H3⟩, ⟨%d4, H4⟩, ⟨%d5, H5⟩⟩
    iapply (sound_kernel9_A c Set.univ (grid9.coords t) _ _ _ _ _ _ _ _ _ _ _ _ ((hcond9_1 t).mpr h0) (fun h => (hcond9_2 t).mp h h0)
      (iblk9 V c 0 t) (iblk9 V c 1 t) (iblk9 V c 2 t) (iblk9 V c 3 t) (iblk9 V c 4 t) _)
    iframe H0 H1 H2 H3 H4
    isplitl [H5]; · iexists _; iexact H5
    iintro ⟨H0, H1, H2, H3, H4, H5⟩
    iframe
  · rw [outsAt9_B V c t h0]
    simp only [before9_5_kept V c t h0]
    iintro ⟨HΦ, Ho, ⟨%d0, H0⟩, ⟨%d1, H1⟩, ⟨%d2, H2⟩, ⟨%d3, H3⟩, ⟨%d4, H4⟩, ⟨%d5, H5⟩⟩
    iapply (sound_kernel9_B c Set.univ (grid9.coords t) _ _ _ _ _ _ _ _ _ _ _ _ (fun h => h0 ((hcond9_1 t).mp h)) ((hcond9_2 t).mpr h0)
      (iblk9 V c 0 t) (iblk9 V c 1 t) (iblk9 V c 2 t) (iblk9 V c 3 t) (iblk9 V c 4 t) _ _)
    iframe H0 H1 H2 H3 H4 H5
    iintro ⟨H0, H1, H2, H3, H4, H5⟩
    iframe

set_option maxHeartbeats 1000000 in

theorem body_obligation9 (c : Dev nD) : BodyObligation (dat9 (F := F) V c) (defs₀ (F := F)) Variants.none () Set.univ := fun t => by
  rw [bigSep_W9, bigSep_W9]
  have h5 : cfg9.idle (5 : Fin 6) (cfg9.grid.coords t) = false := live9_5 _
  rw [h5]
  exact sound_body9 V c t

end Cert.Kernel.Hand

end
-- ==== Proof.K.Fold.lean ====
import proofs.«109581_g76012331204772_cont_9to1_m_125_6_alg».proof.Proof.K.Reg0
import proofs.«109581_g76012331204772_cont_9to1_m_125_6_alg».proof.Proof.K.Reg1
import proofs.«109581_g76012331204772_cont_9to1_m_125_6_alg».proof.Proof.K.Reg2
import proofs.«109581_g76012331204772_cont_9to1_m_125_6_alg».proof.Proof.K.Reg3
import proofs.«109581_g76012331204772_cont_9to1_m_125_6_alg».proof.Proof.K.Reg4
import proofs.«109581_g76012331204772_cont_9to1_m_125_6_alg».proof.Proof.K.Reg5
import proofs.«109581_g76012331204772_cont_9to1_m_125_6_alg».proof.Proof.K.Reg6
import proofs.«109581_g76012331204772_cont_9to1_m_125_6_alg».proof.Proof.K.Reg7
import proofs.«109581_g76012331204772_cont_9to1_m_125_6_alg».proof.Proof.K.Reg8
import proofs.«109581_g76012331204772_cont_9to1_m_125_6_alg».proof.Proof.K.Reg9
import proofs.«109581_g76012331204772_cont_9to1_m_125_6_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev V6 : (c : Dev nD) → (b : Ref sig .tc) → Buf (Elt F) ((c : Thread nD τ).loc b) := fun c b => W6 m ρ c b

theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

abbrev V8 : (c : Dev nD) → (b : Ref sig .tc) → Buf (Elt F) ((c : Thread nD τ).loc b) := fun c b => W8 m ρ c b

theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps4 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb

abbrev V10 : (c : Dev nD) → (b : Ref sig .tc) → Buf (Elt F) ((c : Thread nD τ).loc b) := fun c b => W10 m ρ c b

theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps5 (W10 m ρ c)

abbrev V11 : (c : Dev nD) → (b : Ref sig .tc) → Buf (Elt F) ((c : Thread nD τ).loc b) := fun c b => W11 m ρ c b

def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb

abbrev V12 : (c : Dev nD) → (b : Ref sig .tc) → Buf (Elt F) ((c : Thread nD τ).loc b) := fun c b => W12 m ρ c b

theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

def W13 (c : Dev nD) : Valuation τ sig (Elt F) :=
  Pipeline.withArrays spec6 c (W12 m ρ c) fun w => (dat6 (V12 m ρ) c).arrAt w cfg6.N
theorem W13_arr (c : Dev nD) (w : Fin cfg6.W) :
    W13 m ρ c (Proc.devRef .tc (Pipeline.arrRef spec6 w)) = (dat6 (V12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb

abbrev V13 : (c : Dev nD) → (b : Ref sig .tc) → Buf (Elt F) ((c : Thread nD τ).loc b) := fun c b => W13 m ρ c b

theorem hF6 (c : Dev nD) (w : Fin cfg6.W) : (dat6 (V12 m ρ) c).arrAt w cfg6.N = V13 m ρ c (Pipeline.arrRef spec6 w) :=
  (W13_arr m ρ c w).symm
theorem hrest6 (c : Dev nD) : ∀ b, b ∉ Finset.univ.image (Pipeline.arrRef spec6) → V13 m ρ c b = V12 m ρ c b :=
  fun b hb => W13_of_ne m ρ c b fun w e => hb (Finset.mem_image.mpr ⟨w, Finset.mem_univ _, e⟩)

abbrev W14 : Dev nD → Valuation τ sig (Elt F) := fun c => StableHlo.after hostOps7 (W13 m ρ c)

abbrev V14 : (c : Dev nD) → (b : Ref sig .tc) → Buf (Elt F) ((c : Thread nD τ).loc b) := fun c b => W14 m ρ c b

def W15 (c : Dev nD) : Valuation τ sig (Elt F) :=
  Pipeline.withArrays spec7 c (W14 m ρ c) fun w => (dat7 (V14 m ρ) c).arrAt w cfg7.N
theorem W15_arr (c : Dev nD) (w : Fin cfg7.W) :
    W15 m ρ c (Proc.devRef .tc (Pipeline.arrRef spec7 w)) = (dat7 (V14 m ρ) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m ρ c (Proc.devRef .tc b) = W14 m ρ c (Proc.devRef .tc b) := by
  unfold W15; exact Pipeline.withArrays_of_ne spec7 c _ _ b hb

abbrev V15 : (c : Dev nD) → (b : Ref sig .tc) → Buf (Elt F) ((c : Thread nD τ).loc b) := fun c b => W15 m ρ c b

theorem hF7 (c : Dev nD) (w : Fin cfg7.W) : (dat7 (V14 m ρ) c).arrAt w cfg7.N = V15 m ρ c (Pipeline.arrRef spec7 w) :=
  (W15_arr m ρ c w).symm
theorem hrest7 (c : Dev nD) : ∀ b, b ∉ Finset.univ.image (Pipeline.arrRef spec7) → V15 m ρ c b = V14 m ρ c b :=
  fun b hb => W15_of_ne m ρ c b fun w e => hb (Finset.mem_image.mpr ⟨w, Finset.mem_univ _, e⟩)

def W16 (c : Dev nD) : Valuation τ sig (Elt F) :=
  Pipeline.withArrays spec8 c (W15 m ρ c) fun w => (dat8 (V15 m ρ) c).arrAt w cfg8.N
theorem W16_arr (c : Dev nD) (w : Fin cfg8.W) :
    W16 m ρ c (Proc.devRef .tc (Pipeline.arrRef spec8 w)) = (dat8 (V15 m ρ) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 m ρ c (Proc.devRef .tc b) = W15 m ρ c (Proc.devRef .tc b) := by
  unfold W16; exact Pipeline.withArrays_of_ne spec8 c _ _ b hb

abbrev V16 : (c : Dev nD) → (b : Ref sig .tc) → Buf (Elt F) ((c : Thread nD τ).loc b) := fun c b => W16 m ρ c b

theorem hF8 (c : Dev nD) (w : Fin cfg8.W) : (dat8 (V15 m ρ) c).arrAt w cfg8.N = V16 m ρ c (Pipeline.arrRef spec8 w) :=
  (W16_arr m ρ c w).symm
theorem hrest8 (c : Dev nD) : ∀ b, b ∉ Finset.univ.image (Pipeline.arrRef spec8) → V16 m ρ c b = V15 m ρ c b :=
  fun b hb => W16_of_ne m ρ c b fun w e => hb (Finset.mem_image.mpr ⟨w, Finset.mem_univ _, e⟩)

abbrev W17 : Dev nD → Valuation τ sig (Elt F) := fun c => StableHlo.after hostOps9 (W16 m ρ c)

abbrev V17 : (c : Dev nD) → (b : Ref sig .tc) → Buf (Elt F) ((c : Thread nD τ).loc b) := fun c b => W17 m ρ c b

def W18 (c : Dev nD) : Valuation τ sig (Elt F) :=
  Pipeline.withArrays spec9 c (W17 m ρ c) fun w => (dat9 (V17 m ρ) c).arrAt w cfg9.N
theorem W18_arr (c : Dev nD) (w : Fin cfg9.W) :
    W18 m ρ c (Proc.devRef .tc (Pipeline.arrRef spec9 w)) = (dat9 (V17 m ρ) c).arrAt w cfg9.N := by
  unfold W18; exact Pipeline.withArrays_arr spec9 launch9.win.arr_inj c _ _ w
theorem W18_of_ne (c : Dev nD) (b : Ref sig .tc) (hb : ∀ w, Pipeline.arrRef spec9 w ≠ b) :
    W18 m ρ c (Proc.devRef .tc b) = W17 m ρ c (Proc.devRef .tc b) := by
  unfold W18; exact Pipeline.withArrays_of_ne spec9 c _ _ b hb

abbrev V18 : (c : Dev nD) → (b : Ref sig .tc) → Buf (Elt F) ((c : Thread nD τ).loc b) := fun c b => W18 m ρ c b

theorem hF9 (c : Dev nD) (w : Fin cfg9.W) : (dat9 (V17 m ρ) c).arrAt w cfg9.N = V18 m ρ c (Pipeline.arrRef spec9 w) :=
  (W18_arr m ρ c w).symm
theorem hrest9 (c : Dev nD) : ∀ b, b ∉ Finset.univ.image (Pipeline.arrRef spec9) → V18 m ρ c b = V17 m ρ c b :=
  fun b hb => W18_of_ne m ρ c b fun w e => hb (Finset.mem_image.mpr ⟨w, Finset.mem_univ _, e⟩)

-- A region rewrites only its output windows' arrays: an input window's array and every other buffer stay.
theorem keep_region {W : ℕ} {isOut : Fin W → Bool} {arr : Fin W → Ref sig .tc} {r : Ref sig .tc} {P : Prop}
    (h : ∀ w, isOut w = true → arr w ≠ r) (hin : ∀ w, isOut w = false → arr w = r → P) (hne : (∀ w, arr w ≠ r) → P) : P := by
  by_cases hr : ∃ w, arr w = r
  · obtain ⟨w, e⟩ := hr
    cases hw : isOut w with
    | false => exact hin w hw e
    | true => exact absurd e (h w hw)
  · exact hne fun w e => hr ⟨w, e⟩

theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_keep (c : Dev nD) (r : Ref sig .tc) (h : ∀ w, (cfg0.win w).isOut = true → Pipeline.arrRef spec0 w ≠ r) :
    W2 m ρ c (Proc.devRef .tc r) = W1 m ρ c (Proc.devRef .tc r) :=
  keep_region h (fun w hin e => by
    subst e; exact (W2_arr m ρ c w).trans (((dat0 (V1 m ρ) c).arrAt_in w hin _).trans (A_eq0 (V1 m ρ) c w)))
    (W2_of_ne m ρ c r)
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
theorem W4_keep (c : Dev nD) (r : Ref sig .tc) (h : ∀ w, (cfg1.win w).isOut = true → Pipeline.arrRef spec1 w ≠ r) :
    W4 m ρ c (Proc.devRef .tc r) = W3 m ρ c (Proc.devRef .tc r) :=
  keep_region h (fun w hin e => by
    subst e; exact (W4_arr m ρ c w).trans (((dat1 (V3 m ρ) c).arrAt_in w hin _).trans (A_eq1 (V3 m ρ) c w)))
    (W4_of_ne m ρ c r)
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
theorem W6_keep (c : Dev nD) (r : Ref sig .tc) (h : ∀ w, (cfg2.win w).isOut = true → Pipeline.arrRef spec2 w ≠ r) :
    W6 m ρ c (Proc.devRef .tc r) = W5 m ρ c (Proc.devRef .tc r) :=
  keep_region h (fun w hin e => by
    subst e; exact (W6_arr m ρ c w).trans (((dat2 (V5 m ρ) c).arrAt_in w hin _).trans (A_eq2 (V5 m ρ) c w)))
    (W6_of_ne m ρ c r)
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h
theorem W8_keep (c : Dev nD) (r : Ref sig .tc) (h : ∀ w, (cfg3.win w).isOut = true → Pipeline.arrRef spec3 w ≠ r) :
    W8 m ρ c (Proc.devRef .tc r) = W7 m ρ c (Proc.devRef .tc r) :=
  keep_region h (fun w hin e => by
    subst e; exact (W8_arr m ρ c w).trans (((dat3 (V7 m ρ) c).arrAt_in w hin _).trans (A_eq3 (V7 m ρ) c w)))
    (W8_of_ne m ρ c r)
theorem W9_keep (c : Dev nD) (r : Ref sig .tc) (h : r ∉ hostOps4_W) :
    W9 m ρ c (Proc.devRef .tc r) = W8 m ρ c (Proc.devRef .tc r) :=
  StableHlo.after_of_writes_sub hostOps4 _ hostOps4_writes h
theorem W10_keep (c : Dev nD) (r : Ref sig .tc) (h : ∀ w, (cfg4.win w).isOut = true → Pipeline.arrRef spec4 w ≠ r) :
    W10 m ρ c (Proc.devRef .tc r) = W9 m ρ c (Proc.devRef .tc r) :=
  keep_region h (fun w hin e => by
    subst e; exact (W10_arr m ρ c w).trans (((dat4 (V9 m ρ) c).arrAt_in w hin _).trans (A_eq4 (V9 m ρ) c w)))
    (W10_of_ne m ρ c r)
theorem W11_keep (c : Dev nD) (r : Ref sig .tc) (h : r ∉ hostOps5_W) :
    W11 m ρ c (Proc.devRef .tc r) = W10 m ρ c (Proc.devRef .tc r) :=
  StableHlo.after_of_writes_sub hostOps5 _ hostOps5_writes h
theorem W12_keep (c : Dev nD) (r : Ref sig .tc) (h : ∀ w, (cfg5.win w).isOut = true → Pipeline.arrRef spec5 w ≠ r) :
    W12 m ρ c (Proc.devRef .tc r) = W11 m ρ c (Proc.devRef .tc r) :=
  keep_region h (fun w hin e => by
    subst e; exact (W12_arr m ρ c w).trans (((dat5 (V11 m ρ) c).arrAt_in w hin _).trans (A_eq5 (V11 m ρ) c w)))
    (W12_of_ne m ρ c r)
theorem W13_keep (c : Dev nD) (r : Ref sig .tc) (h : ∀ w, (cfg6.win w).isOut = true → Pipeline.arrRef spec6 w ≠ r) :
    W13 m ρ c (Proc.devRef .tc r) = W12 m ρ c (Proc.devRef .tc r) :=
  keep_region h (fun w hin e => by
    subst e; exact (W13_arr m ρ c w).trans (((dat6 (V12 m ρ) c).arrAt_in w hin _).trans (A_eq6 (V12 m ρ) c w)))
    (W13_of_ne m ρ c r)
theorem W14_keep (c : Dev nD) (r : Ref sig .tc) (h : r ∉ hostOps7_W) :
    W14 m ρ c (Proc.devRef .tc r) = W13 m ρ c (Proc.devRef .tc r) :=
  StableHlo.after_of_writes_sub hostOps7 _ hostOps7_writes h
theorem W15_keep (c : Dev nD) (r : Ref sig .tc) (h : ∀ w, (cfg7.win w).isOut = true → Pipeline.arrRef spec7 w ≠ r) :
    W15 m ρ c (Proc.devRef .tc r) = W14 m ρ c (Proc.devRef .tc r) :=
  keep_region h (fun w hin e => by
    subst e; exact (W15_arr m ρ c w).trans (((dat7 (V14 m ρ) c).arrAt_in w hin _).trans (A_eq7 (V14 m ρ) c w)))
    (W15_of_ne m ρ c r)
theorem W16_keep (c : Dev nD) (r : Ref sig .tc) (h : ∀ w, (cfg8.win w).isOut = true → Pipeline.arrRef spec8 w ≠ r) :
    W16 m ρ c (Proc.devRef .tc r) = W15 m ρ c (Proc.devRef .tc r) :=
  keep_region h (fun w hin e => by
    subst e; exact (W16_arr m ρ c w).trans (((dat8 (V15 m ρ) c).arrAt_in w hin _).trans (A_eq8 (V15 m ρ) c w)))
    (W16_of_ne m ρ c r)
theorem W17_keep (c : Dev nD) (r : Ref sig .tc) (h : r ∉ hostOps9_W) :
    W17 m ρ c (Proc.devRef .tc r) = W16 m ρ c (Proc.devRef .tc r) :=
  StableHlo.after_of_writes_sub hostOps9 _ hostOps9_writes h
theorem W18_keep (c : Dev nD) (r : Ref sig .tc) (h : ∀ w, (cfg9.win w).isOut = true → Pipeline.arrRef spec9 w ≠ r) :
    W18 m ρ c (Proc.devRef .tc r) = W17 m ρ c (Proc.devRef .tc r) :=
  keep_region h (fun w hin e => by
    subst e; exact (W18_arr m ρ c w).trans (((dat9 (V17 m ρ) c).arrAt_in w hin _).trans (A_eq9 (V17 m ρ) c w)))
    (W18_of_ne m ρ c r)

-- The buffers after `n` steps of the program: host stretches and kernel regions in order.
def Wn (c : Dev nD) : ℕ → Valuation τ sig (Elt F)
  | 0 => W0 m ρ c
  | 1 => W1 m ρ c
  | 2 => W2 m ρ c
  | 3 => W3 m ρ c
  | 4 => W4 m ρ c
  | 5 => W5 m ρ c
  | 6 => W6 m ρ c
  | 7 => W7 m ρ c
  | 8 => W8 m ρ c
  | 9 => W9 m ρ c
  | 10 => W10 m ρ c
  | 11 => W11 m ρ c
  | 12 => W12 m ρ c
  | 13 => W13 m ρ c
  | 14 => W14 m ρ c
  | 15 => W15 m ρ c
  | 16 => W16 m ρ c
  | 17 => W17 m ρ c
  | _ => W18 m ρ c

-- Whether step `n` leaves `r` alone: a host stretch writes its results, a region its output arrays.
def keeps (r : Ref sig .tc) : ℕ → Bool
  | 0 => decide (r ∉ hostOps0_W)
  | 1 => decide (∀ w, (cfg0.win w).isOut = true → Pipeline.arrRef spec0 w ≠ r)
  | 2 => decide (r ∉ hostOps1_W)
  | 3 => decide (∀ w, (cfg1.win w).isOut = true → Pipeline.arrRef spec1 w ≠ r)
  | 4 => decide (r ∉ hostOps2_W)
  | 5 => decide (∀ w, (cfg2.win w).isOut = true → Pipeline.arrRef spec2 w ≠ r)
  | 6 => decide (r ∉ hostOps3_W)
  | 7 => decide (∀ w, (cfg3.win w).isOut = true → Pipeline.arrRef spec3 w ≠ r)
  | 8 => decide (r ∉ hostOps4_W)
  | 9 => decide (∀ w, (cfg4.win w).isOut = true → Pipeline.arrRef spec4 w ≠ r)
  | 10 => decide (r ∉ hostOps5_W)
  | 11 => decide (∀ w, (cfg5.win w).isOut = true → Pipeline.arrRef spec5 w ≠ r)
  | 12 => decide (∀ w, (cfg6.win w).isOut = true → Pipeline.arrRef spec6 w ≠ r)
  | 13 => decide (r ∉ hostOps7_W)
  | 14 => decide (∀ w, (cfg7.win w).isOut = true → Pipeline.arrRef spec7 w ≠ r)
  | 15 => decide (∀ w, (cfg8.win w).isOut = true → Pipeline.arrRef spec8 w ≠ r)
  | 16 => decide (r ∉ hostOps9_W)
  | 17 => decide (∀ w, (cfg9.win w).isOut = true → Pipeline.arrRef spec9 w ≠ r)
  | _ => true

theorem Wn_succ (c : Dev nD) (r : Ref sig .tc) : ∀ n, keeps r n = true →
    Wn m ρ c (n + 1) (Proc.devRef .tc r) = Wn m ρ c n (Proc.devRef .tc r)
  | 0, h => W1_keep m ρ c r (of_decide_eq_true h)
  | 1, h => W2_keep m ρ c r (of_decide_eq_true h)
  | 2, h => W3_keep m ρ c r (of_decide_eq_true h)
  | 3, h => W4_keep m ρ c r (of_decide_eq_true h)
  | 4, h => W5_keep m ρ c r (of_decide_eq_true h)
  | 5, h => W6_keep m ρ c r (of_decide_eq_true h)
  | 6, h => W7_keep m ρ c r (of_decide_eq_true h)
  | 7, h => W8_keep m ρ c r (of_decide_eq_true h)
  | 8, h => W9_keep m ρ c r (of_decide_eq_true h)
  | 9, h => W10_keep m ρ c r (of_decide_eq_true h)
  | 10, h => W11_keep m ρ c r (of_decide_eq_true h)
  | 11, h => W12_keep m ρ c r (of_decide_eq_true h)
  | 12, h => W13_keep m ρ c r (of_decide_eq_true h)
  | 13, h => W14_keep m ρ c r (of_decide_eq_true h)
  | 14, h => W15_keep m ρ c r (of_decide_eq_true h)
  | 15, h => W16_keep m ρ c r (of_decide_eq_true h)
  | 16, h => W17_keep m ρ c r (of_decide_eq_true h)
  | 17, h => W18_keep m ρ c r (of_decide_eq_true h)
  | _ + 18, _ => rfl

-- A reference that steps `i`, …, `i + k - 1` leave alone holds after them what it held before.
theorem Wn_keep (c : Dev nD) (r : Ref sig .tc) (i : ℕ) : ∀ k, (∀ n < k, keeps r (i + n) = true) →
    Wn m ρ c (i + k) (Proc.devRef .tc r) = Wn m ρ c i (Proc.devRef .tc r)
  | 0, _ => rfl
  | k + 1, h => (Wn_succ m ρ c r (i + k) (h k (Nat.lt_succ_self k))).trans
      (Wn_keep c r i k fun n hn => h n (Nat.lt_succ_of_lt hn))

theorem W18_arg (c : Dev nD) (r : Ref sig .tc) (h : ∀ n < 18, keeps r (0 + n) = true) :
    W18 m ρ c (Proc.devRef .tc r) = m ((c : Thread nD τ).loc r) :=
  Wn_keep m ρ c r 0 18 h

end Cert.Kernel.Hand

end
-- ==== Proof.K.Run.lean ====
import proofs.«109581_g76012331204772_cont_9to1_m_125_6_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 10) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V12 m ρ) c
  | ⟨7, _⟩ => fun c => dat7 (V14 m ρ) c
  | ⟨8, _⟩ => fun c => dat8 (V15 m ρ) c
  | ⟨9, _⟩ => fun c => dat9 (V17 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W18 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 0 c).Φ 0 = Pipeline.ΦA spec0 c from rfl]; unfold Pipeline.ΦA
    iintro ⟨Hp, -, Hr⟩
    iframe
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 1 c).Φ 0 = Pipeline.ΦA spec1 c from rfl]; unfold Pipeline.ΦA
    iintro ⟨Hp, -, Hr⟩
    iframe
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 2 c).Φ 0 = Pipeline.ΦA spec2 c from rfl]; unfold Pipeline.ΦA
    iintro ⟨Hp, -, Hr⟩
    iframe
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 3 c).Φ 0 = Pipeline.ΦA spec3 c from rfl]; unfold Pipeline.ΦA
    iintro ⟨Hp, -, Hr⟩
    iframe
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 4 c).Φ 0 = Pipeline.ΦA spec4 c from rfl]; unfold Pipeline.ΦA
    iintro ⟨Hp, -, Hr⟩
    iframe
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 5 c).Φ 0 = Pipeline.ΦA spec5 c from rfl]; unfold Pipeline.ΦA
    iintro ⟨Hp, -, Hr⟩
    iframe
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V12 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (V12 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 6 c).Φ 0 = Pipeline.ΦA spec6 c from rfl]; unfold Pipeline.ΦA
    iintro ⟨Hp, -, Hr⟩
    iframe
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V12 m ρ c) (V13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V14 m ρ) c).loose
  hwaits := Pipeline.hwaits_of_owed_zero _ _ _ _ L lv 7 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec7 c (V14 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 7 c).Φ 0 = Pipeline.ΦA spec7 c from rfl]; unfold Pipeline.ΦA
    iintro ⟨Hp, -, Hr⟩
    iframe
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V14 m ρ c) (V15 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V15 m ρ) c).loose
  hwaits := Pipeline.hwaits_of_owed_zero _ _ _ _ L lv 8 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec8 c (V15 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 8 c).Φ 0 = Pipeline.ΦA spec8 c from rfl]; unfold Pipeline.ΦA
    iintro ⟨Hp, -, Hr⟩
    iframe
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V15 m ρ c) (V16 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V17 m ρ) c).loose
  hwaits := Pipeline.hwaits_of_owed_zero _ _ _ _ L lv 9 fun _ _ => rfl
  pre c := iprop(StableHlo.held (c : Thread nD τ) (Pipeline.ucRefs τ sig) (W17 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (V17 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 9 c).Φ 0 = Pipeline.ΦA spec9 c from rfl]; unfold Pipeline.ΦA
    iintro ⟨Hp, -, Hr⟩
    iframe
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V17 m ρ c) (V18 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .region (reg6 m ρ),
    .host (hseg hostOps7 hostOps7_sub hostOps7_fresh (W13 m ρ)),
    .region (reg7 m ρ),
    .region (reg8 m ρ),
    .host (hseg hostOps9 hostOps9_sub hostOps9_fresh (W16 m ρ)),
    .region (reg9 m ρ) ]

theorem main_run (c : Dev nD) : main (F := F) c = Pipeline.Seg.run (segs m ρ) := (main_chain c).trans (by chain_rfl)

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem ((c : Thread nD τ).1, b) = W18 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h => h)

-- An argument no step writes ends as launched.
theorem arg_kept {s : MemSt nD τ sig (Elt F)} (c : Dev nD)
    (h : ∀ b ∈ Pipeline.ucRefs τ sig, s.mem ((c : Thread nD τ).1, b) = W18 m ρ c b)
    (a : Ref sig .tc) (hs : ¬ (Proc.devRef .tc a : DevRef τ sig).isScoped) (hk : ∀ n < 18, keeps a (0 + n) = true) :
    s.mem ((c.tc : Thread nD τ).loc a) = m ((c.tc : Thread nD τ).loc a) :=
  (h _ (mem_uc a hs)).trans (W18_arg m ρ c a hk)

end Cert.Kernel.Hand

end
-- ==== Proof.KI.Reg0.lean ====
import proofs.«109581_g76012331204772_cont_9to1_m_125_6_alg».proof.Proof.Gen.KernelIdeal.Launch
import proofs.«109581_g76012331204772_cont_9to1_m_125_6_alg».proof.Proof.Gen.KernelIdeal.Skeleton
import proofs.«109581_g76012331204772_cont_9to1_m_125_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_X : Rect S2048x128 := Rect.unit (s := S2048x128) ![0, 0] S2048x128.size inb_S2048x128_S2048x128_0_0
abbrev r0_Z : Rect S4096x16 := Rect.unit (s := S4096x16) ![0, 0] S4096x16.size inb_S4096x16_S4096x16_0_0
abbrev r0_W : Rect S128x128 := Rect.unit (s := S128x128) ![0, 0] S128x128.size inb_S128x128_S128x128_0_0
abbrev r0_p : Rect S1x16 := Rect.unit (s := S1x16) ![0, 0] S1x16.size inb_S1x16_S1x16_0_0
abbrev r0_g : Rect S1x128 := Rect.unit (s := S1x128) ![0, 0] S1x128.size inb_S1x128_S1x128_0_0
abbrev r0_d : Rect S1x4096 := Rect.unit (s := S1x4096) ![0, 0] S1x4096.size inb_S1x4096_S1x4096_0_0

def out0_7 (x1 : Vec F S4096x16 .f32) (x3 : Vec F S1x16 .f32) : Vec F S1x4096 .f32 :=
  View.canon [⟨r0_d, k0_pay2 (View.ld x1 r0_Z) (View.ld x3 r0_p)⟩]

def out0_8 (x0 : Vec F S2048x128 .f32) (x2 : Vec F S128x128 .f32) : Vec F S2048x128 .f32 :=
  View.canon [⟨r0_X, k0_pay3 (View.ld x0 r0_X) (View.ld x2 r0_W)⟩]

def out0_9 (x0 : Vec F S2048x128 .f32) (x4 : Vec F S128x128 .f32) (x5 : Vec F S1x128 .f32) (x6 : Vec F S1x128 .f32) : Vec F S2048x128 .f32 :=
  View.canon [⟨r0_X, k0_pay1 (k0_pay4 (View.ld x5 r0_g)) (k0_pay5 (View.ld x6 r0_g)) (k0_pay6 (View.ld x0 r0_X) (View.ld x4 r0_W))⟩]

theorem cover0_7 (p0 : Vec F S1x4096 .f32) (y : S1x4096.Idx) :
    ∃ pc ∈ ([⟨r0_d, p0⟩] : List (View.Piece (Elt F) S1x4096 .f32)), y ∈ pc.1.set :=
  View.cover_of_tiled [⟨r0_d, p0⟩] S1x4096.size (by rfl) y

theorem cover0_8 (p0 : Vec F S2048x128 .f32) (y : S2048x128.Idx) :
    ∃ pc ∈ ([⟨r0_X, p0⟩] : List (View.Piece (Elt F) S2048x128 .f32)), y ∈ pc.1.set :=
  View.cover_of_tiled [⟨r0_X, p0⟩] S2048x128.size (by rfl) y

set_option maxHeartbeats 4000000 in

theorem sound_kernel0 (c : Dev nD) (E : Set ℕ) (arg0 : Memref sig .tc .vmem S2048x128 .f32) (harg0 : arg0.IsWhole) (arg1 : Memref sig .tc .vmem S4096x16 .f32) (harg1 : arg1.IsWhole) (arg2 : Memref sig .tc .vmem S128x128 .f32) (harg2 : arg2.IsWhole) (arg3 : Memref sig .tc .vmem S1x16 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x4096 .f32) (harg7 : arg7.IsWhole) (arg8 : Memref sig .tc .vmem S2048x128 .f32) (harg8 : arg8.IsWhole) (arg9 : Memref sig .tc .vmem S2048x128 .f32) (harg9 : arg9.IsWhole)
    (x0 : Vec F S2048x128 .f32) (x1 : Vec F S4096x16 .f32) (x2 : Vec F S128x128 .f32) (x3 : Vec F S1x16 .f32) (x4 : Vec F S128x128 .f32) (x5 : Vec F S1x128 .f32) (x6 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out0_7 x1 x3) ∗ owns (c : Thread nD τ) arg8 fullShare (out0_8 x0 x2) ∗ owns (c : Thread nD τ) arg9 fullShare (out0_9 x0 x4 x5 x6)) -∗ K ⟨⟩))
      ⊢ wp frame (wpE (defs₀ (F := F)) Variants.none c none) E (cc0__prep1_body arg0 harg0 arg1 harg1 arg2 harg2 arg3 harg3 arg4 harg4 arg5 harg5 arg6 harg6 arg7 harg7 arg8 harg8 arg9 harg9) K := by
  simp only [cc0__prep1_body_eq_skeleton]; unfold cc0__prep1_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_8 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 1 t) (iblk0 V c 3 t)
    | ⟨8, _⟩ => out0_8 (iblk0 V c 0 t) (iblk0 V c 2 t)
    | ⟨9, _⟩ => out0_9 (iblk0 V c 0 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 1 t) (iblk0 V c 3 t) := by dsimp only [dat0]
theorem after0_8 (c : Dev nD) (t : Fin cfg0.N) : (dat0 V c).after 8 t = out0_8 (iblk0 V c 0 t) (iblk0 V c 2 t) := by dsimp only [dat0]
theorem after0_9 (c : Dev nD) (t : Fin cfg0.N) : (dat0 V c).after 9 t = out0_9 (iblk0 V c 0 t) (iblk0 V c 4 t) (iblk0 V c 5 t) (iblk0 V c 6 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  iframe H0 H1 H2 H3 H4 H5 H6
  isplitl [H7]; · iexists _; iexact H7
  isplitl [H8]; · iexists _; iexact H8
  isplitl [H9]; · iexists _; iexact H9
  iintro ⟨H0, H1, H2, H3, H4, H5, H6, H7, H8, H9⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Reg1.lean ====
import proofs.«109581_g76012331204772_cont_9to1_m_125_6_alg».proof.Proof.Gen.KernelIdeal.Launch
import proofs.«109581_g76012331204772_cont_9to1_m_125_6_alg».proof.Proof.Gen.KernelIdeal.Skeleton
import proofs.«109581_g76012331204772_cont_9to1_m_125_6_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_Trows (i : grid1.Coords) : Rect S2048x4096 := Rect.unit (s := S2048x4096) (k1_off1 i) S256x4096.size (k1_off1_inb i)

abbrev r1_Hrows (i : grid1.Coords) : Rect S2048x128 := Rect.unit (s := S2048x128) (k1_off2 i) S256x128.size (k1_off2_inb i)

abbrev r1_d : Rect S1x4096 := Rect.unit (s := S1x4096) ![0, 0] S1x4096.size inb_S1x4096_S1x4096_0_0
abbrev r1_T : Rect S2048x4096 := Rect.unit (s := S2048x4096) ![0, 0] S2048x4096.size inb_S2048x4096_S2048x4096_0_0
abbrev r1_adj : Rect S2048x256 := Rect.unit (s := S2048x256) ![0, 0] S2048x256.size inb_S2048x256_S2048x256_0_0
abbrev r1_b : Rect S1x128 := Rect.unit (s := S1x128) ![0, 0] S1x128.size inb_S1x128_S1x128_0_0
abbrev r1_o : Rect S2048x128 := Rect.unit (s := S2048x128) ![0, 0] S2048x128.size inb_S2048x128_S2048x128_0_0

def out1_A (i : grid1.Coords) (x0 : Vec F S1x4096 .f32) (x1 : Vec F S2048x4096 .f32) (x2 : Vec F S2048x256 .f32)
    (x3 : Vec F S2048x128 .f32) (x4 : Vec F S1x128 .f32) : Vec F S2048x128 .f32 :=
  k1_pay2 i (View.ld x1 (r1_Trows i)) (View.ld x0 r1_d) (View.ld x1 r1_T) (View.ld x2 r1_adj) (View.ld x3 (r1_Hrows i)) (View.ld x4 r1_b)

def out1_B (i : grid1.Coords) (x0 : Vec F S1x4096 .f32) (x1 : Vec F S2048x4096 .f32) (x2 : Vec F S2048x256 .f32)
    (x3 : Vec F S2048x128 .f32) (prev : Vec F S2048x128 .f32) : Vec F S2048x128 .f32 :=
  k1_pay3 i (View.ld x1 (r1_Trows i)) (View.ld x0 r1_d) (View.ld x1 r1_T) (View.ld x2 r1_adj) (View.ld x3 (r1_Hrows i)) prev

def out1_C (i : grid1.Coords) (x0 : Vec F S1x4096 .f32) (x1 : Vec F S2048x4096 .f32) (x2 : Vec F S2048x256 .f32)
    (x3 : Vec F S2048x128 .f32) (prev : Vec F S2048x128 .f32) : Vec F S2048x128 .f32 :=
  k1_pay4 (out1_B i x0 x1 x2 x3 prev)

def outsAt1 (c : Dev nD) : (n : ℕ) → n < cfg1.N → Vec F S2048x128 .f32
  | 0, hn => out1_A (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if n + 1 = 7 then
      out1_C (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))
    else
      out1_B (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn))

theorem outsAt1_A (c : Dev nD) (t : Fin cfg1.N) (h0 : t.val = 0) :
    outsAt1 V c t.val t.isLt = out1_A (grid1.coords t) (iblk1 V c 0 t) (iblk1 V c 1 t) (iblk1 V c 2 t) (iblk1 V c 3 t) (iblk1 V c 4 t) := by
  obtain ⟨n, hn⟩ := t
  cases n with
  | zero => exact rfl
  | succ n => exact absurd h0 (Nat.succ_ne_zero n)

theorem outsAt1_B (c : Dev nD) (t : Fin cfg1.N) (h0 : ¬t.val = 0) (h7 : ¬t.val = 7) :
    outsAt1 V c t.val t.isLt = out1_B (grid1.coords t) (iblk1 V c 0 t) (iblk1 V c 1 t) (iblk1 V c 2 t) (iblk1 V c 3 t)
      (outsAt1 V c (t.val - 1) (Nat.lt_of_le_of_lt (Nat.sub_le _ _) t.isLt)) := by
  obtain ⟨n, hn⟩ := t
  cases n with
  | zero => exact absurd rfl h0
  | succ n => exact (if_neg h7).trans rfl

theorem outsAt1_C (c : Dev nD) (t : Fin cfg1.N) (h7 : t.val = 7) :
    outsAt1 V c t.val t.isLt = out1_C (grid1.coords t) (iblk1 V c 0 t) (iblk1 V c 1 t) (iblk1 V c 2 t) (iblk1 V c 3 t)
      (outsAt1 V c (t.val - 1) (Nat.lt_of_le_of_lt (Nat.sub_le _ _) t.isLt)) := by
  obtain ⟨n, hn⟩ := t
  cases n with
  | zero => exact absurd h7 (by dsimp only; omega)
  | succ n => exact (if_pos h7).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outsAt1 V c t.val t.isLt := by dsimp only [dat1]

theorem zero2 : (![0, 0] : Fin 2 → Nat) = fun _ => 0 := by funext a; fin_cases a <;> rfl

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

theorem live1_5 : ∀ i : grid1.Coords, cfg1.idle 5 i = false :=
  (by decide +kernel : ∀ i : grid1.Coords, idle1 5 i = false)

theorem before1_5_kept (c : Dev nD) (t : Fin cfg1.N) (h0 : ¬t.val = 0) (d) :
    (dat1 V c).before 5 t d = outsAt1 V c (t.val - 1) (Nat.lt_of_le_of_lt (Nat.sub_le _ _) t.isLt) := by
  have hN : t.val < 8 := lt_of_lt_of_eq t.isLt (show cfg1.N = 8 from N_1)
  rw [Dat.before_out_kept _ 5 rfl t h0 (Bool.eq_false_iff.mpr fun h => by have := (flush1_5 _).mp h; dsimp only at this; omega)
    live1_5 (fun _ _ => rfl)]
  dsimp only [dat1]

theorem hcond1_1 : ∀ t : Fin cfg1.N, k1_cond1 (grid1.coords t) = 1#1 ↔ t.val = 0 :=
  (by decide +kernel : ∀ t : Fin grid1.N, k1_cond1 (grid1.coords t) = 1#1 ↔ t.val = 0)

theorem hcond1_2 : ∀ t : Fin cfg1.N, k1_cond2 (grid1.coords t) = 1#1 ↔ ¬t.val = 0 :=
  (by decide +kernel : ∀ t : Fin grid1.N, k1_cond2 (grid1.coords t) = 1#1 ↔ ¬t.val = 0)

theorem hcond1_3 : ∀ t : Fin cfg1.N, k1_cond3 (grid1.coords t) = 1#1 ↔ t.val = 7 :=
  (by decide +kernel : ∀ t : Fin grid1.N, k1_cond3 (grid1.coords t) = 1#1 ↔ t.val = 7)

theorem cover1_o (p : Vec F S2048x128 .f32) (L : List (View.Piece (Elt F) S2048x128 .f32)) (y : S2048x128.Idx) :
    ∃ pc ∈ ((⟨r1_o, p⟩ : View.Piece (Elt F) S2048x128 .f32) :: L), y ∈ pc.1.set :=
  ⟨_, List.mem_cons_self, View.mem_set_unit_zero zero2 inb_S2048x128_S2048x128_0_0 y⟩

section
variable (c : Dev nD) (E : Set ℕ) (i : grid1.Coords)
    (arg1 : Memref sig .tc .vmem S1x4096 .f32) (harg1 : arg1.IsWhole) (arg2 : Memref sig .tc .vmem S2048x4096 .f32) (harg2 : arg2.IsWhole)
    (arg3 : Memref sig .tc .vmem S2048x256 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S2048x128 .f32) (harg6 : arg6.IsWhole)

set_option maxHeartbeats 1000000 in

theorem sound_kernel1_A (hc1 : k1_cond1 i = 1#1) (hc2 : ¬k1_cond2 i = 1#1) (hc3 : ¬k1_cond3 i = 1#1)
    (x0 : Vec F S1x4096 .f32) (x1 : Vec F S2048x4096 .f32) (x2 : Vec F S2048x256 .f32) (x3 : Vec F S2048x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out1_A i x0 x1 x2 x3 x4)) -∗ K ⟨⟩))
      ⊢ wp frame (wpE (defs₀ (F := F)) Variants.none c none) E (cc1__fused_gc_body i arg1 harg1 arg2 harg2 arg3 harg3 arg4 harg4 arg5 harg5 arg6 harg6) K := by
  simp only [cc1__fused_gc_body_eq_skeleton]; unfold cc1__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover1_o _ _), View.canon_cons_unit_zero zero2]
  rfl

set_option maxHeartbeats 1000000 in

theorem sound_kernel1_B (hc1 : ¬k1_cond1 i = 1#1) (hc2 : k1_cond2 i = 1#1) (hc3 : ¬k1_cond3 i = 1#1)
    (x0 : Vec F S1x4096 .f32) (x1 : Vec F S2048x4096 .f32) (x2 : Vec F S2048x256 .f32) (x3 : Vec F S2048x128 .f32) (x4 : Vec F S1x128 .f32) (prev : Vec F S2048x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare prev
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out1_B i x0 x1 x2 x3 prev)) -∗ K ⟨⟩))
      ⊢ wp frame (wpE (defs₀ (F := F)) Variants.none c none) E (cc1__fused_gc_body i arg1 harg1 arg2 harg2 arg3 harg3 arg4 harg4 arg5 harg5 arg6 harg6) K := by
  simp only [cc1__fused_gc_body_eq_skeleton]; unfold cc1__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover1_o _ _), View.canon_cons_unit_zero zero2]
  unfold out1_B
  exact congrArg (k1_pay3 i _ _ _ _ _) (View.ld_unit_zero zero2 _ _)

set_option maxHeartbeats 1000000 in

theorem sound_kernel1_C (hc1 : ¬k1_cond1 i = 1#1) (hc2 : k1_cond2 i = 1#1) (hc3 : k1_cond3 i = 1#1)
    (x0 : Vec F S1x4096 .f32) (x1 : Vec F S2048x4096 .f32) (x2 : Vec F S2048x256 .f32) (x3 : Vec F S2048x128 .f32) (x4 : Vec F S1x128 .f32) (prev : Vec F S2048x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare prev
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out1_C i x0 x1 x2 x3 prev)) -∗ K ⟨⟩))
      ⊢ wp frame (wpE (defs₀ (F := F)) Variants.none c none) E (cc1__fused_gc_body i arg1 harg1 arg2 harg2 arg3 harg3 arg4 harg4 arg5 harg5 arg6 harg6) K := by
  simp only [cc1__fused_gc_body_eq_skeleton]; unfold cc1__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover1_o _ _), View.canon_cons_unit_zero zero2]
  sl_unfold_run_names
  rw [View.readCov_unit_zero _ zero2]
  unfold out1_C out1_B
  exact congrArg (fun p => k1_pay4 (k1_pay3 i _ _ _ _ _ p)) (View.ld_unit_zero zero2 _ _)

end

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 8 := lt_of_lt_of_eq t.isLt (show cfg1.N = 8 from N_1)
  by_cases h0 : t.val = 0
  · rw [outsAt1_A V c t h0]
    iintro ⟨HΦ, Ho, ⟨%d0, H0⟩, ⟨%d1, H1⟩, ⟨%d2, H2⟩, ⟨%d3, H3⟩, ⟨%d4, H4⟩, ⟨%d5, H5⟩⟩
    iapply (sound_kernel1_A c Set.univ (grid1.coords t) _ _ _ _ _ _ _ _ _ _ _ _ ((hcond1_1 t).mpr h0) (fun h => (hcond1_2 t).mp h h0)
      (fun h => by have := (hcond1_3 t).mp h; omega) (iblk1 V c 0 t) (iblk1 V c 1 t) (iblk1 V c 2 t) (iblk1 V c 3 t) (iblk1 V c 4 t) _)
    iframe H0 H1 H2 H3 H4
    isplitl [H5]; · iexists _; iexact H5
    iintro ⟨H0, H1, H2, H3, H4, H5⟩
    iframe
  · by_cases h7 : t.val = 7
    · rw [outsAt1_C V c t h7]
      simp only [before1_5_kept V c t h0]
      iintro ⟨HΦ, Ho, ⟨%d0, H0⟩, ⟨%d1, H1⟩, ⟨%d2, H2⟩, ⟨%d3, H3⟩, ⟨%d4, H4⟩, ⟨%d5, H5⟩⟩
      iapply (sound_kernel1_C c Set.univ (grid1.coords t) _ _ _ _ _ _ _ _ _ _ _ _ (fun h => h0 ((hcond1_1 t).mp h)) ((hcond1_2 t).mpr h0)
        ((hcond1_3 t).mpr h7) (iblk1 V c 0 t) (iblk1 V c 1 t) (iblk1 V c 2 t) (iblk1 V c 3 t) (iblk1 V c 4 t) _ _)
      iframe H0 H1 H2 H3 H4 H5
      iintro ⟨H0, H1, H2, H3, H4, H5⟩
      iframe
    · rw [outsAt1_B V c t h0 h7]
      simp only [before1_5_kept V c t h0]
      iintro ⟨HΦ, Ho, ⟨%d0, H0⟩, ⟨%d1, H1⟩, ⟨%d2, H2⟩, ⟨%d3, H3⟩, ⟨%d4, H4⟩, ⟨%d5, H5⟩⟩
      iapply (sound_kernel1_B c Set.univ (grid1.coords t) _ _ _ _ _ _ _ _ _ _ _ _ (fun h => h0 ((hcond1_1 t).mp h)) ((hcond1_2 t).mpr h0)
        (fun h => h7 ((hcond1_3 t).mp h)) (iblk1 V c 0 t) (iblk1 V c 1 t) (iblk1 V c 2 t) (iblk1 V c 3 t) (iblk1 V c 4 t) _ _)
      iframe H0 H1 H2 H3 H4 H5
      iintro ⟨H0, H1, H2, H3, H4, H5⟩
      iframe

set_option maxHeartbeats 1000000 in

theorem body_obligation1 (c : Dev nD) : BodyObligation (dat1 (F := F) V c) (defs₀ (F := F)) Variants.none () Set.univ := fun t => by
  rw [bigSep_W1, bigSep_W1]
  have h5 : cfg1.idle (5 : Fin 6) (cfg1.grid.coords t) = false := live1_5 _
  rw [h5]
  exact sound_body1 V c t

end Cert.KernelIdeal.Hand

end
-- ==== Proof.KI.Reg2.lean ====
import proofs.«109581_g76012331204772_cont_9to1_m_125_6_alg».proof.Proof.Gen.KernelIdeal.Launch
import proofs.«109581_g76012331204772_cont_9to1_m_125_6_alg».proof.Proof.Gen.KernelIdeal.Skeleton
import proofs.«109581_g76012331204772_cont_9to1_m_125_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_X : Rect S2048x256 := Rect.unit (s := S2048x256) ![0, 0] S2048x256.size inb_S2048x256_S2048x256_0_0
abbrev r2_Z : Rect S4096x16 := Rect.unit (s := S4096x16) ![0, 0] S4096x16.size inb_S4096x16_S4096x16_0_0
abbrev r2_W : Rect S16x16 := Rect.unit (s := S16x16) ![0, 0] S16x16.size inb_S16x16_S16x16_0_0
abbrev r2_p : Rect S1x256 := Rect.unit (s := S1x256) ![0, 0] S1x256.size inb_S1x256_S1x256_0_0
abbrev r2_g : Rect S1x16 := Rect.unit (s := S1x16) ![0, 0] S1x16.size inb_S1x16_S1x16_0_0
abbrev r2_d : Rect S1x2048 := Rect.unit (s := S1x2048) ![0, 0] S1x2048.size inb_S1x2048_S1x2048_0_0

def out2_7 (x0 : Vec F S2048x256 .f32) (x3 : Vec F S1x256 .f32) : Vec F S1x2048 .f32 :=
  View.canon [⟨r2_d, k2_pay2 (View.ld x3 r2_p) (View.ld x0 r2_X)⟩]

def out2_8 (x1 : Vec F S4096x16 .f32) (x2 : Vec F S16x16 .f32) : Vec F S4096x16 .f32 :=
  View.canon [⟨r2_Z, k2_pay3 (View.ld x1 r2_Z) (View.ld x2 r2_W)⟩]

def out2_9 (x1 : Vec F S4096x16 .f32) (x4 : Vec F S16x16 .f32) (x5 : Vec F S1x16 .f32) (x6 : Vec F S1x16 .f32) : Vec F S4096x16 .f32 :=
  View.canon [⟨r2_Z, k2_pay1 (k2_pay5 (View.ld x5 r2_g)) (k2_pay6 (View.ld x6 r2_g)) (k2_pay8 (View.ld x1 r2_Z) (View.ld x4 r2_W))
    (k2_pay9 (View.ld x1 r2_Z) (View.ld x4 r2_W)) (k2_pay10 (F := F))⟩]

theorem cover2_7 (p0 : Vec F S1x2048 .f32) (y : S1x2048.Idx) :
    ∃ pc ∈ ([⟨r2_d, p0⟩] : List (View.Piece (Elt F) S1x2048 .f32)), y ∈ pc.1.set :=
  View.cover_of_tiled [⟨r2_d, p0⟩] S1x2048.size (by rfl) y

theorem cover2_8 (p0 : Vec F S4096x16 .f32) (y : S4096x16.Idx) :
    ∃ pc ∈ ([⟨r2_Z, p0⟩] : List (View.Piece (Elt F) S4096x16 .f32)), y ∈ pc.1.set :=
  View.cover_of_tiled [⟨r2_Z, p0⟩] S4096x16.size (by rfl) y

set_option maxHeartbeats 4000000 in

theorem sound_kernel2 (c : Dev nD) (E : Set ℕ) (arg0 : Memref sig .tc .vmem S2048x256 .f32) (harg0 : arg0.IsWhole) (arg1 : Memref sig .tc .vmem S4096x16 .f32) (harg1 : arg1.IsWhole) (arg2 : Memref sig .tc .vmem S16x16 .f32) (harg2 : arg2.IsWhole) (arg3 : Memref sig .tc .vmem S1x256 .f32) (harg3 : arg3.IsWhole) (arg4 : Memref sig .tc .vmem S16x16 .f32) (harg4 : arg4.IsWhole) (arg5 : Memref sig .tc .vmem S1x16 .f32) (harg5 : arg5.IsWhole) (arg6 : Memref sig .tc .vmem S1x16 .f32) (harg6 : arg6.IsWhole) (arg7 : Memref sig .tc .vmem S1x2048 .f32) (harg7 : arg7.IsWhole) (arg8 : Memref sig .tc .vmem S4096x16 .f32) (harg8 : arg8.IsWhole) (arg9 : Memref sig .tc .vmem S4096x16 .f32) (harg9 : arg9.IsWhole)
    (x0 : Vec F S2048x256 .f32) (x1 : Vec F S4096x16 .f32) (x2 : Vec F S16x16 .f32) (x3 : Vec F S1x256 .f32) (x4 : Vec F S16x16 .f32) (x5 : Vec F S1x16 .f32) (x6 : Vec F S1x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out2_7 x0 x3) ∗ owns (c : Thread nD τ) arg8 fullShare (out2_8 x1 x2) ∗ owns (c : Thread nD τ) arg9 fullShare (out2_9 x1 x4 x5 x6)) -∗ K ⟨⟩))
      ⊢ wp frame (wpE (defs₀ (F := F)) Variants.none c none) E (cc2__prep2_body arg0 harg0 arg1 harg1 arg2 harg2 arg3 harg3 arg4 harg4 arg5 harg5 arg6 harg6 arg7 harg7 arg8 harg8 arg9 harg9) K := by
  simp only [cc2__prep2_body_eq_skeleton]; unfold cc2__prep2_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2_7 _)
  isplitl [H8]
  · iexists _; isplitr
    swap; · iexact H8
    ipureintro
    exact View.read_writes_eq_canon _ _ _ (cover2_8 _)
  iexists _; isplitr
  swap; · iexact H9
  ipureintro
  exact View.read_writes_eq_canon _ _ _ (cover2_8 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 3 t)
    | ⟨8, _⟩ => out2_8 (iblk2 V c 1 t) (iblk2 V c 2 t)
    | ⟨9, _⟩ => out2_9 (iblk2 V c 1 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 3 t) := by dsimp only [dat2]
theorem after2_8 (c : Dev nD) (t : Fin cfg2.N) : (dat2 V c).after 8 t = out2_8 (iblk2 V c 1 t) (iblk2 V c 2 t) := by dsimp only [dat2]
theorem after2_9 (c : Dev nD) (t : Fin cfg2.N) : (dat2 V c).after 9 t = out2_9 (iblk2 V c 1 t) (iblk2 V c 4 t) (iblk2 V c 5 t) (iblk2 V c 6 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

set_option maxHeartbeats 1000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  iframe H0 H1 H2 H3 H4 H5 H6
  isplitl [H7]; · iexists _; iexact H7
  isplitl [H8]; · iexists _; iexact H8
  isplitl [H9]; · iexists _; iexact H9
  iintro ⟨H0, H1, H2, H3, H4, H5, H6, H7, H8, H9⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.Reg3.lean ====
import proofs.«109581_g76012331204772_cont_9to1_m_125_6_alg».proof.Proof.Gen.KernelIdeal.Launch
import proofs.«109581_g76012331204772_cont_9to1_m_125_6_alg».proof.Proof.Gen.KernelIdeal.Skeleton
import proofs.«109581_g76012331204772_cont_9to1_m_125_6_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_Trows (i : grid3.Coords) : Rect S4096x2048 := Rect.unit (s := S4096x2048) (k3_off1 i) S256x2048.size (k3_off1_inb i)

abbrev r3_Hrows (i : grid3.Coords) : Rect S4096x16 := Rect.unit (s := S4096x16) (k3_off2 i) S256x16.size (k3_off2_inb i)

abbrev r3_d : Rect S1x2048 := Rect.unit (s := S1x2048) ![0, 0] S1x2048.size inb_S1x2048_S1x2048_0_0
abbrev r3_T : Rect S4096x2048 := Rect.unit (s := S4096x2048) ![0, 0] S4096x2048.size inb_S4096x2048_S4096x2048_0_0
abbrev r3_adj : Rect S4096x256 := Rect.unit (s := S4096x256) ![0, 0] S4096x256.size inb_S4096x256_S4096x256_0_0
abbrev r3_b : Rect S1x16 := Rect.unit (s := S1x16) ![0, 0] S1x16.size inb_S1x16_S1x16_0_0
abbrev r3_o : Rect S4096x16 := Rect.unit (s := S4096x16) ![0, 0] S4096x16.size inb_S4096x16_S4096x16_0_0

def out3_A (i : grid3.Coords) (x0 : Vec F S1x2048 .f32) (x1 : Vec F S4096x2048 .f32) (x2 : Vec F S4096x256 .f32)
    (x3 : Vec F S4096x16 .f32) (x4 : Vec F S1x16 .f32) : Vec F S4096x16 .f32 :=
  k3_pay2 i (View.ld x1 (r3_Trows i)) (View.ld x0 r3_d) (View.ld x1 r3_T) (View.ld x2 r3_adj) (View.ld x3 (r3_Hrows i)) (View.ld x4 r3_b)

def out3_B (i : grid3.Coords) (x0 : Vec F S1x2048 .f32) (x1 : Vec F S4096x2048 .f32) (x2 : Vec F S4096x256 .f32)
    (x3 : Vec F S4096x16 .f32) (prev : Vec F S4096x16 .f32) : Vec F S4096x16 .f32 :=
  k3_pay3 i (View.ld x1 (r3_Trows i)) (View.ld x0 r3_d) (View.ld x1 r3_T) (View.ld x2 r3_adj) (View.ld x3 (r3_Hrows i)) prev

def out3_C (i : grid3.Coords) (x0 : Vec F S1x2048 .f32) (x1 : Vec F S4096x2048 .f32) (x2 : Vec F S4096x256 .f32)
    (x3 : Vec F S4096x16 .f32) (prev : Vec F S4096x16 .f32) : Vec F S4096x16 .f32 :=
  k3_pay4 (out3_B i x0 x1 x2 x3 prev)

def outsAt3 (c : Dev nD) : (n : ℕ) → n < cfg3.N → Vec F S4096x16 .f32
  | 0, hn => out3_A (grid3.coords ⟨0, hn⟩) (iblk3 V c 0 ⟨0, hn⟩) (iblk3 V c 1 ⟨0, hn⟩) (iblk3 V c 2 ⟨0, hn⟩) (iblk3 V c 3 ⟨0, hn⟩) (iblk3 V c 4 ⟨0, hn⟩)
  | n + 1, hn =>
    if n + 1 = 15 then
      out3_C (grid3.coords ⟨n + 1, hn⟩) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn))
    else
      out3_B (grid3.coords ⟨n + 1, hn⟩) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn))

theorem outsAt3_A (c : Dev nD) (t : Fin cfg3.N) (h0 : t.val = 0) :
    outsAt3 V c t.val t.isLt = out3_A (grid3.coords t) (iblk3 V c 0 t) (iblk3 V c 1 t) (iblk3 V c 2 t) (iblk3 V c 3 t) (iblk3 V c 4 t) := by
  obtain ⟨n, hn⟩ := t
  cases n with
  | zero => exact rfl
  | succ n => exact absurd h0 (Nat.succ_ne_zero n)

theorem outsAt3_B (c : Dev nD) (t : Fin cfg3.N) (h0 : ¬t.val = 0) (h7 : ¬t.val = 15) :
    outsAt3 V c t.val t.isLt = out3_B (grid3.coords t) (iblk3 V c 0 t) (iblk3 V c 1 t) (iblk3 V c 2 t) (iblk3 V c 3 t)
      (outsAt3 V c (t.val - 1) (Nat.lt_of_le_of_lt (Nat.sub_le _ _) t.isLt)) := by
  obtain ⟨n, hn⟩ := t
  cases n with
  | zero => exact absurd rfl h0
  | succ n => exact (if_neg h7).trans rfl

theorem outsAt3_C (c : Dev nD) (t : Fin cfg3.N) (h7 : t.val = 15) :
    outsAt3 V c t.val t.isLt = out3_C (grid3.coords t) (iblk3 V c 0 t) (iblk3 V c 1 t) (iblk3 V c 2 t) (iblk3 V c 3 t)
      (outsAt3 V c (t.val - 1) (Nat.lt_of_le_of_lt (Nat.sub_le _ _) t.isLt)) := by
  obtain ⟨n, hn⟩ := t
  cases n with
  | zero => exact absurd h7 (by dsimp only; omega)
  | succ n => exact (if_pos h7).trans rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => outsAt3 V c t.val t.isLt
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = outsAt3 V c t.val t.isLt := by dsimp only [dat3]

theorem zero2_3 : (![0, 0] : Fin 2 → Nat) = fun _ => 0 := by funext a; fin_cases a <;> rfl

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

theorem live3_5 : ∀ i : grid3.Coords, cfg3.idle 5 i = false :=
  (by decide +kernel : ∀ i : grid3.Coords, idle3 5 i = false)

theorem before3_5_kept (c : Dev nD) (t : Fin cfg3.N) (h0 : ¬t.val = 0) (d) :
    (dat3 V c).before 5 t d = outsAt3 V c (t.val - 1) (Nat.lt_of_le_of_lt (Nat.sub_le _ _) t.isLt) := by
  have hN : t.val < 16 := lt_of_lt_of_eq t.isLt (show cfg3.N = 16 from N_3)
  rw [Dat.before_out_kept _ 5 rfl t h0 (Bool.eq_false_iff.mpr fun h => by have := (flush3_5 _).mp h; dsimp only at this; omega)
    live3_5 (fun _ _ => rfl)]
  dsimp only [dat3]

theorem hcond3_1 : ∀ t : Fin cfg3.N, k3_cond1 (grid3.coords t) = 1#1 ↔ t.val = 0 :=
  (by decide +kernel : ∀ t : Fin grid3.N, k3_cond1 (grid3.coords t) = 1#1 ↔ t.val = 0)

theorem hcond3_2 : ∀ t : Fin cfg3.N, k3_cond2 (grid3.coords t) = 1#1 ↔ ¬t.val = 0 :=
  (by decide +kernel : ∀ t : Fin grid3.N, k3_cond2 (grid3.coords t) = 1#1 ↔ ¬t.val = 0)

theorem hcond3_3 : ∀ t : Fin cfg3.N, k3_cond3 (grid3.coords t) = 1#1 ↔ t.val = 15 :=
  (by decide +kernel : ∀ t : Fin grid3.N, k3_cond3 (grid3.coords t) = 1#1 ↔ t.val = 15)

theorem cover3_o (p : Vec F S4096x16 .f32) (L : List (View.Piece (Elt F) S4096x16 .f32)) (y : S4096x16.Idx) :
    ∃ pc ∈ ((⟨r3_o, p⟩ : View.Piece (Elt F) S4096x16 .f32) :: L), y ∈ pc.1.set :=
  ⟨_, List.mem_cons_self, View.mem_set_unit_zero zero2_3 inb_S4096x16_S4096x16_0_0 y⟩

section
variable (c : Dev nD) (E : Set ℕ) (i : grid3.Coords)
    (arg1 : Memref sig .tc .vmem S1x2048 .f32) (harg1 : arg1.IsWhole) (arg2 : Memref sig .tc .vmem S4096x2048 .f32) (harg2 : arg2.IsWhole)
    (arg3 : Memref sig .tc .vmem S4096x256 .f32) (harg3 : arg3.IsWhole) (arg4 : Memref sig .tc .vmem S4096x16 .f32) (harg4 : arg4.IsWhole)
    (arg5 : Memref sig .tc .vmem S1x16 .f32) (harg5 : arg5.IsWhole) (arg6 : Memref sig .tc .vmem S4096x16 .f32) (harg6 : arg6.IsWhole)

set_option maxHeartbeats 1000000 in

theorem sound_kernel3_A (hc1 : k3_cond1 i = 1#1) (hc2 : ¬k3_cond2 i = 1#1) (hc3 : ¬k3_cond3 i = 1#1)
    (x0 : Vec F S1x2048 .f32) (x1 : Vec F S4096x2048 .f32) (x2 : Vec F S4096x256 .f32) (x3 : Vec F S4096x16 .f32) (x4 : Vec F S1x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out3_A i x0 x1 x2 x3 x4)) -∗ K ⟨⟩))
      ⊢ wp frame (wpE (defs₀ (F := F)) Variants.none c none) E (cc3__fused_gc_body i arg1 harg1 arg2 harg2 arg3 harg3 arg4 harg4 arg5 harg5 arg6 harg6) K := by
  simp only [cc3__fused_gc_body_eq_skeleton]; unfold cc3__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover3_o _ _), View.canon_cons_unit_zero zero2_3]
  rfl

set_option maxHeartbeats 1000000 in

theorem sound_kernel3_B (hc1 : ¬k3_cond1 i = 1#1) (hc2 : k3_cond2 i = 1#1) (hc3 : ¬k3_cond3 i = 1#1)
    (x0 : Vec F S1x2048 .f32) (x1 : Vec F S4096x2048 .f32) (x2 : Vec F S4096x256 .f32) (x3 : Vec F S4096x16 .f32) (x4 : Vec F S1x16 .f32) (prev : Vec F S4096x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare prev
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out3_B i x0 x1 x2 x3 prev)) -∗ K ⟨⟩))
      ⊢ wp frame (wpE (defs₀ (F := F)) Variants.none c none) E (cc3__fused_gc_body i arg1 harg1 arg2 harg2 arg3 harg3 arg4 harg4 arg5 harg5 arg6 harg6) K := by
  simp only [cc3__fused_gc_body_eq_skeleton]; unfold cc3__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover3_o _ _), View.canon_cons_unit_zero zero2_3]
  unfold out3_B
  exact congrArg (k3_pay3 i _ _ _ _ _) (View.ld_unit_zero zero2_3 _ _)

set_option maxHeartbeats 1000000 in

theorem sound_kernel3_C (hc1 : ¬k3_cond1 i = 1#1) (hc2 : k3_cond2 i = 1#1) (hc3 : k3_cond3 i = 1#1)
    (x0 : Vec F S1x2048 .f32) (x1 : Vec F S4096x2048 .f32) (x2 : Vec F S4096x256 .f32) (x3 : Vec F S4096x16 .f32) (x4 : Vec F S1x16 .f32) (prev : Vec F S4096x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare prev
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out3_C i x0 x1 x2 x3 prev)) -∗ K ⟨⟩))
      ⊢ wp frame (wpE (defs₀ (F := F)) Variants.none c none) E (cc3__fused_gc_body i arg1 harg1 arg2 harg2 arg3 harg3 arg4 harg4 arg5 harg5 arg6 harg6) K := by
  simp only [cc3__fused_gc_body_eq_skeleton]; unfold cc3__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover3_o _ _), View.canon_cons_unit_zero zero2_3]
  sl_unfold_run_names
  rw [View.readCov_unit_zero _ zero2_3]
  unfold out3_C out3_B
  exact congrArg (fun p => k3_pay4 (k3_pay3 i _ _ _ _ _ p)) (View.ld_unit_zero zero2_3 _ _)

end

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 1000000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  have hN : t.val < 16 := lt_of_lt_of_eq t.isLt (show cfg3.N = 16 from N_3)
  by_cases h0 : t.val = 0
  · rw [outsAt3_A V c t h0]
    iintro ⟨HΦ, Ho, ⟨%d0, H0⟩, ⟨%d1, H1⟩, ⟨%d2, H2⟩, ⟨%d3, H3⟩, ⟨%d4, H4⟩, ⟨%d5, H5⟩⟩
    iapply (sound_kernel3_A c Set.univ (grid3.coords t) _ _ _ _ _ _ _ _ _ _ _ _ ((hcond3_1 t).mpr h0) (fun h => (hcond3_2 t).mp h h0)
      (fun h => by have := (hcond3_3 t).mp h; omega) (iblk3 V c 0 t) (iblk3 V c 1 t) (iblk3 V c 2 t) (iblk3 V c 3 t) (iblk3 V c 4 t) _)
    iframe H0 H1 H2 H3 H4
    isplitl [H5]; · iexists _; iexact H5
    iintro ⟨H0, H1, H2, H3, H4, H5⟩
    iframe
  · by_cases h7 : t.val = 15
    · rw [outsAt3_C V c t h7]
      simp only [before3_5_kept V c t h0]
      iintro ⟨HΦ, Ho, ⟨%d0, H0⟩, ⟨%d1, H1⟩, ⟨%d2, H2⟩, ⟨%d3, H3⟩, ⟨%d4, H4⟩, ⟨%d5, H5⟩⟩
      iapply (sound_kernel3_C c Set.univ (grid3.coords t) _ _ _ _ _ _ _ _ _ _ _ _ (fun h => h0 ((hcond3_1 t).mp h)) ((hcond3_2 t).mpr h0)
        ((hcond3_3 t).mpr h7) (iblk3 V c 0 t) (iblk3 V c 1 t) (iblk3 V c 2 t) (iblk3 V c 3 t) (iblk3 V c 4 t) _ _)
      iframe H0 H1 H2 H3 H4 H5
      iintro ⟨H0, H1, H2, H3, H4, H5⟩
      iframe
    · rw [outsAt3_B V c t h0 h7]
      simp only [before3_5_kept V c t h0]
      iintro ⟨HΦ, Ho, ⟨%d0, H0⟩, ⟨%d1, H1⟩, ⟨%d2, H2⟩, ⟨%d3, H3⟩, ⟨%d4, H4⟩, ⟨%d5, H5⟩⟩
      iapply (sound_kernel3_B c Set.univ (grid3.coords t) _ _ _ _ _ _ _ _ _ _ _ _ (fun h => h0 ((hcond3_1 t).mp h)) ((hcond3_2 t).mpr h0)
        (fun h => h7 ((hcond3_3 t).mp h)) (iblk3 V c 0 t) (iblk3 V c 1 t) (iblk3 V c 2 t) (iblk3 V c 3 t) (iblk3 V c 4 t) _ _)
      iframe H0 H1 H2 H3 H4 H5
      iintro ⟨H0, H1, H2, H3, H4, H5⟩
      iframe

set_option maxHeartbeats 1000000 in

theorem body_obligation3 (c : Dev nD) : BodyObligation (dat3 (F := F) V c) (defs₀ (F := F)) Variants.none () Set.univ := fun t => by
  rw [bigSep_W3, bigSep_W3]
  have h5 : cfg3.idle (5 : Fin 6) (cfg3.grid.coords t) = false := live3_5 _
  rw [h5]
  exact sound_body3 V c t

end Cert.KernelIdeal.Hand

end
-- ==== Proof.KI.Reg4.lean ====
import proofs.«109581_g76012331204772_cont_9to1_m_125_6_alg».proof.Proof.Gen.KernelIdeal.Launch
import proofs.«109581_g76012331204772_cont_9to1_m_125_6_alg».proof.Proof.Gen.KernelIdeal.Skeleton
import proofs.«109581_g76012331204772_cont_9to1_m_125_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1x32 := Rect.unit (s := S1x32) ![0, 0] S1x32.size inb_S1x32_S1x32_0_0
abbrev r4_1 : Rect S4096x32 := Rect.unit (s := S4096x32) ![0, 0] S4096x32.size inb_S4096x32_S4096x32_0_0
abbrev r4_2 : Rect S1x4096 := Rect.unit (s := S1x4096) ![0, 0] S1x4096.size inb_S1x4096_S1x4096_0_0
abbrev r4_3 : Rect S2048x256 := Rect.unit (s := S2048x256) ![0, 0] S2048x256.size inb_S2048x256_S2048x256_0_0
abbrev r4_4 : Rect S256x128 := Rect.unit (s := S256x128) ![0, 0] S256x128.size inb_S256x128_S256x128_0_0
abbrev r4_5 : Rect S2048x128 := Rect.unit (s := S2048x128) ![0, 0] S2048x128.size inb_S2048x128_S2048x128_0_0

def out4_4 (x0 : Vec F S2048x256 .f32) (x1 : Vec F S4096x32 .f32) (x2 : Vec F S256x128 .f32) (x3 : Vec F S1x32 .f32) : Vec F S1x4096 .f32 :=
  View.canon [⟨r4_2, k4_pay1 (View.ld x3 r4_0) (View.ld x1 r4_1)⟩]

theorem cover4_4 (p0 : Vec F S1x4096 .f32) (y : S1x4096.Idx) :
    ∃ pc ∈ ([⟨r4_2, p0⟩] : List (View.Piece (Elt F) S1x4096 .f32)), y ∈ pc.1.set :=
  View.cover_of_tiled [⟨r4_2, p0⟩] S1x4096.size (by rfl) y

def out4_5 (x0 : Vec F S2048x256 .f32) (x1 : Vec F S4096x32 .f32) (x2 : Vec F S256x128 .f32) (x3 : Vec F S1x32 .f32) : Vec F S2048x128 .f32 :=
  View.canon [⟨r4_5, k4_pay2 (View.ld x0 r4_3) (View.ld x2 r4_4)⟩]

theorem cover4_5 (p0 : Vec F S2048x128 .f32) (y : S2048x128.Idx) :
    ∃ pc ∈ ([⟨r4_5, p0⟩] : List (View.Piece (Elt F) S2048x128 .f32)), y ∈ pc.1.set :=
  View.cover_of_tiled [⟨r4_5, p0⟩] S2048x128.size (by rfl) y

set_option maxHeartbeats 4000000 in

theorem sound_kernel4 (c : Dev nD) (E : Set ℕ) (arg0 : Memref sig .tc .vmem S2048x256 .f32) (harg0 : arg0.IsWhole) (arg1 : Memref sig .tc .vmem S4096x32 .f32) (harg1 : arg1.IsWhole) (arg2 : Memref sig .tc .vmem S256x128 .f32) (harg2 : arg2.IsWhole) (arg3 : Memref sig .tc .vmem S1x32 .f32) (harg3 : arg3.IsWhole) (arg4 : Memref sig .tc .vmem S1x4096 .f32) (harg4 : arg4.IsWhole) (arg5 : Memref sig .tc .vmem S2048x128 .f32) (harg5 : arg5.IsWhole)
    (x0 : Vec F S2048x256 .f32) (x1 : Vec F S4096x32 .f32) (x2 : Vec F S256x128 .f32) (x3 : Vec F S1x32 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out4_4 x0 x1 x2 x3) ∗ owns (c : Thread nD τ) arg5 fullShare (out4_5 x0 x1 x2 x3)) -∗ K ⟨⟩))
      ⊢ wp frame (wpE (defs₀ (F := F)) Variants.none c none) E (cc4__prep35_body arg0 harg0 arg1 harg1 arg2 harg2 arg3 harg3 arg4 harg4 arg5 harg5) K := by
  simp only [cc4__prep35_body_eq_skeleton]; unfold cc4__prep35_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4_4 _)
  iexists _; isplitr
  swap; · iexact H5
  ipureintro
  exact View.read_writes_eq_canon _ _ _ (cover4_5 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
    | ⟨5, _⟩ => out4_5 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]
theorem after4_5 (c : Dev nD) (t : Fin cfg4.N) : (dat4 V c).after 5 t = out4_5 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ (iblk4 V c 0 t) (iblk4 V c 1 t) (iblk4 V c 2 t) (iblk4 V c 3 t) _)
  iframe H0 H1 H2 H3
  isplitl [H4]; · iexists _; iexact H4
  isplitl [H5]; · iexists _; iexact H5
  iintro ⟨H0, H1, H2, H3, H4, H5⟩
  iframe

theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.Reg5.lean ====
import proofs.«109581_g76012331204772_cont_9to1_m_125_6_alg».proof.Proof.Gen.KernelIdeal.Launch
import proofs.«109581_g76012331204772_cont_9to1_m_125_6_alg».proof.Proof.Gen.KernelIdeal.Skeleton
import proofs.«109581_g76012331204772_cont_9to1_m_125_6_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_Trows (i : grid5.Coords) : Rect S2048x4096 := Rect.unit (s := S2048x4096) (k5_off1 i) S256x4096.size (k5_off1_inb i)

abbrev r5_Hrows (i : grid5.Coords) : Rect S2048x128 := Rect.unit (s := S2048x128) (k5_off2 i) S256x128.size (k5_off2_inb i)

abbrev r5_d : Rect S1x4096 := Rect.unit (s := S1x4096) ![0, 0] S1x4096.size inb_S1x4096_S1x4096_0_0
abbrev r5_T : Rect S2048x4096 := Rect.unit (s := S2048x4096) ![0, 0] S2048x4096.size inb_S2048x4096_S2048x4096_0_0
abbrev r5_adj : Rect S2048x256 := Rect.unit (s := S2048x256) ![0, 0] S2048x256.size inb_S2048x256_S2048x256_0_0
abbrev r5_b : Rect S1x128 := Rect.unit (s := S1x128) ![0, 0] S1x128.size inb_S1x128_S1x128_0_0
abbrev r5_o : Rect S2048x128 := Rect.unit (s := S2048x128) ![0, 0] S2048x128.size inb_S2048x128_S2048x128_0_0

def out5_A (i : grid5.Coords) (x0 : Vec F S1x4096 .f32) (x1 : Vec F S2048x4096 .f32) (x2 : Vec F S2048x256 .f32)
    (x3 : Vec F S2048x128 .f32) (x4 : Vec F S1x128 .f32) : Vec F S2048x128 .f32 :=
  k5_pay2 i (View.ld x1 (r5_Trows i)) (View.ld x0 r5_d) (View.ld x1 r5_T) (View.ld x2 r5_adj) (View.ld x3 (r5_Hrows i)) (View.ld x4 r5_b)

def out5_B (i : grid5.Coords) (x0 : Vec F S1x4096 .f32) (x1 : Vec F S2048x4096 .f32) (x2 : Vec F S2048x256 .f32)
    (x3 : Vec F S2048x128 .f32) (prev : Vec F S2048x128 .f32) : Vec F S2048x128 .f32 :=
  k5_pay3 i (View.ld x1 (r5_Trows i)) (View.ld x0 r5_d) (View.ld x1 r5_T) (View.ld x2 r5_adj) (View.ld x3 (r5_Hrows i)) prev

def out5_C (i : grid5.Coords) (x0 : Vec F S1x4096 .f32) (x1 : Vec F S2048x4096 .f32) (x2 : Vec F S2048x256 .f32)
    (x3 : Vec F S2048x128 .f32) (prev : Vec F S2048x128 .f32) : Vec F S2048x128 .f32 :=
  k5_pay4 (out5_B i x0 x1 x2 x3 prev)

def outsAt5 (c : Dev nD) : (n : ℕ) → n < cfg5.N → Vec F S2048x128 .f32
  | 0, hn => out5_A (grid5.coords ⟨0, hn⟩) (iblk5 V c 0 ⟨0, hn⟩) (iblk5 V c 1 ⟨0, hn⟩) (iblk5 V c 2 ⟨0, hn⟩) (iblk5 V c 3 ⟨0, hn⟩) (iblk5 V c 4 ⟨0, hn⟩)
  | n + 1, hn =>
    if n + 1 = 7 then
      out5_C (grid5.coords ⟨n + 1, hn⟩) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn))
    else
      out5_B (grid5.coords ⟨n + 1, hn⟩) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn))

theorem outsAt5_A (c : Dev nD) (t : Fin cfg5.N) (h0 : t.val = 0) :
    outsAt5 V c t.val t.isLt = out5_A (grid5.coords t) (iblk5 V c 0 t) (iblk5 V c 1 t) (iblk5 V c 2 t) (iblk5 V c 3 t) (iblk5 V c 4 t) := by
  obtain ⟨n, hn⟩ := t
  cases n with
  | zero => exact rfl
  | succ n => exact absurd h0 (Nat.succ_ne_zero n)

theorem outsAt5_B (c : Dev nD) (t : Fin cfg5.N) (h0 : ¬t.val = 0) (h7 : ¬t.val = 7) :
    outsAt5 V c t.val t.isLt = out5_B (grid5.coords t) (iblk5 V c 0 t) (iblk5 V c 1 t) (iblk5 V c 2 t) (iblk5 V c 3 t)
      (outsAt5 V c (t.val - 1) (Nat.lt_of_le_of_lt (Nat.sub_le _ _) t.isLt)) := by
  obtain ⟨n, hn⟩ := t
  cases n with
  | zero => exact absurd rfl h0
  | succ n => exact (if_neg h7).trans rfl

theorem outsAt5_C (c : Dev nD) (t : Fin cfg5.N) (h7 : t.val = 7) :
    outsAt5 V c t.val t.isLt = out5_C (grid5.coords t) (iblk5 V c 0 t) (iblk5 V c 1 t) (iblk5 V c 2 t) (iblk5 V c 3 t)
      (outsAt5 V c (t.val - 1) (Nat.lt_of_le_of_lt (Nat.sub_le _ _) t.isLt)) := by
  obtain ⟨n, hn⟩ := t
  cases n with
  | zero => exact absurd h7 (by dsimp only; omega)
  | succ n => exact (if_pos h7).trans rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => outsAt5 V c t.val t.isLt
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = outsAt5 V c t.val t.isLt := by dsimp only [dat5]

theorem zero2_5 : (![0, 0] : Fin 2 → Nat) = fun _ => 0 := by funext a; fin_cases a <;> rfl

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)

theorem live5_5 : ∀ i : grid5.Coords, cfg5.idle 5 i = false :=
  (by decide +kernel : ∀ i : grid5.Coords, idle5 5 i = false)

theorem before5_5_kept (c : Dev nD) (t : Fin cfg5.N) (h0 : ¬t.val = 0) (d) :
    (dat5 V c).before 5 t d = outsAt5 V c (t.val - 1) (Nat.lt_of_le_of_lt (Nat.sub_le _ _) t.isLt) := by
  have hN : t.val < 8 := lt_of_lt_of_eq t.isLt (show cfg5.N = 8 from N_5)
  rw [Dat.before_out_kept _ 5 rfl t h0 (Bool.eq_false_iff.mpr fun h => by have := (flush5_5 _).mp h; dsimp only at this; omega)
    live5_5 (fun _ _ => rfl)]
  dsimp only [dat5]

theorem hcond5_1 : ∀ t : Fin cfg5.N, k5_cond1 (grid5.coords t) = 1#1 ↔ t.val = 0 :=
  (by decide +kernel : ∀ t : Fin grid5.N, k5_cond1 (grid5.coords t) = 1#1 ↔ t.val = 0)

theorem hcond5_2 : ∀ t : Fin cfg5.N, k5_cond2 (grid5.coords t) = 1#1 ↔ ¬t.val = 0 :=
  (by decide +kernel : ∀ t : Fin grid5.N, k5_cond2 (grid5.coords t) = 1#1 ↔ ¬t.val = 0)

theorem hcond5_3 : ∀ t : Fin cfg5.N, k5_cond3 (grid5.coords t) = 1#1 ↔ t.val = 7 :=
  (by decide +kernel : ∀ t : Fin grid5.N, k5_cond3 (grid5.coords t) = 1#1 ↔ t.val = 7)

theorem cover5_o (p : Vec F S2048x128 .f32) (L : List (View.Piece (Elt F) S2048x128 .f32)) (y : S2048x128.Idx) :
    ∃ pc ∈ ((⟨r5_o, p⟩ : View.Piece (Elt F) S2048x128 .f32) :: L), y ∈ pc.1.set :=
  ⟨_, List.mem_cons_self, View.mem_set_unit_zero zero2_5 inb_S2048x128_S2048x128_0_0 y⟩

section
variable (c : Dev nD) (E : Set ℕ) (i : grid5.Coords)
    (arg1 : Memref sig .tc .vmem S1x4096 .f32) (harg1 : arg1.IsWhole) (arg2 : Memref sig .tc .vmem S2048x4096 .f32) (harg2 : arg2.IsWhole)
    (arg3 : Memref sig .tc .vmem S2048x256 .f32) (harg3 : arg3.IsWhole) (arg4 : Memref sig .tc .vmem S2048x128 .f32) (harg4 : arg4.IsWhole)
    (arg5 : Memref sig .tc .vmem S1x128 .f32) (harg5 : arg5.IsWhole) (arg6 : Memref sig .tc .vmem S2048x128 .f32) (harg6 : arg6.IsWhole)

set_option maxHeartbeats 1000000 in

theorem sound_kernel5_A (hc1 : k5_cond1 i = 1#1) (hc2 : ¬k5_cond2 i = 1#1) (hc3 : ¬k5_cond3 i = 1#1)
    (x0 : Vec F S1x4096 .f32) (x1 : Vec F S2048x4096 .f32) (x2 : Vec F S2048x256 .f32) (x3 : Vec F S2048x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out5_A i x0 x1 x2 x3 x4)) -∗ K ⟨⟩))
      ⊢ wp frame (wpE (defs₀ (F := F)) Variants.none c none) E (cc5__fused_gc_body i arg1 harg1 arg2 harg2 arg3 harg3 arg4 harg4 arg5 harg5 arg6 harg6) K := by
  simp only [cc5__fused_gc_body_eq_skeleton]; unfold cc5__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover5_o _ _), View.canon_cons_unit_zero zero2_5]
  rfl

set_option maxHeartbeats 1000000 in

theorem sound_kernel5_B (hc1 : ¬k5_cond1 i = 1#1) (hc2 : k5_cond2 i = 1#1) (hc3 : ¬k5_cond3 i = 1#1)
    (x0 : Vec F S1x4096 .f32) (x1 : Vec F S2048x4096 .f32) (x2 : Vec F S2048x256 .f32) (x3 : Vec F S2048x128 .f32) (x4 : Vec F S1x128 .f32) (prev : Vec F S2048x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare prev
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out5_B i x0 x1 x2 x3 prev)) -∗ K ⟨⟩))
      ⊢ wp frame (wpE (defs₀ (F := F)) Variants.none c none) E (cc5__fused_gc_body i arg1 harg1 arg2 harg2 arg3 harg3 arg4 harg4 arg5 harg5 arg6 harg6) K := by
  simp only [cc5__fused_gc_body_eq_skeleton]; unfold cc5__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover5_o _ _), View.canon_cons_unit_zero zero2_5]
  unfold out5_B
  exact congrArg (k5_pay3 i _ _ _ _ _) (View.ld_unit_zero zero2_5 _ _)

set_option maxHeartbeats 1000000 in

theorem sound_kernel5_C (hc1 : ¬k5_cond1 i = 1#1) (hc2 : k5_cond2 i = 1#1) (hc3 : k5_cond3 i = 1#1)
    (x0 : Vec F S1x4096 .f32) (x1 : Vec F S2048x4096 .f32) (x2 : Vec F S2048x256 .f32) (x3 : Vec F S2048x128 .f32) (x4 : Vec F S1x128 .f32) (prev : Vec F S2048x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare prev
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out5_C i x0 x1 x2 x3 prev)) -∗ K ⟨⟩))
      ⊢ wp frame (wpE (defs₀ (F := F)) Variants.none c none) E (cc5__fused_gc_body i arg1 harg1 arg2 harg2 arg3 harg3 arg4 harg4 arg5 harg5 arg6 harg6) K := by
  simp only [cc5__fused_gc_body_eq_skeleton]; unfold cc5__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover5_o _ _), View.canon_cons_unit_zero zero2_5]
  sl_unfold_run_names
  rw [View.readCov_unit_zero _ zero2_5]
  unfold out5_C out5_B
  exact congrArg (fun p => k5_pay4 (k5_pay3 i _ _ _ _ _ p)) (View.ld_unit_zero zero2_5 _ _)

end

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

set_option maxHeartbeats 1000000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  have hN : t.val < 8 := lt_of_lt_of_eq t.isLt (show cfg5.N = 8 from N_5)
  by_cases h0 : t.val = 0
  · rw [outsAt5_A V c t h0]
    iintro ⟨HΦ, Ho, ⟨%d0, H0⟩, ⟨%d1, H1⟩, ⟨%d2, H2⟩, ⟨%d3, H3⟩, ⟨%d4, H4⟩, ⟨%d5, H5⟩⟩
    iapply (sound_kernel5_A c Set.univ (grid5.coords t) _ _ _ _ _ _ _ _ _ _ _ _ ((hcond5_1 t).mpr h0) (fun h => (hcond5_2 t).mp h h0)
      (fun h => by have := (hcond5_3 t).mp h; omega) (iblk5 V c 0 t) (iblk5 V c 1 t) (iblk5 V c 2 t) (iblk5 V c 3 t) (iblk5 V c 4 t) _)
    iframe H0 H1 H2 H3 H4
    isplitl [H5]; · iexists _; iexact H5
    iintro ⟨H0, H1, H2, H3, H4, H5⟩
    iframe
  · by_cases h7 : t.val = 7
    · rw [outsAt5_C V c t h7]
      simp only [before5_5_kept V c t h0]
      iintro ⟨HΦ, Ho, ⟨%d0, H0⟩, ⟨%d1, H1⟩, ⟨%d2, H2⟩, ⟨%d3, H3⟩, ⟨%d4, H4⟩, ⟨%d5, H5⟩⟩
      iapply (sound_kernel5_C c Set.univ (grid5.coords t) _ _ _ _ _ _ _ _ _ _ _ _ (fun h => h0 ((hcond5_1 t).mp h)) ((hcond5_2 t).mpr h0)
        ((hcond5_3 t).mpr h7) (iblk5 V c 0 t) (iblk5 V c 1 t) (iblk5 V c 2 t) (iblk5 V c 3 t) (iblk5 V c 4 t) _ _)
      iframe H0 H1 H2 H3 H4 H5
      iintro ⟨H0, H1, H2, H3, H4, H5⟩
      iframe
    · rw [outsAt5_B V c t h0 h7]
      simp only [before5_5_kept V c t h0]
      iintro ⟨HΦ, Ho, ⟨%d0, H0⟩, ⟨%d1, H1⟩, ⟨%d2, H2⟩, ⟨%d3, H3⟩, ⟨%d4, H4⟩, ⟨%d5, H5⟩⟩
      iapply (sound_kernel5_B c Set.univ (grid5.coords t) _ _ _ _ _ _ _ _ _ _ _ _ (fun h => h0 ((hcond5_1 t).mp h)) ((hcond5_2 t).mpr h0)
        (fun h => h7 ((hcond5_3 t).mp h)) (iblk5 V c 0 t) (iblk5 V c 1 t) (iblk5 V c 2 t) (iblk5 V c 3 t) (iblk5 V c 4 t) _ _)
      iframe H0 H1 H2 H3 H4 H5
      iintro ⟨H0, H1, H2, H3, H4, H5⟩
      iframe

set_option maxHeartbeats 1000000 in

theorem body_obligation5 (c : Dev nD) : BodyObligation (dat5 (F := F) V c) (defs₀ (F := F)) Variants.none () Set.univ := fun t => by
  rw [bigSep_W5, bigSep_W5]
  have h5 : cfg5.idle (5 : Fin 6) (cfg5.grid.coords t) = false := live5_5 _
  rw [h5]
  exact sound_body5 V c t

end Cert.KernelIdeal.Hand

end
-- ==== Proof.KI.Reg6.lean ====
import proofs.«109581_g76012331204772_cont_9to1_m_125_6_alg».proof.Proof.Gen.KernelIdeal.Launch
import proofs.«109581_g76012331204772_cont_9to1_m_125_6_alg».proof.Proof.Gen.KernelIdeal.Skeleton
import proofs.«109581_g76012331204772_cont_9to1_m_125_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S1x128 := Rect.unit (s := S1x128) ![0, 0] S1x128.size inb_S1x128_S1x128_0_0
abbrev r6_1 : Rect S2048x128 := Rect.unit (s := S2048x128) ![0, 0] S2048x128.size inb_S2048x128_S2048x128_0_0
abbrev r6_2 : Rect S1x2048 := Rect.unit (s := S1x2048) ![0, 0] S1x2048.size inb_S1x2048_S1x2048_0_0
abbrev r6_3 : Rect S4096x32 := Rect.unit (s := S4096x32) ![0, 0] S4096x32.size inb_S4096x32_S4096x32_0_0
abbrev r6_4 : Rect S32x16 := Rect.unit (s := S32x16) ![0, 0] S32x16.size inb_S32x16_S32x16_0_0
abbrev r6_5 : Rect S4096x16 := Rect.unit (s := S4096x16) ![0, 0] S4096x16.size inb_S4096x16_S4096x16_0_0

def out6_4 (x0 : Vec F S2048x128 .f32) (x1 : Vec F S4096x32 .f32) (x2 : Vec F S32x16 .f32) (x3 : Vec F S1x128 .f32) : Vec F S1x2048 .f32 :=
  View.canon [⟨r6_2, k6_pay1 (View.ld x3 r6_0) (View.ld x0 r6_1)⟩]

theorem cover6_4 (p0 : Vec F S1x2048 .f32) (y : S1x2048.Idx) :
    ∃ pc ∈ ([⟨r6_2, p0⟩] : List (View.Piece (Elt F) S1x2048 .f32)), y ∈ pc.1.set :=
  View.cover_of_tiled [⟨r6_2, p0⟩] S1x2048.size (by rfl) y

def out6_5 (x0 : Vec F S2048x128 .f32) (x1 : Vec F S4096x32 .f32) (x2 : Vec F S32x16 .f32) (x3 : Vec F S1x128 .f32) : Vec F S4096x16 .f32 :=
  View.canon [⟨r6_5, k6_pay2 (View.ld x1 r6_3) (View.ld x2 r6_4)⟩]

theorem cover6_5 (p0 : Vec F S4096x16 .f32) (y : S4096x16.Idx) :
    ∃ pc ∈ ([⟨r6_5, p0⟩] : List (View.Piece (Elt F) S4096x16 .f32)), y ∈ pc.1.set :=
  View.cover_of_tiled [⟨r6_5, p0⟩] S4096x16.size (by rfl) y

set_option maxHeartbeats 4000000 in

theorem sound_kernel6 (c : Dev nD) (E : Set ℕ) (arg0 : Memref sig .tc .vmem S2048x128 .f32) (harg0 : arg0.IsWhole) (arg1 : Memref sig .tc .vmem S4096x32 .f32) (harg1 : arg1.IsWhole) (arg2 : Memref sig .tc .vmem S32x16 .f32) (harg2 : arg2.IsWhole) (arg3 : Memref sig .tc .vmem S1x128 .f32) (harg3 : arg3.IsWhole) (arg4 : Memref sig .tc .vmem S1x2048 .f32) (harg4 : arg4.IsWhole) (arg5 : Memref sig .tc .vmem S4096x16 .f32) (harg5 : arg5.IsWhole)
    (x0 : Vec F S2048x128 .f32) (x1 : Vec F S4096x32 .f32) (x2 : Vec F S32x16 .f32) (x3 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out6_4 x0 x1 x2 x3) ∗ owns (c : Thread nD τ) arg5 fullShare (out6_5 x0 x1 x2 x3)) -∗ K ⟨⟩))
      ⊢ wp frame (wpE (defs₀ (F := F)) Variants.none c none) E (cc6__prep4_body arg0 harg0 arg1 harg1 arg2 harg2 arg3 harg3 arg4 harg4 arg5 harg5) K := by
  simp only [cc6__prep4_body_eq_skeleton]; unfold cc6__prep4_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover6_4 _)
  iexists _; isplitr
  swap; · iexact H5
  ipureintro
  exact View.read_writes_eq_canon _ _ _ (cover6_5 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
    | ⟨5, _⟩ => out6_5 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]
theorem after6_5 (c : Dev nD) (t : Fin cfg6.N) : (dat6 V c).after 5 t = out6_5 (iblk6 V c 0 t) (iblk6 V c 1 t) (iblk6 V c 2 t) (iblk6 V c 3 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ (iblk6 V c 0 t) (iblk6 V c 1 t) (iblk6 V c 2 t) (iblk6 V c 3 t) _)
  iframe H0 H1 H2 H3
  isplitl [H4]; · iexists _; iexact H4
  isplitl [H5]; · iexists _; iexact H5
  iintro ⟨H0, H1, H2, H3, H4, H5⟩
  iframe

theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.KI.Reg7.lean ====
import proofs.«109581_g76012331204772_cont_9to1_m_125_6_alg».proof.Proof.Gen.KernelIdeal.Launch
import proofs.«109581_g76012331204772_cont_9to1_m_125_6_alg».proof.Proof.Gen.KernelIdeal.Skeleton
import proofs.«109581_g76012331204772_cont_9to1_m_125_6_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_Trows (i : grid7.Coords) : Rect S4096x2048 := Rect.unit (s := S4096x2048) (k7_off1 i) S256x2048.size (k7_off1_inb i)

abbrev r7_Hrows (i : grid7.Coords) : Rect S4096x16 := Rect.unit (s := S4096x16) (k7_off2 i) S256x16.size (k7_off2_inb i)

abbrev r7_d : Rect S1x2048 := Rect.unit (s := S1x2048) ![0, 0] S1x2048.size inb_S1x2048_S1x2048_0_0
abbrev r7_T : Rect S4096x2048 := Rect.unit (s := S4096x2048) ![0, 0] S4096x2048.size inb_S4096x2048_S4096x2048_0_0
abbrev r7_adj : Rect S4096x256 := Rect.unit (s := S4096x256) ![0, 0] S4096x256.size inb_S4096x256_S4096x256_0_0
abbrev r7_b : Rect S1x16 := Rect.unit (s := S1x16) ![0, 0] S1x16.size inb_S1x16_S1x16_0_0
abbrev r7_o : Rect S4096x16 := Rect.unit (s := S4096x16) ![0, 0] S4096x16.size inb_S4096x16_S4096x16_0_0

def out7_A (i : grid7.Coords) (x0 : Vec F S1x2048 .f32) (x1 : Vec F S4096x2048 .f32) (x2 : Vec F S4096x256 .f32)
    (x3 : Vec F S4096x16 .f32) (x4 : Vec F S1x16 .f32) : Vec F S4096x16 .f32 :=
  k7_pay2 i (View.ld x1 (r7_Trows i)) (View.ld x0 r7_d) (View.ld x1 r7_T) (View.ld x2 r7_adj) (View.ld x3 (r7_Hrows i)) (View.ld x4 r7_b)

def out7_B (i : grid7.Coords) (x0 : Vec F S1x2048 .f32) (x1 : Vec F S4096x2048 .f32) (x2 : Vec F S4096x256 .f32)
    (x3 : Vec F S4096x16 .f32) (prev : Vec F S4096x16 .f32) : Vec F S4096x16 .f32 :=
  k7_pay3 i (View.ld x1 (r7_Trows i)) (View.ld x0 r7_d) (View.ld x1 r7_T) (View.ld x2 r7_adj) (View.ld x3 (r7_Hrows i)) prev

def out7_C (i : grid7.Coords) (x0 : Vec F S1x2048 .f32) (x1 : Vec F S4096x2048 .f32) (x2 : Vec F S4096x256 .f32)
    (x3 : Vec F S4096x16 .f32) (prev : Vec F S4096x16 .f32) : Vec F S4096x16 .f32 :=
  k7_pay4 (out7_B i x0 x1 x2 x3 prev)

def outsAt7 (c : Dev nD) : (n : ℕ) → n < cfg7.N → Vec F S4096x16 .f32
  | 0, hn => out7_A (grid7.coords ⟨0, hn⟩) (iblk7 V c 0 ⟨0, hn⟩) (iblk7 V c 1 ⟨0, hn⟩) (iblk7 V c 2 ⟨0, hn⟩) (iblk7 V c 3 ⟨0, hn⟩) (iblk7 V c 4 ⟨0, hn⟩)
  | n + 1, hn =>
    if n + 1 = 15 then
      out7_C (grid7.coords ⟨n + 1, hn⟩) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn))
    else
      out7_B (grid7.coords ⟨n + 1, hn⟩) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn))

theorem outsAt7_A (c : Dev nD) (t : Fin cfg7.N) (h0 : t.val = 0) :
    outsAt7 V c t.val t.isLt = out7_A (grid7.coords t) (iblk7 V c 0 t) (iblk7 V c 1 t) (iblk7 V c 2 t) (iblk7 V c 3 t) (iblk7 V c 4 t) := by
  obtain ⟨n, hn⟩ := t
  cases n with
  | zero => exact rfl
  | succ n => exact absurd h0 (Nat.succ_ne_zero n)

theorem outsAt7_B (c : Dev nD) (t : Fin cfg7.N) (h0 : ¬t.val = 0) (h7 : ¬t.val = 15) :
    outsAt7 V c t.val t.isLt = out7_B (grid7.coords t) (iblk7 V c 0 t) (iblk7 V c 1 t) (iblk7 V c 2 t) (iblk7 V c 3 t)
      (outsAt7 V c (t.val - 1) (Nat.lt_of_le_of_lt (Nat.sub_le _ _) t.isLt)) := by
  obtain ⟨n, hn⟩ := t
  cases n with
  | zero => exact absurd rfl h0
  | succ n => exact (if_neg h7).trans rfl

theorem outsAt7_C (c : Dev nD) (t : Fin cfg7.N) (h7 : t.val = 15) :
    outsAt7 V c t.val t.isLt = out7_C (grid7.coords t) (iblk7 V c 0 t) (iblk7 V c 1 t) (iblk7 V c 2 t) (iblk7 V c 3 t)
      (outsAt7 V c (t.val - 1) (Nat.lt_of_le_of_lt (Nat.sub_le _ _) t.isLt)) := by
  obtain ⟨n, hn⟩ := t
  cases n with
  | zero => exact absurd h7 (by dsimp only; omega)
  | succ n => exact (if_pos h7).trans rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => outsAt7 V c t.val t.isLt
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = outsAt7 V c t.val t.isLt := by dsimp only [dat7]

theorem zero2_7 : (![0, 0] : Fin 2 → Nat) = fun _ => 0 := by funext a; fin_cases a <;> rfl

theorem before7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl)
    (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl)
    (fun t => by rw [after7_2]; unfold Dat.blockOf iblk7; rw [A_eq7]; try rfl) t d).trans
    (by unfold Dat.fetched Dat.blockOf iblk7; rw [A_eq7]; try rfl)
theorem before7_3 (c : Dev nD) (t : Fin cfg7.N) (d) : (dat7 V c).before 3 t d = iblk7 V c 3 t :=
  ((dat7 V c).before_in_eq_fetched 3 rfl (fun _ => rfl) (fun _ _ _ => rfl)
    (fun t => by rw [after7_3]; unfold Dat.blockOf iblk7; rw [A_eq7]; try rfl) t d).trans
    (by unfold Dat.fetched Dat.blockOf iblk7; rw [A_eq7]; try rfl)
theorem before7_4 (c : Dev nD) (t : Fin cfg7.N) (d) : (dat7 V c).before 4 t d = iblk7 V c 4 t :=
  ((dat7 V c).before_in_eq_fetched 4 rfl (fun _ => rfl) (fun _ _ _ => rfl)
    (fun t => by rw [after7_4]; unfold Dat.blockOf iblk7; rw [A_eq7]; try rfl) t d).trans
    (by unfold Dat.fetched Dat.blockOf iblk7; rw [A_eq7]; try rfl)

theorem live7_5 : ∀ i : grid7.Coords, cfg7.idle 5 i = false :=
  (by decide +kernel : ∀ i : grid7.Coords, idle7 5 i = false)

theorem before7_5_kept (c : Dev nD) (t : Fin cfg7.N) (h0 : ¬t.val = 0) (d) :
    (dat7 V c).before 5 t d = outsAt7 V c (t.val - 1) (Nat.lt_of_le_of_lt (Nat.sub_le _ _) t.isLt) := by
  have hN : t.val < 16 := lt_of_lt_of_eq t.isLt (show cfg7.N = 16 from N_7)
  rw [Dat.before_out_kept _ 5 rfl t h0 (Bool.eq_false_iff.mpr fun h => by have := (flush7_5 _).mp h; dsimp only at this; omega)
    live7_5 (fun _ _ => rfl)]
  dsimp only [dat7]

theorem hcond7_1 : ∀ t : Fin cfg7.N, k7_cond1 (grid7.coords t) = 1#1 ↔ t.val = 0 :=
  (by decide +kernel : ∀ t : Fin grid7.N, k7_cond1 (grid7.coords t) = 1#1 ↔ t.val = 0)

theorem hcond7_2 : ∀ t : Fin cfg7.N, k7_cond2 (grid7.coords t) = 1#1 ↔ ¬t.val = 0 :=
  (by decide +kernel : ∀ t : Fin grid7.N, k7_cond2 (grid7.coords t) = 1#1 ↔ ¬t.val = 0)

theorem hcond7_3 : ∀ t : Fin cfg7.N, k7_cond3 (grid7.coords t) = 1#1 ↔ t.val = 15 :=
  (by decide +kernel : ∀ t : Fin grid7.N, k7_cond3 (grid7.coords t) = 1#1 ↔ t.val = 15)

theorem cover7_o (p : Vec F S4096x16 .f32) (L : List (View.Piece (Elt F) S4096x16 .f32)) (y : S4096x16.Idx) :
    ∃ pc ∈ ((⟨r7_o, p⟩ : View.Piece (Elt F) S4096x16 .f32) :: L), y ∈ pc.1.set :=
  ⟨_, List.mem_cons_self, View.mem_set_unit_zero zero2_7 inb_S4096x16_S4096x16_0_0 y⟩

section
variable (c : Dev nD) (E : Set ℕ) (i : grid7.Coords)
    (arg1 : Memref sig .tc .vmem S1x2048 .f32) (harg1 : arg1.IsWhole) (arg2 : Memref sig .tc .vmem S4096x2048 .f32) (harg2 : arg2.IsWhole)
    (arg3 : Memref sig .tc .vmem S4096x256 .f32) (harg3 : arg3.IsWhole) (arg4 : Memref sig .tc .vmem S4096x16 .f32) (harg4 : arg4.IsWhole)
    (arg5 : Memref sig .tc .vmem S1x16 .f32) (harg5 : arg5.IsWhole) (arg6 : Memref sig .tc .vmem S4096x16 .f32) (harg6 : arg6.IsWhole)

set_option maxHeartbeats 1000000 in

theorem sound_kernel7_A (hc1 : k7_cond1 i = 1#1) (hc2 : ¬k7_cond2 i = 1#1) (hc3 : ¬k7_cond3 i = 1#1)
    (x0 : Vec F S1x2048 .f32) (x1 : Vec F S4096x2048 .f32) (x2 : Vec F S4096x256 .f32) (x3 : Vec F S4096x16 .f32) (x4 : Vec F S1x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out7_A i x0 x1 x2 x3 x4)) -∗ K ⟨⟩))
      ⊢ wp frame (wpE (defs₀ (F := F)) Variants.none c none) E (cc7__fused_gc_body i arg1 harg1 arg2 harg2 arg3 harg3 arg4 harg4 arg5 harg5 arg6 harg6) K := by
  simp only [cc7__fused_gc_body_eq_skeleton]; unfold cc7__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover7_o _ _), View.canon_cons_unit_zero zero2_7]
  rfl

set_option maxHeartbeats 1000000 in

theorem sound_kernel7_B (hc1 : ¬k7_cond1 i = 1#1) (hc2 : k7_cond2 i = 1#1) (hc3 : ¬k7_cond3 i = 1#1)
    (x0 : Vec F S1x2048 .f32) (x1 : Vec F S4096x2048 .f32) (x2 : Vec F S4096x256 .f32) (x3 : Vec F S4096x16 .f32) (x4 : Vec F S1x16 .f32) (prev : Vec F S4096x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare prev
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out7_B i x0 x1 x2 x3 prev)) -∗ K ⟨⟩))
      ⊢ wp frame (wpE (defs₀ (F := F)) Variants.none c none) E (cc7__fused_gc_body i arg1 harg1 arg2 harg2 arg3 harg3 arg4 harg4 arg5 harg5 arg6 harg6) K := by
  simp only [cc7__fused_gc_body_eq_skeleton]; unfold cc7__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover7_o _ _), View.canon_cons_unit_zero zero2_7]
  unfold out7_B
  exact congrArg (k7_pay3 i _ _ _ _ _) (View.ld_unit_zero zero2_7 _ _)

set_option maxHeartbeats 1000000 in

theorem sound_kernel7_C (hc1 : ¬k7_cond1 i = 1#1) (hc2 : k7_cond2 i = 1#1) (hc3 : k7_cond3 i = 1#1)
    (x0 : Vec F S1x2048 .f32) (x1 : Vec F S4096x2048 .f32) (x2 : Vec F S4096x256 .f32) (x3 : Vec F S4096x16 .f32) (x4 : Vec F S1x16 .f32) (prev : Vec F S4096x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare prev
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out7_C i x0 x1 x2 x3 prev)) -∗ K ⟨⟩))
      ⊢ wp frame (wpE (defs₀ (F := F)) Variants.none c none) E (cc7__fused_gc_body i arg1 harg1 arg2 harg2 arg3 harg3 arg4 harg4 arg5 harg5 arg6 harg6) K := by
  simp only [cc7__fused_gc_body_eq_skeleton]; unfold cc7__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover7_o _ _), View.canon_cons_unit_zero zero2_7]
  sl_unfold_run_names
  rw [View.readCov_unit_zero _ zero2_7]
  unfold out7_C out7_B
  exact congrArg (fun p => k7_pay4 (k7_pay3 i _ _ _ _ _ p)) (View.ld_unit_zero zero2_7 _ _)

end

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

set_option maxHeartbeats 1000000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  have hN : t.val < 16 := lt_of_lt_of_eq t.isLt (show cfg7.N = 16 from N_7)
  by_cases h0 : t.val = 0
  · rw [outsAt7_A V c t h0]
    iintro ⟨HΦ, Ho, ⟨%d0, H0⟩, ⟨%d1, H1⟩, ⟨%d2, H2⟩, ⟨%d3, H3⟩, ⟨%d4, H4⟩, ⟨%d5, H5⟩⟩
    iapply (sound_kernel7_A c Set.univ (grid7.coords t) _ _ _ _ _ _ _ _ _ _ _ _ ((hcond7_1 t).mpr h0) (fun h => (hcond7_2 t).mp h h0)
      (fun h => by have := (hcond7_3 t).mp h; omega) (iblk7 V c 0 t) (iblk7 V c 1 t) (iblk7 V c 2 t) (iblk7 V c 3 t) (iblk7 V c 4 t) _)
    iframe H0 H1 H2 H3 H4
    isplitl [H5]; · iexists _; iexact H5
    iintro ⟨H0, H1, H2, H3, H4, H5⟩
    iframe
  · by_cases h7 : t.val = 15
    · rw [outsAt7_C V c t h7]
      simp only [before7_5_kept V c t h0]
      iintro ⟨HΦ, Ho, ⟨%d0, H0⟩, ⟨%d1, H1⟩, ⟨%d2, H2⟩, ⟨%d3, H3⟩, ⟨%d4, H4⟩, ⟨%d5, H5⟩⟩
      iapply (sound_kernel7_C c Set.univ (grid7.coords t) _ _ _ _ _ _ _ _ _ _ _ _ (fun h => h0 ((hcond7_1 t).mp h)) ((hcond7_2 t).mpr h0)
        ((hcond7_3 t).mpr h7) (iblk7 V c 0 t) (iblk7 V c 1 t) (iblk7 V c 2 t) (iblk7 V c 3 t) (iblk7 V c 4 t) _ _)
      iframe H0 H1 H2 H3 H4 H5
      iintro ⟨H0, H1, H2, H3, H4, H5⟩
      iframe
    · rw [outsAt7_B V c t h0 h7]
      simp only [before7_5_kept V c t h0]
      iintro ⟨HΦ, Ho, ⟨%d0, H0⟩, ⟨%d1, H1⟩, ⟨%d2, H2⟩, ⟨%d3, H3⟩, ⟨%d4, H4⟩, ⟨%d5, H5⟩⟩
      iapply (sound_kernel7_B c Set.univ (grid7.coords t) _ _ _ _ _ _ _ _ _ _ _ _ (fun h => h0 ((hcond7_1 t).mp h)) ((hcond7_2 t).mpr h0)
        (fun h => h7 ((hcond7_3 t).mp h)) (iblk7 V c 0 t) (iblk7 V c 1 t) (iblk7 V c 2 t) (iblk7 V c 3 t) (iblk7 V c 4 t) _ _)
      iframe H0 H1 H2 H3 H4 H5
      iintro ⟨H0, H1, H2, H3, H4, H5⟩
      iframe

set_option maxHeartbeats 1000000 in

theorem body_obligation7 (c : Dev nD) : BodyObligation (dat7 (F := F) V c) (defs₀ (F := F)) Variants.none () Set.univ := fun t => by
  rw [bigSep_W7, bigSep_W7]
  have h5 : cfg7.idle (5 : Fin 6) (cfg7.grid.coords t) = false := live7_5 _
  rw [h5]
  exact sound_body7 V c t

end Cert.KernelIdeal.Hand

end
-- ==== Proof.KI.Reg8.lean ====
import proofs.«109581_g76012331204772_cont_9to1_m_125_6_alg».proof.Proof.Gen.KernelIdeal.Launch
import proofs.«109581_g76012331204772_cont_9to1_m_125_6_alg».proof.Proof.Gen.KernelIdeal.Skeleton
import proofs.«109581_g76012331204772_cont_9to1_m_125_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S1x16 := Rect.unit (s := S1x16) ![0, 0] S1x16.size inb_S1x16_S1x16_0_0
abbrev r8_1 : Rect S4096x16 := Rect.unit (s := S4096x16) ![0, 0] S4096x16.size inb_S4096x16_S4096x16_0_0
abbrev r8_2 : Rect S1x4096 := Rect.unit (s := S1x4096) ![0, 0] S1x4096.size inb_S1x4096_S1x4096_0_0
abbrev r8_3 : Rect S2048x128 := Rect.unit (s := S2048x128) ![0, 0] S2048x128.size inb_S2048x128_S2048x128_0_0
abbrev r8_4 : Rect S128x64 := Rect.unit (s := S128x64) ![0, 0] S128x64.size inb_S128x64_S128x64_0_0
abbrev r8_5 : Rect S2048x64 := Rect.unit (s := S2048x64) ![0, 0] S2048x64.size inb_S2048x64_S2048x64_0_0

def out8_4 (x0 : Vec F S2048x128 .f32) (x1 : Vec F S4096x16 .f32) (x2 : Vec F S128x64 .f32) (x3 : Vec F S1x16 .f32) : Vec F S1x4096 .f32 :=
  View.canon [⟨r8_2, k8_pay1 (View.ld x3 r8_0) (View.ld x1 r8_1)⟩]

theorem cover8_4 (p0 : Vec F S1x4096 .f32) (y : S1x4096.Idx) :
    ∃ pc ∈ ([⟨r8_2, p0⟩] : List (View.Piece (Elt F) S1x4096 .f32)), y ∈ pc.1.set :=
  View.cover_of_tiled [⟨r8_2, p0⟩] S1x4096.size (by rfl) y

def out8_5 (x0 : Vec F S2048x128 .f32) (x1 : Vec F S4096x16 .f32) (x2 : Vec F S128x64 .f32) (x3 : Vec F S1x16 .f32) : Vec F S2048x64 .f32 :=
  View.canon [⟨r8_5, k8_pay2 (View.ld x0 r8_3) (View.ld x2 r8_4)⟩]

theorem cover8_5 (p0 : Vec F S2048x64 .f32) (y : S2048x64.Idx) :
    ∃ pc ∈ ([⟨r8_5, p0⟩] : List (View.Piece (Elt F) S2048x64 .f32)), y ∈ pc.1.set :=
  View.cover_of_tiled [⟨r8_5, p0⟩] S2048x64.size (by rfl) y

set_option maxHeartbeats 4000000 in

theorem sound_kernel8 (c : Dev nD) (E : Set ℕ) (arg0 : Memref sig .tc .vmem S2048x128 .f32) (harg0 : arg0.IsWhole) (arg1 : Memref sig .tc .vmem S4096x16 .f32) (harg1 : arg1.IsWhole) (arg2 : Memref sig .tc .vmem S128x64 .f32) (harg2 : arg2.IsWhole) (arg3 : Memref sig .tc .vmem S1x16 .f32) (harg3 : arg3.IsWhole) (arg4 : Memref sig .tc .vmem S1x4096 .f32) (harg4 : arg4.IsWhole) (arg5 : Memref sig .tc .vmem S2048x64 .f32) (harg5 : arg5.IsWhole)
    (x0 : Vec F S2048x128 .f32) (x1 : Vec F S4096x16 .f32) (x2 : Vec F S128x64 .f32) (x3 : Vec F S1x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out8_4 x0 x1 x2 x3) ∗ owns (c : Thread nD τ) arg5 fullShare (out8_5 x0 x1 x2 x3)) -∗ K ⟨⟩))
      ⊢ wp frame (wpE (defs₀ (F := F)) Variants.none c none) E (cc8__prep35_body arg0 harg0 arg1 harg1 arg2 harg2 arg3 harg3 arg4 harg4 arg5 harg5) K := by
  simp only [cc8__prep35_body_eq_skeleton]; unfold cc8__prep35_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover8_4 _)
  iexists _; isplitr
  swap; · iexact H5
  ipureintro
  exact View.read_writes_eq_canon _ _ _ (cover8_5 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
    | ⟨5, _⟩ => out8_5 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = out8_4 (iblk8 V c 0 t) (iblk8 V c 1 t) (iblk8 V c 2 t) (iblk8 V c 3 t) := by dsimp only [dat8]
theorem after8_5 (c : Dev nD) (t : Fin cfg8.N) : (dat8 V c).after 5 t = out8_5 (iblk8 V c 0 t) (iblk8 V c 1 t) (iblk8 V c 2 t) (iblk8 V c 3 t) := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl)
    (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl)
    (fun t => by rw [after8_1]; unfold Dat.blockOf iblk8; rw [A_eq8]; try rfl) t d).trans
    (by unfold Dat.fetched Dat.blockOf iblk8; rw [A_eq8]; try rfl)
theorem before8_2 (c : Dev nD) (t : Fin cfg8.N) (d) : (dat8 V c).before 2 t d = iblk8 V c 2 t :=
  ((dat8 V c).before_in_eq_fetched 2 rfl (fun _ => rfl) (fun _ _ _ => rfl)
    (fun t => by rw [after8_2]; unfold Dat.blockOf iblk8; rw [A_eq8]; try rfl) t d).trans
    (by unfold Dat.fetched Dat.blockOf iblk8; rw [A_eq8]; try rfl)
theorem before8_3 (c : Dev nD) (t : Fin cfg8.N) (d) : (dat8 V c).before 3 t d = iblk8 V c 3 t :=
  ((dat8 V c).before_in_eq_fetched 3 rfl (fun _ => rfl) (fun _ _ _ => rfl)
    (fun t => by rw [after8_3]; unfold Dat.blockOf iblk8; rw [A_eq8]; try rfl) t d).trans
    (by unfold Dat.fetched Dat.blockOf iblk8; rw [A_eq8]; try rfl)

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ (iblk8 V c 0 t) (iblk8 V c 1 t) (iblk8 V c 2 t) (iblk8 V c 3 t) _)
  iframe H0 H1 H2 H3
  isplitl [H4]; · iexists _; iexact H4
  isplitl [H5]; · iexists _; iexact H5
  iintro ⟨H0, H1, H2, H3, H4, H5⟩
  iframe

theorem body_obligation8 (c : Dev nD) : BodyObligation (dat8 (F := F) V c) (defs₀ (F := F)) Variants.none () Set.univ := fun t => by
  rw [bigSep_W8, bigSep_W8]
  exact sound_body8 V c t

end Cert.KernelIdeal.Hand
-- ==== Proof.KI.Reg9.lean ====
import proofs.«109581_g76012331204772_cont_9to1_m_125_6_alg».proof.Proof.Gen.KernelIdeal.Launch
import proofs.«109581_g76012331204772_cont_9to1_m_125_6_alg».proof.Proof.Gen.KernelIdeal.Skeleton
import proofs.«109581_g76012331204772_cont_9to1_m_125_6_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_Trows (i : grid9.Coords) : Rect S2048x4096 := Rect.unit (s := S2048x4096) (k9_off1 i) S256x4096.size (k9_off1_inb i)

abbrev r9_Hrows (i : grid9.Coords) : Rect S2048x64 := Rect.unit (s := S2048x64) (k9_off2 i) S256x64.size (k9_off2_inb i)

abbrev r9_d : Rect S1x4096 := Rect.unit (s := S1x4096) ![0, 0] S1x4096.size inb_S1x4096_S1x4096_0_0
abbrev r9_T : Rect S2048x4096 := Rect.unit (s := S2048x4096) ![0, 0] S2048x4096.size inb_S2048x4096_S2048x4096_0_0
abbrev r9_adj : Rect S2048x256 := Rect.unit (s := S2048x256) ![0, 0] S2048x256.size inb_S2048x256_S2048x256_0_0
abbrev r9_b : Rect S1x64 := Rect.unit (s := S1x64) ![0, 0] S1x64.size inb_S1x64_S1x64_0_0
abbrev r9_o : Rect S2048x64 := Rect.unit (s := S2048x64) ![0, 0] S2048x64.size inb_S2048x64_S2048x64_0_0

def out9_A (i : grid9.Coords) (x0 : Vec F S1x4096 .f32) (x1 : Vec F S2048x4096 .f32) (x2 : Vec F S2048x256 .f32) (x3 : Vec F S2048x64 .f32) (x4 : Vec F S1x64 .f32) : Vec F S2048x64 .f32 :=
  k9_pay2 i (View.ld x1 (r9_Trows i)) (View.ld x0 r9_d) (View.ld x1 r9_T) (View.ld x2 r9_adj) (View.ld x3 (r9_Hrows i)) (View.ld x4 r9_b)

def out9_B (i : grid9.Coords) (x0 : Vec F S1x4096 .f32) (x1 : Vec F S2048x4096 .f32) (x2 : Vec F S2048x256 .f32)
    (x3 : Vec F S2048x64 .f32) (prev : Vec F S2048x64 .f32) : Vec F S2048x64 .f32 :=
  k9_pay3 i (View.ld x1 (r9_Trows i)) (View.ld x0 r9_d) (View.ld x1 r9_T) (View.ld x2 r9_adj) (View.ld x3 (r9_Hrows i)) prev

def outsAt9 (c : Dev nD) : (n : ℕ) → n < cfg9.N → Vec F S2048x64 .f32
  | 0, hn => out9_A (grid9.coords ⟨0, hn⟩) (iblk9 V c 0 ⟨0, hn⟩) (iblk9 V c 1 ⟨0, hn⟩) (iblk9 V c 2 ⟨0, hn⟩) (iblk9 V c 3 ⟨0, hn⟩) (iblk9 V c 4 ⟨0, hn⟩)
  | n + 1, hn =>
    out9_B (grid9.coords ⟨n + 1, hn⟩) (iblk9 V c 0 ⟨n + 1, hn⟩) (iblk9 V c 1 ⟨n + 1, hn⟩) (iblk9 V c 2 ⟨n + 1, hn⟩) (iblk9 V c 3 ⟨n + 1, hn⟩) (outsAt9 c n (Nat.lt_of_succ_lt hn))

theorem outsAt9_A (c : Dev nD) (t : Fin cfg9.N) (h0 : t.val = 0) :
    outsAt9 V c t.val t.isLt = out9_A (grid9.coords t) (iblk9 V c 0 t) (iblk9 V c 1 t) (iblk9 V c 2 t) (iblk9 V c 3 t) (iblk9 V c 4 t) := by
  obtain ⟨n, hn⟩ := t
  cases n with
  | zero => exact rfl
  | succ n => exact absurd h0 (Nat.succ_ne_zero n)

theorem outsAt9_B (c : Dev nD) (t : Fin cfg9.N) (h0 : ¬t.val = 0) :
    outsAt9 V c t.val t.isLt = out9_B (grid9.coords t) (iblk9 V c 0 t) (iblk9 V c 1 t) (iblk9 V c 2 t) (iblk9 V c 3 t)
      (outsAt9 V c (t.val - 1) (Nat.lt_of_le_of_lt (Nat.sub_le _ _) t.isLt)) := by
  obtain ⟨n, hn⟩ := t
  cases n with
  | zero => exact absurd rfl h0
  | succ n => exact rfl

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => outsAt9 V c t.val t.isLt
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = outsAt9 V c t.val t.isLt := by dsimp only [dat9]

theorem zero9 : (![0, 0] : Fin 2 → Nat) = fun _ => 0 := by funext a; fin_cases a <;> rfl

theorem zero2_9 : (![0, 0] : Fin 2 → Nat) = fun _ => 0 := by funext a; fin_cases a <;> rfl

theorem before9_0 (c : Dev nD) (t : Fin cfg9.N) (d) : (dat9 V c).before 0 t d = iblk9 V c 0 t :=
  ((dat9 V c).before_in_eq_fetched 0 rfl (fun _ => rfl) (fun _ _ _ => rfl)
    (fun t => by rw [after9_0]; unfold Dat.blockOf iblk9; rw [A_eq9]; try rfl) t d).trans
    (by unfold Dat.fetched Dat.blockOf iblk9; rw [A_eq9]; try rfl)
theorem before9_1 (c : Dev nD) (t : Fin cfg9.N) (d) : (dat9 V c).before 1 t d = iblk9 V c 1 t :=
  ((dat9 V c).before_in_eq_fetched 1 rfl (fun _ => rfl) (fun _ _ _ => rfl)
    (fun t => by rw [after9_1]; unfold Dat.blockOf iblk9; rw [A_eq9]; try rfl) t d).trans
    (by unfold Dat.fetched Dat.blockOf iblk9; rw [A_eq9]; try rfl)
theorem before9_2 (c : Dev nD) (t : Fin cfg9.N) (d) : (dat9 V c).before 2 t d = iblk9 V c 2 t :=
  ((dat9 V c).before_in_eq_fetched 2 rfl (fun _ => rfl) (fun _ _ _ => rfl)
    (fun t => by rw [after9_2]; unfold Dat.blockOf iblk9; rw [A_eq9]; try rfl) t d).trans
    (by unfold Dat.fetched Dat.blockOf iblk9; rw [A_eq9]; try rfl)
theorem before9_3 (c : Dev nD) (t : Fin cfg9.N) (d) : (dat9 V c).before 3 t d = iblk9 V c 3 t :=
  ((dat9 V c).before_in_eq_fetched 3 rfl (fun _ => rfl) (fun _ _ _ => rfl)
    (fun t => by rw [after9_3]; unfold Dat.blockOf iblk9; rw [A_eq9]; try rfl) t d).trans
    (by unfold Dat.fetched Dat.blockOf iblk9; rw [A_eq9]; try rfl)
theorem before9_4 (c : Dev nD) (t : Fin cfg9.N) (d) : (dat9 V c).before 4 t d = iblk9 V c 4 t :=
  ((dat9 V c).before_in_eq_fetched 4 rfl (fun _ => rfl) (fun _ _ _ => rfl)
    (fun t => by rw [after9_4]; unfold Dat.blockOf iblk9; rw [A_eq9]; try rfl) t d).trans
    (by unfold Dat.fetched Dat.blockOf iblk9; rw [A_eq9]; try rfl)

theorem live9_5 : ∀ i : grid9.Coords, cfg9.idle 5 i = false :=
  (by decide +kernel : ∀ i : grid9.Coords, idle9 5 i = false)

theorem before9_5_kept (c : Dev nD) (t : Fin cfg9.N) (h0 : ¬t.val = 0) (d) :
    (dat9 V c).before 5 t d = outsAt9 V c (t.val - 1) (Nat.lt_of_le_of_lt (Nat.sub_le _ _) t.isLt) := by
  have hN : t.val < 8 := lt_of_lt_of_eq t.isLt (show cfg9.N = 8 from N_9)
  rw [Dat.before_out_kept _ 5 rfl t h0 (Bool.eq_false_iff.mpr fun h => by have := (flush9_5 _).mp h; dsimp only at this; omega)
    live9_5 (fun _ _ => rfl)]
  dsimp only [dat9]

theorem hcond9_1 : ∀ t : Fin cfg9.N, k9_cond1 (grid9.coords t) = 1#1 ↔ t.val = 0 :=
  (by decide +kernel : ∀ t : Fin grid9.N, k9_cond1 (grid9.coords t) = 1#1 ↔ t.val = 0)

theorem hcond9_2 : ∀ t : Fin cfg9.N, k9_cond2 (grid9.coords t) = 1#1 ↔ ¬t.val = 0 :=
  (by decide +kernel : ∀ t : Fin grid9.N, k9_cond2 (grid9.coords t) = 1#1 ↔ ¬t.val = 0)

theorem cover9_o (p : Vec F S2048x64 .f32) (L : List (View.Piece (Elt F) S2048x64 .f32)) (y : S2048x64.Idx) :
    ∃ pc ∈ ((⟨r9_o, p⟩ : View.Piece (Elt F) S2048x64 .f32) :: L), y ∈ pc.1.set :=
  ⟨_, List.mem_cons_self, View.mem_set_unit_zero zero9 inb_S2048x64_S2048x64_0_0 y⟩

section
variable (c : Dev nD) (E : Set ℕ) (i : grid9.Coords)
    (arg1 : Memref sig .tc .vmem S1x4096 .f32) (harg1 : arg1.IsWhole) (arg2 : Memref sig .tc .vmem S2048x4096 .f32) (harg2 : arg2.IsWhole)
    (arg3 : Memref sig .tc .vmem S2048x256 .f32) (harg3 : arg3.IsWhole) (arg4 : Memref sig .tc .vmem S2048x64 .f32) (harg4 : arg4.IsWhole)
    (arg5 : Memref sig .tc .vmem S1x64 .f32) (harg5 : arg5.IsWhole) (arg6 : Memref sig .tc .vmem S2048x64 .f32) (harg6 : arg6.IsWhole)

set_option maxHeartbeats 1000000 in

theorem sound_kernel9_A (hc1 : k9_cond1 i = 1#1) (hc2 : ¬k9_cond2 i = 1#1)
    (x0 : Vec F S1x4096 .f32) (x1 : Vec F S2048x4096 .f32) (x2 : Vec F S2048x256 .f32) (x3 : Vec F S2048x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out9_A i x0 x1 x2 x3 x4)) -∗ K ⟨⟩))
      ⊢ wp frame (wpE (defs₀ (F := F)) Variants.none c none) E (cc9__fused_gc_body i arg1 harg1 arg2 harg2 arg3 harg3 arg4 harg4 arg5 harg5 arg6 harg6) K := by
  simp only [cc9__fused_gc_body_eq_skeleton]; unfold cc9__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover9_o _ _), View.canon_cons_unit_zero zero9]
  rfl

set_option maxHeartbeats 1000000 in

theorem sound_kernel9_B (hc1 : ¬k9_cond1 i = 1#1) (hc2 : k9_cond2 i = 1#1)
    (x0 : Vec F S1x4096 .f32) (x1 : Vec F S2048x4096 .f32) (x2 : Vec F S2048x256 .f32) (x3 : Vec F S2048x64 .f32) (x4 : Vec F S1x64 .f32) (prev : Vec F S2048x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare prev
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (out9_B i x0 x1 x2 x3 prev)) -∗ K ⟨⟩))
      ⊢ wp frame (wpE (defs₀ (F := F)) Variants.none c none) E (cc9__fused_gc_body i arg1 harg1 arg2 harg2 arg3 harg3 arg4 harg4 arg5 harg5 arg6 harg6) K := by
  simp only [cc9__fused_gc_body_eq_skeleton]; unfold cc9__fused_gc_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover9_o _ _), View.canon_cons_unit_zero zero9]
  unfold out9_B
  exact congrArg (k9_pay3 i _ _ _ _ _) (View.ld_unit_zero zero9 _ _)

end

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

set_option maxHeartbeats 1000000 in

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  by_cases h0 : t.val = 0
  · rw [outsAt9_A V c t h0]
    iintro ⟨HΦ, Ho, ⟨%d0, H0⟩, ⟨%d1, H1⟩, ⟨%d2, H2⟩, ⟨%d3, H3⟩, ⟨%d4, H4⟩, ⟨%d5, H5⟩⟩
    iapply (sound_kernel9_A c Set.univ (grid9.coords t) _ _ _ _ _ _ _ _ _ _ _ _ ((hcond9_1 t).mpr h0) (fun h => (hcond9_2 t).mp h h0)
      (iblk9 V c 0 t) (iblk9 V c 1 t) (iblk9 V c 2 t) (iblk9 V c 3 t) (iblk9 V c 4 t) _)
    iframe H0 H1 H2 H3 H4
    isplitl [H5]; · iexists _; iexact H5
    iintro ⟨H0, H1, H2, H3, H4, H5⟩
    iframe
  · rw [outsAt9_B V c t h0]
    simp only [before9_5_kept V c t h0]
    iintro ⟨HΦ, Ho, ⟨%d0, H0⟩, ⟨%d1, H1⟩, ⟨%d2, H2⟩, ⟨%d3, H3⟩, ⟨%d4, H4⟩, ⟨%d5, H5⟩⟩
    iapply (sound_kernel9_B c Set.univ (grid9.coords t) _ _ _ _ _ _ _ _ _ _ _ _ (fun h => h0 ((hcond9_1 t).mp h)) ((hcond9_2 t).mpr h0)
      (iblk9 V c 0 t) (iblk9 V c 1 t) (iblk9 V c 2 t) (iblk9 V c 3 t) (iblk9 V c 4 t) _ _)
    iframe H0 H1 H2 H3 H4 H5
    iintro ⟨H0, H1, H2, H3, H4, H5⟩
    iframe

set_option maxHeartbeats 1000000 in

theorem body_obligation9 (c : Dev nD) : BodyObligation (dat9 (F := F) V c) (defs₀ (F := F)) Variants.none () Set.univ := fun t => by
  rw [bigSep_W9, bigSep_W9]
  have h5 : cfg9.idle (5 : Fin 6) (cfg9.grid.coords t) = false := live9_5 _
  rw [h5]
  exact sound_body9 V c t

end Cert.KernelIdeal.Hand

end
-- ==== Proof.KI.Fold.lean ====
import proofs.«109581_g76012331204772_cont_9to1_m_125_6_alg».proof.Proof.KI.Reg0
import proofs.«109581_g76012331204772_cont_9to1_m_125_6_alg».proof.Proof.KI.Reg1
import proofs.«109581_g76012331204772_cont_9to1_m_125_6_alg».proof.Proof.KI.Reg2
import proofs.«109581_g76012331204772_cont_9to1_m_125_6_alg».proof.Proof.KI.Reg3
import proofs.«109581_g76012331204772_cont_9to1_m_125_6_alg».proof.Proof.KI.Reg4
import proofs.«109581_g76012331204772_cont_9to1_m_125_6_alg».proof.Proof.KI.Reg5
import proofs.«109581_g76012331204772_cont_9to1_m_125_6_alg».proof.Proof.KI.Reg6
import proofs.«109581_g76012331204772_cont_9to1_m_125_6_alg».proof.Proof.KI.Reg7
import proofs.«109581_g76012331204772_cont_9to1_m_125_6_alg».proof.Proof.KI.Reg8
import proofs.«109581_g76012331204772_cont_9to1_m_125_6_alg».proof.Proof.KI.Reg9
import proofs.«109581_g76012331204772_cont_9to1_m_125_6_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev V6 : (c : Dev nD) → (b : Ref sig .tc) → Buf (Elt F) ((c : Thread nD τ).loc b) := fun c b => W6 m ρ c b

theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

abbrev V8 : (c : Dev nD) → (b : Ref sig .tc) → Buf (Elt F) ((c : Thread nD τ).loc b) := fun c b => W8 m ρ c b

theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps4 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb

abbrev V10 : (c : Dev nD) → (b : Ref sig .tc) → Buf (Elt F) ((c : Thread nD τ).loc b) := fun c b => W10 m ρ c b

theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps5 (W10 m ρ c)

abbrev V11 : (c : Dev nD) → (b : Ref sig .tc) → Buf (Elt F) ((c : Thread nD τ).loc b) := fun c b => W11 m ρ c b

def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb

abbrev V12 : (c : Dev nD) → (b : Ref sig .tc) → Buf (Elt F) ((c : Thread nD τ).loc b) := fun c b => W12 m ρ c b

theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

def W13 (c : Dev nD) : Valuation τ sig (Elt F) :=
  Pipeline.withArrays spec6 c (W12 m ρ c) fun w => (dat6 (V12 m ρ) c).arrAt w cfg6.N
theorem W13_arr (c : Dev nD) (w : Fin cfg6.W) :
    W13 m ρ c (Proc.devRef .tc (Pipeline.arrRef spec6 w)) = (dat6 (V12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb

abbrev V13 : (c : Dev nD) → (b : Ref sig .tc) → Buf (Elt F) ((c : Thread nD τ).loc b) := fun c b => W13 m ρ c b

theorem hF6 (c : Dev nD) (w : Fin cfg6.W) : (dat6 (V12 m ρ) c).arrAt w cfg6.N = V13 m ρ c (Pipeline.arrRef spec6 w) :=
  (W13_arr m ρ c w).symm
theorem hrest6 (c : Dev nD) : ∀ b, b ∉ Finset.univ.image (Pipeline.arrRef spec6) → V13 m ρ c b = V12 m ρ c b :=
  fun b hb => W13_of_ne m ρ c b fun w e => hb (Finset.mem_image.mpr ⟨w, Finset.mem_univ _, e⟩)

abbrev W14 : Dev nD → Valuation τ sig (Elt F) := fun c => StableHlo.after hostOps7 (W13 m ρ c)

abbrev V14 : (c : Dev nD) → (b : Ref sig .tc) → Buf (Elt F) ((c : Thread nD τ).loc b) := fun c b => W14 m ρ c b

def W15 (c : Dev nD) : Valuation τ sig (Elt F) :=
  Pipeline.withArrays spec7 c (W14 m ρ c) fun w => (dat7 (V14 m ρ) c).arrAt w cfg7.N
theorem W15_arr (c : Dev nD) (w : Fin cfg7.W) :
    W15 m ρ c (Proc.devRef .tc (Pipeline.arrRef spec7 w)) = (dat7 (V14 m ρ) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m ρ c (Proc.devRef .tc b) = W14 m ρ c (Proc.devRef .tc b) := by
  unfold W15; exact Pipeline.withArrays_of_ne spec7 c _ _ b hb

abbrev V15 : (c : Dev nD) → (b : Ref sig .tc) → Buf (Elt F) ((c : Thread nD τ).loc b) := fun c b => W15 m ρ c b

theorem hF7 (c : Dev nD) (w : Fin cfg7.W) : (dat7 (V14 m ρ) c).arrAt w cfg7.N = V15 m ρ c (Pipeline.arrRef spec7 w) :=
  (W15_arr m ρ c w).symm
theorem hrest7 (c : Dev nD) : ∀ b, b ∉ Finset.univ.image (Pipeline.arrRef spec7) → V15 m ρ c b = V14 m ρ c b :=
  fun b hb => W15_of_ne m ρ c b fun w e => hb (Finset.mem_image.mpr ⟨w, Finset.mem_univ _, e⟩)

def W16 (c : Dev nD) : Valuation τ sig (Elt F) :=
  Pipeline.withArrays spec8 c (W15 m ρ c) fun w => (dat8 (V15 m ρ) c).arrAt w cfg8.N
theorem W16_arr (c : Dev nD) (w : Fin cfg8.W) :
    W16 m ρ c (Proc.devRef .tc (Pipeline.arrRef spec8 w)) = (dat8 (V15 m ρ) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 m ρ c (Proc.devRef .tc b) = W15 m ρ c (Proc.devRef .tc b) := by
  unfold W16; exact Pipeline.withArrays_of_ne spec8 c _ _ b hb

abbrev V16 : (c : Dev nD) → (b : Ref sig .tc) → Buf (Elt F) ((c : Thread nD τ).loc b) := fun c b => W16 m ρ c b

theorem hF8 (c : Dev nD) (w : Fin cfg8.W) : (dat8 (V15 m ρ) c).arrAt w cfg8.N = V16 m ρ c (Pipeline.arrRef spec8 w) :=
  (W16_arr m ρ c w).symm
theorem hrest8 (c : Dev nD) : ∀ b, b ∉ Finset.univ.image (Pipeline.arrRef spec8) → V16 m ρ c b = V15 m ρ c b :=
  fun b hb => W16_of_ne m ρ c b fun w e => hb (Finset.mem_image.mpr ⟨w, Finset.mem_univ _, e⟩)

abbrev W17 : Dev nD → Valuation τ sig (Elt F) := fun c => StableHlo.after hostOps9 (W16 m ρ c)

abbrev V17 : (c : Dev nD) → (b : Ref sig .tc) → Buf (Elt F) ((c : Thread nD τ).loc b) := fun c b => W17 m ρ c b

def W18 (c : Dev nD) : Valuation τ sig (Elt F) :=
  Pipeline.withArrays spec9 c (W17 m ρ c) fun w => (dat9 (V17 m ρ) c).arrAt w cfg9.N
theorem W18_arr (c : Dev nD) (w : Fin cfg9.W) :
    W18 m ρ c (Proc.devRef .tc (Pipeline.arrRef spec9 w)) = (dat9 (V17 m ρ) c).arrAt w cfg9.N := by
  unfold W18; exact Pipeline.withArrays_arr spec9 launch9.win.arr_inj c _ _ w
theorem W18_of_ne (c : Dev nD) (b : Ref sig .tc) (hb : ∀ w, Pipeline.arrRef spec9 w ≠ b) :
    W18 m ρ c (Proc.devRef .tc b) = W17 m ρ c (Proc.devRef .tc b) := by
  unfold W18; exact Pipeline.withArrays_of_ne spec9 c _ _ b hb

abbrev V18 : (c : Dev nD) → (b : Ref sig .tc) → Buf (Elt F) ((c : Thread nD τ).loc b) := fun c b => W18 m ρ c b

theorem hF9 (c : Dev nD) (w : Fin cfg9.W) : (dat9 (V17 m ρ) c).arrAt w cfg9.N = V18 m ρ c (Pipeline.arrRef spec9 w) :=
  (W18_arr m ρ c w).symm
theorem hrest9 (c : Dev nD) : ∀ b, b ∉ Finset.univ.image (Pipeline.arrRef spec9) → V18 m ρ c b = V17 m ρ c b :=
  fun b hb => W18_of_ne m ρ c b fun w e => hb (Finset.mem_image.mpr ⟨w, Finset.mem_univ _, e⟩)

-- A region rewrites only its output windows' arrays: an input window's array and every other buffer stay.
theorem keep_region {W : ℕ} {isOut : Fin W → Bool} {arr : Fin W → Ref sig .tc} {r : Ref sig .tc} {P : Prop}
    (h : ∀ w, isOut w = true → arr w ≠ r) (hin : ∀ w, isOut w = false → arr w = r → P) (hne : (∀ w, arr w ≠ r) → P) : P := by
  by_cases hr : ∃ w, arr w = r
  · obtain ⟨w, e⟩ := hr
    cases hw : isOut w with
    | false => exact hin w hw e
    | true => exact absurd e (h w hw)
  · exact hne fun w e => hr ⟨w, e⟩

theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_keep (c : Dev nD) (r : Ref sig .tc) (h : ∀ w, (cfg0.win w).isOut = true → Pipeline.arrRef spec0 w ≠ r) :
    W2 m ρ c (Proc.devRef .tc r) = W1 m ρ c (Proc.devRef .tc r) :=
  keep_region h (fun w hin e => by
    subst e; exact (W2_arr m ρ c w).trans (((dat0 (V1 m ρ) c).arrAt_in w hin _).trans (A_eq0 (V1 m ρ) c w)))
    (W2_of_ne m ρ c r)
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
theorem W4_keep (c : Dev nD) (r : Ref sig .tc) (h : ∀ w, (cfg1.win w).isOut = true → Pipeline.arrRef spec1 w ≠ r) :
    W4 m ρ c (Proc.devRef .tc r) = W3 m ρ c (Proc.devRef .tc r) :=
  keep_region h (fun w hin e => by
    subst e; exact (W4_arr m ρ c w).trans (((dat1 (V3 m ρ) c).arrAt_in w hin _).trans (A_eq1 (V3 m ρ) c w)))
    (W4_of_ne m ρ c r)
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
theorem W6_keep (c : Dev nD) (r : Ref sig .tc) (h : ∀ w, (cfg2.win w).isOut = true → Pipeline.arrRef spec2 w ≠ r) :
    W6 m ρ c (Proc.devRef .tc r) = W5 m ρ c (Proc.devRef .tc r) :=
  keep_region h (fun w hin e => by
    subst e; exact (W6_arr m ρ c w).trans (((dat2 (V5 m ρ) c).arrAt_in w hin _).trans (A_eq2 (V5 m ρ) c w)))
    (W6_of_ne m ρ c r)
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h
theorem W8_keep (c : Dev nD) (r : Ref sig .tc) (h : ∀ w, (cfg3.win w).isOut = true → Pipeline.arrRef spec3 w ≠ r) :
    W8 m ρ c (Proc.devRef .tc r) = W7 m ρ c (Proc.devRef .tc r) :=
  keep_region h (fun w hin e => by
    subst e; exact (W8_arr m ρ c w).trans (((dat3 (V7 m ρ) c).arrAt_in w hin _).trans (A_eq3 (V7 m ρ) c w)))
    (W8_of_ne m ρ c r)
theorem W9_keep (c : Dev nD) (r : Ref sig .tc) (h : r ∉ hostOps4_W) :
    W9 m ρ c (Proc.devRef .tc r) = W8 m ρ c (Proc.devRef .tc r) :=
  StableHlo.after_of_writes_sub hostOps4 _ hostOps4_writes h
theorem W10_keep (c : Dev nD) (r : Ref sig .tc) (h : ∀ w, (cfg4.win w).isOut = true → Pipeline.arrRef spec4 w ≠ r) :
    W10 m ρ c (Proc.devRef .tc r) = W9 m ρ c (Proc.devRef .tc r) :=
  keep_region h (fun w hin e => by
    subst e; exact (W10_arr m ρ c w).trans (((dat4 (V9 m ρ) c).arrAt_in w hin _).trans (A_eq4 (V9 m ρ) c w)))
    (W10_of_ne m ρ c r)
theorem W11_keep (c : Dev nD) (r : Ref sig .tc) (h : r ∉ hostOps5_W) :
    W11 m ρ c (Proc.devRef .tc r) = W10 m ρ c (Proc.devRef .tc r) :=
  StableHlo.after_of_writes_sub hostOps5 _ hostOps5_writes h
theorem W12_keep (c : Dev nD) (r : Ref sig .tc) (h : ∀ w, (cfg5.win w).isOut = true → Pipeline.arrRef spec5 w ≠ r) :
    W12 m ρ c (Proc.devRef .tc r) = W11 m ρ c (Proc.devRef .tc r) :=
  keep_region h (fun w hin e => by
    subst e; exact (W12_arr m ρ c w).trans (((dat5 (V11 m ρ) c).arrAt_in w hin _).trans (A_eq5 (V11 m ρ) c w)))
    (W12_of_ne m ρ c r)
theorem W13_keep (c : Dev nD) (r : Ref sig .tc) (h : ∀ w, (cfg6.win w).isOut = true → Pipeline.arrRef spec6 w ≠ r) :
    W13 m ρ c (Proc.devRef .tc r) = W12 m ρ c (Proc.devRef .tc r) :=
  keep_region h (fun w hin e => by
    subst e; exact (W13_arr m ρ c w).trans (((dat6 (V12 m ρ) c).arrAt_in w hin _).trans (A_eq6 (V12 m ρ) c w)))
    (W13_of_ne m ρ c r)
theorem W14_keep (c : Dev nD) (r : Ref sig .tc) (h : r ∉ hostOps7_W) :
    W14 m ρ c (Proc.devRef .tc r) = W13 m ρ c (Proc.devRef .tc r) :=
  StableHlo.after_of_writes_sub hostOps7 _ hostOps7_writes h
theorem W15_keep (c : Dev nD) (r : Ref sig .tc) (h : ∀ w, (cfg7.win w).isOut = true → Pipeline.arrRef spec7 w ≠ r) :
    W15 m ρ c (Proc.devRef .tc r) = W14 m ρ c (Proc.devRef .tc r) :=
  keep_region h (fun w hin e => by
    subst e; exact (W15_arr m ρ c w).trans (((dat7 (V14 m ρ) c).arrAt_in w hin _).trans (A_eq7 (V14 m ρ) c w)))
    (W15_of_ne m ρ c r)
theorem W16_keep (c : Dev nD) (r : Ref sig .tc) (h : ∀ w, (cfg8.win w).isOut = true → Pipeline.arrRef spec8 w ≠ r) :
    W16 m ρ c (Proc.devRef .tc r) = W15 m ρ c (Proc.devRef .tc r) :=
  keep_region h (fun w hin e => by
    subst e; exact (W16_arr m ρ c w).trans (((dat8 (V15 m ρ) c).arrAt_in w hin _).trans (A_eq8 (V15 m ρ) c w)))
    (W16_of_ne m ρ c r)
theorem W17_keep (c : Dev nD) (r : Ref sig .tc) (h : r ∉ hostOps9_W) :
    W17 m ρ c (Proc.devRef .tc r) = W16 m ρ c (Proc.devRef .tc r) :=
  StableHlo.after_of_writes_sub hostOps9 _ hostOps9_writes h
theorem W18_keep (c : Dev nD) (r : Ref sig .tc) (h : ∀ w, (cfg9.win w).isOut = true → Pipeline.arrRef spec9 w ≠ r) :
    W18 m ρ c (Proc.devRef .tc r) = W17 m ρ c (Proc.devRef .tc r) :=
  keep_region h (fun w hin e => by
    subst e; exact (W18_arr m ρ c w).trans (((dat9 (V17 m ρ) c).arrAt_in w hin _).trans (A_eq9 (V17 m ρ) c w)))
    (W18_of_ne m ρ c r)

-- The buffers after `n` steps of the program: host stretches and kernel regions in order.
def Wn (c : Dev nD) : ℕ → Valuation τ sig (Elt F)
  | 0 => W0 m ρ c
  | 1 => W1 m ρ c
  | 2 => W2 m ρ c
  | 3 => W3 m ρ c
  | 4 => W4 m ρ c
  | 5 => W5 m ρ c
  | 6 => W6 m ρ c
  | 7 => W7 m ρ c
  | 8 => W8 m ρ c
  | 9 => W9 m ρ c
  | 10 => W10 m ρ c
  | 11 => W11 m ρ c
  | 12 => W12 m ρ c
  | 13 => W13 m ρ c
  | 14 => W14 m ρ c
  | 15 => W15 m ρ c
  | 16 => W16 m ρ c
  | 17 => W17 m ρ c
  | _ => W18 m ρ c

-- Whether step `n` leaves `r` alone: a host stretch writes its results, a region its output arrays.
def keeps (r : Ref sig .tc) : ℕ → Bool
  | 0 => decide (r ∉ hostOps0_W)
  | 1 => decide (∀ w, (cfg0.win w).isOut = true → Pipeline.arrRef spec0 w ≠ r)
  | 2 => decide (r ∉ hostOps1_W)
  | 3 => decide (∀ w, (cfg1.win w).isOut = true → Pipeline.arrRef spec1 w ≠ r)
  | 4 => decide (r ∉ hostOps2_W)
  | 5 => decide (∀ w, (cfg2.win w).isOut = true → Pipeline.arrRef spec2 w ≠ r)
  | 6 => decide (r ∉ hostOps3_W)
  | 7 => decide (∀ w, (cfg3.win w).isOut = true → Pipeline.arrRef spec3 w ≠ r)
  | 8 => decide (r ∉ hostOps4_W)
  | 9 => decide (∀ w, (cfg4.win w).isOut = true → Pipeline.arrRef spec4 w ≠ r)
  | 10 => decide (r ∉ hostOps5_W)
  | 11 => decide (∀ w, (cfg5.win w).isOut = true → Pipeline.arrRef spec5 w ≠ r)
  | 12 => decide (∀ w, (cfg6.win w).isOut = true → Pipeline.arrRef spec6 w ≠ r)
  | 13 => decide (r ∉ hostOps7_W)
  | 14 => decide (∀ w, (cfg7.win w).isOut = true → Pipeline.arrRef spec7 w ≠ r)
  | 15 => decide (∀ w, (cfg8.win w).isOut = true → Pipeline.arrRef spec8 w ≠ r)
  | 16 => decide (r ∉ hostOps9_W)
  | 17 => decide (∀ w, (cfg9.win w).isOut = true → Pipeline.arrRef spec9 w ≠ r)
  | _ => true

theorem Wn_succ (c : Dev nD) (r : Ref sig .tc) : ∀ n, keeps r n = true →
    Wn m ρ c (n + 1) (Proc.devRef .tc r) = Wn m ρ c n (Proc.devRef .tc r)
  | 0, h => W1_keep m ρ c r (of_decide_eq_true h)
  | 1, h => W2_keep m ρ c r (of_decide_eq_true h)
  | 2, h => W3_keep m ρ c r (of_decide_eq_true h)
  | 3, h => W4_keep m ρ c r (of_decide_eq_true h)
  | 4, h => W5_keep m ρ c r (of_decide_eq_true h)
  | 5, h => W6_keep m ρ c r (of_decide_eq_true h)
  | 6, h => W7_keep m ρ c r (of_decide_eq_true h)
  | 7, h => W8_keep m ρ c r (of_decide_eq_true h)
  | 8, h => W9_keep m ρ c r (of_decide_eq_true h)
  | 9, h => W10_keep m ρ c r (of_decide_eq_true h)
  | 10, h => W11_keep m ρ c r (of_decide_eq_true h)
  | 11, h => W12_keep m ρ c r (of_decide_eq_true h)
  | 12, h => W13_keep m ρ c r (of_decide_eq_true h)
  | 13, h => W14_keep m ρ c r (of_decide_eq_true h)
  | 14, h => W15_keep m ρ c r (of_decide_eq_true h)
  | 15, h => W16_keep m ρ c r (of_decide_eq_true h)
  | 16, h => W17_keep m ρ c r (of_decide_eq_true h)
  | 17, h => W18_keep m ρ c r (of_decide_eq_true h)
  | _ + 18, _ => rfl

-- A reference that steps `i`, …, `i + k - 1` leave alone holds after them what it held before.
theorem Wn_keep (c : Dev nD) (r : Ref sig .tc) (i : ℕ) : ∀ k, (∀ n < k, keeps r (i + n) = true) →
    Wn m ρ c (i + k) (Proc.devRef .tc r) = Wn m ρ c i (Proc.devRef .tc r)
  | 0, _ => rfl
  | k + 1, h => (Wn_succ m ρ c r (i + k) (h k (Nat.lt_succ_self k))).trans
      (Wn_keep c r i k fun n hn => h n (Nat.lt_succ_of_lt hn))

theorem W18_arg (c : Dev nD) (r : Ref sig .tc) (h : ∀ n < 18, keeps r (0 + n) = true) :
    W18 m ρ c (Proc.devRef .tc r) = m ((c : Thread nD τ).loc r) :=
  Wn_keep m ρ c r 0 18 h

end Cert.KernelIdeal.Hand

end
-- ==== Proof.KI.Run.lean ====
import proofs.«109581_g76012331204772_cont_9to1_m_125_6_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 10) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V12 m ρ) c
  | ⟨7, _⟩ => fun c => dat7 (V14 m ρ) c
  | ⟨8, _⟩ => fun c => dat8 (V15 m ρ) c
  | ⟨9, _⟩ => fun c => dat9 (V17 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W18 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 0 c).Φ 0 = Pipeline.ΦA spec0 c from rfl]; unfold Pipeline.ΦA
    iintro ⟨Hp, -, Hr⟩
    iframe
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 1 c).Φ 0 = Pipeline.ΦA spec1 c from rfl]; unfold Pipeline.ΦA
    iintro ⟨Hp, -, Hr⟩
    iframe
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 2 c).Φ 0 = Pipeline.ΦA spec2 c from rfl]; unfold Pipeline.ΦA
    iintro ⟨Hp, -, Hr⟩
    iframe
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 3 c).Φ 0 = Pipeline.ΦA spec3 c from rfl]; unfold Pipeline.ΦA
    iintro ⟨Hp, -, Hr⟩
    iframe
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 4 c).Φ 0 = Pipeline.ΦA spec4 c from rfl]; unfold Pipeline.ΦA
    iintro ⟨Hp, -, Hr⟩
    iframe
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 5 c).Φ 0 = Pipeline.ΦA spec5 c from rfl]; unfold Pipeline.ΦA
    iintro ⟨Hp, -, Hr⟩
    iframe
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V12 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (V12 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 6 c).Φ 0 = Pipeline.ΦA spec6 c from rfl]; unfold Pipeline.ΦA
    iintro ⟨Hp, -, Hr⟩
    iframe
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V12 m ρ c) (V13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V14 m ρ) c).loose
  hwaits := Pipeline.hwaits_of_owed_zero _ _ _ _ L lv 7 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec7 c (V14 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 7 c).Φ 0 = Pipeline.ΦA spec7 c from rfl]; unfold Pipeline.ΦA
    iintro ⟨Hp, -, Hr⟩
    iframe
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V14 m ρ c) (V15 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V15 m ρ) c).loose
  hwaits := Pipeline.hwaits_of_owed_zero _ _ _ _ L lv 8 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec8 c (V15 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 8 c).Φ 0 = Pipeline.ΦA spec8 c from rfl]; unfold Pipeline.ΦA
    iintro ⟨Hp, -, Hr⟩
    iframe
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V15 m ρ c) (V16 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V17 m ρ) c).loose
  hwaits := Pipeline.hwaits_of_owed_zero _ _ _ _ L lv 9 fun _ _ => rfl
  pre c := iprop(StableHlo.held (c : Thread nD τ) (Pipeline.ucRefs τ sig) (W17 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (V17 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    iframe
  hin c := by
    rw [show (pdats m ρ 9 c).Φ 0 = Pipeline.ΦA spec9 c from rfl]; unfold Pipeline.ΦA
    iintro ⟨Hp, -, Hr⟩
    iframe
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V17 m ρ c) (V18 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .region (reg6 m ρ),
    .host (hseg hostOps7 hostOps7_sub hostOps7_fresh (W13 m ρ)),
    .region (reg7 m ρ),
    .region (reg8 m ρ),
    .host (hseg hostOps9 hostOps9_sub hostOps9_fresh (W16 m ρ)),
    .region (reg9 m ρ) ]

theorem main_run (c : Dev nD) : main (F := F) c = Pipeline.Seg.run (segs m ρ) := (main_chain c).trans (by chain_rfl)

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem ((c : Thread nD τ).1, b) = W18 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h => h)

-- An argument no step writes ends as launched.
theorem arg_kept {s : MemSt nD τ sig (Elt F)} (c : Dev nD)
    (h : ∀ b ∈ Pipeline.ucRefs τ sig, s.mem ((c : Thread nD τ).1, b) = W18 m ρ c b)
    (a : Ref sig .tc) (hs : ¬ (Proc.devRef .tc a : DevRef τ sig).isScoped) (hk : ∀ n < 18, keeps a (0 + n) = true) :
    s.mem ((c.tc : Thread nD τ).loc a) = m ((c.tc : Thread nD τ).loc a) :=
  (h _ (mem_uc a hs)).trans (W18_arg m ρ c a hk)

end Cert.KernelIdeal.Hand

end
-- ==== Proof.KI.Keep.lean ====
import proofs.«109581_g76012331204772_cont_9to1_m_125_6_alg».proof.Proof.KI.Fold
import Idealize.ShloMosaic.Lib.Pipeline.Cells
import Idealize.ShloMosaic.Lib.StableHlo.Run

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem

variable {F : FTy → Type} [FloatOps F]
variable (m : (ℓ : Loc nD τ sig) → Buf (Elt F) ℓ) (ρ : Dev nD → PrngReg)

theorem K1_main_arg0 (c : Dev nD) : W1 m ρ c (Proc.devRef .tc main_arg0) = W0 m ρ c (Proc.devRef .tc main_arg0) :=
  Wn_keep m ρ c main_arg0 0 1 (by decide)
theorem K1_main_arg1 (c : Dev nD) : W1 m ρ c (Proc.devRef .tc main_arg1) = W0 m ρ c (Proc.devRef .tc main_arg1) :=
  Wn_keep m ρ c main_arg1 0 1 (by decide)
theorem K1_main_arg5 (c : Dev nD) : W1 m ρ c (Proc.devRef .tc main_arg5) = W0 m ρ c (Proc.devRef .tc main_arg5) :=
  Wn_keep m ρ c main_arg5 0 1 (by decide)
theorem K1_main_arg6 (c : Dev nD) : W1 m ρ c (Proc.devRef .tc main_arg6) = W0 m ρ c (Proc.devRef .tc main_arg6) :=
  Wn_keep m ρ c main_arg6 0 1 (by decide)
theorem K1_main_arg8 (c : Dev nD) : W1 m ρ c (Proc.devRef .tc main_arg8) = W0 m ρ c (Proc.devRef .tc main_arg8) :=
  Wn_keep m ρ c main_arg8 0 1 (by decide)
theorem K2_main_arg7 (c : Dev nD) : W2 m ρ c (Proc.devRef .tc main_arg7) = W0 m ρ c (Proc.devRef .tc main_arg7) :=
  Wn_keep m ρ c main_arg7 0 2 (by decide)
theorem K3_main_v3_0 (c : Dev nD) : W3 m ρ c (Proc.devRef .tc main_v3_0) = W2 m ρ c (Proc.devRef .tc main_v3_0) :=
  Wn_keep m ρ c main_v3_0 2 1 (by decide)
theorem K3_main_arg4 (c : Dev nD) : W3 m ρ c (Proc.devRef .tc main_arg4) = W0 m ρ c (Proc.devRef .tc main_arg4) :=
  Wn_keep m ρ c main_arg4 0 3 (by decide)
theorem K3_main_arg3 (c : Dev nD) : W3 m ρ c (Proc.devRef .tc main_arg3) = W0 m ρ c (Proc.devRef .tc main_arg3) :=
  Wn_keep m ρ c main_arg3 0 3 (by decide)
theorem K3_main_v3_1 (c : Dev nD) : W3 m ρ c (Proc.devRef .tc main_v3_1) = W2 m ρ c (Proc.devRef .tc main_v3_1) :=
  Wn_keep m ρ c main_v3_1 2 1 (by decide)
theorem K4_main_v3_2 (c : Dev nD) : W4 m ρ c (Proc.devRef .tc main_v3_2) = W2 m ρ c (Proc.devRef .tc main_v3_2) :=
  Wn_keep m ρ c main_v3_2 2 2 (by decide)
theorem K4_main_arg15 (c : Dev nD) : W4 m ρ c (Proc.devRef .tc main_arg15) = W0 m ρ c (Proc.devRef .tc main_arg15) :=
  Wn_keep m ρ c main_arg15 0 4 (by decide)
theorem K4_main_arg16 (c : Dev nD) : W4 m ρ c (Proc.devRef .tc main_arg16) = W0 m ρ c (Proc.devRef .tc main_arg16) :=
  Wn_keep m ρ c main_arg16 0 4 (by decide)
theorem K5_main_arg1 (c : Dev nD) : W5 m ρ c (Proc.devRef .tc main_arg1) = W0 m ρ c (Proc.devRef .tc main_arg1) :=
  Wn_keep m ρ c main_arg1 0 5 (by decide)
theorem K5_main_arg11 (c : Dev nD) : W5 m ρ c (Proc.devRef .tc main_arg11) = W0 m ρ c (Proc.devRef .tc main_arg11) :=
  Wn_keep m ρ c main_arg11 0 5 (by decide)
theorem K5_main_arg12 (c : Dev nD) : W5 m ρ c (Proc.devRef .tc main_arg12) = W0 m ρ c (Proc.devRef .tc main_arg12) :=
  Wn_keep m ρ c main_arg12 0 5 (by decide)
theorem K5_main_arg14 (c : Dev nD) : W5 m ρ c (Proc.devRef .tc main_arg14) = W0 m ρ c (Proc.devRef .tc main_arg14) :=
  Wn_keep m ρ c main_arg14 0 5 (by decide)
theorem K6_main_arg13 (c : Dev nD) : W6 m ρ c (Proc.devRef .tc main_arg13) = W0 m ρ c (Proc.devRef .tc main_arg13) :=
  Wn_keep m ρ c main_arg13 0 6 (by decide)
theorem K7_main_v9_0 (c : Dev nD) : W7 m ρ c (Proc.devRef .tc main_v9_0) = W6 m ρ c (Proc.devRef .tc main_v9_0) :=
  Wn_keep m ρ c main_v9_0 6 1 (by decide)
theorem K7_main_v0 (c : Dev nD) : W7 m ρ c (Proc.devRef .tc main_v0) = W1 m ρ c (Proc.devRef .tc main_v0) :=
  Wn_keep m ρ c main_v0 1 6 (by decide)
theorem K7_main_arg2 (c : Dev nD) : W7 m ρ c (Proc.devRef .tc main_arg2) = W0 m ρ c (Proc.devRef .tc main_arg2) :=
  Wn_keep m ρ c main_arg2 0 7 (by decide)
theorem K7_main_v9_1 (c : Dev nD) : W7 m ρ c (Proc.devRef .tc main_v9_1) = W6 m ρ c (Proc.devRef .tc main_v9_1) :=
  Wn_keep m ρ c main_v9_1 6 1 (by decide)
theorem K8_main_v9_2 (c : Dev nD) : W8 m ρ c (Proc.devRef .tc main_v9_2) = W6 m ρ c (Proc.devRef .tc main_v9_2) :=
  Wn_keep m ρ c main_v9_2 6 2 (by decide)
theorem K9_main_v6 (c : Dev nD) : W9 m ρ c (Proc.devRef .tc main_v6) = W5 m ρ c (Proc.devRef .tc main_v6) :=
  Wn_keep m ρ c main_v6 5 4 (by decide)
theorem K9_main_arg17 (c : Dev nD) : W9 m ρ c (Proc.devRef .tc main_arg17) = W0 m ρ c (Proc.devRef .tc main_arg17) :=
  Wn_keep m ρ c main_arg17 0 9 (by decide)
theorem K9_main_arg18 (c : Dev nD) : W9 m ρ c (Proc.devRef .tc main_arg18) = W0 m ρ c (Proc.devRef .tc main_arg18) :=
  Wn_keep m ρ c main_arg18 0 9 (by decide)
theorem K10_main_arg19 (c : Dev nD) : W10 m ρ c (Proc.devRef .tc main_arg19) = W0 m ρ c (Proc.devRef .tc main_arg19) :=
  Wn_keep m ρ c main_arg19 0 10 (by decide)
theorem K11_main_v13_0 (c : Dev nD) : W11 m ρ c (Proc.devRef .tc main_v13_0) = W10 m ρ c (Proc.devRef .tc main_v13_0) :=
  Wn_keep m ρ c main_v13_0 10 1 (by decide)
theorem K11_main_arg4 (c : Dev nD) : W11 m ρ c (Proc.devRef .tc main_arg4) = W0 m ρ c (Proc.devRef .tc main_arg4) :=
  Wn_keep m ρ c main_arg4 0 11 (by decide)
theorem K11_main_arg3 (c : Dev nD) : W11 m ρ c (Proc.devRef .tc main_arg3) = W0 m ρ c (Proc.devRef .tc main_arg3) :=
  Wn_keep m ρ c main_arg3 0 11 (by decide)
theorem K11_main_v13_1 (c : Dev nD) : W11 m ρ c (Proc.devRef .tc main_v13_1) = W10 m ρ c (Proc.devRef .tc main_v13_1) :=
  Wn_keep m ρ c main_v13_1 10 1 (by decide)
theorem K12_main_v12 (c : Dev nD) : W12 m ρ c (Proc.devRef .tc main_v12) = W9 m ρ c (Proc.devRef .tc main_v12) :=
  Wn_keep m ρ c main_v12 9 3 (by decide)
theorem K12_main_arg20 (c : Dev nD) : W12 m ρ c (Proc.devRef .tc main_arg20) = W0 m ρ c (Proc.devRef .tc main_arg20) :=
  Wn_keep m ρ c main_arg20 0 12 (by decide)
theorem K12_main_arg21 (c : Dev nD) : W12 m ρ c (Proc.devRef .tc main_arg21) = W0 m ρ c (Proc.devRef .tc main_arg21) :=
  Wn_keep m ρ c main_arg21 0 12 (by decide)
theorem K13_main_arg22 (c : Dev nD) : W13 m ρ c (Proc.devRef .tc main_arg22) = W0 m ρ c (Proc.devRef .tc main_arg22) :=
  Wn_keep m ρ c main_arg22 0 13 (by decide)
theorem K14_main_v16_0 (c : Dev nD) : W14 m ρ c (Proc.devRef .tc main_v16_0) = W13 m ρ c (Proc.devRef .tc main_v16_0) :=
  Wn_keep m ρ c main_v16_0 13 1 (by decide)
theorem K14_main_v0 (c : Dev nD) : W14 m ρ c (Proc.devRef .tc main_v0) = W1 m ρ c (Proc.devRef .tc main_v0) :=
  Wn_keep m ρ c main_v0 1 13 (by decide)
theorem K14_main_arg2 (c : Dev nD) : W14 m ρ c (Proc.devRef .tc main_arg2) = W0 m ρ c (Proc.devRef .tc main_arg2) :=
  Wn_keep m ρ c main_arg2 0 14 (by decide)
theorem K14_main_v16_1 (c : Dev nD) : W14 m ρ c (Proc.devRef .tc main_v16_1) = W13 m ρ c (Proc.devRef .tc main_v16_1) :=
  Wn_keep m ρ c main_v16_1 13 1 (by decide)
theorem K15_main_v15 (c : Dev nD) : W15 m ρ c (Proc.devRef .tc main_v15) = W12 m ρ c (Proc.devRef .tc main_v15) :=
  Wn_keep m ρ c main_v15 12 3 (by decide)
theorem K15_main_arg23 (c : Dev nD) : W15 m ρ c (Proc.devRef .tc main_arg23) = W0 m ρ c (Proc.devRef .tc main_arg23) :=
  Wn_keep m ρ c main_arg23 0 15 (by decide)
theorem K15_main_arg24 (c : Dev nD) : W15 m ρ c (Proc.devRef .tc main_arg24) = W0 m ρ c (Proc.devRef .tc main_arg24) :=
  Wn_keep m ρ c main_arg24 0 15 (by decide)
theorem K16_main_arg25 (c : Dev nD) : W16 m ρ c (Proc.devRef .tc main_arg25) = W0 m ρ c (Proc.devRef .tc main_arg25) :=
  Wn_keep m ρ c main_arg25 0 16 (by decide)
theorem K17_main_v19_0 (c : Dev nD) : W17 m ρ c (Proc.devRef .tc main_v19_0) = W16 m ρ c (Proc.devRef .tc main_v19_0) :=
  Wn_keep m ρ c main_v19_0 16 1 (by decide)
theorem K17_main_arg4 (c : Dev nD) : W17 m ρ c (Proc.devRef .tc main_arg4) = W0 m ρ c (Proc.devRef .tc main_arg4) :=
  Wn_keep m ρ c main_arg4 0 17 (by decide)
theorem K17_main_arg3 (c : Dev nD) : W17 m ρ c (Proc.devRef .tc main_arg3) = W0 m ρ c (Proc.devRef .tc main_arg3) :=
  Wn_keep m ρ c main_arg3 0 17 (by decide)
theorem K17_main_v19_1 (c : Dev nD) : W17 m ρ c (Proc.devRef .tc main_v19_1) = W16 m ρ c (Proc.devRef .tc main_v19_1) :=
  Wn_keep m ρ c main_v19_1 16 1 (by decide)

end Cert.KernelIdeal.HandVal

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Mat (n k : ℕ) : Type := Fin n → Fin k → EReal

def m2 {a b : ℕ} (x : (⟨2, ![a, b]⟩ : Shape).Idx → EReal) : Mat a b := fun i j => x (ix2 i j)

def m1 {a : ℕ} (x : (⟨1, ![a]⟩ : Shape).Idx → EReal) : Fin a → EReal := fun i => x (ix1 i)

def row {a : ℕ} (x : (⟨2, ![1, a]⟩ : Shape).Idx → EReal) : Fin a → EReal := fun i => x (ix2 0 i)

def eps : EReal := Ideal.ofBits .f32 0x3727C5AC#32

def len128 : EReal := Ideal.ofBits .f32 0x43000000#32
def len16 : EReal := Ideal.ofBits .f32 0x41800000#32

def relu (x : EReal) : EReal := max x 0

def reluM {n k : ℕ} (A : Mat n k) : Mat n k := fun i j => relu (A i j)

def mm {n k p : ℕ} (A : Mat n k) (B : Mat k p) : Mat n p := fun i j => ∑ l, A i l * B l j

def dvec {n k : ℕ} (H : Mat n k) (p : Fin k → EReal) : Fin n → EReal := fun i => ∑ j, H i j * p j

def mult {R K : ℕ} (Tm : Mat R K) (d : Fin K → EReal) : Mat R R := fun r c => ∑ j, Tm r j * d j * Tm c j

def coef {R K : ℕ} (Tm : Mat R K) (d : Fin K → EReal) (adj : Mat R R) : Mat R R :=
  fun r c => if r = c then adj r c else mult Tm d r c * adj r c

def gc {R K W : ℕ} (Tm : Mat R K) (d : Fin K → EReal) (adj : Mat R R) (HW : Mat R W) (b : Fin W → EReal) : Mat R W :=
  fun r f => (∑ c, coef Tm d adj r c * HW c f) + b f

def mean {n k : ℕ} (len : EReal) (h : Mat n k) : Fin n → EReal := fun i => Ideal.div (∑ j, h i j) len

def centred {n k : ℕ} (len : EReal) (h : Mat n k) : Mat n k := fun i j => h i j - mean len h i

def var {n k : ℕ} (len : EReal) (h : Mat n k) : Fin n → EReal :=
  mean len (fun i j => centred len h i j * centred len h i j)

def layernorm {n k : ℕ} (len : EReal) (h : Mat n k) (g be : Fin k → EReal) : Mat n k :=
  fun i j => Ideal.div (centred len h i j) (Ideal.sqrt (var len h i + eps)) * g j + be j

def hcat {n a b c : ℕ} (hc : c = a + b) (A : Mat n a) (B : Mat n b) : Mat n c :=
  fun i j => if h : j.val < a then A i ⟨j.val, h⟩ else B i ⟨j.val - a, by have := j.isLt; omega⟩

def tr {n k : ℕ} (A : Mat n k) : Mat k n := fun i j => A j i

structure Args where
  X : Mat 2048 128
  Z : Mat 4096 16
  adj_e : Mat 4096 4096
  adj_v : Mat 2048 2048
  T : Mat 2048 4096
  gc1_W : Mat 128 128
  gc1_p : Fin 16 → EReal
  gc1_b : Fin 128 → EReal
  fc1_W : Mat 128 128
  fc1_g : Fin 128 → EReal
  fc1_be : Fin 128 → EReal
  gc2_W : Mat 16 16
  gc2_p : Fin 256 → EReal
  gc2_b : Fin 16 → EReal
  fc2_W : Mat 16 16
  fc2_g : Fin 16 → EReal
  fc2_be : Fin 16 → EReal
  gc3_W : Mat 256 128
  gc3_p : Fin 32 → EReal
  gc3_b : Fin 128 → EReal
  gc4_W : Mat 32 16
  gc4_p : Fin 128 → EReal
  gc4_b : Fin 16 → EReal
  gc5_W : Mat 128 64
  gc5_p : Fin 16 → EReal
  gc5_b : Fin 64 → EReal

variable (a : Args)

def d1 : Fin 4096 → EReal := dvec a.Z a.gc1_p
def HW1 : Mat 2048 128 := mm a.X a.gc1_W
def X1 : Mat 2048 128 := reluM (gc a.T (d1 a) a.adj_v (HW1 a) a.gc1_b)

def F1 : Mat 2048 128 := reluM (layernorm len128 (mm a.X a.fc1_W) a.fc1_g a.fc1_be)
def X1F1 : Mat 2048 256 := hcat (by norm_num) (X1 a) (F1 a)

def d2 : Fin 2048 → EReal := dvec (X1F1 a) a.gc2_p
def HW2 : Mat 4096 16 := mm (reluM a.Z) a.gc2_W
def Z2 : Mat 4096 16 := reluM (gc (tr a.T) (d2 a) a.adj_e (HW2 a) a.gc2_b)

def F2 : Mat 4096 16 := reluM (layernorm len16 (mm a.Z a.fc2_W) a.fc2_g a.fc2_be)
def Z2F2 : Mat 4096 32 := hcat (by norm_num) (Z2 a) (F2 a)

def d3 : Fin 4096 → EReal := dvec (Z2F2 a) a.gc3_p
def HW3 : Mat 2048 128 := mm (X1F1 a) a.gc3_W
def X3 : Mat 2048 128 := reluM (gc a.T (d3 a) a.adj_v (HW3 a) a.gc3_b)

def d4 : Fin 2048 → EReal := dvec (X3 a) a.gc4_p
def HW4 : Mat 4096 16 := mm (Z2F2 a) a.gc4_W
def Z4 : Mat 4096 16 := reluM (gc (tr a.T) (d4 a) a.adj_e (HW4 a) a.gc4_b)

def d5 : Fin 4096 → EReal := dvec (Z4 a) a.gc5_p
def HW5 : Mat 2048 64 := mm (X3 a) a.gc5_W
def X5 : Mat 2048 64 := gc a.T (d5 a) a.adj_v (HW5 a) a.gc5_b

end Cert.Spec

end
-- ==== Proof.KI.Pay0.lean ====
import proofs.«109581_g76012331204772_cont_9to1_m_125_6_alg».proof.Proof.Gen.KernelIdeal.Skeleton
import proofs.«109581_g76012331204772_cont_9to1_m_125_6_alg».proof.Proof.Spec

import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

theorem lhs_pz_0 (i : S1x4096.Idx) (q : dot_S1x16_S4096x16_S1x4096_1_1_0_0_n_n.contr.Idx) :
    (dot_S1x16_S4096x16_S1x4096_1_1_0_0_n_n.lhsIdx i q 0).val = (i 0).val := by
  unfold DotDims.lhsIdx
  rw [dif_neg (show ¬(0 : Fin S1x16.rank) ∈ dot_S1x16_S4096x16_S1x4096_1_1_0_0_n_n.lhsBatch by decide), dif_pos (show (0 : Fin S1x16.rank) ∈ dot_S1x16_S4096x16_S1x4096_1_1_0_0_n_n.lhsNonContracting by decide)]
  rfl
theorem lhs_pz_1 (i : S1x4096.Idx) (q : dot_S1x16_S4096x16_S1x4096_1_1_0_0_n_n.contr.Idx) :
    (dot_S1x16_S4096x16_S1x4096_1_1_0_0_n_n.lhsIdx i q 1).val = (q ⟨0, by decide⟩).val :=
  dot_S1x16_S4096x16_S1x4096_1_1_0_0_n_n.lhsIdx_val_of_single rfl i q
theorem rhs_pz_0 (i : S1x4096.Idx) (q : dot_S1x16_S4096x16_S1x4096_1_1_0_0_n_n.contr.Idx) :
    (dot_S1x16_S4096x16_S1x4096_1_1_0_0_n_n.rhsIdx i q 0).val = (i 1).val := by
  unfold DotDims.rhsIdx
  rw [dif_neg (show ¬(0 : Fin S4096x16.rank) ∈ dot_S1x16_S4096x16_S1x4096_1_1_0_0_n_n.rhsBatch by decide), dif_pos (show (0 : Fin S4096x16.rank) ∈ dot_S1x16_S4096x16_S1x4096_1_1_0_0_n_n.rhsNonContracting by decide)]
  rfl
theorem rhs_pz_1 (i : S1x4096.Idx) (q : dot_S1x16_S4096x16_S1x4096_1_1_0_0_n_n.contr.Idx) :
    (dot_S1x16_S4096x16_S1x4096_1_1_0_0_n_n.rhsIdx i q 1).val = (q ⟨0, by decide⟩).val :=
  dot_S1x16_S4096x16_S1x4096_1_1_0_0_n_n.rhsIdx_val_of_single rfl i q

theorem matmul_pz_apply (x : FVec Ideal S1x16 .f32) (y : FVec Ideal S4096x16 .f32) (r : Fin 1) (c : Fin 4096) :
    matmul dot_S1x16_S4096x16_S1x4096_1_1_0_0_n_n none x y (constant (F := Ideal) S1x4096 .f32 0x00000000#32) (ix2 r c)
      = ∑ l : Fin 16, x (ix2 r l) * y (ix2 c l) := by
  simp only [matmul]
  rw [Ideal.matmul_constant_zero_apply, ← Equiv.sum_comp (contrEquiv1 dot_S1x16_S4096x16_S1x4096_1_1_0_0_n_n 16 rfl rfl).symm]
  refine Finset.sum_congr rfl fun l _ => ?_
  have hl := contrEquiv1_symm_val dot_S1x16_S4096x16_S1x4096_1_1_0_0_n_n 16 rfl rfl l
  have el : dot_S1x16_S4096x16_S1x4096_1_1_0_0_n_n.lhsIdx (ix2 r c) ((contrEquiv1 dot_S1x16_S4096x16_S1x4096_1_1_0_0_n_n 16 rfl rfl).symm l) = ix2 r l := funext fun a => Fin.ext (by
    match a with
    | ⟨0, _⟩ => exact lhs_pz_0 _ _
    | ⟨1, _⟩ => exact (lhs_pz_1 _ _).trans hl)
  have er : dot_S1x16_S4096x16_S1x4096_1_1_0_0_n_n.rhsIdx (ix2 r c) ((contrEquiv1 dot_S1x16_S4096x16_S1x4096_1_1_0_0_n_n 16 rfl rfl).symm l) = ix2 c l := funext fun a => Fin.ext (by
    match a with
    | ⟨0, _⟩ => exact rhs_pz_0 _ _
    | ⟨1, _⟩ => exact (rhs_pz_1 _ _).trans hl)
  rw [el, er]

theorem lhs_xw_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhs_xw_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhs_xw_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhs_xw_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

theorem matmul_xw_apply (x : FVec Ideal S2048x128 .f32) (y : FVec Ideal S128x128 .f32) (r : Fin 2048) (c : Fin 128) :
    matmul dot_S2048x128_S128x128_S2048x128_1_0_0_1_n_n none x y (constant (F := Ideal) S2048x128 .f32 0x00000000#32) (ix2 r c)
      = ∑ l : Fin 128, x (ix2 r l) * y (ix2 l c) := by
  simp only [matmul]
  rw [Ideal.matmul_constant_zero_apply, ← Equiv.sum_comp (contrEquiv1 dot_S2048x128_S128x128_S2048x128_1_0_0_1_n_n 128 rfl rfl).symm]
  refine Finset.sum_congr rfl fun l _ => ?_
  have hl := contrEquiv1_symm_val dot_S2048x128_S128x128_S2048x128_1_0_0_1_n_n 128 rfl rfl l
  have el : dot_S2048x128_S128x128_S2048x128_1_0_0_1_n_n.lhsIdx (ix2 r c) ((contrEquiv1 dot_S2048x128_S128x128_S2048x128_1_0_0_1_n_n 128 rfl rfl).symm l) = ix2 r l := funext fun a => Fin.ext (by
    match a with
    | ⟨0, _⟩ => exact lhs_xw_0 _ _
    | ⟨1, _⟩ => exact (lhs_xw_1 _ _).trans hl)
  have er : dot_S2048x128_S128x128_S2048x128_1_0_0_1_n_n.rhsIdx (ix2 r c) ((contrEquiv1 dot_S2048x128_S128x128_S2048x128_1_0_0_1_n_n 128 rfl rfl).symm l) = ix2 l c := funext fun a => Fin.ext (by
    match a with
    | ⟨0, _⟩ => exact (rhs_xw_0 _ _).trans hl
    | ⟨1, _⟩ => exact rhs_xw_1 _ _)
  rw [el, er]

theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem sqrt_apply {s : Shape} {φ : FTy} (a : FVec Ideal s φ) (i : s.Idx) : sqrt a i = Ideal.sqrt (a i) := rfl

theorem rowSum_2048x128 (src : FVec Ideal S2048x128 .f32) (hφ : FKind.Formats .f32)
    (hacc : (0x00000000#32 : BitVec 32) = 0x00000000#32) (n : Fin 2048) :
    multiReduction (F := Ideal) .add [1] S2048 src 0x00000000#32 reduces_S2048x128_S2048 hφ hacc (ix1 n)
      = ∑ k : Fin 128, src (ix2 n k) := by
  refine (Ideal.multiReduction_add_single src 0x00000000#32 reduces_S2048x128_S2048 hφ hacc (ix1 n)).trans ?_
  show ∑ k : Fin 128, src (reduces_S2048x128_S2048.lift (ix1 n) k) = _
  refine Finset.sum_congr rfl fun k _ => congrArg src (funext fun c => Fin.ext ?_)
  match c with
  | ⟨0, _⟩ => rfl
  | ⟨1, _⟩ => rfl

theorem k0_d_spec (p : Vec Ideal S1x16 .f32) (z : Vec Ideal S4096x16 .f32) (e : Fin 4096) :
    k0_pay2 (F := Ideal) z p (ix2 0 e) = Cert.Spec.dvec (Cert.Spec.m2 z) (Cert.Spec.row p) e := by
  unfold k0_pay2
  rw [matmul_pz_apply]
  exact Finset.sum_congr rfl fun l _ => mul_comm _ _

theorem k0_hw_spec (x : Vec Ideal S2048x128 .f32) (w : Vec Ideal S128x128 .f32) (n : Fin 2048) (f : Fin 128) :
    k0_pay3 (F := Ideal) x w (ix2 n f) = Cert.Spec.mm (Cert.Spec.m2 x) (Cert.Spec.m2 w) n f := by
  unfold k0_pay3
  rw [matmul_xw_apply]
  rfl

theorem k0_f1_spec (x : Vec Ideal S2048x128 .f32) (fw : Vec Ideal S128x128 .f32) (g be : Vec Ideal S1x128 .f32)
    (n : Fin 2048) (f : Fin 128) :
    k0_pay1 (F := Ideal) (k0_pay4 g) (k0_pay5 be) (k0_pay6 x fw) (ix2 n f)
      = Cert.Spec.reluM (Cert.Spec.layernorm Cert.Spec.len128 (Cert.Spec.mm (Cert.Spec.m2 x) (Cert.Spec.m2 fw)) (Cert.Spec.row g) (Cert.Spec.row be)) n f := by
  have hm : Cert.Spec.mm (Cert.Spec.m2 x) (Cert.Spec.m2 fw)
      = Cert.Spec.m2 (matmul dot_S2048x128_S128x128_S2048x128_1_0_0_1_n_n none x fw (constant (F := Ideal) S2048x128 .f32 0x00000000#32)) :=
    funext fun a => funext fun b => (matmul_xw_apply x fw a b).symm
  rw [hm]
  unfold k0_pay1 k0_pay4 k0_pay5 k0_pay6
  simp only [maximumf_apply, addf_apply, mulf_apply, divf_apply, subf_apply, broadcast_apply, sqrt_apply,
    broadcastTo_1b_ab_apply, broadcastTo_a1_ab_apply, shapeCast_self, shapeCast_a_a1_apply]
  generalize matmul dot_S2048x128_S128x128_S2048x128_1_0_0_1_n_n none x fw (constant (F := Ideal) S2048x128 .f32 0x00000000#32) = H
  rw [rowSum_2048x128 H, rowSum_2048x128]
  simp only [mulf_apply, divf_apply, subf_apply, broadcast_apply, broadcastTo_a1_ab_apply, shapeCast_a_a1_apply]
  rw [rowSum_2048x128 H]
  have h0 : (FloatOps.ofBits (F := Ideal) .f32 0x00000000#32) = 0 := Ideal.ofBits_zero_f32
  rw [h0]
  rfl

end Cert.KernelIdeal.PayVal

end
-- ==== Proof.KI.Val0.lean ====
import proofs.«109581_g76012331204772_cont_9to1_m_125_6_alg».proof.Proof.KI.Reg0
import proofs.«109581_g76012331204772_cont_9to1_m_125_6_alg».proof.Proof.KI.Pay0
import proofs.«109581_g76012331204772_cont_9to1_m_125_6_alg».proof.Proof.Spec
import Idealize.ShloMosaic.Lib.Pipeline.Value
import Idealize.ShloMosaic.Lib.ValueIdx

set_option maxRecDepth 16384

noncomputable section

namespace Cert.KernelIdeal.HandVal

open Cert.KernelIdeal Cert.KernelIdeal.Gen Cert.KernelIdeal.Hand Cert.KernelIdeal.PayVal
open Idealize.ShloMosaic Idealize.ShloMosaic.TcCoe Idealize.SL.Sem Idealize.ShloMosaic.ValueIdx
open Idealize.ShloMosaic.Pipeline (Dat)

theorem hz0 : (![0, 0] : Fin 2 → Nat) = fun _ => 0 := funext fun a => by fin_cases a <;> rfl

section Generic

variable {F : FTy → Type} [FloatOps F]
variable (V : (c : Dev nD) → (b : Ref sig .tc) → Buf (Elt F) ((c : Thread nD τ).loc b))

theorem iblk0_0_eq (c : Dev nD) (t : Fin cfg0.N) : iblk0 V c 0 t = V c main_arg0 := by
  have hz' : (fun a => win0_0.index t a * main_arg0.ty.shape.size a) = fun _ => 0 := funext fun a => Nat.zero_mul _
  unfold iblk0
  exact Memref.read_access_unit_zero (Elt F) main_arg0 hz' (fun a => by rw [congrFun hz' a]; simp) (V c main_arg0)

theorem iblk0_1_eq (c : Dev nD) (t : Fin cfg0.N) : iblk0 V c 1 t = V c main_arg1 := by
  have hz' : (fun a => win0_1.index t a * main_arg1.ty.shape.size a) = fun _ => 0 := funext fun a => Nat.zero_mul _
  unfold iblk0
  exact Memref.read_access_unit_zero (Elt F) main_arg1 hz' (fun a => by rw [congrFun hz' a]; simp) (V c main_arg1)

theorem iblk0_2_eq (c : Dev nD) (t : Fin cfg0.N) : iblk0 V c 2 t = V c main_arg5 := by
  have hz' : (fun a => win0_2.index t a * main_arg5.ty.shape.size a) = fun _ => 0 := funext fun a => Nat.zero_mul _
  unfold iblk0
  exact Memref.read_access_unit_zero (Elt F) main_arg5 hz' (fun a => by rw [congrFun hz' a]; simp) (V c main_arg5)

theorem iblk0_3_eq (c : Dev nD) (t : Fin cfg0.N) : iblk0 V c 3 t = V c main_arg6 := by
  have hz' : (fun a => win0_3.index t a * main_arg6.ty.shape.size a) = fun _ => 0 := funext fun a => Nat.zero_mul _
  unfold iblk0
  exact Memref.read_access_unit_zero (Elt F) main_arg6 hz' (fun a => by rw [congrFun hz' a]; simp) (V c main_arg6)

theorem iblk0_4_eq (c : Dev nD) (t : Fin cfg0.N) : iblk0 V c 4 t = V c main_arg8 := by
  have hz' : (fun a => win0_4.index t a * main_arg8.ty.shape.size a) = fun _ => 0 := funext fun a => Nat.zero_mul _
  unfold iblk0
  exact Memref.read_access_unit_zero (Elt F) main_arg8 hz' (fun a => by rw [congrFun hz' a]; simp) (V c main_arg8)

theorem iblk0_5_eq (c : Dev nD) (t : Fin cfg0.N) : iblk0 V c 5 t = V c main_v1 := by
  have hz' : (fun a => win0_5.index t a * main_v1.ty.shape.size a) = fun _ => 0 := funext fun a => Nat.zero_mul _
  unfold iblk0
  exact Memref.read_access_unit_zero (Elt F) main_v1 hz' (fun a => by rw [congrFun hz' a]; simp) (V c main_v1)

theorem iblk0_6_eq (c : Dev nD) (t : Fin cfg0.N) : iblk0 V c 6 t = V c main_v2 := by
  have hz' : (fun a => win0_6.index t a * main_v2.ty.shape.size a) = fun _ => 0 := funext fun a => Nat.zero_mul _
  unfold iblk0
  exact Memref.read_access_unit_zero (Elt F) main_v2 hz' (fun a => by rw [congrFun hz' a]; simp) (V c main_v2)

abbrev G0_d (c : Dev nD) : Buf (Elt F) ((c : Thread nD τ).loc main_v3_0) :=
  k0_pay2 (F := F) (V c main_arg1 : Vec F S4096x16 .f32) (V c main_arg6 : Vec F S1x16 .f32)

abbrev G0_hw (c : Dev nD) : Buf (Elt F) ((c : Thread nD τ).loc main_v3_1) :=
  k0_pay3 (F := F) (V c main_arg0 : Vec F S2048x128 .f32) (V c main_arg5 : Vec F S128x128 .f32)

abbrev G0_f1 (c : Dev nD) : Buf (Elt F) ((c : Thread nD τ).loc main_v3_2) :=
  k0_pay1 (F := F) (k0_pay4 (V c main_v1 : Vec F S1x128 .f32)) (k0_pay5 (V c main_v2 : Vec F S1x128 .f32))
    (k0_pay6 (V c main_arg0 : Vec F S2048x128 .f32) (V c main_arg8 : Vec F S128x128 .f32))

theorem flushed0_d (c : Dev nD) (t : Fin cfg0.N) :
    (dat0 V c).flushed 7 t = ((cfg0.win 7).blk t).view.read (Elt F) (G0_d V c) := by
  have hz' : (fun a => win0_7.index t a * main_v3_0.ty.shape.size a) = fun _ => 0 := funext fun a => Nat.zero_mul _
  show (cfg0.win 7).cut (grid0.coords t) ((dat0 V c).after 7 t) = _
  rw [after0_7]
  unfold out0_7
  rw [View.canon_unit_zero hz0]
  simp only [View.ld_unit_zero (S := S4096x16) hz0, View.ld_unit_zero (S := S1x16) hz0]
  rw [iblk0_1_eq, iblk0_3_eq]
  exact (Memref.read_access_unit_zero (Elt F) main_v3_0 hz' (fun a => by rw [congrFun hz' a]; simp) (G0_d V c)).symm

theorem final0_d (c : Dev nD) : (dat0 V c).arrAt 7 cfg0.N = G0_d V c :=
  (dat0 V c).arrAt_eq_of_cover 7 (G0_d V c) (fun t _ => flushed0_d V c t) fun i =>
    ⟨t0_0, flush0_7 t0_0, by
      show i ∈ ((View.whole main_v3_0).slice (win0_7.rect t0_0)).set
      rw [View.set_slice_whole, Rect.mem_set_unit]
      intro a
      have h0 : (i 0 : Nat) < 1 := (i 0).isLt
      have h1 : (i 1 : Nat) < 4096 := (i 1).isLt
      match a with
      | ⟨0, _⟩ => show win0_7.index t0_0 0 * win0_7.size 0 ≤ (i 0 : Nat) ∧ (i 0 : Nat) < win0_7.index t0_0 0 * win0_7.size 0 + win0_7.xsize (grid0.coords t0_0) 0
                  rw [show win0_7.index t0_0 0 * win0_7.size 0 = 0 from Nat.zero_mul _, show win0_7.xsize (grid0.coords t0_0) 0 = 1 from rfl]; omega
      | ⟨1, _⟩ => show win0_7.index t0_0 1 * win0_7.size 1 ≤ (i 1 : Nat) ∧ (i 1 : Nat) < win0_7.index t0_0 1 * win0_7.size 1 + win0_7.xsize (grid0.coords t0_0) 1
                  rw [show win0_7.index t0_0 1 * win0_7.size 1 = 0 from Nat.zero_mul _, show win0_7.xsize (grid0.coords t0_0) 1 = 4096 from rfl]; omega⟩

theorem flushed0_hw (c : Dev nD) (t : Fin cfg0.N) :
    (dat0 V c).flushed 8 t = ((cfg0.win 8).blk t).view.read (Elt F) (G0_hw V c) := by
  have hz' : (fun a => win0_8.index t a * main_v3_1.ty.shape.size a) = fun _ => 0 := funext fun a => Nat.zero_mul _
  show (cfg0.win 8).cut (grid0.coords t) ((dat0 V c).after 8 t) = _
  rw [after0_8]
  unfold out0_8
  rw [View.canon_unit_zero hz0]
  simp only [View.ld_unit_zero (S := S2048x128) hz0, View.ld_unit_zero (S := S128x128) hz0]
  rw [iblk0_0_eq, iblk0_2_eq]
  exact (Memref.read_access_unit_zero (Elt F) main_v3_1 hz' (fun a => by rw [congrFun hz' a]; simp) (G0_hw V c)).symm

theorem final0_hw (c : Dev nD) : (dat0 V c).arrAt 8 cfg0.N = G0_hw V c :=
  (dat0 V c).arrAt_eq_of_cover 8 (G0_hw V c) (fun t _ => flushed0_hw V c t) fun i =>
    ⟨t0_0, flush0_8 t0_0, by
      show i ∈ ((View.whole main_v3_1).slice (win0_8.rect t0_0)).set
      rw [View.set_slice_whole, Rect.mem_set_unit]
      intro a
      have h0 : (i 0 : Nat) < 2048 := (i 0).isLt
      have h1 : (i 1 : Nat) < 128 := (i 1).isLt
      match a with
      | ⟨0, _⟩ => show win0_8.index t0_0 0 * win0_8.size 0 ≤ (i 0 : Nat) ∧ (i 0 : Nat) < win0_8.index t0_0 0 * win0_8.size 0 + win0_8.xsize (grid0.coords t0_0) 0
                  rw [show win0_8.index t0_0 0 * win0_8.size 0 = 0 from Nat.zero_mul _, show win0_8.xsize (grid0.coords t0_0) 0 = 2048 from rfl]; omega
      | ⟨1, _⟩ => show win0_8.index t0_0 1 * win0_8.size 1 ≤ (i 1 : Nat) ∧ (i 1 : Nat) < win0_8.index t0_0 1 * win0_8.size 1 + win0_8.xsize (grid0.coords t0_0) 1
                  rw [show win0_8.index t0_0 1 * win0_8.size 1 = 0 from Nat.zero_mul _, show win0_8.xsize (grid0.coords t0_0) 1 = 128 from rfl]; omega⟩

theorem flushed0_f1 (c : Dev nD) (t : Fin cfg0.N) :
    (dat0 V c).flushed 9 t = ((cfg0.win 9).blk t).view.read (Elt F) (G0_f1 V c) := by
  have hz' : (fun a => win0_9.index t a * main_v3_2.ty.shape.size a) = fun _ => 0 := funext fun a => Nat.zero_mul _
  show (cfg0.win 9).cut (grid0.coords t) ((dat0 V c).after 9 t) = _
  rw [after0_9]
  unfold out0_9
  rw [View.canon_unit_zero hz0]
  simp only [View.ld_unit_zero (S := S2048x128) hz0, View.ld_unit_zero (S := S128x128) hz0, View.ld_unit_zero (S := S1x128) hz0]
  rw [iblk0_0_eq, iblk0_4_eq, iblk0_5_eq, iblk0_6_eq]
  exact (Memref.read_access_unit_zero (Elt F) main_v3_2 hz' (fun a => by rw [congrFun hz' a]; simp) (G0_f1 V c)).symm

theorem final0_f1 (c : Dev nD) : (dat0 V c).arrAt 9 cfg0.N = G0_f1 V c :=
  (dat0 V c).arrAt_eq_of_cover 9 (G0_f1 V c) (fun t _ => flushed0_f1 V c t) fun i =>
    ⟨t0_0, flush0_9 t0_0, by
      show i ∈ ((View.whole main_v3_2).slice (win0_9.rect t0_0)).set
      rw [View.set_slice_whole, Rect.mem_set_unit]
      intro a
      have h0 : (i 0 : Nat) < 2048 := (i 0).isLt
      have h1 : (i 1 : Nat) < 128 := (i 1).isLt
      match a with
      | ⟨0, _⟩ => show win0_9.index t0_0 0 * win0_9.size 0 ≤ (i 0 : Nat) ∧ (i 0 : Nat) < win0_9.index t0_0 0 * win0_9.size 0 + win0_9.xsize (grid0.coords t0_0) 0
                  rw [show win0_9.index t0_0 0 * win0_9.size 0 = 0 from Nat.zero_mul _, show win0_9.xsize (grid0.coords t0_0) 0 = 2048 from rfl]; omega
      | ⟨1, _⟩ => show win0_9.index t0_0 1 * win0_9.size 1 ≤ (i 1 : Nat) ∧ (i 1 : Nat) < win0_9.index t0_0 1 * win0_9.size 1 + win0_9.xsize (grid0.coords t0_0) 1
                  rw [show win0_9.index t0_0 1 * win0_9.size 1 = 0 from Nat.zero_mul _, show win0_9.xsize (grid0.coords t0_0) 1 = 128 from rfl]; omega⟩

end Generic

section AtIdeal

variable (V : (c : Dev nD) → (b : Ref sig .tc) → Buf (Elt Ideal) ((c : Thread nD τ).loc b))

theorem val0_d (c : Dev nD) (e : Fin 4096) :
    ((dat0 V c).arrAt 7 cfg0.N : S1x4096.Idx → EReal) (ix2 0 e)
      = Cert.Spec.dvec (Cert.Spec.m2 (V c (Pipeline.arrRef spec0 1) : S4096x16.Idx → EReal)) (Cert.Spec.row (V c (Pipeline.arrRef spec0 3) : S1x16.Idx → EReal)) e := by
  rw [final0_d]
  exact k0_d_spec _ _ e

theorem val0_hw (c : Dev nD) (n : Fin 2048) (f : Fin 128) :
    ((dat0 V c).arrAt 8 cfg0.N : S2048x128.Idx → EReal) (ix2 n f)
      = Cert.Spec.mm (Cert.Spec.m2 (V c (Pipeline.arrRef spec0 0) : S2048x128.Idx → EReal)) (Cert.Spec.m2 (V c (Pipeline.arrRef spec0 2) : S128x128.Idx → EReal)) n f := by
  rw [final0_hw]
  exact k0_hw_spec _ _ n f

theorem val0_f1 (c : Dev nD) (n : Fin 2048) (f : Fin 128) :
    ((dat0 V c).arrAt 9 cfg0.N : S2048x128.Idx → EReal) (ix2 n f)
      = Cert.Spec.reluM (Cert.Spec.layernorm Cert.Spec.len128
          (Cert.Spec.mm (Cert.Spec.m2 (V c (Pipeline.arrRef spec0 0) : S2048x128.Idx → EReal)) (Cert.Spec.m2 (V c (Pipeline.arrRef spec0 4) : S128x128.Idx → EReal)))
          (Cert.Spec.row (V c (Pipeline.arrRef spec0 5) : S1x128.Idx → EReal)) (Cert.Spec.row (V c (Pipeline.arrRef spec0 6) : S1x128.Idx → EReal))) n f := by
  rw [final0_f1]
  exact k0_f1_spec _ _ _ _ n f

end AtIdeal

end Cert.KernelIdeal.HandVal

end
-- ==== Proof.KI.Pay1.lean ====
import proofs.«109581_g76012331204772_cont_9to1_m_125_6_alg».proof.Proof.Gen.KernelIdeal.Skeleton
import proofs.«109581_g76012331204772_cont_9to1_m_125_6_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

theorem word_diag (k r c : ℕ) (hk : k < 16) (hr : r < 4096) (hc : c < 256) :
    (BitVec.ofNat 32 r = BitVec.ofNat 32 c + BitVec.ofNat 32 k * 256#32) ↔ r = k * 256 + c := by
  constructor
  · intro h
    have h' := congrArg BitVec.toNat h
    simp only [BitVec.toNat_add, BitVec.toNat_mul, BitVec.toNat_ofNat] at h'
    omega
  · rintro rfl
    apply BitVec.eq_of_toNat_eq
    simp only [BitVec.toNat_add, BitVec.toNat_mul, BitVec.toNat_ofNat]
    omega

theorem select_diag {α : Type} (k r c : ℕ) (hk : k < 16) (hr : r < 4096) (hc : c < 256) (A B : α) :
    Scalar.select (IntOp.cmpi .eq (BitVec.ofNat 32 r) (IntOp.addi (BitVec.ofNat 32 c) (Scalar.muli (BitVec.ofNat 32 k) 256#32))) A B
      = if r = k * 256 + c then A else B := by
  unfold Scalar.select IntOp.cmpi IntOp.addi Scalar.muli IntOp.muli
  by_cases h : r = k * 256 + c
  · rw [if_pos h, if_pos]
    have := (word_diag k r c hk hr hc).mpr h
    simp [this]
  · rw [if_neg h, if_neg]
    have := mt (word_diag k r c hk hr hc).mp h
    rw [beq_eq_false_iff_ne.mpr this]
    show ¬BitVec.ofBool false = 1#1
    decide

theorem lhsA_0 (i : S2048x256.Idx) (q : dot_S2048x4096_S256x4096_S2048x256_1_1_0_0_n_n.contr.Idx) :
    (dot_S2048x4096_S256x4096_S2048x256_1_1_0_0_n_n.lhsIdx i q 0).val = (i 0).val := by
  unfold DotDims.lhsIdx
  rw [dif_neg (show ¬(0 : Fin S2048x4096.rank) ∈ dot_S2048x4096_S256x4096_S2048x256_1_1_0_0_n_n.lhsBatch by decide), dif_pos (show (0 : Fin S2048x4096.rank) ∈ dot_S2048x4096_S256x4096_S2048x256_1_1_0_0_n_n.lhsNonContracting by decide)]
  rfl
theorem lhsA_1 (i : S2048x256.Idx) (q : dot_S2048x4096_S256x4096_S2048x256_1_1_0_0_n_n.contr.Idx) :
    (dot_S2048x4096_S256x4096_S2048x256_1_1_0_0_n_n.lhsIdx i q 1).val = (q ⟨0, by decide⟩).val :=
  dot_S2048x4096_S256x4096_S2048x256_1_1_0_0_n_n.lhsIdx_val_of_single rfl i q
theorem rhsA_0 (i : S2048x256.Idx) (q : dot_S2048x4096_S256x4096_S2048x256_1_1_0_0_n_n.contr.Idx) :
    (dot_S2048x4096_S256x4096_S2048x256_1_1_0_0_n_n.rhsIdx i q 0).val = (i 1).val := by
  unfold DotDims.rhsIdx
  rw [dif_neg (show ¬(0 : Fin S256x4096.rank) ∈ dot_S2048x4096_S256x4096_S2048x256_1_1_0_0_n_n.rhsBatch by decide), dif_pos (show (0 : Fin S256x4096.rank) ∈ dot_S2048x4096_S256x4096_S2048x256_1_1_0_0_n_n.rhsNonContracting by decide)]
  rfl
theorem rhsA_1 (i : S2048x256.Idx) (q : dot_S2048x4096_S256x4096_S2048x256_1_1_0_0_n_n.contr.Idx) :
    (dot_S2048x4096_S256x4096_S2048x256_1_1_0_0_n_n.rhsIdx i q 1).val = (q ⟨0, by decide⟩).val :=
  dot_S2048x4096_S256x4096_S2048x256_1_1_0_0_n_n.rhsIdx_val_of_single rfl i q

theorem matmulA_apply (x : FVec Ideal S2048x4096 .f32) (y : FVec Ideal S256x4096 .f32) (r : Fin 2048) (c : Fin 256) :
    matmul dot_S2048x4096_S256x4096_S2048x256_1_1_0_0_n_n none x y (constant (F := Ideal) S2048x256 .f32 0x00000000#32) (ix2 r c)
      = ∑ j : Fin 4096, x (ix2 r j) * y (ix2 c j) := by
  refine (Ideal.matmul_constant_zero_apply dot_S2048x4096_S256x4096_S2048x256_1_1_0_0_n_n none x y (ix2 r c)).trans ?_
  rw [← Equiv.sum_comp (contrEquiv1 dot_S2048x4096_S256x4096_S2048x256_1_1_0_0_n_n 4096 rfl rfl).symm]
  refine Finset.sum_congr rfl fun k _ => ?_
  have hk := contrEquiv1_symm_val dot_S2048x4096_S256x4096_S2048x256_1_1_0_0_n_n 4096 rfl rfl k
  have el : dot_S2048x4096_S256x4096_S2048x256_1_1_0_0_n_n.lhsIdx (ix2 r c) ((contrEquiv1 dot_S2048x4096_S256x4096_S2048x256_1_1_0_0_n_n 4096 rfl rfl).symm k) = ix2 r k := funext fun a => Fin.ext (by
    match a with
    | ⟨0, _⟩ => exact lhsA_0 _ _
    | ⟨1, _⟩ => exact (lhsA_1 _ _).trans hk)
  have er : dot_S2048x4096_S256x4096_S2048x256_1_1_0_0_n_n.rhsIdx (ix2 r c) ((contrEquiv1 dot_S2048x4096_S256x4096_S2048x256_1_1_0_0_n_n 4096 rfl rfl).symm k) = ix2 c k := funext fun a => Fin.ext (by
    match a with
    | ⟨0, _⟩ => exact rhsA_0 _ _
    | ⟨1, _⟩ => exact (rhsA_1 _ _).trans hk)
  rw [el, er]

theorem lhsB_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhsB_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem rhsB_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem rhsB_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

theorem matmulB_apply (x : FVec Ideal S2048x256 .f32) (y : FVec Ideal S256x128 .f32) (r : Fin 2048) (f : Fin 128) :
    matmul dot_S2048x256_S256x128_S2048x128_1_0_0_1_n_n none x y (constant (F := Ideal) S2048x128 .f32 0x00000000#32) (ix2 r f)
      = ∑ c : Fin 256, x (ix2 r c) * y (ix2 c f) := by
  refine (Ideal.matmul_constant_zero_apply dot_S2048x256_S256x128_S2048x128_1_0_0_1_n_n none x y (ix2 r f)).trans ?_
  rw [← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 r f) ((contrEquiv1 dot_S2048x256_S256x128_S2048x128_1_0_0_1_n_n 256 rfl rfl).symm k) = ix2 r k := funext fun a => Fin.ext (by
    match a with
    | ⟨0, _⟩ => exact lhsB_0 _ _
    | ⟨1, _⟩ => exact (lhsB_1 _ _).trans hk)
  have er : dot_S2048x256_S256x128_S2048x128_1_0_0_1_n_n.rhsIdx (ix2 r f) ((contrEquiv1 dot_S2048x256_S256x128_S2048x128_1_0_0_1_n_n 256 rfl rfl).symm k) = ix2 k f := funext fun a => Fin.ext (by
    match a with
    | ⟨0, _⟩ => exact (rhsB_0 _ _).trans hk
    | ⟨1, _⟩ => exact rhsB_1 _ _)
  rw [el, er]

theorem k1_pay1_apply (i : grid1.Coords) (v2 : Vec Ideal S256x4096 .f32) (v3 : Vec Ideal S1x4096 .f32) (v7 : Vec Ideal S2048x4096 .f32)
    (v9 : Vec Ideal S2048x256 .f32) (v20 : Vec Ideal S256x128 .f32) (r : Fin 2048) (f : Fin 128) :
    k1_pay1 (F := Ideal) i v2 v3 v7 v9 v20 (ix2 r f)
      = ∑ c : Fin 256, (if r.val = (i 0).val * 256 + c.val then v9 (ix2 r c)
          else (∑ j : Fin 4096, v7 (ix2 r j) * (v2 (ix2 c j) * v3 (ix2 0 j))) * v9 (ix2 r c)) * v20 (ix2 c f) := by
  have hk : (i 0).val < 16 := Nat.lt_of_lt_of_le (i 0).isLt (by decide)
  unfold k1_pay1
  simp only [shapeCast_self]
  refine (matmulB_apply _ _ r f).trans ?_
  refine Finset.sum_congr rfl fun c _ => ?_
  refine congrArg (· * v20 (ix2 c f)) ?_
  rw [select_apply]
  show Scalar.select (IntOp.cmpi .eq (iota .tc S2048x256 32 [0] iota_S2048x256_d0_w32 (ix2 r c))
      (IntOp.addi (iota .tc S2048x256 32 [1] iota_S2048x256_d1_w32 (ix2 r c)) (Scalar.muli (BitVec.ofNat 32 (i 0).val) 256#32))) _ _ = _
  rw [iota_single_apply, iota_single_apply]
  refine (select_diag (i 0).val r.val c.val hk (Nat.lt_of_lt_of_le r.isLt (by decide)) c.isLt _ _).trans ?_
  by_cases h : r.val = (i 0).val * 256 + c.val
  · rw [if_pos h, if_pos h]
  · rw [if_neg h, if_neg h, mulf_apply, matmulA_apply]
    refine congrArg (· * v9 (ix2 r c)) (Finset.sum_congr rfl fun j _ => ?_)
    rw [mulf_apply, broadcastTo_1b_ab_apply]

theorem k1_pay2_apply (i : grid1.Coords) (v2 : Vec Ideal S256x4096 .f32) (v3 : Vec Ideal S1x4096 .f32) (v7 : Vec Ideal S2048x4096 .f32)
    (v9 : Vec Ideal S2048x256 .f32) (v20 : Vec Ideal S256x128 .f32) (v32 : Vec Ideal S1x128 .f32) (r : Fin 2048) (f : Fin 128) :
    k1_pay2 (F := Ideal) i v2 v3 v7 v9 v20 v32 (ix2 r f) = v32 (ix2 0 f) + k1_pay1 (F := Ideal) i v2 v3 v7 v9 v20 (ix2 r f) := by
  unfold k1_pay2
  simp only [shapeCast_self]
  rw [addf_apply, broadcastTo_1b_ab_apply]

theorem k1_pay3_apply (i : grid1.Coords) (v2 : Vec Ideal S256x4096 .f32) (v3 : Vec Ideal S1x4096 .f32) (v7 : Vec Ideal S2048x4096 .f32)
    (v9 : Vec Ideal S2048x256 .f32) (v20 : Vec Ideal S256x128 .f32) (v32 : Vec Ideal S2048x128 .f32) (r : Fin 2048) (f : Fin 128) :
    k1_pay3 (F := Ideal) i v2 v3 v7 v9 v20 v32 (ix2 r f) = v32 (ix2 r f) + k1_pay1 (F := Ideal) i v2 v3 v7 v9 v20 (ix2 r f) := by
  unfold k1_pay3
  simp only [shapeCast_self]
  rw [addf_apply]

theorem k1_pay4_apply (v32 : Vec Ideal S2048x128 .f32) (r : Fin 2048) (f : Fin 128) :
    k1_pay4 (F := Ideal) v32 (ix2 r f) = max (v32 (ix2 r f)) 0 := by
  unfold k1_pay4
  simp only [shapeCast_self]
  rw [maximumf_apply, broadcast_apply]
  exact congrArg (max (v32 (ix2 r f))) Ideal.ofBits_zero_f32

end Cert.KernelIdeal.PayVal

end
-- ==== Proof.Algebra.lean ====
import proofs.«109581_g76012331204772_cont_9to1_m_125_6_alg».proof.Proof.Spec
import Mathlib.Data.EReal.Basic
import Mathlib.Data.EReal.Operations
import Mathlib.Data.EReal.Inv
import Mathlib.Algebra.BigOperators.Fin
import Mathlib.Data.Fintype.BigOperators
import Mathlib.Logic.Equiv.Fin.Basic

noncomputable section

open scoped BigOperators

namespace Cert.Algebra

open Cert.Spec

theorem one_sub_one : (1 : EReal) - 1 = 0 := by
  have h : (((1 : ℝ) - (1 : ℝ) : ℝ) : EReal) = ((1 : ℝ) : EReal) - ((1 : ℝ) : EReal) := EReal.coe_sub 1 1
  rw [sub_self] at h
  exact h.symm

theorem mask_one (x adj : EReal) : (1 + (1 - 1) * x) * adj = adj := by
  rw [one_sub_one, zero_mul, add_zero, one_mul]

theorem mask_zero (x adj : EReal) : (0 + (1 - 0) * x) * adj = x * adj := by
  rw [sub_zero, one_mul, zero_add]

def mask {R : ℕ} (r c : Fin R) : EReal := if r = c then 1 else 0

theorem mask_self {R : ℕ} (r : Fin R) : mask r r = 1 := if_pos rfl

theorem mask_ne {R : ℕ} {r c : Fin R} (h : r ≠ c) : mask r c = 0 := if_neg h

theorem mask_mul {R : ℕ} (r c : Fin R) (mu adj : EReal) :
    (mask r c + (1 - mask r c) * mu) * adj = if r = c then adj else mu * adj := by
  by_cases h : r = c
  · rw [if_pos h, h, mask_self]; exact mask_one mu adj
  · rw [if_neg h, mask_ne h]; exact mask_zero mu adj

theorem mask_coef {R K : ℕ} (Tm : Mat R K) (d : Fin K → EReal) (adj : Mat R R) (r c : Fin R) :
    (mask r c + (1 - mask r c) * mult Tm d r c) * adj r c = coef Tm d adj r c := by
  rw [mask_mul]; rfl

theorem mul_regroup (a b c : EReal) : a * (b * c) = a * c * b := by
  rw [mul_comm b c, mul_assoc]

theorem sum_regroup_eq_mult {R K : ℕ} (Tm : Mat R K) (d : Fin K → EReal) (r c : Fin R) :
    (∑ j, Tm r j * (Tm c j * d j)) = mult Tm d r c :=
  Finset.sum_congr rfl fun j _ => mul_regroup (Tm r j) (Tm c j) (d j)

def coefK {R K : ℕ} (Tm : Mat R K) (d : Fin K → EReal) (adj : Mat R R) : Mat R R :=
  fun r c => if r = c then adj r c else (∑ j, Tm r j * (Tm c j * d j)) * adj r c

theorem coefK_apply {R K : ℕ} (Tm : Mat R K) (d : Fin K → EReal) (adj : Mat R R) (r c : Fin R) :
    coefK Tm d adj r c = if r = c then adj r c else (∑ j, Tm r j * (Tm c j * d j)) * adj r c := rfl

theorem coefK_eq_coef_apply {R K : ℕ} (Tm : Mat R K) (d : Fin K → EReal) (adj : Mat R R) (r c : Fin R) :
    coefK Tm d adj r c = coef Tm d adj r c := by
  rw [coefK_apply, sum_regroup_eq_mult]; rfl

theorem coefK_eq_coef {R K : ℕ} (Tm : Mat R K) (d : Fin K → EReal) (adj : Mat R R) :
    coefK Tm d adj = coef Tm d adj := by
  funext r c; exact coefK_eq_coef_apply Tm d adj r c

theorem block_lt {nb bn k c : ℕ} (hk : k < nb) (hc : c < bn) : k * bn + c < nb * bn :=
  calc k * bn + c < k * bn + bn := Nat.add_lt_add_left hc _
    _ = (k + 1) * bn := (Nat.succ_mul k bn).symm
    _ ≤ nb * bn := Nat.mul_le_mul_right bn hk

def blockSum {nb bn : ℕ} (s : Fin (nb * bn) → EReal) (k : Fin nb) : EReal :=
  ∑ c : Fin bn, s ⟨k.val * bn + c.val, block_lt k.isLt c.isLt⟩

theorem sum_eq_sum_blockSum {nb bn : ℕ} (s : Fin (nb * bn) → EReal) :
    (∑ i, s i) = ∑ k : Fin nb, blockSum s k := by
  rw [← (finProdFinEquiv (m := nb) (n := bn)).sum_comp s, Fintype.sum_prod_type]
  refine Finset.sum_congr rfl fun k _ => Finset.sum_congr rfl fun c _ => ?_
  congr 1
  apply Fin.ext
  show c.val + bn * k.val = k.val * bn + c.val
  rw [Nat.mul_comm, Nat.add_comm]

theorem acc_eq_add_sum_range (b : EReal) (blk acc : ℕ → EReal) (nb : ℕ)
    (h0 : acc 0 = b + blk 0) (hs : ∀ k, k + 1 < nb → acc (k + 1) = acc k + blk (k + 1)) :
    ∀ n, n < nb → acc n = b + ∑ k ∈ Finset.range (n + 1), blk k := by
  intro n
  induction n with
  | zero => intro _; rw [h0, Finset.sum_range_one]
  | succ n ih =>
    intro hn
    rw [hs n hn, ih (Nat.lt_of_succ_lt hn), Finset.sum_range_succ _ (n + 1), add_assoc]

theorem acc_last {nb bn R : ℕ} (hR : R = nb * bn) (hnb : 0 < nb) (s : Fin R → EReal) (b : EReal)
    (acc blk : ℕ → EReal)
    (hblk : ∀ k (hk : k < nb),
      blk k = ∑ c : Fin bn, s ⟨k * bn + c.val, lt_of_lt_of_eq (block_lt hk c.isLt) hR.symm⟩)
    (h0 : acc 0 = b + blk 0)
    (hs : ∀ k, k + 1 < nb → acc (k + 1) = acc k + blk (k + 1)) :
    acc (nb - 1) = (∑ i, s i) + b := by
  subst hR
  rw [acc_eq_add_sum_range b blk acc nb h0 hs (nb - 1) (Nat.sub_lt hnb Nat.one_pos),
    Nat.sub_add_cancel hnb, Finset.sum_range, sum_eq_sum_blockSum, add_comm]
  congr 1
  exact Finset.sum_congr rfl fun k _ => hblk k.val k.isLt

theorem acc_last_2048 (s : Fin 2048 → EReal) (b : EReal) (acc blk : ℕ → EReal)
    (hblk : ∀ k (hk : k < 8), blk k = ∑ c : Fin 256, s ⟨k * 256 + c.val, by have := c.isLt; omega⟩)
    (h0 : acc 0 = b + blk 0)
    (hs : ∀ k, k + 1 < 8 → acc (k + 1) = acc k + blk (k + 1)) :
    acc 7 = (∑ i, s i) + b :=
  acc_last (nb := 8) (bn := 256) (R := 2048) rfl (by decide) s b acc blk hblk h0 hs

theorem acc_last_4096 (s : Fin 4096 → EReal) (b : EReal) (acc blk : ℕ → EReal)
    (hblk : ∀ k (hk : k < 16), blk k = ∑ c : Fin 256, s ⟨k * 256 + c.val, by have := c.isLt; omega⟩)
    (h0 : acc 0 = b + blk 0)
    (hs : ∀ k, k + 1 < 16 → acc (k + 1) = acc k + blk (k + 1)) :
    acc 15 = (∑ i, s i) + b :=
  acc_last (nb := 16) (bn := 256) (R := 4096) rfl (by decide) s b acc blk hblk h0 hs

theorem gc_of_blocks {nb bn R K W : ℕ} (hR : R = nb * bn) (hnb : 0 < nb)
    (Tm : Mat R K) (d : Fin K → EReal) (adj : Mat R R) (HW : Mat R W) (b : Fin W → EReal)
    (r : Fin R) (f : Fin W) (acc blk : ℕ → EReal)
    (hblk : ∀ k (hk : k < nb),
      blk k = ∑ c : Fin bn,
        coefK Tm d adj r ⟨k * bn + c.val, lt_of_lt_of_eq (block_lt hk c.isLt) hR.symm⟩
          * HW ⟨k * bn + c.val, lt_of_lt_of_eq (block_lt hk c.isLt) hR.symm⟩ f)
    (h0 : acc 0 = b f + blk 0)
    (hs : ∀ k, k + 1 < nb → acc (k + 1) = acc k + blk (k + 1)) :
    acc (nb - 1) = gc Tm d adj HW b r f := by
  rw [acc_last hR hnb (fun i => coefK Tm d adj r i * HW i f) (b f) acc blk hblk h0 hs]
  unfold gc
  congr 1
  exact Finset.sum_congr rfl fun c _ => by rw [coefK_eq_coef_apply]

theorem gc_of_blocks_2048 {K W : ℕ} (Tm : Mat 2048 K) (d : Fin K → EReal) (adj : Mat 2048 2048)
    (HW : Mat 2048 W) (b : Fin W → EReal) (r : Fin 2048) (f : Fin W) (acc blk : ℕ → EReal)
    (hblk : ∀ k (hk : k < 8),
      blk k = ∑ c : Fin 256,
        coefK Tm d adj r ⟨k * 256 + c.val, by have := c.isLt; omega⟩
          * HW ⟨k * 256 + c.val, by have := c.isLt; omega⟩ f)
    (h0 : acc 0 = b f + blk 0)
    (hs : ∀ k, k + 1 < 8 → acc (k + 1) = acc k + blk (k + 1)) :
    acc 7 = gc Tm d adj HW b r f :=
  gc_of_blocks (nb := 8) (bn := 256) (R := 2048) rfl (by decide) Tm d adj HW b r f acc blk hblk h0 hs

theorem gc_of_blocks_4096 {K W : ℕ} (Tm : Mat 4096 K) (d : Fin K → EReal) (adj : Mat 4096 4096)
    (HW : Mat 4096 W) (b : Fin W → EReal) (r : Fin 4096) (f : Fin W) (acc blk : ℕ → EReal)
    (hblk : ∀ k (hk : k < 16),
      blk k = ∑ c : Fin 256,
        coefK Tm d adj r ⟨k * 256 + c.val, by have := c.isLt; omega⟩
          * HW ⟨k * 256 + c.val, by have := c.isLt; omega⟩ f)
    (h0 : acc 0 = b f + blk 0)
    (hs : ∀ k, k + 1 < 16 → acc (k + 1) = acc k + blk (k + 1)) :
    acc 15 = gc Tm d adj HW b r f :=
  gc_of_blocks (nb := 16) (bn := 256) (R := 4096) rfl (by decide) Tm d adj HW b r f acc blk hblk h0 hs

theorem relu_relu (x : EReal) : relu (relu x) = relu x := by
  unfold relu; exact max_eq_left (le_max_right x 0)

theorem reluM_apply {n k : ℕ} (A : Mat n k) (i : Fin n) (j : Fin k) : reluM A i j = relu (A i j) := rfl

theorem reluM_reluM {n k : ℕ} (A : Mat n k) : reluM (reluM A) = reluM A := by
  funext i j; exact relu_relu (A i j)

theorem reluM_hcat {n a b c : ℕ} (h : c = a + b) (A : Mat n a) (B : Mat n b) :
    reluM (hcat h A B) = hcat h (reluM A) (reluM B) := by
  funext i j
  unfold reluM hcat
  by_cases hj : j.val < a
  · simp only [dif_pos hj]
  · simp only [dif_neg hj]

theorem reluM_hcat_reluM {n a b c : ℕ} (h : c = a + b) (A : Mat n a) (B : Mat n b) :
    reluM (hcat h (reluM A) (reluM B)) = hcat h (reluM A) (reluM B) := by
  rw [reluM_hcat, reluM_reluM, reluM_reluM]

theorem sum_mul_eq_dvec {n k : ℕ} (H : Mat n k) (p : Fin k → EReal) (i : Fin n) :
    (∑ j, p j * H i j) = dvec H p i :=
  Finset.sum_congr rfl fun j _ => mul_comm (p j) (H i j)

theorem dvec_apply {n k : ℕ} (H : Mat n k) (p : Fin k → EReal) (i : Fin n) :
    dvec H p i = ∑ j, H i j * p j := rfl

theorem mm_apply {n k p : ℕ} (A : Mat n k) (B : Mat k p) (i : Fin n) (j : Fin p) :
    mm A B i j = ∑ l, A i l * B l j := rfl

theorem zero_add_sum {ι : Type*} (t : Finset ι) (g : ι → EReal) : (0 : EReal) + ∑ j ∈ t, g j = ∑ j ∈ t, g j :=
  zero_add _

theorem zero_add_mm {n k p : ℕ} (A : Mat n k) (B : Mat k p) (i : Fin n) (j : Fin p) :
    (0 : EReal) + ∑ l, A i l * B l j = mm A B i j := zero_add _

theorem zero_add_dvec {n k : ℕ} (H : Mat n k) (p : Fin k → EReal) (i : Fin n) :
    (0 : EReal) + ∑ j, p j * H i j = dvec H p i := by
  rw [zero_add, sum_mul_eq_dvec]

theorem zero_add_mult {R K : ℕ} (Tm : Mat R K) (d : Fin K → EReal) (r c : Fin R) :
    (0 : EReal) + ∑ j, Tm r j * (Tm c j * d j) = mult Tm d r c := by
  rw [zero_add, sum_regroup_eq_mult]

end Cert.Algebra

end
-- ==== Proof.KI.Val1.lean ====
import proofs.«109581_g76012331204772_cont_9to1_m_125_6_alg».proof.Proof.KI.Reg1
import proofs.«109581_g76012331204772_cont_9to1_m_125_6_alg».proof.Proof.KI.Pay1
import proofs.«109581_g76012331204772_cont_9to1_m_125_6_alg».proof.Proof.Algebra
import proofs.«109581_g76012331204772_cont_9to1_m_125_6_alg».proof.Proof.Spec
import Idealize.ShloMosaic.Lib.Pipeline.Value
import Idealize.ShloMosaic.Lib.ValueIdx

set_option maxRecDepth 16384

noncomputable section

open scoped BigOperators

namespace Cert.KernelIdeal.HandVal

open Cert.KernelIdeal Cert.KernelIdeal.Gen Cert.KernelIdeal.Hand Cert.KernelIdeal.PayVal
open Idealize.ShloMosaic Idealize.ShloMosaic.TcCoe Idealize.ShloMosaic.ValueIdx Idealize.SL.Sem
open Idealize.ShloMosaic.Pipeline (Dat)
open Cert.Spec

variable (V : (c : Dev nD) → (b : Ref sig .tc) → Buf (Elt Ideal) ((c : Thread nD τ).loc b))

abbrev arr1_d (c : Dev nD) : Vec Ideal S1x4096 .f32 := V c (Pipeline.arrRef spec1 0)
abbrev arr1_T (c : Dev nD) : Vec Ideal S2048x4096 .f32 := V c (Pipeline.arrRef spec1 1)
abbrev arr1_adj (c : Dev nD) : Vec Ideal S2048x2048 .f32 := V c (Pipeline.arrRef spec1 2)
abbrev arr1_HW (c : Dev nD) : Vec Ideal S2048x128 .f32 := V c (Pipeline.arrRef spec1 3)
abbrev arr1_b (c : Dev nD) : Vec Ideal S1x128 .f32 := V c (Pipeline.arrRef spec1 4)

theorem coords1_val : ∀ t : Fin cfg1.N, (grid1.coords t 0).val = t.val :=
  (by decide +kernel : ∀ t : Fin grid1.N, (grid1.coords t 0).val = t.val)

theorem idx1_0 : ∀ t : Fin cfg1.N, win1_0.index t 0 = 0 ∧ win1_0.index t 1 = 0 :=
  (by decide +kernel : ∀ t : Fin grid1.N, win1_0.index t 0 = 0 ∧ win1_0.index t 1 = 0)
theorem idx1_1 : ∀ t : Fin cfg1.N, win1_1.index t 0 = 0 ∧ win1_1.index t 1 = 0 :=
  (by decide +kernel : ∀ t : Fin grid1.N, win1_1.index t 0 = 0 ∧ win1_1.index t 1 = 0)
theorem idx1_2 : ∀ t : Fin cfg1.N, win1_2.index t 0 = 0 ∧ win1_2.index t 1 = t.val :=
  (by decide +kernel : ∀ t : Fin grid1.N, win1_2.index t 0 = 0 ∧ win1_2.index t 1 = t.val)
theorem idx1_3 : ∀ t : Fin cfg1.N, win1_3.index t 0 = 0 ∧ win1_3.index t 1 = 0 :=
  (by decide +kernel : ∀ t : Fin grid1.N, win1_3.index t 0 = 0 ∧ win1_3.index t 1 = 0)
theorem idx1_4 : ∀ t : Fin cfg1.N, win1_4.index t 0 = 0 ∧ win1_4.index t 1 = 0 :=
  (by decide +kernel : ∀ t : Fin grid1.N, win1_4.index t 0 = 0 ∧ win1_4.index t 1 = 0)
theorem idx1_5 : ∀ t : Fin cfg1.N, win1_5.index t 0 = 0 ∧ win1_5.index t 1 = 0 :=
  (by decide +kernel : ∀ t : Fin grid1.N, win1_5.index t 0 = 0 ∧ win1_5.index t 1 = 0)

theorem iblk1_0_eq (c : Dev nD) (t : Fin cfg1.N) : (iblk1 V c 0 t : Vec Ideal S1x4096 .f32) = arr1_d V c := by
  funext j
  have hi := idx1_0 t
  unfold iblk1
  rw [View.read_apply]
  show V c (Pipeline.arrRef spec1 0) _ = V c (Pipeline.arrRef spec1 0) j
  congr 1
  funext a
  apply Fin.ext
  match a with
  | ⟨0, _⟩ => show win1_0.index t 0 * 1 + 1 * (j 0).val = (j 0).val; rw [hi.1]; omega
  | ⟨1, _⟩ => show win1_0.index t 1 * 4096 + 1 * (j 1).val = (j 1).val; rw [hi.2]; omega

theorem iblk1_1_eq (c : Dev nD) (t : Fin cfg1.N) : (iblk1 V c 1 t : Vec Ideal S2048x4096 .f32) = arr1_T V c := by
  funext j
  have hi := idx1_1 t
  unfold iblk1
  rw [View.read_apply]
  show V c (Pipeline.arrRef spec1 1) _ = V c (Pipeline.arrRef spec1 1) j
  congr 1
  funext a
  apply Fin.ext
  match a with
  | ⟨0, _⟩ => show win1_1.index t 0 * 2048 + 1 * (j 0).val = (j 0).val; rw [hi.1]; omega
  | ⟨1, _⟩ => show win1_1.index t 1 * 4096 + 1 * (j 1).val = (j 1).val; rw [hi.2]; omega

theorem iblk1_2_apply (c : Dev nD) (t : Fin cfg1.N) (r : Fin 2048) (cc : Fin 256) (h : t.val * 256 + cc.val < 2048) :
    (iblk1 V c 2 t : Vec Ideal S2048x256 .f32) (ix2 r cc) = arr1_adj V c (ix2 r ⟨t.val * 256 + cc.val, h⟩) := by
  have hi := idx1_2 t
  unfold iblk1
  rw [View.read_apply]
  show V c (Pipeline.arrRef spec1 2) _ = V c (Pipeline.arrRef spec1 2) (ix2 r ⟨t.val * 256 + cc.val, h⟩)
  congr 1
  funext a
  apply Fin.ext
  match a with
  | ⟨0, _⟩ => show win1_2.index t 0 * 2048 + 1 * r.val = r.val; rw [hi.1]; omega
  | ⟨1, _⟩ => show win1_2.index t 1 * 256 + 1 * cc.val = t.val * 256 + cc.val; rw [hi.2]; omega

theorem iblk1_3_eq (c : Dev nD) (t : Fin cfg1.N) : (iblk1 V c 3 t : Vec Ideal S2048x128 .f32) = arr1_HW V c := by
  funext j
  have hi := idx1_3 t
  unfold iblk1
  rw [View.read_apply]
  show V c (Pipeline.arrRef spec1 3) _ = V c (Pipeline.arrRef spec1 3) j
  congr 1
  funext a
  apply Fin.ext
  match a with
  | ⟨0, _⟩ => show win1_3.index t 0 * 2048 + 1 * (j 0).val = (j 0).val; rw [hi.1]; omega
  | ⟨1, _⟩ => show win1_3.index t 1 * 128 + 1 * (j 1).val = (j 1).val; rw [hi.2]; omega

theorem iblk1_4_eq (c : Dev nD) (t : Fin cfg1.N) : (iblk1 V c 4 t : Vec Ideal S1x128 .f32) = arr1_b V c := by
  funext j
  have hi := idx1_4 t
  unfold iblk1
  rw [View.read_apply]
  show V c (Pipeline.arrRef spec1 4) _ = V c (Pipeline.arrRef spec1 4) j
  congr 1
  funext a
  apply Fin.ext
  match a with
  | ⟨0, _⟩ => show win1_4.index t 0 * 1 + 1 * (j 0).val = (j 0).val; rw [hi.1]; omega
  | ⟨1, _⟩ => show win1_4.index t 1 * 128 + 1 * (j 1).val = (j 1).val; rw [hi.2]; omega

theorem ld1_Trows (i : grid1.Coords) (T : Vec Ideal S2048x4096 .f32) (cc : Fin 256) (j : Fin 4096)
    (h : (i 0).val * 256 + cc.val < 2048) :
    View.ld T (r1_Trows i) (ix2 cc j) = T (ix2 ⟨(i 0).val * 256 + cc.val, h⟩ j) := by
  show T ((r1_Trows i).idx (ix2 cc j)) = _
  congr 1
  funext a
  apply Fin.ext
  match a with
  | ⟨0, _⟩ => show k1_off1 i 0 + 1 * cc.val = (i 0).val * 256 + cc.val; rw [k1_off1_eq]; show 256 * (i 0).val + 1 * cc.val = _; omega
  | ⟨1, _⟩ => show k1_off1 i 1 + 1 * j.val = j.val; rw [k1_off1_eq]; show 0 + 1 * j.val = _; omega

theorem ld1_Hrows (i : grid1.Coords) (H : Vec Ideal S2048x128 .f32) (cc : Fin 256) (f : Fin 128)
    (h : (i 0).val * 256 + cc.val < 2048) :
    View.ld H (r1_Hrows i) (ix2 cc f) = H (ix2 ⟨(i 0).val * 256 + cc.val, h⟩ f) := by
  show H ((r1_Hrows i).idx (ix2 cc f)) = _
  congr 1
  funext a
  apply Fin.ext
  match a with
  | ⟨0, _⟩ => show k1_off2 i 0 + 1 * cc.val = (i 0).val * 256 + cc.val; rw [k1_off2_eq]; show 256 * (i 0).val + 1 * cc.val = _; omega
  | ⟨1, _⟩ => show k1_off2 i 1 + 1 * f.val = f.val; rw [k1_off2_eq]; show 0 + 1 * f.val = _; omega

def blk1 (c : Dev nD) (r : Fin 2048) (f : Fin 128) (k : ℕ) : EReal :=
  if hk : k < 8 then
    ∑ cc : Fin 256,
      Cert.Algebra.coefK (m2 (arr1_T V c)) (row (arr1_d V c)) (m2 (arr1_adj V c)) r ⟨k * 256 + cc.val, by have := cc.isLt; omega⟩
        * m2 (arr1_HW V c) ⟨k * 256 + cc.val, by have := cc.isLt; omega⟩ f
  else 0

theorem pay1_at (c : Dev nD) (t : Fin cfg1.N) (x2 : Vec Ideal S2048x256 .f32)
    (h2 : ∀ (r : Fin 2048) (cc : Fin 256) (h : t.val * 256 + cc.val < 2048), x2 (ix2 r cc) = arr1_adj V c (ix2 r ⟨t.val * 256 + cc.val, h⟩))
    (r : Fin 2048) (f : Fin 128) :
    k1_pay1 (F := Ideal) (grid1.coords t) (View.ld (arr1_T V c) (r1_Trows (grid1.coords t))) (View.ld (arr1_d V c) r1_d)
        (View.ld (arr1_T V c) r1_T) (View.ld x2 r1_adj) (View.ld (arr1_HW V c) (r1_Hrows (grid1.coords t))) (ix2 r f)
      = blk1 V c r f t.val := by
  have ht : t.val < 8 := lt_of_lt_of_eq t.isLt (show cfg1.N = 8 from N_1)
  have hc0 : (grid1.coords t 0).val = t.val := coords1_val t
  rw [k1_pay1_apply]
  unfold blk1
  rw [dif_pos ht]
  refine Finset.sum_congr rfl fun cc _ => ?_
  have hlt : t.val * 256 + cc.val < 2048 := by have := cc.isLt; omega
  have hlt' : (grid1.coords t 0).val * 256 + cc.val < 2048 := by rw [hc0]; exact hlt
  have e_adj : View.ld x2 r1_adj (ix2 r cc) = arr1_adj V c (ix2 r ⟨t.val * 256 + cc.val, hlt⟩) :=
    (congrFun (View.ld_unit_zero (S := S2048x256) zero2 inb_S2048x256_S2048x256_0_0 x2) (ix2 r cc)).trans (h2 r cc hlt)
  have e_T : ∀ j : Fin 4096, View.ld (arr1_T V c) r1_T (ix2 r j) = arr1_T V c (ix2 r j) := fun j =>
    congrFun (View.ld_unit_zero (S := S2048x4096) zero2 inb_S2048x4096_S2048x4096_0_0 (arr1_T V c)) (ix2 r j)
  have e_d : ∀ j : Fin 4096, View.ld (arr1_d V c) r1_d (ix2 0 j) = arr1_d V c (ix2 0 j) := fun j =>
    congrFun (View.ld_unit_zero (S := S1x4096) zero2 inb_S1x4096_S1x4096_0_0 (arr1_d V c)) (ix2 0 j)
  have e_Tr : ∀ j : Fin 4096, View.ld (arr1_T V c) (r1_Trows (grid1.coords t)) (ix2 cc j)
      = arr1_T V c (ix2 ⟨t.val * 256 + cc.val, hlt⟩ j) := fun j =>
    (ld1_Trows (grid1.coords t) (arr1_T V c) cc j hlt').trans (by congr 2; exact Fin.ext (by show (grid1.coords t 0).val * 256 + cc.val = t.val * 256 + cc.val; omega))
  have e_H : View.ld (arr1_HW V c) (r1_Hrows (grid1.coords t)) (ix2 cc f)
      = arr1_HW V c (ix2 ⟨t.val * 256 + cc.val, hlt⟩ f) :=
    (ld1_Hrows (grid1.coords t) (arr1_HW V c) cc f hlt').trans (by congr 2; exact Fin.ext (by show (grid1.coords t 0).val * 256 + cc.val = t.val * 256 + cc.val; omega))
  rw [e_adj, e_H, hc0]
  simp only [e_T, e_d, e_Tr]
  show _ = (if r = ⟨t.val * 256 + cc.val, hlt⟩ then arr1_adj V c (ix2 r ⟨t.val * 256 + cc.val, hlt⟩)
      else (∑ j : Fin 4096, arr1_T V c (ix2 r j) * (arr1_T V c (ix2 ⟨t.val * 256 + cc.val, hlt⟩ j) * arr1_d V c (ix2 0 j)))
        * arr1_adj V c (ix2 r ⟨t.val * 256 + cc.val, hlt⟩)) * arr1_HW V c (ix2 ⟨t.val * 256 + cc.val, hlt⟩ f)
  congr 1
  exact if_congr (Fin.ext_iff (a := r) (b := ⟨t.val * 256 + cc.val, hlt⟩)).symm rfl rfl

theorem out1_A_apply (c : Dev nD) (t : Fin cfg1.N) (x0 : Vec Ideal S1x4096 .f32) (x1 : Vec Ideal S2048x4096 .f32)
    (x2 : Vec Ideal S2048x256 .f32) (x3 : Vec Ideal S2048x128 .f32) (x4 : Vec Ideal S1x128 .f32)
    (h0 : x0 = arr1_d V c) (h1 : x1 = arr1_T V c)
    (h2 : ∀ (r : Fin 2048) (cc : Fin 256) (h : t.val * 256 + cc.val < 2048), x2 (ix2 r cc) = arr1_adj V c (ix2 r ⟨t.val * 256 + cc.val, h⟩))
    (h3 : x3 = arr1_HW V c) (h4 : x4 = arr1_b V c) (r : Fin 2048) (f : Fin 128) :
    out1_A (grid1.coords t) x0 x1 x2 x3 x4 (ix2 r f) = row (arr1_b V c) f + blk1 V c r f t.val := by
  subst h0 h1 h3 h4
  unfold out1_A
  rw [k1_pay2_apply, pay1_at V c t x2 h2 r f]
  exact congrArg (· + blk1 V c r f t.val)
    (congrFun (View.ld_unit_zero (S := S1x128) zero2 inb_S1x128_S1x128_0_0 (arr1_b V c)) (ix2 0 f))

theorem out1_B_apply (c : Dev nD) (t : Fin cfg1.N) (x0 : Vec Ideal S1x4096 .f32) (x1 : Vec Ideal S2048x4096 .f32)
    (x2 : Vec Ideal S2048x256 .f32) (x3 : Vec Ideal S2048x128 .f32) (prev : Vec Ideal S2048x128 .f32)
    (h0 : x0 = arr1_d V c) (h1 : x1 = arr1_T V c)
    (h2 : ∀ (r : Fin 2048) (cc : Fin 256) (h : t.val * 256 + cc.val < 2048), x2 (ix2 r cc) = arr1_adj V c (ix2 r ⟨t.val * 256 + cc.val, h⟩))
    (h3 : x3 = arr1_HW V c) (r : Fin 2048) (f : Fin 128) :
    out1_B (grid1.coords t) x0 x1 x2 x3 prev (ix2 r f) = prev (ix2 r f) + blk1 V c r f t.val := by
  subst h0 h1 h3
  unfold out1_B
  rw [k1_pay3_apply, pay1_at V c t x2 h2 r f]

def accAt1 (c : Dev nD) : (n : ℕ) → n < cfg1.N → Vec Ideal S2048x128 .f32
  | 0, hn => out1_A (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn => out1_B (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (accAt1 c n (Nat.lt_of_succ_lt hn))

theorem outsAt1_eq_acc (c : Dev nD) : ∀ (n : ℕ) (hn : n < cfg1.N), n < 7 → outsAt1 V c n hn = accAt1 V c n hn
  | 0, hn, _ => rfl
  | n + 1, hn, h7 => by
    show (if n + 1 = 7 then _ else out1_B _ _ _ _ _ (outsAt1 V c n _)) = out1_B _ _ _ _ _ (accAt1 V c n _)
    rw [if_neg (by omega), outsAt1_eq_acc c n _ (by omega)]

theorem outsAt1_last (c : Dev nD) (hn : 7 < cfg1.N) : outsAt1 V c 7 hn = k1_pay4 (accAt1 V c 7 hn) := by
  show (if 6 + 1 = 7 then out1_C _ _ _ _ _ (outsAt1 V c 6 _) else _) = _
  rw [if_pos rfl, outsAt1_eq_acc V c 6 _ (by decide)]
  rfl

theorem accAt1_last (c : Dev nD) (hn : 7 < cfg1.N) (r : Fin 2048) (f : Fin 128) :
    accAt1 V c 7 hn (ix2 r f)
      = gc (m2 (arr1_T V c)) (row (arr1_d V c)) (m2 (arr1_adj V c)) (m2 (arr1_HW V c)) (row (arr1_b V c)) r f := by
  have hN : cfg1.N = 8 := N_1
  have key := Cert.Algebra.gc_of_blocks_2048 (m2 (arr1_T V c)) (row (arr1_d V c)) (m2 (arr1_adj V c)) (m2 (arr1_HW V c))
    (row (arr1_b V c)) r f (fun n => if h : n < cfg1.N then accAt1 V c n h (ix2 r f) else 0) (blk1 V c r f)
    (fun k hk => by unfold blk1; rw [dif_pos hk])
    (by
      show (if h : 0 < cfg1.N then accAt1 V c 0 h (ix2 r f) else 0) = _
      rw [dif_pos (by omega)]
      exact out1_A_apply V c ⟨0, by omega⟩ _ _ _ _ _ (iblk1_0_eq V c _) (iblk1_1_eq V c _)
        (fun r cc h => iblk1_2_apply V c _ r cc h) (iblk1_3_eq V c _) (iblk1_4_eq V c _) r f)
    (fun k hk => by
      show (if h : k + 1 < cfg1.N then accAt1 V c (k + 1) h (ix2 r f) else 0)
        = (if h : k < cfg1.N then accAt1 V c k h (ix2 r f) else 0) + _
      rw [dif_pos (by omega), dif_pos (by omega)]
      exact out1_B_apply V c ⟨k + 1, by omega⟩ _ _ _ _ (accAt1 V c k (by omega)) (iblk1_0_eq V c _) (iblk1_1_eq V c _)
        (fun r cc h => iblk1_2_apply V c _ r cc h) (iblk1_3_eq V c _) r f)
  rw [← key]
  show _ = (if h : 7 < cfg1.N then accAt1 V c 7 h (ix2 r f) else 0)
  rw [dif_pos hn]

theorem arrAt1_last (c : Dev nD) (hn : 7 < cfg1.N) (r : Fin 2048) (f : Fin 128) :
    ((dat1 V c).arrAt 5 cfg1.N : Vec Ideal S2048x128 .f32) (ix2 r f) = outsAt1 V c 7 hn (ix2 r f) := by
  have hfl : (cfg1.win 5).flush ⟨7, hn⟩ = true := (flush1_5 ⟨7, hn⟩).mpr rfl
  have hs := (dat1 V c).arrAt_succ 5 ⟨7, hn⟩
  rw [if_pos hfl] at hs
  have hN : (dat1 V c).arrAt 5 cfg1.N = (dat1 V c).arrAt 5 ((⟨7, hn⟩ : Fin cfg1.N).val + 1) :=
    congrArg ((dat1 V c).arrAt 5) (show cfg1.N = 7 + 1 from N_1)
  have hi := idx1_5 ⟨7, hn⟩
  have hemb : ((cfg1.win 5).blk ⟨7, hn⟩).view.emb (ix2 r f) = (ix2 r f : S2048x128.Idx) := by
    funext a
    apply Fin.ext
    match a with
    | ⟨0, _⟩ => show win1_5.index ⟨7, hn⟩ 0 * 2048 + 1 * r.val = r.val; rw [hi.1]; omega
    | ⟨1, _⟩ => show win1_5.index ⟨7, hn⟩ 1 * 128 + 1 * f.val = f.val; rw [hi.2]; omega
  have key := View.write_emb_of_mem (v := ((cfg1.win 5).blk ⟨7, hn⟩).view) ((dat1 V c).arrAt 5 (⟨7, hn⟩ : Fin cfg1.N).val)
    ((dat1 V c).flushed 5 ⟨7, hn⟩) (Finset.mem_univ (ix2 r f))
  rw [hemb] at key
  rw [hN, hs]
  exact key

theorem val1 (c : Dev nD) (r : Fin 2048) (f : Fin 128) :
    ((dat1 V c).arrAt 5 cfg1.N : Vec Ideal S2048x128 .f32) (ix2 r f)
      = reluM (gc (m2 (arr1_T V c)) (row (arr1_d V c)) (m2 (arr1_adj V c)) (m2 (arr1_HW V c)) (row (arr1_b V c))) r f := by
  have hn : 7 < cfg1.N := lt_of_lt_of_eq (by decide) (show (8 : ℕ) = cfg1.N from N_1.symm)
  rw [arrAt1_last V c hn, outsAt1_last V c hn, k1_pay4_apply, accAt1_last V c hn]
  rfl

end Cert.KernelIdeal.HandVal

end
-- ==== Proof.KI.Pay2.lean ====
import proofs.«109581_g76012331204772_cont_9to1_m_125_6_alg».proof.Proof.Gen.KernelIdeal.Skeleton
import proofs.«109581_g76012331204772_cont_9to1_m_125_6_alg».proof.Proof.Spec

import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

theorem lhs_px_0 (i : S1x2048.Idx) (q : dot_S1x256_S2048x256_S1x2048_1_1_0_0_n_n.contr.Idx) :
    (dot_S1x256_S2048x256_S1x2048_1_1_0_0_n_n.lhsIdx i q 0).val = (i 0).val := by
  unfold DotDims.lhsIdx
  rw [dif_neg (show ¬(0 : Fin S1x256.rank) ∈ dot_S1x256_S2048x256_S1x2048_1_1_0_0_n_n.lhsBatch by decide), dif_pos (show (0 : Fin S1x256.rank) ∈ dot_S1x256_S2048x256_S1x2048_1_1_0_0_n_n.lhsNonContracting by decide)]
  rfl
theorem lhs_px_1 (i : S1x2048.Idx) (q : dot_S1x256_S2048x256_S1x2048_1_1_0_0_n_n.contr.Idx) :
    (dot_S1x256_S2048x256_S1x2048_1_1_0_0_n_n.lhsIdx i q 1).val = (q ⟨0, by decide⟩).val :=
  dot_S1x256_S2048x256_S1x2048_1_1_0_0_n_n.lhsIdx_val_of_single rfl i q
theorem rhs_px_0 (i : S1x2048.Idx) (q : dot_S1x256_S2048x256_S1x2048_1_1_0_0_n_n.contr.Idx) :
    (dot_S1x256_S2048x256_S1x2048_1_1_0_0_n_n.rhsIdx i q 0).val = (i 1).val := by
  unfold DotDims.rhsIdx
  rw [dif_neg (show ¬(0 : Fin S2048x256.rank) ∈ dot_S1x256_S2048x256_S1x2048_1_1_0_0_n_n.rhsBatch by decide), dif_pos (show (0 : Fin S2048x256.rank) ∈ dot_S1x256_S2048x256_S1x2048_1_1_0_0_n_n.rhsNonContracting by decide)]
  rfl
theorem rhs_px_1 (i : S1x2048.Idx) (q : dot_S1x256_S2048x256_S1x2048_1_1_0_0_n_n.contr.Idx) :
    (dot_S1x256_S2048x256_S1x2048_1_1_0_0_n_n.rhsIdx i q 1).val = (q ⟨0, by decide⟩).val :=
  dot_S1x256_S2048x256_S1x2048_1_1_0_0_n_n.rhsIdx_val_of_single rfl i q

theorem matmul_px_apply (x : FVec Ideal S1x256 .f32) (y : FVec Ideal S2048x256 .f32) (r : Fin 1) (c : Fin 2048) :
    matmul dot_S1x256_S2048x256_S1x2048_1_1_0_0_n_n none x y (constant (F := Ideal) S1x2048 .f32 0x00000000#32) (ix2 r c)
      = ∑ l : Fin 256, x (ix2 r l) * y (ix2 c l) := by
  simp only [matmul]
  rw [Ideal.matmul_constant_zero_apply, ← Equiv.sum_comp (contrEquiv1 dot_S1x256_S2048x256_S1x2048_1_1_0_0_n_n 256 rfl rfl).symm]
  refine Finset.sum_congr rfl fun l _ => ?_
  have hl := contrEquiv1_symm_val dot_S1x256_S2048x256_S1x2048_1_1_0_0_n_n 256 rfl rfl l
  have el : dot_S1x256_S2048x256_S1x2048_1_1_0_0_n_n.lhsIdx (ix2 r c) ((contrEquiv1 dot_S1x256_S2048x256_S1x2048_1_1_0_0_n_n 256 rfl rfl).symm l) = ix2 r l := funext fun a => Fin.ext (by
    match a with
    | ⟨0, _⟩ => exact lhs_px_0 _ _
    | ⟨1, _⟩ => exact (lhs_px_1 _ _).trans hl)
  have er : dot_S1x256_S2048x256_S1x2048_1_1_0_0_n_n.rhsIdx (ix2 r c) ((contrEquiv1 dot_S1x256_S2048x256_S1x2048_1_1_0_0_n_n 256 rfl rfl).symm l) = ix2 c l := funext fun a => Fin.ext (by
    match a with
    | ⟨0, _⟩ => exact rhs_px_0 _ _
    | ⟨1, _⟩ => exact (rhs_px_1 _ _).trans hl)
  rw [el, er]

theorem lhs_zw_0 (i : S4096x16.Idx) (q : dot_S4096x16_S16x16_S4096x16_1_0_0_1_n_n.contr.Idx) :
    (dot_S4096x16_S16x16_S4096x16_1_0_0_1_n_n.lhsIdx i q 0).val = (i 0).val := by
  unfold DotDims.lhsIdx
  rw [dif_neg (show ¬(0 : Fin S4096x16.rank) ∈ dot_S4096x16_S16x16_S4096x16_1_0_0_1_n_n.lhsBatch by decide), dif_pos (show (0 : Fin S4096x16.rank) ∈ dot_S4096x16_S16x16_S4096x16_1_0_0_1_n_n.lhsNonContracting by decide)]
  rfl
theorem lhs_zw_1 (i : S4096x16.Idx) (q : dot_S4096x16_S16x16_S4096x16_1_0_0_1_n_n.contr.Idx) :
    (dot_S4096x16_S16x16_S4096x16_1_0_0_1_n_n.lhsIdx i q 1).val = (q ⟨0, by decide⟩).val :=
  dot_S4096x16_S16x16_S4096x16_1_0_0_1_n_n.lhsIdx_val_of_single rfl i q
theorem rhs_zw_0 (i : S4096x16.Idx) (q : dot_S4096x16_S16x16_S4096x16_1_0_0_1_n_n.contr.Idx) :
    (dot_S4096x16_S16x16_S4096x16_1_0_0_1_n_n.rhsIdx i q 0).val = (q ⟨0, by decide⟩).val :=
  dot_S4096x16_S16x16_S4096x16_1_0_0_1_n_n.rhsIdx_val_of_single rfl i q
theorem rhs_zw_1 (i : S4096x16.Idx) (q : dot_S4096x16_S16x16_S4096x16_1_0_0_1_n_n.contr.Idx) :
    (dot_S4096x16_S16x16_S4096x16_1_0_0_1_n_n.rhsIdx i q 1).val = (i 1).val := by
  unfold DotDims.rhsIdx
  rw [dif_neg (show ¬(1 : Fin S16x16.rank) ∈ dot_S4096x16_S16x16_S4096x16_1_0_0_1_n_n.rhsBatch by decide), dif_pos (show (1 : Fin S16x16.rank) ∈ dot_S4096x16_S16x16_S4096x16_1_0_0_1_n_n.rhsNonContracting by decide)]
  rfl

theorem matmul_zw_apply (x : FVec Ideal S4096x16 .f32) (y : FVec Ideal S16x16 .f32) (r : Fin 4096) (c : Fin 16) :
    matmul dot_S4096x16_S16x16_S4096x16_1_0_0_1_n_n none x y (constant (F := Ideal) S4096x16 .f32 0x00000000#32) (ix2 r c)
      = ∑ l : Fin 16, x (ix2 r l) * y (ix2 l c) := by
  simp only [matmul]
  rw [Ideal.matmul_constant_zero_apply, ← Equiv.sum_comp (contrEquiv1 dot_S4096x16_S16x16_S4096x16_1_0_0_1_n_n 16 rfl rfl).symm]
  refine Finset.sum_congr rfl fun l _ => ?_
  have hl := contrEquiv1_symm_val dot_S4096x16_S16x16_S4096x16_1_0_0_1_n_n 16 rfl rfl l
  have el : dot_S4096x16_S16x16_S4096x16_1_0_0_1_n_n.lhsIdx (ix2 r c) ((contrEquiv1 dot_S4096x16_S16x16_S4096x16_1_0_0_1_n_n 16 rfl rfl).symm l) = ix2 r l := funext fun a => Fin.ext (by
    match a with
    | ⟨0, _⟩ => exact lhs_zw_0 _ _
    | ⟨1, _⟩ => exact (lhs_zw_1 _ _).trans hl)
  have er : dot_S4096x16_S16x16_S4096x16_1_0_0_1_n_n.rhsIdx (ix2 r c) ((contrEquiv1 dot_S4096x16_S16x16_S4096x16_1_0_0_1_n_n 16 rfl rfl).symm l) = ix2 l c := funext fun a => Fin.ext (by
    match a with
    | ⟨0, _⟩ => exact (rhs_zw_0 _ _).trans hl
    | ⟨1, _⟩ => exact rhs_zw_1 _ _)
  rw [el, er]

private theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

private theorem sqrt_apply {s : Shape} {φ : FTy} (a : FVec Ideal s φ) (i : s.Idx) : sqrt a i = Ideal.sqrt (a i) := rfl

theorem rowSum_4096x16 (src : FVec Ideal S4096x16 .f32) (hφ : FKind.Formats .f32)
    (hacc : (0x00000000#32 : BitVec 32) = 0x00000000#32) (n : Fin 4096) :
    multiReduction (F := Ideal) .add [1] S4096 src 0x00000000#32 reduces_S4096x16_S4096 hφ hacc (ix1 n)
      = ∑ k : Fin 16, src (ix2 n k) := by
  refine (Ideal.multiReduction_add_single src 0x00000000#32 reduces_S4096x16_S4096 hφ hacc (ix1 n)).trans ?_
  show ∑ k : Fin 16, src (reduces_S4096x16_S4096.lift (ix1 n) k) = _
  refine Finset.sum_congr rfl fun k _ => congrArg src (funext fun c => Fin.ext ?_)
  match c with
  | ⟨0, _⟩ => rfl
  | ⟨1, _⟩ => rfl

theorem k2_d_spec (p : Vec Ideal S1x256 .f32) (x : Vec Ideal S2048x256 .f32) (e : Fin 2048) :
    k2_pay2 (F := Ideal) p x (ix2 0 e) = Cert.Spec.dvec (Cert.Spec.m2 x) (Cert.Spec.row p) e := by
  unfold k2_pay2
  simp only [shapeCast_self]
  rw [matmul_px_apply]
  exact Finset.sum_congr rfl fun l _ => mul_comm _ _

theorem k2_hw_spec (z : Vec Ideal S4096x16 .f32) (w : Vec Ideal S16x16 .f32) (n : Fin 4096) (f : Fin 16) :
    k2_pay3 (F := Ideal) z w (ix2 n f) = Cert.Spec.mm (Cert.Spec.reluM (Cert.Spec.m2 z)) (Cert.Spec.m2 w) n f := by
  unfold k2_pay3
  simp only [matmul_zw_apply, maximumf_apply, broadcast_apply]
  have h0 : (FloatOps.ofBits (F := Ideal) .f32 0x00000000#32) = 0 := Ideal.ofBits_zero_f32
  rw [h0]
  rfl

theorem k2_f2_spec (z : Vec Ideal S4096x16 .f32) (fw : Vec Ideal S16x16 .f32) (g be : Vec Ideal S1x16 .f32)
    (n : Fin 4096) (f : Fin 16) :
    k2_pay1 (F := Ideal) (k2_pay5 g) (k2_pay6 be) (k2_pay8 z fw) (k2_pay9 z fw) (k2_pay10 (F := Ideal)) (ix2 n f)
      = Cert.Spec.reluM (Cert.Spec.layernorm Cert.Spec.len16 (Cert.Spec.mm (Cert.Spec.m2 z) (Cert.Spec.m2 fw)) (Cert.Spec.row g) (Cert.Spec.row be)) n f := by
  have hm : Cert.Spec.mm (Cert.Spec.m2 z) (Cert.Spec.m2 fw)
      = Cert.Spec.m2 (matmul dot_S4096x16_S16x16_S4096x16_1_0_0_1_n_n none z fw (constant (F := Ideal) S4096x16 .f32 0x00000000#32)) :=
    funext fun a => funext fun b => (matmul_zw_apply z fw a b).symm
  rw [hm]
  unfold k2_pay1 k2_pay5 k2_pay6 k2_pay8 k2_pay9 k2_pay10 k2_pay7 k2_pay4
  simp only [maximumf_apply, addf_apply, mulf_apply, divf_apply, subf_apply, broadcast_apply, sqrt_apply,
    broadcastTo_1b_ab_apply, broadcastTo_a1_ab_apply, shapeCast_self, shapeCast_a_a1_apply]
  generalize matmul dot_S4096x16_S16x16_S4096x16_1_0_0_1_n_n none z fw (constant (F := Ideal) S4096x16 .f32 0x00000000#32) = H
  rw [rowSum_4096x16 H, rowSum_4096x16]
  simp only [mulf_apply, divf_apply, subf_apply, broadcast_apply, broadcastTo_a1_ab_apply, shapeCast_a_a1_apply]
  rw [rowSum_4096x16 H]
  have h0 : (FloatOps.ofBits (F := Ideal) .f32 0x00000000#32) = 0 := Ideal.ofBits_zero_f32
  rw [h0]
  rfl

end Cert.KernelIdeal.PayVal

end
-- ==== Proof.KI.Val2.lean ====
import proofs.«109581_g76012331204772_cont_9to1_m_125_6_alg».proof.Proof.KI.Reg2
import proofs.«109581_g76012331204772_cont_9to1_m_125_6_alg».proof.Proof.KI.Pay2
import proofs.«109581_g76012331204772_cont_9to1_m_125_6_alg».proof.Proof.Spec
import Idealize.ShloMosaic.Lib.Pipeline.Value
import Idealize.ShloMosaic.Lib.ValueIdx

set_option maxRecDepth 16384

noncomputable section

namespace Cert.KernelIdeal.HandVal

open Cert.KernelIdeal Cert.KernelIdeal.Gen Cert.KernelIdeal.Hand Cert.KernelIdeal.PayVal
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl

section Generic

variable {F : FTy → Type} [FloatOps F]
variable (V : (c : Dev nD) → (b : Ref sig .tc) → Buf (Elt F) ((c : Thread nD τ).loc b))

theorem iblk2_0_eq (c : Dev nD) (t : Fin cfg2.N) : iblk2 V c 0 t = V c main_v6 := by
  have hz' : (fun a => win2_0.index t a * main_v6.ty.shape.size a) = fun _ => 0 := funext fun a => Nat.zero_mul _
  unfold iblk2
  exact Memref.read_access_unit_zero (Elt F) main_v6 hz' (fun a => by rw [congrFun hz' a]; simp) (V c main_v6)

theorem iblk2_1_eq (c : Dev nD) (t : Fin cfg2.N) : iblk2 V c 1 t = V c main_arg1 := by
  have hz' : (fun a => win2_1.index t a * main_arg1.ty.shape.size a) = fun _ => 0 := funext fun a => Nat.zero_mul _
  unfold iblk2
  exact Memref.read_access_unit_zero (Elt F) main_arg1 hz' (fun a => by rw [congrFun hz' a]; simp) (V c main_arg1)

theorem iblk2_2_eq (c : Dev nD) (t : Fin cfg2.N) : iblk2 V c 2 t = V c main_arg11 := by
  have hz' : (fun a => win2_2.index t a * main_arg11.ty.shape.size a) = fun _ => 0 := funext fun a => Nat.zero_mul _
  unfold iblk2
  exact Memref.read_access_unit_zero (Elt F) main_arg11 hz' (fun a => by rw [congrFun hz' a]; simp) (V c main_arg11)

theorem iblk2_3_eq (c : Dev nD) (t : Fin cfg2.N) : iblk2 V c 3 t = V c main_arg12 := by
  have hz' : (fun a => win2_3.index t a * main_arg12.ty.shape.size a) = fun _ => 0 := funext fun a => Nat.zero_mul _
  unfold iblk2
  exact Memref.read_access_unit_zero (Elt F) main_arg12 hz' (fun a => by rw [congrFun hz' a]; simp) (V c main_arg12)

theorem iblk2_4_eq (c : Dev nD) (t : Fin cfg2.N) : iblk2 V c 4 t = V c main_arg14 := by
  have hz' : (fun a => win2_4.index t a * main_arg14.ty.shape.size a) = fun _ => 0 := funext fun a => Nat.zero_mul _
  unfold iblk2
  exact Memref.read_access_unit_zero (Elt F) main_arg14 hz' (fun a => by rw [congrFun hz' a]; simp) (V c main_arg14)

theorem iblk2_5_eq (c : Dev nD) (t : Fin cfg2.N) : iblk2 V c 5 t = V c main_v7 := by
  have hz' : (fun a => win2_5.index t a * main_v7.ty.shape.size a) = fun _ => 0 := funext fun a => Nat.zero_mul _
  unfold iblk2
  exact Memref.read_access_unit_zero (Elt F) main_v7 hz' (fun a => by rw [congrFun hz' a]; simp) (V c main_v7)

theorem iblk2_6_eq (c : Dev nD) (t : Fin cfg2.N) : iblk2 V c 6 t = V c main_v8 := by
  have hz' : (fun a => win2_6.index t a * main_v8.ty.shape.size a) = fun _ => 0 := funext fun a => Nat.zero_mul _
  unfold iblk2
  exact Memref.read_access_unit_zero (Elt F) main_v8 hz' (fun a => by rw [congrFun hz' a]; simp) (V c main_v8)

abbrev G2_d (c : Dev nD) : Buf (Elt F) ((c : Thread nD τ).loc main_v9_0) :=
  k2_pay2 (F := F) (V c main_arg12 : Vec F S1x256 .f32) (V c main_v6 : Vec F S2048x256 .f32)

abbrev G2_hw (c : Dev nD) : Buf (Elt F) ((c : Thread nD τ).loc main_v9_1) :=
  k2_pay3 (F := F) (V c main_arg1 : Vec F S4096x16 .f32) (V c main_arg11 : Vec F S16x16 .f32)

abbrev G2_f2 (c : Dev nD) : Buf (Elt F) ((c : Thread nD τ).loc main_v9_2) :=
  k2_pay1 (F := F) (k2_pay5 (V c main_v7 : Vec F S1x16 .f32)) (k2_pay6 (V c main_v8 : Vec F S1x16 .f32))
    (k2_pay8 (V c main_arg1 : Vec F S4096x16 .f32) (V c main_arg14 : Vec F S16x16 .f32))
    (k2_pay9 (V c main_arg1 : Vec F S4096x16 .f32) (V c main_arg14 : Vec F S16x16 .f32)) (k2_pay10 (F := F))

theorem flushed2_d (c : Dev nD) (t : Fin cfg2.N) :
    (dat2 V c).flushed 7 t = ((cfg2.win 7).blk t).view.read (Elt F) (G2_d V c) := by
  have hz' : (fun a => win2_7.index t a * main_v9_0.ty.shape.size a) = fun _ => 0 := funext fun a => Nat.zero_mul _
  show (cfg2.win 7).cut (grid2.coords t) ((dat2 V c).after 7 t) = _
  rw [after2_7]
  unfold out2_7
  rw [View.canon_unit_zero hz2]
  simp only [View.ld_unit_zero (S := S2048x256) hz2, View.ld_unit_zero (S := S1x256) hz2]
  rw [iblk2_0_eq, iblk2_3_eq]
  exact (Memref.read_access_unit_zero (Elt F) main_v9_0 hz' (fun a => by rw [congrFun hz' a]; simp) (G2_d V c)).symm

theorem final2_d (c : Dev nD) : (dat2 V c).arrAt 7 cfg2.N = G2_d V c :=
  (dat2 V c).arrAt_eq_of_cover 7 (G2_d V c) (fun t _ => flushed2_d V c t) fun i =>
    ⟨t2_0, flush2_7 t2_0, by
      show i ∈ ((View.whole main_v9_0).slice (win2_7.rect t2_0)).set
      rw [View.set_slice_whole, Rect.mem_set_unit]
      intro a
      have h0 : (i 0 : Nat) < 1 := (i 0).isLt
      have h1 : (i 1 : Nat) < 2048 := (i 1).isLt
      match a with
      | ⟨0, _⟩ => show win2_7.index t2_0 0 * win2_7.size 0 ≤ (i 0 : Nat) ∧ (i 0 : Nat) < win2_7.index t2_0 0 * win2_7.size 0 + win2_7.xsize (grid2.coords t2_0) 0
                  rw [show win2_7.index t2_0 0 * win2_7.size 0 = 0 from Nat.zero_mul _, show win2_7.xsize (grid2.coords t2_0) 0 = 1 from rfl]; omega
      | ⟨1, _⟩ => show win2_7.index t2_0 1 * win2_7.size 1 ≤ (i 1 : Nat) ∧ (i 1 : Nat) < win2_7.index t2_0 1 * win2_7.size 1 + win2_7.xsize (grid2.coords t2_0) 1
                  rw [show win2_7.index t2_0 1 * win2_7.size 1 = 0 from Nat.zero_mul _, show win2_7.xsize (grid2.coords t2_0) 1 = 2048 from rfl]; omega⟩

theorem flushed2_hw (c : Dev nD) (t : Fin cfg2.N) :
    (dat2 V c).flushed 8 t = ((cfg2.win 8).blk t).view.read (Elt F) (G2_hw V c) := by
  have hz' : (fun a => win2_8.index t a * main_v9_1.ty.shape.size a) = fun _ => 0 := funext fun a => Nat.zero_mul _
  show (cfg2.win 8).cut (grid2.coords t) ((dat2 V c).after 8 t) = _
  rw [after2_8]
  unfold out2_8
  rw [View.canon_unit_zero hz2]
  simp only [View.ld_unit_zero (S := S4096x16) hz2, View.ld_unit_zero (S := S16x16) hz2]
  rw [iblk2_1_eq, iblk2_2_eq]
  exact (Memref.read_access_unit_zero (Elt F) main_v9_1 hz' (fun a => by rw [congrFun hz' a]; simp) (G2_hw V c)).symm

theorem final2_hw (c : Dev nD) : (dat2 V c).arrAt 8 cfg2.N = G2_hw V c :=
  (dat2 V c).arrAt_eq_of_cover 8 (G2_hw V c) (fun t _ => flushed2_hw V c t) fun i =>
    ⟨t2_0, flush2_8 t2_0, by
      show i ∈ ((View.whole main_v9_1).slice (win2_8.rect t2_0)).set
      rw [View.set_slice_whole, Rect.mem_set_unit]
      intro a
      have h0 : (i 0 : Nat) < 4096 := (i 0).isLt
      have h1 : (i 1 : Nat) < 16 := (i 1).isLt
      match a with
      | ⟨0, _⟩ => show win2_8.index t2_0 0 * win2_8.size 0 ≤ (i 0 : Nat) ∧ (i 0 : Nat) < win2_8.index t2_0 0 * win2_8.size 0 + win2_8.xsize (grid2.coords t2_0) 0
                  rw [show win2_8.index t2_0 0 * win2_8.size 0 = 0 from Nat.zero_mul _, show win2_8.xsize (grid2.coords t2_0) 0 = 4096 from rfl]; omega
      | ⟨1, _⟩ => show win2_8.index t2_0 1 * win2_8.size 1 ≤ (i 1 : Nat) ∧ (i 1 : Nat) < win2_8.index t2_0 1 * win2_8.size 1 + win2_8.xsize (grid2.coords t2_0) 1
                  rw [show win2_8.index t2_0 1 * win2_8.size 1 = 0 from Nat.zero_mul _, show win2_8.xsize (grid2.coords t2_0) 1 = 16 from rfl]; omega⟩

theorem flushed2_f2 (c : Dev nD) (t : Fin cfg2.N) :
    (dat2 V c).flushed 9 t = ((cfg2.win 9).blk t).view.read (Elt F) (G2_f2 V c) := by
  have hz' : (fun a => win2_9.index t a * main_v9_2.ty.shape.size a) = fun _ => 0 := funext fun a => Nat.zero_mul _
  show (cfg2.win 9).cut (grid2.coords t) ((dat2 V c).after 9 t) = _
  rw [after2_9]
  unfold out2_9
  rw [View.canon_unit_zero hz2]
  simp only [View.ld_unit_zero (S := S4096x16) hz2, View.ld_unit_zero (S := S16x16) hz2, View.ld_unit_zero (S := S1x16) hz2]
  rw [iblk2_1_eq, iblk2_4_eq, iblk2_5_eq, iblk2_6_eq]
  exact (Memref.read_access_unit_zero (Elt F) main_v9_2 hz' (fun a => by rw [congrFun hz' a]; simp) (G2_f2 V c)).symm

theorem final2_f2 (c : Dev nD) : (dat2 V c).arrAt 9 cfg2.N = G2_f2 V c :=
  (dat2 V c).arrAt_eq_of_cover 9 (G2_f2 V c) (fun t _ => flushed2_f2 V c t) fun i =>
    ⟨t2_0, flush2_9 t2_0, by
      show i ∈ ((View.whole main_v9_2).slice (win2_9.rect t2_0)).set
      rw [View.set_slice_whole, Rect.mem_set_unit]
      intro a
      have h0 : (i 0 : Nat) < 4096 := (i 0).isLt
      have h1 : (i 1 : Nat) < 16 := (i 1).isLt
      match a with
      | ⟨0, _⟩ => show win2_9.index t2_0 0 * win2_9.size 0 ≤ (i 0 : Nat) ∧ (i 0 : Nat) < win2_9.index t2_0 0 * win2_9.size 0 + win2_9.xsize (grid2.coords t2_0) 0
                  rw [show win2_9.index t2_0 0 * win2_9.size 0 = 0 from Nat.zero_mul _, show win2_9.xsize (grid2.coords t2_0) 0 = 4096 from rfl]; omega
      | ⟨1, _⟩ => show win2_9.index t2_0 1 * win2_9.size 1 ≤ (i 1 : Nat) ∧ (i 1 : Nat) < win2_9.index t2_0 1 * win2_9.size 1 + win2_9.xsize (grid2.coords t2_0) 1
                  rw [show win2_9.index t2_0 1 * win2_9.size 1 = 0 from Nat.zero_mul _, show win2_9.xsize (grid2.coords t2_0) 1 = 16 from rfl]; omega⟩

end Generic

section AtIdeal

variable (V : (c : Dev nD) → (b : Ref sig .tc) → Buf (Elt Ideal) ((c : Thread nD τ).loc b))

theorem val2_d (c : Dev nD) (e : Fin 2048) :
    ((dat2 V c).arrAt 7 cfg2.N : S1x2048.Idx → EReal) (ix2 0 e)
      = Cert.Spec.dvec (Cert.Spec.m2 (V c (Pipeline.arrRef spec2 0) : S2048x256.Idx → EReal)) (Cert.Spec.row (V c (Pipeline.arrRef spec2 3) : S1x256.Idx → EReal)) e := by
  rw [final2_d]
  exact k2_d_spec _ _ e

theorem val2_hw (c : Dev nD) (n : Fin 4096) (f : Fin 16) :
    ((dat2 V c).arrAt 8 cfg2.N : S4096x16.Idx → EReal) (ix2 n f)
      = Cert.Spec.mm (Cert.Spec.reluM (Cert.Spec.m2 (V c (Pipeline.arrRef spec2 1) : S4096x16.Idx → EReal))) (Cert.Spec.m2 (V c (Pipeline.arrRef spec2 2) : S16x16.Idx → EReal)) n f := by
  rw [final2_hw]
  exact k2_hw_spec _ _ n f

theorem val2_f2 (c : Dev nD) (n : Fin 4096) (f : Fin 16) :
    ((dat2 V c).arrAt 9 cfg2.N : S4096x16.Idx → EReal) (ix2 n f)
      = Cert.Spec.reluM (Cert.Spec.layernorm Cert.Spec.len16
          (Cert.Spec.mm (Cert.Spec.m2 (V c (Pipeline.arrRef spec2 1) : S4096x16.Idx → EReal)) (Cert.Spec.m2 (V c (Pipeline.arrRef spec2 4) : S16x16.Idx → EReal)))
          (Cert.Spec.row (V c (Pipeline.arrRef spec2 5) : S1x16.Idx → EReal)) (Cert.Spec.row (V c (Pipeline.arrRef spec2 6) : S1x16.Idx → EReal))) n f := by
  rw [final2_f2]
  exact k2_f2_spec _ _ _ _ n f

end AtIdeal

end Cert.KernelIdeal.HandVal

end
-- ==== Proof.KI.Pay3.lean ====
/-
  The fused layer kernel of the second graph convolution (the edge layer: grid of 16 column blocks of the edge adjacency, Tm the transposed incidence table 4096 × 2048, 16 features), its PAYLOADS read at an index at the ideal
  instance: the statements and proofs of the first layer's, at this layer's sizes and names.
-/
import proofs.«109581_g76012331204772_cont_9to1_m_125_6_alg».proof.Proof.KI.Pay1

noncomputable section

open scoped BigOperators

namespace Cert.KernelIdeal.PayVal

open Cert.KernelIdeal Cert.KernelIdeal.Gen Idealize.ShloMosaic Idealize.ShloMosaic.ValueIdx

/-! ## The first contraction: both operands on their second axis -/

theorem lhsA3_0 (i : S4096x256.Idx) (q : dot_S4096x2048_S256x2048_S4096x256_1_1_0_0_n_n.contr.Idx) :
    (dot_S4096x2048_S256x2048_S4096x256_1_1_0_0_n_n.lhsIdx i q 0).val = (i 0).val := by
  unfold DotDims.lhsIdx
  rw [dif_neg (show ¬(0 : Fin S4096x2048.rank) ∈ dot_S4096x2048_S256x2048_S4096x256_1_1_0_0_n_n.lhsBatch by decide), dif_pos (show (0 : Fin S4096x2048.rank) ∈ dot_S4096x2048_S256x2048_S4096x256_1_1_0_0_n_n.lhsNonContracting by decide)]
  rfl
theorem lhsA3_1 (i : S4096x256.Idx) (q : dot_S4096x2048_S256x2048_S4096x256_1_1_0_0_n_n.contr.Idx) :
    (dot_S4096x2048_S256x2048_S4096x256_1_1_0_0_n_n.lhsIdx i q 1).val = (q ⟨0, by decide⟩).val :=
  dot_S4096x2048_S256x2048_S4096x256_1_1_0_0_n_n.lhsIdx_val_of_single rfl i q
theorem rhsA3_0 (i : S4096x256.Idx) (q : dot_S4096x2048_S256x2048_S4096x256_1_1_0_0_n_n.contr.Idx) :
    (dot_S4096x2048_S256x2048_S4096x256_1_1_0_0_n_n.rhsIdx i q 0).val = (i 1).val := by
  unfold DotDims.rhsIdx
  rw [dif_neg (show ¬(0 : Fin S256x2048.rank) ∈ dot_S4096x2048_S256x2048_S4096x256_1_1_0_0_n_n.rhsBatch by decide), dif_pos (show (0 : Fin S256x2048.rank) ∈ dot_S4096x2048_S256x2048_S4096x256_1_1_0_0_n_n.rhsNonContracting by decide)]
  rfl
theorem rhsA3_1 (i : S4096x256.Idx) (q : dot_S4096x2048_S256x2048_S4096x256_1_1_0_0_n_n.contr.Idx) :
    (dot_S4096x2048_S256x2048_S4096x256_1_1_0_0_n_n.rhsIdx i q 1).val = (q ⟨0, by decide⟩).val :=
  dot_S4096x2048_S256x2048_S4096x256_1_1_0_0_n_n.rhsIdx_val_of_single rfl i q

/-- The first contraction (both operands on their second axis) into the zero splat: `∑ j, x(r, j) · y(c, j)`. -/
theorem matmulA3_apply (x : FVec Ideal S4096x2048 .f32) (y : FVec Ideal S256x2048 .f32) (r : Fin 4096) (c : Fin 256) :
    matmul dot_S4096x2048_S256x2048_S4096x256_1_1_0_0_n_n none x y (constant (F := Ideal) S4096x256 .f32 0x00000000#32) (ix2 r c)
      = ∑ j : Fin 2048, x (ix2 r j) * y (ix2 c j) := by
  refine (Ideal.matmul_constant_zero_apply dot_S4096x2048_S256x2048_S4096x256_1_1_0_0_n_n none x y (ix2 r c)).trans ?_
  rw [← Equiv.sum_comp (contrEquiv1 dot_S4096x2048_S256x2048_S4096x256_1_1_0_0_n_n 2048 rfl rfl).symm]
  refine Finset.sum_congr rfl fun k _ => ?_
  have hk := contrEquiv1_symm_val dot_S4096x2048_S256x2048_S4096x256_1_1_0_0_n_n 2048 rfl rfl k
  have el : dot_S4096x2048_S256x2048_S4096x256_1_1_0_0_n_n.lhsIdx (ix2 r c) ((contrEquiv1 dot_S4096x2048_S256x2048_S4096x256_1_1_0_0_n_n 2048 rfl rfl).symm k) = ix2 r k := funext fun a => Fin.ext (by
    match a with
    | ⟨0, _⟩ => exact lhsA3_0 _ _
    | ⟨1, _⟩ => exact (lhsA3_1 _ _).trans hk)
  have er : dot_S4096x2048_S256x2048_S4096x256_1_1_0_0_n_n.rhsIdx (ix2 r c) ((contrEquiv1 dot_S4096x2048_S256x2048_S4096x256_1_1_0_0_n_n 2048 rfl rfl).symm k) = ix2 c k := funext fun a => Fin.ext (by
    match a with
    | ⟨0, _⟩ => exact rhsA3_0 _ _
    | ⟨1, _⟩ => exact (rhsA3_1 _ _).trans hk)
  rw [el, er]

/-! ## The second contraction: the plain product -/

theorem lhsB3_0 (i : S4096x16.Idx) (q : dot_S4096x256_S256x16_S4096x16_1_0_0_1_n_n.contr.Idx) :
    (dot_S4096x256_S256x16_S4096x16_1_0_0_1_n_n.lhsIdx i q 0).val = (i 0).val := by
  unfold DotDims.lhsIdx
  rw [dif_neg (show ¬(0 : Fin S4096x256.rank) ∈ dot_S4096x256_S256x16_S4096x16_1_0_0_1_n_n.lhsBatch by decide), dif_pos (show (0 : Fin S4096x256.rank) ∈ dot_S4096x256_S256x16_S4096x16_1_0_0_1_n_n.lhsNonContracting by decide)]
  rfl
theorem lhsB3_1 (i : S4096x16.Idx) (q : dot_S4096x256_S256x16_S4096x16_1_0_0_1_n_n.contr.Idx) :
    (dot_S4096x256_S256x16_S4096x16_1_0_0_1_n_n.lhsIdx i q 1).val = (q ⟨0, by decide⟩).val :=
  dot_S4096x256_S256x16_S4096x16_1_0_0_1_n_n.lhsIdx_val_of_single rfl i q
theorem rhsB3_0 (i : S4096x16.Idx) (q : dot_S4096x256_S256x16_S4096x16_1_0_0_1_n_n.contr.Idx) :
    (dot_S4096x256_S256x16_S4096x16_1_0_0_1_n_n.rhsIdx i q 0).val = (q ⟨0, by decide⟩).val :=
  dot_S4096x256_S256x16_S4096x16_1_0_0_1_n_n.rhsIdx_val_of_single rfl i q
theorem rhsB3_1 (i : S4096x16.Idx) (q : dot_S4096x256_S256x16_S4096x16_1_0_0_1_n_n.contr.Idx) :
    (dot_S4096x256_S256x16_S4096x16_1_0_0_1_n_n.rhsIdx i q 1).val = (i 1).val := by
  unfold DotDims.rhsIdx
  rw [dif_neg (show ¬(1 : Fin S256x16.rank) ∈ dot_S4096x256_S256x16_S4096x16_1_0_0_1_n_n.rhsBatch by decide), dif_pos (show (1 : Fin S256x16.rank) ∈ dot_S4096x256_S256x16_S4096x16_1_0_0_1_n_n.rhsNonContracting by decide)]
  rfl

/-- The second contraction (the plain product) into the zero splat: `∑ c, x(r, c) · y(c, f)`. -/
theorem matmulB3_apply (x : FVec Ideal S4096x256 .f32) (y : FVec Ideal S256x16 .f32) (r : Fin 4096) (f : Fin 16) :
    matmul dot_S4096x256_S256x16_S4096x16_1_0_0_1_n_n none x y (constant (F := Ideal) S4096x16 .f32 0x00000000#32) (ix2 r f)
      = ∑ c : Fin 256, x (ix2 r c) * y (ix2 c f) := by
  refine (Ideal.matmul_constant_zero_apply dot_S4096x256_S256x16_S4096x16_1_0_0_1_n_n none x y (ix2 r f)).trans ?_
  rw [← Equiv.sum_comp (contrEquiv1 dot_S4096x256_S256x16_S4096x16_1_0_0_1_n_n 256 rfl rfl).symm]
  refine Finset.sum_congr rfl fun k _ => ?_
  have hk := contrEquiv1_symm_val dot_S4096x256_S256x16_S4096x16_1_0_0_1_n_n 256 rfl rfl k
  have el : dot_S4096x256_S256x16_S4096x16_1_0_0_1_n_n.lhsIdx (ix2 r f) ((contrEquiv1 dot_S4096x256_S256x16_S4096x16_1_0_0_1_n_n 256 rfl rfl).symm k) = ix2 r k := funext fun a => Fin.ext (by
    match a with
    | ⟨0, _⟩ => exact lhsB3_0 _ _
    | ⟨1, _⟩ => exact (lhsB3_1 _ _).trans hk)
  have er : dot_S4096x256_S256x16_S4096x16_1_0_0_1_n_n.rhsIdx (ix2 r f) ((contrEquiv1 dot_S4096x256_S256x16_S4096x16_1_0_0_1_n_n 256 rfl rfl).symm k) = ix2 k f := funext fun a => Fin.ext (by
    match a with
    | ⟨0, _⟩ => exact (rhsB3_0 _ _).trans hk
    | ⟨1, _⟩ => exact rhsB3_1 _ _)
  rw [el, er]

/-! ## The payloads at an index -/

/-- The block's contribution at (r, f). -/
theorem k3_pay1_apply (i : grid3.Coords) (v2 : Vec Ideal S256x2048 .f32) (v4 : Vec Ideal S1x2048 .f32) (v8 : Vec Ideal S4096x2048 .f32)
    (v11 : Vec Ideal S4096x256 .f32) (v22 : Vec Ideal S256x16 .f32) (r : Fin 4096) (f : Fin 16) :
    k3_pay1 (F := Ideal) i v2 v4 v8 v11 v22 (ix2 r f)
      = ∑ c : Fin 256, (if r.val = (i 0).val * 256 + c.val then v11 (ix2 r c)
          else (∑ j : Fin 2048, v8 (ix2 r j) * (v2 (ix2 c j) * v4 (ix2 0 j))) * v11 (ix2 r c)) * v22 (ix2 c f) := by
  have hk : (i 0).val < 16 := Nat.lt_of_lt_of_le (i 0).isLt (by decide)
  unfold k3_pay1
  simp only [shapeCast_self]
  refine (matmulB3_apply _ _ r f).trans ?_
  refine Finset.sum_congr rfl fun c _ => ?_
  refine congrArg (· * v22 (ix2 c f)) ?_
  rw [select_apply]
  show Scalar.select (IntOp.cmpi .eq (iota .tc S4096x256 32 [0] iota_S4096x256_d0_w32 (ix2 r c))
      (IntOp.addi (iota .tc S4096x256 32 [1] iota_S4096x256_d1_w32 (ix2 r c)) (Scalar.muli (BitVec.ofNat 32 (i 0).val) 256#32))) _ _ = _
  rw [iota_single_apply, iota_single_apply]
  refine (select_diag (i 0).val r.val c.val hk (Nat.lt_of_lt_of_le r.isLt (by decide)) c.isLt _ _).trans ?_
  by_cases h : r.val = (i 0).val * 256 + c.val
  · rw [if_pos h, if_pos h]
  · rw [if_neg h, if_neg h, mulf_apply, matmulA3_apply]
    refine congrArg (· * v11 (ix2 r c)) (Finset.sum_congr rfl fun j _ => ?_)
    rw [mulf_apply, broadcastTo_1b_ab_apply]

/-- The first point's store: the bias row plus the contribution. -/
theorem k3_pay2_apply (i : grid3.Coords) (v2 : Vec Ideal S256x2048 .f32) (v4 : Vec Ideal S1x2048 .f32) (v8 : Vec Ideal S4096x2048 .f32)
    (v11 : Vec Ideal S4096x256 .f32) (v22 : Vec Ideal S256x16 .f32) (v34 : Vec Ideal S1x16 .f32) (r : Fin 4096) (f : Fin 16) :
    k3_pay2 (F := Ideal) i v2 v4 v8 v11 v22 v34 (ix2 r f) = v34 (ix2 0 f) + k3_pay1 (F := Ideal) i v2 v4 v8 v11 v22 (ix2 r f) := by
  unfold k3_pay2
  simp only [shapeCast_self]
  rw [addf_apply, broadcastTo_1b_ab_apply]

/-- A later point's store: the block so far plus the contribution. -/
theorem k3_pay3_apply (i : grid3.Coords) (v2 : Vec Ideal S256x2048 .f32) (v4 : Vec Ideal S1x2048 .f32) (v8 : Vec Ideal S4096x2048 .f32)
    (v11 : Vec Ideal S4096x256 .f32) (v22 : Vec Ideal S256x16 .f32) (v34 : Vec Ideal S4096x16 .f32) (r : Fin 4096) (f : Fin 16) :
    k3_pay3 (F := Ideal) i v2 v4 v8 v11 v22 v34 (ix2 r f) = v34 (ix2 r f) + k3_pay1 (F := Ideal) i v2 v4 v8 v11 v22 (ix2 r f) := by
  unfold k3_pay3
  simp only [shapeCast_self]
  rw [addf_apply]

/-- The last point's store: the maximum with zero. -/
theorem k3_pay4_apply (v34 : Vec Ideal S4096x16 .f32) (r : Fin 4096) (f : Fin 16) :
    k3_pay4 (F := Ideal) v34 (ix2 r f) = max (v34 (ix2 r f)) 0 := by
  unfold k3_pay4
  simp only [shapeCast_self]
  rw [maximumf_apply, broadcast_apply]
  exact congrArg (max (v34 (ix2 r f))) Ideal.ofBits_zero_f32

end Cert.KernelIdeal.PayVal

end
-- ==== Proof.KI.Val3.lean ====
/-
  The value of the second graph convolution (the edge layer)'s fused region at the ideal instance. The region's output array after its
  sixteen points is, element by element, relu (gc T d adj HW b): the resident windows' blocks are the arrays, the
  adjacency's block at point k is its columns 256 k … 256 k + 255, so point k contributes the k-th block of
  ∑ m, coef(r, m) · HW(m, f); the output block stays in its buffer and is accumulated from the bias row on, the last
  point takes the maximum with zero, and the block is written back once, after the last point.
-/
import proofs.«109581_g76012331204772_cont_9to1_m_125_6_alg».proof.Proof.KI.Reg3
import proofs.«109581_g76012331204772_cont_9to1_m_125_6_alg».proof.Proof.KI.Pay3
import proofs.«109581_g76012331204772_cont_9to1_m_125_6_alg».proof.Proof.Algebra
import proofs.«109581_g76012331204772_cont_9to1_m_125_6_alg».proof.Proof.Spec
import Idealize.ShloMosaic.Lib.Pipeline.Value
import Idealize.ShloMosaic.Lib.ValueIdx

set_option maxRecDepth 16384

noncomputable section

open scoped BigOperators

namespace Cert.KernelIdeal.HandVal

open Cert.KernelIdeal Cert.KernelIdeal.Gen Cert.KernelIdeal.Hand Cert.KernelIdeal.PayVal
open Idealize.ShloMosaic Idealize.ShloMosaic.TcCoe Idealize.ShloMosaic.ValueIdx Idealize.SL.Sem
open Idealize.ShloMosaic.Pipeline (Dat)
open Cert.Spec

variable (V : (c : Dev nD) → (b : Ref sig .tc) → Buf (Elt Ideal) ((c : Thread nD τ).loc b))

/-! ## The region's arrays -/

/-- The weights `d` (1 × 2048), the table `T` (4096 × 2048), the adjacency (4096 × 4096), `HW` (4096 × 16) and the
    bias row (1 × 16), as the region finds them. -/
abbrev arr3_d (c : Dev nD) : Vec Ideal S1x2048 .f32 := V c (Pipeline.arrRef spec3 0)
abbrev arr3_T (c : Dev nD) : Vec Ideal S4096x2048 .f32 := V c (Pipeline.arrRef spec3 1)
abbrev arr3_adj (c : Dev nD) : Vec Ideal S4096x4096 .f32 := V c (Pipeline.arrRef spec3 2)
abbrev arr3_HW (c : Dev nD) : Vec Ideal S4096x16 .f32 := V c (Pipeline.arrRef spec3 3)
abbrev arr3_b (c : Dev nD) : Vec Ideal S1x16 .f32 := V c (Pipeline.arrRef spec3 4)

/-! ## The grid and the block indices -/

/-- The grid's one coordinate is the point's number. -/
theorem coords3_val : ∀ t : Fin cfg3.N, (grid3.coords t 0).val = t.val :=
  (by decide +kernel : ∀ t : Fin grid3.N, (grid3.coords t 0).val = t.val)

/-- The resident windows' block index is zero at every point; the adjacency's moves along its columns. -/
theorem idx3_0 : ∀ t : Fin cfg3.N, win3_0.index t 0 = 0 ∧ win3_0.index t 1 = 0 :=
  (by decide +kernel : ∀ t : Fin grid3.N, win3_0.index t 0 = 0 ∧ win3_0.index t 1 = 0)
theorem idx3_1 : ∀ t : Fin cfg3.N, win3_1.index t 0 = 0 ∧ win3_1.index t 1 = 0 :=
  (by decide +kernel : ∀ t : Fin grid3.N, win3_1.index t 0 = 0 ∧ win3_1.index t 1 = 0)
theorem idx3_2 : ∀ t : Fin cfg3.N, win3_2.index t 0 = 0 ∧ win3_2.index t 1 = t.val :=
  (by decide +kernel : ∀ t : Fin grid3.N, win3_2.index t 0 = 0 ∧ win3_2.index t 1 = t.val)
theorem idx3_3 : ∀ t : Fin cfg3.N, win3_3.index t 0 = 0 ∧ win3_3.index t 1 = 0 :=
  (by decide +kernel : ∀ t : Fin grid3.N, win3_3.index t 0 = 0 ∧ win3_3.index t 1 = 0)
theorem idx3_4 : ∀ t : Fin cfg3.N, win3_4.index t 0 = 0 ∧ win3_4.index t 1 = 0 :=
  (by decide +kernel : ∀ t : Fin grid3.N, win3_4.index t 0 = 0 ∧ win3_4.index t 1 = 0)
theorem idx3_5 : ∀ t : Fin cfg3.N, win3_5.index t 0 = 0 ∧ win3_5.index t 1 = 0 :=
  (by decide +kernel : ∀ t : Fin grid3.N, win3_5.index t 0 = 0 ∧ win3_5.index t 1 = 0)

/-! ## The windows' blocks, from the arrays -/

theorem iblk3_0_eq (c : Dev nD) (t : Fin cfg3.N) : (iblk3 V c 0 t : Vec Ideal S1x2048 .f32) = arr3_d V c := by
  funext j
  have hi := idx3_0 t
  unfold iblk3
  rw [View.read_apply]
  show V c (Pipeline.arrRef spec3 0) _ = V c (Pipeline.arrRef spec3 0) j
  congr 1
  funext a
  apply Fin.ext
  match a with
  | ⟨0, _⟩ => show win3_0.index t 0 * 1 + 1 * (j 0).val = (j 0).val; rw [hi.1]; omega
  | ⟨1, _⟩ => show win3_0.index t 1 * 2048 + 1 * (j 1).val = (j 1).val; rw [hi.2]; omega

theorem iblk3_1_eq (c : Dev nD) (t : Fin cfg3.N) : (iblk3 V c 1 t : Vec Ideal S4096x2048 .f32) = arr3_T V c := by
  funext j
  have hi := idx3_1 t
  unfold iblk3
  rw [View.read_apply]
  show V c (Pipeline.arrRef spec3 1) _ = V c (Pipeline.arrRef spec3 1) j
  congr 1
  funext a
  apply Fin.ext
  match a with
  | ⟨0, _⟩ => show win3_1.index t 0 * 4096 + 1 * (j 0).val = (j 0).val; rw [hi.1]; omega
  | ⟨1, _⟩ => show win3_1.index t 1 * 2048 + 1 * (j 1).val = (j 1).val; rw [hi.2]; omega

/-- The adjacency's block at point `t` is its columns `256 t … 256 t + 255`. -/
theorem iblk3_2_apply (c : Dev nD) (t : Fin cfg3.N) (r : Fin 4096) (cc : Fin 256) (h : t.val * 256 + cc.val < 4096) :
    (iblk3 V c 2 t : Vec Ideal S4096x256 .f32) (ix2 r cc) = arr3_adj V c (ix2 r ⟨t.val * 256 + cc.val, h⟩) := by
  have hi := idx3_2 t
  unfold iblk3
  rw [View.read_apply]
  show V c (Pipeline.arrRef spec3 2) _ = V c (Pipeline.arrRef spec3 2) (ix2 r ⟨t.val * 256 + cc.val, h⟩)
  congr 1
  funext a
  apply Fin.ext
  match a with
  | ⟨0, _⟩ => show win3_2.index t 0 * 4096 + 1 * r.val = r.val; rw [hi.1]; omega
  | ⟨1, _⟩ => show win3_2.index t 1 * 256 + 1 * cc.val = t.val * 256 + cc.val; rw [hi.2]; omega

theorem iblk3_3_eq (c : Dev nD) (t : Fin cfg3.N) : (iblk3 V c 3 t : Vec Ideal S4096x16 .f32) = arr3_HW V c := by
  funext j
  have hi := idx3_3 t
  unfold iblk3
  rw [View.read_apply]
  show V c (Pipeline.arrRef spec3 3) _ = V c (Pipeline.arrRef spec3 3) j
  congr 1
  funext a
  apply Fin.ext
  match a with
  | ⟨0, _⟩ => show win3_3.index t 0 * 4096 + 1 * (j 0).val = (j 0).val; rw [hi.1]; omega
  | ⟨1, _⟩ => show win3_3.index t 1 * 16 + 1 * (j 1).val = (j 1).val; rw [hi.2]; omega

theorem iblk3_4_eq (c : Dev nD) (t : Fin cfg3.N) : (iblk3 V c 4 t : Vec Ideal S1x16 .f32) = arr3_b V c := by
  funext j
  have hi := idx3_4 t
  unfold iblk3
  rw [View.read_apply]
  show V c (Pipeline.arrRef spec3 4) _ = V c (Pipeline.arrRef spec3 4) j
  congr 1
  funext a
  apply Fin.ext
  match a with
  | ⟨0, _⟩ => show win3_4.index t 0 * 1 + 1 * (j 0).val = (j 0).val; rw [hi.1]; omega
  | ⟨1, _⟩ => show win3_4.index t 1 * 16 + 1 * (j 1).val = (j 1).val; rw [hi.2]; omega

/-! ## The body's row slices, from the arrays -/

/-- The rows of `T` that face point `i`'s column block: row `cc` of the slice is row `256 i + cc`. -/
theorem ld3_Trows (i : grid3.Coords) (T : Vec Ideal S4096x2048 .f32) (cc : Fin 256) (j : Fin 2048)
    (h : (i 0).val * 256 + cc.val < 4096) :
    View.ld T (r3_Trows i) (ix2 cc j) = T (ix2 ⟨(i 0).val * 256 + cc.val, h⟩ j) := by
  show T ((r3_Trows i).idx (ix2 cc j)) = _
  congr 1
  funext a
  apply Fin.ext
  match a with
  | ⟨0, _⟩ => show k3_off1 i 0 + 1 * cc.val = (i 0).val * 256 + cc.val; rw [k3_off1_eq]; show 256 * (i 0).val + 1 * cc.val = _; omega
  | ⟨1, _⟩ => show k3_off1 i 1 + 1 * j.val = j.val; rw [k3_off1_eq]; show 0 + 1 * j.val = _; omega

/-- The rows of `HW` that face it, likewise. -/
theorem ld3_Hrows (i : grid3.Coords) (H : Vec Ideal S4096x16 .f32) (cc : Fin 256) (f : Fin 16)
    (h : (i 0).val * 256 + cc.val < 4096) :
    View.ld H (r3_Hrows i) (ix2 cc f) = H (ix2 ⟨(i 0).val * 256 + cc.val, h⟩ f) := by
  show H ((r3_Hrows i).idx (ix2 cc f)) = _
  congr 1
  funext a
  apply Fin.ext
  match a with
  | ⟨0, _⟩ => show k3_off2 i 0 + 1 * cc.val = (i 0).val * 256 + cc.val; rw [k3_off2_eq]; show 256 * (i 0).val + 1 * cc.val = _; omega
  | ⟨1, _⟩ => show k3_off2 i 1 + 1 * f.val = f.val; rw [k3_off2_eq]; show 0 + 1 * f.val = _; omega

/-! ## One point's contribution -/

/-- Block `k` of `∑ m, coef(r, m) · HW(m, f)`: the columns `256 k … 256 k + 255`. -/
def blk3 (c : Dev nD) (r : Fin 4096) (f : Fin 16) (k : ℕ) : EReal :=
  if hk : k < 16 then
    ∑ cc : Fin 256,
      Cert.Algebra.coefK (m2 (arr3_T V c)) (row (arr3_d V c)) (m2 (arr3_adj V c)) r ⟨k * 256 + cc.val, by have := cc.isLt; omega⟩
        * m2 (arr3_HW V c) ⟨k * 256 + cc.val, by have := cc.isLt; omega⟩ f
  else 0

/-- The contribution the body computes at point `t` is block `t`: over the arrays for the resident windows and any
    block `x2` that holds the adjacency's columns `256 t …`. -/
theorem pay3_at (c : Dev nD) (t : Fin cfg3.N) (x2 : Vec Ideal S4096x256 .f32)
    (h2 : ∀ (r : Fin 4096) (cc : Fin 256) (h : t.val * 256 + cc.val < 4096), x2 (ix2 r cc) = arr3_adj V c (ix2 r ⟨t.val * 256 + cc.val, h⟩))
    (r : Fin 4096) (f : Fin 16) :
    k3_pay1 (F := Ideal) (grid3.coords t) (View.ld (arr3_T V c) (r3_Trows (grid3.coords t))) (View.ld (arr3_d V c) r3_d)
        (View.ld (arr3_T V c) r3_T) (View.ld x2 r3_adj) (View.ld (arr3_HW V c) (r3_Hrows (grid3.coords t))) (ix2 r f)
      = blk3 V c r f t.val := by
  have ht : t.val < 16 := lt_of_lt_of_eq t.isLt (show cfg3.N = 16 from N_3)
  have hc0 : (grid3.coords t 0).val = t.val := coords3_val t
  rw [k3_pay1_apply]
  unfold blk3
  rw [dif_pos ht]
  refine Finset.sum_congr rfl fun cc _ => ?_
  have hlt : t.val * 256 + cc.val < 4096 := by have := cc.isLt; omega
  have hlt' : (grid3.coords t 0).val * 256 + cc.val < 4096 := by rw [hc0]; exact hlt
  have e_adj : View.ld x2 r3_adj (ix2 r cc) = arr3_adj V c (ix2 r ⟨t.val * 256 + cc.val, hlt⟩) :=
    (congrFun (View.ld_unit_zero (S := S4096x256) zero2_3 inb_S4096x256_S4096x256_0_0 x2) (ix2 r cc)).trans (h2 r cc hlt)
  have e_T : ∀ j : Fin 2048, View.ld (arr3_T V c) r3_T (ix2 r j) = arr3_T V c (ix2 r j) := fun j =>
    congrFun (View.ld_unit_zero (S := S4096x2048) zero2_3 inb_S4096x2048_S4096x2048_0_0 (arr3_T V c)) (ix2 r j)
  have e_d : ∀ j : Fin 2048, View.ld (arr3_d V c) r3_d (ix2 0 j) = arr3_d V c (ix2 0 j) := fun j =>
    congrFun (View.ld_unit_zero (S := S1x2048) zero2_3 inb_S1x2048_S1x2048_0_0 (arr3_d V c)) (ix2 0 j)
  have e_Tr : ∀ j : Fin 2048, View.ld (arr3_T V c) (r3_Trows (grid3.coords t)) (ix2 cc j)
      = arr3_T V c (ix2 ⟨t.val * 256 + cc.val, hlt⟩ j) := fun j =>
    (ld3_Trows (grid3.coords t) (arr3_T V c) cc j hlt').trans (by congr 2; exact Fin.ext (by show (grid3.coords t 0).val * 256 + cc.val = t.val * 256 + cc.val; omega))
  have e_H : View.ld (arr3_HW V c) (r3_Hrows (grid3.coords t)) (ix2 cc f)
      = arr3_HW V c (ix2 ⟨t.val * 256 + cc.val, hlt⟩ f) :=
    (ld3_Hrows (grid3.coords t) (arr3_HW V c) cc f hlt').trans (by congr 2; exact Fin.ext (by show (grid3.coords t 0).val * 256 + cc.val = t.val * 256 + cc.val; omega))
  rw [e_adj, e_H, hc0]
  simp only [e_T, e_d, e_Tr]
  show _ = (if r = ⟨t.val * 256 + cc.val, hlt⟩ then arr3_adj V c (ix2 r ⟨t.val * 256 + cc.val, hlt⟩)
      else (∑ j : Fin 2048, arr3_T V c (ix2 r j) * (arr3_T V c (ix2 ⟨t.val * 256 + cc.val, hlt⟩ j) * arr3_d V c (ix2 0 j)))
        * arr3_adj V c (ix2 r ⟨t.val * 256 + cc.val, hlt⟩)) * arr3_HW V c (ix2 ⟨t.val * 256 + cc.val, hlt⟩ f)
  congr 1
  exact if_congr (Fin.ext_iff (a := r) (b := ⟨t.val * 256 + cc.val, hlt⟩)).symm rfl rfl

/-- The first point's store at (r, f): the bias plus block `t`. -/
theorem out3_A_apply (c : Dev nD) (t : Fin cfg3.N) (x0 : Vec Ideal S1x2048 .f32) (x1 : Vec Ideal S4096x2048 .f32)
    (x2 : Vec Ideal S4096x256 .f32) (x3 : Vec Ideal S4096x16 .f32) (x4 : Vec Ideal S1x16 .f32)
    (h0 : x0 = arr3_d V c) (h1 : x1 = arr3_T V c)
    (h2 : ∀ (r : Fin 4096) (cc : Fin 256) (h : t.val * 256 + cc.val < 4096), x2 (ix2 r cc) = arr3_adj V c (ix2 r ⟨t.val * 256 + cc.val, h⟩))
    (h3 : x3 = arr3_HW V c) (h4 : x4 = arr3_b V c) (r : Fin 4096) (f : Fin 16) :
    out3_A (grid3.coords t) x0 x1 x2 x3 x4 (ix2 r f) = row (arr3_b V c) f + blk3 V c r f t.val := by
  subst h0 h1 h3 h4
  unfold out3_A
  rw [k3_pay2_apply, pay3_at V c t x2 h2 r f]
  exact congrArg (· + blk3 V c r f t.val)
    (congrFun (View.ld_unit_zero (S := S1x16) zero2_3 inb_S1x16_S1x16_0_0 (arr3_b V c)) (ix2 0 f))

/-- A later point's store at (r, f): what the buffer held plus block `t`. -/
theorem out3_B_apply (c : Dev nD) (t : Fin cfg3.N) (x0 : Vec Ideal S1x2048 .f32) (x1 : Vec Ideal S4096x2048 .f32)
    (x2 : Vec Ideal S4096x256 .f32) (x3 : Vec Ideal S4096x16 .f32) (prev : Vec Ideal S4096x16 .f32)
    (h0 : x0 = arr3_d V c) (h1 : x1 = arr3_T V c)
    (h2 : ∀ (r : Fin 4096) (cc : Fin 256) (h : t.val * 256 + cc.val < 4096), x2 (ix2 r cc) = arr3_adj V c (ix2 r ⟨t.val * 256 + cc.val, h⟩))
    (h3 : x3 = arr3_HW V c) (r : Fin 4096) (f : Fin 16) :
    out3_B (grid3.coords t) x0 x1 x2 x3 prev (ix2 r f) = prev (ix2 r f) + blk3 V c r f t.val := by
  subst h0 h1 h3
  unfold out3_B
  rw [k3_pay3_apply, pay3_at V c t x2 h2 r f]

/-! ## The accumulation -/

/-- The accumulation without the last point's maximum. -/
def accAt3 (c : Dev nD) : (n : ℕ) → n < cfg3.N → Vec Ideal S4096x16 .f32
  | 0, hn => out3_A (grid3.coords ⟨0, hn⟩) (iblk3 V c 0 ⟨0, hn⟩) (iblk3 V c 1 ⟨0, hn⟩) (iblk3 V c 2 ⟨0, hn⟩) (iblk3 V c 3 ⟨0, hn⟩) (iblk3 V c 4 ⟨0, hn⟩)
  | n + 1, hn => out3_B (grid3.coords ⟨n + 1, hn⟩) (iblk3 V c 0 ⟨n + 1, hn⟩) (iblk3 V c 1 ⟨n + 1, hn⟩) (iblk3 V c 2 ⟨n + 1, hn⟩) (iblk3 V c 3 ⟨n + 1, hn⟩) (accAt3 c n (Nat.lt_of_succ_lt hn))

/-- Before the last point the buffer holds the accumulation; -/
theorem outsAt3_eq_acc (c : Dev nD) : ∀ (n : ℕ) (hn : n < cfg3.N), n < 15 → outsAt3 V c n hn = accAt3 V c n hn
  | 0, hn, _ => rfl
  | n + 1, hn, h7 => by
    show (if n + 1 = 15 then _ else out3_B _ _ _ _ _ (outsAt3 V c n _)) = out3_B _ _ _ _ _ (accAt3 V c n _)
    rw [if_neg (by omega), outsAt3_eq_acc c n _ (by omega)]

/-- after the last one, its maximum with zero. -/
theorem outsAt3_last (c : Dev nD) (hn : 15 < cfg3.N) : outsAt3 V c 15 hn = k3_pay4 (accAt3 V c 15 hn) := by
  show (if 14 + 1 = 15 then out3_C _ _ _ _ _ (outsAt3 V c 14 _) else _) = _
  rw [if_pos rfl, outsAt3_eq_acc V c 14 _ (by decide)]
  rfl

/-- The accumulation ends at the layer's value before the ramp. -/
theorem accAt3_last (c : Dev nD) (hn : 15 < cfg3.N) (r : Fin 4096) (f : Fin 16) :
    accAt3 V c 15 hn (ix2 r f)
      = gc (m2 (arr3_T V c)) (row (arr3_d V c)) (m2 (arr3_adj V c)) (m2 (arr3_HW V c)) (row (arr3_b V c)) r f := by
  have hN : cfg3.N = 16 := N_3
  have key := Cert.Algebra.gc_of_blocks_4096 (m2 (arr3_T V c)) (row (arr3_d V c)) (m2 (arr3_adj V c)) (m2 (arr3_HW V c))
    (row (arr3_b V c)) r f (fun n => if h : n < cfg3.N then accAt3 V c n h (ix2 r f) else 0) (blk3 V c r f)
    (fun k hk => by unfold blk3; rw [dif_pos hk])
    (by
      show (if h : 0 < cfg3.N then accAt3 V c 0 h (ix2 r f) else 0) = _
      rw [dif_pos (by omega)]
      exact out3_A_apply V c ⟨0, by omega⟩ _ _ _ _ _ (iblk3_0_eq V c _) (iblk3_1_eq V c _)
        (fun r cc h => iblk3_2_apply V c _ r cc h) (iblk3_3_eq V c _) (iblk3_4_eq V c _) r f)
    (fun k hk => by
      show (if h : k + 1 < cfg3.N then accAt3 V c (k + 1) h (ix2 r f) else 0)
        = (if h : k < cfg3.N then accAt3 V c k h (ix2 r f) else 0) + _
      rw [dif_pos (by omega), dif_pos (by omega)]
      exact out3_B_apply V c ⟨k + 1, by omega⟩ _ _ _ _ (accAt3 V c k (by omega)) (iblk3_0_eq V c _) (iblk3_1_eq V c _)
        (fun r cc h => iblk3_2_apply V c _ r cc h) (iblk3_3_eq V c _) r f)
  rw [← key]
  show _ = (if h : 15 < cfg3.N then accAt3 V c 15 h (ix2 r f) else 0)
  rw [dif_pos hn]

/-! ## The output array after the region -/

/-- The output's block is written back once, after the last point, and it is the whole array: the array ends
    holding what the last point left in the buffer. -/
theorem arrAt3_last (c : Dev nD) (hn : 15 < cfg3.N) (r : Fin 4096) (f : Fin 16) :
    ((dat3 V c).arrAt 5 cfg3.N : Vec Ideal S4096x16 .f32) (ix2 r f) = outsAt3 V c 15 hn (ix2 r f) := by
  have hfl : (cfg3.win 5).flush ⟨15, hn⟩ = true := (flush3_5 ⟨15, hn⟩).mpr rfl
  have hs := (dat3 V c).arrAt_succ 5 ⟨15, hn⟩
  rw [if_pos hfl] at hs
  have hN : (dat3 V c).arrAt 5 cfg3.N = (dat3 V c).arrAt 5 ((⟨15, hn⟩ : Fin cfg3.N).val + 1) :=
    congrArg ((dat3 V c).arrAt 5) (show cfg3.N = 15 + 1 from N_3)
  have hi := idx3_5 ⟨15, hn⟩
  have hemb : ((cfg3.win 5).blk ⟨15, hn⟩).view.emb (ix2 r f) = (ix2 r f : S4096x16.Idx) := by
    funext a
    apply Fin.ext
    match a with
    | ⟨0, _⟩ => show win3_5.index ⟨15, hn⟩ 0 * 4096 + 1 * r.val = r.val; rw [hi.1]; omega
    | ⟨1, _⟩ => show win3_5.index ⟨15, hn⟩ 1 * 16 + 1 * f.val = f.val; rw [hi.2]; omega
  have key := View.write_emb_of_mem (v := ((cfg3.win 5).blk ⟨15, hn⟩).view) ((dat3 V c).arrAt 5 (⟨15, hn⟩ : Fin cfg3.N).val)
    ((dat3 V c).flushed 5 ⟨15, hn⟩) (Finset.mem_univ (ix2 r f))
  rw [hemb] at key
  rw [hN, hs]
  exact key

/-! ## The region's value -/

/-- THE VALUE: after the region the output array is `relu (gc T d adj HW b)`, element by element. -/
theorem val3 (c : Dev nD) (r : Fin 4096) (f : Fin 16) :
    ((dat3 V c).arrAt 5 cfg3.N : Vec Ideal S4096x16 .f32) (ix2 r f)
      = reluM (gc (m2 (arr3_T V c)) (row (arr3_d V c)) (m2 (arr3_adj V c)) (m2 (arr3_HW V c)) (row (arr3_b V c))) r f := by
  have hn : 15 < cfg3.N := lt_of_lt_of_eq (by decide) (show (16 : ℕ) = cfg3.N from N_3.symm)
  rw [arrAt3_last V c hn, outsAt3_last V c hn, k3_pay4_apply, accAt3_last V c hn]
  rfl

end Cert.KernelIdeal.HandVal

end
-- ==== Proof.KI.Glue.lean ====
import proofs.«109581_g76012331204772_cont_9to1_m_125_6_alg».proof.KernelIdeal
import proofs.«109581_g76012331204772_cont_9to1_m_125_6_alg».proof.Proof.Spec
import Idealize.ShloMosaic.Lib.ValueIdx
import Idealize.ShloMosaic.Lib.ValueLayout
import Idealize.ShloMosaic.Lib.Pipeline.Value

noncomputable section

open scoped BigOperators

namespace Cert.KernelIdeal.HandVal

open Cert.KernelIdeal Idealize.ShloMosaic Idealize.ShloMosaic.ValueIdx

theorem glue_transpose_gen {a b : ℕ} (x : (⟨2, ![a, b]⟩ : Shape).Idx → EReal)
    (h : (⟨2, ![a, b]⟩ : Shape).Transposes [1, 0] ⟨2, ![b, a]⟩) :
    Cert.Spec.m2 (transpose ⟨2, ![b, a]⟩ [1, 0] x h) = Cert.Spec.tr (Cert.Spec.m2 x) :=
  funext fun i => funext fun j => transpose_ix2_apply x h i j

theorem glue_transpose (x : (⟨S2048x4096, .f32⟩ : BufTy).Contents (Elt Ideal)) (h : S2048x4096.Transposes [1, 0] S4096x2048) :
    Cert.Spec.m2 (transpose S4096x2048 [1, 0] x h) = Cert.Spec.tr (Cert.Spec.m2 x) :=
  glue_transpose_gen x h

theorem glue_row_gen {a : ℕ} (x : (⟨1, ![a]⟩ : Shape).Idx → EReal) (h : (⟨1, ![a]⟩ : Shape).ShapeCasts ⟨2, ![1, a]⟩) :
    Cert.Spec.row (shapeCast ⟨2, ![1, a]⟩ x h) = Cert.Spec.m1 x :=
  funext fun i => shapeCast_a_1a_apply x h 0 i

theorem glue_row128 (x : (⟨S128, .f32⟩ : BufTy).Contents (Elt Ideal)) (h : S128.ShapeCasts S1x128) :
    Cert.Spec.row (shapeCast S1x128 x h) = Cert.Spec.m1 x :=
  glue_row_gen x h

theorem glue_row16 (x : (⟨S16, .f32⟩ : BufTy).Contents (Elt Ideal)) (h : S16.ShapeCasts S1x16) :
    Cert.Spec.row (shapeCast S1x16 x h) = Cert.Spec.m1 x :=
  glue_row_gen x h

theorem glue_row64 (x : (⟨S64, .f32⟩ : BufTy).Contents (Elt Ideal)) (h : S64.ShapeCasts S1x64) :
    Cert.Spec.row (shapeCast S1x64 x h) = Cert.Spec.m1 x :=
  glue_row_gen x h

theorem glue_cat_gen {n a b c : ℕ} (hc : c = a + b) (x : (⟨2, ![n, a]⟩ : Shape).Idx → EReal)
    (y : (⟨2, ![n, b]⟩ : Shape).Idx → EReal)
    (h : Shape.Concatenates [(⟨2, ![n, a]⟩ : Shape), ⟨2, ![n, b]⟩] ⟨2, ![n, c]⟩ 1) :
    Cert.Spec.m2 (concatenate ⟨2, ![n, c]⟩ 1 [⟨⟨2, ![n, a]⟩, x⟩, ⟨⟨2, ![n, b]⟩, y⟩] h) = Cert.Spec.hcat hc (Cert.Spec.m2 x) (Cert.Spec.m2 y) := by
  funext i j
  unfold Cert.Spec.hcat
  by_cases hj : j.val < a
  · rw [dif_pos hj]
    exact concatenate_pair_apply_left 1 x y h (ix2 i j) rfl (ix2 i ⟨j.val, hj⟩) (fun d => by
      match d with
      | ⟨0, _⟩ => rfl
      | ⟨1, _⟩ => rfl)
  · rw [dif_neg hj]
    exact concatenate_pair_apply_right 1 x y h (ix2 i j) rfl rfl (ix2 i ⟨j.val - a, by have := j.isLt; omega⟩)
      (fun d hd => by
        match d with
        | ⟨0, _⟩ => rfl
        | ⟨1, _⟩ => exact absurd rfl hd)
      (by show j.val - a + a = j.val; omega)

theorem glue_cat128 (x y : (⟨S2048x128, .f32⟩ : BufTy).Contents (Elt Ideal))
    (h : Shape.Concatenates [S2048x128, S2048x128] S2048x256 1) :
    Cert.Spec.m2 (concatenate S2048x256 1 [⟨S2048x128, x⟩, ⟨S2048x128, y⟩] h)
      = Cert.Spec.hcat (by norm_num) (Cert.Spec.m2 x) (Cert.Spec.m2 y) :=
  glue_cat_gen _ x y h

theorem glue_cat16 (x y : (⟨S4096x16, .f32⟩ : BufTy).Contents (Elt Ideal))
    (h : Shape.Concatenates [S4096x16, S4096x16] S4096x32 1) :
    Cert.Spec.m2 (concatenate S4096x32 1 [⟨S4096x16, x⟩, ⟨S4096x16, y⟩] h)
      = Cert.Spec.hcat (by norm_num) (Cert.Spec.m2 x) (Cert.Spec.m2 y) :=
  glue_cat_gen _ x y h

end Cert.KernelIdeal.HandVal

end
-- ==== Proof.KI.Chain.lean ====
import proofs.«109581_g76012331204772_cont_9to1_m_125_6_alg».proof.Proof.KI.Keep
import proofs.«109581_g76012331204772_cont_9to1_m_125_6_alg».proof.Proof.KI.Val0
import proofs.«109581_g76012331204772_cont_9to1_m_125_6_alg».proof.Proof.KI.Val1
import proofs.«109581_g76012331204772_cont_9to1_m_125_6_alg».proof.Proof.KI.Val2
import proofs.«109581_g76012331204772_cont_9to1_m_125_6_alg».proof.Proof.KI.Val3
import proofs.«109581_g76012331204772_cont_9to1_m_125_6_alg».proof.Proof.KI.Glue
import proofs.«109581_g76012331204772_cont_9to1_m_125_6_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

def argsK (c : Dev nD) : Cert.Spec.Args where
  X := Cert.Spec.m2 (m ((c : Thread nD τ).loc main_arg0) : S2048x128.Idx → EReal)
  Z := Cert.Spec.m2 (m ((c : Thread nD τ).loc main_arg1) : S4096x16.Idx → EReal)
  adj_e := Cert.Spec.m2 (m ((c : Thread nD τ).loc main_arg2) : S4096x4096.Idx → EReal)
  adj_v := Cert.Spec.m2 (m ((c : Thread nD τ).loc main_arg3) : S2048x2048.Idx → EReal)
  T := Cert.Spec.m2 (m ((c : Thread nD τ).loc main_arg4) : S2048x4096.Idx → EReal)
  gc1_W := Cert.Spec.m2 (m ((c : Thread nD τ).loc main_arg5) : S128x128.Idx → EReal)
  gc1_p := Cert.Spec.row (m ((c : Thread nD τ).loc main_arg6) : S1x16.Idx → EReal)
  gc1_b := Cert.Spec.m1 (m ((c : Thread nD τ).loc main_arg7) : S128.Idx → EReal)
  fc1_W := Cert.Spec.m2 (m ((c : Thread nD τ).loc main_arg8) : S128x128.Idx → EReal)
  fc1_g := Cert.Spec.m1 (m ((c : Thread nD τ).loc main_arg9) : S128.Idx → EReal)
  fc1_be := Cert.Spec.m1 (m ((c : Thread nD τ).loc main_arg10) : S128.Idx → EReal)
  gc2_W := Cert.Spec.m2 (m ((c : Thread nD τ).loc main_arg11) : S16x16.Idx → EReal)
  gc2_p := Cert.Spec.row (m ((c : Thread nD τ).loc main_arg12) : S1x256.Idx → EReal)
  gc2_b := Cert.Spec.m1 (m ((c : Thread nD τ).loc main_arg13) : S16.Idx → EReal)
  fc2_W := Cert.Spec.m2 (m ((c : Thread nD τ).loc main_arg14) : S16x16.Idx → EReal)
  fc2_g := Cert.Spec.m1 (m ((c : Thread nD τ).loc main_arg15) : S16.Idx → EReal)
  fc2_be := Cert.Spec.m1 (m ((c : Thread nD τ).loc main_arg16) : S16.Idx → EReal)
  gc3_W := Cert.Spec.m2 (m ((c : Thread nD τ).loc main_arg17) : S256x128.Idx → EReal)
  gc3_p := Cert.Spec.row (m ((c : Thread nD τ).loc main_arg18) : S1x32.Idx → EReal)
  gc3_b := Cert.Spec.m1 (m ((c : Thread nD τ).loc main_arg19) : S128.Idx → EReal)
  gc4_W := Cert.Spec.m2 (m ((c : Thread nD τ).loc main_arg20) : S32x16.Idx → EReal)
  gc4_p := Cert.Spec.row (m ((c : Thread nD τ).loc main_arg21) : S1x128.Idx → EReal)
  gc4_b := Cert.Spec.m1 (m ((c : Thread nD τ).loc main_arg22) : S16.Idx → EReal)
  gc5_W := Cert.Spec.m2 (m ((c : Thread nD τ).loc main_arg23) : S128x64.Idx → EReal)
  gc5_p := Cert.Spec.row (m ((c : Thread nD τ).loc main_arg24) : S1x16.Idx → EReal)
  gc5_b := Cert.Spec.m1 (m ((c : Thread nD τ).loc main_arg25) : S64.Idx → EReal)

theorem S0_main_arg0 (c : Dev nD) : Cert.Spec.m2 (W0 m ρ c (Proc.devRef .tc main_arg0) : S2048x128.Idx → EReal) = (argsK m c).X := rfl
theorem S0_main_arg1 (c : Dev nD) : Cert.Spec.m2 (W0 m ρ c (Proc.devRef .tc main_arg1) : S4096x16.Idx → EReal) = (argsK m c).Z := rfl
theorem S0_main_arg2 (c : Dev nD) : Cert.Spec.m2 (W0 m ρ c (Proc.devRef .tc main_arg2) : S4096x4096.Idx → EReal) = (argsK m c).adj_e := rfl
theorem S0_main_arg3 (c : Dev nD) : Cert.Spec.m2 (W0 m ρ c (Proc.devRef .tc main_arg3) : S2048x2048.Idx → EReal) = (argsK m c).adj_v := rfl
theorem S0_main_arg4 (c : Dev nD) : Cert.Spec.m2 (W0 m ρ c (Proc.devRef .tc main_arg4) : S2048x4096.Idx → EReal) = (argsK m c).T := rfl
theorem S0_main_arg5 (c : Dev nD) : Cert.Spec.m2 (W0 m ρ c (Proc.devRef .tc main_arg5) : S128x128.Idx → EReal) = (argsK m c).gc1_W := rfl
theorem S0_main_arg6 (c : Dev nD) : Cert.Spec.row (W0 m ρ c (Proc.devRef .tc main_arg6) : S1x16.Idx → EReal) = (argsK m c).gc1_p := rfl
theorem S0_main_arg7 (c : Dev nD) : Cert.Spec.m1 (W0 m ρ c (Proc.devRef .tc main_arg7) : S128.Idx → EReal) = (argsK m c).gc1_b := rfl
theorem S0_main_arg8 (c : Dev nD) : Cert.Spec.m2 (W0 m ρ c (Proc.devRef .tc main_arg8) : S128x128.Idx → EReal) = (argsK m c).fc1_W := rfl
theorem S0_main_arg9 (c : Dev nD) : Cert.Spec.m1 (W0 m ρ c (Proc.devRef .tc main_arg9) : S128.Idx → EReal) = (argsK m c).fc1_g := rfl
theorem S0_main_arg10 (c : Dev nD) : Cert.Spec.m1 (W0 m ρ c (Proc.devRef .tc main_arg10) : S128.Idx → EReal) = (argsK m c).fc1_be := rfl
theorem S0_main_arg11 (c : Dev nD) : Cert.Spec.m2 (W0 m ρ c (Proc.devRef .tc main_arg11) : S16x16.Idx → EReal) = (argsK m c).gc2_W := rfl
theorem S0_main_arg12 (c : Dev nD) : Cert.Spec.row (W0 m ρ c (Proc.devRef .tc main_arg12) : S1x256.Idx → EReal) = (argsK m c).gc2_p := rfl
theorem S0_main_arg13 (c : Dev nD) : Cert.Spec.m1 (W0 m ρ c (Proc.devRef .tc main_arg13) : S16.Idx → EReal) = (argsK m c).gc2_b := rfl
theorem S0_main_arg14 (c : Dev nD) : Cert.Spec.m2 (W0 m ρ c (Proc.devRef .tc main_arg14) : S16x16.Idx → EReal) = (argsK m c).fc2_W := rfl
theorem S0_main_arg15 (c : Dev nD) : Cert.Spec.m1 (W0 m ρ c (Proc.devRef .tc main_arg15) : S16.Idx → EReal) = (argsK m c).fc2_g := rfl
theorem S0_main_arg16 (c : Dev nD) : Cert.Spec.m1 (W0 m ρ c (Proc.devRef .tc main_arg16) : S16.Idx → EReal) = (argsK m c).fc2_be := rfl
theorem S0_main_arg17 (c : Dev nD) : Cert.Spec.m2 (W0 m ρ c (Proc.devRef .tc main_arg17) : S256x128.Idx → EReal) = (argsK m c).gc3_W := rfl
theorem S0_main_arg18 (c : Dev nD) : Cert.Spec.row (W0 m ρ c (Proc.devRef .tc main_arg18) : S1x32.Idx → EReal) = (argsK m c).gc3_p := rfl
theorem S0_main_arg19 (c : Dev nD) : Cert.Spec.m1 (W0 m ρ c (Proc.devRef .tc main_arg19) : S128.Idx → EReal) = (argsK m c).gc3_b := rfl
theorem S0_main_arg20 (c : Dev nD) : Cert.Spec.m2 (W0 m ρ c (Proc.devRef .tc main_arg20) : S32x16.Idx → EReal) = (argsK m c).gc4_W := rfl
theorem S0_main_arg21 (c : Dev nD) : Cert.Spec.row (W0 m ρ c (Proc.devRef .tc main_arg21) : S1x128.Idx → EReal) = (argsK m c).gc4_p := rfl
theorem S0_main_arg22 (c : Dev nD) : Cert.Spec.m1 (W0 m ρ c (Proc.devRef .tc main_arg22) : S16.Idx → EReal) = (argsK m c).gc4_b := rfl
theorem S0_main_arg23 (c : Dev nD) : Cert.Spec.m2 (W0 m ρ c (Proc.devRef .tc main_arg23) : S128x64.Idx → EReal) = (argsK m c).gc5_W := rfl
theorem S0_main_arg24 (c : Dev nD) : Cert.Spec.row (W0 m ρ c (Proc.devRef .tc main_arg24) : S1x16.Idx → EReal) = (argsK m c).gc5_p := rfl
theorem S0_main_arg25 (c : Dev nD) : Cert.Spec.m1 (W0 m ρ c (Proc.devRef .tc main_arg25) : S64.Idx → EReal) = (argsK m c).gc5_b := rfl

theorem S1_main_v0 (c : Dev nD) : Cert.Spec.m2 (W1 m ρ c (Proc.devRef .tc main_v0) : S4096x2048.Idx → EReal) = Cert.Spec.tr (argsK m c).T := by
  have e : W1 m ρ c (Proc.devRef .tc main_v0) = transpose S4096x2048 [1, 0] (W0 m ρ c (Proc.devRef .tc main_arg4)) transposes_S2048x4096_S4096x2048_1_0 := by
    dsimp only [W1, hostOps0]; after_results <;> rfl
  rw [e]
  exact (glue_transpose _ _).trans (congrArg Cert.Spec.tr (S0_main_arg4 m ρ c))
theorem S1_main_v1 (c : Dev nD) : Cert.Spec.row (W1 m ρ c (Proc.devRef .tc main_v1) : S1x128.Idx → EReal) = (argsK m c).fc1_g := by
  have e : W1 m ρ c (Proc.devRef .tc main_v1) = shapeCast S1x128 (W0 m ρ c (Proc.devRef .tc main_arg9)) shapeCasts_S128_S1x128 := by
    dsimp only [W1, hostOps0]; after_results <;> rfl
  rw [e]
  exact (glue_row128 _ _).trans (S0_main_arg9 m ρ c)
theorem S1_main_v2 (c : Dev nD) : Cert.Spec.row (W1 m ρ c (Proc.devRef .tc main_v2) : S1x128.Idx → EReal) = (argsK m c).fc1_be := by
  have e : W1 m ρ c (Proc.devRef .tc main_v2) = shapeCast S1x128 (W0 m ρ c (Proc.devRef .tc main_arg10)) shapeCasts_S128_S1x128 := by
    dsimp only [W1, hostOps0]; after_results <;> rfl
  rw [e]
  exact (glue_row128 _ _).trans (S0_main_arg10 m ρ c)

theorem S1_main_arg0 (c : Dev nD) : Cert.Spec.m2 (W1 m ρ c (Proc.devRef .tc main_arg0) : S2048x128.Idx → EReal) = (argsK m c).X := by
  rw [K1_main_arg0 m ρ c]; exact S0_main_arg0 m ρ c
theorem S1_main_arg1 (c : Dev nD) : Cert.Spec.m2 (W1 m ρ c (Proc.devRef .tc main_arg1) : S4096x16.Idx → EReal) = (argsK m c).Z := by
  rw [K1_main_arg1 m ρ c]; exact S0_main_arg1 m ρ c
theorem S1_main_arg5 (c : Dev nD) : Cert.Spec.m2 (W1 m ρ c (Proc.devRef .tc main_arg5) : S128x128.Idx → EReal) = (argsK m c).gc1_W := by
  rw [K1_main_arg5 m ρ c]; exact S0_main_arg5 m ρ c
theorem S1_main_arg6 (c : Dev nD) : Cert.Spec.row (W1 m ρ c (Proc.devRef .tc main_arg6) : S1x16.Idx → EReal) = (argsK m c).gc1_p := by
  rw [K1_main_arg6 m ρ c]; exact S0_main_arg6 m ρ c
theorem S1_main_arg8 (c : Dev nD) : Cert.Spec.m2 (W1 m ρ c (Proc.devRef .tc main_arg8) : S128x128.Idx → EReal) = (argsK m c).fc1_W := by
  rw [K1_main_arg8 m ρ c]; exact S0_main_arg8 m ρ c
theorem S2_main_v3_0 (c : Dev nD) : Cert.Spec.row (W2 m ρ c (Proc.devRef .tc main_v3_0) : S1x4096.Idx → EReal) = Cert.Spec.d1 (argsK m c) := by
  funext e
  show (W2 m ρ c (Proc.devRef .tc main_v3_0) : S1x4096.Idx → EReal) (ix2 0 e) = Cert.Spec.d1 (argsK m c) e
  calc (W2 m ρ c (Proc.devRef .tc main_v3_0) : S1x4096.Idx → EReal) (ix2 0 e)
      = ((dat0 (V1 m ρ) c).arrAt 7 cfg0.N : S1x4096.Idx → EReal) (ix2 0 e) := congrFun (W2_arr m ρ c 7) (ix2 0 e)
    _ = Cert.Spec.dvec (Cert.Spec.m2 (W1 m ρ c (Proc.devRef .tc main_arg1) : S4096x16.Idx → EReal)) (Cert.Spec.row (W1 m ρ c (Proc.devRef .tc main_arg6) : S1x16.Idx → EReal)) e := val0_d (V1 m ρ) c e
    _ = Cert.Spec.dvec ((argsK m c).Z) ((argsK m c).gc1_p) e := by rw [S1_main_arg1 m ρ c, S1_main_arg6 m ρ c]
    _ = Cert.Spec.d1 (argsK m c) e := rfl
theorem S2_main_v3_1 (c : Dev nD) : Cert.Spec.m2 (W2 m ρ c (Proc.devRef .tc main_v3_1) : S2048x128.Idx → EReal) = Cert.Spec.HW1 (argsK m c) := by
  funext n f
  show (W2 m ρ c (Proc.devRef .tc main_v3_1) : S2048x128.Idx → EReal) (ix2 n f) = Cert.Spec.HW1 (argsK m c) n f
  calc (W2 m ρ c (Proc.devRef .tc main_v3_1) : S2048x128.Idx → EReal) (ix2 n f)
      = ((dat0 (V1 m ρ) c).arrAt 8 cfg0.N : S2048x128.Idx → EReal) (ix2 n f) := congrFun (W2_arr m ρ c 8) (ix2 n f)
    _ = Cert.Spec.mm (Cert.Spec.m2 (W1 m ρ c (Proc.devRef .tc main_arg0) : S2048x128.Idx → EReal)) (Cert.Spec.m2 (W1 m ρ c (Proc.devRef .tc main_arg5) : S128x128.Idx → EReal)) n f := val0_hw (V1 m ρ) c n f
    _ = Cert.Spec.mm ((argsK m c).X) ((argsK m c).gc1_W) n f := by rw [S1_main_arg0 m ρ c, S1_main_arg5 m ρ c]
    _ = Cert.Spec.HW1 (argsK m c) n f := rfl
theorem S2_main_v3_2 (c : Dev nD) : Cert.Spec.m2 (W2 m ρ c (Proc.devRef .tc main_v3_2) : S2048x128.Idx → EReal) = Cert.Spec.F1 (argsK m c) := by
  funext n f
  show (W2 m ρ c (Proc.devRef .tc main_v3_2) : S2048x128.Idx → EReal) (ix2 n f) = Cert.Spec.F1 (argsK m c) n f
  calc (W2 m ρ c (Proc.devRef .tc main_v3_2) : S2048x128.Idx → EReal) (ix2 n f)
      = ((dat0 (V1 m ρ) c).arrAt 9 cfg0.N : S2048x128.Idx → EReal) (ix2 n f) := congrFun (W2_arr m ρ c 9) (ix2 n f)
    _ = Cert.Spec.reluM (Cert.Spec.layernorm Cert.Spec.len128 (Cert.Spec.mm (Cert.Spec.m2 (W1 m ρ c (Proc.devRef .tc main_arg0) : S2048x128.Idx → EReal)) (Cert.Spec.m2 (W1 m ρ c (Proc.devRef .tc main_arg8) : S128x128.Idx → EReal))) (Cert.Spec.row (W1 m ρ c (Proc.devRef .tc main_v1) : S1x128.Idx → EReal)) (Cert.Spec.row (W1 m ρ c (Proc.devRef .tc main_v2) : S1x128.Idx → EReal))) n f := val0_f1 (V1 m ρ) c n f
    _ = Cert.Spec.reluM (Cert.Spec.layernorm Cert.Spec.len128 (Cert.Spec.mm ((argsK m c).X) ((argsK m c).fc1_W)) ((argsK m c).fc1_g) ((argsK m c).fc1_be)) n f := by rw [S1_main_arg0 m ρ c, S1_main_arg8 m ρ c, S1_main_v1 m ρ c, S1_main_v2 m ρ c]
    _ = Cert.Spec.F1 (argsK m c) n f := rfl

theorem S2_main_arg7 (c : Dev nD) : Cert.Spec.m1 (W2 m ρ c (Proc.devRef .tc main_arg7) : S128.Idx → EReal) = (argsK m c).gc1_b := by
  rw [K2_main_arg7 m ρ c]; exact S0_main_arg7 m ρ c
theorem S3_main_v4 (c : Dev nD) : Cert.Spec.row (W3 m ρ c (Proc.devRef .tc main_v4) : S1x128.Idx → EReal) = (argsK m c).gc1_b := by
  have e : W3 m ρ c (Proc.devRef .tc main_v4) = shapeCast S1x128 (W2 m ρ c (Proc.devRef .tc main_arg7)) shapeCasts_S128_S1x128 := by
    dsimp only [W3, hostOps1]; after_results <;> rfl
  rw [e]
  exact (glue_row128 _ _).trans (S2_main_arg7 m ρ c)

theorem S3_main_v3_0 (c : Dev nD) : Cert.Spec.row (W3 m ρ c (Proc.devRef .tc main_v3_0) : S1x4096.Idx → EReal) = Cert.Spec.d1 (argsK m c) := by
  rw [K3_main_v3_0 m ρ c]; exact S2_main_v3_0 m ρ c
theorem S3_main_arg4 (c : Dev nD) : Cert.Spec.m2 (W3 m ρ c (Proc.devRef .tc main_arg4) : S2048x4096.Idx → EReal) = (argsK m c).T := by
  rw [K3_main_arg4 m ρ c]; exact S0_main_arg4 m ρ c
theorem S3_main_arg3 (c : Dev nD) : Cert.Spec.m2 (W3 m ρ c (Proc.devRef .tc main_arg3) : S2048x2048.Idx → EReal) = (argsK m c).adj_v := by
  rw [K3_main_arg3 m ρ c]; exact S0_main_arg3 m ρ c
theorem S3_main_v3_1 (c : Dev nD) : Cert.Spec.m2 (W3 m ρ c (Proc.devRef .tc main_v3_1) : S2048x128.Idx → EReal) = Cert.Spec.HW1 (argsK m c) := by
  rw [K3_main_v3_1 m ρ c]; exact S2_main_v3_1 m ρ c
theorem S4_main_v5 (c : Dev nD) : Cert.Spec.m2 (W4 m ρ c (Proc.devRef .tc main_v5) : S2048x128.Idx → EReal) = Cert.Spec.X1 (argsK m c) := by
  funext n f
  show (W4 m ρ c (Proc.devRef .tc main_v5) : S2048x128.Idx → EReal) (ix2 n f) = Cert.Spec.X1 (argsK m c) n f
  calc (W4 m ρ c (Proc.devRef .tc main_v5) : S2048x128.Idx → EReal) (ix2 n f)
      = ((dat1 (V3 m ρ) c).arrAt 5 cfg1.N : S2048x128.Idx → EReal) (ix2 n f) := congrFun (W4_arr m ρ c 5) (ix2 n f)
    _ = Cert.Spec.reluM (Cert.Spec.gc (Cert.Spec.m2 (W3 m ρ c (Proc.devRef .tc main_arg4) : S2048x4096.Idx → EReal)) (Cert.Spec.row (W3 m ρ c (Proc.devRef .tc main_v3_0) : S1x4096.Idx → EReal)) (Cert.Spec.m2 (W3 m ρ c (Proc.devRef .tc main_arg3) : S2048x2048.Idx → EReal)) (Cert.Spec.m2 (W3 m ρ c (Proc.devRef .tc main_v3_1) : S2048x128.Idx → EReal)) (Cert.Spec.row (W3 m ρ c (Proc.devRef .tc main_v4) : S1x128.Idx → EReal))) n f := val1 (V3 m ρ) c n f
    _ = Cert.Spec.reluM (Cert.Spec.gc ((argsK m c).T) (Cert.Spec.d1 (argsK m c)) ((argsK m c).adj_v) (Cert.Spec.HW1 (argsK m c)) ((argsK m c).gc1_b)) n f := by rw [S3_main_arg4 m ρ c, S3_main_v3_0 m ρ c, S3_main_arg3 m ρ c, S3_main_v3_1 m ρ c, S3_main_v4 m ρ c]
    _ = Cert.Spec.X1 (argsK m c) n f := rfl

theorem S4_main_v3_2 (c : Dev nD) : Cert.Spec.m2 (W4 m ρ c (Proc.devRef .tc main_v3_2) : S2048x128.Idx → EReal) = Cert.Spec.F1 (argsK m c) := by
  rw [K4_main_v3_2 m ρ c]; exact S2_main_v3_2 m ρ c
theorem S4_main_arg15 (c : Dev nD) : Cert.Spec.m1 (W4 m ρ c (Proc.devRef .tc main_arg15) : S16.Idx → EReal) = (argsK m c).fc2_g := by
  rw [K4_main_arg15 m ρ c]; exact S0_main_arg15 m ρ c
theorem S4_main_arg16 (c : Dev nD) : Cert.Spec.m1 (W4 m ρ c (Proc.devRef .tc main_arg16) : S16.Idx → EReal) = (argsK m c).fc2_be := by
  rw [K4_main_arg16 m ρ c]; exact S0_main_arg16 m ρ c
theorem S5_main_v6 (c : Dev nD) : Cert.Spec.m2 (W5 m ρ c (Proc.devRef .tc main_v6) : S2048x256.Idx → EReal) = Cert.Spec.X1F1 (argsK m c) := by
  have e : W5 m ρ c (Proc.devRef .tc main_v6) = concatenate S2048x256 1 [⟨S2048x128, W4 m ρ c (Proc.devRef .tc main_v5)⟩, ⟨S2048x128, W4 m ρ c (Proc.devRef .tc main_v3_2)⟩] concatenates_S2048x128_S2048x128_S2048x256_d1 := by
    dsimp only [W5, hostOps2]; after_results <;> rfl
  rw [e]
  refine (glue_cat128 _ _ _).trans ?_
  rw [S4_main_v5 m ρ c, S4_main_v3_2 m ρ c]
  rfl
theorem S5_main_v7 (c : Dev nD) : Cert.Spec.row (W5 m ρ c (Proc.devRef .tc main_v7) : S1x16.Idx → EReal) = (argsK m c).fc2_g := by
  have e : W5 m ρ c (Proc.devRef .tc main_v7) = shapeCast S1x16 (W4 m ρ c (Proc.devRef .tc main_arg15)) shapeCasts_S16_S1x16 := by
    dsimp only [W5, hostOps2]; after_results <;> rfl
  rw [e]
  exact (glue_row16 _ _).trans (S4_main_arg15 m ρ c)
theorem S5_main_v8 (c : Dev nD) : Cert.Spec.row (W5 m ρ c (Proc.devRef .tc main_v8) : S1x16.Idx → EReal) = (argsK m c).fc2_be := by
  have e : W5 m ρ c (Proc.devRef .tc main_v8) = shapeCast S1x16 (W4 m ρ c (Proc.devRef .tc main_arg16)) shapeCasts_S16_S1x16 := by
    dsimp only [W5, hostOps2]; after_results <;> rfl
  rw [e]
  exact (glue_row16 _ _).trans (S4_main_arg16 m ρ c)

theorem S5_main_arg1 (c : Dev nD) : Cert.Spec.m2 (W5 m ρ c (Proc.devRef .tc main_arg1) : S4096x16.Idx → EReal) = (argsK m c).Z := by
  rw [K5_main_arg1 m ρ c]; exact S0_main_arg1 m ρ c
theorem S5_main_arg11 (c : Dev nD) : Cert.Spec.m2 (W5 m ρ c (Proc.devRef .tc main_arg11) : S16x16.Idx → EReal) = (argsK m c).gc2_W := by
  rw [K5_main_arg11 m ρ c]; exact S0_main_arg11 m ρ c
theorem S5_main_arg12 (c : Dev nD) : Cert.Spec.row (W5 m ρ c (Proc.devRef .tc main_arg12) : S1x256.Idx → EReal) = (argsK m c).gc2_p := by
  rw [K5_main_arg12 m ρ c]; exact S0_main_arg12 m ρ c
theorem S5_main_arg14 (c : Dev nD) : Cert.Spec.m2 (W5 m ρ c (Proc.devRef .tc main_arg14) : S16x16.Idx → EReal) = (argsK m c).fc2_W := by
  rw [K5_main_arg14 m ρ c]; exact S0_main_arg14 m ρ c
theorem S6_main_v9_0 (c : Dev nD) : Cert.Spec.row (W6 m ρ c (Proc.devRef .tc main_v9_0) : S1x2048.Idx → EReal) = Cert.Spec.d2 (argsK m c) := by
  funext e
  show (W6 m ρ c (Proc.devRef .tc main_v9_0) : S1x2048.Idx → EReal) (ix2 0 e) = Cert.Spec.d2 (argsK m c) e
  calc (W6 m ρ c (Proc.devRef .tc main_v9_0) : S1x2048.Idx → EReal) (ix2 0 e)
      = ((dat2 (V5 m ρ) c).arrAt 7 cfg2.N : S1x2048.Idx → EReal) (ix2 0 e) := congrFun (W6_arr m ρ c 7) (ix2 0 e)
    _ = Cert.Spec.dvec (Cert.Spec.m2 (W5 m ρ c (Proc.devRef .tc main_v6) : S2048x256.Idx → EReal)) (Cert.Spec.row (W5 m ρ c (Proc.devRef .tc main_arg12) : S1x256.Idx → EReal)) e := val2_d (V5 m ρ) c e
    _ = Cert.Spec.dvec (Cert.Spec.X1F1 (argsK m c)) ((argsK m c).gc2_p) e := by rw [S5_main_v6 m ρ c, S5_main_arg12 m ρ c]
    _ = Cert.Spec.d2 (argsK m c) e := rfl
theorem S6_main_v9_1 (c : Dev nD) : Cert.Spec.m2 (W6 m ρ c (Proc.devRef .tc main_v9_1) : S4096x16.Idx → EReal) = Cert.Spec.HW2 (argsK m c) := by
  funext n f
  show (W6 m ρ c (Proc.devRef .tc main_v9_1) : S4096x16.Idx → EReal) (ix2 n f) = Cert.Spec.HW2 (argsK m c) n f
  calc (W6 m ρ c (Proc.devRef .tc main_v9_1) : S4096x16.Idx → EReal) (ix2 n f)
      = ((dat2 (V5 m ρ) c).arrAt 8 cfg2.N : S4096x16.Idx → EReal) (ix2 n f) := congrFun (W6_arr m ρ c 8) (ix2 n f)
    _ = Cert.Spec.mm (Cert.Spec.reluM (Cert.Spec.m2 (W5 m ρ c (Proc.devRef .tc main_arg1) : S4096x16.Idx → EReal))) (Cert.Spec.m2 (W5 m ρ c (Proc.devRef .tc main_arg11) : S16x16.Idx → EReal)) n f := val2_hw (V5 m ρ) c n f
    _ = Cert.Spec.mm (Cert.Spec.reluM ((argsK m c).Z)) ((argsK m c).gc2_W) n f := by rw [S5_main_arg1 m ρ c, S5_main_arg11 m ρ c]
    _ = Cert.Spec.HW2 (argsK m c) n f := rfl
theorem S6_main_v9_2 (c : Dev nD) : Cert.Spec.m2 (W6 m ρ c (Proc.devRef .tc main_v9_2) : S4096x16.Idx → EReal) = Cert.Spec.F2 (argsK m c) := by
  funext n f
  show (W6 m ρ c (Proc.devRef .tc main_v9_2) : S4096x16.Idx → EReal) (ix2 n f) = Cert.Spec.F2 (argsK m c) n f
  calc (W6 m ρ c (Proc.devRef .tc main_v9_2) : S4096x16.Idx → EReal) (ix2 n f)
      = ((dat2 (V5 m ρ) c).arrAt 9 cfg2.N : S4096x16.Idx → EReal) (ix2 n f) := congrFun (W6_arr m ρ c 9) (ix2 n f)
    _ = Cert.Spec.reluM (Cert.Spec.layernorm Cert.Spec.len16 (Cert.Spec.mm (Cert.Spec.m2 (W5 m ρ c (Proc.devRef .tc main_arg1) : S4096x16.Idx → EReal)) (Cert.Spec.m2 (W5 m ρ c (Proc.devRef .tc main_arg14) : S16x16.Idx → EReal))) (Cert.Spec.row (W5 m ρ c (Proc.devRef .tc main_v7) : S1x16.Idx → EReal)) (Cert.Spec.row (W5 m ρ c (Proc.devRef .tc main_v8) : S1x16.Idx → EReal))) n f := val2_f2 (V5 m ρ) c n f
    _ = Cert.Spec.reluM (Cert.Spec.layernorm Cert.Spec.len16 (Cert.Spec.mm ((argsK m c).Z) ((argsK m c).fc2_W)) ((argsK m c).fc2_g) ((argsK m c).fc2_be)) n f := by rw [S5_main_arg1 m ρ c, S5_main_arg14 m ρ c, S5_main_v7 m ρ c, S5_main_v8 m ρ c]
    _ = Cert.Spec.F2 (argsK m c) n f := rfl

theorem S6_main_arg13 (c : Dev nD) : Cert.Spec.m1 (W6 m ρ c (Proc.devRef .tc main_arg13) : S16.Idx → EReal) = (argsK m c).gc2_b := by
  rw [K6_main_arg13 m ρ c]; exact S0_main_arg13 m ρ c
theorem S7_main_v10 (c : Dev nD) : Cert.Spec.row (W7 m ρ c (Proc.devRef .tc main_v10) : S1x16.Idx → EReal) = (argsK m c).gc2_b := by
  have e : W7 m ρ c (Proc.devRef .tc main_v10) = shapeCast S1x16 (W6 m ρ c (Proc.devRef .tc main_arg13)) shapeCasts_S16_S1x16 := by
    dsimp only [W7, hostOps3]; after_results <;> rfl
  rw [e]
  exact (glue_row16 _ _).trans (S6_main_arg13 m ρ c)

theorem S7_main_v9_0 (c : Dev nD) : Cert.Spec.row (W7 m ρ c (Proc.devRef .tc main_v9_0) : S1x2048.Idx → EReal) = Cert.Spec.d2 (argsK m c) := by
  rw [K7_main_v9_0 m ρ c]; exact S6_main_v9_0 m ρ c
theorem S7_main_v0 (c : Dev nD) : Cert.Spec.m2 (W7 m ρ c (Proc.devRef .tc main_v0) : S4096x2048.Idx → EReal) = Cert.Spec.tr (argsK m c).T := by
  rw [K7_main_v0 m ρ c]; exact S1_main_v0 m ρ c
theorem S7_main_arg2 (c : Dev nD) : Cert.Spec.m2 (W7 m ρ c (Proc.devRef .tc main_arg2) : S4096x4096.Idx → EReal) = (argsK m c).adj_e := by
  rw [K7_main_arg2 m ρ c]; exact S0_main_arg2 m ρ c
theorem S7_main_v9_1 (c : Dev nD) : Cert.Spec.m2 (W7 m ρ c (Proc.devRef .tc main_v9_1) : S4096x16.Idx → EReal) = Cert.Spec.HW2 (argsK m c) := by
  rw [K7_main_v9_1 m ρ c]; exact S6_main_v9_1 m ρ c
theorem S8_main_v11 (c : Dev nD) : Cert.Spec.m2 (W8 m ρ c (Proc.devRef .tc main_v11) : S4096x16.Idx → EReal) = Cert.Spec.Z2 (argsK m c) := by
  funext n f
  show (W8 m ρ c (Proc.devRef .tc main_v11) : S4096x16.Idx → EReal) (ix2 n f) = Cert.Spec.Z2 (argsK m c) n f
  calc (W8 m ρ c (Proc.devRef .tc main_v11) : S4096x16.Idx → EReal) (ix2 n f)
      = ((dat3 (V7 m ρ) c).arrAt 5 cfg3.N : S4096x16.Idx → EReal) (ix2 n f) := congrFun (W8_arr m ρ c 5) (ix2 n f)
    _ = Cert.Spec.reluM (Cert.Spec.gc (Cert.Spec.m2 (W7 m ρ c (Proc.devRef .tc main_v0) : S4096x2048.Idx → EReal)) (Cert.Spec.row (W7 m ρ c (Proc.devRef .tc main_v9_0) : S1x2048.Idx → EReal)) (Cert.Spec.m2 (W7 m ρ c (Proc.devRef .tc main_arg2) : S4096x4096.Idx → EReal)) (Cert.Spec.m2 (W7 m ρ c (Proc.devRef .tc main_v9_1) : S4096x16.Idx → EReal)) (Cert.Spec.row (W7 m ρ c (Proc.devRef .tc main_v10) : S1x16.Idx → EReal))) n f := val3 (V7 m ρ) c n f
    _ = Cert.Spec.reluM (Cert.Spec.gc (Cert.Spec.tr (argsK m c).T) (Cert.Spec.d2 (argsK m c)) ((argsK m c).adj_e) (Cert.Spec.HW2 (argsK m c)) ((argsK m c).gc2_b)) n f := by rw [S7_main_v0 m ρ c, S7_main_v9_0 m ρ c, S7_main_arg2 m ρ c, S7_main_v9_1 m ρ c, S7_main_v10 m ρ c]
    _ = Cert.Spec.Z2 (argsK m c) n f := rfl

theorem S8_main_v9_2 (c : Dev nD) : Cert.Spec.m2 (W8 m ρ c (Proc.devRef .tc main_v9_2) : S4096x16.Idx → EReal) = Cert.Spec.F2 (argsK m c) := by
  rw [K8_main_v9_2 m ρ c]; exact S6_main_v9_2 m ρ c
theorem S9_main_v12 (c : Dev nD) : Cert.Spec.m2 (W9 m ρ c (Proc.devRef .tc main_v12) : S4096x32.Idx → EReal) = Cert.Spec.Z2F2 (argsK m c) := by
  have e : W9 m ρ c (Proc.devRef .tc main_v12) = concatenate S4096x32 1 [⟨S4096x16, W8 m ρ c (Proc.devRef .tc main_v11)⟩, ⟨S4096x16, W8 m ρ c (Proc.devRef .tc main_v9_2)⟩] concatenates_S4096x16_S4096x16_S4096x32_d1 := by
    dsimp only [W9, hostOps4]; after_results <;> rfl
  rw [e]
  refine (glue_cat16 _ _ _).trans ?_
  rw [S8_main_v11 m ρ c, S8_main_v9_2 m ρ c]
  rfl

end Cert.KernelIdeal.HandVal

end
-- ==== Proof.KI.Pay4.lean ====
import proofs.«109581_g76012331204772_cont_9to1_m_125_6_alg».proof.Proof.Gen.KernelIdeal.Skeleton
import proofs.«109581_g76012331204772_cont_9to1_m_125_6_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

theorem k4d_lhs_0 (i : S1x4096.Idx) (q : dot_S1x32_S4096x32_S1x4096_1_1_0_0_n_n.contr.Idx) :
    (dot_S1x32_S4096x32_S1x4096_1_1_0_0_n_n.lhsIdx i q 0).val = (i 0).val := by
  unfold DotDims.lhsIdx
  rw [dif_neg (show ¬(0 : Fin S1x32.rank) ∈ dot_S1x32_S4096x32_S1x4096_1_1_0_0_n_n.lhsBatch by decide), dif_pos (show (0 : Fin S1x32.rank) ∈ dot_S1x32_S4096x32_S1x4096_1_1_0_0_n_n.lhsNonContracting by decide)]
  rfl
theorem k4d_lhs_1 (i : S1x4096.Idx) (q : dot_S1x32_S4096x32_S1x4096_1_1_0_0_n_n.contr.Idx) :
    (dot_S1x32_S4096x32_S1x4096_1_1_0_0_n_n.lhsIdx i q 1).val = (q ⟨0, by decide⟩).val :=
  dot_S1x32_S4096x32_S1x4096_1_1_0_0_n_n.lhsIdx_val_of_single rfl i q
theorem k4d_rhs_0 (i : S1x4096.Idx) (q : dot_S1x32_S4096x32_S1x4096_1_1_0_0_n_n.contr.Idx) :
    (dot_S1x32_S4096x32_S1x4096_1_1_0_0_n_n.rhsIdx i q 0).val = (i 1).val := by
  unfold DotDims.rhsIdx
  rw [dif_neg (show ¬(0 : Fin S4096x32.rank) ∈ dot_S1x32_S4096x32_S1x4096_1_1_0_0_n_n.rhsBatch by decide), dif_pos (show (0 : Fin S4096x32.rank) ∈ dot_S1x32_S4096x32_S1x4096_1_1_0_0_n_n.rhsNonContracting by decide)]
  rfl
theorem k4d_rhs_1 (i : S1x4096.Idx) (q : dot_S1x32_S4096x32_S1x4096_1_1_0_0_n_n.contr.Idx) :
    (dot_S1x32_S4096x32_S1x4096_1_1_0_0_n_n.rhsIdx i q 1).val = (q ⟨0, by decide⟩).val :=
  dot_S1x32_S4096x32_S1x4096_1_1_0_0_n_n.rhsIdx_val_of_single rfl i q

theorem k4d_matmul_apply (x : FVec Ideal S1x32 .f32) (y : FVec Ideal S4096x32 .f32) (e : Fin 4096) :
    matmul dot_S1x32_S4096x32_S1x4096_1_1_0_0_n_n none x y (constant (F := Ideal) S1x4096 .f32 0x00000000#32) (ix2 0 e)
      = ∑ j : Fin 32, x (ix2 0 j) * y (ix2 e j) := by
  refine (Ideal.matmul_constant_zero_apply dot_S1x32_S4096x32_S1x4096_1_1_0_0_n_n none x y (ix2 0 e)).trans ?_
  rw [← Equiv.sum_comp (contrEquiv1 dot_S1x32_S4096x32_S1x4096_1_1_0_0_n_n 32 rfl rfl).symm]
  refine Finset.sum_congr rfl fun k _ => ?_
  have hk := contrEquiv1_symm_val dot_S1x32_S4096x32_S1x4096_1_1_0_0_n_n 32 rfl rfl k
  have el : dot_S1x32_S4096x32_S1x4096_1_1_0_0_n_n.lhsIdx (ix2 0 e) ((contrEquiv1 dot_S1x32_S4096x32_S1x4096_1_1_0_0_n_n 32 rfl rfl).symm k) = ix2 0 k := funext fun a => Fin.ext (by
    match a with
    | ⟨0, _⟩ => exact k4d_lhs_0 _ _
    | ⟨1, _⟩ => exact (k4d_lhs_1 _ _).trans hk)
  have er : dot_S1x32_S4096x32_S1x4096_1_1_0_0_n_n.rhsIdx (ix2 0 e) ((contrEquiv1 dot_S1x32_S4096x32_S1x4096_1_1_0_0_n_n 32 rfl rfl).symm k) = ix2 e k := funext fun a => Fin.ext (by
    match a with
    | ⟨0, _⟩ => exact k4d_rhs_0 _ _
    | ⟨1, _⟩ => exact (k4d_rhs_1 _ _).trans hk)
  rw [el, er]

theorem k4w_lhs_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem k4w_lhs_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem k4w_rhs_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem k4w_rhs_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

theorem k4w_matmul_apply (x : FVec Ideal S2048x256 .f32) (y : FVec Ideal S256x128 .f32) (n : Fin 2048) (f : Fin 128) :
    matmul dot_S2048x256_S256x128_S2048x128_1_0_0_1_n_n none x y (constant (F := Ideal) S2048x128 .f32 0x00000000#32) (ix2 n f)
      = ∑ c : Fin 256, x (ix2 n c) * y (ix2 c f) := by
  refine (Ideal.matmul_constant_zero_apply dot_S2048x256_S256x128_S2048x128_1_0_0_1_n_n none x y (ix2 n f)).trans ?_
  rw [← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 n f) ((contrEquiv1 dot_S2048x256_S256x128_S2048x128_1_0_0_1_n_n 256 rfl rfl).symm k) = ix2 n k := funext fun a => Fin.ext (by
    match a with
    | ⟨0, _⟩ => exact k4w_lhs_0 _ _
    | ⟨1, _⟩ => exact (k4w_lhs_1 _ _).trans hk)
  have er : dot_S2048x256_S256x128_S2048x128_1_0_0_1_n_n.rhsIdx (ix2 n f) ((contrEquiv1 dot_S2048x256_S256x128_S2048x128_1_0_0_1_n_n 256 rfl rfl).symm k) = ix2 k f := funext fun a => Fin.ext (by
    match a with
    | ⟨0, _⟩ => exact (k4w_rhs_0 _ _).trans hk
    | ⟨1, _⟩ => exact k4w_rhs_1 _ _)
  rw [el, er]

theorem k4_pay1_apply (p : Vec Ideal S1x32 .f32) (he : Vec Ideal S4096x32 .f32) (e : Fin 4096) :
    k4_pay1 (F := Ideal) p he (ix2 0 e) = ∑ j : Fin 32, p (ix2 0 j) * he (ix2 e j) := by
  unfold k4_pay1
  simp only [shapeCast_self]
  exact k4d_matmul_apply _ _ e

theorem k4_pay2_apply (hv : Vec Ideal S2048x256 .f32) (w : Vec Ideal S256x128 .f32) (n : Fin 2048) (f : Fin 128) :
    k4_pay2 (F := Ideal) hv w (ix2 n f) = ∑ c : Fin 256, hv (ix2 n c) * w (ix2 c f) := by
  unfold k4_pay2
  simp only [shapeCast_self]
  exact k4w_matmul_apply _ _ n f

theorem k4_d_spec (p : Vec Ideal S1x32 .f32) (he : Vec Ideal S4096x32 .f32) (e : Fin 4096) :
    k4_pay1 (F := Ideal) p he (ix2 0 e) = Cert.Spec.dvec (Cert.Spec.m2 he) (Cert.Spec.row p) e := by
  rw [k4_pay1_apply]
  exact Finset.sum_congr rfl fun j _ => mul_comm _ _

theorem k4_hw_spec (hv : Vec Ideal S2048x256 .f32) (w : Vec Ideal S256x128 .f32) (n : Fin 2048) (f : Fin 128) :
    k4_pay2 (F := Ideal) hv w (ix2 n f) = Cert.Spec.mm (Cert.Spec.m2 hv) (Cert.Spec.m2 w) n f :=
  k4_pay2_apply hv w n f

end Cert.KernelIdeal.PayVal

end
-- ==== Proof.KI.Val4.lean ====
import proofs.«109581_g76012331204772_cont_9to1_m_125_6_alg».proof.Proof.KI.Reg4
import proofs.«109581_g76012331204772_cont_9to1_m_125_6_alg».proof.Proof.KI.Pay4
import proofs.«109581_g76012331204772_cont_9to1_m_125_6_alg».proof.Proof.Spec
import Idealize.ShloMosaic.Lib.Pipeline.Value
import Idealize.ShloMosaic.Lib.ValueIdx

set_option maxRecDepth 16384

noncomputable section

namespace Cert.KernelIdeal.HandVal

open Cert.KernelIdeal Cert.KernelIdeal.Gen Cert.KernelIdeal.Hand Cert.KernelIdeal.PayVal
open Idealize.ShloMosaic Idealize.ShloMosaic.TcCoe Idealize.SL.Sem Idealize.ShloMosaic.ValueIdx
open Idealize.ShloMosaic.Pipeline (Dat)

theorem hz4 : (![0, 0] : Fin 2 → Nat) = fun _ => 0 := funext fun a => by fin_cases a <;> rfl

section Generic

variable {F : FTy → Type} [FloatOps F]
variable (V : (c : Dev nD) → (b : Ref sig .tc) → Buf (Elt F) ((c : Thread nD τ).loc b))

theorem arrRef4_0 : Pipeline.arrRef spec4 0 = main_v6 := rfl
theorem arrRef4_1 : Pipeline.arrRef spec4 1 = main_v12 := rfl
theorem arrRef4_2 : Pipeline.arrRef spec4 2 = main_arg17 := rfl
theorem arrRef4_3 : Pipeline.arrRef spec4 3 = main_arg18 := rfl
theorem arrRef4_4 : Pipeline.arrRef spec4 4 = main_v13_0 := rfl
theorem arrRef4_5 : Pipeline.arrRef spec4 5 = main_v13_1 := rfl

theorem iblk4_0 (c : Dev nD) (t : Fin cfg4.N) : iblk4 V c 0 t = V c main_v6 := by
  have hz' : (fun a => win4_0.index t a * main_v6.ty.shape.size a) = fun _ => 0 := funext fun a => Nat.zero_mul _
  unfold iblk4
  exact Memref.read_access_unit_zero (Elt F) main_v6 hz' (fun a => by rw [congrFun hz' a]; simp) (V c main_v6)

theorem iblk4_1 (c : Dev nD) (t : Fin cfg4.N) : iblk4 V c 1 t = V c main_v12 := by
  have hz' : (fun a => win4_1.index t a * main_v12.ty.shape.size a) = fun _ => 0 := funext fun a => Nat.zero_mul _
  unfold iblk4
  exact Memref.read_access_unit_zero (Elt F) main_v12 hz' (fun a => by rw [congrFun hz' a]; simp) (V c main_v12)

theorem iblk4_2 (c : Dev nD) (t : Fin cfg4.N) : iblk4 V c 2 t = V c main_arg17 := by
  have hz' : (fun a => win4_2.index t a * main_arg17.ty.shape.size a) = fun _ => 0 := funext fun a => Nat.zero_mul _
  unfold iblk4
  exact Memref.read_access_unit_zero (Elt F) main_arg17 hz' (fun a => by rw [congrFun hz' a]; simp) (V c main_arg17)

theorem iblk4_3 (c : Dev nD) (t : Fin cfg4.N) : iblk4 V c 3 t = V c main_arg18 := by
  have hz' : (fun a => win4_3.index t a * main_arg18.ty.shape.size a) = fun _ => 0 := funext fun a => Nat.zero_mul _
  unfold iblk4
  exact Memref.read_access_unit_zero (Elt F) main_arg18 hz' (fun a => by rw [congrFun hz' a]; simp) (V c main_arg18)

abbrev G4_4 (c : Dev nD) : Buf (Elt F) ((c : Thread nD τ).loc main_v13_0) :=
  k4_pay1 (F := F) (V c main_arg18 : Vec F S1x32 .f32) (V c main_v12 : Vec F S4096x32 .f32)

theorem flushed4_4 (c : Dev nD) (t : Fin cfg4.N) :
    (dat4 V c).flushed 4 t = ((cfg4.win 4).blk t).view.read (Elt F) (G4_4 V c) := by
  have hz' : (fun a => win4_4.index t a * main_v13_0.ty.shape.size a) = fun _ => 0 := funext fun a => Nat.zero_mul _
  show (cfg4.win 4).cut (grid4.coords t) ((dat4 V c).after 4 t) = _
  rw [after4_4]
  unfold out4_4
  rw [View.canon_unit_zero hz4]
  simp only [View.ld_unit_zero (S := S1x32) hz4, View.ld_unit_zero (S := S4096x32) hz4]
  rw [iblk4_3, iblk4_1]
  exact (Memref.read_access_unit_zero (Elt F) main_v13_0 hz' (fun a => by rw [congrFun hz' a]; simp) (G4_4 V c)).symm

theorem final4_4 (c : Dev nD) : (dat4 V c).arrAt 4 cfg4.N = G4_4 V c :=
  (dat4 V c).arrAt_eq_of_cover 4 (G4_4 V c) (fun t _ => flushed4_4 V c t) fun i =>
    ⟨t4_0, flush4_4 t4_0, by
      show i ∈ ((View.whole main_v13_0).slice (win4_4.rect t4_0)).set
      rw [View.set_slice_whole, Rect.mem_set_unit]
      intro a
      have h0 : (i 0 : Nat) < 1 := (i 0).isLt
      have h1 : (i 1 : Nat) < 4096 := (i 1).isLt
      match a with
      | ⟨0, _⟩ => show win4_4.index t4_0 0 * win4_4.size 0 ≤ (i 0 : Nat) ∧ (i 0 : Nat) < win4_4.index t4_0 0 * win4_4.size 0 + win4_4.xsize (grid4.coords t4_0) 0
                  rw [show win4_4.index t4_0 0 * win4_4.size 0 = 0 from Nat.zero_mul _, show win4_4.xsize (grid4.coords t4_0) 0 = 1 from rfl]; omega
      | ⟨1, _⟩ => show win4_4.index t4_0 1 * win4_4.size 1 ≤ (i 1 : Nat) ∧ (i 1 : Nat) < win4_4.index t4_0 1 * win4_4.size 1 + win4_4.xsize (grid4.coords t4_0) 1
                  rw [show win4_4.index t4_0 1 * win4_4.size 1 = 0 from Nat.zero_mul _, show win4_4.xsize (grid4.coords t4_0) 1 = 4096 from rfl]; omega⟩

abbrev G4_5 (c : Dev nD) : Buf (Elt F) ((c : Thread nD τ).loc main_v13_1) :=
  k4_pay2 (F := F) (V c main_v6 : Vec F S2048x256 .f32) (V c main_arg17 : Vec F S256x128 .f32)

theorem flushed4_5 (c : Dev nD) (t : Fin cfg4.N) :
    (dat4 V c).flushed 5 t = ((cfg4.win 5).blk t).view.read (Elt F) (G4_5 V c) := by
  have hz' : (fun a => win4_5.index t a * main_v13_1.ty.shape.size a) = fun _ => 0 := funext fun a => Nat.zero_mul _
  show (cfg4.win 5).cut (grid4.coords t) ((dat4 V c).after 5 t) = _
  rw [after4_5]
  unfold out4_5
  rw [View.canon_unit_zero hz4]
  simp only [View.ld_unit_zero (S := S2048x256) hz4, View.ld_unit_zero (S := S256x128) hz4]
  rw [iblk4_0, iblk4_2]
  exact (Memref.read_access_unit_zero (Elt F) main_v13_1 hz' (fun a => by rw [congrFun hz' a]; simp) (G4_5 V c)).symm

theorem final4_5 (c : Dev nD) : (dat4 V c).arrAt 5 cfg4.N = G4_5 V c :=
  (dat4 V c).arrAt_eq_of_cover 5 (G4_5 V c) (fun t _ => flushed4_5 V c t) fun i =>
    ⟨t4_0, flush4_5 t4_0, by
      show i ∈ ((View.whole main_v13_1).slice (win4_5.rect t4_0)).set
      rw [View.set_slice_whole, Rect.mem_set_unit]
      intro a
      have h0 : (i 0 : Nat) < 2048 := (i 0).isLt
      have h1 : (i 1 : Nat) < 128 := (i 1).isLt
      match a with
      | ⟨0, _⟩ => show win4_5.index t4_0 0 * win4_5.size 0 ≤ (i 0 : Nat) ∧ (i 0 : Nat) < win4_5.index t4_0 0 * win4_5.size 0 + win4_5.xsize (grid4.coords t4_0) 0
                  rw [show win4_5.index t4_0 0 * win4_5.size 0 = 0 from Nat.zero_mul _, show win4_5.xsize (grid4.coords t4_0) 0 = 2048 from rfl]; omega
      | ⟨1, _⟩ => show win4_5.index t4_0 1 * win4_5.size 1 ≤ (i 1 : Nat) ∧ (i 1 : Nat) < win4_5.index t4_0 1 * win4_5.size 1 + win4_5.xsize (grid4.coords t4_0) 1
                  rw [show win4_5.index t4_0 1 * win4_5.size 1 = 0 from Nat.zero_mul _, show win4_5.xsize (grid4.coords t4_0) 1 = 128 from rfl]; omega⟩

end Generic

section AtIdeal

variable (V : (c : Dev nD) → (b : Ref sig .tc) → Buf (Elt Ideal) ((c : Thread nD τ).loc b))

theorem val4_d (c : Dev nD) (e : Fin 4096) :
    ((dat4 V c).arrAt 4 cfg4.N : S1x4096.Idx → EReal) (ix2 0 e)
      = Cert.Spec.dvec (Cert.Spec.m2 (V c (Pipeline.arrRef spec4 1) : S4096x32.Idx → EReal)) (Cert.Spec.row (V c (Pipeline.arrRef spec4 3) : S1x32.Idx → EReal)) e := by
  rw [final4_4]
  exact k4_d_spec _ _ e

theorem val4_hw (c : Dev nD) (n : Fin 2048) (f : Fin 128) :
    ((dat4 V c).arrAt 5 cfg4.N : S2048x128.Idx → EReal) (ix2 n f)
      = Cert.Spec.mm (Cert.Spec.m2 (V c (Pipeline.arrRef spec4 0) : S2048x256.Idx → EReal)) (Cert.Spec.m2 (V c (Pipeline.arrRef spec4 2) : S256x128.Idx → EReal)) n f := by
  rw [final4_5]
  exact k4_hw_spec _ _ n f

end AtIdeal

end Cert.KernelIdeal.HandVal

end
-- ==== Proof.KI.Pay5.lean ====
/-
  The fused layer kernel of the third graph convolution (grid of 8 column blocks of the node adjacency; the sizes of the first), its PAYLOADS read at an index at the ideal
  instance: the statements and proofs of the first layer's, at this layer's sizes and names.
-/
import proofs.«109581_g76012331204772_cont_9to1_m_125_6_alg».proof.Proof.KI.Pay1

noncomputable section

open scoped BigOperators

namespace Cert.KernelIdeal.PayVal

open Cert.KernelIdeal Cert.KernelIdeal.Gen Idealize.ShloMosaic Idealize.ShloMosaic.ValueIdx

/-! ## The payloads at an index -/

/-- The block's contribution at (r, f). -/
theorem k5_pay1_apply (i : grid5.Coords) (v2 : Vec Ideal S256x4096 .f32) (v3 : Vec Ideal S1x4096 .f32) (v7 : Vec Ideal S2048x4096 .f32)
    (v9 : Vec Ideal S2048x256 .f32) (v20 : Vec Ideal S256x128 .f32) (r : Fin 2048) (f : Fin 128) :
    k5_pay1 (F := Ideal) i v2 v3 v7 v9 v20 (ix2 r f)
      = ∑ c : Fin 256, (if r.val = (i 0).val * 256 + c.val then v9 (ix2 r c)
          else (∑ j : Fin 4096, v7 (ix2 r j) * (v2 (ix2 c j) * v3 (ix2 0 j))) * v9 (ix2 r c)) * v20 (ix2 c f) := by
  have hk : (i 0).val < 16 := Nat.lt_of_lt_of_le (i 0).isLt (by decide)
  unfold k5_pay1
  simp only [shapeCast_self]
  refine (matmulB_apply _ _ r f).trans ?_
  refine Finset.sum_congr rfl fun c _ => ?_
  refine congrArg (· * v20 (ix2 c f)) ?_
  rw [select_apply]
  show Scalar.select (IntOp.cmpi .eq (iota .tc S2048x256 32 [0] iota_S2048x256_d0_w32 (ix2 r c))
      (IntOp.addi (iota .tc S2048x256 32 [1] iota_S2048x256_d1_w32 (ix2 r c)) (Scalar.muli (BitVec.ofNat 32 (i 0).val) 256#32))) _ _ = _
  rw [iota_single_apply, iota_single_apply]
  refine (select_diag (i 0).val r.val c.val hk (Nat.lt_of_lt_of_le r.isLt (by decide)) c.isLt _ _).trans ?_
  by_cases h : r.val = (i 0).val * 256 + c.val
  · rw [if_pos h, if_pos h]
  · rw [if_neg h, if_neg h, mulf_apply, matmulA_apply]
    refine congrArg (· * v9 (ix2 r c)) (Finset.sum_congr rfl fun j _ => ?_)
    rw [mulf_apply, broadcastTo_1b_ab_apply]

/-- The first point's store: the bias row plus the contribution. -/
theorem k5_pay2_apply (i : grid5.Coords) (v2 : Vec Ideal S256x4096 .f32) (v3 : Vec Ideal S1x4096 .f32) (v7 : Vec Ideal S2048x4096 .f32)
    (v9 : Vec Ideal S2048x256 .f32) (v20 : Vec Ideal S256x128 .f32) (v32 : Vec Ideal S1x128 .f32) (r : Fin 2048) (f : Fin 128) :
    k5_pay2 (F := Ideal) i v2 v3 v7 v9 v20 v32 (ix2 r f) = v32 (ix2 0 f) + k5_pay1 (F := Ideal) i v2 v3 v7 v9 v20 (ix2 r f) := by
  unfold k5_pay2
  simp only [shapeCast_self]
  rw [addf_apply, broadcastTo_1b_ab_apply]

/-- A later point's store: the block so far plus the contribution. -/
theorem k5_pay3_apply (i : grid5.Coords) (v2 : Vec Ideal S256x4096 .f32) (v3 : Vec Ideal S1x4096 .f32) (v7 : Vec Ideal S2048x4096 .f32)
    (v9 : Vec Ideal S2048x256 .f32) (v20 : Vec Ideal S256x128 .f32) (v32 : Vec Ideal S2048x128 .f32) (r : Fin 2048) (f : Fin 128) :
    k5_pay3 (F := Ideal) i v2 v3 v7 v9 v20 v32 (ix2 r f) = v32 (ix2 r f) + k5_pay1 (F := Ideal) i v2 v3 v7 v9 v20 (ix2 r f) := by
  unfold k5_pay3
  simp only [shapeCast_self]
  rw [addf_apply]

/-- The last point's store: the maximum with zero. -/
theorem k5_pay4_apply (v32 : Vec Ideal S2048x128 .f32) (r : Fin 2048) (f : Fin 128) :
    k5_pay4 (F := Ideal) v32 (ix2 r f) = max (v32 (ix2 r f)) 0 := by
  unfold k5_pay4
  simp only [shapeCast_self]
  rw [maximumf_apply, broadcast_apply]
  exact congrArg (max (v32 (ix2 r f))) Ideal.ofBits_zero_f32

end Cert.KernelIdeal.PayVal

end
-- ==== Proof.KI.Val5.lean ====
/-
  The value of the third graph convolution's fused region at the ideal instance. The region's output array after its
  eight points is, element by element, relu (gc T d adj HW b): the resident windows' blocks are the arrays, the
  adjacency's block at point k is its columns 256 k … 256 k + 255, so point k contributes the k-th block of
  ∑ m, coef(r, m) · HW(m, f); the output block stays in its buffer and is accumulated from the bias row on, the last
  point takes the maximum with zero, and the block is written back once, after the last point.
-/
import proofs.«109581_g76012331204772_cont_9to1_m_125_6_alg».proof.Proof.KI.Reg5
import proofs.«109581_g76012331204772_cont_9to1_m_125_6_alg».proof.Proof.KI.Pay5
import proofs.«109581_g76012331204772_cont_9to1_m_125_6_alg».proof.Proof.Algebra
import proofs.«109581_g76012331204772_cont_9to1_m_125_6_alg».proof.Proof.Spec
import Idealize.ShloMosaic.Lib.Pipeline.Value
import Idealize.ShloMosaic.Lib.ValueIdx

set_option maxRecDepth 16384

noncomputable section

open scoped BigOperators

namespace Cert.KernelIdeal.HandVal

open Cert.KernelIdeal Cert.KernelIdeal.Gen Cert.KernelIdeal.Hand Cert.KernelIdeal.PayVal
open Idealize.ShloMosaic Idealize.ShloMosaic.TcCoe Idealize.ShloMosaic.ValueIdx Idealize.SL.Sem
open Idealize.ShloMosaic.Pipeline (Dat)
open Cert.Spec

variable (V : (c : Dev nD) → (b : Ref sig .tc) → Buf (Elt Ideal) ((c : Thread nD τ).loc b))

/-! ## The region's arrays -/

/-- The weights `d` (1 × 4096), the table `T` (2048 × 4096), the adjacency (2048 × 2048), `HW` (2048 × 128) and the
    bias row (1 × 128), as the region finds them. -/
abbrev arr5_d (c : Dev nD) : Vec Ideal S1x4096 .f32 := V c (Pipeline.arrRef spec5 0)
abbrev arr5_T (c : Dev nD) : Vec Ideal S2048x4096 .f32 := V c (Pipeline.arrRef spec5 1)
abbrev arr5_adj (c : Dev nD) : Vec Ideal S2048x2048 .f32 := V c (Pipeline.arrRef spec5 2)
abbrev arr5_HW (c : Dev nD) : Vec Ideal S2048x128 .f32 := V c (Pipeline.arrRef spec5 3)
abbrev arr5_b (c : Dev nD) : Vec Ideal S1x128 .f32 := V c (Pipeline.arrRef spec5 4)

/-! ## The grid and the block indices -/

/-- The grid's one coordinate is the point's number. -/
theorem coords5_val : ∀ t : Fin cfg5.N, (grid5.coords t 0).val = t.val :=
  (by decide +kernel : ∀ t : Fin grid5.N, (grid5.coords t 0).val = t.val)

/-- The resident windows' block index is zero at every point; the adjacency's moves along its columns. -/
theorem idx5_0 : ∀ t : Fin cfg5.N, win5_0.index t 0 = 0 ∧ win5_0.index t 1 = 0 :=
  (by decide +kernel : ∀ t : Fin grid5.N, win5_0.index t 0 = 0 ∧ win5_0.index t 1 = 0)
theorem idx5_1 : ∀ t : Fin cfg5.N, win5_1.index t 0 = 0 ∧ win5_1.index t 1 = 0 :=
  (by decide +kernel : ∀ t : Fin grid5.N, win5_1.index t 0 = 0 ∧ win5_1.index t 1 = 0)
theorem idx5_2 : ∀ t : Fin cfg5.N, win5_2.index t 0 = 0 ∧ win5_2.index t 1 = t.val :=
  (by decide +kernel : ∀ t : Fin grid5.N, win5_2.index t 0 = 0 ∧ win5_2.index t 1 = t.val)
theorem idx5_3 : ∀ t : Fin cfg5.N, win5_3.index t 0 = 0 ∧ win5_3.index t 1 = 0 :=
  (by decide +kernel : ∀ t : Fin grid5.N, win5_3.index t 0 = 0 ∧ win5_3.index t 1 = 0)
theorem idx5_4 : ∀ t : Fin cfg5.N, win5_4.index t 0 = 0 ∧ win5_4.index t 1 = 0 :=
  (by decide +kernel : ∀ t : Fin grid5.N, win5_4.index t 0 = 0 ∧ win5_4.index t 1 = 0)
theorem idx5_5 : ∀ t : Fin cfg5.N, win5_5.index t 0 = 0 ∧ win5_5.index t 1 = 0 :=
  (by decide +kernel : ∀ t : Fin grid5.N, win5_5.index t 0 = 0 ∧ win5_5.index t 1 = 0)

/-! ## The windows' blocks, from the arrays -/

theorem iblk5_0_eq (c : Dev nD) (t : Fin cfg5.N) : (iblk5 V c 0 t : Vec Ideal S1x4096 .f32) = arr5_d V c := by
  funext j
  have hi := idx5_0 t
  unfold iblk5
  rw [View.read_apply]
  show V c (Pipeline.arrRef spec5 0) _ = V c (Pipeline.arrRef spec5 0) j
  congr 1
  funext a
  apply Fin.ext
  match a with
  | ⟨0, _⟩ => show win5_0.index t 0 * 1 + 1 * (j 0).val = (j 0).val; rw [hi.1]; omega
  | ⟨1, _⟩ => show win5_0.index t 1 * 4096 + 1 * (j 1).val = (j 1).val; rw [hi.2]; omega

theorem iblk5_1_eq (c : Dev nD) (t : Fin cfg5.N) : (iblk5 V c 1 t : Vec Ideal S2048x4096 .f32) = arr5_T V c := by
  funext j
  have hi := idx5_1 t
  unfold iblk5
  rw [View.read_apply]
  show V c (Pipeline.arrRef spec5 1) _ = V c (Pipeline.arrRef spec5 1) j
  congr 1
  funext a
  apply Fin.ext
  match a with
  | ⟨0, _⟩ => show win5_1.index t 0 * 2048 + 1 * (j 0).val = (j 0).val; rw [hi.1]; omega
  | ⟨1, _⟩ => show win5_1.index t 1 * 4096 + 1 * (j 1).val = (j 1).val; rw [hi.2]; omega

/-- The adjacency's block at point `t` is its columns `256 t … 256 t + 255`. -/
theorem iblk5_2_apply (c : Dev nD) (t : Fin cfg5.N) (r : Fin 2048) (cc : Fin 256) (h : t.val * 256 + cc.val < 2048) :
    (iblk5 V c 2 t : Vec Ideal S2048x256 .f32) (ix2 r cc) = arr5_adj V c (ix2 r ⟨t.val * 256 + cc.val, h⟩) := by
  have hi := idx5_2 t
  unfold iblk5
  rw [View.read_apply]
  show V c (Pipeline.arrRef spec5 2) _ = V c (Pipeline.arrRef spec5 2) (ix2 r ⟨t.val * 256 + cc.val, h⟩)
  congr 1
  funext a
  apply Fin.ext
  match a with
  | ⟨0, _⟩ => show win5_2.index t 0 * 2048 + 1 * r.val = r.val; rw [hi.1]; omega
  | ⟨1, _⟩ => show win5_2.index t 1 * 256 + 1 * cc.val = t.val * 256 + cc.val; rw [hi.2]; omega

theorem iblk5_3_eq (c : Dev nD) (t : Fin cfg5.N) : (iblk5 V c 3 t : Vec Ideal S2048x128 .f32) = arr5_HW V c := by
  funext j
  have hi := idx5_3 t
  unfold iblk5
  rw [View.read_apply]
  show V c (Pipeline.arrRef spec5 3) _ = V c (Pipeline.arrRef spec5 3) j
  congr 1
  funext a
  apply Fin.ext
  match a with
  | ⟨0, _⟩ => show win5_3.index t 0 * 2048 + 1 * (j 0).val = (j 0).val; rw [hi.1]; omega
  | ⟨1, _⟩ => show win5_3.index t 1 * 128 + 1 * (j 1).val = (j 1).val; rw [hi.2]; omega

theorem iblk5_4_eq (c : Dev nD) (t : Fin cfg5.N) : (iblk5 V c 4 t : Vec Ideal S1x128 .f32) = arr5_b V c := by
  funext j
  have hi := idx5_4 t
  unfold iblk5
  rw [View.read_apply]
  show V c (Pipeline.arrRef spec5 4) _ = V c (Pipeline.arrRef spec5 4) j
  congr 1
  funext a
  apply Fin.ext
  match a with
  | ⟨0, _⟩ => show win5_4.index t 0 * 1 + 1 * (j 0).val = (j 0).val; rw [hi.1]; omega
  | ⟨1, _⟩ => show win5_4.index t 1 * 128 + 1 * (j 1).val = (j 1).val; rw [hi.2]; omega

/-! ## The body's row slices, from the arrays -/

/-- The rows of `T` that face point `i`'s column block: row `cc` of the slice is row `256 i + cc`. -/
theorem ld5_Trows (i : grid5.Coords) (T : Vec Ideal S2048x4096 .f32) (cc : Fin 256) (j : Fin 4096)
    (h : (i 0).val * 256 + cc.val < 2048) :
    View.ld T (r5_Trows i) (ix2 cc j) = T (ix2 ⟨(i 0).val * 256 + cc.val, h⟩ j) := by
  show T ((r5_Trows i).idx (ix2 cc j)) = _
  congr 1
  funext a
  apply Fin.ext
  match a with
  | ⟨0, _⟩ => show k5_off1 i 0 + 1 * cc.val = (i 0).val * 256 + cc.val; rw [k5_off1_eq]; show 256 * (i 0).val + 1 * cc.val = _; omega
  | ⟨1, _⟩ => show k5_off1 i 1 + 1 * j.val = j.val; rw [k5_off1_eq]; show 0 + 1 * j.val = _; omega

/-- The rows of `HW` that face it, likewise. -/
theorem ld5_Hrows (i : grid5.Coords) (H : Vec Ideal S2048x128 .f32) (cc : Fin 256) (f : Fin 128)
    (h : (i 0).val * 256 + cc.val < 2048) :
    View.ld H (r5_Hrows i) (ix2 cc f) = H (ix2 ⟨(i 0).val * 256 + cc.val, h⟩ f) := by
  show H ((r5_Hrows i).idx (ix2 cc f)) = _
  congr 1
  funext a
  apply Fin.ext
  match a with
  | ⟨0, _⟩ => show k5_off2 i 0 + 1 * cc.val = (i 0).val * 256 + cc.val; rw [k5_off2_eq]; show 256 * (i 0).val + 1 * cc.val = _; omega
  | ⟨1, _⟩ => show k5_off2 i 1 + 1 * f.val = f.val; rw [k5_off2_eq]; show 0 + 1 * f.val = _; omega

/-! ## One point's contribution -/

/-- Block `k` of `∑ m, coef(r, m) · HW(m, f)`: the columns `256 k … 256 k + 255`. -/
def blk5 (c : Dev nD) (r : Fin 2048) (f : Fin 128) (k : ℕ) : EReal :=
  if hk : k < 8 then
    ∑ cc : Fin 256,
      Cert.Algebra.coefK (m2 (arr5_T V c)) (row (arr5_d V c)) (m2 (arr5_adj V c)) r ⟨k * 256 + cc.val, by have := cc.isLt; omega⟩
        * m2 (arr5_HW V c) ⟨k * 256 + cc.val, by have := cc.isLt; omega⟩ f
  else 0

/-- The contribution the body computes at point `t` is block `t`: over the arrays for the resident windows and any
    block `x2` that holds the adjacency's columns `256 t …`. -/
theorem pay5_at (c : Dev nD) (t : Fin cfg5.N) (x2 : Vec Ideal S2048x256 .f32)
    (h2 : ∀ (r : Fin 2048) (cc : Fin 256) (h : t.val * 256 + cc.val < 2048), x2 (ix2 r cc) = arr5_adj V c (ix2 r ⟨t.val * 256 + cc.val, h⟩))
    (r : Fin 2048) (f : Fin 128) :
    k5_pay1 (F := Ideal) (grid5.coords t) (View.ld (arr5_T V c) (r5_Trows (grid5.coords t))) (View.ld (arr5_d V c) r5_d)
        (View.ld (arr5_T V c) r5_T) (View.ld x2 r5_adj) (View.ld (arr5_HW V c) (r5_Hrows (grid5.coords t))) (ix2 r f)
      = blk5 V c r f t.val := by
  have ht : t.val < 8 := lt_of_lt_of_eq t.isLt (show cfg5.N = 8 from N_5)
  have hc0 : (grid5.coords t 0).val = t.val := coords5_val t
  rw [k5_pay1_apply]
  unfold blk5
  rw [dif_pos ht]
  refine Finset.sum_congr rfl fun cc _ => ?_
  have hlt : t.val * 256 + cc.val < 2048 := by have := cc.isLt; omega
  have hlt' : (grid5.coords t 0).val * 256 + cc.val < 2048 := by rw [hc0]; exact hlt
  have e_adj : View.ld x2 r5_adj (ix2 r cc) = arr5_adj V c (ix2 r ⟨t.val * 256 + cc.val, hlt⟩) :=
    (congrFun (View.ld_unit_zero (S := S2048x256) zero2_5 inb_S2048x256_S2048x256_0_0 x2) (ix2 r cc)).trans (h2 r cc hlt)
  have e_T : ∀ j : Fin 4096, View.ld (arr5_T V c) r5_T (ix2 r j) = arr5_T V c (ix2 r j) := fun j =>
    congrFun (View.ld_unit_zero (S := S2048x4096) zero2_5 inb_S2048x4096_S2048x4096_0_0 (arr5_T V c)) (ix2 r j)
  have e_d : ∀ j : Fin 4096, View.ld (arr5_d V c) r5_d (ix2 0 j) = arr5_d V c (ix2 0 j) := fun j =>
    congrFun (View.ld_unit_zero (S := S1x4096) zero2_5 inb_S1x4096_S1x4096_0_0 (arr5_d V c)) (ix2 0 j)
  have e_Tr : ∀ j : Fin 4096, View.ld (arr5_T V c) (r5_Trows (grid5.coords t)) (ix2 cc j)
      = arr5_T V c (ix2 ⟨t.val * 256 + cc.val, hlt⟩ j) := fun j =>
    (ld5_Trows (grid5.coords t) (arr5_T V c) cc j hlt').trans (by congr 2; exact Fin.ext (by show (grid5.coords t 0).val * 256 + cc.val = t.val * 256 + cc.val; omega))
  have e_H : View.ld (arr5_HW V c) (r5_Hrows (grid5.coords t)) (ix2 cc f)
      = arr5_HW V c (ix2 ⟨t.val * 256 + cc.val, hlt⟩ f) :=
    (ld5_Hrows (grid5.coords t) (arr5_HW V c) cc f hlt').trans (by congr 2; exact Fin.ext (by show (grid5.coords t 0).val * 256 + cc.val = t.val * 256 + cc.val; omega))
  rw [e_adj, e_H, hc0]
  simp only [e_T, e_d, e_Tr]
  show _ = (if r = ⟨t.val * 256 + cc.val, hlt⟩ then arr5_adj V c (ix2 r ⟨t.val * 256 + cc.val, hlt⟩)
      else (∑ j : Fin 4096, arr5_T V c (ix2 r j) * (arr5_T V c (ix2 ⟨t.val * 256 + cc.val, hlt⟩ j) * arr5_d V c (ix2 0 j)))
        * arr5_adj V c (ix2 r ⟨t.val * 256 + cc.val, hlt⟩)) * arr5_HW V c (ix2 ⟨t.val * 256 + cc.val, hlt⟩ f)
  congr 1
  exact if_congr (Fin.ext_iff (a := r) (b := ⟨t.val * 256 + cc.val, hlt⟩)).symm rfl rfl

/-- The first point's store at (r, f): the bias plus block `t`. -/
theorem out5_A_apply (c : Dev nD) (t : Fin cfg5.N) (x0 : Vec Ideal S1x4096 .f32) (x1 : Vec Ideal S2048x4096 .f32)
    (x2 : Vec Ideal S2048x256 .f32) (x3 : Vec Ideal S2048x128 .f32) (x4 : Vec Ideal S1x128 .f32)
    (h0 : x0 = arr5_d V c) (h1 : x1 = arr5_T V c)
    (h2 : ∀ (r : Fin 2048) (cc : Fin 256) (h : t.val * 256 + cc.val < 2048), x2 (ix2 r cc) = arr5_adj V c (ix2 r ⟨t.val * 256 + cc.val, h⟩))
    (h3 : x3 = arr5_HW V c) (h4 : x4 = arr5_b V c) (r : Fin 2048) (f : Fin 128) :
    out5_A (grid5.coords t) x0 x1 x2 x3 x4 (ix2 r f) = row (arr5_b V c) f + blk5 V c r f t.val := by
  subst h0 h1 h3 h4
  unfold out5_A
  rw [k5_pay2_apply, pay5_at V c t x2 h2 r f]
  exact congrArg (· + blk5 V c r f t.val)
    (congrFun (View.ld_unit_zero (S := S1x128) zero2_5 inb_S1x128_S1x128_0_0 (arr5_b V c)) (ix2 0 f))

/-- A later point's store at (r, f): what the buffer held plus block `t`. -/
theorem out5_B_apply (c : Dev nD) (t : Fin cfg5.N) (x0 : Vec Ideal S1x4096 .f32) (x1 : Vec Ideal S2048x4096 .f32)
    (x2 : Vec Ideal S2048x256 .f32) (x3 : Vec Ideal S2048x128 .f32) (prev : Vec Ideal S2048x128 .f32)
    (h0 : x0 = arr5_d V c) (h1 : x1 = arr5_T V c)
    (h2 : ∀ (r : Fin 2048) (cc : Fin 256) (h : t.val * 256 + cc.val < 2048), x2 (ix2 r cc) = arr5_adj V c (ix2 r ⟨t.val * 256 + cc.val, h⟩))
    (h3 : x3 = arr5_HW V c) (r : Fin 2048) (f : Fin 128) :
    out5_B (grid5.coords t) x0 x1 x2 x3 prev (ix2 r f) = prev (ix2 r f) + blk5 V c r f t.val := by
  subst h0 h1 h3
  unfold out5_B
  rw [k5_pay3_apply, pay5_at V c t x2 h2 r f]

/-! ## The accumulation -/

/-- The accumulation without the last point's maximum. -/
def accAt5 (c : Dev nD) : (n : ℕ) → n < cfg5.N → Vec Ideal S2048x128 .f32
  | 0, hn => out5_A (grid5.coords ⟨0, hn⟩) (iblk5 V c 0 ⟨0, hn⟩) (iblk5 V c 1 ⟨0, hn⟩) (iblk5 V c 2 ⟨0, hn⟩) (iblk5 V c 3 ⟨0, hn⟩) (iblk5 V c 4 ⟨0, hn⟩)
  | n + 1, hn => out5_B (grid5.coords ⟨n + 1, hn⟩) (iblk5 V c 0 ⟨n + 1, hn⟩) (iblk5 V c 1 ⟨n + 1, hn⟩) (iblk5 V c 2 ⟨n + 1, hn⟩) (iblk5 V c 3 ⟨n + 1, hn⟩) (accAt5 c n (Nat.lt_of_succ_lt hn))

/-- Before the last point the buffer holds the accumulation; -/
theorem outsAt5_eq_acc (c : Dev nD) : ∀ (n : ℕ) (hn : n < cfg5.N), n < 7 → outsAt5 V c n hn = accAt5 V c n hn
  | 0, hn, _ => rfl
  | n + 1, hn, h7 => by
    show (if n + 1 = 7 then _ else out5_B _ _ _ _ _ (outsAt5 V c n _)) = out5_B _ _ _ _ _ (accAt5 V c n _)
    rw [if_neg (by omega), outsAt5_eq_acc c n _ (by omega)]

/-- after the last one, its maximum with zero. -/
theorem outsAt5_last (c : Dev nD) (hn : 7 < cfg5.N) : outsAt5 V c 7 hn = k5_pay4 (accAt5 V c 7 hn) := by
  show (if 6 + 1 = 7 then out5_C _ _ _ _ _ (outsAt5 V c 6 _) else _) = _
  rw [if_pos rfl, outsAt5_eq_acc V c 6 _ (by decide)]
  rfl

/-- The accumulation ends at the layer's value before the ramp. -/
theorem accAt5_last (c : Dev nD) (hn : 7 < cfg5.N) (r : Fin 2048) (f : Fin 128) :
    accAt5 V c 7 hn (ix2 r f)
      = gc (m2 (arr5_T V c)) (row (arr5_d V c)) (m2 (arr5_adj V c)) (m2 (arr5_HW V c)) (row (arr5_b V c)) r f := by
  have hN : cfg5.N = 8 := N_5
  have key := Cert.Algebra.gc_of_blocks_2048 (m2 (arr5_T V c)) (row (arr5_d V c)) (m2 (arr5_adj V c)) (m2 (arr5_HW V c))
    (row (arr5_b V c)) r f (fun n => if h : n < cfg5.N then accAt5 V c n h (ix2 r f) else 0) (blk5 V c r f)
    (fun k hk => by unfold blk5; rw [dif_pos hk])
    (by
      show (if h : 0 < cfg5.N then accAt5 V c 0 h (ix2 r f) else 0) = _
      rw [dif_pos (by omega)]
      exact out5_A_apply V c ⟨0, by omega⟩ _ _ _ _ _ (iblk5_0_eq V c _) (iblk5_1_eq V c _)
        (fun r cc h => iblk5_2_apply V c _ r cc h) (iblk5_3_eq V c _) (iblk5_4_eq V c _) r f)
    (fun k hk => by
      show (if h : k + 1 < cfg5.N then accAt5 V c (k + 1) h (ix2 r f) else 0)
        = (if h : k < cfg5.N then accAt5 V c k h (ix2 r f) else 0) + _
      rw [dif_pos (by omega), dif_pos (by omega)]
      exact out5_B_apply V c ⟨k + 1, by omega⟩ _ _ _ _ (accAt5 V c k (by omega)) (iblk5_0_eq V c _) (iblk5_1_eq V c _)
        (fun r cc h => iblk5_2_apply V c _ r cc h) (iblk5_3_eq V c _) r f)
  rw [← key]
  show _ = (if h : 7 < cfg5.N then accAt5 V c 7 h (ix2 r f) else 0)
  rw [dif_pos hn]

/-! ## The output array after the region -/

/-- The output's block is written back once, after the last point, and it is the whole array: the array ends
    holding what the last point left in the buffer. -/
theorem arrAt5_last (c : Dev nD) (hn : 7 < cfg5.N) (r : Fin 2048) (f : Fin 128) :
    ((dat5 V c).arrAt 5 cfg5.N : Vec Ideal S2048x128 .f32) (ix2 r f) = outsAt5 V c 7 hn (ix2 r f) := by
  have hfl : (cfg5.win 5).flush ⟨7, hn⟩ = true := (flush5_5 ⟨7, hn⟩).mpr rfl
  have hs := (dat5 V c).arrAt_succ 5 ⟨7, hn⟩
  rw [if_pos hfl] at hs
  have hN : (dat5 V c).arrAt 5 cfg5.N = (dat5 V c).arrAt 5 ((⟨7, hn⟩ : Fin cfg5.N).val + 1) :=
    congrArg ((dat5 V c).arrAt 5) (show cfg5.N = 7 + 1 from N_5)
  have hi := idx5_5 ⟨7, hn⟩
  have hemb : ((cfg5.win 5).blk ⟨7, hn⟩).view.emb (ix2 r f) = (ix2 r f : S2048x128.Idx) := by
    funext a
    apply Fin.ext
    match a with
    | ⟨0, _⟩ => show win5_5.index ⟨7, hn⟩ 0 * 2048 + 1 * r.val = r.val; rw [hi.1]; omega
    | ⟨1, _⟩ => show win5_5.index ⟨7, hn⟩ 1 * 128 + 1 * f.val = f.val; rw [hi.2]; omega
  have key := View.write_emb_of_mem (v := ((cfg5.win 5).blk ⟨7, hn⟩).view) ((dat5 V c).arrAt 5 (⟨7, hn⟩ : Fin cfg5.N).val)
    ((dat5 V c).flushed 5 ⟨7, hn⟩) (Finset.mem_univ (ix2 r f))
  rw [hemb] at key
  rw [hN, hs]
  exact key

/-! ## The region's value -/

/-- THE VALUE: after the region the output array is `relu (gc T d adj HW b)`, element by element. -/
theorem val5 (c : Dev nD) (r : Fin 2048) (f : Fin 128) :
    ((dat5 V c).arrAt 5 cfg5.N : Vec Ideal S2048x128 .f32) (ix2 r f)
      = reluM (gc (m2 (arr5_T V c)) (row (arr5_d V c)) (m2 (arr5_adj V c)) (m2 (arr5_HW V c)) (row (arr5_b V c))) r f := by
  have hn : 7 < cfg5.N := lt_of_lt_of_eq (by decide) (show (8 : ℕ) = cfg5.N from N_5.symm)
  rw [arrAt5_last V c hn, outsAt5_last V c hn, k5_pay4_apply, accAt5_last V c hn]
  rfl

end Cert.KernelIdeal.HandVal

end
-- ==== Proof.KI.Pay6.lean ====
import proofs.«109581_g76012331204772_cont_9to1_m_125_6_alg».proof.Proof.Gen.KernelIdeal.Skeleton
import proofs.«109581_g76012331204772_cont_9to1_m_125_6_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

theorem k6d_lhs_0 (i : S1x2048.Idx) (q : dot_S1x128_S2048x128_S1x2048_1_1_0_0_n_n.contr.Idx) :
    (dot_S1x128_S2048x128_S1x2048_1_1_0_0_n_n.lhsIdx i q 0).val = (i 0).val := by
  unfold DotDims.lhsIdx
  rw [dif_neg (show ¬(0 : Fin S1x128.rank) ∈ dot_S1x128_S2048x128_S1x2048_1_1_0_0_n_n.lhsBatch by decide), dif_pos (show (0 : Fin S1x128.rank) ∈ dot_S1x128_S2048x128_S1x2048_1_1_0_0_n_n.lhsNonContracting by decide)]
  rfl
theorem k6d_lhs_1 (i : S1x2048.Idx) (q : dot_S1x128_S2048x128_S1x2048_1_1_0_0_n_n.contr.Idx) :
    (dot_S1x128_S2048x128_S1x2048_1_1_0_0_n_n.lhsIdx i q 1).val = (q ⟨0, by decide⟩).val :=
  dot_S1x128_S2048x128_S1x2048_1_1_0_0_n_n.lhsIdx_val_of_single rfl i q
theorem k6d_rhs_0 (i : S1x2048.Idx) (q : dot_S1x128_S2048x128_S1x2048_1_1_0_0_n_n.contr.Idx) :
    (dot_S1x128_S2048x128_S1x2048_1_1_0_0_n_n.rhsIdx i q 0).val = (i 1).val := by
  unfold DotDims.rhsIdx
  rw [dif_neg (show ¬(0 : Fin S2048x128.rank) ∈ dot_S1x128_S2048x128_S1x2048_1_1_0_0_n_n.rhsBatch by decide), dif_pos (show (0 : Fin S2048x128.rank) ∈ dot_S1x128_S2048x128_S1x2048_1_1_0_0_n_n.rhsNonContracting by decide)]
  rfl
theorem k6d_rhs_1 (i : S1x2048.Idx) (q : dot_S1x128_S2048x128_S1x2048_1_1_0_0_n_n.contr.Idx) :
    (dot_S1x128_S2048x128_S1x2048_1_1_0_0_n_n.rhsIdx i q 1).val = (q ⟨0, by decide⟩).val :=
  dot_S1x128_S2048x128_S1x2048_1_1_0_0_n_n.rhsIdx_val_of_single rfl i q

theorem k6d_matmul_apply (x : FVec Ideal S1x128 .f32) (y : FVec Ideal S2048x128 .f32) (e : Fin 2048) :
    matmul dot_S1x128_S2048x128_S1x2048_1_1_0_0_n_n none x y (constant (F := Ideal) S1x2048 .f32 0x00000000#32) (ix2 0 e)
      = ∑ j : Fin 128, x (ix2 0 j) * y (ix2 e j) := by
  refine (Ideal.matmul_constant_zero_apply dot_S1x128_S2048x128_S1x2048_1_1_0_0_n_n none x y (ix2 0 e)).trans ?_
  rw [← Equiv.sum_comp (contrEquiv1 dot_S1x128_S2048x128_S1x2048_1_1_0_0_n_n 128 rfl rfl).symm]
  refine Finset.sum_congr rfl fun k _ => ?_
  have hk := contrEquiv1_symm_val dot_S1x128_S2048x128_S1x2048_1_1_0_0_n_n 128 rfl rfl k
  have el : dot_S1x128_S2048x128_S1x2048_1_1_0_0_n_n.lhsIdx (ix2 0 e) ((contrEquiv1 dot_S1x128_S2048x128_S1x2048_1_1_0_0_n_n 128 rfl rfl).symm k) = ix2 0 k := funext fun a => Fin.ext (by
    match a with
    | ⟨0, _⟩ => exact k6d_lhs_0 _ _
    | ⟨1, _⟩ => exact (k6d_lhs_1 _ _).trans hk)
  have er : dot_S1x128_S2048x128_S1x2048_1_1_0_0_n_n.rhsIdx (ix2 0 e) ((contrEquiv1 dot_S1x128_S2048x128_S1x2048_1_1_0_0_n_n 128 rfl rfl).symm k) = ix2 e k := funext fun a => Fin.ext (by
    match a with
    | ⟨0, _⟩ => exact k6d_rhs_0 _ _
    | ⟨1, _⟩ => exact (k6d_rhs_1 _ _).trans hk)
  rw [el, er]

theorem k6w_lhs_0 (i : S4096x16.Idx) (q : dot_S4096x32_S32x16_S4096x16_1_0_0_1_n_n.contr.Idx) :
    (dot_S4096x32_S32x16_S4096x16_1_0_0_1_n_n.lhsIdx i q 0).val = (i 0).val := by
  unfold DotDims.lhsIdx
  rw [dif_neg (show ¬(0 : Fin S4096x32.rank) ∈ dot_S4096x32_S32x16_S4096x16_1_0_0_1_n_n.lhsBatch by decide), dif_pos (show (0 : Fin S4096x32.rank) ∈ dot_S4096x32_S32x16_S4096x16_1_0_0_1_n_n.lhsNonContracting by decide)]
  rfl
theorem k6w_lhs_1 (i : S4096x16.Idx) (q : dot_S4096x32_S32x16_S4096x16_1_0_0_1_n_n.contr.Idx) :
    (dot_S4096x32_S32x16_S4096x16_1_0_0_1_n_n.lhsIdx i q 1).val = (q ⟨0, by decide⟩).val :=
  dot_S4096x32_S32x16_S4096x16_1_0_0_1_n_n.lhsIdx_val_of_single rfl i q
theorem k6w_rhs_0 (i : S4096x16.Idx) (q : dot_S4096x32_S32x16_S4096x16_1_0_0_1_n_n.contr.Idx) :
    (dot_S4096x32_S32x16_S4096x16_1_0_0_1_n_n.rhsIdx i q 0).val = (q ⟨0, by decide⟩).val :=
  dot_S4096x32_S32x16_S4096x16_1_0_0_1_n_n.rhsIdx_val_of_single rfl i q
theorem k6w_rhs_1 (i : S4096x16.Idx) (q : dot_S4096x32_S32x16_S4096x16_1_0_0_1_n_n.contr.Idx) :
    (dot_S4096x32_S32x16_S4096x16_1_0_0_1_n_n.rhsIdx i q 1).val = (i 1).val := by
  unfold DotDims.rhsIdx
  rw [dif_neg (show ¬(1 : Fin S32x16.rank) ∈ dot_S4096x32_S32x16_S4096x16_1_0_0_1_n_n.rhsBatch by decide), dif_pos (show (1 : Fin S32x16.rank) ∈ dot_S4096x32_S32x16_S4096x16_1_0_0_1_n_n.rhsNonContracting by decide)]
  rfl

theorem k6w_matmul_apply (x : FVec Ideal S4096x32 .f32) (y : FVec Ideal S32x16 .f32) (n : Fin 4096) (f : Fin 16) :
    matmul dot_S4096x32_S32x16_S4096x16_1_0_0_1_n_n none x y (constant (F := Ideal) S4096x16 .f32 0x00000000#32) (ix2 n f)
      = ∑ c : Fin 32, x (ix2 n c) * y (ix2 c f) := by
  refine (Ideal.matmul_constant_zero_apply dot_S4096x32_S32x16_S4096x16_1_0_0_1_n_n none x y (ix2 n f)).trans ?_
  rw [← Equiv.sum_comp (contrEquiv1 dot_S4096x32_S32x16_S4096x16_1_0_0_1_n_n 32 rfl rfl).symm]
  refine Finset.sum_congr rfl fun k _ => ?_
  have hk := contrEquiv1_symm_val dot_S4096x32_S32x16_S4096x16_1_0_0_1_n_n 32 rfl rfl k
  have el : dot_S4096x32_S32x16_S4096x16_1_0_0_1_n_n.lhsIdx (ix2 n f) ((contrEquiv1 dot_S4096x32_S32x16_S4096x16_1_0_0_1_n_n 32 rfl rfl).symm k) = ix2 n k := funext fun a => Fin.ext (by
    match a with
    | ⟨0, _⟩ => exact k6w_lhs_0 _ _
    | ⟨1, _⟩ => exact (k6w_lhs_1 _ _).trans hk)
  have er : dot_S4096x32_S32x16_S4096x16_1_0_0_1_n_n.rhsIdx (ix2 n f) ((contrEquiv1 dot_S4096x32_S32x16_S4096x16_1_0_0_1_n_n 32 rfl rfl).symm k) = ix2 k f := funext fun a => Fin.ext (by
    match a with
    | ⟨0, _⟩ => exact (k6w_rhs_0 _ _).trans hk
    | ⟨1, _⟩ => exact k6w_rhs_1 _ _)
  rw [el, er]

theorem k6_pay1_apply (p : Vec Ideal S1x128 .f32) (hv : Vec Ideal S2048x128 .f32) (e : Fin 2048) :
    k6_pay1 (F := Ideal) p hv (ix2 0 e) = ∑ j : Fin 128, p (ix2 0 j) * hv (ix2 e j) := by
  unfold k6_pay1
  simp only [shapeCast_self]
  exact k6d_matmul_apply _ _ e

theorem k6_pay2_apply (he : Vec Ideal S4096x32 .f32) (w : Vec Ideal S32x16 .f32) (n : Fin 4096) (f : Fin 16) :
    k6_pay2 (F := Ideal) he w (ix2 n f) = ∑ c : Fin 32, he (ix2 n c) * w (ix2 c f) := by
  unfold k6_pay2
  simp only [shapeCast_self]
  exact k6w_matmul_apply _ _ n f

theorem k6_d_spec (p : Vec Ideal S1x128 .f32) (hv : Vec Ideal S2048x128 .f32) (e : Fin 2048) :
    k6_pay1 (F := Ideal) p hv (ix2 0 e) = Cert.Spec.dvec (Cert.Spec.m2 hv) (Cert.Spec.row p) e := by
  rw [k6_pay1_apply]
  exact Finset.sum_congr rfl fun j _ => mul_comm _ _

theorem k6_hw_spec (he : Vec Ideal S4096x32 .f32) (w : Vec Ideal S32x16 .f32) (n : Fin 4096) (f : Fin 16) :
    k6_pay2 (F := Ideal) he w (ix2 n f) = Cert.Spec.mm (Cert.Spec.m2 he) (Cert.Spec.m2 w) n f :=
  k6_pay2_apply he w n f

end Cert.KernelIdeal.PayVal

end
-- ==== Proof.KI.Val6.lean ====
import proofs.«109581_g76012331204772_cont_9to1_m_125_6_alg».proof.Proof.KI.Reg6
import proofs.«109581_g76012331204772_cont_9to1_m_125_6_alg».proof.Proof.KI.Pay6
import proofs.«109581_g76012331204772_cont_9to1_m_125_6_alg».proof.Proof.Spec
import Idealize.ShloMosaic.Lib.Pipeline.Value
import Idealize.ShloMosaic.Lib.ValueIdx

set_option maxRecDepth 16384

noncomputable section

namespace Cert.KernelIdeal.HandVal

open Cert.KernelIdeal Cert.KernelIdeal.Gen Cert.KernelIdeal.Hand Cert.KernelIdeal.PayVal
open Idealize.ShloMosaic Idealize.ShloMosaic.TcCoe Idealize.SL.Sem Idealize.ShloMosaic.ValueIdx
open Idealize.ShloMosaic.Pipeline (Dat)

theorem hz6 : (![0, 0] : Fin 2 → Nat) = fun _ => 0 := funext fun a => by fin_cases a <;> rfl

section Generic

variable {F : FTy → Type} [FloatOps F]
variable (V : (c : Dev nD) → (b : Ref sig .tc) → Buf (Elt F) ((c : Thread nD τ).loc b))

theorem arrRef6_0 : Pipeline.arrRef spec6 0 = main_v15 := rfl
theorem arrRef6_1 : Pipeline.arrRef spec6 1 = main_v12 := rfl
theorem arrRef6_2 : Pipeline.arrRef spec6 2 = main_arg20 := rfl
theorem arrRef6_3 : Pipeline.arrRef spec6 3 = main_arg21 := rfl
theorem arrRef6_4 : Pipeline.arrRef spec6 4 = main_v16_0 := rfl
theorem arrRef6_5 : Pipeline.arrRef spec6 5 = main_v16_1 := rfl

theorem iblk6_0 (c : Dev nD) (t : Fin cfg6.N) : iblk6 V c 0 t = V c main_v15 := by
  have hz' : (fun a => win6_0.index t a * main_v15.ty.shape.size a) = fun _ => 0 := funext fun a => Nat.zero_mul _
  unfold iblk6
  exact Memref.read_access_unit_zero (Elt F) main_v15 hz' (fun a => by rw [congrFun hz' a]; simp) (V c main_v15)

theorem iblk6_1 (c : Dev nD) (t : Fin cfg6.N) : iblk6 V c 1 t = V c main_v12 := by
  have hz' : (fun a => win6_1.index t a * main_v12.ty.shape.size a) = fun _ => 0 := funext fun a => Nat.zero_mul _
  unfold iblk6
  exact Memref.read_access_unit_zero (Elt F) main_v12 hz' (fun a => by rw [congrFun hz' a]; simp) (V c main_v12)

theorem iblk6_2 (c : Dev nD) (t : Fin cfg6.N) : iblk6 V c 2 t = V c main_arg20 := by
  have hz' : (fun a => win6_2.index t a * main_arg20.ty.shape.size a) = fun _ => 0 := funext fun a => Nat.zero_mul _
  unfold iblk6
  exact Memref.read_access_unit_zero (Elt F) main_arg20 hz' (fun a => by rw [congrFun hz' a]; simp) (V c main_arg20)

theorem iblk6_3 (c : Dev nD) (t : Fin cfg6.N) : iblk6 V c 3 t = V c main_arg21 := by
  have hz' : (fun a => win6_3.index t a * main_arg21.ty.shape.size a) = fun _ => 0 := funext fun a => Nat.zero_mul _
  unfold iblk6
  exact Memref.read_access_unit_zero (Elt F) main_arg21 hz' (fun a => by rw [congrFun hz' a]; simp) (V c main_arg21)

abbrev G6_4 (c : Dev nD) : Buf (Elt F) ((c : Thread nD τ).loc main_v16_0) :=
  k6_pay1 (F := F) (V c main_arg21 : Vec F S1x128 .f32) (V c main_v15 : Vec F S2048x128 .f32)

theorem flushed6_4 (c : Dev nD) (t : Fin cfg6.N) :
    (dat6 V c).flushed 4 t = ((cfg6.win 4).blk t).view.read (Elt F) (G6_4 V c) := by
  have hz' : (fun a => win6_4.index t a * main_v16_0.ty.shape.size a) = fun _ => 0 := funext fun a => Nat.zero_mul _
  show (cfg6.win 4).cut (grid6.coords t) ((dat6 V c).after 4 t) = _
  rw [after6_4]
  unfold out6_4
  rw [View.canon_unit_zero hz6]
  simp only [View.ld_unit_zero (S := S1x128) hz6, View.ld_unit_zero (S := S2048x128) hz6]
  rw [iblk6_3, iblk6_0]
  exact (Memref.read_access_unit_zero (Elt F) main_v16_0 hz' (fun a => by rw [congrFun hz' a]; simp) (G6_4 V c)).symm

theorem final6_4 (c : Dev nD) : (dat6 V c).arrAt 4 cfg6.N = G6_4 V c :=
  (dat6 V c).arrAt_eq_of_cover 4 (G6_4 V c) (fun t _ => flushed6_4 V c t) fun i =>
    ⟨t6_0, flush6_4 t6_0, by
      show i ∈ ((View.whole main_v16_0).slice (win6_4.rect t6_0)).set
      rw [View.set_slice_whole, Rect.mem_set_unit]
      intro a
      have h0 : (i 0 : Nat) < 1 := (i 0).isLt
      have h1 : (i 1 : Nat) < 2048 := (i 1).isLt
      match a with
      | ⟨0, _⟩ => show win6_4.index t6_0 0 * win6_4.size 0 ≤ (i 0 : Nat) ∧ (i 0 : Nat) < win6_4.index t6_0 0 * win6_4.size 0 + win6_4.xsize (grid6.coords t6_0) 0
                  rw [show win6_4.index t6_0 0 * win6_4.size 0 = 0 from Nat.zero_mul _, show win6_4.xsize (grid6.coords t6_0) 0 = 1 from rfl]; omega
      | ⟨1, _⟩ => show win6_4.index t6_0 1 * win6_4.size 1 ≤ (i 1 : Nat) ∧ (i 1 : Nat) < win6_4.index t6_0 1 * win6_4.size 1 + win6_4.xsize (grid6.coords t6_0) 1
                  rw [show win6_4.index t6_0 1 * win6_4.size 1 = 0 from Nat.zero_mul _, show win6_4.xsize (grid6.coords t6_0) 1 = 2048 from rfl]; omega⟩

abbrev G6_5 (c : Dev nD) : Buf (Elt F) ((c : Thread nD τ).loc main_v16_1) :=
  k6_pay2 (F := F) (V c main_v12 : Vec F S4096x32 .f32) (V c main_arg20 : Vec F S32x16 .f32)

theorem flushed6_5 (c : Dev nD) (t : Fin cfg6.N) :
    (dat6 V c).flushed 5 t = ((cfg6.win 5).blk t).view.read (Elt F) (G6_5 V c) := by
  have hz' : (fun a => win6_5.index t a * main_v16_1.ty.shape.size a) = fun _ => 0 := funext fun a => Nat.zero_mul _
  show (cfg6.win 5).cut (grid6.coords t) ((dat6 V c).after 5 t) = _
  rw [after6_5]
  unfold out6_5
  rw [View.canon_unit_zero hz6]
  simp only [View.ld_unit_zero (S := S4096x32) hz6, View.ld_unit_zero (S := S32x16) hz6]
  rw [iblk6_1, iblk6_2]
  exact (Memref.read_access_unit_zero (Elt F) main_v16_1 hz' (fun a => by rw [congrFun hz' a]; simp) (G6_5 V c)).symm

theorem final6_5 (c : Dev nD) : (dat6 V c).arrAt 5 cfg6.N = G6_5 V c :=
  (dat6 V c).arrAt_eq_of_cover 5 (G6_5 V c) (fun t _ => flushed6_5 V c t) fun i =>
    ⟨t6_0, flush6_5 t6_0, by
      show i ∈ ((View.whole main_v16_1).slice (win6_5.rect t6_0)).set
      rw [View.set_slice_whole, Rect.mem_set_unit]
      intro a
      have h0 : (i 0 : Nat) < 4096 := (i 0).isLt
      have h1 : (i 1 : Nat) < 16 := (i 1).isLt
      match a with
      | ⟨0, _⟩ => show win6_5.index t6_0 0 * win6_5.size 0 ≤ (i 0 : Nat) ∧ (i 0 : Nat) < win6_5.index t6_0 0 * win6_5.size 0 + win6_5.xsize (grid6.coords t6_0) 0
                  rw [show win6_5.index t6_0 0 * win6_5.size 0 = 0 from Nat.zero_mul _, show win6_5.xsize (grid6.coords t6_0) 0 = 4096 from rfl]; omega
      | ⟨1, _⟩ => show win6_5.index t6_0 1 * win6_5.size 1 ≤ (i 1 : Nat) ∧ (i 1 : Nat) < win6_5.index t6_0 1 * win6_5.size 1 + win6_5.xsize (grid6.coords t6_0) 1
                  rw [show win6_5.index t6_0 1 * win6_5.size 1 = 0 from Nat.zero_mul _, show win6_5.xsize (grid6.coords t6_0) 1 = 16 from rfl]; omega⟩

end Generic

section AtIdeal

variable (V : (c : Dev nD) → (b : Ref sig .tc) → Buf (Elt Ideal) ((c : Thread nD τ).loc b))

theorem val6_d (c : Dev nD) (e : Fin 2048) :
    ((dat6 V c).arrAt 4 cfg6.N : S1x2048.Idx → EReal) (ix2 0 e)
      = Cert.Spec.dvec (Cert.Spec.m2 (V c (Pipeline.arrRef spec6 0) : S2048x128.Idx → EReal)) (Cert.Spec.row (V c (Pipeline.arrRef spec6 3) : S1x128.Idx → EReal)) e := by
  rw [final6_4]
  exact k6_d_spec _ _ e

theorem val6_hw (c : Dev nD) (n : Fin 4096) (f : Fin 16) :
    ((dat6 V c).arrAt 5 cfg6.N : S4096x16.Idx → EReal) (ix2 n f)
      = Cert.Spec.mm (Cert.Spec.m2 (V c (Pipeline.arrRef spec6 1) : S4096x32.Idx → EReal)) (Cert.Spec.m2 (V c (Pipeline.arrRef spec6 2) : S32x16.Idx → EReal)) n f := by
  rw [final6_5]
  exact k6_hw_spec _ _ n f

end AtIdeal

end Cert.KernelIdeal.HandVal

end
-- ==== Proof.KI.Pay7.lean ====
/-
  The fused layer kernel of the fourth graph convolution (the edge layer again: grid of 16 column blocks; the sizes of the second), its PAYLOADS read at an index at the ideal
  instance: the statements and proofs of the first layer's, at this layer's sizes and names.
-/
import proofs.«109581_g76012331204772_cont_9to1_m_125_6_alg».proof.Proof.KI.Pay3

noncomputable section

open scoped BigOperators

namespace Cert.KernelIdeal.PayVal

open Cert.KernelIdeal Cert.KernelIdeal.Gen Idealize.ShloMosaic Idealize.ShloMosaic.ValueIdx

/-! ## The payloads at an index -/

/-- The block's contribution at (r, f). -/
theorem k7_pay1_apply (i : grid7.Coords) (v2 : Vec Ideal S256x2048 .f32) (v4 : Vec Ideal S1x2048 .f32) (v8 : Vec Ideal S4096x2048 .f32)
    (v11 : Vec Ideal S4096x256 .f32) (v22 : Vec Ideal S256x16 .f32) (r : Fin 4096) (f : Fin 16) :
    k7_pay1 (F := Ideal) i v2 v4 v8 v11 v22 (ix2 r f)
      = ∑ c : Fin 256, (if r.val = (i 0).val * 256 + c.val then v11 (ix2 r c)
          else (∑ j : Fin 2048, v8 (ix2 r j) * (v2 (ix2 c j) * v4 (ix2 0 j))) * v11 (ix2 r c)) * v22 (ix2 c f) := by
  have hk : (i 0).val < 16 := Nat.lt_of_lt_of_le (i 0).isLt (by decide)
  unfold k7_pay1
  simp only [shapeCast_self]
  refine (matmulB3_apply _ _ r f).trans ?_
  refine Finset.sum_congr rfl fun c _ => ?_
  refine congrArg (· * v22 (ix2 c f)) ?_
  rw [select_apply]
  show Scalar.select (IntOp.cmpi .eq (iota .tc S4096x256 32 [0] iota_S4096x256_d0_w32 (ix2 r c))
      (IntOp.addi (iota .tc S4096x256 32 [1] iota_S4096x256_d1_w32 (ix2 r c)) (Scalar.muli (BitVec.ofNat 32 (i 0).val) 256#32))) _ _ = _
  rw [iota_single_apply, iota_single_apply]
  refine (select_diag (i 0).val r.val c.val hk (Nat.lt_of_lt_of_le r.isLt (by decide)) c.isLt _ _).trans ?_
  by_cases h : r.val = (i 0).val * 256 + c.val
  · rw [if_pos h, if_pos h]
  · rw [if_neg h, if_neg h, mulf_apply, matmulA3_apply]
    refine congrArg (· * v11 (ix2 r c)) (Finset.sum_congr rfl fun j _ => ?_)
    rw [mulf_apply, broadcastTo_1b_ab_apply]

/-- The first point's store: the bias row plus the contribution. -/
theorem k7_pay2_apply (i : grid7.Coords) (v2 : Vec Ideal S256x2048 .f32) (v4 : Vec Ideal S1x2048 .f32) (v8 : Vec Ideal S4096x2048 .f32)
    (v11 : Vec Ideal S4096x256 .f32) (v22 : Vec Ideal S256x16 .f32) (v34 : Vec Ideal S1x16 .f32) (r : Fin 4096) (f : Fin 16) :
    k7_pay2 (F := Ideal) i v2 v4 v8 v11 v22 v34 (ix2 r f) = v34 (ix2 0 f) + k7_pay1 (F := Ideal) i v2 v4 v8 v11 v22 (ix2 r f) := by
  unfold k7_pay2
  simp only [shapeCast_self]
  rw [addf_apply, broadcastTo_1b_ab_apply]

/-- A later point's store: the block so far plus the contribution. -/
theorem k7_pay3_apply (i : grid7.Coords) (v2 : Vec Ideal S256x2048 .f32) (v4 : Vec Ideal S1x2048 .f32) (v8 : Vec Ideal S4096x2048 .f32)
    (v11 : Vec Ideal S4096x256 .f32) (v22 : Vec Ideal S256x16 .f32) (v34 : Vec Ideal S4096x16 .f32) (r : Fin 4096) (f : Fin 16) :
    k7_pay3 (F := Ideal) i v2 v4 v8 v11 v22 v34 (ix2 r f) = v34 (ix2 r f) + k7_pay1 (F := Ideal) i v2 v4 v8 v11 v22 (ix2 r f) := by
  unfold k7_pay3
  simp only [shapeCast_self]
  rw [addf_apply]

/-- The last point's store: the maximum with zero. -/
theorem k7_pay4_apply (v34 : Vec Ideal S4096x16 .f32) (r : Fin 4096) (f : Fin 16) :
    k7_pay4 (F := Ideal) v34 (ix2 r f) = max (v34 (ix2 r f)) 0 := by
  unfold k7_pay4
  simp only [shapeCast_self]
  rw [maximumf_apply, broadcast_apply]
  exact congrArg (max (v34 (ix2 r f))) Ideal.ofBits_zero_f32

end Cert.KernelIdeal.PayVal

end
-- ==== Proof.KI.Val7.lean ====
/-
  The value of the fourth graph convolution (the edge layer again)'s fused region at the ideal instance. The region's output array after its
  sixteen points is, element by element, relu (gc T d adj HW b): the resident windows' blocks are the arrays, the
  adjacency's block at point k is its columns 256 k … 256 k + 255, so point k contributes the k-th block of
  ∑ m, coef(r, m) · HW(m, f); the output block stays in its buffer and is accumulated from the bias row on, the last
  point takes the maximum with zero, and the block is written back once, after the last point.
-/
import proofs.«109581_g76012331204772_cont_9to1_m_125_6_alg».proof.Proof.KI.Reg7
import proofs.«109581_g76012331204772_cont_9to1_m_125_6_alg».proof.Proof.KI.Pay7
import proofs.«109581_g76012331204772_cont_9to1_m_125_6_alg».proof.Proof.Algebra
import proofs.«109581_g76012331204772_cont_9to1_m_125_6_alg».proof.Proof.Spec
import Idealize.ShloMosaic.Lib.Pipeline.Value
import Idealize.ShloMosaic.Lib.ValueIdx

set_option maxRecDepth 16384

noncomputable section

open scoped BigOperators

namespace Cert.KernelIdeal.HandVal

open Cert.KernelIdeal Cert.KernelIdeal.Gen Cert.KernelIdeal.Hand Cert.KernelIdeal.PayVal
open Idealize.ShloMosaic Idealize.ShloMosaic.TcCoe Idealize.ShloMosaic.ValueIdx Idealize.SL.Sem
open Idealize.ShloMosaic.Pipeline (Dat)
open Cert.Spec

variable (V : (c : Dev nD) → (b : Ref sig .tc) → Buf (Elt Ideal) ((c : Thread nD τ).loc b))

/-! ## The region's arrays -/

/-- The weights `d` (1 × 2048), the table `T` (4096 × 2048), the adjacency (4096 × 4096), `HW` (4096 × 16) and the
    bias row (1 × 16), as the region finds them. -/
abbrev arr7_d (c : Dev nD) : Vec Ideal S1x2048 .f32 := V c (Pipeline.arrRef spec7 0)
abbrev arr7_T (c : Dev nD) : Vec Ideal S4096x2048 .f32 := V c (Pipeline.arrRef spec7 1)
abbrev arr7_adj (c : Dev nD) : Vec Ideal S4096x4096 .f32 := V c (Pipeline.arrRef spec7 2)
abbrev arr7_HW (c : Dev nD) : Vec Ideal S4096x16 .f32 := V c (Pipeline.arrRef spec7 3)
abbrev arr7_b (c : Dev nD) : Vec Ideal S1x16 .f32 := V c (Pipeline.arrRef spec7 4)

/-! ## The grid and the block indices -/

/-- The grid's one coordinate is the point's number. -/
theorem coords7_val : ∀ t : Fin cfg7.N, (grid7.coords t 0).val = t.val :=
  (by decide +kernel : ∀ t : Fin grid7.N, (grid7.coords t 0).val = t.val)

/-- The resident windows' block index is zero at every point; the adjacency's moves along its columns. -/
theorem idx7_0 : ∀ t : Fin cfg7.N, win7_0.index t 0 = 0 ∧ win7_0.index t 1 = 0 :=
  (by decide +kernel : ∀ t : Fin grid7.N, win7_0.index t 0 = 0 ∧ win7_0.index t 1 = 0)
theorem idx7_1 : ∀ t : Fin cfg7.N, win7_1.index t 0 = 0 ∧ win7_1.index t 1 = 0 :=
  (by decide +kernel : ∀ t : Fin grid7.N, win7_1.index t 0 = 0 ∧ win7_1.index t 1 = 0)
theorem idx7_2 : ∀ t : Fin cfg7.N, win7_2.index t 0 = 0 ∧ win7_2.index t 1 = t.val :=
  (by decide +kernel : ∀ t : Fin grid7.N, win7_2.index t 0 = 0 ∧ win7_2.index t 1 = t.val)
theorem idx7_3 : ∀ t : Fin cfg7.N, win7_3.index t 0 = 0 ∧ win7_3.index t 1 = 0 :=
  (by decide +kernel : ∀ t : Fin grid7.N, win7_3.index t 0 = 0 ∧ win7_3.index t 1 = 0)
theorem idx7_4 : ∀ t : Fin cfg7.N, win7_4.index t 0 = 0 ∧ win7_4.index t 1 = 0 :=
  (by decide +kernel : ∀ t : Fin grid7.N, win7_4.index t 0 = 0 ∧ win7_4.index t 1 = 0)
theorem idx7_5 : ∀ t : Fin cfg7.N, win7_5.index t 0 = 0 ∧ win7_5.index t 1 = 0 :=
  (by decide +kernel : ∀ t : Fin grid7.N, win7_5.index t 0 = 0 ∧ win7_5.index t 1 = 0)

/-! ## The windows' blocks, from the arrays -/

theorem iblk7_0_eq (c : Dev nD) (t : Fin cfg7.N) : (iblk7 V c 0 t : Vec Ideal S1x2048 .f32) = arr7_d V c := by
  funext j
  have hi := idx7_0 t
  unfold iblk7
  rw [View.read_apply]
  show V c (Pipeline.arrRef spec7 0) _ = V c (Pipeline.arrRef spec7 0) j
  congr 1
  funext a
  apply Fin.ext
  match a with
  | ⟨0, _⟩ => show win7_0.index t 0 * 1 + 1 * (j 0).val = (j 0).val; rw [hi.1]; omega
  | ⟨1, _⟩ => show win7_0.index t 1 * 2048 + 1 * (j 1).val = (j 1).val; rw [hi.2]; omega

theorem iblk7_1_eq (c : Dev nD) (t : Fin cfg7.N) : (iblk7 V c 1 t : Vec Ideal S4096x2048 .f32) = arr7_T V c := by
  funext j
  have hi := idx7_1 t
  unfold iblk7
  rw [View.read_apply]
  show V c (Pipeline.arrRef spec7 1) _ = V c (Pipeline.arrRef spec7 1) j
  congr 1
  funext a
  apply Fin.ext
  match a with
  | ⟨0, _⟩ => show win7_1.index t 0 * 4096 + 1 * (j 0).val = (j 0).val; rw [hi.1]; omega
  | ⟨1, _⟩ => show win7_1.index t 1 * 2048 + 1 * (j 1).val = (j 1).val; rw [hi.2]; omega

/-- The adjacency's block at point `t` is its columns `256 t … 256 t + 255`. -/
theorem iblk7_2_apply (c : Dev nD) (t : Fin cfg7.N) (r : Fin 4096) (cc : Fin 256) (h : t.val * 256 + cc.val < 4096) :
    (iblk7 V c 2 t : Vec Ideal S4096x256 .f32) (ix2 r cc) = arr7_adj V c (ix2 r ⟨t.val * 256 + cc.val, h⟩) := by
  have hi := idx7_2 t
  unfold iblk7
  rw [View.read_apply]
  show V c (Pipeline.arrRef spec7 2) _ = V c (Pipeline.arrRef spec7 2) (ix2 r ⟨t.val * 256 + cc.val, h⟩)
  congr 1
  funext a
  apply Fin.ext
  match a with
  | ⟨0, _⟩ => show win7_2.index t 0 * 4096 + 1 * r.val = r.val; rw [hi.1]; omega
  | ⟨1, _⟩ => show win7_2.index t 1 * 256 + 1 * cc.val = t.val * 256 + cc.val; rw [hi.2]; omega

theorem iblk7_3_eq (c : Dev nD) (t : Fin cfg7.N) : (iblk7 V c 3 t : Vec Ideal S4096x16 .f32) = arr7_HW V c := by
  funext j
  have hi := idx7_3 t
  unfold iblk7
  rw [View.read_apply]
  show V c (Pipeline.arrRef spec7 3) _ = V c (Pipeline.arrRef spec7 3) j
  congr 1
  funext a
  apply Fin.ext
  match a with
  | ⟨0, _⟩ => show win7_3.index t 0 * 4096 + 1 * (j 0).val = (j 0).val; rw [hi.1]; omega
  | ⟨1, _⟩ => show win7_3.index t 1 * 16 + 1 * (j 1).val = (j 1).val; rw [hi.2]; omega

theorem iblk7_4_eq (c : Dev nD) (t : Fin cfg7.N) : (iblk7 V c 4 t : Vec Ideal S1x16 .f32) = arr7_b V c := by
  funext j
  have hi := idx7_4 t
  unfold iblk7
  rw [View.read_apply]
  show V c (Pipeline.arrRef spec7 4) _ = V c (Pipeline.arrRef spec7 4) j
  congr 1
  funext a
  apply Fin.ext
  match a with
  | ⟨0, _⟩ => show win7_4.index t 0 * 1 + 1 * (j 0).val = (j 0).val; rw [hi.1]; omega
  | ⟨1, _⟩ => show win7_4.index t 1 * 16 + 1 * (j 1).val = (j 1).val; rw [hi.2]; omega

/-! ## The body's row slices, from the arrays -/

/-- The rows of `T` that face point `i`'s column block: row `cc` of the slice is row `256 i + cc`. -/
theorem ld7_Trows (i : grid7.Coords) (T : Vec Ideal S4096x2048 .f32) (cc : Fin 256) (j : Fin 2048)
    (h : (i 0).val * 256 + cc.val < 4096) :
    View.ld T (r7_Trows i) (ix2 cc j) = T (ix2 ⟨(i 0).val * 256 + cc.val, h⟩ j) := by
  show T ((r7_Trows i).idx (ix2 cc j)) = _
  congr 1
  funext a
  apply Fin.ext
  match a with
  | ⟨0, _⟩ => show k7_off1 i 0 + 1 * cc.val = (i 0).val * 256 + cc.val; rw [k7_off1_eq]; show 256 * (i 0).val + 1 * cc.val = _; omega
  | ⟨1, _⟩ => show k7_off1 i 1 + 1 * j.val = j.val; rw [k7_off1_eq]; show 0 + 1 * j.val = _; omega

/-- The rows of `HW` that face it, likewise. -/
theorem ld7_Hrows (i : grid7.Coords) (H : Vec Ideal S4096x16 .f32) (cc : Fin 256) (f : Fin 16)
    (h : (i 0).val * 256 + cc.val < 4096) :
    View.ld H (r7_Hrows i) (ix2 cc f) = H (ix2 ⟨(i 0).val * 256 + cc.val, h⟩ f) := by
  show H ((r7_Hrows i).idx (ix2 cc f)) = _
  congr 1
  funext a
  apply Fin.ext
  match a with
  | ⟨0, _⟩ => show k7_off2 i 0 + 1 * cc.val = (i 0).val * 256 + cc.val; rw [k7_off2_eq]; show 256 * (i 0).val + 1 * cc.val = _; omega
  | ⟨1, _⟩ => show k7_off2 i 1 + 1 * f.val = f.val; rw [k7_off2_eq]; show 0 + 1 * f.val = _; omega

/-! ## One point's contribution -/

/-- Block `k` of `∑ m, coef(r, m) · HW(m, f)`: the columns `256 k … 256 k + 255`. -/
def blk7 (c : Dev nD) (r : Fin 4096) (f : Fin 16) (k : ℕ) : EReal :=
  if hk : k < 16 then
    ∑ cc : Fin 256,
      Cert.Algebra.coefK (m2 (arr7_T V c)) (row (arr7_d V c)) (m2 (arr7_adj V c)) r ⟨k * 256 + cc.val, by have := cc.isLt; omega⟩
        * m2 (arr7_HW V c) ⟨k * 256 + cc.val, by have := cc.isLt; omega⟩ f
  else 0

/-- The contribution the body computes at point `t` is block `t`: over the arrays for the resident windows and any
    block `x2` that holds the adjacency's columns `256 t …`. -/
theorem pay7_at (c : Dev nD) (t : Fin cfg7.N) (x2 : Vec Ideal S4096x256 .f32)
    (h2 : ∀ (r : Fin 4096) (cc : Fin 256) (h : t.val * 256 + cc.val < 4096), x2 (ix2 r cc) = arr7_adj V c (ix2 r ⟨t.val * 256 + cc.val, h⟩))
    (r : Fin 4096) (f : Fin 16) :
    k7_pay1 (F := Ideal) (grid7.coords t) (View.ld (arr7_T V c) (r7_Trows (grid7.coords t))) (View.ld (arr7_d V c) r7_d)
        (View.ld (arr7_T V c) r7_T) (View.ld x2 r7_adj) (View.ld (arr7_HW V c) (r7_Hrows (grid7.coords t))) (ix2 r f)
      = blk7 V c r f t.val := by
  have ht : t.val < 16 := lt_of_lt_of_eq t.isLt (show cfg7.N = 16 from N_7)
  have hc0 : (grid7.coords t 0).val = t.val := coords7_val t
  rw [k7_pay1_apply]
  unfold blk7
  rw [dif_pos ht]
  refine Finset.sum_congr rfl fun cc _ => ?_
  have hlt : t.val * 256 + cc.val < 4096 := by have := cc.isLt; omega
  have hlt' : (grid7.coords t 0).val * 256 + cc.val < 4096 := by rw [hc0]; exact hlt
  have e_adj : View.ld x2 r7_adj (ix2 r cc) = arr7_adj V c (ix2 r ⟨t.val * 256 + cc.val, hlt⟩) :=
    (congrFun (View.ld_unit_zero (S := S4096x256) zero2_7 inb_S4096x256_S4096x256_0_0 x2) (ix2 r cc)).trans (h2 r cc hlt)
  have e_T : ∀ j : Fin 2048, View.ld (arr7_T V c) r7_T (ix2 r j) = arr7_T V c (ix2 r j) := fun j =>
    congrFun (View.ld_unit_zero (S := S4096x2048) zero2_7 inb_S4096x2048_S4096x2048_0_0 (arr7_T V c)) (ix2 r j)
  have e_d : ∀ j : Fin 2048, View.ld (arr7_d V c) r7_d (ix2 0 j) = arr7_d V c (ix2 0 j) := fun j =>
    congrFun (View.ld_unit_zero (S := S1x2048) zero2_7 inb_S1x2048_S1x2048_0_0 (arr7_d V c)) (ix2 0 j)
  have e_Tr : ∀ j : Fin 2048, View.ld (arr7_T V c) (r7_Trows (grid7.coords t)) (ix2 cc j)
      = arr7_T V c (ix2 ⟨t.val * 256 + cc.val, hlt⟩ j) := fun j =>
    (ld7_Trows (grid7.coords t) (arr7_T V c) cc j hlt').trans (by congr 2; exact Fin.ext (by show (grid7.coords t 0).val * 256 + cc.val = t.val * 256 + cc.val; omega))
  have e_H : View.ld (arr7_HW V c) (r7_Hrows (grid7.coords t)) (ix2 cc f)
      = arr7_HW V c (ix2 ⟨t.val * 256 + cc.val, hlt⟩ f) :=
    (ld7_Hrows (grid7.coords t) (arr7_HW V c) cc f hlt').trans (by congr 2; exact Fin.ext (by show (grid7.coords t 0).val * 256 + cc.val = t.val * 256 + cc.val; omega))
  rw [e_adj, e_H, hc0]
  simp only [e_T, e_d, e_Tr]
  show _ = (if r = ⟨t.val * 256 + cc.val, hlt⟩ then arr7_adj V c (ix2 r ⟨t.val * 256 + cc.val, hlt⟩)
      else (∑ j : Fin 2048, arr7_T V c (ix2 r j) * (arr7_T V c (ix2 ⟨t.val * 256 + cc.val, hlt⟩ j) * arr7_d V c (ix2 0 j)))
        * arr7_adj V c (ix2 r ⟨t.val * 256 + cc.val, hlt⟩)) * arr7_HW V c (ix2 ⟨t.val * 256 + cc.val, hlt⟩ f)
  congr 1
  exact if_congr (Fin.ext_iff (a := r) (b := ⟨t.val * 256 + cc.val, hlt⟩)).symm rfl rfl

/-- The first point's store at (r, f): the bias plus block `t`. -/
theorem out7_A_apply (c : Dev nD) (t : Fin cfg7.N) (x0 : Vec Ideal S1x2048 .f32) (x1 : Vec Ideal S4096x2048 .f32)
    (x2 : Vec Ideal S4096x256 .f32) (x3 : Vec Ideal S4096x16 .f32) (x4 : Vec Ideal S1x16 .f32)
    (h0 : x0 = arr7_d V c) (h1 : x1 = arr7_T V c)
    (h2 : ∀ (r : Fin 4096) (cc : Fin 256) (h : t.val * 256 + cc.val < 4096), x2 (ix2 r cc) = arr7_adj V c (ix2 r ⟨t.val * 256 + cc.val, h⟩))
    (h3 : x3 = arr7_HW V c) (h4 : x4 = arr7_b V c) (r : Fin 4096) (f : Fin 16) :
    out7_A (grid7.coords t) x0 x1 x2 x3 x4 (ix2 r f) = row (arr7_b V c) f + blk7 V c r f t.val := by
  subst h0 h1 h3 h4
  unfold out7_A
  rw [k7_pay2_apply, pay7_at V c t x2 h2 r f]
  exact congrArg (· + blk7 V c r f t.val)
    (congrFun (View.ld_unit_zero (S := S1x16) zero2_7 inb_S1x16_S1x16_0_0 (arr7_b V c)) (ix2 0 f))

/-- A later point's store at (r, f): what the buffer held plus block `t`. -/
theorem out7_B_apply (c : Dev nD) (t : Fin cfg7.N) (x0 : Vec Ideal S1x2048 .f32) (x1 : Vec Ideal S4096x2048 .f32)
    (x2 : Vec Ideal S4096x256 .f32) (x3 : Vec Ideal S4096x16 .f32) (prev : Vec Ideal S4096x16 .f32)
    (h0 : x0 = arr7_d V c) (h1 : x1 = arr7_T V c)
    (h2 : ∀ (r : Fin 4096) (cc : Fin 256) (h : t.val * 256 + cc.val < 4096), x2 (ix2 r cc) = arr7_adj V c (ix2 r ⟨t.val * 256 + cc.val, h⟩))
    (h3 : x3 = arr7_HW V c) (r : Fin 4096) (f : Fin 16) :
    out7_B (grid7.coords t) x0 x1 x2 x3 prev (ix2 r f) = prev (ix2 r f) + blk7 V c r f t.val := by
  subst h0 h1 h3
  unfold out7_B
  rw [k7_pay3_apply, pay7_at V c t x2 h2 r f]

/-! ## The accumulation -/

/-- The accumulation without the last point's maximum. -/
def accAt7 (c : Dev nD) : (n : ℕ) → n < cfg7.N → Vec Ideal S4096x16 .f32
  | 0, hn => out7_A (grid7.coords ⟨0, hn⟩) (iblk7 V c 0 ⟨0, hn⟩) (iblk7 V c 1 ⟨0, hn⟩) (iblk7 V c 2 ⟨0, hn⟩) (iblk7 V c 3 ⟨0, hn⟩) (iblk7 V c 4 ⟨0, hn⟩)
  | n + 1, hn => out7_B (grid7.coords ⟨n + 1, hn⟩) (iblk7 V c 0 ⟨n + 1, hn⟩) (iblk7 V c 1 ⟨n + 1, hn⟩) (iblk7 V c 2 ⟨n + 1, hn⟩) (iblk7 V c 3 ⟨n + 1, hn⟩) (accAt7 c n (Nat.lt_of_succ_lt hn))

/-- Before the last point the buffer holds the accumulation; -/
theorem outsAt7_eq_acc (c : Dev nD) : ∀ (n : ℕ) (hn : n < cfg7.N), n < 15 → outsAt7 V c n hn = accAt7 V c n hn
  | 0, hn, _ => rfl
  | n + 1, hn, h7 => by
    show (if n + 1 = 15 then _ else out7_B _ _ _ _ _ (outsAt7 V c n _)) = out7_B _ _ _ _ _ (accAt7 V c n _)
    rw [if_neg (by omega), outsAt7_eq_acc c n _ (by omega)]

/-- after the last one, its maximum with zero. -/
theorem outsAt7_last (c : Dev nD) (hn : 15 < cfg7.N) : outsAt7 V c 15 hn = k7_pay4 (accAt7 V c 15 hn) := by
  show (if 14 + 1 = 15 then out7_C _ _ _ _ _ (outsAt7 V c 14 _) else _) = _
  rw [if_pos rfl, outsAt7_eq_acc V c 14 _ (by decide)]
  rfl

/-- The accumulation ends at the layer's value before the ramp. -/
theorem accAt7_last (c : Dev nD) (hn : 15 < cfg7.N) (r : Fin 4096) (f : Fin 16) :
    accAt7 V c 15 hn (ix2 r f)
      = gc (m2 (arr7_T V c)) (row (arr7_d V c)) (m2 (arr7_adj V c)) (m2 (arr7_HW V c)) (row (arr7_b V c)) r f := by
  have hN : cfg7.N = 16 := N_7
  have key := Cert.Algebra.gc_of_blocks_4096 (m2 (arr7_T V c)) (row (arr7_d V c)) (m2 (arr7_adj V c)) (m2 (arr7_HW V c))
    (row (arr7_b V c)) r f (fun n => if h : n < cfg7.N then accAt7 V c n h (ix2 r f) else 0) (blk7 V c r f)
    (fun k hk => by unfold blk7; rw [dif_pos hk])
    (by
      show (if h : 0 < cfg7.N then accAt7 V c 0 h (ix2 r f) else 0) = _
      rw [dif_pos (by omega)]
      exact out7_A_apply V c ⟨0, by omega⟩ _ _ _ _ _ (iblk7_0_eq V c _) (iblk7_1_eq V c _)
        (fun r cc h => iblk7_2_apply V c _ r cc h) (iblk7_3_eq V c _) (iblk7_4_eq V c _) r f)
    (fun k hk => by
      show (if h : k + 1 < cfg7.N then accAt7 V c (k + 1) h (ix2 r f) else 0)
        = (if h : k < cfg7.N then accAt7 V c k h (ix2 r f) else 0) + _
      rw [dif_pos (by omega), dif_pos (by omega)]
      exact out7_B_apply V c ⟨k + 1, by omega⟩ _ _ _ _ (accAt7 V c k (by omega)) (iblk7_0_eq V c _) (iblk7_1_eq V c _)
        (fun r cc h => iblk7_2_apply V c _ r cc h) (iblk7_3_eq V c _) r f)
  rw [← key]
  show _ = (if h : 15 < cfg7.N then accAt7 V c 15 h (ix2 r f) else 0)
  rw [dif_pos hn]

/-! ## The output array after the region -/

/-- The output's block is written back once, after the last point, and it is the whole array: the array ends
    holding what the last point left in the buffer. -/
theorem arrAt7_last (c : Dev nD) (hn : 15 < cfg7.N) (r : Fin 4096) (f : Fin 16) :
    ((dat7 V c).arrAt 5 cfg7.N : Vec Ideal S4096x16 .f32) (ix2 r f) = outsAt7 V c 15 hn (ix2 r f) := by
  have hfl : (cfg7.win 5).flush ⟨15, hn⟩ = true := (flush7_5 ⟨15, hn⟩).mpr rfl
  have hs := (dat7 V c).arrAt_succ 5 ⟨15, hn⟩
  rw [if_pos hfl] at hs
  have hN : (dat7 V c).arrAt 5 cfg7.N = (dat7 V c).arrAt 5 ((⟨15, hn⟩ : Fin cfg7.N).val + 1) :=
    congrArg ((dat7 V c).arrAt 5) (show cfg7.N = 15 + 1 from N_7)
  have hi := idx7_5 ⟨15, hn⟩
  have hemb : ((cfg7.win 5).blk ⟨15, hn⟩).view.emb (ix2 r f) = (ix2 r f : S4096x16.Idx) := by
    funext a
    apply Fin.ext
    match a with
    | ⟨0, _⟩ => show win7_5.index ⟨15, hn⟩ 0 * 4096 + 1 * r.val = r.val; rw [hi.1]; omega
    | ⟨1, _⟩ => show win7_5.index ⟨15, hn⟩ 1 * 16 + 1 * f.val = f.val; rw [hi.2]; omega
  have key := View.write_emb_of_mem (v := ((cfg7.win 5).blk ⟨15, hn⟩).view) ((dat7 V c).arrAt 5 (⟨15, hn⟩ : Fin cfg7.N).val)
    ((dat7 V c).flushed 5 ⟨15, hn⟩) (Finset.mem_univ (ix2 r f))
  rw [hemb] at key
  rw [hN, hs]
  exact key

/-! ## The region's value -/

/-- THE VALUE: after the region the output array is `relu (gc T d adj HW b)`, element by element. -/
theorem val7 (c : Dev nD) (r : Fin 4096) (f : Fin 16) :
    ((dat7 V c).arrAt 5 cfg7.N : Vec Ideal S4096x16 .f32) (ix2 r f)
      = reluM (gc (m2 (arr7_T V c)) (row (arr7_d V c)) (m2 (arr7_adj V c)) (m2 (arr7_HW V c)) (row (arr7_b V c))) r f := by
  have hn : 15 < cfg7.N := lt_of_lt_of_eq (by decide) (show (16 : ℕ) = cfg7.N from N_7.symm)
  rw [arrAt7_last V c hn, outsAt7_last V c hn, k7_pay4_apply, accAt7_last V c hn]
  rfl

end Cert.KernelIdeal.HandVal

end
-- ==== Proof.KI.Pay8.lean ====
import proofs.«109581_g76012331204772_cont_9to1_m_125_6_alg».proof.Proof.Gen.KernelIdeal.Skeleton
import proofs.«109581_g76012331204772_cont_9to1_m_125_6_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

theorem k8d_lhs_0 (i : S1x4096.Idx) (q : dot_S1x16_S4096x16_S1x4096_1_1_0_0_n_n.contr.Idx) :
    (dot_S1x16_S4096x16_S1x4096_1_1_0_0_n_n.lhsIdx i q 0).val = (i 0).val := by
  unfold DotDims.lhsIdx
  rw [dif_neg (show ¬(0 : Fin S1x16.rank) ∈ dot_S1x16_S4096x16_S1x4096_1_1_0_0_n_n.lhsBatch by decide), dif_pos (show (0 : Fin S1x16.rank) ∈ dot_S1x16_S4096x16_S1x4096_1_1_0_0_n_n.lhsNonContracting by decide)]
  rfl
theorem k8d_lhs_1 (i : S1x4096.Idx) (q : dot_S1x16_S4096x16_S1x4096_1_1_0_0_n_n.contr.Idx) :
    (dot_S1x16_S4096x16_S1x4096_1_1_0_0_n_n.lhsIdx i q 1).val = (q ⟨0, by decide⟩).val :=
  dot_S1x16_S4096x16_S1x4096_1_1_0_0_n_n.lhsIdx_val_of_single rfl i q
theorem k8d_rhs_0 (i : S1x4096.Idx) (q : dot_S1x16_S4096x16_S1x4096_1_1_0_0_n_n.contr.Idx) :
    (dot_S1x16_S4096x16_S1x4096_1_1_0_0_n_n.rhsIdx i q 0).val = (i 1).val := by
  unfold DotDims.rhsIdx
  rw [dif_neg (show ¬(0 : Fin S4096x16.rank) ∈ dot_S1x16_S4096x16_S1x4096_1_1_0_0_n_n.rhsBatch by decide), dif_pos (show (0 : Fin S4096x16.rank) ∈ dot_S1x16_S4096x16_S1x4096_1_1_0_0_n_n.rhsNonContracting by decide)]
  rfl
theorem k8d_rhs_1 (i : S1x4096.Idx) (q : dot_S1x16_S4096x16_S1x4096_1_1_0_0_n_n.contr.Idx) :
    (dot_S1x16_S4096x16_S1x4096_1_1_0_0_n_n.rhsIdx i q 1).val = (q ⟨0, by decide⟩).val :=
  dot_S1x16_S4096x16_S1x4096_1_1_0_0_n_n.rhsIdx_val_of_single rfl i q

theorem k8d_matmul_apply (x : FVec Ideal S1x16 .f32) (y : FVec Ideal S4096x16 .f32) (e : Fin 4096) :
    matmul dot_S1x16_S4096x16_S1x4096_1_1_0_0_n_n none x y (constant (F := Ideal) S1x4096 .f32 0x00000000#32) (ix2 0 e)
      = ∑ j : Fin 16, x (ix2 0 j) * y (ix2 e j) := by
  refine (Ideal.matmul_constant_zero_apply dot_S1x16_S4096x16_S1x4096_1_1_0_0_n_n none x y (ix2 0 e)).trans ?_
  rw [← Equiv.sum_comp (contrEquiv1 dot_S1x16_S4096x16_S1x4096_1_1_0_0_n_n 16 rfl rfl).symm]
  refine Finset.sum_congr rfl fun k _ => ?_
  have hk := contrEquiv1_symm_val dot_S1x16_S4096x16_S1x4096_1_1_0_0_n_n 16 rfl rfl k
  have el : dot_S1x16_S4096x16_S1x4096_1_1_0_0_n_n.lhsIdx (ix2 0 e) ((contrEquiv1 dot_S1x16_S4096x16_S1x4096_1_1_0_0_n_n 16 rfl rfl).symm k) = ix2 0 k := funext fun a => Fin.ext (by
    match a with
    | ⟨0, _⟩ => exact k8d_lhs_0 _ _
    | ⟨1, _⟩ => exact (k8d_lhs_1 _ _).trans hk)
  have er : dot_S1x16_S4096x16_S1x4096_1_1_0_0_n_n.rhsIdx (ix2 0 e) ((contrEquiv1 dot_S1x16_S4096x16_S1x4096_1_1_0_0_n_n 16 rfl rfl).symm k) = ix2 e k := funext fun a => Fin.ext (by
    match a with
    | ⟨0, _⟩ => exact k8d_rhs_0 _ _
    | ⟨1, _⟩ => exact (k8d_rhs_1 _ _).trans hk)
  rw [el, er]

theorem k8w_lhs_0 (i : S2048x64.Idx) (q : dot_S2048x128_S128x64_S2048x64_1_0_0_1_n_n.contr.Idx) :
    (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl
theorem k8w_lhs_1 (i : S2048x64.Idx) (q : dot_S2048x128_S128x64_S2048x64_1_0_0_1_n_n.contr.Idx) :
    (dot_S2048x128_S128x64_S2048x64_1_0_0_1_n_n.lhsIdx i q 1).val = (q ⟨0, by decide⟩).val :=
  dot_S2048x128_S128x64_S2048x64_1_0_0_1_n_n.lhsIdx_val_of_single rfl i q
theorem k8w_rhs_0 (i : S2048x64.Idx) (q : dot_S2048x128_S128x64_S2048x64_1_0_0_1_n_n.contr.Idx) :
    (dot_S2048x128_S128x64_S2048x64_1_0_0_1_n_n.rhsIdx i q 0).val = (q ⟨0, by decide⟩).val :=
  dot_S2048x128_S128x64_S2048x64_1_0_0_1_n_n.rhsIdx_val_of_single rfl i q
theorem k8w_rhs_1 (i : S2048x64.Idx) (q : dot_S2048x128_S128x64_S2048x64_1_0_0_1_n_n.contr.Idx) :
    (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl

theorem k8w_matmul_apply (x : FVec Ideal S2048x128 .f32) (y : FVec Ideal S128x64 .f32) (n : Fin 2048) (f : Fin 64) :
    matmul dot_S2048x128_S128x64_S2048x64_1_0_0_1_n_n none x y (constant (F := Ideal) S2048x64 .f32 0x00000000#32) (ix2 n f)
      = ∑ c : Fin 128, x (ix2 n c) * y (ix2 c f) := by
  refine (Ideal.matmul_constant_zero_apply dot_S2048x128_S128x64_S2048x64_1_0_0_1_n_n none x y (ix2 n f)).trans ?_
  rw [← Equiv.sum_comp (contrEquiv1 dot_S2048x128_S128x64_S2048x64_1_0_0_1_n_n 128 rfl rfl).symm]
  refine Finset.sum_congr rfl fun k _ => ?_
  have hk := contrEquiv1_symm_val dot_S2048x128_S128x64_S2048x64_1_0_0_1_n_n 128 rfl rfl k
  have el : dot_S2048x128_S128x64_S2048x64_1_0_0_1_n_n.lhsIdx (ix2 n f) ((contrEquiv1 dot_S2048x128_S128x64_S2048x64_1_0_0_1_n_n 128 rfl rfl).symm k) = ix2 n k := funext fun a => Fin.ext (by
    match a with
    | ⟨0, _⟩ => exact k8w_lhs_0 _ _
    | ⟨1, _⟩ => exact (k8w_lhs_1 _ _).trans hk)
  have er : dot_S2048x128_S128x64_S2048x64_1_0_0_1_n_n.rhsIdx (ix2 n f) ((contrEquiv1 dot_S2048x128_S128x64_S2048x64_1_0_0_1_n_n 128 rfl rfl).symm k) = ix2 k f := funext fun a => Fin.ext (by
    match a with
    | ⟨0, _⟩ => exact (k8w_rhs_0 _ _).trans hk
    | ⟨1, _⟩ => exact k8w_rhs_1 _ _)
  rw [el, er]

theorem k8_pay1_apply (p : Vec Ideal S1x16 .f32) (he : Vec Ideal S4096x16 .f32) (e : Fin 4096) :
    k8_pay1 (F := Ideal) p he (ix2 0 e) = ∑ j : Fin 16, p (ix2 0 j) * he (ix2 e j) := by
  unfold k8_pay1
  simp only [shapeCast_self]
  exact k8d_matmul_apply _ _ e

theorem k8_pay2_apply (hv : Vec Ideal S2048x128 .f32) (w : Vec Ideal S128x64 .f32) (n : Fin 2048) (f : Fin 64) :
    k8_pay2 (F := Ideal) hv w (ix2 n f) = ∑ c : Fin 128, hv (ix2 n c) * w (ix2 c f) := by
  unfold k8_pay2
  simp only [shapeCast_self]
  exact k8w_matmul_apply _ _ n f

theorem k8_d_spec (p : Vec Ideal S1x16 .f32) (he : Vec Ideal S4096x16 .f32) (e : Fin 4096) :
    k8_pay1 (F := Ideal) p he (ix2 0 e) = Cert.Spec.dvec (Cert.Spec.m2 he) (Cert.Spec.row p) e := by
  rw [k8_pay1_apply]
  exact Finset.sum_congr rfl fun j _ => mul_comm _ _

theorem k8_hw_spec (hv : Vec Ideal S2048x128 .f32) (w : Vec Ideal S128x64 .f32) (n : Fin 2048) (f : Fin 64) :
    k8_pay2 (F := Ideal) hv w (ix2 n f) = Cert.Spec.mm (Cert.Spec.m2 hv) (Cert.Spec.m2 w) n f :=
  k8_pay2_apply hv w n f

end Cert.KernelIdeal.PayVal

end
-- ==== Proof.KI.Val8.lean ====
import proofs.«109581_g76012331204772_cont_9to1_m_125_6_alg».proof.Proof.KI.Reg8
import proofs.«109581_g76012331204772_cont_9to1_m_125_6_alg».proof.Proof.KI.Pay8
import proofs.«109581_g76012331204772_cont_9to1_m_125_6_alg».proof.Proof.Spec
import Idealize.ShloMosaic.Lib.Pipeline.Value
import Idealize.ShloMosaic.Lib.ValueIdx

set_option maxRecDepth 16384

noncomputable section

namespace Cert.KernelIdeal.HandVal

open Cert.KernelIdeal Cert.KernelIdeal.Gen Cert.KernelIdeal.Hand Cert.KernelIdeal.PayVal
open Idealize.ShloMosaic Idealize.ShloMosaic.TcCoe Idealize.SL.Sem Idealize.ShloMosaic.ValueIdx
open Idealize.ShloMosaic.Pipeline (Dat)

theorem hz8 : (![0, 0] : Fin 2 → Nat) = fun _ => 0 := funext fun a => by fin_cases a <;> rfl

section Generic

variable {F : FTy → Type} [FloatOps F]
variable (V : (c : Dev nD) → (b : Ref sig .tc) → Buf (Elt F) ((c : Thread nD τ).loc b))

theorem arrRef8_0 : Pipeline.arrRef spec8 0 = main_v15 := rfl
theorem arrRef8_1 : Pipeline.arrRef spec8 1 = main_v18 := rfl
theorem arrRef8_2 : Pipeline.arrRef spec8 2 = main_arg23 := rfl
theorem arrRef8_3 : Pipeline.arrRef spec8 3 = main_arg24 := rfl
theorem arrRef8_4 : Pipeline.arrRef spec8 4 = main_v19_0 := rfl
theorem arrRef8_5 : Pipeline.arrRef spec8 5 = main_v19_1 := rfl

theorem iblk8_0 (c : Dev nD) (t : Fin cfg8.N) : iblk8 V c 0 t = V c main_v15 := by
  have hz' : (fun a => win8_0.index t a * main_v15.ty.shape.size a) = fun _ => 0 := funext fun a => Nat.zero_mul _
  unfold iblk8
  exact Memref.read_access_unit_zero (Elt F) main_v15 hz' (fun a => by rw [congrFun hz' a]; simp) (V c main_v15)

theorem iblk8_1 (c : Dev nD) (t : Fin cfg8.N) : iblk8 V c 1 t = V c main_v18 := by
  have hz' : (fun a => win8_1.index t a * main_v18.ty.shape.size a) = fun _ => 0 := funext fun a => Nat.zero_mul _
  unfold iblk8
  exact Memref.read_access_unit_zero (Elt F) main_v18 hz' (fun a => by rw [congrFun hz' a]; simp) (V c main_v18)

theorem iblk8_2 (c : Dev nD) (t : Fin cfg8.N) : iblk8 V c 2 t = V c main_arg23 := by
  have hz' : (fun a => win8_2.index t a * main_arg23.ty.shape.size a) = fun _ => 0 := funext fun a => Nat.zero_mul _
  unfold iblk8
  exact Memref.read_access_unit_zero (Elt F) main_arg23 hz' (fun a => by rw [congrFun hz' a]; simp) (V c main_arg23)

theorem iblk8_3 (c : Dev nD) (t : Fin cfg8.N) : iblk8 V c 3 t = V c main_arg24 := by
  have hz' : (fun a => win8_3.index t a * main_arg24.ty.shape.size a) = fun _ => 0 := funext fun a => Nat.zero_mul _
  unfold iblk8
  exact Memref.read_access_unit_zero (Elt F) main_arg24 hz' (fun a => by rw [congrFun hz' a]; simp) (V c main_arg24)

abbrev G8_4 (c : Dev nD) : Buf (Elt F) ((c : Thread nD τ).loc main_v19_0) :=
  k8_pay1 (F := F) (V c main_arg24 : Vec F S1x16 .f32) (V c main_v18 : Vec F S4096x16 .f32)

theorem flushed8_4 (c : Dev nD) (t : Fin cfg8.N) :
    (dat8 V c).flushed 4 t = ((cfg8.win 4).blk t).view.read (Elt F) (G8_4 V c) := by
  have hz' : (fun a => win8_4.index t a * main_v19_0.ty.shape.size a) = fun _ => 0 := funext fun a => Nat.zero_mul _
  show (cfg8.win 4).cut (grid8.coords t) ((dat8 V c).after 4 t) = _
  rw [after8_4]
  unfold out8_4
  rw [View.canon_unit_zero hz8]
  simp only [View.ld_unit_zero (S := S1x16) hz8, View.ld_unit_zero (S := S4096x16) hz8]
  rw [iblk8_3, iblk8_1]
  exact (Memref.read_access_unit_zero (Elt F) main_v19_0 hz' (fun a => by rw [congrFun hz' a]; simp) (G8_4 V c)).symm

theorem final8_4 (c : Dev nD) : (dat8 V c).arrAt 4 cfg8.N = G8_4 V c :=
  (dat8 V c).arrAt_eq_of_cover 4 (G8_4 V c) (fun t _ => flushed8_4 V c t) fun i =>
    ⟨t8_0, flush8_4 t8_0, by
      show i ∈ ((View.whole main_v19_0).slice (win8_4.rect t8_0)).set
      rw [View.set_slice_whole, Rect.mem_set_unit]
      intro a
      have h0 : (i 0 : Nat) < 1 := (i 0).isLt
      have h1 : (i 1 : Nat) < 4096 := (i 1).isLt
      match a with
      | ⟨0, _⟩ => show win8_4.index t8_0 0 * win8_4.size 0 ≤ (i 0 : Nat) ∧ (i 0 : Nat) < win8_4.index t8_0 0 * win8_4.size 0 + win8_4.xsize (grid8.coords t8_0) 0
                  rw [show win8_4.index t8_0 0 * win8_4.size 0 = 0 from Nat.zero_mul _, show win8_4.xsize (grid8.coords t8_0) 0 = 1 from rfl]; omega
      | ⟨1, _⟩ => show win8_4.index t8_0 1 * win8_4.size 1 ≤ (i 1 : Nat) ∧ (i 1 : Nat) < win8_4.index t8_0 1 * win8_4.size 1 + win8_4.xsize (grid8.coords t8_0) 1
                  rw [show win8_4.index t8_0 1 * win8_4.size 1 = 0 from Nat.zero_mul _, show win8_4.xsize (grid8.coords t8_0) 1 = 4096 from rfl]; omega⟩

abbrev G8_5 (c : Dev nD) : Buf (Elt F) ((c : Thread nD τ).loc main_v19_1) :=
  k8_pay2 (F := F) (V c main_v15 : Vec F S2048x128 .f32) (V c main_arg23 : Vec F S128x64 .f32)

theorem flushed8_5 (c : Dev nD) (t : Fin cfg8.N) :
    (dat8 V c).flushed 5 t = ((cfg8.win 5).blk t).view.read (Elt F) (G8_5 V c) := by
  have hz' : (fun a => win8_5.index t a * main_v19_1.ty.shape.size a) = fun _ => 0 := funext fun a => Nat.zero_mul _
  show (cfg8.win 5).cut (grid8.coords t) ((dat8 V c).after 5 t) = _
  rw [after8_5]
  unfold out8_5
  rw [View.canon_unit_zero hz8]
  simp only [View.ld_unit_zero (S := S2048x128) hz8, View.ld_unit_zero (S := S128x64) hz8]
  rw [iblk8_0, iblk8_2]
  exact (Memref.read_access_unit_zero (Elt F) main_v19_1 hz' (fun a => by rw [congrFun hz' a]; simp) (G8_5 V c)).symm

theorem final8_5 (c : Dev nD) : (dat8 V c).arrAt 5 cfg8.N = G8_5 V c :=
  (dat8 V c).arrAt_eq_of_cover 5 (G8_5 V c) (fun t _ => flushed8_5 V c t) fun i =>
    ⟨t8_0, flush8_5 t8_0, by
      show i ∈ ((View.whole main_v19_1).slice (win8_5.rect t8_0)).set
      rw [View.set_slice_whole, Rect.mem_set_unit]
      intro a
      have h0 : (i 0 : Nat) < 2048 := (i 0).isLt
      have h1 : (i 1 : Nat) < 64 := (i 1).isLt
      match a with
      | ⟨0, _⟩ => show win8_5.index t8_0 0 * win8_5.size 0 ≤ (i 0 : Nat) ∧ (i 0 : Nat) < win8_5.index t8_0 0 * win8_5.size 0 + win8_5.xsize (grid8.coords t8_0) 0
                  rw [show win8_5.index t8_0 0 * win8_5.size 0 = 0 from Nat.zero_mul _, show win8_5.xsize (grid8.coords t8_0) 0 = 2048 from rfl]; omega
      | ⟨1, _⟩ => show win8_5.index t8_0 1 * win8_5.size 1 ≤ (i 1 : Nat) ∧ (i 1 : Nat) < win8_5.index t8_0 1 * win8_5.size 1 + win8_5.xsize (grid8.coords t8_0) 1
                  rw [show win8_5.index t8_0 1 * win8_5.size 1 = 0 from Nat.zero_mul _, show win8_5.xsize (grid8.coords t8_0) 1 = 64 from rfl]; omega⟩

end Generic

section AtIdeal

variable (V : (c : Dev nD) → (b : Ref sig .tc) → Buf (Elt Ideal) ((c : Thread nD τ).loc b))

theorem val8_d (c : Dev nD) (e : Fin 4096) :
    ((dat8 V c).arrAt 4 cfg8.N : S1x4096.Idx → EReal) (ix2 0 e)
      = Cert.Spec.dvec (Cert.Spec.m2 (V c (Pipeline.arrRef spec8 1) : S4096x16.Idx → EReal)) (Cert.Spec.row (V c (Pipeline.arrRef spec8 3) : S1x16.Idx → EReal)) e := by
  rw [final8_4]
  exact k8_d_spec _ _ e

theorem val8_hw (c : Dev nD) (n : Fin 2048) (f : Fin 64) :
    ((dat8 V c).arrAt 5 cfg8.N : S2048x64.Idx → EReal) (ix2 n f)
      = Cert.Spec.mm (Cert.Spec.m2 (V c (Pipeline.arrRef spec8 0) : S2048x128.Idx → EReal)) (Cert.Spec.m2 (V c (Pipeline.arrRef spec8 2) : S128x64.Idx → EReal)) n f := by
  rw [final8_5]
  exact k8_hw_spec _ _ n f

end AtIdeal

end Cert.KernelIdeal.HandVal

end
-- ==== Proof.KI.Pay9.lean ====
/-
  The fused layer kernel of the fifth graph convolution (grid of 8 column blocks of the node adjacency, 64 features; no maximum at the last point), its PAYLOADS read at an index at the ideal
  instance: the statements and proofs of the first layer's, at this layer's sizes and names.
-/
import proofs.«109581_g76012331204772_cont_9to1_m_125_6_alg».proof.Proof.KI.Pay1

noncomputable section

open scoped BigOperators

namespace Cert.KernelIdeal.PayVal

open Cert.KernelIdeal Cert.KernelIdeal.Gen Idealize.ShloMosaic Idealize.ShloMosaic.ValueIdx

/-! ## The second contraction: the plain product -/

theorem lhsB9_0 (i : S2048x64.Idx) (q : dot_S2048x256_S256x64_S2048x64_1_0_0_1_n_n.contr.Idx) :
    (dot_S2048x256_S256x64_S2048x64_1_0_0_1_n_n.lhsIdx i q 0).val = (i 0).val := by
  unfold DotDims.lhsIdx
  rw [dif_neg (show ¬(0 : Fin S2048x256.rank) ∈ dot_S2048x256_S256x64_S2048x64_1_0_0_1_n_n.lhsBatch by decide), dif_pos (show (0 : Fin S2048x256.rank) ∈ dot_S2048x256_S256x64_S2048x64_1_0_0_1_n_n.lhsNonContracting by decide)]
  rfl
theorem lhsB9_1 (i : S2048x64.Idx) (q : dot_S2048x256_S256x64_S2048x64_1_0_0_1_n_n.contr.Idx) :
    (dot_S2048x256_S256x64_S2048x64_1_0_0_1_n_n.lhsIdx i q 1).val = (q ⟨0, by decide⟩).val :=
  dot_S2048x256_S256x64_S2048x64_1_0_0_1_n_n.lhsIdx_val_of_single rfl i q
theorem rhsB9_0 (i : S2048x64.Idx) (q : dot_S2048x256_S256x64_S2048x64_1_0_0_1_n_n.contr.Idx) :
    (dot_S2048x256_S256x64_S2048x64_1_0_0_1_n_n.rhsIdx i q 0).val = (q ⟨0, by decide⟩).val :=
  dot_S2048x256_S256x64_S2048x64_1_0_0_1_n_n.rhsIdx_val_of_single rfl i q
theorem rhsB9_1 (i : S2048x64.Idx) (q : dot_S2048x256_S256x64_S2048x64_1_0_0_1_n_n.contr.Idx) :
    (dot_S2048x256_S256x64_S2048x64_1_0_0_1_n_n.rhsIdx i q 1).val = (i 1).val := by
  unfold DotDims.rhsIdx
  rw [dif_neg (show ¬(1 : Fin S256x64.rank) ∈ dot_S2048x256_S256x64_S2048x64_1_0_0_1_n_n.rhsBatch by decide), dif_pos (show (1 : Fin S256x64.rank) ∈ dot_S2048x256_S256x64_S2048x64_1_0_0_1_n_n.rhsNonContracting by decide)]
  rfl

/-- The second contraction (the plain product) into the zero splat: `∑ c, x(r, c) · y(c, f)`. -/
theorem matmulB9_apply (x : FVec Ideal S2048x256 .f32) (y : FVec Ideal S256x64 .f32) (r : Fin 2048) (f : Fin 64) :
    matmul dot_S2048x256_S256x64_S2048x64_1_0_0_1_n_n none x y (constant (F := Ideal) S2048x64 .f32 0x00000000#32) (ix2 r f)
      = ∑ c : Fin 256, x (ix2 r c) * y (ix2 c f) := by
  refine (Ideal.matmul_constant_zero_apply dot_S2048x256_S256x64_S2048x64_1_0_0_1_n_n none x y (ix2 r f)).trans ?_
  rw [← Equiv.sum_comp (contrEquiv1 dot_S2048x256_S256x64_S2048x64_1_0_0_1_n_n 256 rfl rfl).symm]
  refine Finset.sum_congr rfl fun k _ => ?_
  have hk := contrEquiv1_symm_val dot_S2048x256_S256x64_S2048x64_1_0_0_1_n_n 256 rfl rfl k
  have el : dot_S2048x256_S256x64_S2048x64_1_0_0_1_n_n.lhsIdx (ix2 r f) ((contrEquiv1 dot_S2048x256_S256x64_S2048x64_1_0_0_1_n_n 256 rfl rfl).symm k) = ix2 r k := funext fun a => Fin.ext (by
    match a with
    | ⟨0, _⟩ => exact lhsB9_0 _ _
    | ⟨1, _⟩ => exact (lhsB9_1 _ _).trans hk)
  have er : dot_S2048x256_S256x64_S2048x64_1_0_0_1_n_n.rhsIdx (ix2 r f) ((contrEquiv1 dot_S2048x256_S256x64_S2048x64_1_0_0_1_n_n 256 rfl rfl).symm k) = ix2 k f := funext fun a => Fin.ext (by
    match a with
    | ⟨0, _⟩ => exact (rhsB9_0 _ _).trans hk
    | ⟨1, _⟩ => exact rhsB9_1 _ _)
  rw [el, er]

/-! ## The payloads at an index -/

/-- The block's contribution at (r, f). -/
theorem k9_pay1_apply (i : grid9.Coords) (v2 : Vec Ideal S256x4096 .f32) (v3 : Vec Ideal S1x4096 .f32) (v7 : Vec Ideal S2048x4096 .f32)
    (v9 : Vec Ideal S2048x256 .f32) (v20 : Vec Ideal S256x64 .f32) (r : Fin 2048) (f : Fin 64) :
    k9_pay1 (F := Ideal) i v2 v3 v7 v9 v20 (ix2 r f)
      = ∑ c : Fin 256, (if r.val = (i 0).val * 256 + c.val then v9 (ix2 r c)
          else (∑ j : Fin 4096, v7 (ix2 r j) * (v2 (ix2 c j) * v3 (ix2 0 j))) * v9 (ix2 r c)) * v20 (ix2 c f) := by
  have hk : (i 0).val < 16 := Nat.lt_of_lt_of_le (i 0).isLt (by decide)
  unfold k9_pay1
  simp only [shapeCast_self]
  refine (matmulB9_apply _ _ r f).trans ?_
  refine Finset.sum_congr rfl fun c _ => ?_
  refine congrArg (· * v20 (ix2 c f)) ?_
  rw [select_apply]
  show Scalar.select (IntOp.cmpi .eq (iota .tc S2048x256 32 [0] iota_S2048x256_d0_w32 (ix2 r c))
      (IntOp.addi (iota .tc S2048x256 32 [1] iota_S2048x256_d1_w32 (ix2 r c)) (Scalar.muli (BitVec.ofNat 32 (i 0).val) 256#32))) _ _ = _
  rw [iota_single_apply, iota_single_apply]
  refine (select_diag (i 0).val r.val c.val hk (Nat.lt_of_lt_of_le r.isLt (by decide)) c.isLt _ _).trans ?_
  by_cases h : r.val = (i 0).val * 256 + c.val
  · rw [if_pos h, if_pos h]
  · rw [if_neg h, if_neg h, mulf_apply, matmulA_apply]
    refine congrArg (· * v9 (ix2 r c)) (Finset.sum_congr rfl fun j _ => ?_)
    rw [mulf_apply, broadcastTo_1b_ab_apply]

/-- The first point's store: the bias row plus the contribution. -/
theorem k9_pay2_apply (i : grid9.Coords) (v2 : Vec Ideal S256x4096 .f32) (v3 : Vec Ideal S1x4096 .f32) (v7 : Vec Ideal S2048x4096 .f32)
    (v9 : Vec Ideal S2048x256 .f32) (v20 : Vec Ideal S256x64 .f32) (v29 : Vec Ideal S1x64 .f32) (r : Fin 2048) (f : Fin 64) :
    k9_pay2 (F := Ideal) i v2 v3 v7 v9 v20 v29 (ix2 r f) = v29 (ix2 0 f) + k9_pay1 (F := Ideal) i v2 v3 v7 v9 v20 (ix2 r f) := by
  unfold k9_pay2
  simp only [shapeCast_self]
  rw [addf_apply, broadcastTo_1b_ab_apply]

/-- A later point's store: the block so far plus the contribution. -/
theorem k9_pay3_apply (i : grid9.Coords) (v2 : Vec Ideal S256x4096 .f32) (v3 : Vec Ideal S1x4096 .f32) (v7 : Vec Ideal S2048x4096 .f32)
    (v9 : Vec Ideal S2048x256 .f32) (v20 : Vec Ideal S256x64 .f32) (v29 : Vec Ideal S2048x64 .f32) (r : Fin 2048) (f : Fin 64) :
    k9_pay3 (F := Ideal) i v2 v3 v7 v9 v20 v29 (ix2 r f) = v29 (ix2 r f) + k9_pay1 (F := Ideal) i v2 v3 v7 v9 v20 (ix2 r f) := by
  unfold k9_pay3
  simp only [shapeCast_self]
  rw [addf_apply]

end Cert.KernelIdeal.PayVal

end
-- ==== Proof.KI.Val9.lean ====
/-
  The value of the fifth graph convolution's fused region at the ideal instance. The region's output array after its
  eight points is, element by element, gc T d adj HW b: the resident windows' blocks are the arrays, the
  adjacency's block at point k is its columns 256 k … 256 k + 255, so point k contributes the k-th block of
  ∑ m, coef(r, m) · HW(m, f); the output block stays in its buffer and is accumulated from the bias row on, and the block is written back once, after the last point.
-/
import proofs.«109581_g76012331204772_cont_9to1_m_125_6_alg».proof.Proof.KI.Reg9
import proofs.«109581_g76012331204772_cont_9to1_m_125_6_alg».proof.Proof.KI.Pay9
import proofs.«109581_g76012331204772_cont_9to1_m_125_6_alg».proof.Proof.Algebra
import proofs.«109581_g76012331204772_cont_9to1_m_125_6_alg».proof.Proof.Spec
import Idealize.ShloMosaic.Lib.Pipeline.Value
import Idealize.ShloMosaic.Lib.ValueIdx

set_option maxRecDepth 16384

noncomputable section

open scoped BigOperators

namespace Cert.KernelIdeal.HandVal

open Cert.KernelIdeal Cert.KernelIdeal.Gen Cert.KernelIdeal.Hand Cert.KernelIdeal.PayVal
open Idealize.ShloMosaic Idealize.ShloMosaic.TcCoe Idealize.ShloMosaic.ValueIdx Idealize.SL.Sem
open Idealize.ShloMosaic.Pipeline (Dat)
open Cert.Spec

variable (V : (c : Dev nD) → (b : Ref sig .tc) → Buf (Elt Ideal) ((c : Thread nD τ).loc b))

/-! ## The region's arrays -/

/-- The weights `d` (1 × 4096), the table `T` (2048 × 4096), the adjacency (2048 × 2048), `HW` (2048 × 64) and the
    bias row (1 × 64), as the region finds them. -/
abbrev arr9_d (c : Dev nD) : Vec Ideal S1x4096 .f32 := V c (Pipeline.arrRef spec9 0)
abbrev arr9_T (c : Dev nD) : Vec Ideal S2048x4096 .f32 := V c (Pipeline.arrRef spec9 1)
abbrev arr9_adj (c : Dev nD) : Vec Ideal S2048x2048 .f32 := V c (Pipeline.arrRef spec9 2)
abbrev arr9_HW (c : Dev nD) : Vec Ideal S2048x64 .f32 := V c (Pipeline.arrRef spec9 3)
abbrev arr9_b (c : Dev nD) : Vec Ideal S1x64 .f32 := V c (Pipeline.arrRef spec9 4)

/-! ## The grid and the block indices -/

/-- The grid's one coordinate is the point's number. -/
theorem coords9_val : ∀ t : Fin cfg9.N, (grid9.coords t 0).val = t.val :=
  (by decide +kernel : ∀ t : Fin grid9.N, (grid9.coords t 0).val = t.val)

/-- The resident windows' block index is zero at every point; the adjacency's moves along its columns. -/
theorem idx9_0 : ∀ t : Fin cfg9.N, win9_0.index t 0 = 0 ∧ win9_0.index t 1 = 0 :=
  (by decide +kernel : ∀ t : Fin grid9.N, win9_0.index t 0 = 0 ∧ win9_0.index t 1 = 0)
theorem idx9_1 : ∀ t : Fin cfg9.N, win9_1.index t 0 = 0 ∧ win9_1.index t 1 = 0 :=
  (by decide +kernel : ∀ t : Fin grid9.N, win9_1.index t 0 = 0 ∧ win9_1.index t 1 = 0)
theorem idx9_2 : ∀ t : Fin cfg9.N, win9_2.index t 0 = 0 ∧ win9_2.index t 1 = t.val :=
  (by decide +kernel : ∀ t : Fin grid9.N, win9_2.index t 0 = 0 ∧ win9_2.index t 1 = t.val)
theorem idx9_3 : ∀ t : Fin cfg9.N, win9_3.index t 0 = 0 ∧ win9_3.index t 1 = 0 :=
  (by decide +kernel : ∀ t : Fin grid9.N, win9_3.index t 0 = 0 ∧ win9_3.index t 1 = 0)
theorem idx9_4 : ∀ t : Fin cfg9.N, win9_4.index t 0 = 0 ∧ win9_4.index t 1 = 0 :=
  (by decide +kernel : ∀ t : Fin grid9.N, win9_4.index t 0 = 0 ∧ win9_4.index t 1 = 0)
theorem idx9_5 : ∀ t : Fin cfg9.N, win9_5.index t 0 = 0 ∧ win9_5.index t 1 = 0 :=
  (by decide +kernel : ∀ t : Fin grid9.N, win9_5.index t 0 = 0 ∧ win9_5.index t 1 = 0)

/-! ## The windows' blocks, from the arrays -/

theorem iblk9_0_eq (c : Dev nD) (t : Fin cfg9.N) : (iblk9 V c 0 t : Vec Ideal S1x4096 .f32) = arr9_d V c := by
  funext j
  have hi := idx9_0 t
  unfold iblk9
  rw [View.read_apply]
  show V c (Pipeline.arrRef spec9 0) _ = V c (Pipeline.arrRef spec9 0) j
  congr 1
  funext a
  apply Fin.ext
  match a with
  | ⟨0, _⟩ => show win9_0.index t 0 * 1 + 1 * (j 0).val = (j 0).val; rw [hi.1]; omega
  | ⟨1, _⟩ => show win9_0.index t 1 * 4096 + 1 * (j 1).val = (j 1).val; rw [hi.2]; omega

theorem iblk9_1_eq (c : Dev nD) (t : Fin cfg9.N) : (iblk9 V c 1 t : Vec Ideal S2048x4096 .f32) = arr9_T V c := by
  funext j
  have hi := idx9_1 t
  unfold iblk9
  rw [View.read_apply]
  show V c (Pipeline.arrRef spec9 1) _ = V c (Pipeline.arrRef spec9 1) j
  congr 1
  funext a
  apply Fin.ext
  match a with
  | ⟨0, _⟩ => show win9_1.index t 0 * 2048 + 1 * (j 0).val = (j 0).val; rw [hi.1]; omega
  | ⟨1, _⟩ => show win9_1.index t 1 * 4096 + 1 * (j 1).val = (j 1).val; rw [hi.2]; omega

/-- The adjacency's block at point `t` is its columns `256 t … 256 t + 255`. -/
theorem iblk9_2_apply (c : Dev nD) (t : Fin cfg9.N) (r : Fin 2048) (cc : Fin 256) (h : t.val * 256 + cc.val < 2048) :
    (iblk9 V c 2 t : Vec Ideal S2048x256 .f32) (ix2 r cc) = arr9_adj V c (ix2 r ⟨t.val * 256 + cc.val, h⟩) := by
  have hi := idx9_2 t
  unfold iblk9
  rw [View.read_apply]
  show V c (Pipeline.arrRef spec9 2) _ = V c (Pipeline.arrRef spec9 2) (ix2 r ⟨t.val * 256 + cc.val, h⟩)
  congr 1
  funext a
  apply Fin.ext
  match a with
  | ⟨0, _⟩ => show win9_2.index t 0 * 2048 + 1 * r.val = r.val; rw [hi.1]; omega
  | ⟨1, _⟩ => show win9_2.index t 1 * 256 + 1 * cc.val = t.val * 256 + cc.val; rw [hi.2]; omega

theorem iblk9_3_eq (c : Dev nD) (t : Fin cfg9.N) : (iblk9 V c 3 t : Vec Ideal S2048x64 .f32) = arr9_HW V c := by
  funext j
  have hi := idx9_3 t
  unfold iblk9
  rw [View.read_apply]
  show V c (Pipeline.arrRef spec9 3) _ = V c (Pipeline.arrRef spec9 3) j
  congr 1
  funext a
  apply Fin.ext
  match a with
  | ⟨0, _⟩ => show win9_3.index t 0 * 2048 + 1 * (j 0).val = (j 0).val; rw [hi.1]; omega
  | ⟨1, _⟩ => show win9_3.index t 1 * 64 + 1 * (j 1).val = (j 1).val; rw [hi.2]; omega

theorem iblk9_4_eq (c : Dev nD) (t : Fin cfg9.N) : (iblk9 V c 4 t : Vec Ideal S1x64 .f32) = arr9_b V c := by
  funext j
  have hi := idx9_4 t
  unfold iblk9
  rw [View.read_apply]
  show V c (Pipeline.arrRef spec9 4) _ = V c (Pipeline.arrRef spec9 4) j
  congr 1
  funext a
  apply Fin.ext
  match a with
  | ⟨0, _⟩ => show win9_4.index t 0 * 1 + 1 * (j 0).val = (j 0).val; rw [hi.1]; omega
  | ⟨1, _⟩ => show win9_4.index t 1 * 64 + 1 * (j 1).val = (j 1).val; rw [hi.2]; omega

/-! ## The body's row slices, from the arrays -/

/-- The rows of `T` that face point `i`'s column block: row `cc` of the slice is row `256 i + cc`. -/
theorem ld9_Trows (i : grid9.Coords) (T : Vec Ideal S2048x4096 .f32) (cc : Fin 256) (j : Fin 4096)
    (h : (i 0).val * 256 + cc.val < 2048) :
    View.ld T (r9_Trows i) (ix2 cc j) = T (ix2 ⟨(i 0).val * 256 + cc.val, h⟩ j) := by
  show T ((r9_Trows i).idx (ix2 cc j)) = _
  congr 1
  funext a
  apply Fin.ext
  match a with
  | ⟨0, _⟩ => show k9_off1 i 0 + 1 * cc.val = (i 0).val * 256 + cc.val; rw [k9_off1_eq]; show 256 * (i 0).val + 1 * cc.val = _; omega
  | ⟨1, _⟩ => show k9_off1 i 1 + 1 * j.val = j.val; rw [k9_off1_eq]; show 0 + 1 * j.val = _; omega

/-- The rows of `HW` that face it, likewise. -/
theorem ld9_Hrows (i : grid9.Coords) (H : Vec Ideal S2048x64 .f32) (cc : Fin 256) (f : Fin 64)
    (h : (i 0).val * 256 + cc.val < 2048) :
    View.ld H (r9_Hrows i) (ix2 cc f) = H (ix2 ⟨(i 0).val * 256 + cc.val, h⟩ f) := by
  show H ((r9_Hrows i).idx (ix2 cc f)) = _
  congr 1
  funext a
  apply Fin.ext
  match a with
  | ⟨0, _⟩ => show k9_off2 i 0 + 1 * cc.val = (i 0).val * 256 + cc.val; rw [k9_off2_eq]; show 256 * (i 0).val + 1 * cc.val = _; omega
  | ⟨1, _⟩ => show k9_off2 i 1 + 1 * f.val = f.val; rw [k9_off2_eq]; show 0 + 1 * f.val = _; omega

/-! ## One point's contribution -/

/-- Block `k` of `∑ m, coef(r, m) · HW(m, f)`: the columns `256 k … 256 k + 255`. -/
def blk9 (c : Dev nD) (r : Fin 2048) (f : Fin 64) (k : ℕ) : EReal :=
  if hk : k < 8 then
    ∑ cc : Fin 256,
      Cert.Algebra.coefK (m2 (arr9_T V c)) (row (arr9_d V c)) (m2 (arr9_adj V c)) r ⟨k * 256 + cc.val, by have := cc.isLt; omega⟩
        * m2 (arr9_HW V c) ⟨k * 256 + cc.val, by have := cc.isLt; omega⟩ f
  else 0

/-- The contribution the body computes at point `t` is block `t`: over the arrays for the resident windows and any
    block `x2` that holds the adjacency's columns `256 t …`. -/
theorem pay9_at (c : Dev nD) (t : Fin cfg9.N) (x2 : Vec Ideal S2048x256 .f32)
    (h2 : ∀ (r : Fin 2048) (cc : Fin 256) (h : t.val * 256 + cc.val < 2048), x2 (ix2 r cc) = arr9_adj V c (ix2 r ⟨t.val * 256 + cc.val, h⟩))
    (r : Fin 2048) (f : Fin 64) :
    k9_pay1 (F := Ideal) (grid9.coords t) (View.ld (arr9_T V c) (r9_Trows (grid9.coords t))) (View.ld (arr9_d V c) r9_d)
        (View.ld (arr9_T V c) r9_T) (View.ld x2 r9_adj) (View.ld (arr9_HW V c) (r9_Hrows (grid9.coords t))) (ix2 r f)
      = blk9 V c r f t.val := by
  have ht : t.val < 8 := lt_of_lt_of_eq t.isLt (show cfg9.N = 8 from N_9)
  have hc0 : (grid9.coords t 0).val = t.val := coords9_val t
  rw [k9_pay1_apply]
  unfold blk9
  rw [dif_pos ht]
  refine Finset.sum_congr rfl fun cc _ => ?_
  have hlt : t.val * 256 + cc.val < 2048 := by have := cc.isLt; omega
  have hlt' : (grid9.coords t 0).val * 256 + cc.val < 2048 := by rw [hc0]; exact hlt
  have e_adj : View.ld x2 r9_adj (ix2 r cc) = arr9_adj V c (ix2 r ⟨t.val * 256 + cc.val, hlt⟩) :=
    (congrFun (View.ld_unit_zero (S := S2048x256) zero2_9 inb_S2048x256_S2048x256_0_0 x2) (ix2 r cc)).trans (h2 r cc hlt)
  have e_T : ∀ j : Fin 4096, View.ld (arr9_T V c) r9_T (ix2 r j) = arr9_T V c (ix2 r j) := fun j =>
    congrFun (View.ld_unit_zero (S := S2048x4096) zero2_9 inb_S2048x4096_S2048x4096_0_0 (arr9_T V c)) (ix2 r j)
  have e_d : ∀ j : Fin 4096, View.ld (arr9_d V c) r9_d (ix2 0 j) = arr9_d V c (ix2 0 j) := fun j =>
    congrFun (View.ld_unit_zero (S := S1x4096) zero2_9 inb_S1x4096_S1x4096_0_0 (arr9_d V c)) (ix2 0 j)
  have e_Tr : ∀ j : Fin 4096, View.ld (arr9_T V c) (r9_Trows (grid9.coords t)) (ix2 cc j)
      = arr9_T V c (ix2 ⟨t.val * 256 + cc.val, hlt⟩ j) := fun j =>
    (ld9_Trows (grid9.coords t) (arr9_T V c) cc j hlt').trans (by congr 2; exact Fin.ext (by show (grid9.coords t 0).val * 256 + cc.val = t.val * 256 + cc.val; omega))
  have e_H : View.ld (arr9_HW V c) (r9_Hrows (grid9.coords t)) (ix2 cc f)
      = arr9_HW V c (ix2 ⟨t.val * 256 + cc.val, hlt⟩ f) :=
    (ld9_Hrows (grid9.coords t) (arr9_HW V c) cc f hlt').trans (by congr 2; exact Fin.ext (by show (grid9.coords t 0).val * 256 + cc.val = t.val * 256 + cc.val; omega))
  rw [e_adj, e_H, hc0]
  simp only [e_T, e_d, e_Tr]
  show _ = (if r = ⟨t.val * 256 + cc.val, hlt⟩ then arr9_adj V c (ix2 r ⟨t.val * 256 + cc.val, hlt⟩)
      else (∑ j : Fin 4096, arr9_T V c (ix2 r j) * (arr9_T V c (ix2 ⟨t.val * 256 + cc.val, hlt⟩ j) * arr9_d V c (ix2 0 j)))
        * arr9_adj V c (ix2 r ⟨t.val * 256 + cc.val, hlt⟩)) * arr9_HW V c (ix2 ⟨t.val * 256 + cc.val, hlt⟩ f)
  congr 1
  exact if_congr (Fin.ext_iff (a := r) (b := ⟨t.val * 256 + cc.val, hlt⟩)).symm rfl rfl

/-- The first point's store at (r, f): the bias plus block `t`. -/
theorem out9_A_apply (c : Dev nD) (t : Fin cfg9.N) (x0 : Vec Ideal S1x4096 .f32) (x1 : Vec Ideal S2048x4096 .f32)
    (x2 : Vec Ideal S2048x256 .f32) (x3 : Vec Ideal S2048x64 .f32) (x4 : Vec Ideal S1x64 .f32)
    (h0 : x0 = arr9_d V c) (h1 : x1 = arr9_T V c)
    (h2 : ∀ (r : Fin 2048) (cc : Fin 256) (h : t.val * 256 + cc.val < 2048), x2 (ix2 r cc) = arr9_adj V c (ix2 r ⟨t.val * 256 + cc.val, h⟩))
    (h3 : x3 = arr9_HW V c) (h4 : x4 = arr9_b V c) (r : Fin 2048) (f : Fin 64) :
    out9_A (grid9.coords t) x0 x1 x2 x3 x4 (ix2 r f) = row (arr9_b V c) f + blk9 V c r f t.val := by
  subst h0 h1 h3 h4
  unfold out9_A
  rw [k9_pay2_apply, pay9_at V c t x2 h2 r f]
  exact congrArg (· + blk9 V c r f t.val)
    (congrFun (View.ld_unit_zero (S := S1x64) zero2_9 inb_S1x64_S1x64_0_0 (arr9_b V c)) (ix2 0 f))

/-- A later point's store at (r, f): what the buffer held plus block `t`. -/
theorem out9_B_apply (c : Dev nD) (t : Fin cfg9.N) (x0 : Vec Ideal S1x4096 .f32) (x1 : Vec Ideal S2048x4096 .f32)
    (x2 : Vec Ideal S2048x256 .f32) (x3 : Vec Ideal S2048x64 .f32) (prev : Vec Ideal S2048x64 .f32)
    (h0 : x0 = arr9_d V c) (h1 : x1 = arr9_T V c)
    (h2 : ∀ (r : Fin 2048) (cc : Fin 256) (h : t.val * 256 + cc.val < 2048), x2 (ix2 r cc) = arr9_adj V c (ix2 r ⟨t.val * 256 + cc.val, h⟩))
    (h3 : x3 = arr9_HW V c) (r : Fin 2048) (f : Fin 64) :
    out9_B (grid9.coords t) x0 x1 x2 x3 prev (ix2 r f) = prev (ix2 r f) + blk9 V c r f t.val := by
  subst h0 h1 h3
  unfold out9_B
  rw [k9_pay3_apply, pay9_at V c t x2 h2 r f]

/-! ## The accumulation -/

/-- The accumulation. -/
def accAt9 (c : Dev nD) : (n : ℕ) → n < cfg9.N → Vec Ideal S2048x64 .f32
  | 0, hn => out9_A (grid9.coords ⟨0, hn⟩) (iblk9 V c 0 ⟨0, hn⟩) (iblk9 V c 1 ⟨0, hn⟩) (iblk9 V c 2 ⟨0, hn⟩) (iblk9 V c 3 ⟨0, hn⟩) (iblk9 V c 4 ⟨0, hn⟩)
  | n + 1, hn => out9_B (grid9.coords ⟨n + 1, hn⟩) (iblk9 V c 0 ⟨n + 1, hn⟩) (iblk9 V c 1 ⟨n + 1, hn⟩) (iblk9 V c 2 ⟨n + 1, hn⟩) (iblk9 V c 3 ⟨n + 1, hn⟩) (accAt9 c n (Nat.lt_of_succ_lt hn))

/-- The buffer holds the accumulation after every point. -/
theorem outsAt9_eq_acc (c : Dev nD) : ∀ (n : ℕ) (hn : n < cfg9.N), outsAt9 V c n hn = accAt9 V c n hn
  | 0, hn => rfl
  | n + 1, hn => by
    show out9_B _ _ _ _ _ (outsAt9 V c n _) = out9_B _ _ _ _ _ (accAt9 V c n _)
    rw [outsAt9_eq_acc c n _]

/-- The accumulation ends at the layer's value. -/
theorem accAt9_last (c : Dev nD) (hn : 7 < cfg9.N) (r : Fin 2048) (f : Fin 64) :
    accAt9 V c 7 hn (ix2 r f)
      = gc (m2 (arr9_T V c)) (row (arr9_d V c)) (m2 (arr9_adj V c)) (m2 (arr9_HW V c)) (row (arr9_b V c)) r f := by
  have hN : cfg9.N = 8 := N_9
  have key := Cert.Algebra.gc_of_blocks_2048 (m2 (arr9_T V c)) (row (arr9_d V c)) (m2 (arr9_adj V c)) (m2 (arr9_HW V c))
    (row (arr9_b V c)) r f (fun n => if h : n < cfg9.N then accAt9 V c n h (ix2 r f) else 0) (blk9 V c r f)
    (fun k hk => by unfold blk9; rw [dif_pos hk])
    (by
      show (if h : 0 < cfg9.N then accAt9 V c 0 h (ix2 r f) else 0) = _
      rw [dif_pos (by omega)]
      exact out9_A_apply V c ⟨0, by omega⟩ _ _ _ _ _ (iblk9_0_eq V c _) (iblk9_1_eq V c _)
        (fun r cc h => iblk9_2_apply V c _ r cc h) (iblk9_3_eq V c _) (iblk9_4_eq V c _) r f)
    (fun k hk => by
      show (if h : k + 1 < cfg9.N then accAt9 V c (k + 1) h (ix2 r f) else 0)
        = (if h : k < cfg9.N then accAt9 V c k h (ix2 r f) else 0) + _
      rw [dif_pos (by omega), dif_pos (by omega)]
      exact out9_B_apply V c ⟨k + 1, by omega⟩ _ _ _ _ (accAt9 V c k (by omega)) (iblk9_0_eq V c _) (iblk9_1_eq V c _)
        (fun r cc h => iblk9_2_apply V c _ r cc h) (iblk9_3_eq V c _) r f)
  rw [← key]
  show _ = (if h : 7 < cfg9.N then accAt9 V c 7 h (ix2 r f) else 0)
  rw [dif_pos hn]

/-! ## The output array after the region -/

/-- The output's block is written back once, after the last point, and it is the whole array: the array ends
    holding what the last point left in the buffer. -/
theorem arrAt9_last (c : Dev nD) (hn : 7 < cfg9.N) (r : Fin 2048) (f : Fin 64) :
    ((dat9 V c).arrAt 5 cfg9.N : Vec Ideal S2048x64 .f32) (ix2 r f) = outsAt9 V c 7 hn (ix2 r f) := by
  have hfl : (cfg9.win 5).flush ⟨7, hn⟩ = true := (flush9_5 ⟨7, hn⟩).mpr rfl
  have hs := (dat9 V c).arrAt_succ 5 ⟨7, hn⟩
  rw [if_pos hfl] at hs
  have hN : (dat9 V c).arrAt 5 cfg9.N = (dat9 V c).arrAt 5 ((⟨7, hn⟩ : Fin cfg9.N).val + 1) :=
    congrArg ((dat9 V c).arrAt 5) (show cfg9.N = 7 + 1 from N_9)
  have hi := idx9_5 ⟨7, hn⟩
  have hemb : ((cfg9.win 5).blk ⟨7, hn⟩).view.emb (ix2 r f) = (ix2 r f : S2048x64.Idx) := by
    funext a
    apply Fin.ext
    match a with
    | ⟨0, _⟩ => show win9_5.index ⟨7, hn⟩ 0 * 2048 + 1 * r.val = r.val; rw [hi.1]; omega
    | ⟨1, _⟩ => show win9_5.index ⟨7, hn⟩ 1 * 64 + 1 * f.val = f.val; rw [hi.2]; omega
  have key := View.write_emb_of_mem (v := ((cfg9.win 5).blk ⟨7, hn⟩).view) ((dat9 V c).arrAt 5 (⟨7, hn⟩ : Fin cfg9.N).val)
    ((dat9 V c).flushed 5 ⟨7, hn⟩) (Finset.mem_univ (ix2 r f))
  rw [hemb] at key
  rw [hN, hs]
  exact key

/-! ## The region's value -/

/-- THE VALUE: after the region the output array is `gc T d adj HW b`, element by element. -/
theorem val9 (c : Dev nD) (r : Fin 2048) (f : Fin 64) :
    ((dat9 V c).arrAt 5 cfg9.N : Vec Ideal S2048x64 .f32) (ix2 r f)
      = gc (m2 (arr9_T V c)) (row (arr9_d V c)) (m2 (arr9_adj V c)) (m2 (arr9_HW V c)) (row (arr9_b V c)) r f := by
  have hn : 7 < cfg9.N := lt_of_lt_of_eq (by decide) (show (8 : ℕ) = cfg9.N from N_9.symm)
  rw [arrAt9_last V c hn, outsAt9_eq_acc V c 7 hn, accAt9_last V c hn]

end Cert.KernelIdeal.HandVal

end
-- ==== Proof.KI.Chain2.lean ====
import proofs.«109581_g76012331204772_cont_9to1_m_125_6_alg».proof.Proof.KI.Chain
import proofs.«109581_g76012331204772_cont_9to1_m_125_6_alg».proof.Proof.KI.Val4
import proofs.«109581_g76012331204772_cont_9to1_m_125_6_alg».proof.Proof.KI.Val5
import proofs.«109581_g76012331204772_cont_9to1_m_125_6_alg».proof.Proof.KI.Val6
import proofs.«109581_g76012331204772_cont_9to1_m_125_6_alg».proof.Proof.KI.Val7
import proofs.«109581_g76012331204772_cont_9to1_m_125_6_alg».proof.Proof.KI.Val8
import proofs.«109581_g76012331204772_cont_9to1_m_125_6_alg».proof.Proof.KI.Val9
import Idealize.ShloMosaic.Lib.StableHlo.Run
import Idealize.ShloMosaic.Lib.Pipeline.Value
import Idealize.ShloMosaic.Lib.ValueIdx

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem S9_main_v6 (c : Dev nD) : Cert.Spec.m2 (W9 m ρ c (Proc.devRef .tc main_v6) : S2048x256.Idx → EReal) = Cert.Spec.X1F1 (argsK m c) := by
  rw [K9_main_v6 m ρ c]; exact S5_main_v6 m ρ c
theorem S9_main_arg17 (c : Dev nD) : Cert.Spec.m2 (W9 m ρ c (Proc.devRef .tc main_arg17) : S256x128.Idx → EReal) = (argsK m c).gc3_W := by
  rw [K9_main_arg17 m ρ c]; exact S0_main_arg17 m ρ c
theorem S9_main_arg18 (c : Dev nD) : Cert.Spec.row (W9 m ρ c (Proc.devRef .tc main_arg18) : S1x32.Idx → EReal) = (argsK m c).gc3_p := by
  rw [K9_main_arg18 m ρ c]; exact S0_main_arg18 m ρ c
theorem S10_main_v13_0 (c : Dev nD) : Cert.Spec.row (W10 m ρ c (Proc.devRef .tc main_v13_0) : S1x4096.Idx → EReal) = Cert.Spec.d3 (argsK m c) := by
  funext e
  show (W10 m ρ c (Proc.devRef .tc main_v13_0) : S1x4096.Idx → EReal) (ix2 0 e) = Cert.Spec.d3 (argsK m c) e
  calc (W10 m ρ c (Proc.devRef .tc main_v13_0) : S1x4096.Idx → EReal) (ix2 0 e)
      = ((dat4 (V9 m ρ) c).arrAt 4 cfg4.N : S1x4096.Idx → EReal) (ix2 0 e) := congrFun (W10_arr m ρ c 4) (ix2 0 e)
    _ = Cert.Spec.dvec (Cert.Spec.m2 (W9 m ρ c (Proc.devRef .tc main_v12) : S4096x32.Idx → EReal)) (Cert.Spec.row (W9 m ρ c (Proc.devRef .tc main_arg18) : S1x32.Idx → EReal)) e := val4_d (V9 m ρ) c e
    _ = Cert.Spec.dvec (Cert.Spec.Z2F2 (argsK m c)) ((argsK m c).gc3_p) e := by rw [S9_main_v12 m ρ c, S9_main_arg18 m ρ c]
    _ = Cert.Spec.d3 (argsK m c) e := rfl
theorem S10_main_v13_1 (c : Dev nD) : Cert.Spec.m2 (W10 m ρ c (Proc.devRef .tc main_v13_1) : S2048x128.Idx → EReal) = Cert.Spec.HW3 (argsK m c) := by
  funext n f
  show (W10 m ρ c (Proc.devRef .tc main_v13_1) : S2048x128.Idx → EReal) (ix2 n f) = Cert.Spec.HW3 (argsK m c) n f
  calc (W10 m ρ c (Proc.devRef .tc main_v13_1) : S2048x128.Idx → EReal) (ix2 n f)
      = ((dat4 (V9 m ρ) c).arrAt 5 cfg4.N : S2048x128.Idx → EReal) (ix2 n f) := congrFun (W10_arr m ρ c 5) (ix2 n f)
    _ = Cert.Spec.mm (Cert.Spec.m2 (W9 m ρ c (Proc.devRef .tc main_v6) : S2048x256.Idx → EReal)) (Cert.Spec.m2 (W9 m ρ c (Proc.devRef .tc main_arg17) : S256x128.Idx → EReal)) n f := val4_hw (V9 m ρ) c n f
    _ = Cert.Spec.mm (Cert.Spec.X1F1 (argsK m c)) ((argsK m c).gc3_W) n f := by rw [S9_main_v6 m ρ c, S9_main_arg17 m ρ c]
    _ = Cert.Spec.HW3 (argsK m c) n f := rfl

theorem S10_main_arg19 (c : Dev nD) : Cert.Spec.m1 (W10 m ρ c (Proc.devRef .tc main_arg19) : S128.Idx → EReal) = (argsK m c).gc3_b := by
  rw [K10_main_arg19 m ρ c]; exact S0_main_arg19 m ρ c
theorem S11_main_v14 (c : Dev nD) : Cert.Spec.row (W11 m ρ c (Proc.devRef .tc main_v14) : S1x128.Idx → EReal) = (argsK m c).gc3_b := by
  have e : W11 m ρ c (Proc.devRef .tc main_v14) = shapeCast S1x128 (W10 m ρ c (Proc.devRef .tc main_arg19)) shapeCasts_S128_S1x128 := by
    dsimp only [W11, hostOps5]; after_results <;> rfl
  rw [e]
  exact (glue_row128 _ _).trans (S10_main_arg19 m ρ c)

theorem S11_main_v13_0 (c : Dev nD) : Cert.Spec.row (W11 m ρ c (Proc.devRef .tc main_v13_0) : S1x4096.Idx → EReal) = Cert.Spec.d3 (argsK m c) := by
  rw [K11_main_v13_0 m ρ c]; exact S10_main_v13_0 m ρ c
theorem S11_main_arg4 (c : Dev nD) : Cert.Spec.m2 (W11 m ρ c (Proc.devRef .tc main_arg4) : S2048x4096.Idx → EReal) = (argsK m c).T := by
  rw [K11_main_arg4 m ρ c]; exact S0_main_arg4 m ρ c
theorem S11_main_arg3 (c : Dev nD) : Cert.Spec.m2 (W11 m ρ c (Proc.devRef .tc main_arg3) : S2048x2048.Idx → EReal) = (argsK m c).adj_v := by
  rw [K11_main_arg3 m ρ c]; exact S0_main_arg3 m ρ c
theorem S11_main_v13_1 (c : Dev nD) : Cert.Spec.m2 (W11 m ρ c (Proc.devRef .tc main_v13_1) : S2048x128.Idx → EReal) = Cert.Spec.HW3 (argsK m c) := by
  rw [K11_main_v13_1 m ρ c]; exact S10_main_v13_1 m ρ c
theorem S12_main_v15 (c : Dev nD) : Cert.Spec.m2 (W12 m ρ c (Proc.devRef .tc main_v15) : S2048x128.Idx → EReal) = Cert.Spec.X3 (argsK m c) := by
  funext n f
  show (W12 m ρ c (Proc.devRef .tc main_v15) : S2048x128.Idx → EReal) (ix2 n f) = Cert.Spec.X3 (argsK m c) n f
  calc (W12 m ρ c (Proc.devRef .tc main_v15) : S2048x128.Idx → EReal) (ix2 n f)
      = ((dat5 (V11 m ρ) c).arrAt 5 cfg5.N : S2048x128.Idx → EReal) (ix2 n f) := congrFun (W12_arr m ρ c 5) (ix2 n f)
    _ = Cert.Spec.reluM (Cert.Spec.gc (Cert.Spec.m2 (W11 m ρ c (Proc.devRef .tc main_arg4) : S2048x4096.Idx → EReal)) (Cert.Spec.row (W11 m ρ c (Proc.devRef .tc main_v13_0) : S1x4096.Idx → EReal)) (Cert.Spec.m2 (W11 m ρ c (Proc.devRef .tc main_arg3) : S2048x2048.Idx → EReal)) (Cert.Spec.m2 (W11 m ρ c (Proc.devRef .tc main_v13_1) : S2048x128.Idx → EReal)) (Cert.Spec.row (W11 m ρ c (Proc.devRef .tc main_v14) : S1x128.Idx → EReal))) n f := val5 (V11 m ρ) c n f
    _ = Cert.Spec.reluM (Cert.Spec.gc ((argsK m c).T) (Cert.Spec.d3 (argsK m c)) ((argsK m c).adj_v) (Cert.Spec.HW3 (argsK m c)) ((argsK m c).gc3_b)) n f := by rw [S11_main_arg4 m ρ c, S11_main_v13_0 m ρ c, S11_main_arg3 m ρ c, S11_main_v13_1 m ρ c, S11_main_v14 m ρ c]
    _ = Cert.Spec.X3 (argsK m c) n f := rfl

theorem S12_main_v12 (c : Dev nD) : Cert.Spec.m2 (W12 m ρ c (Proc.devRef .tc main_v12) : S4096x32.Idx → EReal) = Cert.Spec.Z2F2 (argsK m c) := by
  rw [K12_main_v12 m ρ c]; exact S9_main_v12 m ρ c
theorem S12_main_arg20 (c : Dev nD) : Cert.Spec.m2 (W12 m ρ c (Proc.devRef .tc main_arg20) : S32x16.Idx → EReal) = (argsK m c).gc4_W := by
  rw [K12_main_arg20 m ρ c]; exact S0_main_arg20 m ρ c
theorem S12_main_arg21 (c : Dev nD) : Cert.Spec.row (W12 m ρ c (Proc.devRef .tc main_arg21) : S1x128.Idx → EReal) = (argsK m c).gc4_p := by
  rw [K12_main_arg21 m ρ c]; exact S0_main_arg21 m ρ c
theorem S13_main_v16_0 (c : Dev nD) : Cert.Spec.row (W13 m ρ c (Proc.devRef .tc main_v16_0) : S1x2048.Idx → EReal) = Cert.Spec.d4 (argsK m c) := by
  funext e
  show (W13 m ρ c (Proc.devRef .tc main_v16_0) : S1x2048.Idx → EReal) (ix2 0 e) = Cert.Spec.d4 (argsK m c) e
  calc (W13 m ρ c (Proc.devRef .tc main_v16_0) : S1x2048.Idx → EReal) (ix2 0 e)
      = ((dat6 (V12 m ρ) c).arrAt 4 cfg6.N : S1x2048.Idx → EReal) (ix2 0 e) := congrFun (W13_arr m ρ c 4) (ix2 0 e)
    _ = Cert.Spec.dvec (Cert.Spec.m2 (W12 m ρ c (Proc.devRef .tc main_v15) : S2048x128.Idx → EReal)) (Cert.Spec.row (W12 m ρ c (Proc.devRef .tc main_arg21) : S1x128.Idx → EReal)) e := val6_d (V12 m ρ) c e
    _ = Cert.Spec.dvec (Cert.Spec.X3 (argsK m c)) ((argsK m c).gc4_p) e := by rw [S12_main_v15 m ρ c, S12_main_arg21 m ρ c]
    _ = Cert.Spec.d4 (argsK m c) e := rfl
theorem S13_main_v16_1 (c : Dev nD) : Cert.Spec.m2 (W13 m ρ c (Proc.devRef .tc main_v16_1) : S4096x16.Idx → EReal) = Cert.Spec.HW4 (argsK m c) := by
  funext n f
  show (W13 m ρ c (Proc.devRef .tc main_v16_1) : S4096x16.Idx → EReal) (ix2 n f) = Cert.Spec.HW4 (argsK m c) n f
  calc (W13 m ρ c (Proc.devRef .tc main_v16_1) : S4096x16.Idx → EReal) (ix2 n f)
      = ((dat6 (V12 m ρ) c).arrAt 5 cfg6.N : S4096x16.Idx → EReal) (ix2 n f) := congrFun (W13_arr m ρ c 5) (ix2 n f)
    _ = Cert.Spec.mm (Cert.Spec.m2 (W12 m ρ c (Proc.devRef .tc main_v12) : S4096x32.Idx → EReal)) (Cert.Spec.m2 (W12 m ρ c (Proc.devRef .tc main_arg20) : S32x16.Idx → EReal)) n f := val6_hw (V12 m ρ) c n f
    _ = Cert.Spec.mm (Cert.Spec.Z2F2 (argsK m c)) ((argsK m c).gc4_W) n f := by rw [S12_main_v12 m ρ c, S12_main_arg20 m ρ c]
    _ = Cert.Spec.HW4 (argsK m c) n f := rfl

theorem S13_main_arg22 (c : Dev nD) : Cert.Spec.m1 (W13 m ρ c (Proc.devRef .tc main_arg22) : S16.Idx → EReal) = (argsK m c).gc4_b := by
  rw [K13_main_arg22 m ρ c]; exact S0_main_arg22 m ρ c
theorem S14_main_v17 (c : Dev nD) : Cert.Spec.row (W14 m ρ c (Proc.devRef .tc main_v17) : S1x16.Idx → EReal) = (argsK m c).gc4_b := by
  have e : W14 m ρ c (Proc.devRef .tc main_v17) = shapeCast S1x16 (W13 m ρ c (Proc.devRef .tc main_arg22)) shapeCasts_S16_S1x16 := by
    dsimp only [W14, hostOps7]; after_results <;> rfl
  rw [e]
  exact (glue_row16 _ _).trans (S13_main_arg22 m ρ c)

theorem S14_main_v16_0 (c : Dev nD) : Cert.Spec.row (W14 m ρ c (Proc.devRef .tc main_v16_0) : S1x2048.Idx → EReal) = Cert.Spec.d4 (argsK m c) := by
  rw [K14_main_v16_0 m ρ c]; exact S13_main_v16_0 m ρ c
theorem S14_main_v0 (c : Dev nD) : Cert.Spec.m2 (W14 m ρ c (Proc.devRef .tc main_v0) : S4096x2048.Idx → EReal) = Cert.Spec.tr (argsK m c).T := by
  rw [K14_main_v0 m ρ c]; exact S1_main_v0 m ρ c
theorem S14_main_arg2 (c : Dev nD) : Cert.Spec.m2 (W14 m ρ c (Proc.devRef .tc main_arg2) : S4096x4096.Idx → EReal) = (argsK m c).adj_e := by
  rw [K14_main_arg2 m ρ c]; exact S0_main_arg2 m ρ c
theorem S14_main_v16_1 (c : Dev nD) : Cert.Spec.m2 (W14 m ρ c (Proc.devRef .tc main_v16_1) : S4096x16.Idx → EReal) = Cert.Spec.HW4 (argsK m c) := by
  rw [K14_main_v16_1 m ρ c]; exact S13_main_v16_1 m ρ c
theorem S15_main_v18 (c : Dev nD) : Cert.Spec.m2 (W15 m ρ c (Proc.devRef .tc main_v18) : S4096x16.Idx → EReal) = Cert.Spec.Z4 (argsK m c) := by
  funext n f
  show (W15 m ρ c (Proc.devRef .tc main_v18) : S4096x16.Idx → EReal) (ix2 n f) = Cert.Spec.Z4 (argsK m c) n f
  calc (W15 m ρ c (Proc.devRef .tc main_v18) : S4096x16.Idx → EReal) (ix2 n f)
      = ((dat7 (V14 m ρ) c).arrAt 5 cfg7.N : S4096x16.Idx → EReal) (ix2 n f) := congrFun (W15_arr m ρ c 5) (ix2 n f)
    _ = Cert.Spec.reluM (Cert.Spec.gc (Cert.Spec.m2 (W14 m ρ c (Proc.devRef .tc main_v0) : S4096x2048.Idx → EReal)) (Cert.Spec.row (W14 m ρ c (Proc.devRef .tc main_v16_0) : S1x2048.Idx → EReal)) (Cert.Spec.m2 (W14 m ρ c (Proc.devRef .tc main_arg2) : S4096x4096.Idx → EReal)) (Cert.Spec.m2 (W14 m ρ c (Proc.devRef .tc main_v16_1) : S4096x16.Idx → EReal)) (Cert.Spec.row (W14 m ρ c (Proc.devRef .tc main_v17) : S1x16.Idx → EReal))) n f := val7 (V14 m ρ) c n f
    _ = Cert.Spec.reluM (Cert.Spec.gc (Cert.Spec.tr (argsK m c).T) (Cert.Spec.d4 (argsK m c)) ((argsK m c).adj_e) (Cert.Spec.HW4 (argsK m c)) ((argsK m c).gc4_b)) n f := by rw [S14_main_v0 m ρ c, S14_main_v16_0 m ρ c, S14_main_arg2 m ρ c, S14_main_v16_1 m ρ c, S14_main_v17 m ρ c]
    _ = Cert.Spec.Z4 (argsK m c) n f := rfl

theorem S15_main_v15 (c : Dev nD) : Cert.Spec.m2 (W15 m ρ c (Proc.devRef .tc main_v15) : S2048x128.Idx → EReal) = Cert.Spec.X3 (argsK m c) := by
  rw [K15_main_v15 m ρ c]; exact S12_main_v15 m ρ c
theorem S15_main_arg23 (c : Dev nD) : Cert.Spec.m2 (W15 m ρ c (Proc.devRef .tc main_arg23) : S128x64.Idx → EReal) = (argsK m c).gc5_W := by
  rw [K15_main_arg23 m ρ c]; exact S0_main_arg23 m ρ c
theorem S15_main_arg24 (c : Dev nD) : Cert.Spec.row (W15 m ρ c (Proc.devRef .tc main_arg24) : S1x16.Idx → EReal) = (argsK m c).gc5_p := by
  rw [K15_main_arg24 m ρ c]; exact S0_main_arg24 m ρ c
theorem S16_main_v19_0 (c : Dev nD) : Cert.Spec.row (W16 m ρ c (Proc.devRef .tc main_v19_0) : S1x4096.Idx → EReal) = Cert.Spec.d5 (argsK m c) := by
  funext e
  show (W16 m ρ c (Proc.devRef .tc main_v19_0) : S1x4096.Idx → EReal) (ix2 0 e) = Cert.Spec.d5 (argsK m c) e
  calc (W16 m ρ c (Proc.devRef .tc main_v19_0) : S1x4096.Idx → EReal) (ix2 0 e)
      = ((dat8 (V15 m ρ) c).arrAt 4 cfg8.N : S1x4096.Idx → EReal) (ix2 0 e) := congrFun (W16_arr m ρ c 4) (ix2 0 e)
    _ = Cert.Spec.dvec (Cert.Spec.m2 (W15 m ρ c (Proc.devRef .tc main_v18) : S4096x16.Idx → EReal)) (Cert.Spec.row (W15 m ρ c (Proc.devRef .tc main_arg24) : S1x16.Idx → EReal)) e := val8_d (V15 m ρ) c e
    _ = Cert.Spec.dvec (Cert.Spec.Z4 (argsK m c)) ((argsK m c).gc5_p) e := by rw [S15_main_v18 m ρ c, S15_main_arg24 m ρ c]
    _ = Cert.Spec.d5 (argsK m c) e := rfl
theorem S16_main_v19_1 (c : Dev nD) : Cert.Spec.m2 (W16 m ρ c (Proc.devRef .tc main_v19_1) : S2048x64.Idx → EReal) = Cert.Spec.HW5 (argsK m c) := by
  funext n f
  show (W16 m ρ c (Proc.devRef .tc main_v19_1) : S2048x64.Idx → EReal) (ix2 n f) = Cert.Spec.HW5 (argsK m c) n f
  calc (W16 m ρ c (Proc.devRef .tc main_v19_1) : S2048x64.Idx → EReal) (ix2 n f)
      = ((dat8 (V15 m ρ) c).arrAt 5 cfg8.N : S2048x64.Idx → EReal) (ix2 n f) := congrFun (W16_arr m ρ c 5) (ix2 n f)
    _ = Cert.Spec.mm (Cert.Spec.m2 (W15 m ρ c (Proc.devRef .tc main_v15) : S2048x128.Idx → EReal)) (Cert.Spec.m2 (W15 m ρ c (Proc.devRef .tc main_arg23) : S128x64.Idx → EReal)) n f := val8_hw (V15 m ρ) c n f
    _ = Cert.Spec.mm (Cert.Spec.X3 (argsK m c)) ((argsK m c).gc5_W) n f := by rw [S15_main_v15 m ρ c, S15_main_arg23 m ρ c]
    _ = Cert.Spec.HW5 (argsK m c) n f := rfl

theorem S16_main_arg25 (c : Dev nD) : Cert.Spec.m1 (W16 m ρ c (Proc.devRef .tc main_arg25) : S64.Idx → EReal) = (argsK m c).gc5_b := by
  rw [K16_main_arg25 m ρ c]; exact S0_main_arg25 m ρ c
theorem S17_main_v20 (c : Dev nD) : Cert.Spec.row (W17 m ρ c (Proc.devRef .tc main_v20) : S1x64.Idx → EReal) = (argsK m c).gc5_b := by
  have e : W17 m ρ c (Proc.devRef .tc main_v20) = shapeCast S1x64 (W16 m ρ c (Proc.devRef .tc main_arg25)) shapeCasts_S64_S1x64 := by
    dsimp only [W17, hostOps9]; after_results <;> rfl
  rw [e]
  exact (glue_row64 _ _).trans (S16_main_arg25 m ρ c)

theorem S17_main_v19_0 (c : Dev nD) : Cert.Spec.row (W17 m ρ c (Proc.devRef .tc main_v19_0) : S1x4096.Idx → EReal) = Cert.Spec.d5 (argsK m c) := by
  rw [K17_main_v19_0 m ρ c]; exact S16_main_v19_0 m ρ c
theorem S17_main_arg4 (c : Dev nD) : Cert.Spec.m2 (W17 m ρ c (Proc.devRef .tc main_arg4) : S2048x4096.Idx → EReal) = (argsK m c).T := by
  rw [K17_main_arg4 m ρ c]; exact S0_main_arg4 m ρ c
theorem S17_main_arg3 (c : Dev nD) : Cert.Spec.m2 (W17 m ρ c (Proc.devRef .tc main_arg3) : S2048x2048.Idx → EReal) = (argsK m c).adj_v := by
  rw [K17_main_arg3 m ρ c]; exact S0_main_arg3 m ρ c
theorem S17_main_v19_1 (c : Dev nD) : Cert.Spec.m2 (W17 m ρ c (Proc.devRef .tc main_v19_1) : S2048x64.Idx → EReal) = Cert.Spec.HW5 (argsK m c) := by
  rw [K17_main_v19_1 m ρ c]; exact S16_main_v19_1 m ρ c
theorem S18_main_v21 (c : Dev nD) : Cert.Spec.m2 (W18 m ρ c (Proc.devRef .tc main_v21) : S2048x64.Idx → EReal) = Cert.Spec.X5 (argsK m c) := by
  funext n f
  show (W18 m ρ c (Proc.devRef .tc main_v21) : S2048x64.Idx → EReal) (ix2 n f) = Cert.Spec.X5 (argsK m c) n f
  calc (W18 m ρ c (Proc.devRef .tc main_v21) : S2048x64.Idx → EReal) (ix2 n f)
      = ((dat9 (V17 m ρ) c).arrAt 5 cfg9.N : S2048x64.Idx → EReal) (ix2 n f) := congrFun (W18_arr m ρ c 5) (ix2 n f)
    _ = Cert.Spec.gc (Cert.Spec.m2 (W17 m ρ c (Proc.devRef .tc main_arg4) : S2048x4096.Idx → EReal)) (Cert.Spec.row (W17 m ρ c (Proc.devRef .tc main_v19_0) : S1x4096.Idx → EReal)) (Cert.Spec.m2 (W17 m ρ c (Proc.devRef .tc main_arg3) : S2048x2048.Idx → EReal)) (Cert.Spec.m2 (W17 m ρ c (Proc.devRef .tc main_v19_1) : S2048x64.Idx → EReal)) (Cert.Spec.row (W17 m ρ c (Proc.devRef .tc main_v20) : S1x64.Idx → EReal)) n f := val9 (V17 m ρ) c n f
    _ = Cert.Spec.gc ((argsK m c).T) (Cert.Spec.d5 (argsK m c)) ((argsK m c).adj_v) (Cert.Spec.HW5 (argsK m c)) ((argsK m c).gc5_b) n f := by rw [S17_main_arg4 m ρ c, S17_main_v19_0 m ρ c, S17_main_arg3 m ρ c, S17_main_v19_1 m ρ c, S17_main_v20 m ρ c]
    _ = Cert.Spec.X5 (argsK m c) n f := rfl

theorem chain_result (c : Dev nD) (n : Fin 2048) (f : Fin 64) :
    (W18 m ρ c (Proc.devRef .tc main_v21) : S2048x64.Idx → EReal) (ix2 n f) = Cert.Spec.X5 (argsK m c) n f :=
  congrFun (congrFun (S18_main_v21 m ρ c) n) f

end Cert.KernelIdeal.HandVal

end
-- ==== Proof.RefGen.lean ====
import proofs.«109581_g76012331204772_cont_9to1_m_125_6_alg».proof.Proof.Gen.ReferenceIdeal.Run
import proofs.«109581_g76012331204772_cont_9to1_m_125_6_alg».proof.Proof.Gen.ReferenceIdeal.Read
-- ==== Proof.Ref.Base.lean ====
import proofs.«109581_g76012331204772_cont_9to1_m_125_6_alg».proof.ReferenceIdeal
import proofs.«109581_g76012331204772_cont_9to1_m_125_6_alg».proof.Proof.Spec
import Idealize.ShloMosaic.PureOps.Ideal.Laws
import Idealize.ShloMosaic.Lib.ValueIdx

noncomputable section

open scoped BigOperators

namespace Cert.ReferenceIdeal.RefValue

open Cert.ReferenceIdeal Idealize.ShloMosaic Idealize.ShloMosaic.ValueIdx

local notation "𝕍[" S "]" => BufTy.Contents (Elt Ideal) (BufTy.mk S EltTy.f32)

def argsOf (x0 : 𝕍[S2048x128]) (x1 : 𝕍[S4096x16]) (x2 : 𝕍[S4096x4096]) (x3 : 𝕍[S2048x2048]) (x4 : 𝕍[S2048x4096]) (x5 : 𝕍[S128x128]) (x6 : 𝕍[S1x16]) (x7 : 𝕍[S128]) (x8 : 𝕍[S128x128]) (x9 : 𝕍[S128]) (x10 : 𝕍[S128]) (x11 : 𝕍[S16x16]) (x12 : 𝕍[S1x256]) (x13 : 𝕍[S16]) (x14 : 𝕍[S16x16]) (x15 : 𝕍[S16]) (x16 : 𝕍[S16]) (x17 : 𝕍[S256x128]) (x18 : 𝕍[S1x32]) (x19 : 𝕍[S128]) (x20 : 𝕍[S32x16]) (x21 : 𝕍[S1x128]) (x22 : 𝕍[S16]) (x23 : 𝕍[S128x64]) (x24 : 𝕍[S1x16]) (x25 : 𝕍[S64]) : Cert.Spec.Args where
  X := Cert.Spec.m2 x0
  Z := Cert.Spec.m2 x1
  adj_e := Cert.Spec.m2 x2
  adj_v := Cert.Spec.m2 x3
  T := Cert.Spec.m2 x4
  gc1_W := Cert.Spec.m2 x5
  gc1_p := Cert.Spec.row x6
  gc1_b := Cert.Spec.m1 x7
  fc1_W := Cert.Spec.m2 x8
  fc1_g := Cert.Spec.m1 x9
  fc1_be := Cert.Spec.m1 x10
  gc2_W := Cert.Spec.m2 x11
  gc2_p := Cert.Spec.row x12
  gc2_b := Cert.Spec.m1 x13
  fc2_W := Cert.Spec.m2 x14
  fc2_g := Cert.Spec.m1 x15
  fc2_be := Cert.Spec.m1 x16
  gc3_W := Cert.Spec.m2 x17
  gc3_p := Cert.Spec.row x18
  gc3_b := Cert.Spec.m1 x19
  gc4_W := Cert.Spec.m2 x20
  gc4_p := Cert.Spec.row x21
  gc4_b := Cert.Spec.m1 x22
  gc5_W := Cert.Spec.m2 x23
  gc5_p := Cert.Spec.row x24
  gc5_b := Cert.Spec.m1 x25

theorem one_bits : Ideal.ofBits .f32 0x3F800000#32 = 1 := by
  simp [Ideal.ofBits, Ideal.ieee, -EReal.coe_mul]; norm_num

theorem mask_val {n : ℕ} (hn : n ≤ 4096) (r c : Fin n) :
    FloatOps.uitofp (F := Ideal) .f32 (IntOp.cmpi .eq (IntOp.addi (BitVec.ofNat 32 r.val) 0#32) (BitVec.ofNat 32 c.val))
      = if r = c then (1 : EReal) else 0 := by
  have hr : r.val < 2 ^ 32 := by have := r.isLt; omega
  have hc : c.val < 2 ^ 32 := by have := c.isLt; omega
  show (((BitVec.ofBool (BitVec.ofNat 32 r.val + 0#32 == BitVec.ofNat 32 c.val)).toNat : ℝ) : EReal) = _
  rw [BitVec.add_zero]
  by_cases h : r = c
  · subst h; simp
  · have hne : (BitVec.ofNat 32 r.val == BitVec.ofNat 32 c.val) = false := by
      rw [beq_eq_false_iff_ne]
      intro he
      have := congrArg BitVec.toNat he
      rw [BitVec.toNat_ofNat, BitVec.toNat_ofNat, Nat.mod_eq_of_lt hr, Nat.mod_eq_of_lt hc] at this
      exact h (Fin.ext this)
    rw [hne, if_neg h]; simp

theorem mask_coef {R : ℕ} (r c : Fin R) (x a : EReal) :
    ((if r = c then (1 : EReal) else 0) + (1 - (if r = c then (1 : EReal) else 0)) * x) * a
      = if r = c then a else x * a := by
  have h11 : (1 : EReal) - 1 = 0 := by
    rw [← EReal.coe_one, ← EReal.coe_sub, sub_self, EReal.coe_zero]
  split_ifs
  · rw [h11, zero_mul, add_zero, one_mul]
  · rw [sub_zero, one_mul, zero_add]

end Cert.ReferenceIdeal.RefValue

end
-- ==== Proof.Ref.L1.lean ====
import proofs.«109581_g76012331204772_cont_9to1_m_125_6_alg».proof.Proof.RefGen
import proofs.«109581_g76012331204772_cont_9to1_m_125_6_alg».proof.Proof.Ref.Base

noncomputable section

open scoped BigOperators

namespace Cert.ReferenceIdeal.RefValue

open Cert.ReferenceIdeal Idealize.ShloMosaic Idealize.ShloMosaic.ValueIdx

local notation "𝕍[" S "]" => BufTy.Contents (Elt Ideal) (BufTy.mk S EltTy.f32)

variable (x0 : 𝕍[S2048x128]) (x1 : 𝕍[S4096x16]) (x2 : 𝕍[S4096x4096]) (x3 : 𝕍[S2048x2048]) (x4 : 𝕍[S2048x4096]) (x5 : 𝕍[S128x128]) (x6 : 𝕍[S1x16]) (x7 : 𝕍[S128]) (x8 : 𝕍[S128x128]) (x9 : 𝕍[S128]) (x10 : 𝕍[S128]) (x11 : 𝕍[S16x16]) (x12 : 𝕍[S1x256]) (x13 : 𝕍[S16]) (x14 : 𝕍[S16x16]) (x15 : 𝕍[S16]) (x16 : 𝕍[S16]) (x17 : 𝕍[S256x128]) (x18 : 𝕍[S1x32]) (x19 : 𝕍[S128]) (x20 : 𝕍[S32x16]) (x21 : 𝕍[S1x128]) (x22 : 𝕍[S16]) (x23 : 𝕍[S128x64]) (x24 : 𝕍[S1x16]) (x25 : 𝕍[S64])

local notation "𝔸" => argsOf x0 x1 x2 x3 x4 x5 x6 x7 x8 x9 x10 x11 x12 x13 x14 x15 x16 x17 x18 x19 x20 x21 x22 x23 x24 x25

open Cert.Spec in

theorem d1_stage (j : Fin 4096) :
    Read.val_main_v2 (F := Ideal) x1 x6 (ix1 j) = dvec (m2 x1) (row x6) j := by
  have e1 : ∀ k : Fin 16, Read.lidx_main_v1 (Read.idx_main_v2 (ix1 j)) k = ix2 j k := fun k =>
    funext fun a => Fin.ext (by match a with | ⟨0, _⟩ => exact Nat.div_one _ | ⟨1, _⟩ => rfl)
  have e2 : ∀ k : Fin 16, Read.idx_main_v0 (Read.ridx_main_v1 (Read.idx_main_v2 (ix1 j)) k) = ix2 0 k := fun k =>
    funext fun a => Fin.ext (by match a with | ⟨0, _⟩ => rfl | ⟨1, _⟩ => rfl)
  rw [Read.val_main_v2_apply, Read.val_main_v1_apply]
  simp only [Read.val_main_v0_apply, e1, e2]
  rfl

open Cert.Spec in

theorem mult1_stage (r c : Fin 2048) :
    Read.val_main_v7 (F := Ideal) x1 x4 x6 (ix2 r c) = mult (m2 x4) (dvec (m2 x1) (row x6)) r c := by
  have el : ∀ k : Fin 4096, Read.lidx_main_v7 (ix2 r c) k = ix2 r k := fun k =>
    funext fun a => Fin.ext (by match a with | ⟨0, _⟩ => rfl | ⟨1, _⟩ => rfl)
  have er : ∀ k : Fin 4096, Read.idx_main_v6 (Read.ridx_main_v7 (ix2 r c) k) = ix2 c k := fun k =>
    funext fun a => Fin.ext (by match a with | ⟨0, _⟩ => rfl | ⟨1, _⟩ => rfl)
  have ed : ∀ k : Fin 4096, Read.idx_main_v3 (Read.idx_main_v4 (ix2 r k)) = ix1 k := fun k =>
    funext fun a => Fin.ext (by match a with | ⟨0, _⟩ => rfl)
  rw [Read.val_main_v7_apply]
  simp only [el, Read.val_main_v5_apply, Read.val_main_v4_apply, Read.val_main_v3_apply, Read.val_main_v6_apply, er, ed,
    d1_stage, Ideal.mulf_def]
  rfl

theorem mask1_stage (r c : Fin 2048) :
    Read.val_main_v13 (F := Ideal) (ix2 r c) = if r = c then (1 : EReal) else 0 := by
  rw [Read.val_main_v13_apply, Read.val_main_v12_apply, Read.val_main_v11_apply, Read.val_main_v10_apply,
    Read.val_main_c_apply, Read.val_main_v9_apply, Read.val_main_v8_apply]
  exact mask_val (by norm_num) r c

theorem one1_stage (i : S2048x2048.Idx) : Read.val_main_v14 (F := Ideal) i = 1 := by
  rw [Read.val_main_v14_apply, Read.val_main_cst_apply, Ideal.ofBits_def, one_bits]

open Cert.Spec in

theorem coef1_stage (r c : Fin 2048) :
    Read.val_main_v18 (F := Ideal) x1 x3 x4 x6 (ix2 r c) = coef (m2 x4) (dvec (m2 x1) (row x6)) (m2 x3) r c := by
  rw [Read.val_main_v18_apply, Read.val_main_v17_apply, Read.val_main_v16_apply, Read.val_main_v15_apply,
    mask1_stage, one1_stage, mult1_stage]
  simp only [Ideal.mulf_def, Ideal.addf_def, Ideal.subf_def]
  rw [mask_coef]
  rfl

open Cert.Spec in

theorem HW1_stage (r : Fin 2048) (f : Fin 128) :
    Read.val_main_v19 (F := Ideal) x0 x5 (ix2 r f) = mm (m2 x0) (m2 x5) r f := by
  have el : ∀ k : Fin 128, Read.lidx_main_v19 (ix2 r f) k = ix2 r k := fun k =>
    funext fun a => Fin.ext (by match a with | ⟨0, _⟩ => rfl | ⟨1, _⟩ => rfl)
  have er : ∀ k : Fin 128, Read.ridx_main_v19 (ix2 r f) k = ix2 k f := fun k =>
    funext fun a => Fin.ext (by match a with | ⟨0, _⟩ => rfl | ⟨1, _⟩ => rfl)
  rw [Read.val_main_v19_apply]
  simp only [el, er]
  rfl

open Cert.Spec in

theorem gc1_stage (r : Fin 2048) (f : Fin 128) :
    Read.val_main_v23 (F := Ideal) x0 x1 x3 x4 x5 x6 x7 (ix2 r f)
      = gc (m2 x4) (dvec (m2 x1) (row x6)) (m2 x3) (mm (m2 x0) (m2 x5)) (m1 x7) r f := by
  have el : ∀ k : Fin 2048, Read.lidx_main_v20 (ix2 r f) k = ix2 r k := fun k =>
    funext fun a => Fin.ext (by match a with | ⟨0, _⟩ => rfl | ⟨1, _⟩ => rfl)
  have er : ∀ k : Fin 2048, Read.ridx_main_v20 (ix2 r f) k = ix2 k f := fun k =>
    funext fun a => Fin.ext (by match a with | ⟨0, _⟩ => rfl | ⟨1, _⟩ => rfl)
  have eb : Read.idx_main_v21 (Read.idx_main_v22 (ix2 r f)) = ix1 f :=
    funext fun a => Fin.ext (by match a with | ⟨0, _⟩ => rfl)
  rw [Read.val_main_v23_apply, Read.val_main_v20_apply, Read.val_main_v22_apply, Read.val_main_v21_apply]
  simp only [el, er, eb, coef1_stage, HW1_stage, Ideal.addf_def]
  rfl

theorem X1_eq (n : Fin 2048) (f : Fin 128) :
    Read.val_main_v24 (F := Ideal) x0 x1 x3 x4 x5 x6 x7 (ix2 n f) = Cert.Spec.X1 𝔸 n f := by
  rw [Read.val_main_v24_apply, Read.val_main_call0_v0_apply, Read.val_main_call0_cst_apply, gc1_stage,
    Ideal.maximumf_def, Ideal.ofBits_def, Ideal.ofBits_zero_f32]
  rfl

end Cert.ReferenceIdeal.RefValue

end
-- ==== Proof.Ref.F1.lean ====
import proofs.«109581_g76012331204772_cont_9to1_m_125_6_alg».proof.Proof.Ref.Base
import proofs.«109581_g76012331204772_cont_9to1_m_125_6_alg».proof.Proof.Gen.ReferenceIdeal.Read

noncomputable section

open scoped BigOperators

namespace Cert.ReferenceIdeal.RefValue

open Cert.ReferenceIdeal Cert.ReferenceIdeal.Read Idealize.ShloMosaic Idealize.ShloMosaic.ValueIdx

local notation "𝕍[" S "]" => BufTy.Contents (Elt Ideal) (BufTy.mk S EltTy.f32)

namespace F1Idx

section idxF1
variable (n : Fin 2048) (f k : Fin 128) (z : Fin 1)

theorem lidx26 : lidx_main_v26 (ix2 n f) k = ix2 n k :=
  funext fun a => Fin.ext (by match a with | ⟨0, _⟩ => rfl | ⟨1, _⟩ => rfl)
theorem ridx26 : ridx_main_v26 (ix2 n f) k = ix2 k f :=
  funext fun a => Fin.ext (by match a with | ⟨0, _⟩ => rfl | ⟨1, _⟩ => rfl)
theorem idx27 : idx_main_v27 (ix1 n) k = ix2 n k :=
  funext fun a => Fin.ext (by match a with | ⟨0, _⟩ => rfl | ⟨1, _⟩ => rfl)
theorem idx28 : idx_main_v28 (ix2 n z) = ix1 n :=
  funext fun a => Fin.ext (by match a with | ⟨0, _⟩ => rfl)
theorem idx31 : idx_main_v31 (ix2 n f) = ix2 n 0 :=
  funext fun a => Fin.ext (by match a with | ⟨0, _⟩ => rfl | ⟨1, _⟩ => rfl)
theorem idx34 : idx_main_v34 (ix1 n) k = ix2 n k :=
  funext fun a => Fin.ext (by match a with | ⟨0, _⟩ => rfl | ⟨1, _⟩ => rfl)
theorem idx35 : idx_main_v35 (ix2 n z) = ix1 n :=
  funext fun a => Fin.ext (by match a with | ⟨0, _⟩ => rfl)
theorem idx38 : idx_main_v38 (ix2 n f) = ix2 n 0 :=
  funext fun a => Fin.ext (by match a with | ⟨0, _⟩ => rfl | ⟨1, _⟩ => rfl)
theorem idx43 : idx_main_v43 (ix2 n f) = ix2 n 0 :=
  funext fun a => Fin.ext (by match a with | ⟨0, _⟩ => rfl | ⟨1, _⟩ => rfl)
theorem idx45 : idx_main_v45 (ix2 z f) = ix1 f :=
  funext fun a => Fin.ext (by match a with | ⟨0, _⟩ => rfl)
theorem idx46 : idx_main_v46 (ix2 n f) = ix2 0 f :=
  funext fun a => Fin.ext (by match a with | ⟨0, _⟩ => rfl | ⟨1, _⟩ => rfl)
theorem idx48 : idx_main_v48 (ix2 z f) = ix1 f :=
  funext fun a => Fin.ext (by match a with | ⟨0, _⟩ => rfl)
theorem idx49 : idx_main_v49 (ix2 n f) = ix2 0 f :=
  funext fun a => Fin.ext (by match a with | ⟨0, _⟩ => rfl | ⟨1, _⟩ => rfl)

end idxF1

end F1Idx

open F1Idx in

theorem F1_core (x0 : (⟨S2048x128, .f32⟩ : BufTy).Contents (Elt Ideal)) (x8 : (⟨S128x128, .f32⟩ : BufTy).Contents (Elt Ideal))
    (x9 x10 : (⟨S128, .f32⟩ : BufTy).Contents (Elt Ideal)) (n : Fin 2048) (f : Fin 128) :
    val_main_v51 (F := Ideal) x0 x8 x9 x10 (ix2 n f)
      = Cert.Spec.reluM (Cert.Spec.layernorm Cert.Spec.len128 (Cert.Spec.mm (Cert.Spec.m2 x0) (Cert.Spec.m2 x8))
          (Cert.Spec.m1 x9) (Cert.Spec.m1 x10)) n f := by
  simp only [val_main_v51_apply, val_main_v50_apply, val_main_v47_apply, val_main_v44_apply, val_main_v39_apply,
    val_main_v38_apply, val_main_v43_apply, val_main_v42_apply, val_main_v41_apply, val_main_v37_apply,
    val_main_v35_apply, val_main_v34_apply, val_main_v33_apply, val_main_v32_apply, val_main_v31_apply,
    val_main_v30_apply, val_main_v28_apply, val_main_v27_apply, val_main_v26_apply, val_main_v29_apply,
    val_main_v36_apply, val_main_v40_apply, val_main_v46_apply, val_main_v45_apply, val_main_v49_apply,
    val_main_v48_apply, val_main_call2_v0_apply, val_main_call2_cst_apply, val_main_cst_0_apply,
    val_main_cst_1_apply, val_main_cst_2_apply, val_main_cst_3_apply, val_main_cst_4_apply,
    lidx26, ridx26, idx27, idx28, idx31, idx34, idx35, idx38, idx43, idx45, idx46, idx48, idx49,
    Ideal.maximumf_def, Ideal.addf_def, Ideal.subf_def, Ideal.mulf_def, Ideal.hostDivf_def,
    Ideal.hostUnary_sqrt_def, Ideal.ofBits_def, Ideal.ofBits_zero_f32, zero_add,
    Cert.Spec.reluM, Cert.Spec.relu, Cert.Spec.layernorm, Cert.Spec.centred, Cert.Spec.mean, Cert.Spec.var,
    Cert.Spec.mm, Cert.Spec.m2, Cert.Spec.m1, Cert.Spec.len128, Cert.Spec.eps]

theorem F1_eq (x0 : 𝕍[S2048x128]) (x1 : 𝕍[S4096x16]) (x2 : 𝕍[S4096x4096]) (x3 : 𝕍[S2048x2048]) (x4 : 𝕍[S2048x4096]) (x5 : 𝕍[S128x128]) (x6 : 𝕍[S1x16]) (x7 : 𝕍[S128]) (x8 : 𝕍[S128x128]) (x9 : 𝕍[S128]) (x10 : 𝕍[S128]) (x11 : 𝕍[S16x16]) (x12 : 𝕍[S1x256]) (x13 : 𝕍[S16]) (x14 : 𝕍[S16x16]) (x15 : 𝕍[S16]) (x16 : 𝕍[S16]) (x17 : 𝕍[S256x128]) (x18 : 𝕍[S1x32]) (x19 : 𝕍[S128]) (x20 : 𝕍[S32x16]) (x21 : 𝕍[S1x128]) (x22 : 𝕍[S16]) (x23 : 𝕍[S128x64]) (x24 : 𝕍[S1x16]) (x25 : 𝕍[S64]) (n : Fin 2048) (f : Fin 128) :
    val_main_v51 (F := Ideal) x0 x8 x9 x10 (ix2 n f) = Cert.Spec.F1 (argsOf x0 x1 x2 x3 x4 x5 x6 x7 x8 x9 x10 x11 x12 x13 x14 x15 x16 x17 x18 x19 x20 x21 x22 x23 x24 x25) n f :=
  F1_core x0 x8 x9 x10 n f

end Cert.ReferenceIdeal.RefValue

end
-- ==== Proof.Ref.L2.lean ====
import proofs.«109581_g76012331204772_cont_9to1_m_125_6_alg».proof.Proof.RefGen
import proofs.«109581_g76012331204772_cont_9to1_m_125_6_alg».proof.Proof.Algebra
import proofs.«109581_g76012331204772_cont_9to1_m_125_6_alg».proof.Proof.Ref.L1
import proofs.«109581_g76012331204772_cont_9to1_m_125_6_alg».proof.Proof.Ref.F1

noncomputable section

open scoped BigOperators

namespace Cert.ReferenceIdeal.RefValue

open Cert.ReferenceIdeal Idealize.ShloMosaic Idealize.ShloMosaic.ValueIdx

local notation "𝕍[" S "]" => BufTy.Contents (Elt Ideal) (BufTy.mk S EltTy.f32)

variable (x0 : 𝕍[S2048x128]) (x1 : 𝕍[S4096x16]) (x2 : 𝕍[S4096x4096]) (x3 : 𝕍[S2048x2048]) (x4 : 𝕍[S2048x4096]) (x5 : 𝕍[S128x128]) (x6 : 𝕍[S1x16]) (x7 : 𝕍[S128]) (x8 : 𝕍[S128x128]) (x9 : 𝕍[S128]) (x10 : 𝕍[S128]) (x11 : 𝕍[S16x16]) (x12 : 𝕍[S1x256]) (x13 : 𝕍[S16]) (x14 : 𝕍[S16x16]) (x15 : 𝕍[S16]) (x16 : 𝕍[S16]) (x17 : 𝕍[S256x128]) (x18 : 𝕍[S1x32]) (x19 : 𝕍[S128]) (x20 : 𝕍[S32x16]) (x21 : 𝕍[S1x128]) (x22 : 𝕍[S16]) (x23 : 𝕍[S128x64]) (x24 : 𝕍[S1x16]) (x25 : 𝕍[S64])

local notation "𝔸" => argsOf x0 x1 x2 x3 x4 x5 x6 x7 x8 x9 x10 x11 x12 x13 x14 x15 x16 x17 x18 x19 x20 x21 x22 x23 x24 x25

theorem X1F1_eq (n : Fin 2048) (f : Fin 256) :
    Read.val_main_v52 (F := Ideal) x0 x1 x3 x4 x5 x6 x7 x8 x9 x10 (ix2 n f) = Cert.Spec.X1F1 𝔸 n f := by
  unfold Read.val_main_v52
  by_cases h : f.val < 128
  · rw [concatenate_pair_apply_left (t := S2048x256) (s₁ := S2048x128) (s₂ := S2048x128) 1 _ _ _ (ix2 n f) rfl
        (ix2 n (⟨f.val, h⟩ : Fin 128)) (fun b => by match b with | ⟨0, _⟩ => rfl | ⟨1, _⟩ => rfl), X1_eq x0 x1 x2 x3 x4 x5 x6 x7 x8 x9 x10 x11 x12 x13 x14 x15 x16 x17 x18 x19 x20 x21 x22 x23 x24 x25]
    unfold Cert.Spec.X1F1 Cert.Spec.hcat
    rw [dif_pos h]
  · have h2 : f.val - 128 < 128 := by have := f.isLt; omega
    rw [concatenate_pair_apply_right (t := S2048x256) (s₁ := S2048x128) (s₂ := S2048x128) 1 _ _ _ (ix2 n f) rfl rfl
        (ix2 n (⟨f.val - 128, h2⟩ : Fin 128))
        (fun b hb => by match b with | ⟨0, _⟩ => rfl | ⟨1, _⟩ => exact absurd (Fin.ext rfl) hb)
        (by show f.val - 128 + 128 = f.val; omega), F1_eq x0 x1 x2 x3 x4 x5 x6 x7 x8 x9 x10 x11 x12 x13 x14 x15 x16 x17 x18 x19 x20 x21 x22 x23 x24 x25]
    unfold Cert.Spec.X1F1 Cert.Spec.hcat
    rw [dif_neg h]

theorem X1F1relu_eq (n : Fin 2048) (f : Fin 256) :
    Read.val_main_v77 (F := Ideal) x0 x1 x3 x4 x5 x6 x7 x8 x9 x10 (ix2 n f) = Cert.Spec.X1F1 𝔸 n f := by
  rw [Read.val_main_v77_apply, Read.val_main_call3_v0_apply, Read.val_main_call3_cst_apply, X1F1_eq x0 x1 x2 x3 x4 x5 x6 x7 x8 x9 x10 x11 x12 x13 x14 x15 x16 x17 x18 x19 x20 x21 x22 x23 x24 x25,
    Ideal.maximumf_def, Ideal.ofBits_def, Ideal.ofBits_zero_f32]
  exact congrFun (congrFun (Cert.Algebra.reluM_hcat_reluM _ _ _) n) f

open Cert.Spec in

theorem reluZ_stage (e : Fin 4096) (k : Fin 16) :
    Read.val_main_v25 (F := Ideal) x1 (ix2 e k) = reluM (m2 x1) e k := by
  rw [Read.val_main_v25_apply, Read.val_main_call1_v0_apply, Read.val_main_call1_cst_apply,
    Ideal.maximumf_def, Ideal.ofBits_def, Ideal.ofBits_zero_f32]
  rfl

open Cert.Spec in

theorem d2_stage (j : Fin 2048) :
    Read.val_main_v55 (F := Ideal) x0 x1 x3 x4 x5 x6 x7 x8 x9 x10 x12 (ix1 j) = dvec (Cert.Spec.X1F1 𝔸) (row x12) j := by
  have e1 : ∀ k : Fin 256, Read.lidx_main_v54 (Read.idx_main_v55 (ix1 j)) k = ix2 j k := fun k =>
    funext fun a => Fin.ext (by match a with | ⟨0, _⟩ => exact Nat.div_one _ | ⟨1, _⟩ => rfl)
  have e2 : ∀ k : Fin 256, Read.idx_main_v53 (Read.ridx_main_v54 (Read.idx_main_v55 (ix1 j)) k) = ix2 0 k := fun k =>
    funext fun a => Fin.ext (by match a with | ⟨0, _⟩ => rfl | ⟨1, _⟩ => rfl)
  rw [Read.val_main_v55_apply, Read.val_main_v54_apply]
  simp only [Read.val_main_v53_apply, e1, e2, X1F1_eq x0 x1 x2 x3 x4 x5 x6 x7 x8 x9 x10 x11 x12 x13 x14 x15 x16 x17 x18 x19 x20 x21 x22 x23 x24 x25]
  rfl

open Cert.Spec in

theorem mult2_stage (r c : Fin 4096) :
    Read.val_main_v60 (F := Ideal) x0 x1 x3 x4 x5 x6 x7 x8 x9 x10 x12 (ix2 r c) = mult (tr (m2 x4)) (dvec (Cert.Spec.X1F1 𝔸) (row x12)) r c := by
  have el : ∀ k : Fin 2048, Read.lidx_main_v60 (ix2 r c) k = ix2 r k := fun k =>
    funext fun a => Fin.ext (by match a with | ⟨0, _⟩ => rfl | ⟨1, _⟩ => rfl)
  have et : ∀ k : Fin 2048, Read.idx_main_v56 (ix2 r k) = ix2 k r := fun k =>
    funext fun a => Fin.ext (by match a with | ⟨0, _⟩ => rfl | ⟨1, _⟩ => rfl)
  have ed : ∀ k : Fin 2048, Read.idx_main_v57 (Read.idx_main_v58 (ix2 r k)) = ix1 k := fun k =>
    funext fun a => Fin.ext (by match a with | ⟨0, _⟩ => rfl)
  have er : ∀ k : Fin 2048, Read.ridx_main_v60 (ix2 r c) k = ix2 k c := fun k =>
    funext fun a => Fin.ext (by match a with | ⟨0, _⟩ => rfl | ⟨1, _⟩ => rfl)
  rw [Read.val_main_v60_apply]
  simp only [el, Read.val_main_v59_apply, Read.val_main_v56_apply, Read.val_main_v58_apply, Read.val_main_v57_apply, et, ed, er,
    d2_stage x0 x1 x2 x3 x4 x5 x6 x7 x8 x9 x10 x11 x12 x13 x14 x15 x16 x17 x18 x19 x20 x21 x22 x23 x24 x25, Ideal.mulf_def]
  rfl

theorem mask2_stage (r c : Fin 4096) :
    Read.val_main_v66 (F := Ideal) (ix2 r c) = if r = c then (1 : EReal) else 0 := by
  rw [Read.val_main_v66_apply, Read.val_main_v65_apply, Read.val_main_v64_apply, Read.val_main_v63_apply,
    Read.val_main_c_5_apply, Read.val_main_v62_apply, Read.val_main_v61_apply]
  exact mask_val (by norm_num) r c

theorem one2_stage (i : S4096x4096.Idx) : Read.val_main_v67 (F := Ideal) i = 1 := by
  rw [Read.val_main_v67_apply, Read.val_main_cst_6_apply, Ideal.ofBits_def, one_bits]

open Cert.Spec in

theorem coef2_stage (r c : Fin 4096) :
    Read.val_main_v71 (F := Ideal) x0 x1 x2 x3 x4 x5 x6 x7 x8 x9 x10 x12 (ix2 r c) = coef (tr (m2 x4)) (dvec (Cert.Spec.X1F1 𝔸) (row x12)) (m2 x2) r c := by
  rw [Read.val_main_v71_apply, Read.val_main_v70_apply, Read.val_main_v69_apply, Read.val_main_v68_apply,
    mask2_stage, one2_stage, mult2_stage x0 x1 x2 x3 x4 x5 x6 x7 x8 x9 x10 x11 x12 x13 x14 x15 x16 x17 x18 x19 x20 x21 x22 x23 x24 x25]
  simp only [Ideal.mulf_def, Ideal.addf_def, Ideal.subf_def]
  rw [mask_coef]
  rfl

open Cert.Spec in

theorem HW2_stage (r : Fin 4096) (f : Fin 16) :
    Read.val_main_v72 (F := Ideal) x1 x11 (ix2 r f) = mm (reluM (m2 x1)) (m2 x11) r f := by
  have el : ∀ k : Fin 16, Read.lidx_main_v72 (ix2 r f) k = ix2 r k := fun k =>
    funext fun a => Fin.ext (by match a with | ⟨0, _⟩ => rfl | ⟨1, _⟩ => rfl)
  have er : ∀ k : Fin 16, Read.ridx_main_v72 (ix2 r f) k = ix2 k f := fun k =>
    funext fun a => Fin.ext (by match a with | ⟨0, _⟩ => rfl | ⟨1, _⟩ => rfl)
  rw [Read.val_main_v72_apply]
  simp only [el, er, reluZ_stage]
  rfl

open Cert.Spec in

theorem gc2_stage (r : Fin 4096) (f : Fin 16) :
    Read.val_main_v76 (F := Ideal) x0 x1 x2 x3 x4 x5 x6 x7 x8 x9 x10 x11 x12 x13 (ix2 r f)
      = gc (tr (m2 x4)) (dvec (Cert.Spec.X1F1 𝔸) (row x12)) (m2 x2) (mm (reluM (m2 x1)) (m2 x11)) (m1 x13) r f := by
  have el : ∀ k : Fin 4096, Read.lidx_main_v73 (ix2 r f) k = ix2 r k := fun k =>
    funext fun a => Fin.ext (by match a with | ⟨0, _⟩ => rfl | ⟨1, _⟩ => rfl)
  have er : ∀ k : Fin 4096, Read.ridx_main_v73 (ix2 r f) k = ix2 k f := fun k =>
    funext fun a => Fin.ext (by match a with | ⟨0, _⟩ => rfl | ⟨1, _⟩ => rfl)
  have eb : Read.idx_main_v74 (Read.idx_main_v75 (ix2 r f)) = ix1 f :=
    funext fun a => Fin.ext (by match a with | ⟨0, _⟩ => rfl)
  rw [Read.val_main_v76_apply, Read.val_main_v73_apply, Read.val_main_v75_apply, Read.val_main_v74_apply]
  simp only [el, er, eb, coef2_stage x0 x1 x2 x3 x4 x5 x6 x7 x8 x9 x10 x11 x12 x13 x14 x15 x16 x17 x18 x19 x20 x21 x22 x23 x24 x25, HW2_stage x1 x11, Ideal.addf_def]
  rfl

theorem Z2_eq (n : Fin 4096) (f : Fin 16) :
    Read.val_main_v78 (F := Ideal) x0 x1 x2 x3 x4 x5 x6 x7 x8 x9 x10 x11 x12 x13 (ix2 n f) = Cert.Spec.Z2 𝔸 n f := by
  rw [Read.val_main_v78_apply, Read.val_main_call4_v0_apply, Read.val_main_call4_cst_apply, gc2_stage x0 x1 x2 x3 x4 x5 x6 x7 x8 x9 x10 x11 x12 x13 x14 x15 x16 x17 x18 x19 x20 x21 x22 x23 x24 x25,
    Ideal.maximumf_def, Ideal.ofBits_def, Ideal.ofBits_zero_f32]
  rfl

end Cert.ReferenceIdeal.RefValue

end
-- ==== Proof.Ref.F2.lean ====
import proofs.«109581_g76012331204772_cont_9to1_m_125_6_alg».proof.Proof.Ref.Base
import proofs.«109581_g76012331204772_cont_9to1_m_125_6_alg».proof.Proof.Gen.ReferenceIdeal.Read

noncomputable section

open scoped BigOperators

namespace Cert.ReferenceIdeal.RefValue

open Cert.ReferenceIdeal Cert.ReferenceIdeal.Read Idealize.ShloMosaic Idealize.ShloMosaic.ValueIdx

local notation "𝕍[" S "]" => BufTy.Contents (Elt Ideal) (BufTy.mk S EltTy.f32)

namespace F2Idx

section idxF2
variable (e : Fin 4096) (f k : Fin 16) (z : Fin 1)

theorem lidx79 : lidx_main_v79 (ix2 e f) k = ix2 e k :=
  funext fun a => Fin.ext (by match a with | ⟨0, _⟩ => rfl | ⟨1, _⟩ => rfl)
theorem ridx79 : ridx_main_v79 (ix2 e f) k = ix2 k f :=
  funext fun a => Fin.ext (by match a with | ⟨0, _⟩ => rfl | ⟨1, _⟩ => rfl)
theorem idx80 : idx_main_v80 (ix1 e) k = ix2 e k :=
  funext fun a => Fin.ext (by match a with | ⟨0, _⟩ => rfl | ⟨1, _⟩ => rfl)
theorem idx81 : idx_main_v81 (ix2 e z) = ix1 e :=
  funext fun a => Fin.ext (by match a with | ⟨0, _⟩ => rfl)
theorem idx84 : idx_main_v84 (ix2 e f) = ix2 e 0 :=
  funext fun a => Fin.ext (by match a with | ⟨0, _⟩ => rfl | ⟨1, _⟩ => rfl)
theorem idx87 : idx_main_v87 (ix1 e) k = ix2 e k :=
  funext fun a => Fin.ext (by match a with | ⟨0, _⟩ => rfl | ⟨1, _⟩ => rfl)
theorem idx88 : idx_main_v88 (ix2 e z) = ix1 e :=
  funext fun a => Fin.ext (by match a with | ⟨0, _⟩ => rfl)
theorem idx91 : idx_main_v91 (ix2 e f) = ix2 e 0 :=
  funext fun a => Fin.ext (by match a with | ⟨0, _⟩ => rfl | ⟨1, _⟩ => rfl)
theorem idx96 : idx_main_v96 (ix2 e f) = ix2 e 0 :=
  funext fun a => Fin.ext (by match a with | ⟨0, _⟩ => rfl | ⟨1, _⟩ => rfl)
theorem idx98 : idx_main_v98 (ix2 z f) = ix1 f :=
  funext fun a => Fin.ext (by match a with | ⟨0, _⟩ => rfl)
theorem idx99 : idx_main_v99 (ix2 e f) = ix2 0 f :=
  funext fun a => Fin.ext (by match a with | ⟨0, _⟩ => rfl | ⟨1, _⟩ => rfl)
theorem idx101 : idx_main_v101 (ix2 z f) = ix1 f :=
  funext fun a => Fin.ext (by match a with | ⟨0, _⟩ => rfl)
theorem idx102 : idx_main_v102 (ix2 e f) = ix2 0 f :=
  funext fun a => Fin.ext (by match a with | ⟨0, _⟩ => rfl | ⟨1, _⟩ => rfl)

end idxF2

end F2Idx

open F2Idx in

theorem F2_core (x1 : (⟨S4096x16, .f32⟩ : BufTy).Contents (Elt Ideal)) (x14 : (⟨S16x16, .f32⟩ : BufTy).Contents (Elt Ideal))
    (x15 x16 : (⟨S16, .f32⟩ : BufTy).Contents (Elt Ideal)) (e : Fin 4096) (f : Fin 16) :
    val_main_v104 (F := Ideal) x1 x14 x15 x16 (ix2 e f)
      = Cert.Spec.reluM (Cert.Spec.layernorm Cert.Spec.len16 (Cert.Spec.mm (Cert.Spec.m2 x1) (Cert.Spec.m2 x14))
          (Cert.Spec.m1 x15) (Cert.Spec.m1 x16)) e f := by
  simp only [val_main_v104_apply, val_main_v103_apply, val_main_v100_apply, val_main_v97_apply, val_main_v92_apply,
    val_main_v91_apply, val_main_v96_apply, val_main_v95_apply, val_main_v94_apply, val_main_v90_apply,
    val_main_v88_apply, val_main_v87_apply, val_main_v86_apply, val_main_v85_apply, val_main_v84_apply,
    val_main_v83_apply, val_main_v81_apply, val_main_v80_apply, val_main_v79_apply, val_main_v82_apply,
    val_main_v89_apply, val_main_v93_apply, val_main_v99_apply, val_main_v98_apply, val_main_v102_apply,
    val_main_v101_apply, val_main_call5_v0_apply, val_main_call5_cst_apply, val_main_cst_7_apply,
    val_main_cst_8_apply, val_main_cst_9_apply, val_main_cst_10_apply, val_main_cst_11_apply,
    lidx79, ridx79, idx80, idx81, idx84, idx87, idx88, idx91, idx96, idx98, idx99, idx101, idx102,
    Ideal.maximumf_def, Ideal.addf_def, Ideal.subf_def, Ideal.mulf_def, Ideal.hostDivf_def,
    Ideal.hostUnary_sqrt_def, Ideal.ofBits_def, Ideal.ofBits_zero_f32, zero_add,
    Cert.Spec.reluM, Cert.Spec.relu, Cert.Spec.layernorm, Cert.Spec.centred, Cert.Spec.mean, Cert.Spec.var,
    Cert.Spec.mm, Cert.Spec.m2, Cert.Spec.m1, Cert.Spec.len16, Cert.Spec.eps]

theorem F2_eq (x0 : 𝕍[S2048x128]) (x1 : 𝕍[S4096x16]) (x2 : 𝕍[S4096x4096]) (x3 : 𝕍[S2048x2048]) (x4 : 𝕍[S2048x4096]) (x5 : 𝕍[S128x128]) (x6 : 𝕍[S1x16]) (x7 : 𝕍[S128]) (x8 : 𝕍[S128x128]) (x9 : 𝕍[S128]) (x10 : 𝕍[S128]) (x11 : 𝕍[S16x16]) (x12 : 𝕍[S1x256]) (x13 : 𝕍[S16]) (x14 : 𝕍[S16x16]) (x15 : 𝕍[S16]) (x16 : 𝕍[S16]) (x17 : 𝕍[S256x128]) (x18 : 𝕍[S1x32]) (x19 : 𝕍[S128]) (x20 : 𝕍[S32x16]) (x21 : 𝕍[S1x128]) (x22 : 𝕍[S16]) (x23 : 𝕍[S128x64]) (x24 : 𝕍[S1x16]) (x25 : 𝕍[S64]) (e : Fin 4096) (f : Fin 16) :
    val_main_v104 (F := Ideal) x1 x14 x15 x16 (ix2 e f) = Cert.Spec.F2 (argsOf x0 x1 x2 x3 x4 x5 x6 x7 x8 x9 x10 x11 x12 x13 x14 x15 x16 x17 x18 x19 x20 x21 x22 x23 x24 x25) e f :=
  F2_core x1 x14 x15 x16 e f

end Cert.ReferenceIdeal.RefValue

end
-- ==== Proof.Ref.L3.lean ====
import proofs.«109581_g76012331204772_cont_9to1_m_125_6_alg».proof.Proof.RefGen
import proofs.«109581_g76012331204772_cont_9to1_m_125_6_alg».proof.Proof.Algebra
import proofs.«109581_g76012331204772_cont_9to1_m_125_6_alg».proof.Proof.Ref.L2
import proofs.«109581_g76012331204772_cont_9to1_m_125_6_alg».proof.Proof.Ref.F2

noncomputable section

open scoped BigOperators

namespace Cert.ReferenceIdeal.RefValue

open Cert.ReferenceIdeal Idealize.ShloMosaic Idealize.ShloMosaic.ValueIdx

local notation "𝕍[" S "]" => BufTy.Contents (Elt Ideal) (BufTy.mk S EltTy.f32)

variable (x0 : 𝕍[S2048x128]) (x1 : 𝕍[S4096x16]) (x2 : 𝕍[S4096x4096]) (x3 : 𝕍[S2048x2048]) (x4 : 𝕍[S2048x4096]) (x5 : 𝕍[S128x128]) (x6 : 𝕍[S1x16]) (x7 : 𝕍[S128]) (x8 : 𝕍[S128x128]) (x9 : 𝕍[S128]) (x10 : 𝕍[S128]) (x11 : 𝕍[S16x16]) (x12 : 𝕍[S1x256]) (x13 : 𝕍[S16]) (x14 : 𝕍[S16x16]) (x15 : 𝕍[S16]) (x16 : 𝕍[S16]) (x17 : 𝕍[S256x128]) (x18 : 𝕍[S1x32]) (x19 : 𝕍[S128]) (x20 : 𝕍[S32x16]) (x21 : 𝕍[S1x128]) (x22 : 𝕍[S16]) (x23 : 𝕍[S128x64]) (x24 : 𝕍[S1x16]) (x25 : 𝕍[S64])

local notation "𝔸" => argsOf x0 x1 x2 x3 x4 x5 x6 x7 x8 x9 x10 x11 x12 x13 x14 x15 x16 x17 x18 x19 x20 x21 x22 x23 x24 x25

theorem Z2F2_eq (n : Fin 4096) (f : Fin 32) :
    Read.val_main_v105 (F := Ideal) x0 x1 x2 x3 x4 x5 x6 x7 x8 x9 x10 x11 x12 x13 x14 x15 x16 (ix2 n f) = Cert.Spec.Z2F2 𝔸 n f := by
  unfold Read.val_main_v105
  by_cases h : f.val < 16
  · rw [concatenate_pair_apply_left (t := S4096x32) (s₁ := S4096x16) (s₂ := S4096x16) 1 _ _ _ (ix2 n f) rfl
        (ix2 n (⟨f.val, h⟩ : Fin 16)) (fun b => by match b with | ⟨0, _⟩ => rfl | ⟨1, _⟩ => rfl), Z2_eq x0 x1 x2 x3 x4 x5 x6 x7 x8 x9 x10 x11 x12 x13 x14 x15 x16 x17 x18 x19 x20 x21 x22 x23 x24 x25]
    unfold Cert.Spec.Z2F2 Cert.Spec.hcat
    rw [dif_pos h]
  · have h2 : f.val - 16 < 16 := by have := f.isLt; omega
    rw [concatenate_pair_apply_right (t := S4096x32) (s₁ := S4096x16) (s₂ := S4096x16) 1 _ _ _ (ix2 n f) rfl rfl
        (ix2 n (⟨f.val - 16, h2⟩ : Fin 16))
        (fun b hb => by match b with | ⟨0, _⟩ => rfl | ⟨1, _⟩ => exact absurd (Fin.ext rfl) hb)
        (by show f.val - 16 + 16 = f.val; omega), F2_eq x0 x1 x2 x3 x4 x5 x6 x7 x8 x9 x10 x11 x12 x13 x14 x15 x16 x17 x18 x19 x20 x21 x22 x23 x24 x25]
    unfold Cert.Spec.Z2F2 Cert.Spec.hcat
    rw [dif_neg h]

theorem Z2F2relu_eq (n : Fin 4096) (f : Fin 32) :
    Read.val_main_v131 (F := Ideal) x0 x1 x2 x3 x4 x5 x6 x7 x8 x9 x10 x11 x12 x13 x14 x15 x16 (ix2 n f) = Cert.Spec.Z2F2 𝔸 n f := by
  rw [Read.val_main_v131_apply, Read.val_main_call7_v0_apply, Read.val_main_call7_cst_apply, Z2F2_eq x0 x1 x2 x3 x4 x5 x6 x7 x8 x9 x10 x11 x12 x13 x14 x15 x16 x17 x18 x19 x20 x21 x22 x23 x24 x25,
    Ideal.maximumf_def, Ideal.ofBits_def, Ideal.ofBits_zero_f32]
  exact congrFun (congrFun (Cert.Algebra.reluM_hcat_reluM _ _ _) n) f

open Cert.Spec in

theorem d3_stage (j : Fin 4096) :
    Read.val_main_v108 (F := Ideal) x0 x1 x2 x3 x4 x5 x6 x7 x8 x9 x10 x11 x12 x13 x14 x15 x16 x18 (ix1 j) = dvec (Cert.Spec.Z2F2 𝔸) (row x18) j := by
  have e1 : ∀ k : Fin 32, Read.lidx_main_v107 (Read.idx_main_v108 (ix1 j)) k = ix2 j k := fun k =>
    funext fun a => Fin.ext (by match a with | ⟨0, _⟩ => exact Nat.div_one _ | ⟨1, _⟩ => rfl)
  have e2 : ∀ k : Fin 32, Read.idx_main_v106 (Read.ridx_main_v107 (Read.idx_main_v108 (ix1 j)) k) = ix2 0 k := fun k =>
    funext fun a => Fin.ext (by match a with | ⟨0, _⟩ => rfl | ⟨1, _⟩ => rfl)
  rw [Read.val_main_v108_apply, Read.val_main_v107_apply]
  simp only [Read.val_main_v106_apply, e1, e2, Z2F2_eq x0 x1 x2 x3 x4 x5 x6 x7 x8 x9 x10 x11 x12 x13 x14 x15 x16 x17 x18 x19 x20 x21 x22 x23 x24 x25]
  rfl

open Cert.Spec in

theorem mult3_stage (r c : Fin 2048) :
    Read.val_main_v113 (F := Ideal) x0 x1 x2 x3 x4 x5 x6 x7 x8 x9 x10 x11 x12 x13 x14 x15 x16 x18 (ix2 r c) = mult (m2 x4) (dvec (Cert.Spec.Z2F2 𝔸) (row x18)) r c := by
  have el : ∀ k : Fin 4096, Read.lidx_main_v113 (ix2 r c) k = ix2 r k := fun k =>
    funext fun a => Fin.ext (by match a with | ⟨0, _⟩ => rfl | ⟨1, _⟩ => rfl)
  have er : ∀ k : Fin 4096, Read.idx_main_v112 (Read.ridx_main_v113 (ix2 r c) k) = ix2 c k := fun k =>
    funext fun a => Fin.ext (by match a with | ⟨0, _⟩ => rfl | ⟨1, _⟩ => rfl)
  have ed : ∀ k : Fin 4096, Read.idx_main_v109 (Read.idx_main_v110 (ix2 r k)) = ix1 k := fun k =>
    funext fun a => Fin.ext (by match a with | ⟨0, _⟩ => rfl)
  rw [Read.val_main_v113_apply]
  simp only [el, Read.val_main_v111_apply, Read.val_main_v110_apply, Read.val_main_v109_apply, Read.val_main_v112_apply, er, ed,
    d3_stage x0 x1 x2 x3 x4 x5 x6 x7 x8 x9 x10 x11 x12 x13 x14 x15 x16 x17 x18 x19 x20 x21 x22 x23 x24 x25, Ideal.mulf_def]
  rfl

theorem mask3_stage (r c : Fin 2048) :
    Read.val_main_v119 (F := Ideal) (ix2 r c) = if r = c then (1 : EReal) else 0 := by
  rw [Read.val_main_v119_apply, Read.val_main_v118_apply, Read.val_main_v117_apply, Read.val_main_v116_apply,
    Read.val_main_c_12_apply, Read.val_main_v115_apply, Read.val_main_v114_apply]
  exact mask_val (by norm_num) r c

theorem one3_stage (i : S2048x2048.Idx) : Read.val_main_v120 (F := Ideal) i = 1 := by
  rw [Read.val_main_v120_apply, Read.val_main_cst_13_apply, Ideal.ofBits_def, one_bits]

open Cert.Spec in

theorem coef3_stage (r c : Fin 2048) :
    Read.val_main_v124 (F := Ideal) x0 x1 x2 x3 x4 x5 x6 x7 x8 x9 x10 x11 x12 x13 x14 x15 x16 x18 (ix2 r c) = coef (m2 x4) (dvec (Cert.Spec.Z2F2 𝔸) (row x18)) (m2 x3) r c := by
  rw [Read.val_main_v124_apply, Read.val_main_v123_apply, Read.val_main_v122_apply, Read.val_main_v121_apply,
    mask3_stage, one3_stage, mult3_stage x0 x1 x2 x3 x4 x5 x6 x7 x8 x9 x10 x11 x12 x13 x14 x15 x16 x17 x18 x19 x20 x21 x22 x23 x24 x25]
  simp only [Ideal.mulf_def, Ideal.addf_def, Ideal.subf_def]
  rw [mask_coef]
  rfl

open Cert.Spec in

theorem HW3_stage (r : Fin 2048) (f : Fin 128) :
    Read.val_main_v125 (F := Ideal) x0 x1 x3 x4 x5 x6 x7 x8 x9 x10 x17 (ix2 r f) = mm (Cert.Spec.X1F1 𝔸) (m2 x17) r f := by
  have el : ∀ k : Fin 256, Read.lidx_main_v125 (ix2 r f) k = ix2 r k := fun k =>
    funext fun a => Fin.ext (by match a with | ⟨0, _⟩ => rfl | ⟨1, _⟩ => rfl)
  have er : ∀ k : Fin 256, Read.ridx_main_v125 (ix2 r f) k = ix2 k f := fun k =>
    funext fun a => Fin.ext (by match a with | ⟨0, _⟩ => rfl | ⟨1, _⟩ => rfl)
  rw [Read.val_main_v125_apply]
  simp only [el, er, X1F1relu_eq x0 x1 x2 x3 x4 x5 x6 x7 x8 x9 x10 x11 x12 x13 x14 x15 x16 x17 x18 x19 x20 x21 x22 x23 x24 x25]
  rfl

open Cert.Spec in

theorem gc3_stage (r : Fin 2048) (f : Fin 128) :
    Read.val_main_v129 (F := Ideal) x0 x1 x2 x3 x4 x5 x6 x7 x8 x9 x10 x11 x12 x13 x14 x15 x16 x17 x18 x19 (ix2 r f)
      = gc (m2 x4) (dvec (Cert.Spec.Z2F2 𝔸) (row x18)) (m2 x3) (mm (Cert.Spec.X1F1 𝔸) (m2 x17)) (m1 x19) r f := by
  have el : ∀ k : Fin 2048, Read.lidx_main_v126 (ix2 r f) k = ix2 r k := fun k =>
    funext fun a => Fin.ext (by match a with | ⟨0, _⟩ => rfl | ⟨1, _⟩ => rfl)
  have er : ∀ k : Fin 2048, Read.ridx_main_v126 (ix2 r f) k = ix2 k f := fun k =>
    funext fun a => Fin.ext (by match a with | ⟨0, _⟩ => rfl | ⟨1, _⟩ => rfl)
  have eb : Read.idx_main_v127 (Read.idx_main_v128 (ix2 r f)) = ix1 f :=
    funext fun a => Fin.ext (by match a with | ⟨0, _⟩ => rfl)
  rw [Read.val_main_v129_apply, Read.val_main_v126_apply, Read.val_main_v128_apply, Read.val_main_v127_apply]
  simp only [el, er, eb, coef3_stage x0 x1 x2 x3 x4 x5 x6 x7 x8 x9 x10 x11 x12 x13 x14 x15 x16 x17 x18 x19 x20 x21 x22 x23 x24 x25, HW3_stage x0 x1 x2 x3 x4 x5 x6 x7 x8 x9 x10 x11 x12 x13 x14 x15 x16 x17 x18 x19 x20 x21 x22 x23 x24 x25, Ideal.addf_def]
  rfl

theorem X3_eq (n : Fin 2048) (f : Fin 128) :
    Read.val_main_v130 (F := Ideal) x0 x1 x2 x3 x4 x5 x6 x7 x8 x9 x10 x11 x12 x13 x14 x15 x16 x17 x18 x19 (ix2 n f) = Cert.Spec.X3 𝔸 n f := by
  rw [Read.val_main_v130_apply, Read.val_main_call6_v0_apply, Read.val_main_call6_cst_apply, gc3_stage x0 x1 x2 x3 x4 x5 x6 x7 x8 x9 x10 x11 x12 x13 x14 x15 x16 x17 x18 x19 x20 x21 x22 x23 x24 x25,
    Ideal.maximumf_def, Ideal.ofBits_def, Ideal.ofBits_zero_f32]
  rfl

end Cert.ReferenceIdeal.RefValue

end
-- ==== Proof.Ref.L4.lean ====
import proofs.«109581_g76012331204772_cont_9to1_m_125_6_alg».proof.Proof.RefGen
import proofs.«109581_g76012331204772_cont_9to1_m_125_6_alg».proof.Proof.Algebra
import proofs.«109581_g76012331204772_cont_9to1_m_125_6_alg».proof.Proof.Ref.L3

noncomputable section

open scoped BigOperators

namespace Cert.ReferenceIdeal.RefValue

open Cert.ReferenceIdeal Idealize.ShloMosaic Idealize.ShloMosaic.ValueIdx

local notation "𝕍[" S "]" => BufTy.Contents (Elt Ideal) (BufTy.mk S EltTy.f32)

variable (x0 : 𝕍[S2048x128]) (x1 : 𝕍[S4096x16]) (x2 : 𝕍[S4096x4096]) (x3 : 𝕍[S2048x2048]) (x4 : 𝕍[S2048x4096]) (x5 : 𝕍[S128x128]) (x6 : 𝕍[S1x16]) (x7 : 𝕍[S128]) (x8 : 𝕍[S128x128]) (x9 : 𝕍[S128]) (x10 : 𝕍[S128]) (x11 : 𝕍[S16x16]) (x12 : 𝕍[S1x256]) (x13 : 𝕍[S16]) (x14 : 𝕍[S16x16]) (x15 : 𝕍[S16]) (x16 : 𝕍[S16]) (x17 : 𝕍[S256x128]) (x18 : 𝕍[S1x32]) (x19 : 𝕍[S128]) (x20 : 𝕍[S32x16]) (x21 : 𝕍[S1x128]) (x22 : 𝕍[S16]) (x23 : 𝕍[S128x64]) (x24 : 𝕍[S1x16]) (x25 : 𝕍[S64])

local notation "𝔸" => argsOf x0 x1 x2 x3 x4 x5 x6 x7 x8 x9 x10 x11 x12 x13 x14 x15 x16 x17 x18 x19 x20 x21 x22 x23 x24 x25

theorem X3relu_eq (n : Fin 2048) (f : Fin 128) :
    Read.val_main_v156 (F := Ideal) x0 x1 x2 x3 x4 x5 x6 x7 x8 x9 x10 x11 x12 x13 x14 x15 x16 x17 x18 x19 (ix2 n f) = Cert.Spec.X3 𝔸 n f := by
  rw [Read.val_main_v156_apply, Read.val_main_call8_v0_apply, Read.val_main_call8_cst_apply, X3_eq x0 x1 x2 x3 x4 x5 x6 x7 x8 x9 x10 x11 x12 x13 x14 x15 x16 x17 x18 x19 x20 x21 x22 x23 x24 x25,
    Ideal.maximumf_def, Ideal.ofBits_def, Ideal.ofBits_zero_f32]
  exact Cert.Algebra.relu_relu _

open Cert.Spec in

theorem d4_stage (j : Fin 2048) :
    Read.val_main_v134 (F := Ideal) x0 x1 x2 x3 x4 x5 x6 x7 x8 x9 x10 x11 x12 x13 x14 x15 x16 x17 x18 x19 x21 (ix1 j) = dvec (Cert.Spec.X3 𝔸) (row x21) j := by
  have e1 : ∀ k : Fin 128, Read.lidx_main_v133 (Read.idx_main_v134 (ix1 j)) k = ix2 j k := fun k =>
    funext fun a => Fin.ext (by match a with | ⟨0, _⟩ => exact Nat.div_one _ | ⟨1, _⟩ => rfl)
  have e2 : ∀ k : Fin 128, Read.idx_main_v132 (Read.ridx_main_v133 (Read.idx_main_v134 (ix1 j)) k) = ix2 0 k := fun k =>
    funext fun a => Fin.ext (by match a with | ⟨0, _⟩ => rfl | ⟨1, _⟩ => rfl)
  rw [Read.val_main_v134_apply, Read.val_main_v133_apply]
  simp only [Read.val_main_v132_apply, e1, e2, X3_eq x0 x1 x2 x3 x4 x5 x6 x7 x8 x9 x10 x11 x12 x13 x14 x15 x16 x17 x18 x19 x20 x21 x22 x23 x24 x25]
  rfl

open Cert.Spec in

theorem mult4_stage (r c : Fin 4096) :
    Read.val_main_v139 (F := Ideal) x0 x1 x2 x3 x4 x5 x6 x7 x8 x9 x10 x11 x12 x13 x14 x15 x16 x17 x18 x19 x21 (ix2 r c) = mult (tr (m2 x4)) (dvec (Cert.Spec.X3 𝔸) (row x21)) r c := by
  have el : ∀ k : Fin 2048, Read.lidx_main_v139 (ix2 r c) k = ix2 r k := fun k =>
    funext fun a => Fin.ext (by match a with | ⟨0, _⟩ => rfl | ⟨1, _⟩ => rfl)
  have et : ∀ k : Fin 2048, Read.idx_main_v135 (ix2 r k) = ix2 k r := fun k =>
    funext fun a => Fin.ext (by match a with | ⟨0, _⟩ => rfl | ⟨1, _⟩ => rfl)
  have ed : ∀ k : Fin 2048, Read.idx_main_v136 (Read.idx_main_v137 (ix2 r k)) = ix1 k := fun k =>
    funext fun a => Fin.ext (by match a with | ⟨0, _⟩ => rfl)
  have er : ∀ k : Fin 2048, Read.ridx_main_v139 (ix2 r c) k = ix2 k c := fun k =>
    funext fun a => Fin.ext (by match a with | ⟨0, _⟩ => rfl | ⟨1, _⟩ => rfl)
  rw [Read.val_main_v139_apply]
  simp only [el, Read.val_main_v138_apply, Read.val_main_v135_apply, Read.val_main_v137_apply, Read.val_main_v136_apply, et, ed, er,
    d4_stage x0 x1 x2 x3 x4 x5 x6 x7 x8 x9 x10 x11 x12 x13 x14 x15 x16 x17 x18 x19 x20 x21 x22 x23 x24 x25, Ideal.mulf_def]
  rfl

theorem mask4_stage (r c : Fin 4096) :
    Read.val_main_v145 (F := Ideal) (ix2 r c) = if r = c then (1 : EReal) else 0 := by
  rw [Read.val_main_v145_apply, Read.val_main_v144_apply, Read.val_main_v143_apply, Read.val_main_v142_apply,
    Read.val_main_c_14_apply, Read.val_main_v141_apply, Read.val_main_v140_apply]
  exact mask_val (by norm_num) r c

theorem one4_stage (i : S4096x4096.Idx) : Read.val_main_v146 (F := Ideal) i = 1 := by
  rw [Read.val_main_v146_apply, Read.val_main_cst_15_apply, Ideal.ofBits_def, one_bits]

open Cert.Spec in

theorem coef4_stage (r c : Fin 4096) :
    Read.val_main_v150 (F := Ideal) x0 x1 x2 x3 x4 x5 x6 x7 x8 x9 x10 x11 x12 x13 x14 x15 x16 x17 x18 x19 x21 (ix2 r c) = coef (tr (m2 x4)) (dvec (Cert.Spec.X3 𝔸) (row x21)) (m2 x2) r c := by
  rw [Read.val_main_v150_apply, Read.val_main_v149_apply, Read.val_main_v148_apply, Read.val_main_v147_apply,
    mask4_stage, one4_stage, mult4_stage x0 x1 x2 x3 x4 x5 x6 x7 x8 x9 x10 x11 x12 x13 x14 x15 x16 x17 x18 x19 x20 x21 x22 x23 x24 x25]
  simp only [Ideal.mulf_def, Ideal.addf_def, Ideal.subf_def]
  rw [mask_coef]
  rfl

open Cert.Spec in

theorem HW4_stage (r : Fin 4096) (f : Fin 16) :
    Read.val_main_v151 (F := Ideal) x0 x1 x2 x3 x4 x5 x6 x7 x8 x9 x10 x11 x12 x13 x14 x15 x16 x20 (ix2 r f) = mm (Cert.Spec.Z2F2 𝔸) (m2 x20) r f := by
  have el : ∀ k : Fin 32, Read.lidx_main_v151 (ix2 r f) k = ix2 r k := fun k =>
    funext fun a => Fin.ext (by match a with | ⟨0, _⟩ => rfl | ⟨1, _⟩ => rfl)
  have er : ∀ k : Fin 32, Read.ridx_main_v151 (ix2 r f) k = ix2 k f := fun k =>
    funext fun a => Fin.ext (by match a with | ⟨0, _⟩ => rfl | ⟨1, _⟩ => rfl)
  rw [Read.val_main_v151_apply]
  simp only [el, er, Z2F2relu_eq x0 x1 x2 x3 x4 x5 x6 x7 x8 x9 x10 x11 x12 x13 x14 x15 x16 x17 x18 x19 x20 x21 x22 x23 x24 x25]
  rfl

open Cert.Spec in

theorem gc4_stage (r : Fin 4096) (f : Fin 16) :
    Read.val_main_v155 (F := Ideal) x0 x1 x2 x3 x4 x5 x6 x7 x8 x9 x10 x11 x12 x13 x14 x15 x16 x17 x18 x19 x20 x21 x22 (ix2 r f)
      = gc (tr (m2 x4)) (dvec (Cert.Spec.X3 𝔸) (row x21)) (m2 x2) (mm (Cert.Spec.Z2F2 𝔸) (m2 x20)) (m1 x22) r f := by
  have el : ∀ k : Fin 4096, Read.lidx_main_v152 (ix2 r f) k = ix2 r k := fun k =>
    funext fun a => Fin.ext (by match a with | ⟨0, _⟩ => rfl | ⟨1, _⟩ => rfl)
  have er : ∀ k : Fin 4096, Read.ridx_main_v152 (ix2 r f) k = ix2 k f := fun k =>
    funext fun a => Fin.ext (by match a with | ⟨0, _⟩ => rfl | ⟨1, _⟩ => rfl)
  have eb : Read.idx_main_v153 (Read.idx_main_v154 (ix2 r f)) = ix1 f :=
    funext fun a => Fin.ext (by match a with | ⟨0, _⟩ => rfl)
  rw [Read.val_main_v155_apply, Read.val_main_v152_apply, Read.val_main_v154_apply, Read.val_main_v153_apply]
  simp only [el, er, eb, coef4_stage x0 x1 x2 x3 x4 x5 x6 x7 x8 x9 x10 x11 x12 x13 x14 x15 x16 x17 x18 x19 x20 x21 x22 x23 x24 x25, HW4_stage x0 x1 x2 x3 x4 x5 x6 x7 x8 x9 x10 x11 x12 x13 x14 x15 x16 x17 x18 x19 x20 x21 x22 x23 x24 x25, Ideal.addf_def]
  rfl

theorem Z4_eq (n : Fin 4096) (f : Fin 16) :
    Read.val_main_v157 (F := Ideal) x0 x1 x2 x3 x4 x5 x6 x7 x8 x9 x10 x11 x12 x13 x14 x15 x16 x17 x18 x19 x20 x21 x22 (ix2 n f) = Cert.Spec.Z4 𝔸 n f := by
  rw [Read.val_main_v157_apply, Read.val_main_call9_v0_apply, Read.val_main_call9_cst_apply, gc4_stage x0 x1 x2 x3 x4 x5 x6 x7 x8 x9 x10 x11 x12 x13 x14 x15 x16 x17 x18 x19 x20 x21 x22 x23 x24 x25,
    Ideal.maximumf_def, Ideal.ofBits_def, Ideal.ofBits_zero_f32]
  rfl

end Cert.ReferenceIdeal.RefValue

end
-- ==== Proof.Ref.Value.lean ====
import proofs.«109581_g76012331204772_cont_9to1_m_125_6_alg».proof.Proof.RefGen
import proofs.«109581_g76012331204772_cont_9to1_m_125_6_alg».proof.Proof.Ref.L4

noncomputable section

open scoped BigOperators

namespace Cert.ReferenceIdeal.RefValue

open Cert.ReferenceIdeal Idealize.ShloMosaic Idealize.ShloMosaic.ValueIdx

local notation "𝕍[" S "]" => BufTy.Contents (Elt Ideal) (BufTy.mk S EltTy.f32)

variable (x0 : 𝕍[S2048x128]) (x1 : 𝕍[S4096x16]) (x2 : 𝕍[S4096x4096]) (x3 : 𝕍[S2048x2048]) (x4 : 𝕍[S2048x4096]) (x5 : 𝕍[S128x128]) (x6 : 𝕍[S1x16]) (x7 : 𝕍[S128]) (x8 : 𝕍[S128x128]) (x9 : 𝕍[S128]) (x10 : 𝕍[S128]) (x11 : 𝕍[S16x16]) (x12 : 𝕍[S1x256]) (x13 : 𝕍[S16]) (x14 : 𝕍[S16x16]) (x15 : 𝕍[S16]) (x16 : 𝕍[S16]) (x17 : 𝕍[S256x128]) (x18 : 𝕍[S1x32]) (x19 : 𝕍[S128]) (x20 : 𝕍[S32x16]) (x21 : 𝕍[S1x128]) (x22 : 𝕍[S16]) (x23 : 𝕍[S128x64]) (x24 : 𝕍[S1x16]) (x25 : 𝕍[S64])

local notation "𝔸" => argsOf x0 x1 x2 x3 x4 x5 x6 x7 x8 x9 x10 x11 x12 x13 x14 x15 x16 x17 x18 x19 x20 x21 x22 x23 x24 x25

open Cert.Spec in

theorem d5_stage (j : Fin 4096) :
    Read.val_main_v160 (F := Ideal) x0 x1 x2 x3 x4 x5 x6 x7 x8 x9 x10 x11 x12 x13 x14 x15 x16 x17 x18 x19 x20 x21 x22 x24 (ix1 j) = dvec (Cert.Spec.Z4 𝔸) (row x24) j := by
  have e1 : ∀ k : Fin 16, Read.lidx_main_v159 (Read.idx_main_v160 (ix1 j)) k = ix2 j k := fun k =>
    funext fun a => Fin.ext (by match a with | ⟨0, _⟩ => exact Nat.div_one _ | ⟨1, _⟩ => rfl)
  have e2 : ∀ k : Fin 16, Read.idx_main_v158 (Read.ridx_main_v159 (Read.idx_main_v160 (ix1 j)) k) = ix2 0 k := fun k =>
    funext fun a => Fin.ext (by match a with | ⟨0, _⟩ => rfl | ⟨1, _⟩ => rfl)
  rw [Read.val_main_v160_apply, Read.val_main_v159_apply]
  simp only [Read.val_main_v158_apply, e1, e2, Z4_eq x0 x1 x2 x3 x4 x5 x6 x7 x8 x9 x10 x11 x12 x13 x14 x15 x16 x17 x18 x19 x20 x21 x22 x23 x24 x25]
  rfl

open Cert.Spec in

theorem mult5_stage (r c : Fin 2048) :
    Read.val_main_v165 (F := Ideal) x0 x1 x2 x3 x4 x5 x6 x7 x8 x9 x10 x11 x12 x13 x14 x15 x16 x17 x18 x19 x20 x21 x22 x24 (ix2 r c) = mult (m2 x4) (dvec (Cert.Spec.Z4 𝔸) (row x24)) r c := by
  have el : ∀ k : Fin 4096, Read.lidx_main_v165 (ix2 r c) k = ix2 r k := fun k =>
    funext fun a => Fin.ext (by match a with | ⟨0, _⟩ => rfl | ⟨1, _⟩ => rfl)
  have er : ∀ k : Fin 4096, Read.idx_main_v164 (Read.ridx_main_v165 (ix2 r c) k) = ix2 c k := fun k =>
    funext fun a => Fin.ext (by match a with | ⟨0, _⟩ => rfl | ⟨1, _⟩ => rfl)
  have ed : ∀ k : Fin 4096, Read.idx_main_v161 (Read.idx_main_v162 (ix2 r k)) = ix1 k := fun k =>
    funext fun a => Fin.ext (by match a with | ⟨0, _⟩ => rfl)
  rw [Read.val_main_v165_apply]
  simp only [el, Read.val_main_v163_apply, Read.val_main_v162_apply, Read.val_main_v161_apply, Read.val_main_v164_apply, er, ed,
    d5_stage x0 x1 x2 x3 x4 x5 x6 x7 x8 x9 x10 x11 x12 x13 x14 x15 x16 x17 x18 x19 x20 x21 x22 x23 x24 x25, Ideal.mulf_def]
  rfl

theorem mask5_stage (r c : Fin 2048) :
    Read.val_main_v171 (F := Ideal) (ix2 r c) = if r = c then (1 : EReal) else 0 := by
  rw [Read.val_main_v171_apply, Read.val_main_v170_apply, Read.val_main_v169_apply, Read.val_main_v168_apply,
    Read.val_main_c_16_apply, Read.val_main_v167_apply, Read.val_main_v166_apply]
  exact mask_val (by norm_num) r c

theorem one5_stage (i : S2048x2048.Idx) : Read.val_main_v172 (F := Ideal) i = 1 := by
  rw [Read.val_main_v172_apply, Read.val_main_cst_17_apply, Ideal.ofBits_def, one_bits]

open Cert.Spec in

theorem coef5_stage (r c : Fin 2048) :
    Read.val_main_v176 (F := Ideal) x0 x1 x2 x3 x4 x5 x6 x7 x8 x9 x10 x11 x12 x13 x14 x15 x16 x17 x18 x19 x20 x21 x22 x24 (ix2 r c) = coef (m2 x4) (dvec (Cert.Spec.Z4 𝔸) (row x24)) (m2 x3) r c := by
  rw [Read.val_main_v176_apply, Read.val_main_v175_apply, Read.val_main_v174_apply, Read.val_main_v173_apply,
    mask5_stage, one5_stage, mult5_stage x0 x1 x2 x3 x4 x5 x6 x7 x8 x9 x10 x11 x12 x13 x14 x15 x16 x17 x18 x19 x20 x21 x22 x23 x24 x25]
  simp only [Ideal.mulf_def, Ideal.addf_def, Ideal.subf_def]
  rw [mask_coef]
  rfl

open Cert.Spec in

theorem HW5_stage (r : Fin 2048) (f : Fin 64) :
    Read.val_main_v177 (F := Ideal) x0 x1 x2 x3 x4 x5 x6 x7 x8 x9 x10 x11 x12 x13 x14 x15 x16 x17 x18 x19 x23 (ix2 r f) = mm (Cert.Spec.X3 𝔸) (m2 x23) r f := by
  have el : ∀ k : Fin 128, Read.lidx_main_v177 (ix2 r f) k = ix2 r k := fun k =>
    funext fun a => Fin.ext (by match a with | ⟨0, _⟩ => rfl | ⟨1, _⟩ => rfl)
  have er : ∀ k : Fin 128, Read.ridx_main_v177 (ix2 r f) k = ix2 k f := fun k =>
    funext fun a => Fin.ext (by match a with | ⟨0, _⟩ => rfl | ⟨1, _⟩ => rfl)
  rw [Read.val_main_v177_apply]
  simp only [el, er, X3relu_eq x0 x1 x2 x3 x4 x5 x6 x7 x8 x9 x10 x11 x12 x13 x14 x15 x16 x17 x18 x19 x20 x21 x22 x23 x24 x25]
  rfl

open Cert.Spec in

theorem gc5_stage (r : Fin 2048) (f : Fin 64) :
    Read.val_main_v181 (F := Ideal) x0 x1 x2 x3 x4 x5 x6 x7 x8 x9 x10 x11 x12 x13 x14 x15 x16 x17 x18 x19 x20 x21 x22 x23 x24 x25 (ix2 r f)
      = gc (m2 x4) (dvec (Cert.Spec.Z4 𝔸) (row x24)) (m2 x3) (mm (Cert.Spec.X3 𝔸) (m2 x23)) (m1 x25) r f := by
  have el : ∀ k : Fin 2048, Read.lidx_main_v178 (ix2 r f) k = ix2 r k := fun k =>
    funext fun a => Fin.ext (by match a with | ⟨0, _⟩ => rfl | ⟨1, _⟩ => rfl)
  have er : ∀ k : Fin 2048, Read.ridx_main_v178 (ix2 r f) k = ix2 k f := fun k =>
    funext fun a => Fin.ext (by match a with | ⟨0, _⟩ => rfl | ⟨1, _⟩ => rfl)
  have eb : Read.idx_main_v179 (Read.idx_main_v180 (ix2 r f)) = ix1 f :=
    funext fun a => Fin.ext (by match a with | ⟨0, _⟩ => rfl)
  rw [Read.val_main_v181_apply, Read.val_main_v178_apply, Read.val_main_v180_apply, Read.val_main_v179_apply]
  simp only [el, er, eb, coef5_stage x0 x1 x2 x3 x4 x5 x6 x7 x8 x9 x10 x11 x12 x13 x14 x15 x16 x17 x18 x19 x20 x21 x22 x23 x24 x25, HW5_stage x0 x1 x2 x3 x4 x5 x6 x7 x8 x9 x10 x11 x12 x13 x14 x15 x16 x17 x18 x19 x20 x21 x22 x23 x24 x25, Ideal.addf_def]
  rfl

theorem result_spec (n : Fin 2048) (f : Fin 64) :
    Read.val_main_v181 (F := Ideal) x0 x1 x2 x3 x4 x5 x6 x7 x8 x9 x10 x11 x12 x13 x14 x15 x16 x17 x18 x19 x20 x21 x22 x23 x24 x25 (ix2 n f) = Cert.Spec.X5 𝔸 n f := by
  rw [gc5_stage x0 x1 x2 x3 x4 x5 x6 x7 x8 x9 x10 x11 x12 x13 x14 x15 x16 x17 x18 x19 x20 x21 x22 x23 x24 x25]
  rfl

end Cert.ReferenceIdeal.RefValue

end
-- ==== Proof.Ref.Final.lean ====
import proofs.«109581_g76012331204772_cont_9to1_m_125_6_alg».proof.Proof.RefGen
import proofs.«109581_g76012331204772_cont_9to1_m_125_6_alg».proof.Proof.Ref.Value

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

def argsR (m' : (ℓ : Loc nD τ sig) → Buf (Elt Ideal) ℓ) (c : Dev nD) : Cert.Spec.Args :=
  argsOf (m' ((c.tc : Thread nD τ).loc main_arg0))
    (m' ((c.tc : Thread nD τ).loc main_arg1))
    (m' ((c.tc : Thread nD τ).loc main_arg2))
    (m' ((c.tc : Thread nD τ).loc main_arg3))
    (m' ((c.tc : Thread nD τ).loc main_arg4))
    (m' ((c.tc : Thread nD τ).loc main_arg5))
    (m' ((c.tc : Thread nD τ).loc main_arg6))
    (m' ((c.tc : Thread nD τ).loc main_arg7))
    (m' ((c.tc : Thread nD τ).loc main_arg8))
    (m' ((c.tc : Thread nD τ).loc main_arg9))
    (m' ((c.tc : Thread nD τ).loc main_arg10))
    (m' ((c.tc : Thread nD τ).loc main_arg11))
    (m' ((c.tc : Thread nD τ).loc main_arg12))
    (m' ((c.tc : Thread nD τ).loc main_arg13))
    (m' ((c.tc : Thread nD τ).loc main_arg14))
    (m' ((c.tc : Thread nD τ).loc main_arg15))
    (m' ((c.tc : Thread nD τ).loc main_arg16))
    (m' ((c.tc : Thread nD τ).loc main_arg17))
    (m' ((c.tc : Thread nD τ).loc main_arg18))
    (m' ((c.tc : Thread nD τ).loc main_arg19))
    (m' ((c.tc : Thread nD τ).loc main_arg20))
    (m' ((c.tc : Thread nD τ).loc main_arg21))
    (m' ((c.tc : Thread nD τ).loc main_arg22))
    (m' ((c.tc : Thread nD τ).loc main_arg23))
    (m' ((c.tc : Thread nD τ).loc main_arg24))
    (m' ((c.tc : Thread nD τ).loc main_arg25))

theorem result_fun (m' : (ℓ : Loc nD τ sig) → Buf (Elt Ideal) ℓ) (c : Dev nD) :
    Cert.ReferenceIdeal.Value.res_main_v181 (F := Ideal) m' c
      = (fun i : S2048x64.Idx => Cert.Spec.X5 (argsR m' c) (i 0) (i 1)) := by
  funext i
  obtain ⟨a, b, rfl⟩ : ∃ (a : Fin 2048) (b : Fin 64), i = ix2 a b := ⟨i 0, i 1, eq_ix2 i⟩
  rw [Read.val_main_v181_eq]
  exact result_spec _ _ _ _ _ _ _ _ _ _ _ _ _ _ _ _ _ _ _ _ _ _ _ _ _ _ a b

theorem ref_run (m' : (ℓ : Loc nD τ sig) → Buf (Elt Ideal) ℓ) (ρ' : Dev nD → PrngReg) :
    θ_run (Cert.ReferenceIdeal.defs (F := Ideal)) (onTc (τ := τ) (main (F := Ideal))) ⟨m', fun _ => 0, ρ'⟩ (fun r => ∀ c : Dev nD,
      r.2.mem ((c.tc : Thread nD τ).loc main_v181) = (fun i : S2048x64.Idx => Cert.Spec.X5 (argsR m' c) (i 0) (i 1))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22)
      ∧ r.2.mem ((c.tc : Thread nD τ).loc main_arg23) = m' ((c.tc : Thread nD τ).loc main_arg23)
      ∧ r.2.mem ((c.tc : Thread nD τ).loc main_arg24) = m' ((c.tc : Thread nD τ).loc main_arg24)
      ∧ r.2.mem ((c.tc : Thread nD τ).loc main_arg25) = m' ((c.tc : Thread nD τ).loc main_arg25)) :=
  (θ_run Cert.ReferenceIdeal.defs _ _).mono (fun _ h c => ⟨(h c).1.trans (result_fun m' c), (h c).2⟩)
    (Cert.ReferenceIdeal.Value.run (F := Ideal) m' ρ')

end Cert.ReferenceIdeal.RefValue

end
-- ==== Proof.Claims.lean ====
import proofs.«109581_g76012331204772_cont_9to1_m_125_6_alg».proof.Defs
import proofs.«109581_g76012331204772_cont_9to1_m_125_6_alg».proof.Proof.Gen.Kernel
import proofs.«109581_g76012331204772_cont_9to1_m_125_6_alg».proof.Proof.Gen.KernelIdeal
import proofs.«109581_g76012331204772_cont_9to1_m_125_6_alg».proof.Proof.Gen.ReferenceIdeal
import proofs.«109581_g76012331204772_cont_9to1_m_125_6_alg».proof.Proof.Gen.Pre_finite_inputs
import proofs.«109581_g76012331204772_cont_9to1_m_125_6_alg».proof.Proof.K.Run
import proofs.«109581_g76012331204772_cont_9to1_m_125_6_alg».proof.Proof.KI.Run
import proofs.«109581_g76012331204772_cont_9to1_m_125_6_alg».proof.Proof.KI.Chain2
import proofs.«109581_g76012331204772_cont_9to1_m_125_6_alg».proof.Proof.Ref.Final
import Idealize.ShloMosaic.Lib.ValueIdx

noncomputable section

open Idealize.ShloMosaic Idealize.ShloMosaic.TcCoe Idealize.SL.Sem Idealize.ShloMosaic.ValueIdx

namespace Cert.Proof.Claims

theorem frame_k : Cert.frame_Kernel := fun m ρ _ =>
  (θ_run Cert.Kernel.defs _ _).mono (fun r h c => by
    refine ⟨?_, ?_, ?_, ?_, ?_, ?_, ?_, ?_, ?_, ?_, ?_, ?_, ?_, ?_, ?_, ?_, ?_, ?_, ?_, ?_, ?_, ?_, ?_, ?_, ?_, ?_⟩ <;>
      exact Cert.Kernel.Hand.arg_kept m ρ c (h c) _ (by decide) (by decide)) (Cert.Kernel.Hand.run m ρ)

theorem frame_ki : Cert.frame_KernelIdeal := fun m ρ _ =>
  (θ_run Cert.KernelIdeal.defs _ _).mono (fun r h c => by
    refine ⟨?_, ?_, ?_, ?_, ?_, ?_, ?_, ?_, ?_, ?_, ?_, ?_, ?_, ?_, ?_, ?_, ?_, ?_, ?_, ?_, ?_, ?_, ?_, ?_, ?_, ?_⟩ <;>
      exact Cert.KernelIdeal.Hand.arg_kept m ρ c (h c) _ (by decide) (by decide)) (Cert.KernelIdeal.Hand.run m ρ)

theorem frame_ri : Cert.frame_ReferenceIdeal := fun m ρ _ =>
  (θ_run Cert.ReferenceIdeal.defs _ _).mono (fun _ h c => (h c).2) (Cert.ReferenceIdeal.RefValue.ref_run m ρ)

theorem preserves : Cert.preserves_Kernel_KernelIdeal := trivial

theorem algebraic : Cert.algebraic_KernelIdeal_ReferenceIdeal := by
  intro m ρ m' ρ' _ hagree
  refine ⟨fun c => Cert.KernelIdeal.Hand.W18 m ρ c (Proc.devRef .tc Cert.KernelIdeal.main_v21),
    (θ_run Cert.KernelIdeal.defs _ _).mono (fun r h c => ⟨h c _ (Cert.KernelIdeal.Hand.mem_uc Cert.KernelIdeal.main_v21 (by decide)), by
      refine ⟨?_, ?_, ?_, ?_, ?_, ?_, ?_, ?_, ?_, ?_, ?_, ?_, ?_, ?_, ?_, ?_, ?_, ?_, ?_, ?_, ?_, ?_, ?_, ?_, ?_, ?_⟩ <;>
        exact Cert.KernelIdeal.Hand.arg_kept m ρ c (h c) _ (by decide) (by decide)⟩) (Cert.KernelIdeal.Hand.run m ρ), ?_⟩
  refine (θ_run Cert.ReferenceIdeal.defs _ _).mono (fun _ h c => ⟨(h c).1.trans ?_, (h c).2⟩) (Cert.ReferenceIdeal.RefValue.ref_run m' ρ')
  have args_agree : Cert.ReferenceIdeal.RefValue.argsR m' c = Cert.KernelIdeal.HandVal.argsK m c := by
    obtain ⟨h0, h1, h2, h3, h4, h5, h6, h7, h8, h9, h10, h11, h12, h13, h14, h15, h16, h17, h18, h19, h20, h21, h22, h23, h24, h25⟩ := hagree c
    unfold Cert.ReferenceIdeal.RefValue.argsR
    rw [h0, h1, h2, h3, h4, h5, h6, h7, h8, h9, h10, h11, h12, h13, h14, h15, h16, h17, h18, h19, h20, h21, h22, h23, h24, h25]
    rfl
  rw [args_agree]
  funext i
  obtain ⟨n, f, rfl⟩ : ∃ (n : Fin 2048) (f : Fin 64), i = ix2 n f := ⟨i 0, i 1, eq_ix2 i⟩
  exact (Cert.KernelIdeal.HandVal.chain_result m ρ c n f).symm

end Cert.Proof.Claims

end
-- ==== Proof.lean ====
import proofs.«109581_g76012331204772_cont_9to1_m_125_6_alg».proof.Defs
import proofs.«109581_g76012331204772_cont_9to1_m_125_6_alg».proof.Proof.Gen.Kernel
import proofs.«109581_g76012331204772_cont_9to1_m_125_6_alg».proof.Proof.Gen.KernelIdeal
import proofs.«109581_g76012331204772_cont_9to1_m_125_6_alg».proof.Proof.Gen.ReferenceIdeal
import proofs.«109581_g76012331204772_cont_9to1_m_125_6_alg».proof.Proof.Gen.Pre_finite_inputs
import proofs.«109581_g76012331204772_cont_9to1_m_125_6_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
